-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x16 : Shape := ⟨2, ![1600000, 16]⟩
abbrev S100000 : Shape := ⟨1, ![100000]⟩
abbrev S32x16 : Shape := ⟨2, ![32, 16]⟩
abbrev S32 : Shape := ⟨1, ![32]⟩
abbrev S64x32 : Shape := ⟨2, ![64, 32]⟩
abbrev S64 : Shape := ⟨1, ![64]⟩
abbrev S64x64 : Shape := ⟨2, ![64, 64]⟩
abbrev S3x64x16 : Shape := ⟨3, ![3, 64, 16]⟩
abbrev S3x64 : Shape := ⟨2, ![3, 64]⟩
abbrev S3x64x64 : Shape := ⟨3, ![3, 64, 64]⟩
abbrev S4x64 : Shape := ⟨2, ![4, 64]⟩
abbrev S128x64 : Shape := ⟨2, ![128, 64]⟩
abbrev S128 : Shape := ⟨1, ![128]⟩
abbrev S10x128 : Shape := ⟨2, ![10, 128]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x16 : S_.BroadcastsInDim S3x64x16 (![] : Fin 0 → Fin S3x64x16.rank)
  reducesTo_S3x64x16_S_d0_1_2 : S3x64x16.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S4x64 : S_.BroadcastsInDim S4x64 (![] : Fin 0 → Fin S4x64.rank)
  reducesTo_S4x64_S_d0_1 : S4x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_arg1 : IVec S2x1600000 32) (main_v98 : IVec S_ 1) (main_v102 : IVec S1600000 1) : IVec S_ 1 :=
  let main_v103 : IVec S1x1600000 32 := (extractStridedSlice S1x1600000 ![0, 0] · slices_S2x1600000_S1x1600000_0_0) main_arg1
  let main_v104 : IVec S1600000 32 := shapeCast S1600000 main_v103 shapeCasts_S1x1600000_S1600000
  let main_c_39 : IVec S_ 32 := constantI S_ 32 100000#32
  let main_v105 : IVec S1600000 32 := broadcastInDim S1600000 ![] bcast_S_S1600000 main_c_39
  let main_v106 : IVec S1600000 1 := cmpi .slt main_v104 main_v105
  let main_v107 : IVec S1600000 1 := andi main_v102 main_v106
  let main_c_40 : IVec S_ 1 := constantI S_ 1 1#1
  let main_v108 : IVec S_ 1 := (fun x v => Host.reduce IntOp.andi x v reducesTo_S1600000_S_d0 h_S_) main_v107 main_c_40
  let main_v109 : IVec S_ 1 := andi main_v98 main_v108
  main_v109

def fn_part5 {F : FTy → Type} [FloatOps F] (main_arg1 : IVec S2x1600000 32) (main_arg20 : FVec F S10x128 .f32) (main_arg21 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S10x128 .f32 := Host.absf main_arg20
  let main_cst_34 : FVec F S_ .f32 := constant S_ .f32 0x7F800000#32
  let main_v90 : FVec F S10x128 .f32 := broadcastInDim S10x128 ![] bcast_S_S10x128 main_cst_34
  let main_v91 : IVec S10x128 1 := cmpf .olt main_v89 main_v90
  let main_c_35 : IVec S_ 1 := constantI S_ 1 1#1
  let main_v92 : IVec S_ 1 := (fun x v => Host.reduce IntOp.andi x v reducesTo_S10x128_S_d0_1 h_S_) main_v91 main_c_35
  let main_v93 : IVec S_ 1 := andi main_v88 main_v92
  let main_v94 : FVec F S10 .f32 := Host.absf main_arg21
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : IVec S1x1600000 32 := (extractStridedSlice S1x1600000 ![0, 0] · slices_S2x1600000_S1x1600000_0_0) main_arg1
  let main_v100 : IVec S1600000 32 := shapeCast S1600000 main_v99 shapeCasts_S1x1600000_S1600000
  let main_c_38 : IVec S_ 32 := constantI S_ 32 0#32
  let main_v101 : IVec S1600000 32 := broadcastInDim S1600000 ![] bcast_S_S1600000 main_c_38
  let main_v102 : IVec S1600000 1 := cmpi .sge main_v100 main_v101
  fn_part6 (F := F) main_arg1 main_v98 main_v102

def fn_part4 {F : FTy → Type} [FloatOps F] (main_arg1 : IVec S2x1600000 32) (main_arg16 : FVec F S4x64 .f32) (main_arg17 : FVec F S4x64 .f32) (main_arg18 : FVec F S128x64 .f32) (main_arg19 : FVec F S128 .f32) (main_arg20 : FVec F S10x128 .f32) (main_arg21 : FVec F S10 .f32) (main_v63 : IVec S_ 1) (main_v67 : IVec S_ 1) : IVec S_ 1 :=
  let main_v68 : IVec S_ 1 := andi main_v63 main_v67
  let main_v69 : FVec F S4x64 .f32 := Host.absf main_arg16
  let main_cst_26 : FVec F S_ .f32 := constant S_ .f32 0x7F800000#32
  let main_v70 : FVec F S4x64 .f32 := broadcastInDim S4x64 ![] bcast_S_S4x64 main_cst_26
  let main_v71 : IVec S4x64 1 := cmpf .olt main_v69 main_v70
  let main_c_27 : IVec S_ 1 := constantI S_ 1 1#1
  let main_v72 : IVec S_ 1 := (fun x v => Host.reduce IntOp.andi x v reducesTo_S4x64_S_d0_1 h_S_) main_v71 main_c_27
  let main_v73 : IVec S_ 1 := andi main_v68 main_v72
  let main_v74 : FVec F S4x64 .f32 := Host.absf main_arg17
  let main_cst_28 : FVec F S_ .f32 := constant S_ .f32 0x7F800000#32
  let main_v75 : FVec F S4x64 .f32 := broadcastInDim S4x64 ![] bcast_S_S4x64 main_cst_28
  let main_v76 : IVec S4x64 1 := cmpf .olt main_v74 main_v75
  let main_c_29 : IVec S_ 1 := constantI S_ 1 1#1
  let main_v77 : IVec S_ 1 := (fun x v => Host.reduce IntOp.andi x v reducesTo_S4x64_S_d0_1 h_S_) main_v76 main_c_29
  let main_v78 : IVec S_ 1 := andi main_v73 main_v77
  let main_v79 : FVec F S128x64 .f32 := Host.absf main_arg18
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg1 main_arg20 main_arg21 main_v83 main_v84 main_cst_32

def fn_part3 {F : FTy → Type} [FloatOps F] (main_arg1 : IVec S2x1600000 32) (main_arg13 : FVec F S3x64 .f32) (main_arg14 : FVec F S3x64x64 .f32) (main_arg15 : FVec F S3x64 .f32) (main_arg16 : FVec F S4x64 .f32) (main_arg17 : FVec F S4x64 .f32) (main_arg18 : FVec F S128x64 .f32) (main_arg19 : FVec F S128 .f32) (main_arg20 : FVec F S10x128 .f32) (main_arg21 : FVec F S10 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64x64 .f32 := Host.absf main_arg14
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S3x64 .f32 := Host.absf main_arg15
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg1 main_arg16 main_arg17 main_arg18 main_arg19 main_arg20 main_arg21 main_v63 main_v67

def fn_part2 {F : FTy → Type} [FloatOps F] (main_arg1 : IVec S2x1600000 32) (main_arg9 : FVec F S64 .f32) (main_arg10 : FVec F S3x64x16 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S4x64 .f32) (main_arg17 : FVec F S4x64 .f32) (main_arg18 : FVec F S128x64 .f32) (main_arg19 : FVec F S128 .f32) (main_arg20 : FVec F S10x128 .f32) (main_arg21 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x64x16 .f32 := Host.absf main_arg10
  let main_cst_14 : FVec F S_ .f32 := constant S_ .f32 0x7F800000#32
  let main_v40 : FVec F S3x64x16 .f32 := broadcastInDim S3x64x16 ![] bcast_S_S3x64x16 main_cst_14
  let main_v41 : IVec S3x64x16 1 := cmpf .olt main_v39 main_v40
  let main_c_15 : IVec S_ 1 := constantI S_ 1 1#1
  let main_v42 : IVec S_ 1 := (fun x v => Host.reduce IntOp.andi x v reducesTo_S3x64x16_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64x64 .f32 := Host.absf main_arg12
  let main_cst_18 : FVec F S_ .f32 := constant S_ .f32 0x7F800000#32
  let main_v50 : FVec F S3x64x64 .f32 := broadcastInDim S3x64x64 ![] bcast_S_S3x64x64 main_cst_18
  fn_part3 (F := F) main_arg1 main_arg13 main_arg14 main_arg15 main_arg16 main_arg17 main_arg18 main_arg19 main_arg20 main_arg21 main_v48 main_v49 main_v50

def fn_part1 {F : FTy → Type} [FloatOps F] (main_arg1 : IVec S2x1600000 32) (main_arg6 : FVec F S64x32 .f32) (main_arg7 : FVec F S64 .f32) (main_arg8 : FVec F S64x64 .f32) (main_arg9 : FVec F S64 .f32) (main_arg10 : FVec F S3x64x16 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S4x64 .f32) (main_arg17 : FVec F S4x64 .f32) (main_arg18 : FVec F S128x64 .f32) (main_arg19 : FVec F S128 .f32) (main_arg20 : FVec F S10x128 .f32) (main_arg21 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_v33

def fn {F : FTy → Type} [FloatOps F] (main_arg0 : FVec F S100000x32 .f32) (main_arg1 : IVec S2x1600000 32) (main_arg2 : FVec F S1600000x16 .f32) (main_arg3 : IVec S100000 32) (main_arg4 : FVec F S32x16 .f32) (main_arg5 : FVec F S32 .f32) (main_arg6 : FVec F S64x32 .f32) (main_arg7 : FVec F S64 .f32) (main_arg8 : FVec F S64x64 .f32) (main_arg9 : FVec F S64 .f32) (main_arg10 : FVec F S3x64x16 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S4x64 .f32) (main_arg17 : FVec F S4x64 .f32) (main_arg18 : FVec F S128x64 .f32) (main_arg19 : FVec F S128 .f32) (main_arg20 : FVec F S10x128 .f32) (main_arg21 : FVec F S10 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S32x16 .f32 := Host.absf main_arg4
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x32 : Shape := ⟨2, ![100000, 32]⟩
abbrev S2x1600000 : Shape := ⟨2, ![2, 1600000]⟩
abbrev S1600000x16 : Shape := ⟨2, ![1600000, 16]⟩
abbrev S100000 : Shape := ⟨1, ![100000]⟩
abbrev S32x16 : Shape := ⟨2, ![32, 16]⟩
abbrev S32 : Shape := ⟨1, ![32]⟩
abbrev S64x32 : Shape := ⟨2, ![64, 32]⟩
abbrev S64 : Shape := ⟨1, ![64]⟩
abbrev S64x64 : Shape := ⟨2, ![64, 64]⟩
abbrev S3x64x16 : Shape := ⟨3, ![3, 64, 16]⟩
abbrev S3x64 : Shape := ⟨2, ![3, 64]⟩
abbrev S3x64x64 : Shape := ⟨3, ![3, 64, 64]⟩
abbrev S4x64 : Shape := ⟨2, ![4, 64]⟩
abbrev S128x64 : Shape := ⟨2, ![128, 64]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S1x64 : Shape := ⟨2, ![1, 64]⟩
abbrev S16x32 : Shape := ⟨2, ![16, 32]⟩
abbrev S1600000x32 : Shape := ⟨2, ![1600000, 32]⟩
abbrev S1x32 : Shape := ⟨2, ![1, 32]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S100000x64 : Shape := ⟨2, ![100000, 64]⟩
abbrev S10x8x64 : Shape := ⟨3, ![10, 8, 64]⟩
abbrev S10000x32 : Shape := ⟨2, ![10000, 32]⟩
abbrev S10000x64 : Shape := ⟨2, ![10000, 64]⟩
abbrev S1x8x64 : Shape := ⟨3, ![1, 8, 64]⟩
abbrev S32x64 : Shape := ⟨2, ![32, 64]⟩
abbrev S1250x8x64 : Shape := ⟨3, ![1250, 8, 64]⟩
abbrev S8x64 : Shape := ⟨2, ![8, 64]⟩
abbrev S1x64x16 : Shape := ⟨3, ![1, 64, 16]⟩
abbrev S64x16 : Shape := ⟨2, ![64, 16]⟩
abbrev S1x64x64 : Shape := ⟨3, ![1, 64, 64]⟩
abbrev S16x64 : Shape := ⟨2, ![16, 64]⟩
abbrev S1600000x64 : Shape := ⟨2, ![1600000, 64]⟩
abbrev S100000x1 : Shape := ⟨2, ![100000, 1]⟩
abbrev S128x1 : Shape := ⟨2, ![128, 1]⟩
abbrev S64x128 : Shape := ⟨2, ![64, 128]⟩
abbrev S128x128 : Shape := ⟨2, ![128, 128]⟩
abbrev S1x128 : Shape := ⟨2, ![1, 128]⟩
abbrev S128x10 : Shape := ⟨2, ![128, 10]⟩
abbrev S1x10 : Shape := ⟨2, ![1, 10]⟩

abbrev nBuf : Space → Nat
  | .hbm => 367
  | .vmem => 88
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S100000, .i32⟩
  | 4 => ⟨S32x16, .f32⟩
  | 5 => ⟨S32, .f32⟩
  | 6 => ⟨S64x32, .f32⟩
  | 7 => ⟨S64, .f32⟩
  | 8 => ⟨S64x64, .f32⟩
  | 9 => ⟨S64, .f32⟩
  | 10 => ⟨S3x64x16, .f32⟩
  | 11 => ⟨S3x64, .f32⟩
  | 12 => ⟨S3x64x64, .f32⟩
  | 13 => ⟨S3x64, .f32⟩
  | 14 => ⟨S3x64x64, .f32⟩
  | 15 => ⟨S3x64, .f32⟩
  | 16 => ⟨S4x64, .f32⟩
  | 17 => ⟨S4x64, .f32⟩
  | 18 => ⟨S128x64, .f32⟩
  | 19 => ⟨S128, .f32⟩
  | 20 => ⟨S10x128, .f32⟩
  | 21 => ⟨S10, .f32⟩
  | 22 => ⟨S1x1600000, .i32⟩
  | 23 => ⟨S1600000, .i32⟩
  | 24 => ⟨S1x1600000, .i32⟩
  | 25 => ⟨S1600000, .i32⟩
  | 26 => ⟨S1x64, .f32⟩
  | 27 => ⟨S64, .f32⟩
  | 28 => ⟨S1x64, .f32⟩
  | 29 => ⟨S64, .f32⟩
  | 30 => ⟨S16x32, .f32⟩
  | 31 => ⟨S1600000x32, .f32⟩
  | 32 => ⟨S1x32, .f32⟩
  | 33 => ⟨S1600000x32, .f32⟩
  | 34 => ⟨S1600000x32, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1, .i32⟩
  | 44 => ⟨S_, .i32⟩
  | 45 => ⟨S1600000x1, .i32⟩
  | 46 => ⟨S1600000x1, .i1⟩
  | 47 => ⟨S1x1, .i32⟩
  | 48 => ⟨S1600000x1, .i32⟩
  | 49 => ⟨S1600000x1, .i1⟩
  | 50 => ⟨S1600000x1, .i1⟩
  | 51 => ⟨S_, .i1⟩
  | 52 => ⟨S1600000, .i1⟩
  | 53 => ⟨S1600000x32, .f32⟩
  | 54 => ⟨S1600000x32, .i1⟩
  | 55 => ⟨S_, .f32⟩
  | 56 => ⟨S1600000x32, .f32⟩
  | 57 => ⟨S1600000x32, .f32⟩
  | 58 => ⟨S1600000x32, .f32⟩
  | 59 => ⟨S_, .f32⟩
  | 60 => ⟨S1600000x32, .f32⟩
  | 61 => ⟨S1600000x32, .f32⟩
  | 62 => ⟨S_, .f32⟩
  | 63 => ⟨S100000x32, .f32⟩
  | 64 => ⟨S1600000x1, .i32⟩
  | 65 => ⟨S100000x32, .f32⟩
  | 66 => ⟨S1x64, .f32⟩
  | 67 => ⟨S1x64, .f32⟩
  | 68 => ⟨S100000x64, .f32⟩
  | 69 => ⟨S10x8x64, .f32⟩
  | 70 => ⟨S10x8x64, .f32⟩
  | 71 => ⟨S_, .f32⟩
  | 72 => ⟨S64, .f32⟩
  | 73 => ⟨S_, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S64, .f32⟩
  | 82 => ⟨S64, .f32⟩
  | 83 => ⟨S_, .f32⟩
  | 84 => ⟨S64, .f32⟩
  | 85 => ⟨S64, .f32⟩
  | 86 => ⟨S_, .f32⟩
  | 87 => ⟨S64, .f32⟩
  | 88 => ⟨S64, .f32⟩
  | 89 => ⟨S64, .f32⟩
  | 90 => ⟨S1x64, .f32⟩
  | 91 => ⟨S1x64, .f32⟩
  | 92 => ⟨S1x64, .f32⟩
  | 93 => ⟨S1x64, .f32⟩
  | 94 => ⟨S100000x64, .f32⟩
  | 95 => ⟨S1x64x16, .f32⟩
  | 96 => ⟨S64x16, .f32⟩
  | 97 => ⟨S1x64, .f32⟩
  | 98 => ⟨S64, .f32⟩
  | 99 => ⟨S1x64x64, .f32⟩
  | 100 => ⟨S64x64, .f32⟩
  | 101 => ⟨S1x64, .f32⟩
  | 102 => ⟨S64, .f32⟩
  | 103 => ⟨S1x64x64, .f32⟩
  | 104 => ⟨S64x64, .f32⟩
  | 105 => ⟨S1x64, .f32⟩
  | 106 => ⟨S64, .f32⟩
  | 107 => ⟨S1x64, .f32⟩
  | 108 => ⟨S64, .f32⟩
  | 109 => ⟨S1x64, .f32⟩
  | 110 => ⟨S64, .f32⟩
  | 111 => ⟨S16x64, .f32⟩
  | 112 => ⟨S1600000x64, .f32⟩
  | 113 => ⟨S1x64, .f32⟩
  | 114 => ⟨S1600000x64, .f32⟩
  | 115 => ⟨S1600000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1, .i32⟩
  | 125 => ⟨S_, .i32⟩
  | 126 => ⟨S1600000x1, .i32⟩
  | 127 => ⟨S1600000x1, .i1⟩
  | _ => ⟨S100000x32, .f32⟩

abbrev hbmTy0_1 (i : Nat) : BufTy := match i % 128 with
  | 0 => ⟨S1x1, .i32⟩
  | 1 => ⟨S1600000x1, .i32⟩
  | 2 => ⟨S1600000x1, .i1⟩
  | 3 => ⟨S1600000x1, .i1⟩
  | 4 => ⟨S_, .i1⟩
  | 5 => ⟨S1600000, .i1⟩
  | 6 => ⟨S1600000x64, .f32⟩
  | 7 => ⟨S1600000x64, .i1⟩
  | 8 => ⟨S_, .f32⟩
  | 9 => ⟨S1600000x64, .f32⟩
  | 10 => ⟨S1600000x64, .f32⟩
  | 11 => ⟨S1600000x64, .f32⟩
  | 12 => ⟨S_, .f32⟩
  | 13 => ⟨S1600000x64, .f32⟩
  | 14 => ⟨S1600000x64, .f32⟩
  | 15 => ⟨S_, .f32⟩
  | 16 => ⟨S100000x64, .f32⟩
  | 17 => ⟨S1600000x1, .i32⟩
  | 18 => ⟨S100000x64, .f32⟩
  | 19 => ⟨S1x64, .f32⟩
  | 20 => ⟨S1x64, .f32⟩
  | 21 => ⟨S100000x64, .f32⟩
  | 22 => ⟨S10x8x64, .f32⟩
  | 23 => ⟨S10x8x64, .f32⟩
  | 24 => ⟨S_, .f32⟩
  | 25 => ⟨S64, .f32⟩
  | 26 => ⟨S_, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S64, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S64, .f32⟩
  | 43 => ⟨S1x64, .f32⟩
  | 44 => ⟨S1x64, .f32⟩
  | 45 => ⟨S1x64, .f32⟩
  | 46 => ⟨S1x64, .f32⟩
  | 47 => ⟨S100000x64, .f32⟩
  | 48 => ⟨S1x64x16, .f32⟩
  | 49 => ⟨S64x16, .f32⟩
  | 50 => ⟨S1x64, .f32⟩
  | 51 => ⟨S64, .f32⟩
  | 52 => ⟨S1x64x64, .f32⟩
  | 53 => ⟨S64x64, .f32⟩
  | 54 => ⟨S1x64, .f32⟩
  | 55 => ⟨S64, .f32⟩
  | 56 => ⟨S1x64x64, .f32⟩
  | 57 => ⟨S64x64, .f32⟩
  | 58 => ⟨S1x64, .f32⟩
  | 59 => ⟨S64, .f32⟩
  | 60 => ⟨S1x64, .f32⟩
  | 61 => ⟨S64, .f32⟩
  | 62 => ⟨S1x64, .f32⟩
  | 63 => ⟨S64, .f32⟩
  | 64 => ⟨S16x64, .f32⟩
  | 65 => ⟨S1600000x64, .f32⟩
  | 66 => ⟨S1x64, .f32⟩
  | 67 => ⟨S1600000x64, .f32⟩
  | 68 => ⟨S1600000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1, .i32⟩
  | 78 => ⟨S_, .i32⟩
  | 79 => ⟨S1600000x1, .i32⟩
  | 80 => ⟨S1600000x1, .i1⟩
  | 81 => ⟨S1x1, .i32⟩
  | 82 => ⟨S1600000x1, .i32⟩
  | 83 => ⟨S1600000x1, .i1⟩
  | 84 => ⟨S1600000x1, .i1⟩
  | 85 => ⟨S_, .i1⟩
  | 86 => ⟨S1600000, .i1⟩
  | 87 => ⟨S1600000x64, .f32⟩
  | 88 => ⟨S1600000x64, .i1⟩
  | 89 => ⟨S_, .f32⟩
  | 90 => ⟨S1600000x64, .f32⟩
  | 91 => ⟨S1600000x64, .f32⟩
  | 92 => ⟨S1600000x64, .f32⟩
  | 93 => ⟨S_, .f32⟩
  | 94 => ⟨S1600000x64, .f32⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S1x64, .f32⟩
  | 101 => ⟨S1x64, .f32⟩
  | 102 => ⟨S100000x64, .f32⟩
  | 103 => ⟨S10x8x64, .f32⟩
  | 104 => ⟨S10x8x64, .f32⟩
  | 105 => ⟨S_, .f32⟩
  | 106 => ⟨S64, .f32⟩
  | 107 => ⟨S_, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S64, .f32⟩
  | 116 => ⟨S64, .f32⟩
  | 117 => ⟨S_, .f32⟩
  | 118 => ⟨S64, .f32⟩
  | 119 => ⟨S64, .f32⟩
  | 120 => ⟨S_, .f32⟩
  | 121 => ⟨S64, .f32⟩
  | 122 => ⟨S64, .f32⟩
  | 123 => ⟨S64, .f32⟩
  | 124 => ⟨S1x64, .f32⟩
  | 125 => ⟨S1x64, .f32⟩
  | 126 => ⟨S1x64, .f32⟩
  | 127 => ⟨S1x64, .f32⟩
  | _ => ⟨S100000x32, .f32⟩

abbrev hbmTy0_2 (i : Nat) : BufTy := match i % 128 with
  | 0 => ⟨S100000x64, .f32⟩
  | 1 => ⟨S1x64x16, .f32⟩
  | 2 => ⟨S64x16, .f32⟩
  | 3 => ⟨S1x64, .f32⟩
  | 4 => ⟨S64, .f32⟩
  | 5 => ⟨S1x64x64, .f32⟩
  | 6 => ⟨S64x64, .f32⟩
  | 7 => ⟨S1x64, .f32⟩
  | 8 => ⟨S64, .f32⟩
  | 9 => ⟨S1x64x64, .f32⟩
  | 10 => ⟨S64x64, .f32⟩
  | 11 => ⟨S1x64, .f32⟩
  | 12 => ⟨S64, .f32⟩
  | 13 => ⟨S1x64, .f32⟩
  | 14 => ⟨S64, .f32⟩
  | 15 => ⟨S1x64, .f32⟩
  | 16 => ⟨S64, .f32⟩
  | 17 => ⟨S16x64, .f32⟩
  | 18 => ⟨S1600000x64, .f32⟩
  | 19 => ⟨S1x64, .f32⟩
  | 20 => ⟨S1600000x64, .f32⟩
  | 21 => ⟨S1600000x64, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1, .i32⟩
  | 31 => ⟨S_, .i32⟩
  | 32 => ⟨S1600000x1, .i32⟩
  | 33 => ⟨S1600000x1, .i1⟩
  | 34 => ⟨S1x1, .i32⟩
  | 35 => ⟨S1600000x1, .i32⟩
  | 36 => ⟨S1600000x1, .i1⟩
  | 37 => ⟨S1600000x1, .i1⟩
  | 38 => ⟨S_, .i1⟩
  | 39 => ⟨S1600000, .i1⟩
  | 40 => ⟨S1600000x64, .f32⟩
  | 41 => ⟨S1600000x64, .i1⟩
  | 42 => ⟨S_, .f32⟩
  | 43 => ⟨S1600000x64, .f32⟩
  | 44 => ⟨S1600000x64, .f32⟩
  | 45 => ⟨S1600000x64, .f32⟩
  | 46 => ⟨S_, .f32⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S1x64, .f32⟩
  | 54 => ⟨S1x64, .f32⟩
  | 55 => ⟨S100000x64, .f32⟩
  | 56 => ⟨S10x8x64, .f32⟩
  | 57 => ⟨S10x8x64, .f32⟩
  | 58 => ⟨S_, .f32⟩
  | 59 => ⟨S64, .f32⟩
  | 60 => ⟨S_, .f32⟩
  | 61 => ⟨S64, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S64, .f32⟩
  | 69 => ⟨S64, .f32⟩
  | 70 => ⟨S_, .f32⟩
  | 71 => ⟨S64, .f32⟩
  | 72 => ⟨S64, .f32⟩
  | 73 => ⟨S_, .f32⟩
  | 74 => ⟨S64, .f32⟩
  | 75 => ⟨S64, .f32⟩
  | 76 => ⟨S64, .f32⟩
  | 77 => ⟨S1x64, .f32⟩
  | 78 => ⟨S1x64, .f32⟩
  | 79 => ⟨S1x64, .f32⟩
  | 80 => ⟨S1x64, .f32⟩
  | 81 => ⟨S100000x64, .f32⟩
  | 82 => ⟨S_, .f32⟩
  | 83 => ⟨S128x64, .f32⟩
  | 84 => ⟨S100000x1, .i32⟩
  | 85 => ⟨S128x64, .f32⟩
  | 86 => ⟨S_, .f32⟩
  | 87 => ⟨S100000, .f32⟩
  | 88 => ⟨S_, .f32⟩
  | 89 => ⟨S128, .f32⟩
  | 90 => ⟨S100000x1, .i32⟩
  | 91 => ⟨S128, .f32⟩
  | 92 => ⟨S_, .f32⟩
  | 93 => ⟨S128, .f32⟩
  | 94 => ⟨S128, .f32⟩
  | 95 => ⟨S128x1, .f32⟩
  | 96 => ⟨S128x64, .f32⟩
  | 97 => ⟨S128x64, .f32⟩
  | 98 => ⟨S64x128, .f32⟩
  | 99 => ⟨S128x128, .f32⟩
  | 100 => ⟨S1x128, .f32⟩
  | 101 => ⟨S128x128, .f32⟩
  | 102 => ⟨S128x128, .f32⟩
  | 103 => ⟨S_, .f32⟩
  | 104 => ⟨S128x128, .f32⟩
  | 105 => ⟨S128x128, .f32⟩
  | 106 => ⟨S128x10, .f32⟩
  | 107 => ⟨S128x10, .f32⟩
  | 108 => ⟨S1x10, .f32⟩
  | 109 => ⟨S128x10, .f32⟩
  | 110 => ⟨S128x10, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S64x32, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x8x64, .f32⟩
  | .local _ .vmem, ⟨11, _⟩ => ⟨S1x8x64, .f32⟩
  | .local _ .vmem, ⟨12, _⟩ => ⟨S1x8x64, .f32⟩
  | .local _ .vmem, ⟨13, _⟩ => ⟨S1x8x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S1x8x64, .f32⟩
  | .local _ .vmem, ⟨33, _⟩ => ⟨S1x8x64, .f32⟩
  | .local _ .vmem, ⟨34, _⟩ => ⟨S1x8x64, .f32⟩
  | .local _ .vmem, ⟨35, _⟩ => ⟨S1x8x64, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S1x8x64, .f32⟩
  | .local _ .vmem, ⟨55, _⟩ => ⟨S1x8x64, .f32⟩
  | .local _ .vmem, ⟨56, _⟩ => ⟨S1x8x64, .f32⟩
  | .local _ .vmem, ⟨57, _⟩ => ⟨S1x8x64, .f32⟩
  | .local _ .vmem, ⟨58, _⟩ => ⟨S10000x64, .f32⟩
  | .local _ .vmem, ⟨59, _⟩ => ⟨S10000x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S64x64, .f32⟩
  | .local _ .vmem, ⟨71, _⟩ => ⟨S1x64, .f32⟩
  | .local _ .vmem, ⟨72, _⟩ => ⟨S64x64, .f32⟩
  | .local _ .vmem, ⟨73, _⟩ => ⟨S1x64, .f32⟩
  | .local _ .vmem, ⟨74, _⟩ => ⟨S10000x64, .f32⟩
  | .local _ .vmem, ⟨75, _⟩ => ⟨S10000x64, .f32⟩
  | .local _ .vmem, ⟨76, _⟩ => ⟨S1x8x64, .f32⟩
  | .local _ .vmem, ⟨77, _⟩ => ⟨S1x8x64, .f32⟩
  | .local _ .vmem, ⟨78, _⟩ => ⟨S1x8x64, .f32⟩
  | .local _ .vmem, ⟨79, _⟩ => ⟨S1x8x64, .f32⟩
  | .local _ .vmem, ⟨80, _⟩ => ⟨S10000x64, .f32⟩
  | .local _ .vmem, ⟨81, _⟩ => ⟨S10000x64, .f32⟩
  | .local _ .vmem, ⟨82, _⟩ => ⟨S1x64, .f32⟩
  | .local _ .vmem, ⟨83, _⟩ => ⟨S1x64, .f32⟩
  | .local _ .vmem, ⟨84, _⟩ => ⟨S1x64, .f32⟩
  | .local _ .vmem, ⟨85, _⟩ => ⟨S1x64, .f32⟩
  | .local _ .vmem, ⟨86, _⟩ => ⟨S10000x64, .f32⟩
  | .local _ .vmem, ⟨87, _⟩ => ⟨S10000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v13 : Ref sig .tc := ⟨.hbm, 57, rfl⟩
abbrev main_v14 : Ref sig .tc := ⟨.hbm, 58, rfl⟩
abbrev main_call1_cst : Ref sig .tc := ⟨.hbm, 59, rfl⟩
abbrev main_call1_v0 : Ref sig .tc := ⟨.hbm, 60, rfl⟩
abbrev main_v15 : Ref sig .tc := ⟨.hbm, 61, rfl⟩
abbrev main_cst : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21_0 : Ref sig .tc := ⟨.hbm, 68, rfl⟩
abbrev main_v21_1 : Ref sig .tc := ⟨.hbm, 69, rfl⟩
abbrev main_v21_2 : Ref sig .tc := ⟨.hbm, 70, rfl⟩
abbrev main_cst_0 : Ref sig .tc := ⟨.hbm, 71, rfl⟩
abbrev main_v22 : Ref sig .tc := ⟨.hbm, 72, rfl⟩
abbrev main_cst_1 : Ref sig .tc := ⟨.hbm, 73, rfl⟩
abbrev main_v23 : Ref sig .tc := ⟨.hbm, 74, rfl⟩
abbrev main_cst_2 : Ref sig .tc := ⟨.hbm, 75, rfl⟩
abbrev main_v24 : Ref sig .tc := ⟨.hbm, 76, rfl⟩
abbrev main_v25 : Ref sig .tc := ⟨.hbm, 77, rfl⟩
abbrev main_cst_3 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_cst_4 : Ref sig .tc := ⟨.hbm, 83, rfl⟩
abbrev main_v30 : Ref sig .tc := ⟨.hbm, 84, rfl⟩
abbrev main_v31 : Ref sig .tc := ⟨.hbm, 85, rfl⟩
abbrev main_cst_5 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_call2_c : Ref sig .tc := ⟨.hbm, 116, rfl⟩
abbrev main_call2_v0 : Ref sig .tc := ⟨.hbm, 117, rfl⟩
abbrev main_call2_v1 : Ref sig .tc := ⟨.hbm, 118, rfl⟩
abbrev main_call2_c_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_c_1 : Ref sig .tc := ⟨.hbm, 124, rfl⟩
abbrev main_call2_c_2 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_c_3 : Ref sig .tc := ⟨.hbm, 132, rfl⟩
abbrev main_call2_v12 : Ref sig .tc := ⟨.hbm, 133, rfl⟩
abbrev main_call2_v13 : Ref sig .tc := ⟨.hbm, 134, rfl⟩
abbrev main_call2_v14 : Ref sig .tc := ⟨.hbm, 135, rfl⟩
abbrev main_call2_cst : Ref sig .tc := ⟨.hbm, 136, rfl⟩
abbrev main_call2_v15 : Ref sig .tc := ⟨.hbm, 137, rfl⟩
abbrev main_v61 : Ref sig .tc := ⟨.hbm, 138, rfl⟩
abbrev main_v62 : Ref sig .tc := ⟨.hbm, 139, rfl⟩
abbrev main_call3_cst : Ref sig .tc := ⟨.hbm, 140, rfl⟩
abbrev main_call3_v0 : Ref sig .tc := ⟨.hbm, 141, rfl⟩
abbrev main_v63 : Ref sig .tc := ⟨.hbm, 142, rfl⟩
abbrev main_cst_6 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69_0 : Ref sig .tc := ⟨.hbm, 149, rfl⟩
abbrev main_v69_1 : Ref sig .tc := ⟨.hbm, 150, rfl⟩
abbrev main_v69_2 : Ref sig .tc := ⟨.hbm, 151, rfl⟩
abbrev main_cst_7 : Ref sig .tc := ⟨.hbm, 152, rfl⟩
abbrev main_v70 : Ref sig .tc := ⟨.hbm, 153, rfl⟩
abbrev main_cst_8 : Ref sig .tc := ⟨.hbm, 154, rfl⟩
abbrev main_v71 : Ref sig .tc := ⟨.hbm, 155, rfl⟩
abbrev main_cst_9 : Ref sig .tc := ⟨.hbm, 156, rfl⟩
abbrev main_v72 : Ref sig .tc := ⟨.hbm, 157, rfl⟩
abbrev main_v73 : Ref sig .tc := ⟨.hbm, 158, rfl⟩
abbrev main_cst_10 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_cst_11 : Ref sig .tc := ⟨.hbm, 164, rfl⟩
abbrev main_v78 : Ref sig .tc := ⟨.hbm, 165, rfl⟩
abbrev main_v79 : Ref sig .tc := ⟨.hbm, 166, rfl⟩
abbrev main_cst_12 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_call4_c : Ref sig .tc := ⟨.hbm, 197, rfl⟩
abbrev main_call4_v0 : Ref sig .tc := ⟨.hbm, 198, rfl⟩
abbrev main_call4_v1 : Ref sig .tc := ⟨.hbm, 199, rfl⟩
abbrev main_call4_c_0 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_call4_v5 : Ref sig .tc := ⟨.hbm, 204, rfl⟩
abbrev main_call4_c_1 : Ref sig .tc := ⟨.hbm, 205, rfl⟩
abbrev main_call4_c_2 : Ref sig .tc := ⟨.hbm, 206, rfl⟩
abbrev main_call4_v6 : Ref sig .tc := ⟨.hbm, 207, rfl⟩
abbrev main_call4_v7 : Ref sig .tc := ⟨.hbm, 208, rfl⟩
abbrev main_call4_v8 : Ref sig .tc := ⟨.hbm, 209, rfl⟩
abbrev main_call4_v9 : Ref sig .tc := ⟨.hbm, 210, rfl⟩
abbrev main_call4_v10 : Ref sig .tc := ⟨.hbm, 211, rfl⟩
abbrev main_call4_v11 : Ref sig .tc := ⟨.hbm, 212, rfl⟩
abbrev main_call4_c_3 : Ref sig .tc := ⟨.hbm, 213, rfl⟩
abbrev main_call4_v12 : Ref sig .tc := ⟨.hbm, 214, rfl⟩
abbrev main_call4_v13 : Ref sig .tc := ⟨.hbm, 215, rfl⟩
abbrev main_call4_v14 : Ref sig .tc := ⟨.hbm, 216, rfl⟩
abbrev main_call4_cst : Ref sig .tc := ⟨.hbm, 217, rfl⟩
abbrev main_call4_v15 : Ref sig .tc := ⟨.hbm, 218, rfl⟩
abbrev main_v109 : Ref sig .tc := ⟨.hbm, 219, rfl⟩
abbrev main_v110 : Ref sig .tc := ⟨.hbm, 220, rfl⟩
abbrev main_call5_cst : Ref sig .tc := ⟨.hbm, 221, rfl⟩
abbrev main_call5_v0 : Ref sig .tc := ⟨.hbm, 222, rfl⟩
abbrev main_v111 : Ref sig .tc := ⟨.hbm, 223, rfl⟩
abbrev main_cst_13 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_v117_0 : Ref sig .tc := ⟨.hbm, 230, rfl⟩
abbrev main_v117_1 : Ref sig .tc := ⟨.hbm, 231, rfl⟩
abbrev main_v117_2 : Ref sig .tc := ⟨.hbm, 232, rfl⟩
abbrev main_cst_14 : Ref sig .tc := ⟨.hbm, 233, rfl⟩
abbrev main_v118 : Ref sig .tc := ⟨.hbm, 234, rfl⟩
abbrev main_cst_15 : Ref sig .tc := ⟨.hbm, 235, rfl⟩
abbrev main_v119 : Ref sig .tc := ⟨.hbm, 236, rfl⟩
abbrev main_cst_16 : Ref sig .tc := ⟨.hbm, 237, rfl⟩
abbrev main_v120 : Ref sig .tc := ⟨.hbm, 238, rfl⟩
abbrev main_v121 : Ref sig .tc := ⟨.hbm, 239, rfl⟩
abbrev main_cst_17 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_cst_18 : Ref sig .tc := ⟨.hbm, 245, rfl⟩
abbrev main_v126 : Ref sig .tc := ⟨.hbm, 246, rfl⟩
abbrev main_v127 : Ref sig .tc := ⟨.hbm, 247, rfl⟩
abbrev main_cst_19 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_v144 : Ref sig .tc := ⟨.hbm, 265, rfl⟩
abbrev main_v145 : Ref sig .tc := ⟨.hbm, 266, rfl⟩
abbrev main_v146 : Ref sig .tc := ⟨.hbm, 267, rfl⟩
abbrev main_v147 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_call6_c : Ref sig .tc := ⟨.hbm, 278, rfl⟩
abbrev main_call6_v0 : Ref sig .tc := ⟨.hbm, 279, rfl⟩
abbrev main_call6_v1 : Ref sig .tc := ⟨.hbm, 280, rfl⟩
abbrev main_call6_c_0 : Ref sig .tc := ⟨.hbm, 281, rfl⟩
abbrev main_call6_v2 : Ref sig .tc := ⟨.hbm, 282, rfl⟩
abbrev main_call6_v3 : Ref sig .tc := ⟨.hbm, 283, rfl⟩
abbrev main_call6_v4 : Ref sig .tc := ⟨.hbm, 284, rfl⟩
abbrev main_call6_v5 : Ref sig .tc := ⟨.hbm, 285, rfl⟩
abbrev main_call6_c_1 : Ref sig .tc := ⟨.hbm, 286, rfl⟩
abbrev main_call6_c_2 : Ref sig .tc := ⟨.hbm, 287, rfl⟩
abbrev main_call6_v6 : Ref sig .tc := ⟨.hbm, 288, rfl⟩
abbrev main_call6_v7 : Ref sig .tc := ⟨.hbm, 289, rfl⟩
abbrev main_call6_v8 : Ref sig .tc := ⟨.hbm, 290, rfl⟩
abbrev main_call6_v9 : Ref sig .tc := ⟨.hbm, 291, rfl⟩
abbrev main_call6_v10 : Ref sig .tc := ⟨.hbm, 292, rfl⟩
abbrev main_call6_v11 : Ref sig .tc := ⟨.hbm, 293, rfl⟩
abbrev main_call6_c_3 : Ref sig .tc := ⟨.hbm, 294, rfl⟩
abbrev main_call6_v12 : Ref sig .tc := ⟨.hbm, 295, rfl⟩
abbrev main_call6_v13 : Ref sig .tc := ⟨.hbm, 296, rfl⟩
abbrev main_call6_v14 : Ref sig .tc := ⟨.hbm, 297, rfl⟩
abbrev main_call6_cst : Ref sig .tc := ⟨.hbm, 298, rfl⟩
abbrev main_call6_v15 : Ref sig .tc := ⟨.hbm, 299, rfl⟩
abbrev main_v157 : Ref sig .tc := ⟨.hbm, 300, rfl⟩
abbrev main_v158 : Ref sig .tc := ⟨.hbm, 301, rfl⟩
abbrev main_call7_cst : Ref sig .tc := ⟨.hbm, 302, rfl⟩
abbrev main_call7_v0 : Ref sig .tc := ⟨.hbm, 303, rfl⟩
abbrev main_v159 : Ref sig .tc := ⟨.hbm, 304, rfl⟩
abbrev main_cst_20 : Ref sig .tc := ⟨.hbm, 305, rfl⟩
abbrev main_v160 : Ref sig .tc := ⟨.hbm, 306, rfl⟩
abbrev main_v161 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_v165_0 : Ref sig .tc := ⟨.hbm, 311, rfl⟩
abbrev main_v165_1 : Ref sig .tc := ⟨.hbm, 312, rfl⟩
abbrev main_v165_2 : Ref sig .tc := ⟨.hbm, 313, rfl⟩
abbrev main_cst_21 : Ref sig .tc := ⟨.hbm, 314, rfl⟩
abbrev main_v166 : Ref sig .tc := ⟨.hbm, 315, rfl⟩
abbrev main_cst_22 : Ref sig .tc := ⟨.hbm, 316, rfl⟩
abbrev main_v167 : Ref sig .tc := ⟨.hbm, 317, rfl⟩
abbrev main_cst_23 : Ref sig .tc := ⟨.hbm, 318, rfl⟩
abbrev main_v168 : Ref sig .tc := ⟨.hbm, 319, rfl⟩
abbrev main_v169 : Ref sig .tc := ⟨.hbm, 320, rfl⟩
abbrev main_cst_24 : Ref sig .tc := ⟨.hbm, 321, rfl⟩
abbrev main_v170 : Ref sig .tc := ⟨.hbm, 322, rfl⟩
abbrev main_v171 : Ref sig .tc := ⟨.hbm, 323, rfl⟩
abbrev main_v172 : Ref sig .tc := ⟨.hbm, 324, rfl⟩
abbrev main_v173 : Ref sig .tc := ⟨.hbm, 325, rfl⟩
abbrev main_cst_25 : Ref sig .tc := ⟨.hbm, 326, rfl⟩
abbrev main_v174 : Ref sig .tc := ⟨.hbm, 327, rfl⟩
abbrev main_v175 : Ref sig .tc := ⟨.hbm, 328, rfl⟩
abbrev main_cst_26 : Ref sig .tc := ⟨.hbm, 329, rfl⟩
abbrev main_v176 : Ref sig .tc := ⟨.hbm, 330, rfl⟩
abbrev main_v177 : Ref sig .tc := ⟨.hbm, 331, rfl⟩
abbrev main_v178 : Ref sig .tc := ⟨.hbm, 332, rfl⟩
abbrev main_v179 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_cst_27 : Ref sig .tc := ⟨.hbm, 338, rfl⟩
abbrev main_v184 : Ref sig .tc := ⟨.hbm, 339, rfl⟩
abbrev main_v185 : Ref sig .tc := ⟨.hbm, 340, rfl⟩
abbrev main_v186 : Ref sig .tc := ⟨.hbm, 341, rfl⟩
abbrev main_cst_28 : Ref sig .tc := ⟨.hbm, 342, rfl⟩
abbrev main_v187 : Ref sig .tc := ⟨.hbm, 343, rfl⟩
abbrev main_cst_29 : Ref sig .tc := ⟨.hbm, 344, rfl⟩
abbrev main_v188 : Ref sig .tc := ⟨.hbm, 345, rfl⟩
abbrev main_v189 : Ref sig .tc := ⟨.hbm, 346, rfl⟩
abbrev main_v190 : Ref sig .tc := ⟨.hbm, 347, rfl⟩
abbrev main_cst_30 : Ref sig .tc := ⟨.hbm, 348, rfl⟩
abbrev main_v191 : Ref sig .tc := ⟨.hbm, 349, rfl⟩
abbrev main_v192 : Ref sig .tc := ⟨.hbm, 350, rfl⟩
abbrev main_v193 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_v199 : Ref sig .tc := ⟨.hbm, 357, rfl⟩
abbrev main_v200 : Ref sig .tc := ⟨.hbm, 358, rfl⟩
abbrev main_call8_cst : Ref sig .tc := ⟨.hbm, 359, rfl⟩
abbrev main_call8_v0 : Ref sig .tc := ⟨.hbm, 360, rfl⟩
abbrev main_v201 : Ref sig .tc := ⟨.hbm, 361, rfl⟩
abbrev main_v202 : Ref sig .tc := ⟨.hbm, 362, rfl⟩
abbrev main_v203 : Ref sig .tc := ⟨.hbm, 363, rfl⟩
abbrev main_v204 : Ref sig .tc := ⟨.hbm, 364, rfl⟩
abbrev main_v205 : Ref sig .tc := ⟨.hbm, 365, rfl⟩
abbrev main_v206 : Ref sig .tc := ⟨.hbm, 366, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg8_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg6_1 : Ref sig .tc := ⟨.vmem, 75, rfl⟩
abbrev cc6_stg7_0 : Ref sig .tc := ⟨.vmem, 76, rfl⟩
abbrev cc6_stg7_1 : Ref sig .tc := ⟨.vmem, 77, rfl⟩
abbrev cc6_stg8_0 : Ref sig .tc := ⟨.vmem, 78, rfl⟩
abbrev cc6_stg8_1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem6_1 : DmaSem sig := 53
abbrev cc4_sem7_0 : DmaSem sig := 54
abbrev cc4_sem7_1 : DmaSem sig := 55
abbrev cc4_sem8_0 : DmaSem sig := 56
abbrev cc4_sem8_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem4_0 : DmaSem sig := 63
abbrev cc5_sem5_0 : DmaSem sig := 64
abbrev cc5_sem5_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem6_0 : DmaSem sig := 74
abbrev cc6_sem6_1 : DmaSem sig := 75
abbrev cc6_sem7_0 : DmaSem sig := 76
abbrev cc6_sem7_1 : DmaSem sig := 77
abbrev cc6_sem8_0 : DmaSem sig := 78
abbrev cc6_sem8_1 : DmaSem sig := 79
abbrev cc7_sem0_0 : DmaSem sig := 80
abbrev cc7_sem0_1 : DmaSem sig := 81
abbrev cc7_sem1_0 : DmaSem sig := 82
abbrev cc7_sem2_0 : DmaSem sig := 83
abbrev cc7_sem3_0 : DmaSem sig := 84
abbrev cc7_sem4_0 : DmaSem sig := 85
abbrev cc7_sem5_0 : DmaSem sig := 86
abbrev cc7_sem5_1 : DmaSem sig := 87

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x8x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x8x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x8x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x8x64 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x64_S1x64_0_0 : S4x64.Slices ![0, 0] S1x64
  shapeCasts_S1x64_S64 : S1x64.ShapeCasts S64
  transposes_S32x16_S16x32_1_0 : S32x16.Transposes [1, 0] S16x32
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S64x32_S64x32_0_0 : ∀ a, (![0, 0] : Fin 2 → Nat) a + S64x32.size a ≤ S64x32.size a
  h_S64x32 : 0 < S64x32.numel
  bitsLt_bf16_f32 : FTy.bits .bf16 < FTy.bits .f32
  transposes_S64x32_p1_0_S32x64 : S64x32.Transposes [1, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S10000x64_S10000x64_0_0 : ∀ a, (![0, 0] : Fin 2 → Nat) a + S10000x64.size a ≤ S10000x64.size a
  h_S10000x64 : 0 < S10000x64.numel
  shapeCasts_S10000x64_S1250x8x64 : S10000x64.ShapeCasts S1250x8x64
  reduces_S1250x8x64_S8x64 : S1250x8x64.Reduces [0] S8x64
  shapeCasts_S8x64_S1x8x64 : S8x64.ShapeCasts S1x8x64
  inb_S1x8x64_S1x8x64_0_0_0 : ∀ a, (![0, 0, 0] : Fin 3 → Nat) a + S1x8x64.size a ≤ S1x8x64.size a
  h_S1x8x64 : 0 < S1x8x64.numel
  reducesTo_S10x8x64_S64_d0_1 : S10x8x64.ReducesTo [0, 1] S64
  bcast_S_S64 : S_.BroadcastsInDim S64 (![] : Fin 0 → Fin S64.rank)
  shapeCasts_S10000x64_S10000x64 : S10000x64.ShapeCasts S10000x64
  slices_S3x64x16_S1x64x16_0_0_0 : S3x64x16.Slices ![0, 0, 0] S1x64x16
  shapeCasts_S1x64x16_S64x16 : S1x64x16.ShapeCasts S64x16
  slices_S3x64_S1x64_0_0 : S3x64.Slices ![0, 0] S1x64
  slices_S3x64x64_S1x64x64_0_0_0 : S3x64x64.Slices ![0, 0, 0] S1x64x64
  shapeCasts_S1x64x64_S64x64 : S1x64x64.ShapeCasts S64x64
  slices_S4x64_S1x64_1_0 : S4x64.Slices ![1, 0] S1x64
  transposes_S64x16_S16x64_1_0 : S64x16.Transposes [1, 0] S16x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64x64_S64x64 : S64x64.ShapeCasts S64x64
  slices_S3x64x16_S1x64x16_1_0_0 : S3x64x16.Slices ![1, 0, 0] S1x64x16
  slices_S3x64_S1x64_1_0 : S3x64.Slices ![1, 0] S1x64
  slices_S3x64x64_S1x64x64_1_0_0 : S3x64x64.Slices ![1, 0, 0] S1x64x64
  slices_S4x64_S1x64_2_0 : S4x64.Slices ![2, 0] S1x64
  slices_S3x64x16_S1x64x16_2_0_0 : S3x64x16.Slices ![2, 0, 0] S1x64x16
  slices_S3x64_S1x64_2_0 : S3x64.Slices ![2, 0] S1x64
  slices_S3x64x64_S1x64x64_2_0_0 : S3x64x64.Slices ![2, 0, 0] S1x64x64
  slices_S4x64_S1x64_3_0 : S4x64.Slices ![3, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  transposes_S128x64_S64x128_1_0 : S128x64.Transposes [1, 0] S64x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  transposes_S10x128_S128x10_1_0 : S10x128.Transposes [1, 0] S128x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  dot_S1600000x16_S16x32_S1600000x32_1_0_0_1_n_n_wf : DotDims.WF S1600000x16 S16x32 S1600000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  dot_S1600000x16_S16x64_S1600000x64_1_0_0_1_n_n_wf : DotDims.WF S1600000x16 S16x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x128_S128x128_1_0_0_1_n_n_wf : DotDims.WF S128x64 S64x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x64.size a ≤ S10x8x64.size a
  hwx0_7 : ∀ i : grid0.Coords, EltTy.bits .f32 = 32 ∨ (Rect.block (s := S10x8x64) S1x8x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x64.size a ≤ S10x8x64.size a
  hwx0_8 : ∀ i : grid0.Coords, EltTy.bits .f32 = 32 ∨ (Rect.block (s := S10x8x64) S1x8x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x64.size a ≤ S10x8x64.size a
  hwx2_7 : ∀ i : grid2.Coords, EltTy.bits .f32 = 32 ∨ (Rect.block (s := S10x8x64) S1x8x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x8x64.size a ≤ S10x8x64.size a
  hwx2_8 : ∀ i : grid2.Coords, EltTy.bits .f32 = 32 ∨ (Rect.block (s := S10x8x64) S1x8x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x64.size a ≤ S100000x64.size a
  hwx4_6 : ∀ i : grid4.Coords, EltTy.bits .f32 = 32 ∨ (Rect.block (s := S100000x64) S10000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x8x64.size a ≤ S10x8x64.size a
  hwx4_7 : ∀ i : grid4.Coords, EltTy.bits .f32 = 32 ∨ (Rect.block (s := S10x8x64) S1x8x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x8x64.size a ≤ S10x8x64.size a
  hwx4_8 : ∀ i : grid4.Coords, EltTy.bits .f32 = 32 ∨ (Rect.block (s := S10x8x64) S1x8x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S100000x64.size a
  hwx6_6 : ∀ i : grid6.Coords, EltTy.bits .f32 = 32 ∨ (Rect.block (s := S100000x64) S10000x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1x8x64.size a ≤ S10x8x64.size a
  hwx6_7 : ∀ i : grid6.Coords, EltTy.bits .f32 = 32 ∨ (Rect.block (s := S10x8x64) S1x8x64.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1x8x64.size a ≤ S10x8x64.size a
  hwx6_8 : ∀ i : grid6.Coords, EltTy.bits .f32 = 32 ∨ (Rect.block (s := S10x8x64) S1x8x64.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x64.size a ≤ S100000x64.size a
  hwx7_5 : ∀ i : grid7.Coords, EltTy.bits .f32 = 32 ∨ (Rect.block (s := S100000x64) S10000x64.size (cc7_transform_5 i) (hinb7_5 i)).WholeWords (EltTy.packing .f32)

variable [Facts₀]

def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S1x8x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_2) S1x8x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v21_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69_0) S10000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v69_1) S1x8x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v69_2) S1x8x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v69_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v87) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v114) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v115) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v116) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v117_0) S10000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v117_1) S1x8x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v117_2) S1x8x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v117_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v131) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v132) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v133) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v134) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v135) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v135) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v162) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v141) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v163) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v145) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v164) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v165_0) S10000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v165_1) S1x8x64.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v165_2) S1x8x64.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v165_0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v179) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v180) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v181) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v182) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v183) S10000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x16 : Shape := ⟨2, ![1600000, 16]⟩
abbrev S100000 : Shape := ⟨1, ![100000]⟩
abbrev S32x16 : Shape := ⟨2, ![32, 16]⟩
abbrev S32 : Shape := ⟨1, ![32]⟩
abbrev S64x32 : Shape := ⟨2, ![64, 32]⟩
abbrev S64 : Shape := ⟨1, ![64]⟩
abbrev S64x64 : Shape := ⟨2, ![64, 64]⟩
abbrev S3x64x16 : Shape := ⟨3, ![3, 64, 16]⟩
abbrev S3x64 : Shape := ⟨2, ![3, 64]⟩
abbrev S3x64x64 : Shape := ⟨3, ![3, 64, 64]⟩
abbrev S4x64 : Shape := ⟨2, ![4, 64]⟩
abbrev S128x64 : Shape := ⟨2, ![128, 64]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S1600000x32 : Shape := ⟨2, ![1600000, 32]⟩
abbrev S16x32 : Shape := ⟨2, ![16, 32]⟩
abbrev S1x32 : Shape := ⟨2, ![1, 32]⟩
abbrev S32x64 : Shape := ⟨2, ![32, 64]⟩
abbrev S100000x64 : Shape := ⟨2, ![100000, 64]⟩
abbrev S1x64x16 : Shape := ⟨3, ![1, 64, 16]⟩
abbrev S64x16 : Shape := ⟨2, ![64, 16]⟩
abbrev S1x64x64 : Shape := ⟨3, ![1, 64, 64]⟩
abbrev S1600000x64 : Shape := ⟨2, ![1600000, 64]⟩
abbrev S16x64 : Shape := ⟨2, ![16, 64]⟩
abbrev S100000x1 : Shape := ⟨2, ![100000, 1]⟩
abbrev S128x1 : Shape := ⟨2, ![128, 1]⟩
abbrev S64x128 : Shape := ⟨2, ![64, 128]⟩
abbrev S128x128 : Shape := ⟨2, ![128, 128]⟩
abbrev S1x128 : Shape := ⟨2, ![1, 128]⟩
abbrev S128x10 : Shape := ⟨2, ![128, 10]⟩
abbrev S1x10 : Shape := ⟨2, ![1, 10]⟩

abbrev nBuf : Space → Nat
  | .hbm => 407
  | .vmem => 0
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S100000, .i32⟩
  | 4 => ⟨S32x16, .f32⟩
  | 5 => ⟨S32, .f32⟩
  | 6 => ⟨S64x32, .f32⟩
  | 7 => ⟨S64, .f32⟩
  | 8 => ⟨S64x64, .f32⟩
  | 9 => ⟨S64, .f32⟩
  | 10 => ⟨S3x64x16, .f32⟩
  | 11 => ⟨S3x64, .f32⟩
  | 12 => ⟨S3x64x64, .f32⟩
  | 13 => ⟨S3x64, .f32⟩
  | 14 => ⟨S3x64x64, .f32⟩
  | 15 => ⟨S3x64, .f32⟩
  | 16 => ⟨S4x64, .f32⟩
  | 17 => ⟨S4x64, .f32⟩
  | 18 => ⟨S128x64, .f32⟩
  | 19 => ⟨S128, .f32⟩
  | 20 => ⟨S10x128, .f32⟩
  | 21 => ⟨S10, .f32⟩
  | 22 => ⟨S1x1600000, .i32⟩
  | 23 => ⟨S1600000, .i32⟩
  | 24 => ⟨S1x1600000, .i32⟩
  | 25 => ⟨S1600000, .i32⟩
  | 26 => ⟨S1x64, .f32⟩
  | 27 => ⟨S64, .f32⟩
  | 28 => ⟨S1x64, .f32⟩
  | 29 => ⟨S64, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x32, .f32⟩
  | 39 => ⟨S16x32, .f32⟩
  | 40 => ⟨S1600000x32, .f32⟩
  | 41 => ⟨S1600000x32, .f32⟩
  | 42 => ⟨S1x32, .f32⟩
  | 43 => ⟨S1600000x32, .f32⟩
  | 44 => ⟨S1600000x32, .f32⟩
  | 45 => ⟨S_, .f32⟩
  | 46 => ⟨S1600000x32, .f32⟩
  | 47 => ⟨S1600000x32, .f32⟩
  | 48 => ⟨S_, .f32⟩
  | 49 => ⟨S100000x32, .f32⟩
  | 50 => ⟨S1600000x1, .i32⟩
  | 51 => ⟨S100000x32, .f32⟩
  | 52 => ⟨S_, .f32⟩
  | 53 => ⟨S100000x32, .f32⟩
  | 54 => ⟨S100000x32, .f32⟩
  | 55 => ⟨S100000x32, .f32⟩
  | 56 => ⟨S32x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S64x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S_, .f32⟩
  | 73 => ⟨S64, .f32⟩
  | 74 => ⟨S_, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S100000x64, .f32⟩
  | 81 => ⟨S_, .f32⟩
  | 82 => ⟨S64, .f32⟩
  | 83 => ⟨S_, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S1x64x16, .f32⟩
  | 106 => ⟨S64x16, .f32⟩
  | 107 => ⟨S1x64, .f32⟩
  | 108 => ⟨S64, .f32⟩
  | 109 => ⟨S1x64x64, .f32⟩
  | 110 => ⟨S64x64, .f32⟩
  | 111 => ⟨S1x64, .f32⟩
  | 112 => ⟨S64, .f32⟩
  | 113 => ⟨S1x64x64, .f32⟩
  | 114 => ⟨S64x64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S64, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x32, .f32⟩

abbrev hbmTy0_1 (i : Nat) : BufTy := match i % 128 with
  | 0 => ⟨S1600000x1, .i32⟩
  | 1 => ⟨S1600000x64, .f32⟩
  | 2 => ⟨S16x64, .f32⟩
  | 3 => ⟨S1600000x64, .f32⟩
  | 4 => ⟨S1600000x64, .f32⟩
  | 5 => ⟨S1x64, .f32⟩
  | 6 => ⟨S1600000x64, .f32⟩
  | 7 => ⟨S1600000x64, .f32⟩
  | 8 => ⟨S_, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S_, .f32⟩
  | 16 => ⟨S100000x64, .f32⟩
  | 17 => ⟨S100000x64, .f32⟩
  | 18 => ⟨S100000x64, .f32⟩
  | 19 => ⟨S64x64, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S64x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S_, .f32⟩
  | 36 => ⟨S64, .f32⟩
  | 37 => ⟨S_, .f32⟩
  | 38 => ⟨S64, .f32⟩
  | 39 => ⟨S64, .f32⟩
  | 40 => ⟨S1x64, .f32⟩
  | 41 => ⟨S100000x64, .f32⟩
  | 42 => ⟨S100000x64, .f32⟩
  | 43 => ⟨S100000x64, .f32⟩
  | 44 => ⟨S_, .f32⟩
  | 45 => ⟨S64, .f32⟩
  | 46 => ⟨S_, .f32⟩
  | 47 => ⟨S64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S64, .f32⟩
  | 55 => ⟨S64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S1x64x16, .f32⟩
  | 69 => ⟨S64x16, .f32⟩
  | 70 => ⟨S1x64, .f32⟩
  | 71 => ⟨S64, .f32⟩
  | 72 => ⟨S1x64x64, .f32⟩
  | 73 => ⟨S64x64, .f32⟩
  | 74 => ⟨S1x64, .f32⟩
  | 75 => ⟨S64, .f32⟩
  | 76 => ⟨S1x64x64, .f32⟩
  | 77 => ⟨S64x64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S64, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x64, .f32⟩
  | 93 => ⟨S16x64, .f32⟩
  | 94 => ⟨S1600000x64, .f32⟩
  | 95 => ⟨S1600000x64, .f32⟩
  | 96 => ⟨S1x64, .f32⟩
  | 97 => ⟨S1600000x64, .f32⟩
  | 98 => ⟨S1600000x64, .f32⟩
  | 99 => ⟨S_, .f32⟩
  | 100 => ⟨S1600000x64, .f32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S64x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S64x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S64, .f32⟩
  | _ => ⟨S100000x32, .f32⟩

abbrev hbmTy0_2 (i : Nat) : BufTy := match i % 128 with
  | 0 => ⟨S_, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S100000x64, .f32⟩
  | 7 => ⟨S_, .f32⟩
  | 8 => ⟨S64, .f32⟩
  | 9 => ⟨S_, .f32⟩
  | 10 => ⟨S64, .f32⟩
  | 11 => ⟨S64, .f32⟩
  | 12 => ⟨S1x64, .f32⟩
  | 13 => ⟨S100000x64, .f32⟩
  | 14 => ⟨S100000x64, .f32⟩
  | 15 => ⟨S_, .f32⟩
  | 16 => ⟨S64, .f32⟩
  | 17 => ⟨S64, .f32⟩
  | 18 => ⟨S64, .f32⟩
  | 19 => ⟨S1x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S1x64x16, .f32⟩
  | 32 => ⟨S64x16, .f32⟩
  | 33 => ⟨S1x64, .f32⟩
  | 34 => ⟨S64, .f32⟩
  | 35 => ⟨S1x64x64, .f32⟩
  | 36 => ⟨S64x64, .f32⟩
  | 37 => ⟨S1x64, .f32⟩
  | 38 => ⟨S64, .f32⟩
  | 39 => ⟨S1x64x64, .f32⟩
  | 40 => ⟨S64x64, .f32⟩
  | 41 => ⟨S1x64, .f32⟩
  | 42 => ⟨S64, .f32⟩
  | 43 => ⟨S1x64, .f32⟩
  | 44 => ⟨S64, .f32⟩
  | 45 => ⟨S1x64, .f32⟩
  | 46 => ⟨S64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S16x64, .f32⟩
  | 57 => ⟨S1600000x64, .f32⟩
  | 58 => ⟨S1600000x64, .f32⟩
  | 59 => ⟨S1x64, .f32⟩
  | 60 => ⟨S1600000x64, .f32⟩
  | 61 => ⟨S1600000x64, .f32⟩
  | 62 => ⟨S_, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S64x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S64x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S64, .f32⟩
  | 100 => ⟨S_, .f32⟩
  | 101 => ⟨S64, .f32⟩
  | 102 => ⟨S64, .f32⟩
  | 103 => ⟨S1x64, .f32⟩
  | 104 => ⟨S100000x64, .f32⟩
  | 105 => ⟨S100000x64, .f32⟩
  | 106 => ⟨S_, .f32⟩
  | 107 => ⟨S64, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S128x64, .f32⟩
  | 124 => ⟨S100000x1, .i32⟩
  | 125 => ⟨S128x64, .f32⟩
  | 126 => ⟨S_, .f32⟩
  | 127 => ⟨S100000, .f32⟩
  | _ => ⟨S100000x32, .f32⟩

abbrev hbmTy0_3 (i : Nat) : BufTy := match i % 128 with
  | 0 => ⟨S_, .f32⟩
  | 1 => ⟨S128, .f32⟩
  | 2 => ⟨S100000x1, .i32⟩
  | 3 => ⟨S128, .f32⟩
  | 4 => ⟨S_, .f32⟩
  | 5 => ⟨S128, .f32⟩
  | 6 => ⟨S128, .f32⟩
  | 7 => ⟨S128x1, .f32⟩
  | 8 => ⟨S128x64, .f32⟩
  | 9 => ⟨S128x64, .f32⟩
  | 10 => ⟨S64x128, .f32⟩
  | 11 => ⟨S128x128, .f32⟩
  | 12 => ⟨S1x128, .f32⟩
  | 13 => ⟨S128x128, .f32⟩
  | 14 => ⟨S128x128, .f32⟩
  | 15 => ⟨S_, .f32⟩
  | 16 => ⟨S128x128, .f32⟩
  | 17 => ⟨S128x128, .f32⟩
  | 18 => ⟨S128x10, .f32⟩
  | 19 => ⟨S128x10, .f32⟩
  | 20 => ⟨S1x10, .f32⟩
  | 21 => ⟨S128x10, .f32⟩
  | 22 => ⟨S128x10, .f32⟩
  | _ => ⟨S100000x32, .f32⟩

abbrev hbmTy (i : Nat) : BufTy := match i / 128 with
  | 0 => hbmTy0_0 i
  | 1 => hbmTy0_1 i
  | 2 => hbmTy0_2 i
  | 3 => hbmTy0_3 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call0_cst : Ref sig .tc := ⟨.hbm, 45, rfl⟩
abbrev main_call0_v0 : Ref sig .tc := ⟨.hbm, 46, rfl⟩
abbrev main_v21 : Ref sig .tc := ⟨.hbm, 47, rfl⟩
abbrev main_cst : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_1 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call1_cst : Ref sig .tc := ⟨.hbm, 61, rfl⟩
abbrev main_call1_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call2_cst : Ref sig .tc := ⟨.hbm, 69, rfl⟩
abbrev main_call2_v0 : Ref sig .tc := ⟨.hbm, 70, rfl⟩
abbrev main_v39 : Ref sig .tc := ⟨.hbm, 71, rfl⟩
abbrev main_cst_2 : Ref sig .tc := ⟨.hbm, 72, rfl⟩
abbrev main_v40 : Ref sig .tc := ⟨.hbm, 73, rfl⟩
abbrev main_cst_3 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_4 : Ref sig .tc := ⟨.hbm, 81, rfl⟩
abbrev main_v47 : Ref sig .tc := ⟨.hbm, 82, rfl⟩
abbrev main_cst_5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_6 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call3_cst : Ref sig .tc := ⟨.hbm, 102, rfl⟩
abbrev main_call3_v0 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_7 : Ref sig .tc := ⟨.hbm, 121, rfl⟩
abbrev main_v82 : Ref sig .tc := ⟨.hbm, 122, rfl⟩
abbrev main_v83 : Ref sig .tc := ⟨.hbm, 123, rfl⟩
abbrev main_c_8 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call4_cst : Ref sig .tc := ⟨.hbm, 136, rfl⟩
abbrev main_call4_v0 : Ref sig .tc := ⟨.hbm, 137, rfl⟩
abbrev main_v95 : Ref sig .tc := ⟨.hbm, 138, rfl⟩
abbrev main_cst_9 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_10 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_call5_cst : Ref sig .tc := ⟨.hbm, 152, rfl⟩
abbrev main_call5_v0 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_call6_cst : Ref sig .tc := ⟨.hbm, 160, rfl⟩
abbrev main_call6_v0 : Ref sig .tc := ⟨.hbm, 161, rfl⟩
abbrev main_v113 : Ref sig .tc := ⟨.hbm, 162, rfl⟩
abbrev main_cst_11 : Ref sig .tc := ⟨.hbm, 163, rfl⟩
abbrev main_v114 : Ref sig .tc := ⟨.hbm, 164, rfl⟩
abbrev main_cst_12 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_13 : Ref sig .tc := ⟨.hbm, 172, rfl⟩
abbrev main_v121 : Ref sig .tc := ⟨.hbm, 173, rfl⟩
abbrev main_cst_14 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_15 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_call7_cst : Ref sig .tc := ⟨.hbm, 193, rfl⟩
abbrev main_call7_v0 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_c_16 : Ref sig .tc := ⟨.hbm, 212, rfl⟩
abbrev main_v156 : Ref sig .tc := ⟨.hbm, 213, rfl⟩
abbrev main_v157 : Ref sig .tc := ⟨.hbm, 214, rfl⟩
abbrev main_c_17 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_call8_cst : Ref sig .tc := ⟨.hbm, 227, rfl⟩
abbrev main_call8_v0 : Ref sig .tc := ⟨.hbm, 228, rfl⟩
abbrev main_v169 : Ref sig .tc := ⟨.hbm, 229, rfl⟩
abbrev main_cst_18 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_19 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_call9_cst : Ref sig .tc := ⟨.hbm, 243, rfl⟩
abbrev main_call9_v0 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_call10_cst : Ref sig .tc := ⟨.hbm, 251, rfl⟩
abbrev main_call10_v0 : Ref sig .tc := ⟨.hbm, 252, rfl⟩
abbrev main_v187 : Ref sig .tc := ⟨.hbm, 253, rfl⟩
abbrev main_cst_20 : Ref sig .tc := ⟨.hbm, 254, rfl⟩
abbrev main_v188 : Ref sig .tc := ⟨.hbm, 255, rfl⟩
abbrev main_cst_21 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_cst_22 : Ref sig .tc := ⟨.hbm, 263, rfl⟩
abbrev main_v195 : Ref sig .tc := ⟨.hbm, 264, rfl⟩
abbrev main_cst_23 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_cst_24 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_call11_cst : Ref sig .tc := ⟨.hbm, 284, rfl⟩
abbrev main_call11_v0 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_c_25 : Ref sig .tc := ⟨.hbm, 303, rfl⟩
abbrev main_v230 : Ref sig .tc := ⟨.hbm, 304, rfl⟩
abbrev main_v231 : Ref sig .tc := ⟨.hbm, 305, rfl⟩
abbrev main_c_26 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_call12_cst : Ref sig .tc := ⟨.hbm, 318, rfl⟩
abbrev main_call12_v0 : Ref sig .tc := ⟨.hbm, 319, rfl⟩
abbrev main_v243 : Ref sig .tc := ⟨.hbm, 320, rfl⟩
abbrev main_cst_27 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_cst_28 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_call13_cst : Ref sig .tc := ⟨.hbm, 334, rfl⟩
abbrev main_call13_v0 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_call14_cst : Ref sig .tc := ⟨.hbm, 342, rfl⟩
abbrev main_call14_v0 : Ref sig .tc := ⟨.hbm, 343, rfl⟩
abbrev main_v261 : Ref sig .tc := ⟨.hbm, 344, rfl⟩
abbrev main_cst_29 : Ref sig .tc := ⟨.hbm, 345, rfl⟩
abbrev main_v262 : Ref sig .tc := ⟨.hbm, 346, rfl⟩
abbrev main_cst_30 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_cst_31 : Ref sig .tc := ⟨.hbm, 354, rfl⟩
abbrev main_v269 : Ref sig .tc := ⟨.hbm, 355, rfl⟩
abbrev main_cst_32 : Ref sig .tc := ⟨.hbm, 356, rfl⟩
abbrev main_v270 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_cst_33 : Ref sig .tc := ⟨.hbm, 362, rfl⟩
abbrev main_v275 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_call15_cst : Ref sig .tc := ⟨.hbm, 375, rfl⟩
abbrev main_call15_v0 : Ref sig .tc := ⟨.hbm, 376, rfl⟩
abbrev main_v287 : Ref sig .tc := ⟨.hbm, 377, rfl⟩
abbrev main_cst_34 : Ref sig .tc := ⟨.hbm, 378, rfl⟩
abbrev main_v288 : Ref sig .tc := ⟨.hbm, 379, rfl⟩
abbrev main_v289 : Ref sig .tc := ⟨.hbm, 380, rfl⟩
abbrev main_v290 : Ref sig .tc := ⟨.hbm, 381, rfl⟩
abbrev main_cst_35 : Ref sig .tc := ⟨.hbm, 382, rfl⟩
abbrev main_v291 : Ref sig .tc := ⟨.hbm, 383, rfl⟩
abbrev main_cst_36 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_cst_37 : Ref sig .tc := ⟨.hbm, 388, rfl⟩
abbrev main_v295 : Ref sig .tc := ⟨.hbm, 389, rfl⟩
abbrev main_v296 : Ref sig .tc := ⟨.hbm, 390, rfl⟩
abbrev main_v297 : Ref sig .tc := ⟨.hbm, 391, rfl⟩
abbrev main_v298 : Ref sig .tc := ⟨.hbm, 392, rfl⟩
abbrev main_v299 : Ref sig .tc := ⟨.hbm, 393, rfl⟩
abbrev main_v300 : Ref sig .tc := ⟨.hbm, 394, rfl⟩
abbrev main_v301 : Ref sig .tc := ⟨.hbm, 395, rfl⟩
abbrev main_v302 : Ref sig .tc := ⟨.hbm, 396, rfl⟩
abbrev main_v303 : Ref sig .tc := ⟨.hbm, 397, rfl⟩
abbrev main_v304 : Ref sig .tc := ⟨.hbm, 398, rfl⟩
abbrev main_call16_cst : Ref sig .tc := ⟨.hbm, 399, rfl⟩
abbrev main_call16_v0 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_v309 : Ref sig .tc := ⟨.hbm, 405, rfl⟩
abbrev main_v310 : Ref sig .tc := ⟨.hbm, 406, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x64_S1x64_0_0 : S4x64.Slices ![0, 0] S1x64
  shapeCasts_S1x64_S64 : S1x64.ShapeCasts S64
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S32x16_S16x32_1_0 : S32x16.Transposes [1, 0] S16x32
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  reducesTo_S100000x64_S64_d0 : S100000x64.ReducesTo [0] S64
  h_S_ : 0 < S_.numel
  bcast_S_S64 : S_.BroadcastsInDim S64 (![] : Fin 0 → Fin S64.rank)
  slices_S3x64x16_S1x64x16_0_0_0 : S3x64x16.Slices ![0, 0, 0] S1x64x16
  shapeCasts_S1x64x16_S64x16 : S1x64x16.ShapeCasts S64x16
  slices_S3x64_S1x64_0_0 : S3x64.Slices ![0, 0] S1x64
  slices_S3x64x64_S1x64x64_0_0_0 : S3x64x64.Slices ![0, 0, 0] S1x64x64
  shapeCasts_S1x64x64_S64x64 : S1x64x64.ShapeCasts S64x64
  slices_S4x64_S1x64_1_0 : S4x64.Slices ![1, 0] S1x64
  transposes_S64x16_S16x64_1_0 : S64x16.Transposes [1, 0] S16x64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S3x64x16_S1x64x16_1_0_0 : S3x64x16.Slices ![1, 0, 0] S1x64x16
  slices_S3x64_S1x64_1_0 : S3x64.Slices ![1, 0] S1x64
  slices_S3x64x64_S1x64x64_1_0_0 : S3x64x64.Slices ![1, 0, 0] S1x64x64
  slices_S4x64_S1x64_2_0 : S4x64.Slices ![2, 0] S1x64
  slices_S3x64x16_S1x64x16_2_0_0 : S3x64x16.Slices ![2, 0, 0] S1x64x16
  slices_S3x64_S1x64_2_0 : S3x64.Slices ![2, 0] S1x64
  slices_S3x64x64_S1x64x64_2_0_0 : S3x64x64.Slices ![2, 0, 0] S1x64x64
  slices_S4x64_S1x64_3_0 : S4x64.Slices ![3, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  transposes_S128x64_S64x128_1_0 : S128x64.Transposes [1, 0] S64x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  transposes_S10x128_S128x10_1_0 : S10x128.Transposes [1, 0] S128x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S100000x32_S1600000x1_S1600000x32_1_0_n_n_0_1_132_wf : GatherDims.WF S100000x32 S1600000x1 S1600000x32 [1] [0] [] [0] [] 1 ![1, 32]
  dot_S1600000x16_S16x32_S1600000x32_1_0_0_1_n_n_wf : DotDims.WF S1600000x16 S16x32 S1600000x32 [1] [0] [0] [1] [] []
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x16_S16x64_S1600000x64_1_0_0_1_n_n_wf : DotDims.WF S1600000x16 S16x64 S1600000x64 [1] [0] [0] [1] [] []
  scatter_S100000x64_S1600000x1_S1600000x64_1_0_0_1_wf : ScatterDims.WF S100000x64 S1600000x1 S1600000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x128_S128x128_1_0_0_1_n_n_wf : DotDims.WF S128x64 S64x128 S128x128 [1] [0] [0] [1] [] []
  dot_S128x128_S128x10_S128x10_1_0_0_1_n_n_wf : DotDims.WF S128x128 S128x10 S128x10 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.RefRead.lean ====
import proofs.«406622_j66486093742154_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x1600000, .i32⟩ : BufTy).Contents (Elt F)) : (⟨S1x1600000, .i32⟩ : BufTy).Contents (Elt F) :=
  extractStridedSlice S1x1600000 ![0, 0] (x1) slices_S2x1600000_S1x1600000_0_0

def val_main_v1 (x1 : (⟨S2x1600000, .i32⟩ : BufTy).Contents (Elt F)) : (⟨S1600000, .i32⟩ : BufTy).Contents (Elt F) :=
  shapeCast _ (val_main_v0 (F := F) x1) shapeCasts_S1x1600000_S1600000

def val_main_v2 (x1 : (⟨S2x1600000, .i32⟩ : BufTy).Contents (Elt F)) : (⟨S1x1600000, .i32⟩ : BufTy).Contents (Elt F) :=
  extractStridedSlice S1x1600000 ![1, 0] (x1) slices_S2x1600000_S1x1600000_1_0

def val_main_v3 (x1 : (⟨S2x1600000, .i32⟩ : BufTy).Contents (Elt F)) : (⟨S1600000, .i32⟩ : BufTy).Contents (Elt F) :=
  shapeCast _ (val_main_v2 (F := F) x1) shapeCasts_S1x1600000_S1600000

def val_main_v4 (x16 : (⟨S4x64, .f32⟩ : BufTy).Contents (Elt F)) : (⟨S1x64, .f32⟩ : BufTy).Contents (Elt F) :=
  extractStridedSlice S1x64 ![0, 0] (x16) slices_S4x64_S1x64_0_0

def val_main_v5 (x16 : (⟨S4x64, .f32⟩ : BufTy).Contents (Elt F)) : (⟨S64, .f32⟩ : BufTy).Contents (Elt F) :=
  shapeCast _ (val_main_v4 (F := F) x16) shapeCasts_S1x64_S64

def val_main_v6 (x17 : (⟨S4x64, .f32⟩ : BufTy).Contents (Elt F)) : (⟨S1x64, .f32⟩ : BufTy).Contents (Elt F) :=
  extractStridedSlice S1x64 ![0, 0] (x17) slices_S4x64_S1x64_0_0

def val_main_v7 (x17 : (⟨S4x64, .f32⟩ : BufTy).Contents (Elt F)) : (⟨S64, .f32⟩ : BufTy).Contents (Elt F) :=
  shapeCast _ (val_main_v6 (F := F) x17) shapeCasts_S1x64_S64

def val_main_c : (⟨S_, .i32⟩ : BufTy).Contents (Elt F) :=
  constantI S_ 32 0#32

def val_main_v8 : (⟨S1600000, .i32⟩ : BufTy).Contents (Elt F) :=
  broadcastInDim S1600000 ![] bcast_S_S1600000 (val_main_c (F := F))

def val_main_v9 (x1 : (⟨S2x1600000, .i32⟩ : BufTy).Contents (Elt F)) : (⟨S1600000, .i1⟩ : BufTy).Contents (Elt F) :=
  cmpi .slt (val_main_v1 (F := F) x1) (val_main_v8 (F := F))

def val_main_c_0 : (⟨S_, .i32⟩ : BufTy).Contents (Elt F) :=
  constantI S_ 32 100000#32

def val_main_v10 : (⟨S1600000, .i32⟩ : BufTy).Contents (Elt F) :=
  broadcastInDim S1600000 ![] bcast_S_S1600000 (val_main_c_0 (F := F))

def val_main_v11 (x1 : (⟨S2x1600000, .i32⟩ : BufTy).Contents (Elt F)) : (⟨S1600000, .i32⟩ : BufTy).Contents (Elt F) :=
  addi (val_main_v1 (F := F) x1) (val_main_v10 (F := F))

def val_main_v12 (x1 : (⟨S2x1600000, .i32⟩ : BufTy).Contents (Elt F)) : (⟨S1600000, .i32⟩ : BufTy).Contents (Elt F) :=
  select (val_main_v9 (F := F) x1) (val_main_v11 (F := F) x1) (val_main_v1 (F := F) x1)

def val_main_v13 (x1 : (⟨S2x1600000, .i32⟩ : BufTy).Contents (Elt F)) : (⟨S1600000x1, .i32⟩ : BufTy).Contents (Elt F) :=
  broadcastInDim S1600000x1 ![0] bcast_S1600000_S1600000x1_0 (val_main_v12 (F := F) x1)

def val_main_v14 (x0 : (⟨S100000x32, .f32⟩ : BufTy).Contents (Elt F)) (x1 : (⟨S2x1600000, .i32⟩ : BufTy).Contents (Elt F)) : (⟨S1600000x32, .f32⟩ : BufTy).Contents (Elt F) :=
  Host.gather gather_S100000x32_S1600000x1_S1600000x32_1_0_n_n_0_1_132 (x0) (val_main_v13 (F := F) x1)

def val_main_v15 (x4 : (⟨S32x16, .f32⟩ : BufTy).Contents (Elt F)) : (⟨S16x32, .f32⟩ : BufTy).Contents (Elt F) :=
  transpose S16x32 [1, 0] (x4) transposes_S32x16_S16x32_1_0

def val_main_v16 (x2 : (⟨S1600000x16, .f32⟩ : BufTy).Contents (Elt F)) (x4 : (⟨S32x16, .f32⟩ : BufTy).Contents (Elt F)) : (⟨S1600000x32, .f32⟩ : BufTy).Contents (Elt F) :=
  Host.dotGeneral dot_S1600000x16_S16x32_S1600000x32_1_0_0_1_n_n none (x2) (val_main_v15 (F := F) x4)

def val_main_v17 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) : (⟨S1600000x32, .f32⟩ : BufTy).Contents (Elt F) :=
  addf (val_main_v14 (F := F) x0 x1) (val_main_v16 (F := F) x2 x4)

def val_main_v18 (x5 : (⟨S32, .f32⟩ : BufTy).Contents (Elt F)) : (⟨S1x32, .f32⟩ : BufTy).Contents (Elt F) :=
  broadcastInDim S1x32 ![1] bcast_S32_S1x32_1 (x5)

def val_main_v19 (x5 : (⟨S32, .f32⟩ : BufTy).Contents (Elt F)) : (⟨S1600000x32, .f32⟩ : BufTy).Contents (Elt F) :=
  broadcastInDim S1600000x32 ![0, 1] bcast_S1x32_S1600000x32_0_1 (val_main_v18 (F := F) x5)

def val_main_v20 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) : (⟨S1600000x32, .f32⟩ : BufTy).Contents (Elt F) :=
  addf (val_main_v17 (F := F) x0 x1 x2 x4) (val_main_v19 (F := F) x5)

def val_main_call0_cst : (⟨S_, .f32⟩ : BufTy).Contents (Elt F) :=
  constant S_ .f32 0x00000000#32

def val_main_call0_v0 : (⟨S1600000x32, .f32⟩ : BufTy).Contents (Elt F) :=
  broadcastInDim S1600000x32 ![] bcast_S_S1600000x32 (val_main_call0_cst (F := F))

def val_main_v21 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) : (⟨S1600000x32, .f32⟩ : BufTy).Contents (Elt F) :=
  maximumf (val_main_v20 (F := F) x0 x1 x2 x4 x5) (val_main_call0_v0 (F := F))

def val_main_cst : (⟨S_, .f32⟩ : BufTy).Contents (Elt F) :=
  constant S_ .f32 0x00000000#32

def val_main_v22 : (⟨S100000x32, .f32⟩ : BufTy).Contents (Elt F) :=
  broadcastInDim S100000x32 ![] bcast_S_S100000x32 (val_main_cst (F := F))

def val_main_v23 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v24 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) : (⟨S100000x32, .f32⟩ : BufTy).Contents (Elt F) :=
  Host.scatterAdd scatter_S100000x32_S1600000x1_S1600000x32_1_0_0_1 (val_main_v22 (F := F)) (val_main_v23 (F := F) x1) (val_main_v21 (F := F) x0 x1 x2 x4 x5)

def val_main_cst_1 : (⟨S_, .f32⟩ : BufTy).Contents (Elt F) :=
  constant S_ .f32 0x3F800000#32

theorem val_main_cst_1_apply (i : S_.Idx) :
    val_main_cst_1 (F := F) i = FloatOps.ofBits .f32 0x3F800000#32 := rfl

def val_main_v25 : (⟨S100000x32, .f32⟩ : BufTy).Contents (Elt F) :=
  broadcastInDim S100000x32 ![] bcast_S_S100000x32 (val_main_cst_1 (F := F))

abbrev idx_main_v25 (i : S100000x32.Idx) : S_.Idx := fun a => a.elim0

theorem val_main_v25_apply (i : S100000x32.Idx) :
    val_main_v25 (F := F) i = val_main_cst_1 (F := F) (idx_main_v25 i) := by
  unfold val_main_v25
  generalize val_main_cst_1 (F := F) = y
  exact broadcastInDim_apply _ bcast_S_S100000x32 y i (idx_main_v25 i) (fun a => a.elim0)

def val_main_v26 (x0 : (⟨S100000x32, .f32⟩ : BufTy).Contents (Elt F)) : (⟨S100000x32, .f32⟩ : BufTy).Contents (Elt F) :=
  mulf (val_main_v25 (F := F)) (x0)

theorem val_main_v26_apply (x0 : (⟨S100000x32, .f32⟩ : BufTy).Contents (Elt F)) (i : S100000x32.Idx) :
    val_main_v26 (F := F) x0 i = FloatOps.mulf (val_main_v25 (F := F) i) (x0 i) := rfl

def val_main_v27 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) : (⟨S100000x32, .f32⟩ : BufTy).Contents (Elt F) :=
  addf (val_main_v26 (F := F) x0) (val_main_v24 (F := F) x0 x1 x2 x4 x5)

theorem val_main_v27_apply (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (i : S100000x32.Idx) :
    val_main_v27 (F := F) x0 x1 x2 x4 x5 i = FloatOps.addf (val_main_v26 (F := F) x0 i) (val_main_v24 (F := F) x0 x1 x2 x4 x5 i) := rfl

def val_main_v28 (x6 : (⟨S64x32, .f32⟩ : BufTy).Contents (Elt F)) : (⟨S32x64, .f32⟩ : BufTy).Contents (Elt F) :=
  transpose S32x64 [1, 0] (x6) transposes_S64x32_S32x64_1_0

abbrev idx_main_v28 (i : S32x64.Idx) : S64x32.Idx := fun a => match a with
  | ⟨0, _⟩ => ⟨(i 1).val, (i 1).isLt⟩
  | ⟨1, _⟩ => ⟨(i 0).val, (i 0).isLt⟩

theorem val_main_v28_apply (x6 : (⟨S64x32, .f32⟩ : BufTy).Contents (Elt F)) (i : S32x64.Idx) :
    val_main_v28 (F := F) x6 i = x6 (idx_main_v28 i) := by
  unfold val_main_v28
  exact transpose_apply [1, 0] x6 transposes_S64x32_S32x64_1_0 i (idx_main_v28 i) (fun b => match b with
    | ⟨0, _⟩ => rfl
    | ⟨1, _⟩ => rfl)

def val_main_v29 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) : (⟨S100000x64, .f32⟩ : BufTy).Contents (Elt F) :=
  Host.dotGeneral dot_S100000x32_S32x64_S100000x64_1_0_0_1_n_n none (val_main_v27 (F := F) x0 x1 x2 x4 x5) (val_main_v28 (F := F) x6)

theorem lhs_main_v29_0 (i : S100000x64.Idx) (q : dot_S100000x32_S32x64_S100000x64_1_0_0_1_n_n.contr.Idx) :
    (dot_S100000x32_S32x64_S100000x64_1_0_0_1_n_n.lhsIdx i q 0).val = (i 0).val := by
  unfold DotDims.lhsIdx
  rw [dif_neg (show ¬(0 : Fin S100000x32.rank) ∈ dot_S100000x32_S32x64_S100000x64_1_0_0_1_n_n.lhsBatch by decide), dif_pos (show (0 : Fin S100000x32.rank) ∈ dot_S100000x32_S32x64_S100000x64_1_0_0_1_n_n.lhsNonContracting by decide)]
  rfl

theorem lhs_main_v29_1 (i : S100000x64.Idx) (q : dot_S100000x32_S32x64_S100000x64_1_0_0_1_n_n.contr.Idx) :
    (dot_S100000x32_S32x64_S100000x64_1_0_0_1_n_n.lhsIdx i q 1).val = (q ⟨0, by decide⟩).val :=
  dot_S100000x32_S32x64_S100000x64_1_0_0_1_n_n.lhsIdx_val_of_single rfl i q

theorem rhs_main_v29_0 (i : S100000x64.Idx) (q : dot_S100000x32_S32x64_S100000x64_1_0_0_1_n_n.contr.Idx) :
    (dot_S100000x32_S32x64_S100000x64_1_0_0_1_n_n.rhsIdx i q 0).val = (q ⟨0, by decide⟩).val :=
  dot_S100000x32_S32x64_S100000x64_1_0_0_1_n_n.rhsIdx_val_of_single rfl i q

theorem rhs_main_v29_1 (i : S100000x64.Idx) (q : dot_S100000x32_S32x64_S100000x64_1_0_0_1_n_n.contr.Idx) :
    (dot_S100000x32_S32x64_S100000x64_1_0_0_1_n_n.rhsIdx i q 1).val = (i 1).val := by
  unfold DotDims.rhsIdx
  rw [dif_neg (show ¬(1 : Fin S32x64.rank) ∈ dot_S100000x32_S32x64_S100000x64_1_0_0_1_n_n.rhsBatch by decide), dif_pos (show (1 : Fin S32x64.rank) ∈ dot_S100000x32_S32x64_S100000x64_1_0_0_1_n_n.rhsNonContracting by decide)]
  rfl

abbrev lidx_main_v29 (i : S100000x64.Idx) (k : Fin 32) : S100000x32.Idx := fun a => match a with
  | ⟨0, _⟩ => ⟨(i 0).val, (i 0).isLt⟩
  | ⟨1, _⟩ => ⟨k.val, k.isLt⟩

abbrev ridx_main_v29 (i : S100000x64.Idx) (k : Fin 32) : S32x64.Idx := fun a => match a with
  | ⟨0, _⟩ => ⟨k.val, k.isLt⟩
  | ⟨1, _⟩ => ⟨(i 1).val, (i 1).isLt⟩

theorem val_main_v29_apply (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x4 : (⟨S32x16, .f32⟩ : BufTy).Contents (Elt Ideal)) (x5 : (⟨S32, .f32⟩ : BufTy).Contents (Elt Ideal)) (x6 : (⟨S64x32, .f32⟩ : BufTy).Contents (Elt Ideal)) (i : S100000x64.Idx) :
    val_main_v29 (F := Ideal) x0 x1 x2 x4 x5 x6 i = ∑ k : Fin 32, (val_main_v27 (F := Ideal) x0 x1 x2 x4 x5) (lidx_main_v29 i k) * (val_main_v28 (F := Ideal) x6) (ridx_main_v29 i k) := by
  unfold val_main_v29
  generalize val_main_v27 (F := Ideal) x0 x1 x2 x4 x5 = y0
  generalize val_main_v28 (F := Ideal) x6 = y1
  simp only [Host.dotGeneral]
  rw [Ideal.dotGeneral_apply, ← Equiv.sum_comp (ValueIdx.contrEquiv1 dot_S100000x32_S32x64_S100000x64_1_0_0_1_n_n 32 rfl rfl).symm]
  refine Finset.sum_congr rfl fun k _ => ?_
  have hk := ValueIdx.contrEquiv1_symm_val dot_S100000x32_S32x64_S100000x64_1_0_0_1_n_n 32 rfl rfl k
  have el : dot_S100000x32_S32x64_S100000x64_1_0_0_1_n_n.lhsIdx i ((ValueIdx.contrEquiv1 dot_S100000x32_S32x64_S100000x64_1_0_0_1_n_n 32 rfl rfl).symm k) = lidx_main_v29 i k := funext fun a => Fin.ext (by
    match a with
    | ⟨0, _⟩ => exact lhs_main_v29_0 _ _
    | ⟨1, _⟩ => exact (lhs_main_v29_1 _ _).trans hk)
  have er : dot_S100000x32_S32x64_S100000x64_1_0_0_1_n_n.rhsIdx i ((ValueIdx.contrEquiv1 dot_S100000x32_S32x64_S100000x64_1_0_0_1_n_n 32 rfl rfl).symm k) = ridx_main_v29 i k := funext fun a => Fin.ext (by
    match a with
    | ⟨0, _⟩ => exact (rhs_main_v29_0 _ _).trans hk
    | ⟨1, _⟩ => exact rhs_main_v29_1 _ _)
  rw [el, er]

def val_main_v30 (x7 : (⟨S64, .f32⟩ : BufTy).Contents (Elt F)) : (⟨S1x64, .f32⟩ : BufTy).Contents (Elt F) :=
  broadcastInDim S1x64 ![1] bcast_S64_S1x64_1 (x7)

def val_main_v31 (x7 : (⟨S64, .f32⟩ : BufTy).Contents (Elt F)) : (⟨S100000x64, .f32⟩ : BufTy).Contents (Elt F) :=
  broadcastInDim S100000x64 ![0, 1] bcast_S1x64_S100000x64_0_1 (val_main_v30 (F := F) x7)

def val_main_v32 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) : (⟨S100000x64, .f32⟩ : BufTy).Contents (Elt F) :=
  addf (val_main_v29 (F := F) x0 x1 x2 x4 x5 x6) (val_main_v31 (F := F) x7)

def val_main_call1_cst : (⟨S_, .f32⟩ : BufTy).Contents (Elt F) :=
  constant S_ .f32 0x00000000#32

def val_main_call1_v0 : (⟨S100000x64, .f32⟩ : BufTy).Contents (Elt F) :=
  broadcastInDim S100000x64 ![] bcast_S_S100000x64 (val_main_call1_cst (F := F))

def val_main_v33 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) : (⟨S100000x64, .f32⟩ : BufTy).Contents (Elt F) :=
  maximumf (val_main_v32 (F := F) x0 x1 x2 x4 x5 x6 x7) (val_main_call1_v0 (F := F))

def val_main_v34 (x8 : (⟨S64x64, .f32⟩ : BufTy).Contents (Elt F)) : (⟨S64x64, .f32⟩ : BufTy).Contents (Elt F) :=
  transpose S64x64 [1, 0] (x8) transposes_S64x64_S64x64_1_0

def val_main_v35 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) : (⟨S100000x64, .f32⟩ : BufTy).Contents (Elt F) :=
  Host.dotGeneral dot_S100000x64_S64x64_S100000x64_1_0_0_1_n_n none (val_main_v33 (F := F) x0 x1 x2 x4 x5 x6 x7) (val_main_v34 (F := F) x8)

def val_main_v36 (x9 : (⟨S64, .f32⟩ : BufTy).Contents (Elt F)) : (⟨S1x64, .f32⟩ : BufTy).Contents (Elt F) :=
  broadcastInDim S1x64 ![1] bcast_S64_S1x64_1 (x9)

def val_main_v37 (x9 : (⟨S64, .f32⟩ : BufTy).Contents (Elt F)) : (⟨S100000x64, .f32⟩ : BufTy).Contents (Elt F) :=
  broadcastInDim S100000x64 ![0, 1] bcast_S1x64_S100000x64_0_1 (val_main_v36 (F := F) x9)

def val_main_v38 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S100000x64, .f32⟩ : BufTy).Contents (Elt F) :=
  addf (val_main_v35 (F := F) x0 x1 x2 x4 x5 x6 x7 x8) (val_main_v37 (F := F) x9)

def val_main_call2_cst : (⟨S_, .f32⟩ : BufTy).Contents (Elt F) :=
  constant S_ .f32 0x00000000#32

def val_main_call2_v0 : (⟨S100000x64, .f32⟩ : BufTy).Contents (Elt F) :=
  broadcastInDim S100000x64 ![] bcast_S_S100000x64 (val_main_call2_cst (F := F))

def val_main_v39 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S100000x64, .f32⟩ : BufTy).Contents (Elt F) :=
  maximumf (val_main_v38 (F := F) x0 x1 x2 x4 x5 x6 x7 x8 x9) (val_main_call2_v0 (F := F))

def val_main_cst_2 : (⟨S_, .f32⟩ : BufTy).Contents (Elt F) :=
  constant S_ .f32 0x00000000#32

def val_main_v40 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S64, .f32⟩ : BufTy).Contents (Elt F) :=
  Host.reduceAdd (val_main_v39 (F := F) x0 x1 x2 x4 x5 x6 x7 x8 x9) (val_main_cst_2 (F := F)) reducesTo_S100000x64_S64_d0 h_S_

def val_main_cst_3 : (⟨S_, .f32⟩ : BufTy).Contents (Elt F) :=
  constant S_ .f32 0x47C35000#32

def val_main_v41 : (⟨S64, .f32⟩ : BufTy).Contents (Elt F) :=
  broadcastInDim S64 ![] bcast_S_S64 (val_main_cst_3 (F := F))

def val_main_v42 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S64, .f32⟩ : BufTy).Contents (Elt F) :=
  Host.divf (val_main_v40 (F := F) x0 x1 x2 x4 x5 x6 x7 x8 x9) (val_main_v41 (F := F))

def val_main_v43 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S1x64, .f32⟩ : BufTy).Contents (Elt F) :=
  broadcastInDim S1x64 ![1] bcast_S64_S1x64_1 (val_main_v42 (F := F) x0 x1 x2 x4 x5 x6 x7 x8 x9)

def val_main_v44 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S100000x64, .f32⟩ : BufTy).Contents (Elt F) :=
  broadcastInDim S100000x64 ![0, 1] bcast_S1x64_S100000x64_0_1 (val_main_v43 (F := F) x0 x1 x2 x4 x5 x6 x7 x8 x9)

def val_main_v45 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S100000x64, .f32⟩ : BufTy).Contents (Elt F) :=
  subf (val_main_v39 (F := F) x0 x1 x2 x4 x5 x6 x7 x8 x9) (val_main_v44 (F := F) x0 x1 x2 x4 x5 x6 x7 x8 x9)

def val_main_v46 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S100000x64, .f32⟩ : BufTy).Contents (Elt F) :=
  mulf (val_main_v45 (F := F) x0 x1 x2 x4 x5 x6 x7 x8 x9) (val_main_v45 (F := F) x0 x1 x2 x4 x5 x6 x7 x8 x9)

def val_main_cst_4 : (⟨S_, .f32⟩ : BufTy).Contents (Elt F) :=
  constant S_ .f32 0x00000000#32

def val_main_v47 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S64, .f32⟩ : BufTy).Contents (Elt F) :=
  Host.reduceAdd (val_main_v46 (F := F) x0 x1 x2 x4 x5 x6 x7 x8 x9) (val_main_cst_4 (F := F)) reducesTo_S100000x64_S64_d0 h_S_

def val_main_cst_5 : (⟨S_, .f32⟩ : BufTy).Contents (Elt F) :=
  constant S_ .f32 0x47C35000#32

def val_main_v48 : (⟨S64, .f32⟩ : BufTy).Contents (Elt F) :=
  broadcastInDim S64 ![] bcast_S_S64 (val_main_cst_5 (F := F))

def val_main_v49 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S64, .f32⟩ : BufTy).Contents (Elt F) :=
  Host.divf (val_main_v47 (F := F) x0 x1 x2 x4 x5 x6 x7 x8 x9) (val_main_v48 (F := F))

def val_main_v50 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S1x64, .f32⟩ : BufTy).Contents (Elt F) :=
  broadcastInDim S1x64 ![1] bcast_S64_S1x64_1 (val_main_v42 (F := F) x0 x1 x2 x4 x5 x6 x7 x8 x9)

def val_main_v51 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S100000x64, .f32⟩ : BufTy).Contents (Elt F) :=
  broadcastInDim S100000x64 ![0, 1] bcast_S1x64_S100000x64_0_1 (val_main_v50 (F := F) x0 x1 x2 x4 x5 x6 x7 x8 x9)

def val_main_v52 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S100000x64, .f32⟩ : BufTy).Contents (Elt F) :=
  subf (val_main_v39 (F := F) x0 x1 x2 x4 x5 x6 x7 x8 x9) (val_main_v51 (F := F) x0 x1 x2 x4 x5 x6 x7 x8 x9)

def val_main_cst_6 : (⟨S_, .f32⟩ : BufTy).Contents (Elt F) :=
  constant S_ .f32 0x3727C5AC#32

def val_main_v53 : (⟨S64, .f32⟩ : BufTy).Contents (Elt F) :=
  broadcastInDim S64 ![] bcast_S_S64 (val_main_cst_6 (F := F))

def val_main_v54 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S64, .f32⟩ : BufTy).Contents (Elt F) :=
  addf (val_main_v49 (F := F) x0 x1 x2 x4 x5 x6 x7 x8 x9) (val_main_v53 (F := F))

def val_main_v55 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S64, .f32⟩ : BufTy).Contents (Elt F) :=
  Host.rsqrt (val_main_v54 (F := F) x0 x1 x2 x4 x5 x6 x7 x8 x9)

def val_main_v56 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S1x64, .f32⟩ : BufTy).Contents (Elt F) :=
  broadcastInDim S1x64 ![1] bcast_S64_S1x64_1 (val_main_v55 (F := F) x0 x1 x2 x4 x5 x6 x7 x8 x9)

def val_main_v57 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S100000x64, .f32⟩ : BufTy).Contents (Elt F) :=
  broadcastInDim S100000x64 ![0, 1] bcast_S1x64_S100000x64_0_1 (val_main_v56 (F := F) x0 x1 x2 x4 x5 x6 x7 x8 x9)

def val_main_v58 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) : (⟨S100000x64, .f32⟩ : BufTy).Contents (Elt F) :=
  mulf (val_main_v52 (F := F) x0 x1 x2 x4 x5 x6 x7 x8 x9) (val_main_v57 (F := F) x0 x1 x2 x4 x5 x6 x7 x8 x9)

def val_main_v59 (x16 : (⟨S4x64, .f32⟩ : BufTy).Contents (Elt F)) : (⟨S1x64, .f32⟩ : BufTy).Contents (Elt F) :=
  broadcastInDim S1x64 ![1] bcast_S64_S1x64_1 (val_main_v5 (F := F) x16)

def val_main_v60 (x16 : (⟨S4x64, .f32⟩ : BufTy).Contents (Elt F)) : (⟨S100000x64, .f32⟩ : BufTy).Contents (Elt F) :=
  broadcastInDim S100000x64 ![0, 1] bcast_S1x64_S100000x64_0_1 (val_main_v59 (F := F) x16)

def val_main_v61 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x16 : (⟨S4x64, .f32⟩ : BufTy).Contents (Elt F)) : (⟨S100000x64, .f32⟩ : BufTy).Contents (Elt F) :=
  mulf (val_main_v58 (F := F) x0 x1 x2 x4 x5 x6 x7 x8 x9) (val_main_v60 (F := F) x16)

def val_main_v62 (x17 : (⟨S4x64, .f32⟩ : BufTy).Contents (Elt F)) : (⟨S1x64, .f32⟩ : BufTy).Contents (Elt F) :=
  broadcastInDim S1x64 ![1] bcast_S64_S1x64_1 (val_main_v7 (F := F) x17)

def val_main_v63 (x17 : (⟨S4x64, .f32⟩ : BufTy).Contents (Elt F)) : (⟨S100000x64, .f32⟩ : BufTy).Contents (Elt F) :=
  broadcastInDim S100000x64 ![0, 1] bcast_S1x64_S100000x64_0_1 (val_main_v62 (F := F) x17)

def val_main_v64 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x16 x17 : (⟨S4x64, .f32⟩ : BufTy).Contents (Elt F)) : (⟨S100000x64, .f32⟩ : BufTy).Contents (Elt F) :=
  addf (val_main_v61 (F := F) x0 x1 x2 x4 x5 x6 x7 x8 x9 x16) (val_main_v63 (F := F) x17)

def val_main_call3_cst : (⟨S_, .f32⟩ : BufTy).Contents (Elt F) :=
  constant S_ .f32 0x00000000#32

def val_main_call3_v0 : (⟨S100000x64, .f32⟩ : BufTy).Contents (Elt F) :=
  broadcastInDim S100000x64 ![] bcast_S_S100000x64 (val_main_call3_cst (F := F))

def val_main_v65 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x16 x17 : (⟨S4x64, .f32⟩ : BufTy).Contents (Elt F)) : (⟨S100000x64, .f32⟩ : BufTy).Contents (Elt F) :=
  maximumf (val_main_v64 (F := F) x0 x1 x2 x4 x5 x6 x7 x8 x9 x16 x17) (val_main_call3_v0 (F := F))

def val_main_v66 (x10 : (⟨S3x64x16, .f32⟩ : BufTy).Contents (Elt F)) : (⟨S1x64x16, .f32⟩ : BufTy).Contents (Elt F) :=
  extractStridedSlice S1x64x16 ![0, 0, 0] (x10) slices_S3x64x16_S1x64x16_0_0_0

def val_main_v67 (x10 : (⟨S3x64x16, .f32⟩ : BufTy).Contents (Elt F)) : (⟨S64x16, .f32⟩ : BufTy).Contents (Elt F) :=
  shapeCast _ (val_main_v66 (F := F) x10) shapeCasts_S1x64x16_S64x16

def val_main_v68 (x11 : (⟨S3x64, .f32⟩ : BufTy).Contents (Elt F)) : (⟨S1x64, .f32⟩ : BufTy).Contents (Elt F) :=
  extractStridedSlice S1x64 ![0, 0] (x11) slices_S3x64_S1x64_0_0

def val_main_v69 (x11 : (⟨S3x64, .f32⟩ : BufTy).Contents (Elt F)) : (⟨S64, .f32⟩ : BufTy).Contents (Elt F) :=
  shapeCast _ (val_main_v68 (F := F) x11) shapeCasts_S1x64_S64

def val_main_v70 (x12 : (⟨S3x64x64, .f32⟩ : BufTy).Contents (Elt F)) : (⟨S1x64x64, .f32⟩ : BufTy).Contents (Elt F) :=
  extractStridedSlice S1x64x64 ![0, 0, 0] (x12) slices_S3x64x64_S1x64x64_0_0_0

def val_main_v71 (x12 : (⟨S3x64x64, .f32⟩ : BufTy).Contents (Elt F)) : (⟨S64x64, .f32⟩ : BufTy).Contents (Elt F) :=
  shapeCast _ (val_main_v70 (F := F) x12) shapeCasts_S1x64x64_S64x64

def val_main_v72 (x13 : (⟨S3x64, .f32⟩ : BufTy).Contents (Elt F)) : (⟨S1x64, .f32⟩ : BufTy).Contents (Elt F) :=
  extractStridedSlice S1x64 ![0, 0] (x13) slices_S3x64_S1x64_0_0

def val_main_v73 (x13 : (⟨S3x64, .f32⟩ : BufTy).Contents (Elt F)) : (⟨S64, .f32⟩ : BufTy).Contents (Elt F) :=
  shapeCast _ (val_main_v72 (F := F) x13) shapeCasts_S1x64_S64

def val_main_v74 (x14 : (⟨S3x64x64, .f32⟩ : BufTy).Contents (Elt F)) : (⟨S1x64x64, .f32⟩ : BufTy).Contents (Elt F) :=
  extractStridedSlice S1x64x64 ![0, 0, 0] (x14) slices_S3x64x64_S1x64x64_0_0_0

def val_main_v75 (x14 : (⟨S3x64x64, .f32⟩ : BufTy).Contents (Elt F)) : (⟨S64x64, .f32⟩ : BufTy).Contents (Elt F) :=
  shapeCast _ (val_main_v74 (F := F) x14) shapeCasts_S1x64x64_S64x64

def val_main_v76 (x15 : (⟨S3x64, .f32⟩ : BufTy).Contents (Elt F)) : (⟨S1x64, .f32⟩ : BufTy).Contents (Elt F) :=
  extractStridedSlice S1x64 ![0, 0] (x15) slices_S3x64_S1x64_0_0

def val_main_v77 (x15 : (⟨S3x64, .f32⟩ : BufTy).Contents (Elt F)) : (⟨S64, .f32⟩ : BufTy).Contents (Elt F) :=
  shapeCast _ (val_main_v76 (F := F) x15) shapeCasts_S1x64_S64

def val_main_v78 (x16 : (⟨S4x64, .f32⟩ : BufTy).Contents (Elt F)) : (⟨S1x64, .f32⟩ : BufTy).Contents (Elt F) :=
  extractStridedSlice S1x64 ![1, 0] (x16) slices_S4x64_S1x64_1_0

def val_main_v79 (x16 : (⟨S4x64, .f32⟩ : BufTy).Contents (Elt F)) : (⟨S64, .f32⟩ : BufTy).Contents (Elt F) :=
  shapeCast _ (val_main_v78 (F := F) x16) shapeCasts_S1x64_S64

def val_main_v80 (x17 : (⟨S4x64, .f32⟩ : BufTy).Contents (Elt F)) : (⟨S1x64, .f32⟩ : BufTy).Contents (Elt F) :=
  extractStridedSlice S1x64 ![1, 0] (x17) slices_S4x64_S1x64_1_0

def val_main_v81 (x17 : (⟨S4x64, .f32⟩ : BufTy).Contents (Elt F)) : (⟨S64, .f32⟩ : BufTy).Contents (Elt F) :=
  shapeCast _ (val_main_v80 (F := F) x17) shapeCasts_S1x64_S64

def val_main_c_7 : (⟨S_, .i32⟩ : BufTy).Contents (Elt F) :=
  constantI S_ 32 0#32

def val_main_v82 : (⟨S1600000, .i32⟩ : BufTy).Contents (Elt F) :=
  broadcastInDim S1600000 ![] bcast_S_S1600000 (val_main_c_7 (F := F))

def val_main_v83 (x1 : (⟨S2x1600000, .i32⟩ : BufTy).Contents (Elt F)) : (⟨S1600000, .i1⟩ : BufTy).Contents (Elt F) :=
  cmpi .slt (val_main_v1 (F := F) x1) (val_main_v82 (F := F))

def val_main_c_8 : (⟨S_, .i32⟩ : BufTy).Contents (Elt F) :=
  constantI S_ 32 100000#32

def val_main_v84 : (⟨S1600000, .i32⟩ : BufTy).Contents (Elt F) :=
  broadcastInDim S1600000 ![] bcast_S_S1600000 (val_main_c_8 (F := F))

def val_main_v85 (x1 : (⟨S2x1600000, .i32⟩ : BufTy).Contents (Elt F)) : (⟨S1600000, .i32⟩ : BufTy).Contents (Elt F) :=
  addi (val_main_v1 (F := F) x1) (val_main_v84 (F := F))

def val_main_v86 (x1 : (⟨S2x1600000, .i32⟩ : BufTy).Contents (Elt F)) : (⟨S1600000, .i32⟩ : BufTy).Contents (Elt F) :=
  select (val_main_v83 (F := F) x1) (val_main_v85 (F := F) x1) (val_main_v1 (F := F) x1)

def val_main_v87 (x1 : (⟨S2x1600000, .i32⟩ : BufTy).Contents (Elt F)) : (⟨S1600000x1, .i32⟩ : BufTy).Contents (Elt F) :=
  broadcastInDim S1600000x1 ![0] bcast_S1600000_S1600000x1_0 (val_main_v86 (F := F) x1)

def val_main_v88 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x16 x17 : (⟨S4x64, .f32⟩ : BufTy).Contents (Elt F)) : (⟨S1600000x64, .f32⟩ : BufTy).Contents (Elt F) :=
  Host.gather gather_S100000x64_S1600000x1_S1600000x64_1_0_n_n_0_1_164 (val_main_v65 (F := F) x0 x1 x2 x4 x5 x6 x7 x8 x9 x16 x17) (val_main_v87 (F := F) x1)

def val_main_v89 (x10 : (⟨S3x64x16, .f32⟩ : BufTy).Contents (Elt F)) : (⟨S16x64, .f32⟩ : BufTy).Contents (Elt F) :=
  transpose S16x64 [1, 0] (val_main_v67 (F := F) x10) transposes_S64x16_S16x64_1_0

def val_main_v90 (x2 : (⟨S1600000x16, .f32⟩ : BufTy).Contents (Elt F)) (x10 : (⟨S3x64x16, .f32⟩ : BufTy).Contents (Elt F)) : (⟨S1600000x64, .f32⟩ : BufTy).Contents (Elt F) :=
  Host.dotGeneral dot_S1600000x16_S16x64_S1600000x64_1_0_0_1_n_n none (x2) (val_main_v89 (F := F) x10)

def val_main_v91 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x16 x17 : (⟨S4x64, .f32⟩ : BufTy).Contents (Elt F)) : (⟨S1600000x64, .f32⟩ : BufTy).Contents (Elt F) :=
  addf (val_main_v88 (F := F) x0 x1 x2 x4 x5 x6 x7 x8 x9 x16 x17) (val_main_v90 (F := F) x2 x10)

def val_main_v92 (x11 : (⟨S3x64, .f32⟩ : BufTy).Contents (Elt F)) : (⟨S1x64, .f32⟩ : BufTy).Contents (Elt F) :=
  broadcastInDim S1x64 ![1] bcast_S64_S1x64_1 (val_main_v69 (F := F) x11)

def val_main_v93 (x11 : (⟨S3x64, .f32⟩ : BufTy).Contents (Elt F)) : (⟨S1600000x64, .f32⟩ : BufTy).Contents (Elt F) :=
  broadcastInDim S1600000x64 ![0, 1] bcast_S1x64_S1600000x64_0_1 (val_main_v92 (F := F) x11)

def val_main_v94 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x16 x17 : (⟨S4x64, .f32⟩ : BufTy).Contents (Elt F)) : (⟨S1600000x64, .f32⟩ : BufTy).Contents (Elt F) :=
  addf (val_main_v91 (F := F) x0 x1 x2 x4 x5 x6 x7 x8 x9 x10 x16 x17) (val_main_v93 (F := F) x11)

def val_main_call4_cst : (⟨S_, .f32⟩ : BufTy).Contents (Elt F) :=
  constant S_ .f32 0x00000000#32

def val_main_call4_v0 : (⟨S1600000x64, .f32⟩ : BufTy).Contents (Elt F) :=
  broadcastInDim S1600000x64 ![] bcast_S_S1600000x64 (val_main_call4_cst (F := F))

def val_main_v95 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x16 x17 : (⟨S4x64, .f32⟩ : BufTy).Contents (Elt F)) : (⟨S1600000x64, .f32⟩ : BufTy).Contents (Elt F) :=
  maximumf (val_main_v94 (F := F) x0 x1 x2 x4 x5 x6 x7 x8 x9 x10 x11 x16 x17) (val_main_call4_v0 (F := F))

def val_main_cst_9 : (⟨S_, .f32⟩ : BufTy).Contents (Elt F) :=
  constant S_ .f32 0x00000000#32

def val_main_v96 : (⟨S100000x64, .f32⟩ : BufTy).Contents (Elt F) :=
  broadcastInDim S100000x64 ![] bcast_S_S100000x64 (val_main_cst_9 (F := F))

def val_main_v97 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v98 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x16 x17 : (⟨S4x64, .f32⟩ : BufTy).Contents (Elt F)) : (⟨S100000x64, .f32⟩ : BufTy).Contents (Elt F) :=
  Host.scatterAdd scatter_S100000x64_S1600000x1_S1600000x64_1_0_0_1 (val_main_v96 (F := F)) (val_main_v97 (F := F) x1) (val_main_v95 (F := F) x0 x1 x2 x4 x5 x6 x7 x8 x9 x10 x11 x16 x17)

def val_main_cst_10 : (⟨S_, .f32⟩ : BufTy).Contents (Elt F) :=
  constant S_ .f32 0x3F800000#32

def val_main_v99 : (⟨S100000x64, .f32⟩ : BufTy).Contents (Elt F) :=
  broadcastInDim S100000x64 ![] bcast_S_S100000x64 (val_main_cst_10 (F := F))

def val_main_v100 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x16 x17 : (⟨S4x64, .f32⟩ : BufTy).Contents (Elt F)) : (⟨S100000x64, .f32⟩ : BufTy).Contents (Elt F) :=
  mulf (val_main_v99 (F := F)) (val_main_v65 (F := F) x0 x1 x2 x4 x5 x6 x7 x8 x9 x16 x17)

def val_main_v101 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x16 x17 : (⟨S4x64, .f32⟩ : BufTy).Contents (Elt F)) : (⟨S100000x64, .f32⟩ : BufTy).Contents (Elt F) :=
  addf (val_main_v100 (F := F) x0 x1 x2 x4 x5 x6 x7 x8 x9 x16 x17) (val_main_v98 (F := F) x0 x1 x2 x4 x5 x6 x7 x8 x9 x10 x11 x16 x17)

def val_main_v102 (x12 : (⟨S3x64x64, .f32⟩ : BufTy).Contents (Elt F)) : (⟨S64x64, .f32⟩ : BufTy).Contents (Elt F) :=
  transpose S64x64 [1, 0] (val_main_v71 (F := F) x12) transposes_S64x64_S64x64_1_0

def val_main_v103 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x16 x17 : (⟨S4x64, .f32⟩ : BufTy).Contents (Elt F)) : (⟨S100000x64, .f32⟩ : BufTy).Contents (Elt F) :=
  Host.dotGeneral dot_S100000x64_S64x64_S100000x64_1_0_0_1_n_n none (val_main_v101 (F := F) x0 x1 x2 x4 x5 x6 x7 x8 x9 x10 x11 x16 x17) (val_main_v102 (F := F) x12)

def val_main_v104 (x13 : (⟨S3x64, .f32⟩ : BufTy).Contents (Elt F)) : (⟨S1x64, .f32⟩ : BufTy).Contents (Elt F) :=
  broadcastInDim S1x64 ![1] bcast_S64_S1x64_1 (val_main_v73 (F := F) x13)

def val_main_v105 (x13 : (⟨S3x64, .f32⟩ : BufTy).Contents (Elt F)) : (⟨S100000x64, .f32⟩ : BufTy).Contents (Elt F) :=
  broadcastInDim S100000x64 ![0, 1] bcast_S1x64_S100000x64_0_1 (val_main_v104 (F := F) x13)

def val_main_v106 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x16 x17 : (⟨S4x64, .f32⟩ : BufTy).Contents (Elt F)) : (⟨S100000x64, .f32⟩ : BufTy).Contents (Elt F) :=
  addf (val_main_v103 (F := F) x0 x1 x2 x4 x5 x6 x7 x8 x9 x10 x11 x12 x16 x17) (val_main_v105 (F := F) x13)

def val_main_call5_cst : (⟨S_, .f32⟩ : BufTy).Contents (Elt F) :=
  constant S_ .f32 0x00000000#32

def val_main_call5_v0 : (⟨S100000x64, .f32⟩ : BufTy).Contents (Elt F) :=
  broadcastInDim S100000x64 ![] bcast_S_S100000x64 (val_main_call5_cst (F := F))

def val_main_v107 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x16 x17 : (⟨S4x64, .f32⟩ : BufTy).Contents (Elt F)) : (⟨S100000x64, .f32⟩ : BufTy).Contents (Elt F) :=
  maximumf (val_main_v106 (F := F) x0 x1 x2 x4 x5 x6 x7 x8 x9 x10 x11 x12 x13 x16 x17) (val_main_call5_v0 (F := F))

def val_main_v108 (x14 : (⟨S3x64x64, .f32⟩ : BufTy).Contents (Elt F)) : (⟨S64x64, .f32⟩ : BufTy).Contents (Elt F) :=
  transpose S64x64 [1, 0] (val_main_v75 (F := F) x14) transposes_S64x64_S64x64_1_0

def val_main_v109 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x16 x17 : (⟨S4x64, .f32⟩ : BufTy).Contents (Elt F)) : (⟨S100000x64, .f32⟩ : BufTy).Contents (Elt F) :=
  Host.dotGeneral dot_S100000x64_S64x64_S100000x64_1_0_0_1_n_n none (val_main_v107 (F := F) x0 x1 x2 x4 x5 x6 x7 x8 x9 x10 x11 x12 x13 x16 x17) (val_main_v108 (F := F) x14)

def val_main_v110 (x15 : (⟨S3x64, .f32⟩ : BufTy).Contents (Elt F)) : (⟨S1x64, .f32⟩ : BufTy).Contents (Elt F) :=
  broadcastInDim S1x64 ![1] bcast_S64_S1x64_1 (val_main_v77 (F := F) x15)

def val_main_v111 (x15 : (⟨S3x64, .f32⟩ : BufTy).Contents (Elt F)) : (⟨S100000x64, .f32⟩ : BufTy).Contents (Elt F) :=
  broadcastInDim S100000x64 ![0, 1] bcast_S1x64_S100000x64_0_1 (val_main_v110 (F := F) x15)

def val_main_v112 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v109 (F := F) x0 x1 x2 x4 x5 x6 x7 x8 x9 x10 x11 x12 x13 x14 x16 x17) (val_main_v111 (F := F) x15)

def val_main_call6_cst : (⟨S_, .f32⟩ : BufTy).Contents (Elt F) :=
  constant S_ .f32 0x00000000#32

def val_main_call6_v0 : (⟨S100000x64, .f32⟩ : BufTy).Contents (Elt F) :=
  broadcastInDim S100000x64 ![] bcast_S_S100000x64 (val_main_call6_cst (F := F))

def val_main_v113 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  maximumf (val_main_v112 (F := F) x0 x1 x2 x4 x5 x6 x7 x8 x9 x10 x11 x12 x13 x14 x15 x16 x17) (val_main_call6_v0 (F := F))

def val_main_cst_11 : (⟨S_, .f32⟩ : BufTy).Contents (Elt F) :=
  constant S_ .f32 0x00000000#32

def val_main_v114 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.reduceAdd (val_main_v113 (F := F) x0 x1 x2 x4 x5 x6 x7 x8 x9 x10 x11 x12 x13 x14 x15 x16 x17) (val_main_cst_11 (F := F)) reducesTo_S100000x64_S64_d0 h_S_

def val_main_cst_12 : (⟨S_, .f32⟩ : BufTy).Contents (Elt F) :=
  constant S_ .f32 0x47C35000#32

def val_main_v115 : (⟨S64, .f32⟩ : BufTy).Contents (Elt F) :=
  broadcastInDim S64 ![] bcast_S_S64 (val_main_cst_12 (F := F))

def val_main_v116 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.divf (val_main_v114 (F := F) x0 x1 x2 x4 x5 x6 x7 x8 x9 x10 x11 x12 x13 x14 x15 x16 x17) (val_main_v115 (F := F))

def val_main_v117 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1x64, .f32⟩ : BufTy).Contents (Elt F) :=
  broadcastInDim S1x64 ![1] bcast_S64_S1x64_1 (val_main_v116 (F := F) x0 x1 x2 x4 x5 x6 x7 x8 x9 x10 x11 x12 x13 x14 x15 x16 x17)

def val_main_v118 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  broadcastInDim S100000x64 ![0, 1] bcast_S1x64_S100000x64_0_1 (val_main_v117 (F := F) x0 x1 x2 x4 x5 x6 x7 x8 x9 x10 x11 x12 x13 x14 x15 x16 x17)

def val_main_v119 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  subf (val_main_v113 (F := F) x0 x1 x2 x4 x5 x6 x7 x8 x9 x10 x11 x12 x13 x14 x15 x16 x17) (val_main_v118 (F := F) x0 x1 x2 x4 x5 x6 x7 x8 x9 x10 x11 x12 x13 x14 x15 x16 x17)

def val_main_v120 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v119 (F := F) x0 x1 x2 x4 x5 x6 x7 x8 x9 x10 x11 x12 x13 x14 x15 x16 x17) (val_main_v119 (F := F) x0 x1 x2 x4 x5 x6 x7 x8 x9 x10 x11 x12 x13 x14 x15 x16 x17)

def val_main_cst_13 : (⟨S_, .f32⟩ : BufTy).Contents (Elt F) :=
  constant S_ .f32 0x00000000#32

def val_main_v121 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.reduceAdd (val_main_v120 (F := F) x0 x1 x2 x4 x5 x6 x7 x8 x9 x10 x11 x12 x13 x14 x15 x16 x17) (val_main_cst_13 (F := F)) reducesTo_S100000x64_S64_d0 h_S_

def val_main_cst_14 : (⟨S_, .f32⟩ : BufTy).Contents (Elt F) :=
  constant S_ .f32 0x47C35000#32

def val_main_v122 : (⟨S64, .f32⟩ : BufTy).Contents (Elt F) :=
  broadcastInDim S64 ![] bcast_S_S64 (val_main_cst_14 (F := F))

def val_main_v123 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.divf (val_main_v121 (F := F) x0 x1 x2 x4 x5 x6 x7 x8 x9 x10 x11 x12 x13 x14 x15 x16 x17) (val_main_v122 (F := F))

def val_main_v124 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1x64, .f32⟩ : BufTy).Contents (Elt F) :=
  broadcastInDim S1x64 ![1] bcast_S64_S1x64_1 (val_main_v116 (F := F) x0 x1 x2 x4 x5 x6 x7 x8 x9 x10 x11 x12 x13 x14 x15 x16 x17)

def val_main_v125 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  broadcastInDim S100000x64 ![0, 1] bcast_S1x64_S100000x64_0_1 (val_main_v124 (F := F) x0 x1 x2 x4 x5 x6 x7 x8 x9 x10 x11 x12 x13 x14 x15 x16 x17)

def val_main_v126 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  subf (val_main_v113 (F := F) x0 x1 x2 x4 x5 x6 x7 x8 x9 x10 x11 x12 x13 x14 x15 x16 x17) (val_main_v125 (F := F) x0 x1 x2 x4 x5 x6 x7 x8 x9 x10 x11 x12 x13 x14 x15 x16 x17)

def val_main_cst_15 : (⟨S_, .f32⟩ : BufTy).Contents (Elt F) :=
  constant S_ .f32 0x3727C5AC#32

def val_main_v127 : (⟨S64, .f32⟩ : BufTy).Contents (Elt F) :=
  broadcastInDim S64 ![] bcast_S_S64 (val_main_cst_15 (F := F))

def val_main_v128 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  addf (val_main_v123 (F := F) x0 x1 x2 x4 x5 x6 x7 x8 x9 x10 x11 x12 x13 x14 x15 x16 x17) (val_main_v127 (F := F))

def val_main_v129 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.rsqrt (val_main_v128 (F := F) x0 x1 x2 x4 x5 x6 x7 x8 x9 x10 x11 x12 x13 x14 x15 x16 x17)

def val_main_v130 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1x64, .f32⟩ : BufTy).Contents (Elt F) :=
  broadcastInDim S1x64 ![1] bcast_S64_S1x64_1 (val_main_v129 (F := F) x0 x1 x2 x4 x5 x6 x7 x8 x9 x10 x11 x12 x13 x14 x15 x16 x17)

def val_main_v131 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  broadcastInDim S100000x64 ![0, 1] bcast_S1x64_S100000x64_0_1 (val_main_v130 (F := F) x0 x1 x2 x4 x5 x6 x7 x8 x9 x10 x11 x12 x13 x14 x15 x16 x17)

def val_main_v132 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v126 (F := F) x0 x1 x2 x4 x5 x6 x7 x8 x9 x10 x11 x12 x13 x14 x15 x16 x17) (val_main_v131 (F := F) x0 x1 x2 x4 x5 x6 x7 x8 x9 x10 x11 x12 x13 x14 x15 x16 x17)

def val_main_v133 (x16 : (⟨S4x64, .f32⟩ : BufTy).Contents (Elt F)) : (⟨S1x64, .f32⟩ : BufTy).Contents (Elt F) :=
  broadcastInDim S1x64 ![1] bcast_S64_S1x64_1 (val_main_v79 (F := F) x16)

def val_main_v134 (x16 : (⟨S4x64, .f32⟩ : BufTy).Contents (Elt F)) : (⟨S100000x64, .f32⟩ : BufTy).Contents (Elt F) :=
  broadcastInDim S100000x64 ![0, 1] bcast_S1x64_S100000x64_0_1 (val_main_v133 (F := F) x16)

def val_main_v135 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v132 (F := F) x0 x1 x2 x4 x5 x6 x7 x8 x9 x10 x11 x12 x13 x14 x15 x16 x17) (val_main_v134 (F := F) x16)

def val_main_v136 (x17 : (⟨S4x64, .f32⟩ : BufTy).Contents (Elt F)) : (⟨S1x64, .f32⟩ : BufTy).Contents (Elt F) :=
  broadcastInDim S1x64 ![1] bcast_S64_S1x64_1 (val_main_v81 (F := F) x17)

def val_main_v137 (x17 : (⟨S4x64, .f32⟩ : BufTy).Contents (Elt F)) : (⟨S100000x64, .f32⟩ : BufTy).Contents (Elt F) :=
  broadcastInDim S100000x64 ![0, 1] bcast_S1x64_S100000x64_0_1 (val_main_v136 (F := F) x17)

def val_main_v138 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v135 (F := F) x0 x1 x2 x4 x5 x6 x7 x8 x9 x10 x11 x12 x13 x14 x15 x16 x17) (val_main_v137 (F := F) x17)

def val_main_call7_cst : (⟨S_, .f32⟩ : BufTy).Contents (Elt F) :=
  constant S_ .f32 0x00000000#32

def val_main_call7_v0 : (⟨S100000x64, .f32⟩ : BufTy).Contents (Elt F) :=
  broadcastInDim S100000x64 ![] bcast_S_S100000x64 (val_main_call7_cst (F := F))

def val_main_v139 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  maximumf (val_main_v138 (F := F) x0 x1 x2 x4 x5 x6 x7 x8 x9 x10 x11 x12 x13 x14 x15 x16 x17) (val_main_call7_v0 (F := F))

def val_main_v140 (x10 : (⟨S3x64x16, .f32⟩ : BufTy).Contents (Elt F)) : (⟨S1x64x16, .f32⟩ : BufTy).Contents (Elt F) :=
  extractStridedSlice S1x64x16 ![1, 0, 0] (x10) slices_S3x64x16_S1x64x16_1_0_0

def val_main_v141 (x10 : (⟨S3x64x16, .f32⟩ : BufTy).Contents (Elt F)) : (⟨S64x16, .f32⟩ : BufTy).Contents (Elt F) :=
  shapeCast _ (val_main_v140 (F := F) x10) shapeCasts_S1x64x16_S64x16

def val_main_v142 (x11 : (⟨S3x64, .f32⟩ : BufTy).Contents (Elt F)) : (⟨S1x64, .f32⟩ : BufTy).Contents (Elt F) :=
  extractStridedSlice S1x64 ![1, 0] (x11) slices_S3x64_S1x64_1_0

def val_main_v143 (x11 : (⟨S3x64, .f32⟩ : BufTy).Contents (Elt F)) : (⟨S64, .f32⟩ : BufTy).Contents (Elt F) :=
  shapeCast _ (val_main_v142 (F := F) x11) shapeCasts_S1x64_S64

def val_main_v144 (x12 : (⟨S3x64x64, .f32⟩ : BufTy).Contents (Elt F)) : (⟨S1x64x64, .f32⟩ : BufTy).Contents (Elt F) :=
  extractStridedSlice S1x64x64 ![1, 0, 0] (x12) slices_S3x64x64_S1x64x64_1_0_0

def val_main_v145 (x12 : (⟨S3x64x64, .f32⟩ : BufTy).Contents (Elt F)) : (⟨S64x64, .f32⟩ : BufTy).Contents (Elt F) :=
  shapeCast _ (val_main_v144 (F := F) x12) shapeCasts_S1x64x64_S64x64

def val_main_v146 (x13 : (⟨S3x64, .f32⟩ : BufTy).Contents (Elt F)) : (⟨S1x64, .f32⟩ : BufTy).Contents (Elt F) :=
  extractStridedSlice S1x64 ![1, 0] (x13) slices_S3x64_S1x64_1_0

def val_main_v147 (x13 : (⟨S3x64, .f32⟩ : BufTy).Contents (Elt F)) : (⟨S64, .f32⟩ : BufTy).Contents (Elt F) :=
  shapeCast _ (val_main_v146 (F := F) x13) shapeCasts_S1x64_S64

def val_main_v148 (x14 : (⟨S3x64x64, .f32⟩ : BufTy).Contents (Elt F)) : (⟨S1x64x64, .f32⟩ : BufTy).Contents (Elt F) :=
  extractStridedSlice S1x64x64 ![1, 0, 0] (x14) slices_S3x64x64_S1x64x64_1_0_0

def val_main_v149 (x14 : (⟨S3x64x64, .f32⟩ : BufTy).Contents (Elt F)) : (⟨S64x64, .f32⟩ : BufTy).Contents (Elt F) :=
  shapeCast _ (val_main_v148 (F := F) x14) shapeCasts_S1x64x64_S64x64

def val_main_v150 (x15 : (⟨S3x64, .f32⟩ : BufTy).Contents (Elt F)) : (⟨S1x64, .f32⟩ : BufTy).Contents (Elt F) :=
  extractStridedSlice S1x64 ![1, 0] (x15) slices_S3x64_S1x64_1_0

def val_main_v151 (x15 : (⟨S3x64, .f32⟩ : BufTy).Contents (Elt F)) : (⟨S64, .f32⟩ : BufTy).Contents (Elt F) :=
  shapeCast _ (val_main_v150 (F := F) x15) shapeCasts_S1x64_S64

def val_main_v152 (x16 : (⟨S4x64, .f32⟩ : BufTy).Contents (Elt F)) : (⟨S1x64, .f32⟩ : BufTy).Contents (Elt F) :=
  extractStridedSlice S1x64 ![2, 0] (x16) slices_S4x64_S1x64_2_0

def val_main_v153 (x16 : (⟨S4x64, .f32⟩ : BufTy).Contents (Elt F)) : (⟨S64, .f32⟩ : BufTy).Contents (Elt F) :=
  shapeCast _ (val_main_v152 (F := F) x16) shapeCasts_S1x64_S64

def val_main_v154 (x17 : (⟨S4x64, .f32⟩ : BufTy).Contents (Elt F)) : (⟨S1x64, .f32⟩ : BufTy).Contents (Elt F) :=
  extractStridedSlice S1x64 ![2, 0] (x17) slices_S4x64_S1x64_2_0

def val_main_v155 (x17 : (⟨S4x64, .f32⟩ : BufTy).Contents (Elt F)) : (⟨S64, .f32⟩ : BufTy).Contents (Elt F) :=
  shapeCast _ (val_main_v154 (F := F) x17) shapeCasts_S1x64_S64

def val_main_c_16 : (⟨S_, .i32⟩ : BufTy).Contents (Elt F) :=
  constantI S_ 32 0#32

def val_main_v156 : (⟨S1600000, .i32⟩ : BufTy).Contents (Elt F) :=
  broadcastInDim S1600000 ![] bcast_S_S1600000 (val_main_c_16 (F := F))

def val_main_v157 (x1 : (⟨S2x1600000, .i32⟩ : BufTy).Contents (Elt F)) : (⟨S1600000, .i1⟩ : BufTy).Contents (Elt F) :=
  cmpi .slt (val_main_v1 (F := F) x1) (val_main_v156 (F := F))

def val_main_c_17 : (⟨S_, .i32⟩ : BufTy).Contents (Elt F) :=
  constantI S_ 32 100000#32

def val_main_v158 : (⟨S1600000, .i32⟩ : BufTy).Contents (Elt F) :=
  broadcastInDim S1600000 ![] bcast_S_S1600000 (val_main_c_17 (F := F))

def val_main_v159 (x1 : (⟨S2x1600000, .i32⟩ : BufTy).Contents (Elt F)) : (⟨S1600000, .i32⟩ : BufTy).Contents (Elt F) :=
  addi (val_main_v1 (F := F) x1) (val_main_v158 (F := F))

def val_main_v160 (x1 : (⟨S2x1600000, .i32⟩ : BufTy).Contents (Elt F)) : (⟨S1600000, .i32⟩ : BufTy).Contents (Elt F) :=
  select (val_main_v157 (F := F) x1) (val_main_v159 (F := F) x1) (val_main_v1 (F := F) x1)

def val_main_v161 (x1 : (⟨S2x1600000, .i32⟩ : BufTy).Contents (Elt F)) : (⟨S1600000x1, .i32⟩ : BufTy).Contents (Elt F) :=
  broadcastInDim S1600000x1 ![0] bcast_S1600000_S1600000x1_0 (val_main_v160 (F := F) x1)

def val_main_v162 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1600000x64, .f32⟩ : BufTy).Contents (Elt F) :=
  Host.gather gather_S100000x64_S1600000x1_S1600000x64_1_0_n_n_0_1_164 (val_main_v139 (F := F) x0 x1 x2 x4 x5 x6 x7 x8 x9 x10 x11 x12 x13 x14 x15 x16 x17) (val_main_v161 (F := F) x1)

def val_main_v163 (x10 : (⟨S3x64x16, .f32⟩ : BufTy).Contents (Elt F)) : (⟨S16x64, .f32⟩ : BufTy).Contents (Elt F) :=
  transpose S16x64 [1, 0] (val_main_v141 (F := F) x10) transposes_S64x16_S16x64_1_0

def val_main_v164 (x2 : (⟨S1600000x16, .f32⟩ : BufTy).Contents (Elt F)) (x10 : (⟨S3x64x16, .f32⟩ : BufTy).Contents (Elt F)) : (⟨S1600000x64, .f32⟩ : BufTy).Contents (Elt F) :=
  Host.dotGeneral dot_S1600000x16_S16x64_S1600000x64_1_0_0_1_n_n none (x2) (val_main_v163 (F := F) x10)

def val_main_v165 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1600000x64, .f32⟩ : BufTy).Contents (Elt F) :=
  addf (val_main_v162 (F := F) x0 x1 x2 x4 x5 x6 x7 x8 x9 x10 x11 x12 x13 x14 x15 x16 x17) (val_main_v164 (F := F) x2 x10)

def val_main_v166 (x11 : (⟨S3x64, .f32⟩ : BufTy).Contents (Elt F)) : (⟨S1x64, .f32⟩ : BufTy).Contents (Elt F) :=
  broadcastInDim S1x64 ![1] bcast_S64_S1x64_1 (val_main_v143 (F := F) x11)

def val_main_v167 (x11 : (⟨S3x64, .f32⟩ : BufTy).Contents (Elt F)) : (⟨S1600000x64, .f32⟩ : BufTy).Contents (Elt F) :=
  broadcastInDim S1600000x64 ![0, 1] bcast_S1x64_S1600000x64_0_1 (val_main_v166 (F := F) x11)

def val_main_v168 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1600000x64, .f32⟩ : BufTy).Contents (Elt F) :=
  addf (val_main_v165 (F := F) x0 x1 x2 x4 x5 x6 x7 x8 x9 x10 x11 x12 x13 x14 x15 x16 x17) (val_main_v167 (F := F) x11)

def val_main_call8_cst : (⟨S_, .f32⟩ : BufTy).Contents (Elt F) :=
  constant S_ .f32 0x00000000#32

def val_main_call8_v0 : (⟨S1600000x64, .f32⟩ : BufTy).Contents (Elt F) :=
  broadcastInDim S1600000x64 ![] bcast_S_S1600000x64 (val_main_call8_cst (F := F))

def val_main_v169 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1600000x64, .f32⟩ : BufTy).Contents (Elt F) :=
  maximumf (val_main_v168 (F := F) x0 x1 x2 x4 x5 x6 x7 x8 x9 x10 x11 x12 x13 x14 x15 x16 x17) (val_main_call8_v0 (F := F))

def val_main_cst_18 : (⟨S_, .f32⟩ : BufTy).Contents (Elt F) :=
  constant S_ .f32 0x00000000#32

def val_main_v170 : (⟨S100000x64, .f32⟩ : BufTy).Contents (Elt F) :=
  broadcastInDim S100000x64 ![] bcast_S_S100000x64 (val_main_cst_18 (F := F))

def val_main_v171 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v172 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  Host.scatterAdd scatter_S100000x64_S1600000x1_S1600000x64_1_0_0_1 (val_main_v170 (F := F)) (val_main_v171 (F := F) x1) (val_main_v169 (F := F) x0 x1 x2 x4 x5 x6 x7 x8 x9 x10 x11 x12 x13 x14 x15 x16 x17)

def val_main_cst_19 : (⟨S_, .f32⟩ : BufTy).Contents (Elt F) :=
  constant S_ .f32 0x3F800000#32

def val_main_v173 : (⟨S100000x64, .f32⟩ : BufTy).Contents (Elt F) :=
  broadcastInDim S100000x64 ![] bcast_S_S100000x64 (val_main_cst_19 (F := F))

def val_main_v174 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v173 (F := F)) (val_main_v139 (F := F) x0 x1 x2 x4 x5 x6 x7 x8 x9 x10 x11 x12 x13 x14 x15 x16 x17)

def val_main_v175 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v174 (F := F) x0 x1 x2 x4 x5 x6 x7 x8 x9 x10 x11 x12 x13 x14 x15 x16 x17) (val_main_v172 (F := F) x0 x1 x2 x4 x5 x6 x7 x8 x9 x10 x11 x12 x13 x14 x15 x16 x17)

def val_main_v176 (x12 : (⟨S3x64x64, .f32⟩ : BufTy).Contents (Elt F)) : (⟨S64x64, .f32⟩ : BufTy).Contents (Elt F) :=
  transpose S64x64 [1, 0] (val_main_v145 (F := F) x12) transposes_S64x64_S64x64_1_0

def val_main_v177 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  Host.dotGeneral dot_S100000x64_S64x64_S100000x64_1_0_0_1_n_n none (val_main_v175 (F := F) x0 x1 x2 x4 x5 x6 x7 x8 x9 x10 x11 x12 x13 x14 x15 x16 x17) (val_main_v176 (F := F) x12)

def val_main_v178 (x13 : (⟨S3x64, .f32⟩ : BufTy).Contents (Elt F)) : (⟨S1x64, .f32⟩ : BufTy).Contents (Elt F) :=
  broadcastInDim S1x64 ![1] bcast_S64_S1x64_1 (val_main_v147 (F := F) x13)

def val_main_v179 (x13 : (⟨S3x64, .f32⟩ : BufTy).Contents (Elt F)) : (⟨S100000x64, .f32⟩ : BufTy).Contents (Elt F) :=
  broadcastInDim S100000x64 ![0, 1] bcast_S1x64_S100000x64_0_1 (val_main_v178 (F := F) x13)

def val_main_v180 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v177 (F := F) x0 x1 x2 x4 x5 x6 x7 x8 x9 x10 x11 x12 x13 x14 x15 x16 x17) (val_main_v179 (F := F) x13)

def val_main_call9_cst : (⟨S_, .f32⟩ : BufTy).Contents (Elt F) :=
  constant S_ .f32 0x00000000#32

def val_main_call9_v0 : (⟨S100000x64, .f32⟩ : BufTy).Contents (Elt F) :=
  broadcastInDim S100000x64 ![] bcast_S_S100000x64 (val_main_call9_cst (F := F))

def val_main_v181 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  maximumf (val_main_v180 (F := F) x0 x1 x2 x4 x5 x6 x7 x8 x9 x10 x11 x12 x13 x14 x15 x16 x17) (val_main_call9_v0 (F := F))

def val_main_v182 (x14 : (⟨S3x64x64, .f32⟩ : BufTy).Contents (Elt F)) : (⟨S64x64, .f32⟩ : BufTy).Contents (Elt F) :=
  transpose S64x64 [1, 0] (val_main_v149 (F := F) x14) transposes_S64x64_S64x64_1_0

def val_main_v183 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  Host.dotGeneral dot_S100000x64_S64x64_S100000x64_1_0_0_1_n_n none (val_main_v181 (F := F) x0 x1 x2 x4 x5 x6 x7 x8 x9 x10 x11 x12 x13 x14 x15 x16 x17) (val_main_v182 (F := F) x14)

def val_main_v184 (x15 : (⟨S3x64, .f32⟩ : BufTy).Contents (Elt F)) : (⟨S1x64, .f32⟩ : BufTy).Contents (Elt F) :=
  broadcastInDim S1x64 ![1] bcast_S64_S1x64_1 (val_main_v151 (F := F) x15)

def val_main_v185 (x15 : (⟨S3x64, .f32⟩ : BufTy).Contents (Elt F)) : (⟨S100000x64, .f32⟩ : BufTy).Contents (Elt F) :=
  broadcastInDim S100000x64 ![0, 1] bcast_S1x64_S100000x64_0_1 (val_main_v184 (F := F) x15)

def val_main_v186 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v183 (F := F) x0 x1 x2 x4 x5 x6 x7 x8 x9 x10 x11 x12 x13 x14 x15 x16 x17) (val_main_v185 (F := F) x15)

def val_main_call10_cst : (⟨S_, .f32⟩ : BufTy).Contents (Elt F) :=
  constant S_ .f32 0x00000000#32

def val_main_call10_v0 : (⟨S100000x64, .f32⟩ : BufTy).Contents (Elt F) :=
  broadcastInDim S100000x64 ![] bcast_S_S100000x64 (val_main_call10_cst (F := F))

def val_main_v187 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  maximumf (val_main_v186 (F := F) x0 x1 x2 x4 x5 x6 x7 x8 x9 x10 x11 x12 x13 x14 x15 x16 x17) (val_main_call10_v0 (F := F))

def val_main_cst_20 : (⟨S_, .f32⟩ : BufTy).Contents (Elt F) :=
  constant S_ .f32 0x00000000#32

def val_main_v188 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.reduceAdd (val_main_v187 (F := F) x0 x1 x2 x4 x5 x6 x7 x8 x9 x10 x11 x12 x13 x14 x15 x16 x17) (val_main_cst_20 (F := F)) reducesTo_S100000x64_S64_d0 h_S_

def val_main_cst_21 : (⟨S_, .f32⟩ : BufTy).Contents (Elt F) :=
  constant S_ .f32 0x47C35000#32

def val_main_v189 : (⟨S64, .f32⟩ : BufTy).Contents (Elt F) :=
  broadcastInDim S64 ![] bcast_S_S64 (val_main_cst_21 (F := F))

def val_main_v190 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.divf (val_main_v188 (F := F) x0 x1 x2 x4 x5 x6 x7 x8 x9 x10 x11 x12 x13 x14 x15 x16 x17) (val_main_v189 (F := F))

def val_main_v191 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1x64, .f32⟩ : BufTy).Contents (Elt F) :=
  broadcastInDim S1x64 ![1] bcast_S64_S1x64_1 (val_main_v190 (F := F) x0 x1 x2 x4 x5 x6 x7 x8 x9 x10 x11 x12 x13 x14 x15 x16 x17)

def val_main_v192 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  broadcastInDim S100000x64 ![0, 1] bcast_S1x64_S100000x64_0_1 (val_main_v191 (F := F) x0 x1 x2 x4 x5 x6 x7 x8 x9 x10 x11 x12 x13 x14 x15 x16 x17)

def val_main_v193 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  subf (val_main_v187 (F := F) x0 x1 x2 x4 x5 x6 x7 x8 x9 x10 x11 x12 x13 x14 x15 x16 x17) (val_main_v192 (F := F) x0 x1 x2 x4 x5 x6 x7 x8 x9 x10 x11 x12 x13 x14 x15 x16 x17)

def val_main_v194 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v193 (F := F) x0 x1 x2 x4 x5 x6 x7 x8 x9 x10 x11 x12 x13 x14 x15 x16 x17) (val_main_v193 (F := F) x0 x1 x2 x4 x5 x6 x7 x8 x9 x10 x11 x12 x13 x14 x15 x16 x17)

def val_main_cst_22 : (⟨S_, .f32⟩ : BufTy).Contents (Elt F) :=
  constant S_ .f32 0x00000000#32

def val_main_v195 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.reduceAdd (val_main_v194 (F := F) x0 x1 x2 x4 x5 x6 x7 x8 x9 x10 x11 x12 x13 x14 x15 x16 x17) (val_main_cst_22 (F := F)) reducesTo_S100000x64_S64_d0 h_S_

def val_main_cst_23 : (⟨S_, .f32⟩ : BufTy).Contents (Elt F) :=
  constant S_ .f32 0x47C35000#32

def val_main_v196 : (⟨S64, .f32⟩ : BufTy).Contents (Elt F) :=
  broadcastInDim S64 ![] bcast_S_S64 (val_main_cst_23 (F := F))

def val_main_v197 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.divf (val_main_v195 (F := F) x0 x1 x2 x4 x5 x6 x7 x8 x9 x10 x11 x12 x13 x14 x15 x16 x17) (val_main_v196 (F := F))

def val_main_v198 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1x64, .f32⟩ : BufTy).Contents (Elt F) :=
  broadcastInDim S1x64 ![1] bcast_S64_S1x64_1 (val_main_v190 (F := F) x0 x1 x2 x4 x5 x6 x7 x8 x9 x10 x11 x12 x13 x14 x15 x16 x17)

def val_main_v199 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  broadcastInDim S100000x64 ![0, 1] bcast_S1x64_S100000x64_0_1 (val_main_v198 (F := F) x0 x1 x2 x4 x5 x6 x7 x8 x9 x10 x11 x12 x13 x14 x15 x16 x17)

def val_main_v200 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  subf (val_main_v187 (F := F) x0 x1 x2 x4 x5 x6 x7 x8 x9 x10 x11 x12 x13 x14 x15 x16 x17) (val_main_v199 (F := F) x0 x1 x2 x4 x5 x6 x7 x8 x9 x10 x11 x12 x13 x14 x15 x16 x17)

def val_main_cst_24 : (⟨S_, .f32⟩ : BufTy).Contents (Elt F) :=
  constant S_ .f32 0x3727C5AC#32

def val_main_v201 : (⟨S64, .f32⟩ : BufTy).Contents (Elt F) :=
  broadcastInDim S64 ![] bcast_S_S64 (val_main_cst_24 (F := F))

def val_main_v202 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  addf (val_main_v197 (F := F) x0 x1 x2 x4 x5 x6 x7 x8 x9 x10 x11 x12 x13 x14 x15 x16 x17) (val_main_v201 (F := F))

def val_main_v203 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.rsqrt (val_main_v202 (F := F) x0 x1 x2 x4 x5 x6 x7 x8 x9 x10 x11 x12 x13 x14 x15 x16 x17)

def val_main_v204 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1x64, .f32⟩ : BufTy).Contents (Elt F) :=
  broadcastInDim S1x64 ![1] bcast_S64_S1x64_1 (val_main_v203 (F := F) x0 x1 x2 x4 x5 x6 x7 x8 x9 x10 x11 x12 x13 x14 x15 x16 x17)

def val_main_v205 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  broadcastInDim S100000x64 ![0, 1] bcast_S1x64_S100000x64_0_1 (val_main_v204 (F := F) x0 x1 x2 x4 x5 x6 x7 x8 x9 x10 x11 x12 x13 x14 x15 x16 x17)

def val_main_v206 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v200 (F := F) x0 x1 x2 x4 x5 x6 x7 x8 x9 x10 x11 x12 x13 x14 x15 x16 x17) (val_main_v205 (F := F) x0 x1 x2 x4 x5 x6 x7 x8 x9 x10 x11 x12 x13 x14 x15 x16 x17)

def val_main_v207 (x16 : (⟨S4x64, .f32⟩ : BufTy).Contents (Elt F)) : (⟨S1x64, .f32⟩ : BufTy).Contents (Elt F) :=
  broadcastInDim S1x64 ![1] bcast_S64_S1x64_1 (val_main_v153 (F := F) x16)

def val_main_v208 (x16 : (⟨S4x64, .f32⟩ : BufTy).Contents (Elt F)) : (⟨S100000x64, .f32⟩ : BufTy).Contents (Elt F) :=
  broadcastInDim S100000x64 ![0, 1] bcast_S1x64_S100000x64_0_1 (val_main_v207 (F := F) x16)

def val_main_v209 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v206 (F := F) x0 x1 x2 x4 x5 x6 x7 x8 x9 x10 x11 x12 x13 x14 x15 x16 x17) (val_main_v208 (F := F) x16)

def val_main_v210 (x17 : (⟨S4x64, .f32⟩ : BufTy).Contents (Elt F)) : (⟨S1x64, .f32⟩ : BufTy).Contents (Elt F) :=
  broadcastInDim S1x64 ![1] bcast_S64_S1x64_1 (val_main_v155 (F := F) x17)

def val_main_v211 (x17 : (⟨S4x64, .f32⟩ : BufTy).Contents (Elt F)) : (⟨S100000x64, .f32⟩ : BufTy).Contents (Elt F) :=
  broadcastInDim S100000x64 ![0, 1] bcast_S1x64_S100000x64_0_1 (val_main_v210 (F := F) x17)

def val_main_v212 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v209 (F := F) x0 x1 x2 x4 x5 x6 x7 x8 x9 x10 x11 x12 x13 x14 x15 x16 x17) (val_main_v211 (F := F) x17)

def val_main_call11_cst : (⟨S_, .f32⟩ : BufTy).Contents (Elt F) :=
  constant S_ .f32 0x00000000#32

def val_main_call11_v0 : (⟨S100000x64, .f32⟩ : BufTy).Contents (Elt F) :=
  broadcastInDim S100000x64 ![] bcast_S_S100000x64 (val_main_call11_cst (F := F))

def val_main_v213 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  maximumf (val_main_v212 (F := F) x0 x1 x2 x4 x5 x6 x7 x8 x9 x10 x11 x12 x13 x14 x15 x16 x17) (val_main_call11_v0 (F := F))

def val_main_v214 (x10 : (⟨S3x64x16, .f32⟩ : BufTy).Contents (Elt F)) : (⟨S1x64x16, .f32⟩ : BufTy).Contents (Elt F) :=
  extractStridedSlice S1x64x16 ![2, 0, 0] (x10) slices_S3x64x16_S1x64x16_2_0_0

def val_main_v215 (x10 : (⟨S3x64x16, .f32⟩ : BufTy).Contents (Elt F)) : (⟨S64x16, .f32⟩ : BufTy).Contents (Elt F) :=
  shapeCast _ (val_main_v214 (F := F) x10) shapeCasts_S1x64x16_S64x16

def val_main_v216 (x11 : (⟨S3x64, .f32⟩ : BufTy).Contents (Elt F)) : (⟨S1x64, .f32⟩ : BufTy).Contents (Elt F) :=
  extractStridedSlice S1x64 ![2, 0] (x11) slices_S3x64_S1x64_2_0

def val_main_v217 (x11 : (⟨S3x64, .f32⟩ : BufTy).Contents (Elt F)) : (⟨S64, .f32⟩ : BufTy).Contents (Elt F) :=
  shapeCast _ (val_main_v216 (F := F) x11) shapeCasts_S1x64_S64

def val_main_v218 (x12 : (⟨S3x64x64, .f32⟩ : BufTy).Contents (Elt F)) : (⟨S1x64x64, .f32⟩ : BufTy).Contents (Elt F) :=
  extractStridedSlice S1x64x64 ![2, 0, 0] (x12) slices_S3x64x64_S1x64x64_2_0_0

def val_main_v219 (x12 : (⟨S3x64x64, .f32⟩ : BufTy).Contents (Elt F)) : (⟨S64x64, .f32⟩ : BufTy).Contents (Elt F) :=
  shapeCast _ (val_main_v218 (F := F) x12) shapeCasts_S1x64x64_S64x64

def val_main_v220 (x13 : (⟨S3x64, .f32⟩ : BufTy).Contents (Elt F)) : (⟨S1x64, .f32⟩ : BufTy).Contents (Elt F) :=
  extractStridedSlice S1x64 ![2, 0] (x13) slices_S3x64_S1x64_2_0

def val_main_v221 (x13 : (⟨S3x64, .f32⟩ : BufTy).Contents (Elt F)) : (⟨S64, .f32⟩ : BufTy).Contents (Elt F) :=
  shapeCast _ (val_main_v220 (F := F) x13) shapeCasts_S1x64_S64

def val_main_v222 (x14 : (⟨S3x64x64, .f32⟩ : BufTy).Contents (Elt F)) : (⟨S1x64x64, .f32⟩ : BufTy).Contents (Elt F) :=
  extractStridedSlice S1x64x64 ![2, 0, 0] (x14) slices_S3x64x64_S1x64x64_2_0_0

def val_main_v223 (x14 : (⟨S3x64x64, .f32⟩ : BufTy).Contents (Elt F)) : (⟨S64x64, .f32⟩ : BufTy).Contents (Elt F) :=
  shapeCast _ (val_main_v222 (F := F) x14) shapeCasts_S1x64x64_S64x64

def val_main_v224 (x15 : (⟨S3x64, .f32⟩ : BufTy).Contents (Elt F)) : (⟨S1x64, .f32⟩ : BufTy).Contents (Elt F) :=
  extractStridedSlice S1x64 ![2, 0] (x15) slices_S3x64_S1x64_2_0

def val_main_v225 (x15 : (⟨S3x64, .f32⟩ : BufTy).Contents (Elt F)) : (⟨S64, .f32⟩ : BufTy).Contents (Elt F) :=
  shapeCast _ (val_main_v224 (F := F) x15) shapeCasts_S1x64_S64

def val_main_v226 (x16 : (⟨S4x64, .f32⟩ : BufTy).Contents (Elt F)) : (⟨S1x64, .f32⟩ : BufTy).Contents (Elt F) :=
  extractStridedSlice S1x64 ![3, 0] (x16) slices_S4x64_S1x64_3_0

def val_main_v227 (x16 : (⟨S4x64, .f32⟩ : BufTy).Contents (Elt F)) : (⟨S64, .f32⟩ : BufTy).Contents (Elt F) :=
  shapeCast _ (val_main_v226 (F := F) x16) shapeCasts_S1x64_S64

def val_main_v228 (x17 : (⟨S4x64, .f32⟩ : BufTy).Contents (Elt F)) : (⟨S1x64, .f32⟩ : BufTy).Contents (Elt F) :=
  extractStridedSlice S1x64 ![3, 0] (x17) slices_S4x64_S1x64_3_0

def val_main_v229 (x17 : (⟨S4x64, .f32⟩ : BufTy).Contents (Elt F)) : (⟨S64, .f32⟩ : BufTy).Contents (Elt F) :=
  shapeCast _ (val_main_v228 (F := F) x17) shapeCasts_S1x64_S64

def val_main_c_25 : (⟨S_, .i32⟩ : BufTy).Contents (Elt F) :=
  constantI S_ 32 0#32

def val_main_v230 : (⟨S1600000, .i32⟩ : BufTy).Contents (Elt F) :=
  broadcastInDim S1600000 ![] bcast_S_S1600000 (val_main_c_25 (F := F))

def val_main_v231 (x1 : (⟨S2x1600000, .i32⟩ : BufTy).Contents (Elt F)) : (⟨S1600000, .i1⟩ : BufTy).Contents (Elt F) :=
  cmpi .slt (val_main_v1 (F := F) x1) (val_main_v230 (F := F))

def val_main_c_26 : (⟨S_, .i32⟩ : BufTy).Contents (Elt F) :=
  constantI S_ 32 100000#32

def val_main_v232 : (⟨S1600000, .i32⟩ : BufTy).Contents (Elt F) :=
  broadcastInDim S1600000 ![] bcast_S_S1600000 (val_main_c_26 (F := F))

def val_main_v233 (x1 : (⟨S2x1600000, .i32⟩ : BufTy).Contents (Elt F)) : (⟨S1600000, .i32⟩ : BufTy).Contents (Elt F) :=
  addi (val_main_v1 (F := F) x1) (val_main_v232 (F := F))

def val_main_v234 (x1 : (⟨S2x1600000, .i32⟩ : BufTy).Contents (Elt F)) : (⟨S1600000, .i32⟩ : BufTy).Contents (Elt F) :=
  select (val_main_v231 (F := F) x1) (val_main_v233 (F := F) x1) (val_main_v1 (F := F) x1)

def val_main_v235 (x1 : (⟨S2x1600000, .i32⟩ : BufTy).Contents (Elt F)) : (⟨S1600000x1, .i32⟩ : BufTy).Contents (Elt F) :=
  broadcastInDim S1600000x1 ![0] bcast_S1600000_S1600000x1_0 (val_main_v234 (F := F) x1)

def val_main_v236 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1600000x64, .f32⟩ : BufTy).Contents (Elt F) :=
  Host.gather gather_S100000x64_S1600000x1_S1600000x64_1_0_n_n_0_1_164 (val_main_v213 (F := F) x0 x1 x2 x4 x5 x6 x7 x8 x9 x10 x11 x12 x13 x14 x15 x16 x17) (val_main_v235 (F := F) x1)

def val_main_v237 (x10 : (⟨S3x64x16, .f32⟩ : BufTy).Contents (Elt F)) : (⟨S16x64, .f32⟩ : BufTy).Contents (Elt F) :=
  transpose S16x64 [1, 0] (val_main_v215 (F := F) x10) transposes_S64x16_S16x64_1_0

def val_main_v238 (x2 : (⟨S1600000x16, .f32⟩ : BufTy).Contents (Elt F)) (x10 : (⟨S3x64x16, .f32⟩ : BufTy).Contents (Elt F)) : (⟨S1600000x64, .f32⟩ : BufTy).Contents (Elt F) :=
  Host.dotGeneral dot_S1600000x16_S16x64_S1600000x64_1_0_0_1_n_n none (x2) (val_main_v237 (F := F) x10)

def val_main_v239 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1600000x64, .f32⟩ : BufTy).Contents (Elt F) :=
  addf (val_main_v236 (F := F) x0 x1 x2 x4 x5 x6 x7 x8 x9 x10 x11 x12 x13 x14 x15 x16 x17) (val_main_v238 (F := F) x2 x10)

def val_main_v240 (x11 : (⟨S3x64, .f32⟩ : BufTy).Contents (Elt F)) : (⟨S1x64, .f32⟩ : BufTy).Contents (Elt F) :=
  broadcastInDim S1x64 ![1] bcast_S64_S1x64_1 (val_main_v217 (F := F) x11)

def val_main_v241 (x11 : (⟨S3x64, .f32⟩ : BufTy).Contents (Elt F)) : (⟨S1600000x64, .f32⟩ : BufTy).Contents (Elt F) :=
  broadcastInDim S1600000x64 ![0, 1] bcast_S1x64_S1600000x64_0_1 (val_main_v240 (F := F) x11)

def val_main_v242 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1600000x64, .f32⟩ : BufTy).Contents (Elt F) :=
  addf (val_main_v239 (F := F) x0 x1 x2 x4 x5 x6 x7 x8 x9 x10 x11 x12 x13 x14 x15 x16 x17) (val_main_v241 (F := F) x11)

def val_main_call12_cst : (⟨S_, .f32⟩ : BufTy).Contents (Elt F) :=
  constant S_ .f32 0x00000000#32

def val_main_call12_v0 : (⟨S1600000x64, .f32⟩ : BufTy).Contents (Elt F) :=
  broadcastInDim S1600000x64 ![] bcast_S_S1600000x64 (val_main_call12_cst (F := F))

def val_main_v243 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1600000x64, .f32⟩ : BufTy).Contents (Elt F) :=
  maximumf (val_main_v242 (F := F) x0 x1 x2 x4 x5 x6 x7 x8 x9 x10 x11 x12 x13 x14 x15 x16 x17) (val_main_call12_v0 (F := F))

def val_main_cst_27 : (⟨S_, .f32⟩ : BufTy).Contents (Elt F) :=
  constant S_ .f32 0x00000000#32

def val_main_v244 : (⟨S100000x64, .f32⟩ : BufTy).Contents (Elt F) :=
  broadcastInDim S100000x64 ![] bcast_S_S100000x64 (val_main_cst_27 (F := F))

def val_main_v245 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v246 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  Host.scatterAdd scatter_S100000x64_S1600000x1_S1600000x64_1_0_0_1 (val_main_v244 (F := F)) (val_main_v245 (F := F) x1) (val_main_v243 (F := F) x0 x1 x2 x4 x5 x6 x7 x8 x9 x10 x11 x12 x13 x14 x15 x16 x17)

def val_main_cst_28 : (⟨S_, .f32⟩ : BufTy).Contents (Elt F) :=
  constant S_ .f32 0x3F800000#32

def val_main_v247 : (⟨S100000x64, .f32⟩ : BufTy).Contents (Elt F) :=
  broadcastInDim S100000x64 ![] bcast_S_S100000x64 (val_main_cst_28 (F := F))

def val_main_v248 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v247 (F := F)) (val_main_v213 (F := F) x0 x1 x2 x4 x5 x6 x7 x8 x9 x10 x11 x12 x13 x14 x15 x16 x17)

def val_main_v249 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v248 (F := F) x0 x1 x2 x4 x5 x6 x7 x8 x9 x10 x11 x12 x13 x14 x15 x16 x17) (val_main_v246 (F := F) x0 x1 x2 x4 x5 x6 x7 x8 x9 x10 x11 x12 x13 x14 x15 x16 x17)

def val_main_v250 (x12 : (⟨S3x64x64, .f32⟩ : BufTy).Contents (Elt F)) : (⟨S64x64, .f32⟩ : BufTy).Contents (Elt F) :=
  transpose S64x64 [1, 0] (val_main_v219 (F := F) x12) transposes_S64x64_S64x64_1_0

def val_main_v251 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  Host.dotGeneral dot_S100000x64_S64x64_S100000x64_1_0_0_1_n_n none (val_main_v249 (F := F) x0 x1 x2 x4 x5 x6 x7 x8 x9 x10 x11 x12 x13 x14 x15 x16 x17) (val_main_v250 (F := F) x12)

def val_main_v252 (x13 : (⟨S3x64, .f32⟩ : BufTy).Contents (Elt F)) : (⟨S1x64, .f32⟩ : BufTy).Contents (Elt F) :=
  broadcastInDim S1x64 ![1] bcast_S64_S1x64_1 (val_main_v221 (F := F) x13)

def val_main_v253 (x13 : (⟨S3x64, .f32⟩ : BufTy).Contents (Elt F)) : (⟨S100000x64, .f32⟩ : BufTy).Contents (Elt F) :=
  broadcastInDim S100000x64 ![0, 1] bcast_S1x64_S100000x64_0_1 (val_main_v252 (F := F) x13)

def val_main_v254 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v251 (F := F) x0 x1 x2 x4 x5 x6 x7 x8 x9 x10 x11 x12 x13 x14 x15 x16 x17) (val_main_v253 (F := F) x13)

def val_main_call13_cst : (⟨S_, .f32⟩ : BufTy).Contents (Elt F) :=
  constant S_ .f32 0x00000000#32

def val_main_call13_v0 : (⟨S100000x64, .f32⟩ : BufTy).Contents (Elt F) :=
  broadcastInDim S100000x64 ![] bcast_S_S100000x64 (val_main_call13_cst (F := F))

def val_main_v255 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  maximumf (val_main_v254 (F := F) x0 x1 x2 x4 x5 x6 x7 x8 x9 x10 x11 x12 x13 x14 x15 x16 x17) (val_main_call13_v0 (F := F))

def val_main_v256 (x14 : (⟨S3x64x64, .f32⟩ : BufTy).Contents (Elt F)) : (⟨S64x64, .f32⟩ : BufTy).Contents (Elt F) :=
  transpose S64x64 [1, 0] (val_main_v223 (F := F) x14) transposes_S64x64_S64x64_1_0

def val_main_v257 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  Host.dotGeneral dot_S100000x64_S64x64_S100000x64_1_0_0_1_n_n none (val_main_v255 (F := F) x0 x1 x2 x4 x5 x6 x7 x8 x9 x10 x11 x12 x13 x14 x15 x16 x17) (val_main_v256 (F := F) x14)

def val_main_v258 (x15 : (⟨S3x64, .f32⟩ : BufTy).Contents (Elt F)) : (⟨S1x64, .f32⟩ : BufTy).Contents (Elt F) :=
  broadcastInDim S1x64 ![1] bcast_S64_S1x64_1 (val_main_v225 (F := F) x15)

def val_main_v259 (x15 : (⟨S3x64, .f32⟩ : BufTy).Contents (Elt F)) : (⟨S100000x64, .f32⟩ : BufTy).Contents (Elt F) :=
  broadcastInDim S100000x64 ![0, 1] bcast_S1x64_S100000x64_0_1 (val_main_v258 (F := F) x15)

def val_main_v260 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v257 (F := F) x0 x1 x2 x4 x5 x6 x7 x8 x9 x10 x11 x12 x13 x14 x15 x16 x17) (val_main_v259 (F := F) x15)

def val_main_call14_cst : (⟨S_, .f32⟩ : BufTy).Contents (Elt F) :=
  constant S_ .f32 0x00000000#32

def val_main_call14_v0 : (⟨S100000x64, .f32⟩ : BufTy).Contents (Elt F) :=
  broadcastInDim S100000x64 ![] bcast_S_S100000x64 (val_main_call14_cst (F := F))

def val_main_v261 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  maximumf (val_main_v260 (F := F) x0 x1 x2 x4 x5 x6 x7 x8 x9 x10 x11 x12 x13 x14 x15 x16 x17) (val_main_call14_v0 (F := F))

def val_main_cst_29 : (⟨S_, .f32⟩ : BufTy).Contents (Elt F) :=
  constant S_ .f32 0x00000000#32

def val_main_v262 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.reduceAdd (val_main_v261 (F := F) x0 x1 x2 x4 x5 x6 x7 x8 x9 x10 x11 x12 x13 x14 x15 x16 x17) (val_main_cst_29 (F := F)) reducesTo_S100000x64_S64_d0 h_S_

def val_main_cst_30 : (⟨S_, .f32⟩ : BufTy).Contents (Elt F) :=
  constant S_ .f32 0x47C35000#32

def val_main_v263 : (⟨S64, .f32⟩ : BufTy).Contents (Elt F) :=
  broadcastInDim S64 ![] bcast_S_S64 (val_main_cst_30 (F := F))

def val_main_v264 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.divf (val_main_v262 (F := F) x0 x1 x2 x4 x5 x6 x7 x8 x9 x10 x11 x12 x13 x14 x15 x16 x17) (val_main_v263 (F := F))

def val_main_v265 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1x64, .f32⟩ : BufTy).Contents (Elt F) :=
  broadcastInDim S1x64 ![1] bcast_S64_S1x64_1 (val_main_v264 (F := F) x0 x1 x2 x4 x5 x6 x7 x8 x9 x10 x11 x12 x13 x14 x15 x16 x17)

def val_main_v266 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  broadcastInDim S100000x64 ![0, 1] bcast_S1x64_S100000x64_0_1 (val_main_v265 (F := F) x0 x1 x2 x4 x5 x6 x7 x8 x9 x10 x11 x12 x13 x14 x15 x16 x17)

def val_main_v267 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  subf (val_main_v261 (F := F) x0 x1 x2 x4 x5 x6 x7 x8 x9 x10 x11 x12 x13 x14 x15 x16 x17) (val_main_v266 (F := F) x0 x1 x2 x4 x5 x6 x7 x8 x9 x10 x11 x12 x13 x14 x15 x16 x17)

def val_main_v268 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v267 (F := F) x0 x1 x2 x4 x5 x6 x7 x8 x9 x10 x11 x12 x13 x14 x15 x16 x17) (val_main_v267 (F := F) x0 x1 x2 x4 x5 x6 x7 x8 x9 x10 x11 x12 x13 x14 x15 x16 x17)

def val_main_cst_31 : (⟨S_, .f32⟩ : BufTy).Contents (Elt F) :=
  constant S_ .f32 0x00000000#32

def val_main_v269 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.reduceAdd (val_main_v268 (F := F) x0 x1 x2 x4 x5 x6 x7 x8 x9 x10 x11 x12 x13 x14 x15 x16 x17) (val_main_cst_31 (F := F)) reducesTo_S100000x64_S64_d0 h_S_

def val_main_cst_32 : (⟨S_, .f32⟩ : BufTy).Contents (Elt F) :=
  constant S_ .f32 0x47C35000#32

def val_main_v270 : (⟨S64, .f32⟩ : BufTy).Contents (Elt F) :=
  broadcastInDim S64 ![] bcast_S_S64 (val_main_cst_32 (F := F))

def val_main_v271 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.divf (val_main_v269 (F := F) x0 x1 x2 x4 x5 x6 x7 x8 x9 x10 x11 x12 x13 x14 x15 x16 x17) (val_main_v270 (F := F))

def val_main_v272 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1x64, .f32⟩ : BufTy).Contents (Elt F) :=
  broadcastInDim S1x64 ![1] bcast_S64_S1x64_1 (val_main_v264 (F := F) x0 x1 x2 x4 x5 x6 x7 x8 x9 x10 x11 x12 x13 x14 x15 x16 x17)

def val_main_v273 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  broadcastInDim S100000x64 ![0, 1] bcast_S1x64_S100000x64_0_1 (val_main_v272 (F := F) x0 x1 x2 x4 x5 x6 x7 x8 x9 x10 x11 x12 x13 x14 x15 x16 x17)

def val_main_v274 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  subf (val_main_v261 (F := F) x0 x1 x2 x4 x5 x6 x7 x8 x9 x10 x11 x12 x13 x14 x15 x16 x17) (val_main_v273 (F := F) x0 x1 x2 x4 x5 x6 x7 x8 x9 x10 x11 x12 x13 x14 x15 x16 x17)

def val_main_cst_33 : (⟨S_, .f32⟩ : BufTy).Contents (Elt F) :=
  constant S_ .f32 0x3727C5AC#32

def val_main_v275 : (⟨S64, .f32⟩ : BufTy).Contents (Elt F) :=
  broadcastInDim S64 ![] bcast_S_S64 (val_main_cst_33 (F := F))

def val_main_v276 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  addf (val_main_v271 (F := F) x0 x1 x2 x4 x5 x6 x7 x8 x9 x10 x11 x12 x13 x14 x15 x16 x17) (val_main_v275 (F := F))

def val_main_v277 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S64, .f32⟩ : BufTy).Contents (Elt F) :=
  Host.rsqrt (val_main_v276 (F := F) x0 x1 x2 x4 x5 x6 x7 x8 x9 x10 x11 x12 x13 x14 x15 x16 x17)

def val_main_v278 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S1x64, .f32⟩ : BufTy).Contents (Elt F) :=
  broadcastInDim S1x64 ![1] bcast_S64_S1x64_1 (val_main_v277 (F := F) x0 x1 x2 x4 x5 x6 x7 x8 x9 x10 x11 x12 x13 x14 x15 x16 x17)

def val_main_v279 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  broadcastInDim S100000x64 ![0, 1] bcast_S1x64_S100000x64_0_1 (val_main_v278 (F := F) x0 x1 x2 x4 x5 x6 x7 x8 x9 x10 x11 x12 x13 x14 x15 x16 x17)

def val_main_v280 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v274 (F := F) x0 x1 x2 x4 x5 x6 x7 x8 x9 x10 x11 x12 x13 x14 x15 x16 x17) (val_main_v279 (F := F) x0 x1 x2 x4 x5 x6 x7 x8 x9 x10 x11 x12 x13 x14 x15 x16 x17)

def val_main_v281 (x16 : (⟨S4x64, .f32⟩ : BufTy).Contents (Elt F)) : (⟨S1x64, .f32⟩ : BufTy).Contents (Elt F) :=
  broadcastInDim S1x64 ![1] bcast_S64_S1x64_1 (val_main_v227 (F := F) x16)

def val_main_v282 (x16 : (⟨S4x64, .f32⟩ : BufTy).Contents (Elt F)) : (⟨S100000x64, .f32⟩ : BufTy).Contents (Elt F) :=
  broadcastInDim S100000x64 ![0, 1] bcast_S1x64_S100000x64_0_1 (val_main_v281 (F := F) x16)

def val_main_v283 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  mulf (val_main_v280 (F := F) x0 x1 x2 x4 x5 x6 x7 x8 x9 x10 x11 x12 x13 x14 x15 x16 x17) (val_main_v282 (F := F) x16)

def val_main_v284 (x17 : (⟨S4x64, .f32⟩ : BufTy).Contents (Elt F)) : (⟨S1x64, .f32⟩ : BufTy).Contents (Elt F) :=
  broadcastInDim S1x64 ![1] bcast_S64_S1x64_1 (val_main_v229 (F := F) x17)

def val_main_v285 (x17 : (⟨S4x64, .f32⟩ : BufTy).Contents (Elt F)) : (⟨S100000x64, .f32⟩ : BufTy).Contents (Elt F) :=
  broadcastInDim S100000x64 ![0, 1] bcast_S1x64_S100000x64_0_1 (val_main_v284 (F := F) x17)

def val_main_v286 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  addf (val_main_v283 (F := F) x0 x1 x2 x4 x5 x6 x7 x8 x9 x10 x11 x12 x13 x14 x15 x16 x17) (val_main_v285 (F := F) x17)

def val_main_call15_cst : (⟨S_, .f32⟩ : BufTy).Contents (Elt F) :=
  constant S_ .f32 0x00000000#32

def val_main_call15_v0 : (⟨S100000x64, .f32⟩ : BufTy).Contents (Elt F) :=
  broadcastInDim S100000x64 ![] bcast_S_S100000x64 (val_main_call15_cst (F := F))

def val_main_v287 (x0 : (⟨S100000x32, .f32⟩ : BufTy).Contents (Elt F)) (x1 : (⟨S2x1600000, .i32⟩ : BufTy).Contents (Elt F)) (x2 : (⟨S1600000x16, .f32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S100000x64, .f32⟩ : BufTy).Contents (Elt F) :=
  maximumf (val_main_v286 (F := F) x0 x1 x2 x4 x5 x6 x7 x8 x9 x10 x11 x12 x13 x14 x15 x16 x17) (val_main_call15_v0 (F := F))

def val_main_cst_34 : (⟨S_, .f32⟩ : BufTy).Contents (Elt F) :=
  constant S_ .f32 0x00000000#32

def val_main_v288 : (⟨S128x64, .f32⟩ : BufTy).Contents (Elt F) :=
  broadcastInDim S128x64 ![] bcast_S_S128x64 (val_main_cst_34 (F := F))

def val_main_v289 (x3 : (⟨S100000, .i32⟩ : BufTy).Contents (Elt F)) : (⟨S100000x1, .i32⟩ : BufTy).Contents (Elt F) :=
  broadcastInDim S100000x1 ![0] bcast_S100000_S100000x1_0 (x3)

def val_main_v290 (x0 : (⟨S100000x32, .f32⟩ : BufTy).Contents (Elt F)) (x1 : (⟨S2x1600000, .i32⟩ : BufTy).Contents (Elt F)) (x2 : (⟨S1600000x16, .f32⟩ : BufTy).Contents (Elt F)) (x3 : (⟨S100000, .i32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S128x64, .f32⟩ : BufTy).Contents (Elt F) :=
  Host.scatterAdd scatter_S128x64_S100000x1_S100000x64_1_0_0_1 (val_main_v288 (F := F)) (val_main_v289 (F := F) x3) (val_main_v287 (F := F) x0 x1 x2 x4 x5 x6 x7 x8 x9 x10 x11 x12 x13 x14 x15 x16 x17)

def val_main_cst_35 : (⟨S_, .f32⟩ : BufTy).Contents (Elt F) :=
  constant S_ .f32 0x3F800000#32

def val_main_v291 : (⟨S100000, .f32⟩ : BufTy).Contents (Elt F) :=
  broadcastInDim S100000 ![] bcast_S_S100000 (val_main_cst_35 (F := F))

def val_main_cst_36 : (⟨S_, .f32⟩ : BufTy).Contents (Elt F) :=
  constant S_ .f32 0x00000000#32

def val_main_v292 : (⟨S128, .f32⟩ : BufTy).Contents (Elt F) :=
  broadcastInDim S128 ![] bcast_S_S128 (val_main_cst_36 (F := F))

def val_main_v293 (x3 : (⟨S100000, .i32⟩ : BufTy).Contents (Elt F)) : (⟨S100000x1, .i32⟩ : BufTy).Contents (Elt F) :=
  broadcastInDim S100000x1 ![0] bcast_S100000_S100000x1_0 (x3)

def val_main_v294 (x3 : (⟨S100000, .i32⟩ : BufTy).Contents (Elt F)) : (⟨S128, .f32⟩ : BufTy).Contents (Elt F) :=
  Host.scatterAdd scatter_S128_S100000x1_S100000_n_0_0_1 (val_main_v292 (F := F)) (val_main_v293 (F := F) x3) (val_main_v291 (F := F))

def val_main_cst_37 : (⟨S_, .f32⟩ : BufTy).Contents (Elt F) :=
  constant S_ .f32 0x3F800000#32

def val_main_v295 : (⟨S128, .f32⟩ : BufTy).Contents (Elt F) :=
  broadcastInDim S128 ![] bcast_S_S128 (val_main_cst_37 (F := F))

def val_main_v296 (x3 : (⟨S100000, .i32⟩ : BufTy).Contents (Elt F)) : (⟨S128, .f32⟩ : BufTy).Contents (Elt F) :=
  maximumf (val_main_v294 (F := F) x3) (val_main_v295 (F := F))

def val_main_v297 (x3 : (⟨S100000, .i32⟩ : BufTy).Contents (Elt F)) : (⟨S128x1, .f32⟩ : BufTy).Contents (Elt F) :=
  broadcastInDim S128x1 ![0] bcast_S128_S128x1_0 (val_main_v296 (F := F) x3)

def val_main_v298 (x3 : (⟨S100000, .i32⟩ : BufTy).Contents (Elt F)) : (⟨S128x64, .f32⟩ : BufTy).Contents (Elt F) :=
  broadcastInDim S128x64 ![0, 1] bcast_S128x1_S128x64_0_1 (val_main_v297 (F := F) x3)

def val_main_v299 (x0 : (⟨S100000x32, .f32⟩ : BufTy).Contents (Elt F)) (x1 : (⟨S2x1600000, .i32⟩ : BufTy).Contents (Elt F)) (x2 : (⟨S1600000x16, .f32⟩ : BufTy).Contents (Elt F)) (x3 : (⟨S100000, .i32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) : (⟨S128x64, .f32⟩ : BufTy).Contents (Elt F) :=
  Host.divf (val_main_v290 (F := F) x0 x1 x2 x3 x4 x5 x6 x7 x8 x9 x10 x11 x12 x13 x14 x15 x16 x17) (val_main_v298 (F := F) x3)

def val_main_v300 (x18 : (⟨S128x64, .f32⟩ : BufTy).Contents (Elt F)) : (⟨S64x128, .f32⟩ : BufTy).Contents (Elt F) :=
  transpose S64x128 [1, 0] (x18) transposes_S128x64_S64x128_1_0

def val_main_v301 (x0 : (⟨S100000x32, .f32⟩ : BufTy).Contents (Elt F)) (x1 : (⟨S2x1600000, .i32⟩ : BufTy).Contents (Elt F)) (x2 : (⟨S1600000x16, .f32⟩ : BufTy).Contents (Elt F)) (x3 : (⟨S100000, .i32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) (x18 : (⟨S128x64, .f32⟩ : BufTy).Contents (Elt F)) : (⟨S128x128, .f32⟩ : BufTy).Contents (Elt F) :=
  Host.dotGeneral dot_S128x64_S64x128_S128x128_1_0_0_1_n_n none (val_main_v299 (F := F) x0 x1 x2 x3 x4 x5 x6 x7 x8 x9 x10 x11 x12 x13 x14 x15 x16 x17) (val_main_v300 (F := F) x18)

def val_main_v302 (x19 : (⟨S128, .f32⟩ : BufTy).Contents (Elt F)) : (⟨S1x128, .f32⟩ : BufTy).Contents (Elt F) :=
  broadcastInDim S1x128 ![1] bcast_S128_S1x128_1 (x19)

def val_main_v303 (x19 : (⟨S128, .f32⟩ : BufTy).Contents (Elt F)) : (⟨S128x128, .f32⟩ : BufTy).Contents (Elt F) :=
  broadcastInDim S128x128 ![0, 1] bcast_S1x128_S128x128_0_1 (val_main_v302 (F := F) x19)

def val_main_v304 (x0 : (⟨S100000x32, .f32⟩ : BufTy).Contents (Elt F)) (x1 : (⟨S2x1600000, .i32⟩ : BufTy).Contents (Elt F)) (x2 : (⟨S1600000x16, .f32⟩ : BufTy).Contents (Elt F)) (x3 : (⟨S100000, .i32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) (x18 : (⟨S128x64, .f32⟩ : BufTy).Contents (Elt F)) (x19 : (⟨S128, .f32⟩ : BufTy).Contents (Elt F)) : (⟨S128x128, .f32⟩ : BufTy).Contents (Elt F) :=
  addf (val_main_v301 (F := F) x0 x1 x2 x3 x4 x5 x6 x7 x8 x9 x10 x11 x12 x13 x14 x15 x16 x17 x18) (val_main_v303 (F := F) x19)

def val_main_call16_cst : (⟨S_, .f32⟩ : BufTy).Contents (Elt F) :=
  constant S_ .f32 0x00000000#32

def val_main_call16_v0 : (⟨S128x128, .f32⟩ : BufTy).Contents (Elt F) :=
  broadcastInDim S128x128 ![] bcast_S_S128x128 (val_main_call16_cst (F := F))

def val_main_v305 (x0 : (⟨S100000x32, .f32⟩ : BufTy).Contents (Elt F)) (x1 : (⟨S2x1600000, .i32⟩ : BufTy).Contents (Elt F)) (x2 : (⟨S1600000x16, .f32⟩ : BufTy).Contents (Elt F)) (x3 : (⟨S100000, .i32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) (x18 : (⟨S128x64, .f32⟩ : BufTy).Contents (Elt F)) (x19 : (⟨S128, .f32⟩ : BufTy).Contents (Elt F)) : (⟨S128x128, .f32⟩ : BufTy).Contents (Elt F) :=
  maximumf (val_main_v304 (F := F) x0 x1 x2 x3 x4 x5 x6 x7 x8 x9 x10 x11 x12 x13 x14 x15 x16 x17 x18 x19) (val_main_call16_v0 (F := F))

def val_main_v306 (x20 : (⟨S10x128, .f32⟩ : BufTy).Contents (Elt F)) : (⟨S128x10, .f32⟩ : BufTy).Contents (Elt F) :=
  transpose S128x10 [1, 0] (x20) transposes_S10x128_S128x10_1_0

def val_main_v307 (x0 : (⟨S100000x32, .f32⟩ : BufTy).Contents (Elt F)) (x1 : (⟨S2x1600000, .i32⟩ : BufTy).Contents (Elt F)) (x2 : (⟨S1600000x16, .f32⟩ : BufTy).Contents (Elt F)) (x3 : (⟨S100000, .i32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) (x18 : (⟨S128x64, .f32⟩ : BufTy).Contents (Elt F)) (x19 : (⟨S128, .f32⟩ : BufTy).Contents (Elt F)) (x20 : (⟨S10x128, .f32⟩ : BufTy).Contents (Elt F)) : (⟨S128x10, .f32⟩ : BufTy).Contents (Elt F) :=
  Host.dotGeneral dot_S128x128_S128x10_S128x10_1_0_0_1_n_n none (val_main_v305 (F := F) x0 x1 x2 x3 x4 x5 x6 x7 x8 x9 x10 x11 x12 x13 x14 x15 x16 x17 x18 x19) (val_main_v306 (F := F) x20)

def val_main_v308 (x21 : (⟨S10, .f32⟩ : BufTy).Contents (Elt F)) : (⟨S1x10, .f32⟩ : BufTy).Contents (Elt F) :=
  broadcastInDim S1x10 ![1] bcast_S10_S1x10_1 (x21)

def val_main_v309 (x21 : (⟨S10, .f32⟩ : BufTy).Contents (Elt F)) : (⟨S128x10, .f32⟩ : BufTy).Contents (Elt F) :=
  broadcastInDim S128x10 ![0, 1] bcast_S1x10_S128x10_0_1 (val_main_v308 (F := F) x21)

def val_main_v310 (x0 : (⟨S100000x32, .f32⟩ : BufTy).Contents (Elt F)) (x1 : (⟨S2x1600000, .i32⟩ : BufTy).Contents (Elt F)) (x2 : (⟨S1600000x16, .f32⟩ : BufTy).Contents (Elt F)) (x3 : (⟨S100000, .i32⟩ : BufTy).Contents (Elt F)) (x4 : (⟨S32x16, .f32⟩ : BufTy).Contents (Elt F)) (x5 : (⟨S32, .f32⟩ : BufTy).Contents (Elt F)) (x6 : (⟨S64x32, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S3x64x16, .f32⟩ : BufTy).Contents (Elt F)) (x11 : (⟨S3x64, .f32⟩ : BufTy).Contents (Elt F)) (x12 : (⟨S3x64x64, .f32⟩ : BufTy).Contents (Elt F)) (x13 : (⟨S3x64, .f32⟩ : BufTy).Contents (Elt F)) (x14 : (⟨S3x64x64, .f32⟩ : BufTy).Contents (Elt F)) (x15 : (⟨S3x64, .f32⟩ : BufTy).Contents (Elt F)) (x16 x17 : (⟨S4x64, .f32⟩ : BufTy).Contents (Elt F)) (x18 : (⟨S128x64, .f32⟩ : BufTy).Contents (Elt F)) (x19 : (⟨S128, .f32⟩ : BufTy).Contents (Elt F)) (x20 : (⟨S10x128, .f32⟩ : BufTy).Contents (Elt F)) (x21 : (⟨S10, .f32⟩ : BufTy).Contents (Elt F)) : (⟨S128x10, .f32⟩ : BufTy).Contents (Elt F) :=
  addf (val_main_v307 (F := F) x0 x1 x2 x3 x4 x5 x6 x7 x8 x9 x10 x11 x12 x13 x14 x15 x16 x17 x18 x19 x20) (val_main_v309 (F := F) x21)

end Cert.ReferenceIdeal.Read

end
-- ==== Proof.RefFoldChunks.lean ====
/- The reference program's 385 host operations cut into fourteen consecutive stretches, each a literal list, with the
   buffers each stretch writes: a buffer outside that list keeps its contents through the stretch. -/
import proofs.«406622_j66486093742154_3_alg».proof.Proof.Gen.ReferenceIdeal
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- Running two lists of operations one after the other is running their concatenation. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0 to 7 (main_v0 … main_v7): the program's first slices: the source and destination index rows and the two rows of the last two arguments. -/
abbrev cP : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg16 main_v4 ((extractStridedSlice S1x64 ![0, 0] · slices_S4x64_S1x64_0_0) : (⟨S4x64, .f32⟩ : BufTy).Contents (Elt F) → (⟨S1x64, .f32⟩ : BufTy).Contents (Elt F)),
    reshape main_v4 main_v5 rfl shapeCasts_S1x64_S64,
    unary main_arg17 main_v6 ((extractStridedSlice S1x64 ![0, 0] · slices_S4x64_S1x64_0_0) : (⟨S4x64, .f32⟩ : BufTy).Contents (Elt F) → (⟨S1x64, .f32⟩ : BufTy).Contents (Elt F)),
    reshape main_v6 main_v7 rfl shapeCasts_S1x64_S64 ]
/-- The buffers that stretch `cP` writes. -/
abbrev cP_W : List (Ref sig .tc) :=
  [main_v0, main_v1, main_v2, main_v3, main_v4, main_v5, main_v6, main_v7]
theorem cP_writes : (cP : List (HloOp τ sig (Elt F))).Forall fun op =>
    op.writes ⊆ (cP_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cP` does not write keeps its contents through it. -/
theorem cP_keep (V : Valuation τ sig (Elt F)) (r : Ref sig .tc) (h : r ∉ cP_W) :
    after (cP (F := F)) V (Proc.devRef .tc r) = V (Proc.devRef .tc r) :=
  after_of_writes_sub cP V cP_writes h

/-- Operations 8 to 29 (main_c … main_v24): layer 0, from the index normalisation through the gather, the edge term and its relu to the scatter. -/
abbrev cA0 : List (HloOp τ sig (Elt F)) :=
  [ nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v1 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v10 (broadcastInDim S1600000 ![] bcast_S_S1600000 : (⟨S_, .i32⟩ : BufTy).Contents (Elt F) → (⟨S1600000, .i32⟩ : BufTy).Contents (Elt F)),
    binary main_v1 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_arg0 main_v13 main_v14 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_arg4 main_v15 ((transpose S16x32 [1, 0] · transposes_S32x16_S16x32_1_0) : (⟨S32x16, .f32⟩ : BufTy).Contents (Elt F) → (⟨S16x32, .f32⟩ : BufTy).Contents (Elt F)),
    binary main_arg2 main_v15 main_v16 ((fun l r => Host.dotGeneral dot_S1600000x16_S16x32_S1600000x32_1_0_0_1_n_n none l r) : (⟨S1600000x16, .f32⟩ : BufTy).Contents (Elt F) → (⟨S16x32, .f32⟩ : BufTy).Contents (Elt F) → (⟨S1600000x32, .f32⟩ : BufTy).Contents (Elt F)),
    binary main_v14 main_v16 main_v17 (addf : (⟨S1600000x32, .f32⟩ : BufTy).Contents (Elt F) → (⟨S1600000x32, .f32⟩ : BufTy).Contents (Elt F) → (⟨S1600000x32, .f32⟩ : BufTy).Contents (Elt F)),
    unary main_arg5 main_v18 (broadcastInDim S1x32 ![1] bcast_S32_S1x32_1 : (⟨S32, .f32⟩ : BufTy).Contents (Elt F) → (⟨S1x32, .f32⟩ : BufTy).Contents (Elt F)),
    unary main_v18 main_v19 (broadcastInDim S1600000x32 ![0, 1] bcast_S1x32_S1600000x32_0_1 : (⟨S1x32, .f32⟩ : BufTy).Contents (Elt F) → (⟨S1600000x32, .f32⟩ : BufTy).Contents (Elt F)),
    binary main_v17 main_v19 main_v20 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x32, .f32⟩) main_call0_v0) (broadcastInDim S1600000x32 ![] bcast_S_S1600000x32),
    TRef.binary (TRef.of (T := ⟨S1600000x32, .f32⟩) main_v20) (TRef.of (T := ⟨S1600000x32, .f32⟩) main_call0_v0) (TRef.of (T := ⟨S1600000x32, .f32⟩) main_v21) maximumf,
    nullary main_cst (constant S_ .f32 0x00000000#32),
    unary main_cst main_v22 (broadcastInDim S100000x32 ![] bcast_S_S100000x32 : (⟨S_, .f32⟩ : BufTy).Contents (Elt F) → (⟨S100000x32, .f32⟩ : BufTy).Contents (Elt F)),
    unary main_v3 main_v23 (broadcastInDim S1600000x1 ![0] bcast_S1600000_S1600000x1_0 : (⟨S1600000, .i32⟩ : BufTy).Contents (Elt F) → (⟨S1600000x1, .i32⟩ : BufTy).Contents (Elt F)),
    ternary main_v22 main_v23 main_v21 main_v24 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ]
/-- The buffers that stretch `cA0` writes. -/
abbrev cA0_W : List (Ref sig .tc) :=
  [main_c, main_v8, main_v9, main_c_0, main_v10, main_v11, main_v12, main_v13, main_v14, main_v15, main_v16, main_v17, main_v18, main_v19, main_v20, main_call0_cst, main_call0_v0, main_v21, main_cst, main_v22, main_v23, main_v24]
theorem cA0_writes : (cA0 : List (HloOp τ sig (Elt F))).Forall fun op =>
    op.writes ⊆ (cA0_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cA0` does not write keeps its contents through it. -/
theorem cA0_keep (V : Valuation τ sig (Elt F)) (r : Ref sig .tc) (h : r ∉ cA0_W) :
    after (cA0 (F := F)) V (Proc.devRef .tc r) = V (Proc.devRef .tc r) :=
  after_of_writes_sub cA0 V cA0_writes h

/-- Operations 30 to 49 (main_cst_1 … main_v39): layer 0, from the self term plus the aggregate through the two products with bias and relu. -/
abbrev cB0 : List (HloOp τ sig (Elt F)) :=
  [ nullary main_cst_1 (constant S_ .f32 0x3F800000#32),
    unary main_cst_1 main_v25 (broadcastInDim S100000x32 ![] bcast_S_S100000x32 : (⟨S_, .f32⟩ : BufTy).Contents (Elt F) → (⟨S100000x32, .f32⟩ : BufTy).Contents (Elt F)),
    binary main_v25 main_arg0 main_v26 (mulf : (⟨S100000x32, .f32⟩ : BufTy).Contents (Elt F) → (⟨S100000x32, .f32⟩ : BufTy).Contents (Elt F) → (⟨S100000x32, .f32⟩ : BufTy).Contents (Elt F)),
    binary main_v26 main_v24 main_v27 (addf : (⟨S100000x32, .f32⟩ : BufTy).Contents (Elt F) → (⟨S100000x32, .f32⟩ : BufTy).Contents (Elt F) → (⟨S100000x32, .f32⟩ : BufTy).Contents (Elt F)),
    unary main_arg6 main_v28 ((transpose S32x64 [1, 0] · transposes_S64x32_S32x64_1_0) : (⟨S64x32, .f32⟩ : BufTy).Contents (Elt F) → (⟨S32x64, .f32⟩ : BufTy).Contents (Elt F)),
    binary main_v27 main_v28 main_v29 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg7 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v29 main_v31 main_v32 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v32) (TRef.of (T := ⟨S100000x64, .f32⟩) main_call1_v0) (TRef.of (T := ⟨S100000x64, .f32⟩) main_v33) maximumf,
    unary main_arg8 main_v34 ((transpose S64x64 [1, 0] · transposes_S64x64_S64x64_1_0) : (⟨S64x64, .f32⟩ : BufTy).Contents (Elt F) → (⟨S64x64, .f32⟩ : BufTy).Contents (Elt F)),
    binary main_v33 main_v34 main_v35 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg9 main_v36 (broadcastInDim S1x64 ![1] bcast_S64_S1x64_1 : (⟨S64, .f32⟩ : BufTy).Contents (Elt F) → (⟨S1x64, .f32⟩ : BufTy).Contents (Elt F)),
    unary main_v36 main_v37 (broadcastInDim S100000x64 ![0, 1] bcast_S1x64_S100000x64_0_1 : (⟨S1x64, .f32⟩ : BufTy).Contents (Elt F) → (⟨S100000x64, .f32⟩ : BufTy).Contents (Elt F)),
    binary main_v35 main_v37 main_v38 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v38) (TRef.of (T := ⟨S100000x64, .f32⟩) main_call2_v0) (TRef.of (T := ⟨S100000x64, .f32⟩) main_v39) maximumf ]
/-- The buffers that stretch `cB0` writes. -/
abbrev cB0_W : List (Ref sig .tc) :=
  [main_cst_1, main_v25, main_v26, main_v27, main_v28, main_v29, main_v30, main_v31, main_v32, main_call1_cst, main_call1_v0, main_v33, main_v34, main_v35, main_v36, main_v37, main_v38, main_call2_cst, main_call2_v0, main_v39]
theorem cB0_writes : (cB0 : List (HloOp τ sig (Elt F))).Forall fun op =>
    op.writes ⊆ (cB0_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cB0` does not write keeps its contents through it. -/
theorem cB0_keep (V : Valuation τ sig (Elt F)) (r : Ref sig .tc) (h : r ∉ cB0_W) :
    after (cB0 (F := F)) V (Proc.devRef .tc r) = V (Proc.devRef .tc r) :=
  after_of_writes_sub cB0 V cB0_writes h

/-- Operations 50 to 82 (main_cst_2 … main_v65): layer 0, the mean, the variance, the normalisation, scale and shift, and the relu. -/
abbrev cC0 : List (HloOp τ sig (Elt F)) :=
  [ nullary main_cst_2 (constant S_ .f32 0x00000000#32),
    binary main_v39 main_cst_2 main_v40 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_3 (constant S_ .f32 0x47C35000#32),
    unary main_cst_3 main_v41 (broadcastInDim S64 ![] bcast_S_S64 : (⟨S_, .f32⟩ : BufTy).Contents (Elt F) → (⟨S64, .f32⟩ : BufTy).Contents (Elt F)),
    binary main_v40 main_v41 main_v42 (Host.divf : (⟨S64, .f32⟩ : BufTy).Contents (Elt F) → (⟨S64, .f32⟩ : BufTy).Contents (Elt F) → (⟨S64, .f32⟩ : BufTy).Contents (Elt F)),
    unary main_v42 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v39 main_v44 main_v45 (subf : (⟨S100000x64, .f32⟩ : BufTy).Contents (Elt F) → (⟨S100000x64, .f32⟩ : BufTy).Contents (Elt F) → (⟨S100000x64, .f32⟩ : BufTy).Contents (Elt F)),
    binary main_v45 main_v45 main_v46 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x00000000#32),
    binary main_v46 main_cst_4 main_v47 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_5 (constant S_ .f32 0x47C35000#32),
    unary main_cst_5 main_v48 (broadcastInDim S64 ![] bcast_S_S64 : (⟨S_, .f32⟩ : BufTy).Contents (Elt F) → (⟨S64, .f32⟩ : BufTy).Contents (Elt F)),
    binary main_v47 main_v48 main_v49 (Host.divf : (⟨S64, .f32⟩ : BufTy).Contents (Elt F) → (⟨S64, .f32⟩ : BufTy).Contents (Elt F) → (⟨S64, .f32⟩ : BufTy).Contents (Elt F)),
    unary main_v42 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v39 main_v51 main_v52 (subf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3727C5AC#32),
    unary main_cst_6 main_v53 (broadcastInDim S64 ![] bcast_S_S64 : (⟨S_, .f32⟩ : BufTy).Contents (Elt F) → (⟨S64, .f32⟩ : BufTy).Contents (Elt F)),
    binary main_v49 main_v53 main_v54 (addf : (⟨S64, .f32⟩ : BufTy).Contents (Elt F) → (⟨S64, .f32⟩ : BufTy).Contents (Elt F) → (⟨S64, .f32⟩ : BufTy).Contents (Elt F)),
    unary main_v54 main_v55 (Host.rsqrt : (⟨S64, .f32⟩ : BufTy).Contents (Elt F) → (⟨S64, .f32⟩ : BufTy).Contents (Elt F)),
    unary main_v55 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v52 main_v57 main_v58 (mulf : (⟨S100000x64, .f32⟩ : BufTy).Contents (Elt F) → (⟨S100000x64, .f32⟩ : BufTy).Contents (Elt F) → (⟨S100000x64, .f32⟩ : BufTy).Contents (Elt F)),
    unary main_v5 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (mulf : (⟨S100000x64, .f32⟩ : BufTy).Contents (Elt F) → (⟨S100000x64, .f32⟩ : BufTy).Contents (Elt F) → (⟨S100000x64, .f32⟩ : BufTy).Contents (Elt F)),
    unary main_v7 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v64) (TRef.of (T := ⟨S100000x64, .f32⟩) main_call3_v0) (TRef.of (T := ⟨S100000x64, .f32⟩) main_v65) maximumf ]
/-- The buffers that stretch `cC0` writes. -/
abbrev cC0_W : List (Ref sig .tc) :=
  [main_cst_2, main_v40, main_cst_3, main_v41, main_v42, main_v43, main_v44, main_v45, main_v46, main_cst_4, main_v47, main_cst_5, main_v48, main_v49, main_v50, main_v51, main_v52, main_cst_6, main_v53, main_v54, main_v55, main_v56, main_v57, main_v58, main_v59, main_v60, main_v61, main_v62, main_v63, main_v64, main_call3_cst, main_call3_v0, main_v65]
theorem cC0_writes : (cC0 : List (HloOp τ sig (Elt F))).Forall fun op =>
    op.writes ⊆ (cC0_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cC0` does not write keeps its contents through it. -/
theorem cC0_keep (V : Valuation τ sig (Elt F)) (r : Ref sig .tc) (h : r ∉ cC0_W) :
    after (cC0 (F := F)) V (Proc.devRef .tc r) = V (Proc.devRef .tc r) :=
  after_of_writes_sub cC0 V cC0_writes h

/-- Operations 83 to 120 (main_v66 … main_v98): layer 1, its parameter rows, then the index normalisation through the scatter. -/
abbrev cA1 : List (HloOp τ sig (Elt F)) :=
  [ unary main_arg10 main_v66 ((extractStridedSlice S1x64x16 ![0, 0, 0] · slices_S3x64x16_S1x64x16_0_0_0) : (⟨S3x64x16, .f32⟩ : BufTy).Contents (Elt F) → (⟨S1x64x16, .f32⟩ : BufTy).Contents (Elt F)),
    reshape main_v66 main_v67 rfl shapeCasts_S1x64x16_S64x16,
    unary main_arg11 main_v68 ((extractStridedSlice S1x64 ![0, 0] · slices_S3x64_S1x64_0_0) : (⟨S3x64, .f32⟩ : BufTy).Contents (Elt F) → (⟨S1x64, .f32⟩ : BufTy).Contents (Elt F)),
    reshape main_v68 main_v69 rfl shapeCasts_S1x64_S64,
    unary main_arg12 main_v70 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v70 main_v71 rfl shapeCasts_S1x64x64_S64x64,
    unary main_arg13 main_v72 ((extractStridedSlice S1x64 ![0, 0] · slices_S3x64_S1x64_0_0) : (⟨S3x64, .f32⟩ : BufTy).Contents (Elt F) → (⟨S1x64, .f32⟩ : BufTy).Contents (Elt F)),
    reshape main_v72 main_v73 rfl shapeCasts_S1x64_S64,
    unary main_arg14 main_v74 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v74 main_v75 rfl shapeCasts_S1x64x64_S64x64,
    unary main_arg15 main_v76 ((extractStridedSlice S1x64 ![0, 0] · slices_S3x64_S1x64_0_0) : (⟨S3x64, .f32⟩ : BufTy).Contents (Elt F) → (⟨S1x64, .f32⟩ : BufTy).Contents (Elt F)),
    reshape main_v76 main_v77 rfl shapeCasts_S1x64_S64,
    unary main_arg16 main_v78 ((extractStridedSlice S1x64 ![1, 0] · slices_S4x64_S1x64_1_0) : (⟨S4x64, .f32⟩ : BufTy).Contents (Elt F) → (⟨S1x64, .f32⟩ : BufTy).Contents (Elt F)),
    reshape main_v78 main_v79 rfl shapeCasts_S1x64_S64,
    unary main_arg17 main_v80 ((extractStridedSlice S1x64 ![1, 0] · slices_S4x64_S1x64_1_0) : (⟨S4x64, .f32⟩ : BufTy).Contents (Elt F) → (⟨S1x64, .f32⟩ : BufTy).Contents (Elt F)),
    reshape main_v80 main_v81 rfl shapeCasts_S1x64_S64,
    nullary main_c_7 (constantI S_ 32 0#32),
    unary main_c_7 main_v82 (broadcastInDim S1600000 ![] bcast_S_S1600000 : (⟨S_, .i32⟩ : BufTy).Contents (Elt F) → (⟨S1600000, .i32⟩ : BufTy).Contents (Elt F)),
    binary main_v1 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v84 (broadcastInDim S1600000 ![] bcast_S_S1600000 : (⟨S_, .i32⟩ : BufTy).Contents (Elt F) → (⟨S1600000, .i32⟩ : BufTy).Contents (Elt F)),
    binary main_v1 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v65 main_v87 main_v88 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v67 main_v89 ((transpose S16x64 [1, 0] · transposes_S64x16_S16x64_1_0) : (⟨S64x16, .f32⟩ : BufTy).Contents (Elt F) → (⟨S16x64, .f32⟩ : BufTy).Contents (Elt F)),
    binary main_arg2 main_v89 main_v90 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    binary main_v88 main_v90 main_v91 (addf : (⟨S1600000x64, .f32⟩ : BufTy).Contents (Elt F) → (⟨S1600000x64, .f32⟩ : BufTy).Contents (Elt F) → (⟨S1600000x64, .f32⟩ : BufTy).Contents (Elt F)),
    unary main_v69 main_v92 (broadcastInDim S1x64 ![1] bcast_S64_S1x64_1 : (⟨S64, .f32⟩ : BufTy).Contents (Elt F) → (⟨S1x64, .f32⟩ : BufTy).Contents (Elt F)),
    unary main_v92 main_v93 (broadcastInDim S1600000x64 ![0, 1] bcast_S1x64_S1600000x64_0_1 : (⟨S1x64, .f32⟩ : BufTy).Contents (Elt F) → (⟨S1600000x64, .f32⟩ : BufTy).Contents (Elt F)),
    binary main_v91 main_v93 main_v94 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1600000x64, .f32⟩) main_call4_v0) (broadcastInDim S1600000x64 ![] bcast_S_S1600000x64),
    TRef.binary (TRef.of (T := ⟨S1600000x64, .f32⟩) main_v94) (TRef.of (T := ⟨S1600000x64, .f32⟩) main_call4_v0) (TRef.of (T := ⟨S1600000x64, .f32⟩) main_v95) maximumf,
    nullary main_cst_9 (constant S_ .f32 0x00000000#32),
    unary main_cst_9 main_v96 (broadcastInDim S100000x64 ![] bcast_S_S100000x64 : (⟨S_, .f32⟩ : BufTy).Contents (Elt F) → (⟨S100000x64, .f32⟩ : BufTy).Contents (Elt F)),
    unary main_v3 main_v97 (broadcastInDim S1600000x1 ![0] bcast_S1600000_S1600000x1_0 : (⟨S1600000, .i32⟩ : BufTy).Contents (Elt F) → (⟨S1600000x1, .i32⟩ : BufTy).Contents (Elt F)),
    ternary main_v96 main_v97 main_v95 main_v98 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers that stretch `cA1` writes. -/
abbrev cA1_W : List (Ref sig .tc) :=
  [main_v66, main_v67, main_v68, main_v69, main_v70, main_v71, main_v72, main_v73, main_v74, main_v75, main_v76, main_v77, main_v78, main_v79, main_v80, main_v81, main_c_7, main_v82, main_v83, main_c_8, main_v84, main_v85, main_v86, main_v87, main_v88, main_v89, main_v90, main_v91, main_v92, main_v93, main_v94, main_call4_cst, main_call4_v0, main_v95, main_cst_9, main_v96, main_v97, main_v98]
theorem cA1_writes : (cA1 : List (HloOp τ sig (Elt F))).Forall fun op =>
    op.writes ⊆ (cA1_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cA1` does not write keeps its contents through it. -/
theorem cA1_keep (V : Valuation τ sig (Elt F)) (r : Ref sig .tc) (h : r ∉ cA1_W) :
    after (cA1 (F := F)) V (Proc.devRef .tc r) = V (Proc.devRef .tc r) :=
  after_of_writes_sub cA1 V cA1_writes h

/-- Operations 121 to 140 (main_cst_10 … main_v113): layer 1, from the self term plus the aggregate through the two products with bias and relu. -/
abbrev cB1 : List (HloOp τ sig (Elt F)) :=
  [ nullary main_cst_10 (constant S_ .f32 0x3F800000#32),
    unary main_cst_10 main_v99 (broadcastInDim S100000x64 ![] bcast_S_S100000x64 : (⟨S_, .f32⟩ : BufTy).Contents (Elt F) → (⟨S100000x64, .f32⟩ : BufTy).Contents (Elt F)),
    binary main_v99 main_v65 main_v100 (mulf : (⟨S100000x64, .f32⟩ : BufTy).Contents (Elt F) → (⟨S100000x64, .f32⟩ : BufTy).Contents (Elt F) → (⟨S100000x64, .f32⟩ : BufTy).Contents (Elt F)),
    binary main_v100 main_v98 main_v101 (addf : (⟨S100000x64, .f32⟩ : BufTy).Contents (Elt F) → (⟨S100000x64, .f32⟩ : BufTy).Contents (Elt F) → (⟨S100000x64, .f32⟩ : BufTy).Contents (Elt F)),
    unary main_v71 main_v102 ((transpose S64x64 [1, 0] · transposes_S64x64_S64x64_1_0) : (⟨S64x64, .f32⟩ : BufTy).Contents (Elt F) → (⟨S64x64, .f32⟩ : BufTy).Contents (Elt F)),
    binary main_v101 main_v102 main_v103 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v73 main_v104 (broadcastInDim S1x64 ![1] bcast_S64_S1x64_1 : (⟨S64, .f32⟩ : BufTy).Contents (Elt F) → (⟨S1x64, .f32⟩ : BufTy).Contents (Elt F)),
    unary main_v104 main_v105 (broadcastInDim S100000x64 ![0, 1] bcast_S1x64_S100000x64_0_1 : (⟨S1x64, .f32⟩ : BufTy).Contents (Elt F) → (⟨S100000x64, .f32⟩ : BufTy).Contents (Elt F)),
    binary main_v103 main_v105 main_v106 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v106) (TRef.of (T := ⟨S100000x64, .f32⟩) main_call5_v0) (TRef.of (T := ⟨S100000x64, .f32⟩) main_v107) maximumf,
    unary main_v75 main_v108 ((transpose S64x64 [1, 0] · transposes_S64x64_S64x64_1_0) : (⟨S64x64, .f32⟩ : BufTy).Contents (Elt F) → (⟨S64x64, .f32⟩ : BufTy).Contents (Elt F)),
    binary main_v107 main_v108 main_v109 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v77 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v109 main_v111 main_v112 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v112) (TRef.of (T := ⟨S100000x64, .f32⟩) main_call6_v0) (TRef.of (T := ⟨S100000x64, .f32⟩) main_v113) maximumf ]
/-- The buffers that stretch `cB1` writes. -/
abbrev cB1_W : List (Ref sig .tc) :=
  [main_cst_10, main_v99, main_v100, main_v101, main_v102, main_v103, main_v104, main_v105, main_v106, main_call5_cst, main_call5_v0, main_v107, main_v108, main_v109, main_v110, main_v111, main_v112, main_call6_cst, main_call6_v0, main_v113]
theorem cB1_writes : (cB1 : List (HloOp τ sig (Elt F))).Forall fun op =>
    op.writes ⊆ (cB1_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cB1` does not write keeps its contents through it. -/
theorem cB1_keep (V : Valuation τ sig (Elt F)) (r : Ref sig .tc) (h : r ∉ cB1_W) :
    after (cB1 (F := F)) V (Proc.devRef .tc r) = V (Proc.devRef .tc r) :=
  after_of_writes_sub cB1 V cB1_writes h

/-- Operations 141 to 173 (main_cst_11 … main_v139): layer 1, the mean, the variance, the normalisation, scale and shift, and the relu. -/
abbrev cC1 : List (HloOp τ sig (Elt F)) :=
  [ nullary main_cst_11 (constant S_ .f32 0x00000000#32),
    binary main_v113 main_cst_11 main_v114 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v115 (broadcastInDim S64 ![] bcast_S_S64 : (⟨S_, .f32⟩ : BufTy).Contents (Elt F) → (⟨S64, .f32⟩ : BufTy).Contents (Elt F)),
    binary main_v114 main_v115 main_v116 (Host.divf : (⟨S64, .f32⟩ : BufTy).Contents (Elt F) → (⟨S64, .f32⟩ : BufTy).Contents (Elt F) → (⟨S64, .f32⟩ : BufTy).Contents (Elt F)),
    unary main_v116 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v113 main_v118 main_v119 (subf : (⟨S100000x64, .f32⟩ : BufTy).Contents (Elt F) → (⟨S100000x64, .f32⟩ : BufTy).Contents (Elt F) → (⟨S100000x64, .f32⟩ : BufTy).Contents (Elt F)),
    binary main_v119 main_v119 main_v120 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x00000000#32),
    binary main_v120 main_cst_13 main_v121 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_14 (constant S_ .f32 0x47C35000#32),
    unary main_cst_14 main_v122 (broadcastInDim S64 ![] bcast_S_S64 : (⟨S_, .f32⟩ : BufTy).Contents (Elt F) → (⟨S64, .f32⟩ : BufTy).Contents (Elt F)),
    binary main_v121 main_v122 main_v123 (Host.divf : (⟨S64, .f32⟩ : BufTy).Contents (Elt F) → (⟨S64, .f32⟩ : BufTy).Contents (Elt F) → (⟨S64, .f32⟩ : BufTy).Contents (Elt F)),
    unary main_v116 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v113 main_v125 main_v126 (subf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3727C5AC#32),
    unary main_cst_15 main_v127 (broadcastInDim S64 ![] bcast_S_S64 : (⟨S_, .f32⟩ : BufTy).Contents (Elt F) → (⟨S64, .f32⟩ : BufTy).Contents (Elt F)),
    binary main_v123 main_v127 main_v128 (addf : (⟨S64, .f32⟩ : BufTy).Contents (Elt F) → (⟨S64, .f32⟩ : BufTy).Contents (Elt F) → (⟨S64, .f32⟩ : BufTy).Contents (Elt F)),
    unary main_v128 main_v129 (Host.rsqrt : (⟨S64, .f32⟩ : BufTy).Contents (Elt F) → (⟨S64, .f32⟩ : BufTy).Contents (Elt F)),
    unary main_v129 main_v130 (broadcastInDim S1x64 ![1] bcast_S64_S1x64_1 : (⟨S64, .f32⟩ : BufTy).Contents (Elt F) → (⟨S1x64, .f32⟩ : BufTy).Contents (Elt F)),
    unary main_v130 main_v131 (broadcastInDim S100000x64 ![0, 1] bcast_S1x64_S100000x64_0_1 : (⟨S1x64, .f32⟩ : BufTy).Contents (Elt F) → (⟨S100000x64, .f32⟩ : BufTy).Contents (Elt F)),
    binary main_v126 main_v131 main_v132 (mulf : (⟨S100000x64, .f32⟩ : BufTy).Contents (Elt F) → (⟨S100000x64, .f32⟩ : BufTy).Contents (Elt F) → (⟨S100000x64, .f32⟩ : BufTy).Contents (Elt F)),
    unary main_v79 main_v133 (broadcastInDim S1x64 ![1] bcast_S64_S1x64_1 : (⟨S64, .f32⟩ : BufTy).Contents (Elt F) → (⟨S1x64, .f32⟩ : BufTy).Contents (Elt F)),
    unary main_v133 main_v134 (broadcastInDim S100000x64 ![0, 1] bcast_S1x64_S100000x64_0_1 : (⟨S1x64, .f32⟩ : BufTy).Contents (Elt F) → (⟨S100000x64, .f32⟩ : BufTy).Contents (Elt F)),
    binary main_v132 main_v134 main_v135 (mulf : (⟨S100000x64, .f32⟩ : BufTy).Contents (Elt F) → (⟨S100000x64, .f32⟩ : BufTy).Contents (Elt F) → (⟨S100000x64, .f32⟩ : BufTy).Contents (Elt F)),
    unary main_v81 main_v136 (broadcastInDim S1x64 ![1] bcast_S64_S1x64_1 : (⟨S64, .f32⟩ : BufTy).Contents (Elt F) → (⟨S1x64, .f32⟩ : BufTy).Contents (Elt F)),
    unary main_v136 main_v137 (broadcastInDim S100000x64 ![0, 1] bcast_S1x64_S100000x64_0_1 : (⟨S1x64, .f32⟩ : BufTy).Contents (Elt F) → (⟨S100000x64, .f32⟩ : BufTy).Contents (Elt F)),
    binary main_v135 main_v137 main_v138 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v138) (TRef.of (T := ⟨S100000x64, .f32⟩) main_call7_v0) (TRef.of (T := ⟨S100000x64, .f32⟩) main_v139) maximumf ]
/-- The buffers that stretch `cC1` writes. -/
abbrev cC1_W : List (Ref sig .tc) :=
  [main_cst_11, main_v114, main_cst_12, main_v115, main_v116, main_v117, main_v118, main_v119, main_v120, main_cst_13, main_v121, main_cst_14, main_v122, main_v123, main_v124, main_v125, main_v126, main_cst_15, main_v127, main_v128, main_v129, main_v130, main_v131, main_v132, main_v133, main_v134, main_v135, main_v136, main_v137, main_v138, main_call7_cst, main_call7_v0, main_v139]
theorem cC1_writes : (cC1 : List (HloOp τ sig (Elt F))).Forall fun op =>
    op.writes ⊆ (cC1_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cC1` does not write keeps its contents through it. -/
theorem cC1_keep (V : Valuation τ sig (Elt F)) (r : Ref sig .tc) (h : r ∉ cC1_W) :
    after (cC1 (F := F)) V (Proc.devRef .tc r) = V (Proc.devRef .tc r) :=
  after_of_writes_sub cC1 V cC1_writes h

/-- Operations 174 to 211 (main_v140 … main_v172): layer 2, its parameter rows, then the index normalisation through the scatter. -/
abbrev cA2 : List (HloOp τ sig (Elt F)) :=
  [ unary main_arg10 main_v140 ((extractStridedSlice S1x64x16 ![1, 0, 0] · slices_S3x64x16_S1x64x16_1_0_0) : (⟨S3x64x16, .f32⟩ : BufTy).Contents (Elt F) → (⟨S1x64x16, .f32⟩ : BufTy).Contents (Elt F)),
    reshape main_v140 main_v141 rfl shapeCasts_S1x64x16_S64x16,
    unary main_arg11 main_v142 ((extractStridedSlice S1x64 ![1, 0] · slices_S3x64_S1x64_1_0) : (⟨S3x64, .f32⟩ : BufTy).Contents (Elt F) → (⟨S1x64, .f32⟩ : BufTy).Contents (Elt F)),
    reshape main_v142 main_v143 rfl shapeCasts_S1x64_S64,
    unary main_arg12 main_v144 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v144 main_v145 rfl shapeCasts_S1x64x64_S64x64,
    unary main_arg13 main_v146 ((extractStridedSlice S1x64 ![1, 0] · slices_S3x64_S1x64_1_0) : (⟨S3x64, .f32⟩ : BufTy).Contents (Elt F) → (⟨S1x64, .f32⟩ : BufTy).Contents (Elt F)),
    reshape main_v146 main_v147 rfl shapeCasts_S1x64_S64,
    unary main_arg14 main_v148 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v148 main_v149 rfl shapeCasts_S1x64x64_S64x64,
    unary main_arg15 main_v150 ((extractStridedSlice S1x64 ![1, 0] · slices_S3x64_S1x64_1_0) : (⟨S3x64, .f32⟩ : BufTy).Contents (Elt F) → (⟨S1x64, .f32⟩ : BufTy).Contents (Elt F)),
    reshape main_v150 main_v151 rfl shapeCasts_S1x64_S64,
    unary main_arg16 main_v152 ((extractStridedSlice S1x64 ![2, 0] · slices_S4x64_S1x64_2_0) : (⟨S4x64, .f32⟩ : BufTy).Contents (Elt F) → (⟨S1x64, .f32⟩ : BufTy).Contents (Elt F)),
    reshape main_v152 main_v153 rfl shapeCasts_S1x64_S64,
    unary main_arg17 main_v154 ((extractStridedSlice S1x64 ![2, 0] · slices_S4x64_S1x64_2_0) : (⟨S4x64, .f32⟩ : BufTy).Contents (Elt F) → (⟨S1x64, .f32⟩ : BufTy).Contents (Elt F)),
    reshape main_v154 main_v155 rfl shapeCasts_S1x64_S64,
    nullary main_c_16 (constantI S_ 32 0#32),
    unary main_c_16 main_v156 (broadcastInDim S1600000 ![] bcast_S_S1600000 : (⟨S_, .i32⟩ : BufTy).Contents (Elt F) → (⟨S1600000, .i32⟩ : BufTy).Contents (Elt F)),
    binary main_v1 main_v156 main_v157 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v158 (broadcastInDim S1600000 ![] bcast_S_S1600000 : (⟨S_, .i32⟩ : BufTy).Contents (Elt F) → (⟨S1600000, .i32⟩ : BufTy).Contents (Elt F)),
    binary main_v1 main_v158 main_v159 (addi : (⟨S1600000, .i32⟩ : BufTy).Contents (Elt F) → (⟨S1600000, .i32⟩ : BufTy).Contents (Elt F) → (⟨S1600000, .i32⟩ : BufTy).Contents (Elt F)),
    ternary main_v157 main_v159 main_v1 main_v160 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v160 main_v161 (broadcastInDim S1600000x1 ![0] bcast_S1600000_S1600000x1_0 : (⟨S1600000, .i32⟩ : BufTy).Contents (Elt F) → (⟨S1600000x1, .i32⟩ : BufTy).Contents (Elt F)),
    binary main_v139 main_v161 main_v162 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v141 main_v163 ((transpose S16x64 [1, 0] · transposes_S64x16_S16x64_1_0) : (⟨S64x16, .f32⟩ : BufTy).Contents (Elt F) → (⟨S16x64, .f32⟩ : BufTy).Contents (Elt F)),
    binary main_arg2 main_v163 main_v164 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    binary main_v162 main_v164 main_v165 (addf : (⟨S1600000x64, .f32⟩ : BufTy).Contents (Elt F) → (⟨S1600000x64, .f32⟩ : BufTy).Contents (Elt F) → (⟨S1600000x64, .f32⟩ : BufTy).Contents (Elt F)),
    unary main_v143 main_v166 (broadcastInDim S1x64 ![1] bcast_S64_S1x64_1 : (⟨S64, .f32⟩ : BufTy).Contents (Elt F) → (⟨S1x64, .f32⟩ : BufTy).Contents (Elt F)),
    unary main_v166 main_v167 (broadcastInDim S1600000x64 ![0, 1] bcast_S1x64_S1600000x64_0_1 : (⟨S1x64, .f32⟩ : BufTy).Contents (Elt F) → (⟨S1600000x64, .f32⟩ : BufTy).Contents (Elt F)),
    binary main_v165 main_v167 main_v168 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1600000x64, .f32⟩) main_call8_v0) (broadcastInDim S1600000x64 ![] bcast_S_S1600000x64),
    TRef.binary (TRef.of (T := ⟨S1600000x64, .f32⟩) main_v168) (TRef.of (T := ⟨S1600000x64, .f32⟩) main_call8_v0) (TRef.of (T := ⟨S1600000x64, .f32⟩) main_v169) maximumf,
    nullary main_cst_18 (constant S_ .f32 0x00000000#32),
    unary main_cst_18 main_v170 (broadcastInDim S100000x64 ![] bcast_S_S100000x64 : (⟨S_, .f32⟩ : BufTy).Contents (Elt F) → (⟨S100000x64, .f32⟩ : BufTy).Contents (Elt F)),
    unary main_v3 main_v171 (broadcastInDim S1600000x1 ![0] bcast_S1600000_S1600000x1_0 : (⟨S1600000, .i32⟩ : BufTy).Contents (Elt F) → (⟨S1600000x1, .i32⟩ : BufTy).Contents (Elt F)),
    ternary main_v170 main_v171 main_v169 main_v172 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers that stretch `cA2` writes. -/
abbrev cA2_W : List (Ref sig .tc) :=
  [main_v140, main_v141, main_v142, main_v143, main_v144, main_v145, main_v146, main_v147, main_v148, main_v149, main_v150, main_v151, main_v152, main_v153, main_v154, main_v155, main_c_16, main_v156, main_v157, main_c_17, main_v158, main_v159, main_v160, main_v161, main_v162, main_v163, main_v164, main_v165, main_v166, main_v167, main_v168, main_call8_cst, main_call8_v0, main_v169, main_cst_18, main_v170, main_v171, main_v172]
theorem cA2_writes : (cA2 : List (HloOp τ sig (Elt F))).Forall fun op =>
    op.writes ⊆ (cA2_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cA2` does not write keeps its contents through it. -/
theorem cA2_keep (V : Valuation τ sig (Elt F)) (r : Ref sig .tc) (h : r ∉ cA2_W) :
    after (cA2 (F := F)) V (Proc.devRef .tc r) = V (Proc.devRef .tc r) :=
  after_of_writes_sub cA2 V cA2_writes h

/-- Operations 212 to 231 (main_cst_19 … main_v187): layer 2, from the self term plus the aggregate through the two products with bias and relu. -/
abbrev cB2 : List (HloOp τ sig (Elt F)) :=
  [ nullary main_cst_19 (constant S_ .f32 0x3F800000#32),
    unary main_cst_19 main_v173 (broadcastInDim S100000x64 ![] bcast_S_S100000x64 : (⟨S_, .f32⟩ : BufTy).Contents (Elt F) → (⟨S100000x64, .f32⟩ : BufTy).Contents (Elt F)),
    binary main_v173 main_v139 main_v174 (mulf : (⟨S100000x64, .f32⟩ : BufTy).Contents (Elt F) → (⟨S100000x64, .f32⟩ : BufTy).Contents (Elt F) → (⟨S100000x64, .f32⟩ : BufTy).Contents (Elt F)),
    binary main_v174 main_v172 main_v175 (addf : (⟨S100000x64, .f32⟩ : BufTy).Contents (Elt F) → (⟨S100000x64, .f32⟩ : BufTy).Contents (Elt F) → (⟨S100000x64, .f32⟩ : BufTy).Contents (Elt F)),
    unary main_v145 main_v176 ((transpose S64x64 [1, 0] · transposes_S64x64_S64x64_1_0) : (⟨S64x64, .f32⟩ : BufTy).Contents (Elt F) → (⟨S64x64, .f32⟩ : BufTy).Contents (Elt F)),
    binary main_v175 main_v176 main_v177 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v147 main_v178 (broadcastInDim S1x64 ![1] bcast_S64_S1x64_1 : (⟨S64, .f32⟩ : BufTy).Contents (Elt F) → (⟨S1x64, .f32⟩ : BufTy).Contents (Elt F)),
    unary main_v178 main_v179 (broadcastInDim S100000x64 ![0, 1] bcast_S1x64_S100000x64_0_1 : (⟨S1x64, .f32⟩ : BufTy).Contents (Elt F) → (⟨S100000x64, .f32⟩ : BufTy).Contents (Elt F)),
    binary main_v177 main_v179 main_v180 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v180) (TRef.of (T := ⟨S100000x64, .f32⟩) main_call9_v0) (TRef.of (T := ⟨S100000x64, .f32⟩) main_v181) maximumf,
    unary main_v149 main_v182 ((transpose S64x64 [1, 0] · transposes_S64x64_S64x64_1_0) : (⟨S64x64, .f32⟩ : BufTy).Contents (Elt F) → (⟨S64x64, .f32⟩ : BufTy).Contents (Elt F)),
    binary main_v181 main_v182 main_v183 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v151 main_v184 (broadcastInDim S1x64 ![1] bcast_S64_S1x64_1 : (⟨S64, .f32⟩ : BufTy).Contents (Elt F) → (⟨S1x64, .f32⟩ : BufTy).Contents (Elt F)),
    unary main_v184 main_v185 (broadcastInDim S100000x64 ![0, 1] bcast_S1x64_S100000x64_0_1 : (⟨S1x64, .f32⟩ : BufTy).Contents (Elt F) → (⟨S100000x64, .f32⟩ : BufTy).Contents (Elt F)),
    binary main_v183 main_v185 main_v186 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x64, .f32⟩) main_call10_v0) (broadcastInDim S100000x64 ![] bcast_S_S100000x64),
    TRef.binary (TRef.of (T := ⟨S100000x64, .f32⟩) main_v186) (TRef.of (T := ⟨S100000x64, .f32⟩) main_call10_v0) (TRef.of (T := ⟨S100000x64, .f32⟩) main_v187) maximumf ]
/-- The buffers that stretch `cB2` writes. -/
abbrev cB2_W : List (Ref sig .tc) :=
  [main_cst_19, main_v173, main_v174, main_v175, main_v176, main_v177, main_v178, main_v179, main_v180, main_call9_cst, main_call9_v0, main_v181, main_v182, main_v183, main_v184, main_v185, main_v186, main_call10_cst, main_call10_v0, main_v187]
theorem cB2_writes : (cB2 : List (HloOp τ sig (Elt F))).Forall fun op =>
    op.writes ⊆ (cB2_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cB2` does not write keeps its contents through it. -/
theorem cB2_keep (V : Valuation τ sig (Elt F)) (r : Ref sig .tc) (h : r ∉ cB2_W) :
    after (cB2 (F := F)) V (Proc.devRef .tc r) = V (Proc.devRef .tc r) :=
  after_of_writes_sub cB2 V cB2_writes h

/-- Operations 232 to 264 (main_cst_20 … main_v213): layer 2, the mean, the variance, the normalisation, scale and shift, and the relu. -/
abbrev cC2 : List (HloOp τ sig (Elt F)) :=
  [ nullary main_cst_20 (constant S_ .f32 0x00000000#32),
    binary main_v187 main_cst_20 main_v188 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_21 (constant S_ .f32 0x47C35000#32),
    unary main_cst_21 main_v189 (broadcastInDim S64 ![] bcast_S_S64 : (⟨S_, .f32⟩ : BufTy).Contents (Elt F) → (⟨S64, .f32⟩ : BufTy).Contents (Elt F)),
    binary main_v188 main_v189 main_v190 (Host.divf : (⟨S64, .f32⟩ : BufTy).Contents (Elt F) → (⟨S64, .f32⟩ : BufTy).Contents (Elt F) → (⟨S64, .f32⟩ : BufTy).Contents (Elt F)),
    unary main_v190 main_v191 (broadcastInDim S1x64 ![1] bcast_S64_S1x64_1 : (⟨S64, .f32⟩ : BufTy).Contents (Elt F) → (⟨S1x64, .f32⟩ : BufTy).Contents (Elt F)),
    unary main_v191 main_v192 (broadcastInDim S100000x64 ![0, 1] bcast_S1x64_S100000x64_0_1 : (⟨S1x64, .f32⟩ : BufTy).Contents (Elt F) → (⟨S100000x64, .f32⟩ : BufTy).Contents (Elt F)),
    binary main_v187 main_v192 main_v193 (subf : (⟨S100000x64, .f32⟩ : BufTy).Contents (Elt F) → (⟨S100000x64, .f32⟩ : BufTy).Contents (Elt F) → (⟨S100000x64, .f32⟩ : BufTy).Contents (Elt F)),
    binary main_v193 main_v193 main_v194 (mulf : (⟨S100000x64, .f32⟩ : BufTy).Contents (Elt F) → (⟨S100000x64, .f32⟩ : BufTy).Contents (Elt F) → (⟨S100000x64, .f32⟩ : BufTy).Contents (Elt F)),
    nullary main_cst_22 (constant S_ .f32 0x00000000#32),
    binary main_v194 main_cst_22 main_v195 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_23 (constant S_ .f32 0x47C35000#32),
    unary main_cst_23 main_v196 (broadcastInDim S64 ![] bcast_S_S64 : (⟨S_, .f32⟩ : BufTy).Contents (Elt F) → (⟨S64, .f32⟩ : BufTy).Contents (Elt F)),
    binary main_v195 main_v196 main_v197 (Host.divf : (⟨S64, .f32⟩ : BufTy).Contents (Elt F) → (⟨S64, .f32⟩ : BufTy).Contents (Elt F) → (⟨S64, .f32⟩ : BufTy).Contents (Elt F)),
    unary main_v190 main_v198 (broadcastInDim S1x64 ![1] bcast_S64_S1x64_1 : (⟨S64, .f32⟩ : BufTy).Contents (Elt F) → (⟨S1x64, .f32⟩ : BufTy).Contents (Elt F)),
    unary main_v198 main_v199 (broadcastInDim S100000x64 ![0, 1] bcast_S1x64_S100000x64_0_1 : (⟨S1x64, .f32⟩ : BufTy).Contents (Elt F) → (⟨S100000x64, .f32⟩ : BufTy).Contents (Elt F)),
    binary main_v187 main_v199 main_v200 (subf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x3727C5AC#32),
    unary main_cst_24 main_v201 (broadcastInDim S64 ![] bcast_S_S64 : (⟨S_, .f32⟩ : BufTy).Contents (Elt F) → (⟨S64, .f32⟩ : BufTy).Contents (Elt F)),
    binary main_v197 main_v201 main_v202 (addf : (⟨S64, .f32⟩ : BufTy).Contents (Elt F) → (⟨S64, .f32⟩ : BufTy).Contents (Elt F) → (⟨S64, .f32⟩ : BufTy).Contents (Elt F)),
    unary main_v202 main_v203 (Host.rsqrt : (⟨S64, .f32⟩ : BufTy).Contents (Elt F) → (⟨S64, .f32⟩ : BufTy).Contents (Elt F)),
    unary main_v203 main_v204 (broadcastInDim S1x64 ![1] bcast_S64_S1x64_1 : (⟨S64, .f32⟩ : BufTy).Contents (Elt F) → (⟨S1x64, .f32⟩ : BufTy).Contents (Elt F)),
    unary main_v204 main_v205 (broadcastInDim S100000x64 ![0, 1] bcast_S1x64_S100000x64_0_1 : (⟨S1x64, .f32⟩ : BufTy).Contents (Elt F) → (⟨S100000x64, .f32⟩ : BufTy).Contents (Elt F)),
    binary main_v200 main_v205 main_v206 (mulf : (⟨S100000x64, .f32⟩ : BufTy).Contents (Elt F) → (⟨S100000x64, .f32⟩ : BufTy).Contents (Elt F) → (⟨S100000x64, .f32⟩ : BufTy).Contents (Elt F)),
    unary main_v153 main_v207 (broadcastInDim S1x64 ![1] bcast_S64_S1x64_1 : (⟨S64, .f32⟩ : BufTy).Contents (Elt F) → (⟨S1x64, .f32⟩ : BufTy).Contents (Elt F)),
    unary main_v207 main_v208 (broadcastInDim S100000x64 ![0, 1] bcast_S1x64_S100000x64_0_1 : (⟨S1x64, .f32⟩ : BufTy).Contents (Elt F) → (⟨S100000x64, .f32⟩ : BufTy).Contents (Elt F)),
    binary main_v206 main_v208 main_v209 (mulf : (⟨S100000x64, .f32⟩ : BufTy).Contents (Elt F) → (⟨S100000x64, .f32⟩ : BufTy).Contents (Elt F) → (⟨S100000x64, .f32⟩ : BufTy).Contents (Elt F)),
    unary main_v155 main_v210 (broadcastInDim S1x64 ![1] bcast_S64_S1x64_1 : (⟨S64, .f32⟩ : BufTy).Contents (Elt F) → (⟨S1x64, .f32⟩ : BufTy).Contents (Elt F)),
    unary main_v210 main_v211 (broadcastInDim S100000x64 ![0, 1] bcast_S1x64_S100000x64_0_1 : (⟨S1x64, .f32⟩ : BufTy).Contents (Elt F) → (⟨S100000x64, .f32⟩ : BufTy).Contents (Elt F)),
    binary main_v209 main_v211 main_v212 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x64, .f32⟩) main_call11_v0) (broadcastInDim S100000x64 ![] bcast_S_S100000x64),
    TRef.binary (TRef.of (T := ⟨S100000x64, .f32⟩) main_v212) (TRef.of (T := ⟨S100000x64, .f32⟩) main_call11_v0) (TRef.of (T := ⟨S100000x64, .f32⟩) main_v213) maximumf ]
/-- The buffers that stretch `cC2` writes. -/
abbrev cC2_W : List (Ref sig .tc) :=
  [main_cst_20, main_v188, main_cst_21, main_v189, main_v190, main_v191, main_v192, main_v193, main_v194, main_cst_22, main_v195, main_cst_23, main_v196, main_v197, main_v198, main_v199, main_v200, main_cst_24, main_v201, main_v202, main_v203, main_v204, main_v205, main_v206, main_v207, main_v208, main_v209, main_v210, main_v211, main_v212, main_call11_cst, main_call11_v0, main_v213]
theorem cC2_writes : (cC2 : List (HloOp τ sig (Elt F))).Forall fun op =>
    op.writes ⊆ (cC2_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cC2` does not write keeps its contents through it. -/
theorem cC2_keep (V : Valuation τ sig (Elt F)) (r : Ref sig .tc) (h : r ∉ cC2_W) :
    after (cC2 (F := F)) V (Proc.devRef .tc r) = V (Proc.devRef .tc r) :=
  after_of_writes_sub cC2 V cC2_writes h

/-- Operations 265 to 302 (main_v214 … main_v246): layer 3, its parameter rows, then the index normalisation through the scatter. -/
abbrev cA3 : List (HloOp τ sig (Elt F)) :=
  [ unary main_arg10 main_v214 ((extractStridedSlice S1x64x16 ![2, 0, 0] · slices_S3x64x16_S1x64x16_2_0_0) : (⟨S3x64x16, .f32⟩ : BufTy).Contents (Elt F) → (⟨S1x64x16, .f32⟩ : BufTy).Contents (Elt F)),
    reshape main_v214 main_v215 rfl shapeCasts_S1x64x16_S64x16,
    unary main_arg11 main_v216 ((extractStridedSlice S1x64 ![2, 0] · slices_S3x64_S1x64_2_0) : (⟨S3x64, .f32⟩ : BufTy).Contents (Elt F) → (⟨S1x64, .f32⟩ : BufTy).Contents (Elt F)),
    reshape main_v216 main_v217 rfl shapeCasts_S1x64_S64,
    unary main_arg12 main_v218 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v218 main_v219 rfl shapeCasts_S1x64x64_S64x64,
    unary main_arg13 main_v220 ((extractStridedSlice S1x64 ![2, 0] · slices_S3x64_S1x64_2_0) : (⟨S3x64, .f32⟩ : BufTy).Contents (Elt F) → (⟨S1x64, .f32⟩ : BufTy).Contents (Elt F)),
    reshape main_v220 main_v221 rfl shapeCasts_S1x64_S64,
    unary main_arg14 main_v222 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v222 main_v223 rfl shapeCasts_S1x64x64_S64x64,
    unary main_arg15 main_v224 ((extractStridedSlice S1x64 ![2, 0] · slices_S3x64_S1x64_2_0) : (⟨S3x64, .f32⟩ : BufTy).Contents (Elt F) → (⟨S1x64, .f32⟩ : BufTy).Contents (Elt F)),
    reshape main_v224 main_v225 rfl shapeCasts_S1x64_S64,
    unary main_arg16 main_v226 ((extractStridedSlice S1x64 ![3, 0] · slices_S4x64_S1x64_3_0) : (⟨S4x64, .f32⟩ : BufTy).Contents (Elt F) → (⟨S1x64, .f32⟩ : BufTy).Contents (Elt F)),
    reshape main_v226 main_v227 rfl shapeCasts_S1x64_S64,
    unary main_arg17 main_v228 ((extractStridedSlice S1x64 ![3, 0] · slices_S4x64_S1x64_3_0) : (⟨S4x64, .f32⟩ : BufTy).Contents (Elt F) → (⟨S1x64, .f32⟩ : BufTy).Contents (Elt F)),
    reshape main_v228 main_v229 rfl shapeCasts_S1x64_S64,
    nullary main_c_25 (constantI S_ 32 0#32),
    unary main_c_25 main_v230 (broadcastInDim S1600000 ![] bcast_S_S1600000 : (⟨S_, .i32⟩ : BufTy).Contents (Elt F) → (⟨S1600000, .i32⟩ : BufTy).Contents (Elt F)),
    binary main_v1 main_v230 main_v231 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v232 (broadcastInDim S1600000 ![] bcast_S_S1600000 : (⟨S_, .i32⟩ : BufTy).Contents (Elt F) → (⟨S1600000, .i32⟩ : BufTy).Contents (Elt F)),
    binary main_v1 main_v232 main_v233 (addi : (⟨S1600000, .i32⟩ : BufTy).Contents (Elt F) → (⟨S1600000, .i32⟩ : BufTy).Contents (Elt F) → (⟨S1600000, .i32⟩ : BufTy).Contents (Elt F)),
    ternary main_v231 main_v233 main_v1 main_v234 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v234 main_v235 (broadcastInDim S1600000x1 ![0] bcast_S1600000_S1600000x1_0 : (⟨S1600000, .i32⟩ : BufTy).Contents (Elt F) → (⟨S1600000x1, .i32⟩ : BufTy).Contents (Elt F)),
    binary main_v213 main_v235 main_v236 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v215 main_v237 ((transpose S16x64 [1, 0] · transposes_S64x16_S16x64_1_0) : (⟨S64x16, .f32⟩ : BufTy).Contents (Elt F) → (⟨S16x64, .f32⟩ : BufTy).Contents (Elt F)),
    binary main_arg2 main_v237 main_v238 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    binary main_v236 main_v238 main_v239 (addf : (⟨S1600000x64, .f32⟩ : BufTy).Contents (Elt F) → (⟨S1600000x64, .f32⟩ : BufTy).Contents (Elt F) → (⟨S1600000x64, .f32⟩ : BufTy).Contents (Elt F)),
    unary main_v217 main_v240 (broadcastInDim S1x64 ![1] bcast_S64_S1x64_1 : (⟨S64, .f32⟩ : BufTy).Contents (Elt F) → (⟨S1x64, .f32⟩ : BufTy).Contents (Elt F)),
    unary main_v240 main_v241 (broadcastInDim S1600000x64 ![0, 1] bcast_S1x64_S1600000x64_0_1 : (⟨S1x64, .f32⟩ : BufTy).Contents (Elt F) → (⟨S1600000x64, .f32⟩ : BufTy).Contents (Elt F)),
    binary main_v239 main_v241 main_v242 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S1600000x64, .f32⟩) main_call12_v0) (broadcastInDim S1600000x64 ![] bcast_S_S1600000x64),
    TRef.binary (TRef.of (T := ⟨S1600000x64, .f32⟩) main_v242) (TRef.of (T := ⟨S1600000x64, .f32⟩) main_call12_v0) (TRef.of (T := ⟨S1600000x64, .f32⟩) main_v243) maximumf,
    nullary main_cst_27 (constant S_ .f32 0x00000000#32),
    unary main_cst_27 main_v244 (broadcastInDim S100000x64 ![] bcast_S_S100000x64 : (⟨S_, .f32⟩ : BufTy).Contents (Elt F) → (⟨S100000x64, .f32⟩ : BufTy).Contents (Elt F)),
    unary main_v3 main_v245 (broadcastInDim S1600000x1 ![0] bcast_S1600000_S1600000x1_0 : (⟨S1600000, .i32⟩ : BufTy).Contents (Elt F) → (⟨S1600000x1, .i32⟩ : BufTy).Contents (Elt F)),
    ternary main_v244 main_v245 main_v243 main_v246 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers that stretch `cA3` writes. -/
abbrev cA3_W : List (Ref sig .tc) :=
  [main_v214, main_v215, main_v216, main_v217, main_v218, main_v219, main_v220, main_v221, main_v222, main_v223, main_v224, main_v225, main_v226, main_v227, main_v228, main_v229, main_c_25, main_v230, main_v231, main_c_26, main_v232, main_v233, main_v234, main_v235, main_v236, main_v237, main_v238, main_v239, main_v240, main_v241, main_v242, main_call12_cst, main_call12_v0, main_v243, main_cst_27, main_v244, main_v245, main_v246]
theorem cA3_writes : (cA3 : List (HloOp τ sig (Elt F))).Forall fun op =>
    op.writes ⊆ (cA3_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cA3` does not write keeps its contents through it. -/
theorem cA3_keep (V : Valuation τ sig (Elt F)) (r : Ref sig .tc) (h : r ∉ cA3_W) :
    after (cA3 (F := F)) V (Proc.devRef .tc r) = V (Proc.devRef .tc r) :=
  after_of_writes_sub cA3 V cA3_writes h

/-- Operations 303 to 322 (main_cst_28 … main_v261): layer 3, from the self term plus the aggregate through the two products with bias and relu. -/
abbrev cB3 : List (HloOp τ sig (Elt F)) :=
  [ nullary main_cst_28 (constant S_ .f32 0x3F800000#32),
    unary main_cst_28 main_v247 (broadcastInDim S100000x64 ![] bcast_S_S100000x64 : (⟨S_, .f32⟩ : BufTy).Contents (Elt F) → (⟨S100000x64, .f32⟩ : BufTy).Contents (Elt F)),
    binary main_v247 main_v213 main_v248 (mulf : (⟨S100000x64, .f32⟩ : BufTy).Contents (Elt F) → (⟨S100000x64, .f32⟩ : BufTy).Contents (Elt F) → (⟨S100000x64, .f32⟩ : BufTy).Contents (Elt F)),
    binary main_v248 main_v246 main_v249 (addf : (⟨S100000x64, .f32⟩ : BufTy).Contents (Elt F) → (⟨S100000x64, .f32⟩ : BufTy).Contents (Elt F) → (⟨S100000x64, .f32⟩ : BufTy).Contents (Elt F)),
    unary main_v219 main_v250 ((transpose S64x64 [1, 0] · transposes_S64x64_S64x64_1_0) : (⟨S64x64, .f32⟩ : BufTy).Contents (Elt F) → (⟨S64x64, .f32⟩ : BufTy).Contents (Elt F)),
    binary main_v249 main_v250 main_v251 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v221 main_v252 (broadcastInDim S1x64 ![1] bcast_S64_S1x64_1 : (⟨S64, .f32⟩ : BufTy).Contents (Elt F) → (⟨S1x64, .f32⟩ : BufTy).Contents (Elt F)),
    unary main_v252 main_v253 (broadcastInDim S100000x64 ![0, 1] bcast_S1x64_S100000x64_0_1 : (⟨S1x64, .f32⟩ : BufTy).Contents (Elt F) → (⟨S100000x64, .f32⟩ : BufTy).Contents (Elt F)),
    binary main_v251 main_v253 main_v254 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x64, .f32⟩) main_call13_v0) (broadcastInDim S100000x64 ![] bcast_S_S100000x64),
    TRef.binary (TRef.of (T := ⟨S100000x64, .f32⟩) main_v254) (TRef.of (T := ⟨S100000x64, .f32⟩) main_call13_v0) (TRef.of (T := ⟨S100000x64, .f32⟩) main_v255) maximumf,
    unary main_v223 main_v256 ((transpose S64x64 [1, 0] · transposes_S64x64_S64x64_1_0) : (⟨S64x64, .f32⟩ : BufTy).Contents (Elt F) → (⟨S64x64, .f32⟩ : BufTy).Contents (Elt F)),
    binary main_v255 main_v256 main_v257 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v225 main_v258 (broadcastInDim S1x64 ![1] bcast_S64_S1x64_1 : (⟨S64, .f32⟩ : BufTy).Contents (Elt F) → (⟨S1x64, .f32⟩ : BufTy).Contents (Elt F)),
    unary main_v258 main_v259 (broadcastInDim S100000x64 ![0, 1] bcast_S1x64_S100000x64_0_1 : (⟨S1x64, .f32⟩ : BufTy).Contents (Elt F) → (⟨S100000x64, .f32⟩ : BufTy).Contents (Elt F)),
    binary main_v257 main_v259 main_v260 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S100000x64, .f32⟩) main_call14_v0) (broadcastInDim S100000x64 ![] bcast_S_S100000x64),
    TRef.binary (TRef.of (T := ⟨S100000x64, .f32⟩) main_v260) (TRef.of (T := ⟨S100000x64, .f32⟩) main_call14_v0) (TRef.of (T := ⟨S100000x64, .f32⟩) main_v261) maximumf ]
/-- The buffers that stretch `cB3` writes. -/
abbrev cB3_W : List (Ref sig .tc) :=
  [main_cst_28, main_v247, main_v248, main_v249, main_v250, main_v251, main_v252, main_v253, main_v254, main_call13_cst, main_call13_v0, main_v255, main_v256, main_v257, main_v258, main_v259, main_v260, main_call14_cst, main_call14_v0, main_v261]
theorem cB3_writes : (cB3 : List (HloOp τ sig (Elt F))).Forall fun op =>
    op.writes ⊆ (cB3_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cB3` does not write keeps its contents through it. -/
theorem cB3_keep (V : Valuation τ sig (Elt F)) (r : Ref sig .tc) (h : r ∉ cB3_W) :
    after (cB3 (F := F)) V (Proc.devRef .tc r) = V (Proc.devRef .tc r) :=
  after_of_writes_sub cB3 V cB3_writes h

/-- Operations 323 to 355 (main_cst_29 … main_v287): layer 3, the mean, the variance, the normalisation, scale and shift, and the relu. -/
abbrev cC3 : List (HloOp τ sig (Elt F)) :=
  [ nullary main_cst_29 (constant S_ .f32 0x00000000#32),
    binary main_v261 main_cst_29 main_v262 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_30 (constant S_ .f32 0x47C35000#32),
    unary main_cst_30 main_v263 (broadcastInDim S64 ![] bcast_S_S64 : (⟨S_, .f32⟩ : BufTy).Contents (Elt F) → (⟨S64, .f32⟩ : BufTy).Contents (Elt F)),
    binary main_v262 main_v263 main_v264 (Host.divf : (⟨S64, .f32⟩ : BufTy).Contents (Elt F) → (⟨S64, .f32⟩ : BufTy).Contents (Elt F) → (⟨S64, .f32⟩ : BufTy).Contents (Elt F)),
    unary main_v264 main_v265 (broadcastInDim S1x64 ![1] bcast_S64_S1x64_1 : (⟨S64, .f32⟩ : BufTy).Contents (Elt F) → (⟨S1x64, .f32⟩ : BufTy).Contents (Elt F)),
    unary main_v265 main_v266 (broadcastInDim S100000x64 ![0, 1] bcast_S1x64_S100000x64_0_1 : (⟨S1x64, .f32⟩ : BufTy).Contents (Elt F) → (⟨S100000x64, .f32⟩ : BufTy).Contents (Elt F)),
    binary main_v261 main_v266 main_v267 (subf : (⟨S100000x64, .f32⟩ : BufTy).Contents (Elt F) → (⟨S100000x64, .f32⟩ : BufTy).Contents (Elt F) → (⟨S100000x64, .f32⟩ : BufTy).Contents (Elt F)),
    binary main_v267 main_v267 main_v268 (mulf : (⟨S100000x64, .f32⟩ : BufTy).Contents (Elt F) → (⟨S100000x64, .f32⟩ : BufTy).Contents (Elt F) → (⟨S100000x64, .f32⟩ : BufTy).Contents (Elt F)),
    nullary main_cst_31 (constant S_ .f32 0x00000000#32),
    binary main_v268 main_cst_31 main_v269 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_32 (constant S_ .f32 0x47C35000#32),
    unary main_cst_32 main_v270 (broadcastInDim S64 ![] bcast_S_S64 : (⟨S_, .f32⟩ : BufTy).Contents (Elt F) → (⟨S64, .f32⟩ : BufTy).Contents (Elt F)),
    binary main_v269 main_v270 main_v271 (Host.divf : (⟨S64, .f32⟩ : BufTy).Contents (Elt F) → (⟨S64, .f32⟩ : BufTy).Contents (Elt F) → (⟨S64, .f32⟩ : BufTy).Contents (Elt F)),
    unary main_v264 main_v272 (broadcastInDim S1x64 ![1] bcast_S64_S1x64_1 : (⟨S64, .f32⟩ : BufTy).Contents (Elt F) → (⟨S1x64, .f32⟩ : BufTy).Contents (Elt F)),
    unary main_v272 main_v273 (broadcastInDim S100000x64 ![0, 1] bcast_S1x64_S100000x64_0_1 : (⟨S1x64, .f32⟩ : BufTy).Contents (Elt F) → (⟨S100000x64, .f32⟩ : BufTy).Contents (Elt F)),
    binary main_v261 main_v273 main_v274 (subf : (⟨S100000x64, .f32⟩ : BufTy).Contents (Elt F) → (⟨S100000x64, .f32⟩ : BufTy).Contents (Elt F) → (⟨S100000x64, .f32⟩ : BufTy).Contents (Elt F)),
    nullary main_cst_33 (constant S_ .f32 0x3727C5AC#32),
    unary main_cst_33 main_v275 (broadcastInDim S64 ![] bcast_S_S64 : (⟨S_, .f32⟩ : BufTy).Contents (Elt F) → (⟨S64, .f32⟩ : BufTy).Contents (Elt F)),
    binary main_v271 main_v275 main_v276 (addf : (⟨S64, .f32⟩ : BufTy).Contents (Elt F) → (⟨S64, .f32⟩ : BufTy).Contents (Elt F) → (⟨S64, .f32⟩ : BufTy).Contents (Elt F)),
    unary main_v276 main_v277 (Host.rsqrt : (⟨S64, .f32⟩ : BufTy).Contents (Elt F) → (⟨S64, .f32⟩ : BufTy).Contents (Elt F)),
    unary main_v277 main_v278 (broadcastInDim S1x64 ![1] bcast_S64_S1x64_1 : (⟨S64, .f32⟩ : BufTy).Contents (Elt F) → (⟨S1x64, .f32⟩ : BufTy).Contents (Elt F)),
    unary main_v278 main_v279 (broadcastInDim S100000x64 ![0, 1] bcast_S1x64_S100000x64_0_1 : (⟨S1x64, .f32⟩ : BufTy).Contents (Elt F) → (⟨S100000x64, .f32⟩ : BufTy).Contents (Elt F)),
    binary main_v274 main_v279 main_v280 (mulf : (⟨S100000x64, .f32⟩ : BufTy).Contents (Elt F) → (⟨S100000x64, .f32⟩ : BufTy).Contents (Elt F) → (⟨S100000x64, .f32⟩ : BufTy).Contents (Elt F)),
    unary main_v227 main_v281 (broadcastInDim S1x64 ![1] bcast_S64_S1x64_1 : (⟨S64, .f32⟩ : BufTy).Contents (Elt F) → (⟨S1x64, .f32⟩ : BufTy).Contents (Elt F)),
    unary main_v281 main_v282 (broadcastInDim S100000x64 ![0, 1] bcast_S1x64_S100000x64_0_1 : (⟨S1x64, .f32⟩ : BufTy).Contents (Elt F) → (⟨S100000x64, .f32⟩ : BufTy).Contents (Elt F)),
    binary main_v280 main_v282 main_v283 (mulf : (⟨S100000x64, .f32⟩ : BufTy).Contents (Elt F) → (⟨S100000x64, .f32⟩ : BufTy).Contents (Elt F) → (⟨S100000x64, .f32⟩ : BufTy).Contents (Elt F)),
    unary main_v229 main_v284 (broadcastInDim S1x64 ![1] bcast_S64_S1x64_1 : (⟨S64, .f32⟩ : BufTy).Contents (Elt F) → (⟨S1x64, .f32⟩ : BufTy).Contents (Elt F)),
    unary main_v284 main_v285 (broadcastInDim S100000x64 ![0, 1] bcast_S1x64_S100000x64_0_1 : (⟨S1x64, .f32⟩ : BufTy).Contents (Elt F) → (⟨S100000x64, .f32⟩ : BufTy).Contents (Elt F)),
    binary main_v283 main_v285 main_v286 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S100000x64, .f32⟩) main_call15_v0) (broadcastInDim S100000x64 ![] bcast_S_S100000x64),
    TRef.binary (TRef.of (T := ⟨S100000x64, .f32⟩) main_v286) (TRef.of (T := ⟨S100000x64, .f32⟩) main_call15_v0) (TRef.of (T := ⟨S100000x64, .f32⟩) main_v287) maximumf ]
/-- The buffers that stretch `cC3` writes. -/
abbrev cC3_W : List (Ref sig .tc) :=
  [main_cst_29, main_v262, main_cst_30, main_v263, main_v264, main_v265, main_v266, main_v267, main_v268, main_cst_31, main_v269, main_cst_32, main_v270, main_v271, main_v272, main_v273, main_v274, main_cst_33, main_v275, main_v276, main_v277, main_v278, main_v279, main_v280, main_v281, main_v282, main_v283, main_v284, main_v285, main_v286, main_call15_cst, main_call15_v0, main_v287]
theorem cC3_writes : (cC3 : List (HloOp τ sig (Elt F))).Forall fun op =>
    op.writes ⊆ (cC3_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cC3` does not write keeps its contents through it. -/
theorem cC3_keep (V : Valuation τ sig (Elt F)) (r : Ref sig .tc) (h : r ∉ cC3_W) :
    after (cC3 (F := F)) V (Proc.devRef .tc r) = V (Proc.devRef .tc r) :=
  after_of_writes_sub cC3 V cC3_writes h

/-- Operations 356 to 384 (main_cst_34 … main_v310): the tail: the pooled sums and counts per graph, their quotient, and the two final products with bias. -/
abbrev cT : List (HloOp τ sig (Elt F)) :=
  [ nullary main_cst_34 (constant S_ .f32 0x00000000#32),
    unary main_cst_34 main_v288 (broadcastInDim S128x64 ![] bcast_S_S128x64 : (⟨S_, .f32⟩ : BufTy).Contents (Elt F) → (⟨S128x64, .f32⟩ : BufTy).Contents (Elt F)),
    unary main_arg3 main_v289 (broadcastInDim S100000x1 ![0] bcast_S100000_S100000x1_0 : (⟨S100000, .i32⟩ : BufTy).Contents (Elt F) → (⟨S100000x1, .i32⟩ : BufTy).Contents (Elt F)),
    ternary main_v288 main_v289 main_v287 main_v290 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_35 (constant S_ .f32 0x3F800000#32),
    unary main_cst_35 main_v291 (broadcastInDim S100000 ![] bcast_S_S100000 : (⟨S_, .f32⟩ : BufTy).Contents (Elt F) → (⟨S100000, .f32⟩ : BufTy).Contents (Elt F)),
    nullary main_cst_36 (constant S_ .f32 0x00000000#32),
    unary main_cst_36 main_v292 (broadcastInDim S128 ![] bcast_S_S128 : (⟨S_, .f32⟩ : BufTy).Contents (Elt F) → (⟨S128, .f32⟩ : BufTy).Contents (Elt F)),
    unary main_arg3 main_v293 (broadcastInDim S100000x1 ![0] bcast_S100000_S100000x1_0 : (⟨S100000, .i32⟩ : BufTy).Contents (Elt F) → (⟨S100000x1, .i32⟩ : BufTy).Contents (Elt F)),
    ternary main_v292 main_v293 main_v291 main_v294 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_37 (constant S_ .f32 0x3F800000#32),
    unary main_cst_37 main_v295 (broadcastInDim S128 ![] bcast_S_S128 : (⟨S_, .f32⟩ : BufTy).Contents (Elt F) → (⟨S128, .f32⟩ : BufTy).Contents (Elt F)),
    binary main_v294 main_v295 main_v296 (maximumf : (⟨S128, .f32⟩ : BufTy).Contents (Elt F) → (⟨S128, .f32⟩ : BufTy).Contents (Elt F) → (⟨S128, .f32⟩ : BufTy).Contents (Elt F)),
    unary main_v296 main_v297 (broadcastInDim S128x1 ![0] bcast_S128_S128x1_0 : (⟨S128, .f32⟩ : BufTy).Contents (Elt F) → (⟨S128x1, .f32⟩ : BufTy).Contents (Elt F)),
    unary main_v297 main_v298 (broadcastInDim S128x64 ![0, 1] bcast_S128x1_S128x64_0_1 : (⟨S128x1, .f32⟩ : BufTy).Contents (Elt F) → (⟨S128x64, .f32⟩ : BufTy).Contents (Elt F)),
    binary main_v290 main_v298 main_v299 (Host.divf : (⟨S128x64, .f32⟩ : BufTy).Contents (Elt F) → (⟨S128x64, .f32⟩ : BufTy).Contents (Elt F) → (⟨S128x64, .f32⟩ : BufTy).Contents (Elt F)),
    unary main_arg18 main_v300 ((transpose S64x128 [1, 0] · transposes_S128x64_S64x128_1_0) : (⟨S128x64, .f32⟩ : BufTy).Contents (Elt F) → (⟨S64x128, .f32⟩ : BufTy).Contents (Elt F)),
    binary main_v299 main_v300 main_v301 ((fun l r => Host.dotGeneral dot_S128x64_S64x128_S128x128_1_0_0_1_n_n none l r) : (⟨S128x64, .f32⟩ : BufTy).Contents (Elt F) → (⟨S64x128, .f32⟩ : BufTy).Contents (Elt F) → (⟨S128x128, .f32⟩ : BufTy).Contents (Elt F)),
    unary main_arg19 main_v302 (broadcastInDim S1x128 ![1] bcast_S128_S1x128_1 : (⟨S128, .f32⟩ : BufTy).Contents (Elt F) → (⟨S1x128, .f32⟩ : BufTy).Contents (Elt F)),
    unary main_v302 main_v303 (broadcastInDim S128x128 ![0, 1] bcast_S1x128_S128x128_0_1 : (⟨S1x128, .f32⟩ : BufTy).Contents (Elt F) → (⟨S128x128, .f32⟩ : BufTy).Contents (Elt F)),
    binary main_v301 main_v303 main_v304 (addf : (⟨S128x128, .f32⟩ : BufTy).Contents (Elt F) → (⟨S128x128, .f32⟩ : BufTy).Contents (Elt F) → (⟨S128x128, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S128x128, .f32⟩) main_call16_v0) (broadcastInDim S128x128 ![] bcast_S_S128x128),
    TRef.binary (TRef.of (T := ⟨S128x128, .f32⟩) main_v304) (TRef.of (T := ⟨S128x128, .f32⟩) main_call16_v0) (TRef.of (T := ⟨S128x128, .f32⟩) main_v305) maximumf,
    unary main_arg20 main_v306 ((transpose S128x10 [1, 0] · transposes_S10x128_S128x10_1_0) : (⟨S10x128, .f32⟩ : BufTy).Contents (Elt F) → (⟨S128x10, .f32⟩ : BufTy).Contents (Elt F)),
    binary main_v305 main_v306 main_v307 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    unary main_arg21 main_v308 (broadcastInDim S1x10 ![1] bcast_S10_S1x10_1 : (⟨S10, .f32⟩ : BufTy).Contents (Elt F) → (⟨S1x10, .f32⟩ : BufTy).Contents (Elt F)),
    unary main_v308 main_v309 (broadcastInDim S128x10 ![0, 1] bcast_S1x10_S128x10_0_1 : (⟨S1x10, .f32⟩ : BufTy).Contents (Elt F) → (⟨S128x10, .f32⟩ : BufTy).Contents (Elt F)),
    binary main_v307 main_v309 main_v310 (addf : (⟨S128x10, .f32⟩ : BufTy).Contents (Elt F) → (⟨S128x10, .f32⟩ : BufTy).Contents (Elt F) → (⟨S128x10, .f32⟩ : BufTy).Contents (Elt F)) ]
/-- The buffers that stretch `cT` writes. -/
abbrev cT_W : List (Ref sig .tc) :=
  [main_cst_34, main_v288, main_v289, main_v290, main_cst_35, main_v291, main_cst_36, main_v292, main_v293, main_v294, main_cst_37, main_v295, main_v296, main_v297, main_v298, main_v299, main_v300, main_v301, main_v302, main_v303, main_v304, main_call16_cst, main_call16_v0, main_v305, main_v306, main_v307, main_v308, main_v309, main_v310]
theorem cT_writes : (cT : List (HloOp τ sig (Elt F))).Forall fun op =>
    op.writes ⊆ (cT_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)
/-- A buffer that stretch `cT` does not write keeps its contents through it. -/
theorem cT_keep (V : Valuation τ sig (Elt F)) (r : Ref sig .tc) (h : r ∉ cT_W) :
    after (cT (F := F)) V (Proc.devRef .tc r) = V (Proc.devRef .tc r) :=
  after_of_writes_sub cT V cT_writes h

end Cert.ReferenceIdeal.RefFold

end
-- ==== Proof.RefRunC.lean ====
import proofs.«406622_j66486093742154_3_alg».proof.Proof.RefFoldChunks
import Idealize.ShloMosaic.Lib.StableHlo.Run

noncomputable section

namespace Cert.ReferenceIdeal.Value

open Cert.ReferenceIdeal Cert.ReferenceIdeal.Gen Cert.ReferenceIdeal.RefFold Idealize.ShloMosaic Idealize.ShloMosaic.TcCoe Idealize.SL.Sem Idealize.ShloMosaic.StableHlo

variable {F : FTy → Type} [FloatOps F]

abbrev ops : List (HloOp τ sig (Elt F)) :=
  cP ++ cA0 ++ cB0 ++ cC0 ++ cA1 ++ cB1 ++ cC1 ++ cA2 ++ cB2 ++ cC2 ++ cA3 ++ cB3 ++ cC3 ++ cT

abbrev ops_W : List (Ref sig .tc) :=
  cP_W ++ cA0_W ++ cB0_W ++ cC0_W ++ cA1_W ++ cB1_W ++ cC1_W ++ cA2_W ++ cB2_W ++ cC2_W ++ cA3_W ++ cB3_W ++ cC3_W ++ cT_W

theorem after_ops (V : Valuation τ sig (Elt F)) :
    after (ops (F := F)) V = after cT (after cC3 (after cB3 (after cA3 (after cC2 (after cB2 (after cA2 (after cC1 (after cB1 (after cA1 (after cC0 (after cB0 (after cA0 (after cP (V)))))))))))))) := by
  simp only [ops, after_append']

set_option maxRecDepth 8192 in
set_option maxHeartbeats 4000000 in

theorem main_eq (c : Dev nD) : main (F := F) c = seq ops := by
  simp only [ops, seq_append, bind_assoc]
  rfl

theorem scopedRefs_eq : (Finset.univ.filter fun b : Ref sig .tc => b.isScoped) = ∅ := by decide
theorem scopedSems_eq : (Finset.univ.filter fun sm : SemLoc sig => sm.isScoped .tc) = ∅ := by decide

theorem cP_sub : (cP : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩
theorem cA0_sub : (cA0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩
theorem cB0_sub : (cB0 : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem cC0_sub : (cC0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem cA1_sub : (cA1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩
theorem cB1_sub : (cB1 : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem cC1_sub : (cC1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem cA2_sub : (cA2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩
theorem cB2_sub : (cB2 : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem cC2_sub : (cC2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem cA3_sub : (cA3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩
theorem cB3_sub : (cB3 : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem cC3_sub : (cC3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem cT_sub : (cT : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig := by
  refine List.forall_iff_forall_mem.mpr fun op h => ?_
  simp only [ops, List.mem_append] at h
  rcases h with (((((((((((((h | h) | h) | h) | h) | h) | h) | h) | h) | h) | h) | h) | h) | h)
  · exact List.forall_iff_forall_mem.mp cP_sub op h
  · exact List.forall_iff_forall_mem.mp cA0_sub op h
  · exact List.forall_iff_forall_mem.mp cB0_sub op h
  · exact List.forall_iff_forall_mem.mp cC0_sub op h
  · exact List.forall_iff_forall_mem.mp cA1_sub op h
  · exact List.forall_iff_forall_mem.mp cB1_sub op h
  · exact List.forall_iff_forall_mem.mp cC1_sub op h
  · exact List.forall_iff_forall_mem.mp cA2_sub op h
  · exact List.forall_iff_forall_mem.mp cB2_sub op h
  · exact List.forall_iff_forall_mem.mp cC2_sub op h
  · exact List.forall_iff_forall_mem.mp cA3_sub op h
  · exact List.forall_iff_forall_mem.mp cB3_sub op h
  · exact List.forall_iff_forall_mem.mp cC3_sub op h
  · exact List.forall_iff_forall_mem.mp cT_sub op h

theorem cP_fresh : ∀ op ∈ (cP : List (HloOp τ sig (Elt F))), op.fresh = ∅ := by
  intro _ h; (repeat (cases h with | head => rfl | tail _ h => ?_)); exact nomatch h
theorem cA0_fresh : ∀ op ∈ (cA0 : List (HloOp τ sig (Elt F))), op.fresh = ∅ := by
  intro _ h; (repeat (cases h with | head => rfl | tail _ h => ?_)); exact nomatch h
theorem cB0_fresh : ∀ op ∈ (cB0 : List (HloOp τ sig (Elt F))), op.fresh = ∅ := by
  intro _ h; (repeat (cases h with | head => rfl | tail _ h => ?_)); exact nomatch h
theorem cC0_fresh : ∀ op ∈ (cC0 : List (HloOp τ sig (Elt F))), op.fresh = ∅ := by
  intro _ h; (repeat (cases h with | head => rfl | tail _ h => ?_)); exact nomatch h
theorem cA1_fresh : ∀ op ∈ (cA1 : List (HloOp τ sig (Elt F))), op.fresh = ∅ := by
  intro _ h; (repeat (cases h with | head => rfl | tail _ h => ?_)); exact nomatch h
theorem cB1_fresh : ∀ op ∈ (cB1 : List (HloOp τ sig (Elt F))), op.fresh = ∅ := by
  intro _ h; (repeat (cases h with | head => rfl | tail _ h => ?_)); exact nomatch h
theorem cC1_fresh : ∀ op ∈ (cC1 : List (HloOp τ sig (Elt F))), op.fresh = ∅ := by
  intro _ h; (repeat (cases h with | head => rfl | tail _ h => ?_)); exact nomatch h
theorem cA2_fresh : ∀ op ∈ (cA2 : List (HloOp τ sig (Elt F))), op.fresh = ∅ := by
  intro _ h; (repeat (cases h with | head => rfl | tail _ h => ?_)); exact nomatch h
theorem cB2_fresh : ∀ op ∈ (cB2 : List (HloOp τ sig (Elt F))), op.fresh = ∅ := by
  intro _ h; (repeat (cases h with | head => rfl | tail _ h => ?_)); exact nomatch h
theorem cC2_fresh : ∀ op ∈ (cC2 : List (HloOp τ sig (Elt F))), op.fresh = ∅ := by
  intro _ h; (repeat (cases h with | head => rfl | tail _ h => ?_)); exact nomatch h
theorem cA3_fresh : ∀ op ∈ (cA3 : List (HloOp τ sig (Elt F))), op.fresh = ∅ := by
  intro _ h; (repeat (cases h with | head => rfl | tail _ h => ?_)); exact nomatch h
theorem cB3_fresh : ∀ op ∈ (cB3 : List (HloOp τ sig (Elt F))), op.fresh = ∅ := by
  intro _ h; (repeat (cases h with | head => rfl | tail _ h => ?_)); exact nomatch h
theorem cC3_fresh : ∀ op ∈ (cC3 : List (HloOp τ sig (Elt F))), op.fresh = ∅ := by
  intro _ h; (repeat (cases h with | head => rfl | tail _ h => ?_)); exact nomatch h
theorem cT_fresh : ∀ op ∈ (cT : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with (((((((((((((h | h) | h) | h) | h) | h) | h) | h) | h) | h) | h) | h) | h) | h)
  · exact cP_fresh op h
  · exact cA0_fresh op h
  · exact cB0_fresh op h
  · exact cC0_fresh op h
  · exact cA1_fresh op h
  · exact cB1_fresh op h
  · exact cC1_fresh op h
  · exact cA2_fresh op h
  · exact cB2_fresh op h
  · exact cC2_fresh op h
  · exact cA3_fresh op h
  · exact cB3_fresh op h
  · exact cC3_fresh op h
  · exact cT_fresh op h

theorem keep_all (V : Valuation τ sig (Elt F)) (r : Ref sig .tc) (h : r ∉ ops_W) :
    after (ops (F := F)) V (Proc.devRef .tc r) = V (Proc.devRef .tc r) := by
  simp only [ops_W, List.mem_append, not_or] at h
  obtain ⟨⟨⟨⟨⟨⟨⟨⟨⟨⟨⟨⟨⟨hcP, hcA0⟩, hcB0⟩, hcC0⟩, hcA1⟩, hcB1⟩, hcC1⟩, hcA2⟩, hcB2⟩, hcC2⟩, hcA3⟩, hcB3⟩, hcC3⟩, hcT⟩ := h
  rw [after_ops, cT_keep _ r hcT, cC3_keep _ r hcC3, cB3_keep _ r hcB3, cA3_keep _ r hcA3, cC2_keep _ r hcC2, cB2_keep _ r hcB2, cA2_keep _ r hcA2, cC1_keep _ r hcC1, cB1_keep _ r hcB1, cA1_keep _ r hcA1, cC0_keep _ r hcC0, cB0_keep _ r hcB0, cA0_keep _ r hcA0, cP_keep _ r hcP]

def res_main_v310 (m : (ℓ : Loc nD τ sig) → Buf (Elt F) ℓ) (c : Dev nD) : Buf (Elt F) ((c.tc : Thread nD τ).loc main_v310) :=
  after (ops (F := F)) (launchContents m c) (Proc.devRef .tc main_v310)

abbrev res_out0 (m : (ℓ : Loc nD τ sig) → Buf (Elt F) ℓ) (c : Dev nD) : Buf (Elt F) ((c.tc : Thread nD τ).loc main_v310) := res_main_v310 m c

set_option maxRecDepth 8192 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v310) = res_main_v310 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨h c main_v310,
      (h c main_arg0).trans (keep_all (launchContents m c) main_arg0 (by decide)),
      (h c main_arg1).trans (keep_all (launchContents m c) main_arg1 (by decide)),
      (h c main_arg2).trans (keep_all (launchContents m c) main_arg2 (by decide)),
      (h c main_arg3).trans (keep_all (launchContents m c) main_arg3 (by decide)),
      (h c main_arg4).trans (keep_all (launchContents m c) main_arg4 (by decide)),
      (h c main_arg5).trans (keep_all (launchContents m c) main_arg5 (by decide)),
      (h c main_arg6).trans (keep_all (launchContents m c) main_arg6 (by decide)),
      (h c main_arg7).trans (keep_all (launchContents m c) main_arg7 (by decide)),
      (h c main_arg8).trans (keep_all (launchContents m c) main_arg8 (by decide)),
      (h c main_arg9).trans (keep_all (launchContents m c) main_arg9 (by decide)),
      (h c main_arg10).trans (keep_all (launchContents m c) main_arg10 (by decide)),
      (h c main_arg11).trans (keep_all (launchContents m c) main_arg11 (by decide)),
      (h c main_arg12).trans (keep_all (launchContents m c) main_arg12 (by decide)),
      (h c main_arg13).trans (keep_all (launchContents m c) main_arg13 (by decide)),
      (h c main_arg14).trans (keep_all (launchContents m c) main_arg14 (by decide)),
      (h c main_arg15).trans (keep_all (launchContents m c) main_arg15 (by decide)),
      (h c main_arg16).trans (keep_all (launchContents m c) main_arg16 (by decide)),
      (h c main_arg17).trans (keep_all (launchContents m c) main_arg17 (by decide)),
      (h c main_arg18).trans (keep_all (launchContents m c) main_arg18 (by decide)),
      (h c main_arg19).trans (keep_all (launchContents m c) main_arg19 (by decide)),
      (h c main_arg20).trans (keep_all (launchContents m c) main_arg20 (by decide)),
      (h c main_arg21).trans (keep_all (launchContents m c) main_arg21 (by decide))⟩)
    (run_seq scopedRefs_eq scopedSems_eq defs main (fun _ => ops) main_eq (fun _ => ops_sub) m ρ (fun _ => ops_fresh))

end Cert.ReferenceIdeal.Value

end
-- ==== Proof.RefFold0.lean ====
/- The reference program's fold, first part: the opening slices and layer 0. Each stretch of host operations, entered at
   contents that hold the earlier stages' values at the buffers it reads, leaves the stage value at the buffer the later
   stretches read: the operations' results are rewritten one by one and the composed term is the stage's own definition. -/
import proofs.«406622_j66486093742154_3_alg».proof.Proof.RefFoldChunks
import proofs.«406622_j66486093742154_3_alg».proof.Proof.RefRead
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The first stretch leaves the source index row: row 0 of the index array, laid as a vector. -/
theorem cP_v1 (V : Valuation τ sig (Elt F)) {x1 : (⟨S2x1600000, .i32⟩ : BufTy).Contents (Elt F)}
    (ha1 : V (Proc.devRef .tc main_arg1) = x1) :
    after (cP (F := F)) V (Proc.devRef .tc main_v1) = val_main_v1 (F := F) x1 := by
  after_results_simp
  simp only [TRef.ofBuf, TRef.toBuf, cast_eq, ha1]
  unfold val_main_v1 val_main_v0
  rfl

/-- … and the destination index row: row 1. -/
theorem cP_v3 (V : Valuation τ sig (Elt F)) {x1 : (⟨S2x1600000, .i32⟩ : BufTy).Contents (Elt F)}
    (ha1 : V (Proc.devRef .tc main_arg1) = x1) :
    after (cP (F := F)) V (Proc.devRef .tc main_v3) = val_main_v3 (F := F) x1 := by
  after_results_simp
  simp only [TRef.ofBuf, TRef.toBuf, cast_eq, ha1]
  unfold val_main_v3 val_main_v2
  rfl

/-- … and row 0 of the normalisation's scale table. -/
theorem cP_v5 (V : Valuation τ sig (Elt F)) {x16 : (⟨S4x64, .f32⟩ : BufTy).Contents (Elt F)}
    (ha16 : V (Proc.devRef .tc main_arg16) = x16) :
    after (cP (F := F)) V (Proc.devRef .tc main_v5) = val_main_v5 (F := F) x16 := by
  after_results_simp
  simp only [TRef.ofBuf, TRef.toBuf, cast_eq, ha16]
  unfold val_main_v5 val_main_v4
  rfl

/-- … and row 0 of its shift table. -/
theorem cP_v7 (V : Valuation τ sig (Elt F)) {x17 : (⟨S4x64, .f32⟩ : BufTy).Contents (Elt F)}
    (ha17 : V (Proc.devRef .tc main_arg17) = x17) :
    after (cP (F := F)) V (Proc.devRef .tc main_v7) = val_main_v7 (F := F) x17 := by
  after_results_simp
  simp only [TRef.ofBuf, TRef.toBuf, cast_eq, ha17]
  unfold val_main_v7 val_main_v6
  rfl

/-- Layer 0's aggregate: the rectified edge messages (looked-up rows plus the edge features' linear term) added into their destination rows, from zeros. -/
theorem cA0_v24 (V : Valuation τ sig (Elt F)) {x0 : (⟨S100000x32, .f32⟩ : BufTy).Contents (Elt F)} {x1 : (⟨S2x1600000, .i32⟩ : BufTy).Contents (Elt F)} {x2 : (⟨S1600000x16, .f32⟩ : BufTy).Contents (Elt F)} {x4 : (⟨S32x16, .f32⟩ : BufTy).Contents (Elt F)} {x5 : (⟨S32, .f32⟩ : BufTy).Contents (Elt F)}
    (ha0 : V (Proc.devRef .tc main_arg0) = x0) (ha2 : V (Proc.devRef .tc main_arg2) = x2) (ha4 : V (Proc.devRef .tc main_arg4) = x4) (ha5 : V (Proc.devRef .tc main_arg5) = x5) (hv1 : V (Proc.devRef .tc main_v1) = val_main_v1 (F := F) x1) (hv3 : V (Proc.devRef .tc main_v3) = val_main_v3 (F := F) x1) :
    after (cA0 (F := F)) V (Proc.devRef .tc main_v24) = val_main_v24 (F := F) x0 x1 x2 x4 x5 := by
  after_results_simp
  simp only [TRef.ofBuf, TRef.toBuf, cast_eq, ha0, ha2, ha4, ha5, hv1, hv3]
  unfold val_main_v24 val_main_v21 val_main_call0_v0 val_main_call0_cst val_main_v20 val_main_v19 val_main_v18 val_main_v17 val_main_v16 val_main_v15 val_main_v14 val_main_v13 val_main_v12 val_main_v11 val_main_v10 val_main_c_0 val_main_v9 val_main_v8 val_main_c val_main_v23 val_main_v22 val_main_cst
  rfl

/-- Layer 0's node update: two linear maps with bias and rectifier applied to the features plus the aggregate. -/
theorem cB0_v39 (V : Valuation τ sig (Elt F)) {x0 : (⟨S100000x32, .f32⟩ : BufTy).Contents (Elt F)} {x1 : (⟨S2x1600000, .i32⟩ : BufTy).Contents (Elt F)} {x2 : (⟨S1600000x16, .f32⟩ : BufTy).Contents (Elt F)} {x4 : (⟨S32x16, .f32⟩ : BufTy).Contents (Elt F)} {x5 : (⟨S32, .f32⟩ : BufTy).Contents (Elt F)} {x6 : (⟨S64x32, .f32⟩ : BufTy).Contents (Elt F)} {x7 : (⟨S64, .f32⟩ : BufTy).Contents (Elt F)} {x8 : (⟨S64x64, .f32⟩ : BufTy).Contents (Elt F)} {x9 : (⟨S64, .f32⟩ : BufTy).Contents (Elt F)}
    (ha0 : V (Proc.devRef .tc main_arg0) = x0) (ha6 : V (Proc.devRef .tc main_arg6) = x6) (ha7 : V (Proc.devRef .tc main_arg7) = x7) (ha8 : V (Proc.devRef .tc main_arg8) = x8) (ha9 : V (Proc.devRef .tc main_arg9) = x9) (hv24 : V (Proc.devRef .tc main_v24) = val_main_v24 (F := F) x0 x1 x2 x4 x5) :
    after (cB0 (F := F)) V (Proc.devRef .tc main_v39) = val_main_v39 (F := F) x0 x1 x2 x4 x5 x6 x7 x8 x9 := by
  after_results_simp
  simp only [TRef.ofBuf, TRef.toBuf, cast_eq, ha0, ha6, ha7, ha8, ha9, hv24]
  unfold val_main_v39 val_main_call2_v0 val_main_call2_cst val_main_v38 val_main_v37 val_main_v36 val_main_v35 val_main_v34 val_main_v33 val_main_call1_v0 val_main_call1_cst val_main_v32 val_main_v31 val_main_v30 val_main_v29 val_main_v28 val_main_v27 val_main_v26 val_main_v25 val_main_cst_1
  rfl

/-- Layer 0's normalisation: the column mean and variance of the update, then scale, shift and rectifier. -/
theorem cC0_v65 (V : Valuation τ sig (Elt F)) {x0 : (⟨S100000x32, .f32⟩ : BufTy).Contents (Elt F)} {x1 : (⟨S2x1600000, .i32⟩ : BufTy).Contents (Elt F)} {x2 : (⟨S1600000x16, .f32⟩ : BufTy).Contents (Elt F)} {x4 : (⟨S32x16, .f32⟩ : BufTy).Contents (Elt F)} {x5 : (⟨S32, .f32⟩ : BufTy).Contents (Elt F)} {x6 : (⟨S64x32, .f32⟩ : BufTy).Contents (Elt F)} {x7 : (⟨S64, .f32⟩ : BufTy).Contents (Elt F)} {x8 : (⟨S64x64, .f32⟩ : BufTy).Contents (Elt F)} {x9 : (⟨S64, .f32⟩ : BufTy).Contents (Elt F)} {x16 : (⟨S4x64, .f32⟩ : BufTy).Contents (Elt F)} {x17 : (⟨S4x64, .f32⟩ : BufTy).Contents (Elt F)}
    (hv5 : V (Proc.devRef .tc main_v5) = val_main_v5 (F := F) x16) (hv7 : V (Proc.devRef .tc main_v7) = val_main_v7 (F := F) x17) (hv39 : V (Proc.devRef .tc main_v39) = val_main_v39 (F := F) x0 x1 x2 x4 x5 x6 x7 x8 x9) :
    after (cC0 (F := F)) V (Proc.devRef .tc main_v65) = val_main_v65 (F := F) x0 x1 x2 x4 x5 x6 x7 x8 x9 x16 x17 := by
  after_results_simp
  simp only [TRef.ofBuf, TRef.toBuf, cast_eq, hv5, hv7, hv39]
  unfold val_main_v65 val_main_call3_v0 val_main_call3_cst val_main_v64 val_main_v63 val_main_v62 val_main_v61 val_main_v60 val_main_v59 val_main_v58 val_main_v57 val_main_v56 val_main_v55 val_main_v54 val_main_v53 val_main_cst_6 val_main_v49 val_main_v48 val_main_cst_5 val_main_v47 val_main_cst_4 val_main_v46 val_main_v45 val_main_v44 val_main_v43 val_main_v52 val_main_v51 val_main_v50 val_main_v42 val_main_v41 val_main_cst_3 val_main_v40 val_main_cst_2
  rfl

end Cert.ReferenceIdeal.RefFold

end
-- ==== Proof.RefFold1.lean ====
import proofs.«406622_j66486093742154_3_alg».proof.Proof.RefFoldChunks
import proofs.«406622_j66486093742154_3_alg».proof.Proof.RefRead

noncomputable section

namespace Cert.ReferenceIdeal.RefFold

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (V : Valuation τ sig (Elt F))
variable {x0 : (⟨S100000x32, .f32⟩ : BufTy).Contents (Elt F)} {x1 : (⟨S2x1600000, .i32⟩ : BufTy).Contents (Elt F)}
  {x2 : (⟨S1600000x16, .f32⟩ : BufTy).Contents (Elt F)} {x4 : (⟨S32x16, .f32⟩ : BufTy).Contents (Elt F)}
  {x5 : (⟨S32, .f32⟩ : BufTy).Contents (Elt F)} {x6 : (⟨S64x32, .f32⟩ : BufTy).Contents (Elt F)}
  {x7 : (⟨S64, .f32⟩ : BufTy).Contents (Elt F)} {x8 : (⟨S64x64, .f32⟩ : BufTy).Contents (Elt F)}
  {x9 : (⟨S64, .f32⟩ : BufTy).Contents (Elt F)} {x10 : (⟨S3x64x16, .f32⟩ : BufTy).Contents (Elt F)}
  {x11 : (⟨S3x64, .f32⟩ : BufTy).Contents (Elt F)} {x12 : (⟨S3x64x64, .f32⟩ : BufTy).Contents (Elt F)}
  {x13 : (⟨S3x64, .f32⟩ : BufTy).Contents (Elt F)} {x14 : (⟨S3x64x64, .f32⟩ : BufTy).Contents (Elt F)}
  {x15 : (⟨S3x64, .f32⟩ : BufTy).Contents (Elt F)} {x16 : (⟨S4x64, .f32⟩ : BufTy).Contents (Elt F)}
  {x17 : (⟨S4x64, .f32⟩ : BufTy).Contents (Elt F)}

theorem cA1_v71 (ha12 : V (Proc.devRef .tc main_arg12) = x12) :
    after (cA1 (F := F)) V (Proc.devRef .tc main_v71) = val_main_v71 (F := F) x12 := by
  after_results_simp
  simp only [ha12]
  unfold val_main_v71 val_main_v70
  rfl

theorem cA1_v73 (ha13 : V (Proc.devRef .tc main_arg13) = x13) :
    after (cA1 (F := F)) V (Proc.devRef .tc main_v73) = val_main_v73 (F := F) x13 := by
  after_results_simp
  simp only [ha13]
  unfold val_main_v73 val_main_v72
  rfl

theorem cA1_v75 (ha14 : V (Proc.devRef .tc main_arg14) = x14) :
    after (cA1 (F := F)) V (Proc.devRef .tc main_v75) = val_main_v75 (F := F) x14 := by
  after_results_simp
  simp only [ha14]
  unfold val_main_v75 val_main_v74
  rfl

theorem cA1_v77 (ha15 : V (Proc.devRef .tc main_arg15) = x15) :
    after (cA1 (F := F)) V (Proc.devRef .tc main_v77) = val_main_v77 (F := F) x15 := by
  after_results_simp
  simp only [ha15]
  unfold val_main_v77 val_main_v76
  rfl

theorem cA1_v79 (ha16 : V (Proc.devRef .tc main_arg16) = x16) :
    after (cA1 (F := F)) V (Proc.devRef .tc main_v79) = val_main_v79 (F := F) x16 := by
  after_results_simp
  simp only [ha16]
  unfold val_main_v79 val_main_v78
  rfl

theorem cA1_v81 (ha17 : V (Proc.devRef .tc main_arg17) = x17) :
    after (cA1 (F := F)) V (Proc.devRef .tc main_v81) = val_main_v81 (F := F) x17 := by
  after_results_simp
  simp only [ha17]
  unfold val_main_v81 val_main_v80
  rfl

theorem cA1_v98 (ha2 : V (Proc.devRef .tc main_arg2) = x2) (ha10 : V (Proc.devRef .tc main_arg10) = x10)
    (ha11 : V (Proc.devRef .tc main_arg11) = x11)
    (hv1 : V (Proc.devRef .tc main_v1) = val_main_v1 (F := F) x1)
    (hv3 : V (Proc.devRef .tc main_v3) = val_main_v3 (F := F) x1)
    (hv65 : V (Proc.devRef .tc main_v65) = val_main_v65 (F := F) x0 x1 x2 x4 x5 x6 x7 x8 x9 x16 x17) :
    after (cA1 (F := F)) V (Proc.devRef .tc main_v98)
      = val_main_v98 (F := F) x0 x1 x2 x4 x5 x6 x7 x8 x9 x10 x11 x16 x17 := by
  after_results_simp
  simp only [ha2, ha10, ha11, hv1, hv3, hv65]
  unfold val_main_v98 val_main_v97 val_main_v96 val_main_cst_9 val_main_v95 val_main_call4_v0 val_main_call4_cst
    val_main_v94 val_main_v93 val_main_v92 val_main_v91 val_main_v90 val_main_v89 val_main_v88 val_main_v87 val_main_v86
    val_main_v85 val_main_v84 val_main_c_8 val_main_v83 val_main_v82 val_main_c_7 val_main_v69 val_main_v68 val_main_v67
    val_main_v66
  rfl

theorem cB1_v113 (hv65 : V (Proc.devRef .tc main_v65) = val_main_v65 (F := F) x0 x1 x2 x4 x5 x6 x7 x8 x9 x16 x17)
    (hv71 : V (Proc.devRef .tc main_v71) = val_main_v71 (F := F) x12)
    (hv73 : V (Proc.devRef .tc main_v73) = val_main_v73 (F := F) x13)
    (hv75 : V (Proc.devRef .tc main_v75) = val_main_v75 (F := F) x14)
    (hv77 : V (Proc.devRef .tc main_v77) = val_main_v77 (F := F) x15)
    (hv98 : V (Proc.devRef .tc main_v98) = val_main_v98 (F := F) x0 x1 x2 x4 x5 x6 x7 x8 x9 x10 x11 x16 x17) :
    after (cB1 (F := F)) V (Proc.devRef .tc main_v113)
      = val_main_v113 (F := F) x0 x1 x2 x4 x5 x6 x7 x8 x9 x10 x11 x12 x13 x14 x15 x16 x17 := by
  after_results_simp
  simp only [hv65, hv71, hv73, hv75, hv77, hv98]
  unfold val_main_v113 val_main_call6_v0 val_main_call6_cst val_main_v112 val_main_v111 val_main_v110 val_main_v109
    val_main_v108 val_main_v107 val_main_call5_v0 val_main_call5_cst val_main_v106 val_main_v105 val_main_v104 val_main_v103
    val_main_v102 val_main_v101 val_main_v100 val_main_v99 val_main_cst_10
  rfl

theorem cC1_v139 (hv79 : V (Proc.devRef .tc main_v79) = val_main_v79 (F := F) x16)
    (hv81 : V (Proc.devRef .tc main_v81) = val_main_v81 (F := F) x17)
    (hv113 : V (Proc.devRef .tc main_v113)
      = val_main_v113 (F := F) x0 x1 x2 x4 x5 x6 x7 x8 x9 x10 x11 x12 x13 x14 x15 x16 x17) :
    after (cC1 (F := F)) V (Proc.devRef .tc main_v139)
      = val_main_v139 (F := F) x0 x1 x2 x4 x5 x6 x7 x8 x9 x10 x11 x12 x13 x14 x15 x16 x17 := by
  after_results_simp
  simp only [hv79, hv81, hv113]
  unfold val_main_v139 val_main_call7_v0 val_main_call7_cst val_main_v138 val_main_v137 val_main_v136 val_main_v135
    val_main_v134 val_main_v133 val_main_v132 val_main_v131 val_main_v130 val_main_v129 val_main_v128 val_main_v127
    val_main_cst_15 val_main_v126 val_main_v125 val_main_v124 val_main_v123 val_main_v122 val_main_cst_14 val_main_v121
    val_main_cst_13 val_main_v120 val_main_v119 val_main_v118 val_main_v117 val_main_v116 val_main_v115 val_main_cst_12
    val_main_v114 val_main_cst_11
  rfl

theorem layer1_keep (r : Ref sig .tc) (hA : r ∉ cA1_W) (hB : r ∉ cB1_W) (hC : r ∉ cC1_W) :
    after (cC1 (F := F)) (after (cB1 (F := F)) (after (cA1 (F := F)) V)) (Proc.devRef .tc r) = V (Proc.devRef .tc r) :=
  (cC1_keep _ r hC).trans ((cB1_keep _ r hB).trans (cA1_keep V r hA))

theorem layer1 (ha2 : V (Proc.devRef .tc main_arg2) = x2) (ha10 : V (Proc.devRef .tc main_arg10) = x10)
    (ha11 : V (Proc.devRef .tc main_arg11) = x11) (ha12 : V (Proc.devRef .tc main_arg12) = x12)
    (ha13 : V (Proc.devRef .tc main_arg13) = x13) (ha14 : V (Proc.devRef .tc main_arg14) = x14)
    (ha15 : V (Proc.devRef .tc main_arg15) = x15) (ha16 : V (Proc.devRef .tc main_arg16) = x16)
    (ha17 : V (Proc.devRef .tc main_arg17) = x17)
    (hv1 : V (Proc.devRef .tc main_v1) = val_main_v1 (F := F) x1)
    (hv3 : V (Proc.devRef .tc main_v3) = val_main_v3 (F := F) x1)
    (hv65 : V (Proc.devRef .tc main_v65) = val_main_v65 (F := F) x0 x1 x2 x4 x5 x6 x7 x8 x9 x16 x17) :
    after (cC1 (F := F)) (after (cB1 (F := F)) (after (cA1 (F := F)) V)) (Proc.devRef .tc main_v139)
      = val_main_v139 (F := F) x0 x1 x2 x4 x5 x6 x7 x8 x9 x10 x11 x12 x13 x14 x15 x16 x17 :=
  cC1_v139 _
    ((cB1_keep _ main_v79 (by decide)).trans (cA1_v79 V ha16))
    ((cB1_keep _ main_v81 (by decide)).trans (cA1_v81 V ha17))
    (cB1_v113 _
      ((cA1_keep V main_v65 (by decide)).trans hv65)
      (cA1_v71 V ha12) (cA1_v73 V ha13) (cA1_v75 V ha14) (cA1_v77 V ha15)
      (cA1_v98 V ha2 ha10 ha11 hv1 hv3 hv65))

end Cert.ReferenceIdeal.RefFold

end
-- ==== Proof.RefFold2.lean ====
/- Layer 2 of the reference program, stretch by stretch: from any buffer contents at which the buffers a stretch reads
   hold the stage values of the operation-by-operation reading, the buffers it writes for later stretches hold theirs. -/
import proofs.«406622_j66486093742154_3_alg».proof.Proof.RefFoldChunks
import proofs.«406622_j66486093742154_3_alg».proof.Proof.RefRead

noncomputable section

namespace Cert.ReferenceIdeal.RefFold

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (V : Valuation τ sig (Elt F))
variable {x0 : (⟨S100000x32, .f32⟩ : BufTy).Contents (Elt F)} {x1 : (⟨S2x1600000, .i32⟩ : BufTy).Contents (Elt F)}
  {x2 : (⟨S1600000x16, .f32⟩ : BufTy).Contents (Elt F)} {x4 : (⟨S32x16, .f32⟩ : BufTy).Contents (Elt F)}
  {x5 : (⟨S32, .f32⟩ : BufTy).Contents (Elt F)} {x6 : (⟨S64x32, .f32⟩ : BufTy).Contents (Elt F)}
  {x7 : (⟨S64, .f32⟩ : BufTy).Contents (Elt F)} {x8 : (⟨S64x64, .f32⟩ : BufTy).Contents (Elt F)}
  {x9 : (⟨S64, .f32⟩ : BufTy).Contents (Elt F)} {x10 : (⟨S3x64x16, .f32⟩ : BufTy).Contents (Elt F)}
  {x11 : (⟨S3x64, .f32⟩ : BufTy).Contents (Elt F)} {x12 : (⟨S3x64x64, .f32⟩ : BufTy).Contents (Elt F)}
  {x13 : (⟨S3x64, .f32⟩ : BufTy).Contents (Elt F)} {x14 : (⟨S3x64x64, .f32⟩ : BufTy).Contents (Elt F)}
  {x15 : (⟨S3x64, .f32⟩ : BufTy).Contents (Elt F)} {x16 : (⟨S4x64, .f32⟩ : BufTy).Contents (Elt F)}
  {x17 : (⟨S4x64, .f32⟩ : BufTy).Contents (Elt F)}

/-! ## Stretch `cA2`: the parameter rows it leaves for the later stretches -/

/-- The first product's weight of layer 2: this layer's row of argument 12. -/
theorem cA2_v145 (ha12 : V (Proc.devRef .tc main_arg12) = x12) :
    after (cA2 (F := F)) V (Proc.devRef .tc main_v145) = val_main_v145 (F := F) x12 := by
  after_results_simp
  simp only [ha12]
  unfold val_main_v145 val_main_v144
  rfl

/-- The first product's bias of layer 2: this layer's row of argument 13. -/
theorem cA2_v147 (ha13 : V (Proc.devRef .tc main_arg13) = x13) :
    after (cA2 (F := F)) V (Proc.devRef .tc main_v147) = val_main_v147 (F := F) x13 := by
  after_results_simp
  simp only [ha13]
  unfold val_main_v147 val_main_v146
  rfl

/-- The second product's weight of layer 2: this layer's row of argument 14. -/
theorem cA2_v149 (ha14 : V (Proc.devRef .tc main_arg14) = x14) :
    after (cA2 (F := F)) V (Proc.devRef .tc main_v149) = val_main_v149 (F := F) x14 := by
  after_results_simp
  simp only [ha14]
  unfold val_main_v149 val_main_v148
  rfl

/-- The second product's bias of layer 2: this layer's row of argument 15. -/
theorem cA2_v151 (ha15 : V (Proc.devRef .tc main_arg15) = x15) :
    after (cA2 (F := F)) V (Proc.devRef .tc main_v151) = val_main_v151 (F := F) x15 := by
  after_results_simp
  simp only [ha15]
  unfold val_main_v151 val_main_v150
  rfl

/-- The normalisation's scale of layer 2: this layer's row of argument 16. -/
theorem cA2_v153 (ha16 : V (Proc.devRef .tc main_arg16) = x16) :
    after (cA2 (F := F)) V (Proc.devRef .tc main_v153) = val_main_v153 (F := F) x16 := by
  after_results_simp
  simp only [ha16]
  unfold val_main_v153 val_main_v152
  rfl

/-- The normalisation's shift of layer 2: this layer's row of argument 17. -/
theorem cA2_v155 (ha17 : V (Proc.devRef .tc main_arg17) = x17) :
    after (cA2 (F := F)) V (Proc.devRef .tc main_v155) = val_main_v155 (F := F) x17 := by
  after_results_simp
  simp only [ha17]
  unfold val_main_v155 val_main_v154
  rfl

/-! ## Stretch `cA2`: the aggregate -/

/-- The scatter-add of layer 2: the relu of the gathered source rows plus the edge term plus its bias, summed into the
    destination rows. It reads the previous layer's output, the two index rows, the edge features and this layer's rows of
    arguments 10 and 11. -/
theorem cA2_v172 (ha2 : V (Proc.devRef .tc main_arg2) = x2) (ha10 : V (Proc.devRef .tc main_arg10) = x10)
    (ha11 : V (Proc.devRef .tc main_arg11) = x11)
    (hv1 : V (Proc.devRef .tc main_v1) = val_main_v1 (F := F) x1)
    (hv3 : V (Proc.devRef .tc main_v3) = val_main_v3 (F := F) x1)
    (hv139 : V (Proc.devRef .tc main_v139) = val_main_v139 (F := F) x0 x1 x2 x4 x5 x6 x7 x8 x9 x10 x11 x12 x13 x14 x15 x16 x17) :
    after (cA2 (F := F)) V (Proc.devRef .tc main_v172)
      = val_main_v172 (F := F) x0 x1 x2 x4 x5 x6 x7 x8 x9 x10 x11 x12 x13 x14 x15 x16 x17 := by
  after_results_simp
  simp only [ha2, ha10, ha11, hv1, hv3, hv139]
  unfold val_main_v172 val_main_v171 val_main_v170 val_main_cst_18 val_main_v169 val_main_call8_v0 val_main_call8_cst
    val_main_v168 val_main_v167 val_main_v166 val_main_v165 val_main_v164 val_main_v163 val_main_v162 val_main_v161 val_main_v160
    val_main_v159 val_main_v158 val_main_c_17 val_main_v157 val_main_v156 val_main_c_16 val_main_v143 val_main_v142 val_main_v141
    val_main_v140
  rfl

/-! ## Stretch `cB2`: the two products -/

/-- The node update of layer 2 before its normalisation: the previous output plus the aggregate, through the two products
    with bias, each followed by a relu. -/
theorem cB2_v187 (hv139 : V (Proc.devRef .tc main_v139) = val_main_v139 (F := F) x0 x1 x2 x4 x5 x6 x7 x8 x9 x10 x11 x12 x13 x14 x15 x16 x17)
    (hv145 : V (Proc.devRef .tc main_v145) = val_main_v145 (F := F) x12)
    (hv147 : V (Proc.devRef .tc main_v147) = val_main_v147 (F := F) x13)
    (hv149 : V (Proc.devRef .tc main_v149) = val_main_v149 (F := F) x14)
    (hv151 : V (Proc.devRef .tc main_v151) = val_main_v151 (F := F) x15)
    (hv172 : V (Proc.devRef .tc main_v172) = val_main_v172 (F := F) x0 x1 x2 x4 x5 x6 x7 x8 x9 x10 x11 x12 x13 x14 x15 x16 x17) :
    after (cB2 (F := F)) V (Proc.devRef .tc main_v187)
      = val_main_v187 (F := F) x0 x1 x2 x4 x5 x6 x7 x8 x9 x10 x11 x12 x13 x14 x15 x16 x17 := by
  after_results_simp
  simp only [hv139, hv145, hv147, hv149, hv151, hv172]
  unfold val_main_v187 val_main_call10_v0 val_main_call10_cst val_main_v186 val_main_v185 val_main_v184 val_main_v183
    val_main_v182 val_main_v181 val_main_call9_v0 val_main_call9_cst val_main_v180 val_main_v179 val_main_v178 val_main_v177
    val_main_v176 val_main_v175 val_main_v174 val_main_v173 val_main_cst_19
  rfl

/-! ## Stretch `cC2`: the normalisation -/

/-- The output of layer 2: the update minus its mean over the feature axis, times the reciprocal root of the variance plus
    epsilon, scaled, shifted, and through a relu. -/
theorem cC2_v213 (hv153 : V (Proc.devRef .tc main_v153) = val_main_v153 (F := F) x16)
    (hv155 : V (Proc.devRef .tc main_v155) = val_main_v155 (F := F) x17)
    (hv187 : V (Proc.devRef .tc main_v187)
      = val_main_v187 (F := F) x0 x1 x2 x4 x5 x6 x7 x8 x9 x10 x11 x12 x13 x14 x15 x16 x17) :
    after (cC2 (F := F)) V (Proc.devRef .tc main_v213)
      = val_main_v213 (F := F) x0 x1 x2 x4 x5 x6 x7 x8 x9 x10 x11 x12 x13 x14 x15 x16 x17 := by
  after_results_simp
  simp only [hv153, hv155, hv187]
  unfold val_main_v213 val_main_call11_v0 val_main_call11_cst val_main_v212 val_main_v211 val_main_v210 val_main_v209
    val_main_v208 val_main_v207 val_main_v206 val_main_v205 val_main_v204 val_main_v203 val_main_v202 val_main_v201
    val_main_cst_24 val_main_v200 val_main_v199 val_main_v198 val_main_v197 val_main_v196 val_main_cst_23 val_main_v195
    val_main_cst_22 val_main_v194 val_main_v193 val_main_v192 val_main_v191 val_main_v190 val_main_v189 val_main_cst_21
    val_main_v188 val_main_cst_20
  rfl

/-! ## Layer 2 as a whole -/

/-- A buffer that none of the three stretches of layer 2 writes keeps its contents through the layer. -/
theorem layer2_keep (r : Ref sig .tc) (hA : r ∉ cA2_W) (hB : r ∉ cB2_W) (hC : r ∉ cC2_W) :
    after (cC2 (F := F)) (after (cB2 (F := F)) (after (cA2 (F := F)) V)) (Proc.devRef .tc r) = V (Proc.devRef .tc r) :=
  (cC2_keep _ r hC).trans ((cB2_keep _ r hB).trans (cA2_keep V r hA))

/-- From contents holding the previous layer's output, the two index rows and the arguments the layer reads, the three
    stretches of layer 2 end with its output at the stage value. -/
theorem layer2 (ha2 : V (Proc.devRef .tc main_arg2) = x2) (ha10 : V (Proc.devRef .tc main_arg10) = x10)
    (ha11 : V (Proc.devRef .tc main_arg11) = x11) (ha12 : V (Proc.devRef .tc main_arg12) = x12)
    (ha13 : V (Proc.devRef .tc main_arg13) = x13) (ha14 : V (Proc.devRef .tc main_arg14) = x14)
    (ha15 : V (Proc.devRef .tc main_arg15) = x15) (ha16 : V (Proc.devRef .tc main_arg16) = x16)
    (ha17 : V (Proc.devRef .tc main_arg17) = x17)
    (hv1 : V (Proc.devRef .tc main_v1) = val_main_v1 (F := F) x1)
    (hv3 : V (Proc.devRef .tc main_v3) = val_main_v3 (F := F) x1)
    (hv139 : V (Proc.devRef .tc main_v139) = val_main_v139 (F := F) x0 x1 x2 x4 x5 x6 x7 x8 x9 x10 x11 x12 x13 x14 x15 x16 x17) :
    after (cC2 (F := F)) (after (cB2 (F := F)) (after (cA2 (F := F)) V)) (Proc.devRef .tc main_v213)
      = val_main_v213 (F := F) x0 x1 x2 x4 x5 x6 x7 x8 x9 x10 x11 x12 x13 x14 x15 x16 x17 :=
  cC2_v213 _
    ((cB2_keep _ main_v153 (by decide)).trans (cA2_v153 V ha16))
    ((cB2_keep _ main_v155 (by decide)).trans (cA2_v155 V ha17))
    (cB2_v187 _
      ((cA2_keep V main_v139 (by decide)).trans hv139)
      (cA2_v145 V ha12) (cA2_v147 V ha13) (cA2_v149 V ha14) (cA2_v151 V ha15)
      (cA2_v172 V ha2 ha10 ha11 hv1 hv3 hv139))

end Cert.ReferenceIdeal.RefFold

end
-- ==== Proof.RefFold3.lean ====
/- Layer 3 of the reference program, stretch by stretch: from any buffer contents at which the buffers a stretch reads
   hold the stage values of the operation-by-operation reading, the buffers it writes for later stretches hold theirs. -/
import proofs.«406622_j66486093742154_3_alg».proof.Proof.RefFoldChunks
import proofs.«406622_j66486093742154_3_alg».proof.Proof.RefRead

noncomputable section

namespace Cert.ReferenceIdeal.RefFold

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (V : Valuation τ sig (Elt F))
variable {x0 : (⟨S100000x32, .f32⟩ : BufTy).Contents (Elt F)} {x1 : (⟨S2x1600000, .i32⟩ : BufTy).Contents (Elt F)}
  {x2 : (⟨S1600000x16, .f32⟩ : BufTy).Contents (Elt F)} {x4 : (⟨S32x16, .f32⟩ : BufTy).Contents (Elt F)}
  {x5 : (⟨S32, .f32⟩ : BufTy).Contents (Elt F)} {x6 : (⟨S64x32, .f32⟩ : BufTy).Contents (Elt F)}
  {x7 : (⟨S64, .f32⟩ : BufTy).Contents (Elt F)} {x8 : (⟨S64x64, .f32⟩ : BufTy).Contents (Elt F)}
  {x9 : (⟨S64, .f32⟩ : BufTy).Contents (Elt F)} {x10 : (⟨S3x64x16, .f32⟩ : BufTy).Contents (Elt F)}
  {x11 : (⟨S3x64, .f32⟩ : BufTy).Contents (Elt F)} {x12 : (⟨S3x64x64, .f32⟩ : BufTy).Contents (Elt F)}
  {x13 : (⟨S3x64, .f32⟩ : BufTy).Contents (Elt F)} {x14 : (⟨S3x64x64, .f32⟩ : BufTy).Contents (Elt F)}
  {x15 : (⟨S3x64, .f32⟩ : BufTy).Contents (Elt F)} {x16 : (⟨S4x64, .f32⟩ : BufTy).Contents (Elt F)}
  {x17 : (⟨S4x64, .f32⟩ : BufTy).Contents (Elt F)}

/-! ## Stretch `cA3`: the parameter rows it leaves for the later stretches -/

/-- The first product's weight of layer 3: this layer's row of argument 12. -/
theorem cA3_v219 (ha12 : V (Proc.devRef .tc main_arg12) = x12) :
    after (cA3 (F := F)) V (Proc.devRef .tc main_v219) = val_main_v219 (F := F) x12 := by
  after_results_simp
  simp only [ha12]
  unfold val_main_v219 val_main_v218
  rfl

/-- The first product's bias of layer 3: this layer's row of argument 13. -/
theorem cA3_v221 (ha13 : V (Proc.devRef .tc main_arg13) = x13) :
    after (cA3 (F := F)) V (Proc.devRef .tc main_v221) = val_main_v221 (F := F) x13 := by
  after_results_simp
  simp only [ha13]
  unfold val_main_v221 val_main_v220
  rfl

/-- The second product's weight of layer 3: this layer's row of argument 14. -/
theorem cA3_v223 (ha14 : V (Proc.devRef .tc main_arg14) = x14) :
    after (cA3 (F := F)) V (Proc.devRef .tc main_v223) = val_main_v223 (F := F) x14 := by
  after_results_simp
  simp only [ha14]
  unfold val_main_v223 val_main_v222
  rfl

/-- The second product's bias of layer 3: this layer's row of argument 15. -/
theorem cA3_v225 (ha15 : V (Proc.devRef .tc main_arg15) = x15) :
    after (cA3 (F := F)) V (Proc.devRef .tc main_v225) = val_main_v225 (F := F) x15 := by
  after_results_simp
  simp only [ha15]
  unfold val_main_v225 val_main_v224
  rfl

/-- The normalisation's scale of layer 3: this layer's row of argument 16. -/
theorem cA3_v227 (ha16 : V (Proc.devRef .tc main_arg16) = x16) :
    after (cA3 (F := F)) V (Proc.devRef .tc main_v227) = val_main_v227 (F := F) x16 := by
  after_results_simp
  simp only [ha16]
  unfold val_main_v227 val_main_v226
  rfl

/-- The normalisation's shift of layer 3: this layer's row of argument 17. -/
theorem cA3_v229 (ha17 : V (Proc.devRef .tc main_arg17) = x17) :
    after (cA3 (F := F)) V (Proc.devRef .tc main_v229) = val_main_v229 (F := F) x17 := by
  after_results_simp
  simp only [ha17]
  unfold val_main_v229 val_main_v228
  rfl

/-! ## Stretch `cA3`: the aggregate -/

/-- The scatter-add of layer 3: the relu of the gathered source rows plus the edge term plus its bias, summed into the
    destination rows. It reads the previous layer's output, the two index rows, the edge features and this layer's rows of
    arguments 10 and 11. -/
theorem cA3_v246 (ha2 : V (Proc.devRef .tc main_arg2) = x2) (ha10 : V (Proc.devRef .tc main_arg10) = x10)
    (ha11 : V (Proc.devRef .tc main_arg11) = x11)
    (hv1 : V (Proc.devRef .tc main_v1) = val_main_v1 (F := F) x1)
    (hv3 : V (Proc.devRef .tc main_v3) = val_main_v3 (F := F) x1)
    (hv213 : V (Proc.devRef .tc main_v213) = val_main_v213 (F := F) x0 x1 x2 x4 x5 x6 x7 x8 x9 x10 x11 x12 x13 x14 x15 x16 x17) :
    after (cA3 (F := F)) V (Proc.devRef .tc main_v246)
      = val_main_v246 (F := F) x0 x1 x2 x4 x5 x6 x7 x8 x9 x10 x11 x12 x13 x14 x15 x16 x17 := by
  after_results_simp
  simp only [ha2, ha10, ha11, hv1, hv3, hv213]
  unfold val_main_v246 val_main_v245 val_main_v244 val_main_cst_27 val_main_v243 val_main_call12_v0 val_main_call12_cst
    val_main_v242 val_main_v241 val_main_v240 val_main_v239 val_main_v238 val_main_v237 val_main_v236 val_main_v235 val_main_v234
    val_main_v233 val_main_v232 val_main_c_26 val_main_v231 val_main_v230 val_main_c_25 val_main_v217 val_main_v216 val_main_v215
    val_main_v214
  rfl

/-! ## Stretch `cB3`: the two products -/

/-- The node update of layer 3 before its normalisation: the previous output plus the aggregate, through the two products
    with bias, each followed by a relu. -/
theorem cB3_v261 (hv213 : V (Proc.devRef .tc main_v213) = val_main_v213 (F := F) x0 x1 x2 x4 x5 x6 x7 x8 x9 x10 x11 x12 x13 x14 x15 x16 x17)
    (hv219 : V (Proc.devRef .tc main_v219) = val_main_v219 (F := F) x12)
    (hv221 : V (Proc.devRef .tc main_v221) = val_main_v221 (F := F) x13)
    (hv223 : V (Proc.devRef .tc main_v223) = val_main_v223 (F := F) x14)
    (hv225 : V (Proc.devRef .tc main_v225) = val_main_v225 (F := F) x15)
    (hv246 : V (Proc.devRef .tc main_v246) = val_main_v246 (F := F) x0 x1 x2 x4 x5 x6 x7 x8 x9 x10 x11 x12 x13 x14 x15 x16 x17) :
    after (cB3 (F := F)) V (Proc.devRef .tc main_v261)
      = val_main_v261 (F := F) x0 x1 x2 x4 x5 x6 x7 x8 x9 x10 x11 x12 x13 x14 x15 x16 x17 := by
  after_results_simp
  simp only [hv213, hv219, hv221, hv223, hv225, hv246]
  unfold val_main_v261 val_main_call14_v0 val_main_call14_cst val_main_v260 val_main_v259 val_main_v258 val_main_v257
    val_main_v256 val_main_v255 val_main_call13_v0 val_main_call13_cst val_main_v254 val_main_v253 val_main_v252 val_main_v251
    val_main_v250 val_main_v249 val_main_v248 val_main_v247 val_main_cst_28
  rfl

/-! ## Stretch `cC3`: the normalisation -/

/-- The output of layer 3: the update minus its mean over the feature axis, times the reciprocal root of the variance plus
    epsilon, scaled, shifted, and through a relu. -/
theorem cC3_v287 (hv227 : V (Proc.devRef .tc main_v227) = val_main_v227 (F := F) x16)
    (hv229 : V (Proc.devRef .tc main_v229) = val_main_v229 (F := F) x17)
    (hv261 : V (Proc.devRef .tc main_v261)
      = val_main_v261 (F := F) x0 x1 x2 x4 x5 x6 x7 x8 x9 x10 x11 x12 x13 x14 x15 x16 x17) :
    after (cC3 (F := F)) V (Proc.devRef .tc main_v287)
      = val_main_v287 (F := F) x0 x1 x2 x4 x5 x6 x7 x8 x9 x10 x11 x12 x13 x14 x15 x16 x17 := by
  after_results_simp
  simp only [hv227, hv229, hv261]
  unfold val_main_v287 val_main_call15_v0 val_main_call15_cst val_main_v286 val_main_v285 val_main_v284 val_main_v283
    val_main_v282 val_main_v281 val_main_v280 val_main_v279 val_main_v278 val_main_v277 val_main_v276 val_main_v275
    val_main_cst_33 val_main_v274 val_main_v273 val_main_v272 val_main_v271 val_main_v270 val_main_cst_32 val_main_v269
    val_main_cst_31 val_main_v268 val_main_v267 val_main_v266 val_main_v265 val_main_v264 val_main_v263 val_main_cst_30
    val_main_v262 val_main_cst_29
  rfl

/-! ## Layer 3 as a whole -/

/-- A buffer that none of the three stretches of layer 3 writes keeps its contents through the layer. -/
theorem layer3_keep (r : Ref sig .tc) (hA : r ∉ cA3_W) (hB : r ∉ cB3_W) (hC : r ∉ cC3_W) :
    after (cC3 (F := F)) (after (cB3 (F := F)) (after (cA3 (F := F)) V)) (Proc.devRef .tc r) = V (Proc.devRef .tc r) :=
  (cC3_keep _ r hC).trans ((cB3_keep _ r hB).trans (cA3_keep V r hA))

/-- From contents holding the previous layer's output, the two index rows and the arguments the layer reads, the three
    stretches of layer 3 end with its output at the stage value. -/
theorem layer3 (ha2 : V (Proc.devRef .tc main_arg2) = x2) (ha10 : V (Proc.devRef .tc main_arg10) = x10)
    (ha11 : V (Proc.devRef .tc main_arg11) = x11) (ha12 : V (Proc.devRef .tc main_arg12) = x12)
    (ha13 : V (Proc.devRef .tc main_arg13) = x13) (ha14 : V (Proc.devRef .tc main_arg14) = x14)
    (ha15 : V (Proc.devRef .tc main_arg15) = x15) (ha16 : V (Proc.devRef .tc main_arg16) = x16)
    (ha17 : V (Proc.devRef .tc main_arg17) = x17)
    (hv1 : V (Proc.devRef .tc main_v1) = val_main_v1 (F := F) x1)
    (hv3 : V (Proc.devRef .tc main_v3) = val_main_v3 (F := F) x1)
    (hv213 : V (Proc.devRef .tc main_v213) = val_main_v213 (F := F) x0 x1 x2 x4 x5 x6 x7 x8 x9 x10 x11 x12 x13 x14 x15 x16 x17) :
    after (cC3 (F := F)) (after (cB3 (F := F)) (after (cA3 (F := F)) V)) (Proc.devRef .tc main_v287)
      = val_main_v287 (F := F) x0 x1 x2 x4 x5 x6 x7 x8 x9 x10 x11 x12 x13 x14 x15 x16 x17 :=
  cC3_v287 _
    ((cB3_keep _ main_v227 (by decide)).trans (cA3_v227 V ha16))
    ((cB3_keep _ main_v229 (by decide)).trans (cA3_v229 V ha17))
    (cB3_v261 _
      ((cA3_keep V main_v213 (by decide)).trans hv213)
      (cA3_v219 V ha12) (cA3_v221 V ha13) (cA3_v223 V ha14) (cA3_v225 V ha15)
      (cA3_v246 V ha2 ha10 ha11 hv1 hv3 hv213))

end Cert.ReferenceIdeal.RefFold

end
-- ==== Proof.RefFoldT.lean ====
/- The reference program's fold, last part: the tail after layer 3. Entered at contents that hold layer 3's output stage and
   the tail's arguments, the stretch leaves the program's result stage at the result buffer. -/
import proofs.«406622_j66486093742154_3_alg».proof.Proof.RefFoldChunks
import proofs.«406622_j66486093742154_3_alg».proof.Proof.RefRead
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The tail: the pooled sums and counts per graph, their quotient, and the two last linear maps. -/
theorem cT_v310 (V : Valuation τ sig (Elt F)) {x0 : (⟨S100000x32, .f32⟩ : BufTy).Contents (Elt F)} {x1 : (⟨S2x1600000, .i32⟩ : BufTy).Contents (Elt F)} {x2 : (⟨S1600000x16, .f32⟩ : BufTy).Contents (Elt F)} {x3 : (⟨S100000, .i32⟩ : BufTy).Contents (Elt F)} {x4 : (⟨S32x16, .f32⟩ : BufTy).Contents (Elt F)} {x5 : (⟨S32, .f32⟩ : BufTy).Contents (Elt F)} {x6 : (⟨S64x32, .f32⟩ : BufTy).Contents (Elt F)} {x7 : (⟨S64, .f32⟩ : BufTy).Contents (Elt F)} {x8 : (⟨S64x64, .f32⟩ : BufTy).Contents (Elt F)} {x9 : (⟨S64, .f32⟩ : BufTy).Contents (Elt F)} {x10 : (⟨S3x64x16, .f32⟩ : BufTy).Contents (Elt F)} {x11 : (⟨S3x64, .f32⟩ : BufTy).Contents (Elt F)} {x12 : (⟨S3x64x64, .f32⟩ : BufTy).Contents (Elt F)} {x13 : (⟨S3x64, .f32⟩ : BufTy).Contents (Elt F)} {x14 : (⟨S3x64x64, .f32⟩ : BufTy).Contents (Elt F)} {x15 : (⟨S3x64, .f32⟩ : BufTy).Contents (Elt F)} {x16 : (⟨S4x64, .f32⟩ : BufTy).Contents (Elt F)} {x17 : (⟨S4x64, .f32⟩ : BufTy).Contents (Elt F)} {x18 : (⟨S128x64, .f32⟩ : BufTy).Contents (Elt F)} {x19 : (⟨S128, .f32⟩ : BufTy).Contents (Elt F)} {x20 : (⟨S10x128, .f32⟩ : BufTy).Contents (Elt F)} {x21 : (⟨S10, .f32⟩ : BufTy).Contents (Elt F)}
    (ha3 : V (Proc.devRef .tc main_arg3) = x3) (ha18 : V (Proc.devRef .tc main_arg18) = x18) (ha19 : V (Proc.devRef .tc main_arg19) = x19) (ha20 : V (Proc.devRef .tc main_arg20) = x20) (ha21 : V (Proc.devRef .tc main_arg21) = x21) (hv287 : V (Proc.devRef .tc main_v287) = val_main_v287 (F := F) x0 x1 x2 x4 x5 x6 x7 x8 x9 x10 x11 x12 x13 x14 x15 x16 x17) :
    after (cT (F := F)) V (Proc.devRef .tc main_v310) = val_main_v310 (F := F) x0 x1 x2 x3 x4 x5 x6 x7 x8 x9 x10 x11 x12 x13 x14 x15 x16 x17 x18 x19 x20 x21 := by
  after_results_simp
  simp only [TRef.ofBuf, TRef.toBuf, cast_eq, ha3, ha18, ha19, ha20, ha21, hv287]
  unfold val_main_v310 val_main_v309 val_main_v308 val_main_v307 val_main_v306 val_main_v305 val_main_call16_v0 val_main_call16_cst val_main_v304 val_main_v303 val_main_v302 val_main_v301 val_main_v300 val_main_v299 val_main_v298 val_main_v297 val_main_v296 val_main_v295 val_main_cst_37 val_main_v294 val_main_v291 val_main_cst_35 val_main_v293 val_main_v292 val_main_cst_36 val_main_v290 val_main_v289 val_main_v288 val_main_cst_34
  rfl

end Cert.ReferenceIdeal.RefFold

end
-- ==== Proof.RefFold.lean ====
import proofs.«406622_j66486093742154_3_alg».proof.Proof.RefRunC
import proofs.«406622_j66486093742154_3_alg».proof.Proof.RefFold0
import proofs.«406622_j66486093742154_3_alg».proof.Proof.RefFold1
import proofs.«406622_j66486093742154_3_alg».proof.Proof.RefFold2
import proofs.«406622_j66486093742154_3_alg».proof.Proof.RefFold3
import proofs.«406622_j66486093742154_3_alg».proof.Proof.RefFoldT

noncomputable section

namespace Cert.ReferenceIdeal.RefFold

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev argRefs : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17, main_arg18, main_arg19, main_arg20,
    main_arg21]

def SameArgs (V W : Valuation τ sig (Elt F)) : Prop :=
  ∀ r ∈ argRefs, W (Proc.devRef .tc r) = V (Proc.devRef .tc r)

theorem SameArgs.refl (V : Valuation τ sig (Elt F)) : SameArgs V V := fun _ _ => rfl

theorem SameArgs.step {V W : Valuation τ sig (Elt F)} (h : SameArgs V W) {l : List (HloOp τ sig (Elt F))}
    {Wl : List (Ref sig .tc)}
    (keep : ∀ r : Ref sig .tc, r ∉ Wl → after l W (Proc.devRef .tc r) = W (Proc.devRef .tc r))
    (hd : ∀ r ∈ argRefs, r ∉ Wl) : SameArgs V (after l W) :=
  fun r hr => (keep r (hd r hr)).trans (h r hr)

theorem cP_args : ∀ r ∈ argRefs, r ∉ cP_W := by decide
theorem cA0_args : ∀ r ∈ argRefs, r ∉ cA0_W := by decide
theorem cB0_args : ∀ r ∈ argRefs, r ∉ cB0_W := by decide
theorem cC0_args : ∀ r ∈ argRefs, r ∉ cC0_W := by decide
theorem cA1_args : ∀ r ∈ argRefs, r ∉ cA1_W := by decide
theorem cB1_args : ∀ r ∈ argRefs, r ∉ cB1_W := by decide
theorem cC1_args : ∀ r ∈ argRefs, r ∉ cC1_W := by decide
theorem cA2_args : ∀ r ∈ argRefs, r ∉ cA2_W := by decide
theorem cB2_args : ∀ r ∈ argRefs, r ∉ cB2_W := by decide
theorem cC2_args : ∀ r ∈ argRefs, r ∉ cC2_W := by decide
theorem cA3_args : ∀ r ∈ argRefs, r ∉ cA3_W := by decide
theorem cB3_args : ∀ r ∈ argRefs, r ∉ cB3_W := by decide
theorem cC3_args : ∀ r ∈ argRefs, r ∉ cC3_W := by decide
theorem cT_args : ∀ r ∈ argRefs, r ∉ cT_W := by decide

theorem fold_gen (V : Valuation τ sig (Elt F)) :
    after (cP ++ cA0 ++ cB0 ++ cC0 ++ cA1 ++ cB1 ++ cC1 ++ cA2 ++ cB2 ++ cC2 ++ cA3 ++ cB3 ++ cC3 ++ cT :
        List (HloOp τ sig (Elt F))) V (Proc.devRef .tc main_v310)
      = val_main_v310 (F := F)
        (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11))
        (V (Proc.devRef .tc main_arg12))
        (V (Proc.devRef .tc main_arg13))
        (V (Proc.devRef .tc main_arg14))
        (V (Proc.devRef .tc main_arg15))
        (V (Proc.devRef .tc main_arg16))
        (V (Proc.devRef .tc main_arg17))
        (V (Proc.devRef .tc main_arg18))
        (V (Proc.devRef .tc main_arg19))
        (V (Proc.devRef .tc main_arg20))
        (V (Proc.devRef .tc main_arg21)) := by
  simp only [after_append']

  have A1 : SameArgs V (after (cP (F := F)) V) := (SameArgs.refl V).step (cP_keep V) cP_args
  have h1 := cP_v1 V (x1 := V (Proc.devRef .tc main_arg1)) rfl
  have h3 := cP_v3 V (x1 := V (Proc.devRef .tc main_arg1)) rfl
  have h5 := cP_v5 V (x16 := V (Proc.devRef .tc main_arg16)) rfl
  have h7 := cP_v7 V (x17 := V (Proc.devRef .tc main_arg17)) rfl
  generalize after (cP (F := F)) V = W1 at A1 h1 h3 h5 h7 ⊢

  have Aa : SameArgs V (after (cA0 (F := F)) W1) := A1.step (cA0_keep W1) cA0_args
  have Ab : SameArgs V (after (cB0 (F := F)) (after (cA0 (F := F)) W1)) := Aa.step (cB0_keep _) cB0_args
  have A2 : SameArgs V (after (cC0 (F := F)) (after (cB0 (F := F)) (after (cA0 (F := F)) W1))) :=
    Ab.step (cC0_keep _) cC0_args
  have h65 := cC0_v65 (after (cB0 (F := F)) (after (cA0 (F := F)) W1))
    ((cB0_keep _ main_v5 (by decide)).trans ((cA0_keep W1 main_v5 (by decide)).trans h5))
    ((cB0_keep _ main_v7 (by decide)).trans ((cA0_keep W1 main_v7 (by decide)).trans h7))
    (cB0_v39 (after (cA0 (F := F)) W1) (Aa main_arg0 (by decide)) (Aa main_arg6 (by decide)) (Aa main_arg7 (by decide))
      (Aa main_arg8 (by decide)) (Aa main_arg9 (by decide))
      (cA0_v24 W1 (A1 main_arg0 (by decide)) (A1 main_arg2 (by decide)) (A1 main_arg4 (by decide))
        (A1 main_arg5 (by decide)) h1 h3))
  have h1' := (cC0_keep _ main_v1 (by decide)).trans
    ((cB0_keep _ main_v1 (by decide)).trans ((cA0_keep W1 main_v1 (by decide)).trans h1))
  have h3' := (cC0_keep _ main_v3 (by decide)).trans
    ((cB0_keep _ main_v3 (by decide)).trans ((cA0_keep W1 main_v3 (by decide)).trans h3))
  clear h1 h3 h5 h7 Aa Ab A1
  generalize after (cC0 (F := F)) (after (cB0 (F := F)) (after (cA0 (F := F)) W1)) = W2 at A2 h65 h1' h3' ⊢
  clear W1

  have A3 : SameArgs V (after (cC1 (F := F)) (after (cB1 (F := F)) (after (cA1 (F := F)) W2))) :=
    ((A2.step (cA1_keep W2) cA1_args).step (cB1_keep _) cB1_args).step (cC1_keep _) cC1_args
  have h139 := layer1 W2 (A2 main_arg2 (by decide)) (A2 main_arg10 (by decide)) (A2 main_arg11 (by decide))
    (A2 main_arg12 (by decide)) (A2 main_arg13 (by decide)) (A2 main_arg14 (by decide)) (A2 main_arg15 (by decide))
    (A2 main_arg16 (by decide)) (A2 main_arg17 (by decide)) h1' h3' h65
  have h1 := (layer1_keep W2 main_v1 (by decide) (by decide) (by decide)).trans h1'
  have h3 := (layer1_keep W2 main_v3 (by decide) (by decide) (by decide)).trans h3'
  clear h1' h3' h65 A2
  generalize after (cC1 (F := F)) (after (cB1 (F := F)) (after (cA1 (F := F)) W2)) = W3 at A3 h139 h1 h3 ⊢
  clear W2

  have A4 : SameArgs V (after (cC2 (F := F)) (after (cB2 (F := F)) (after (cA2 (F := F)) W3))) :=
    ((A3.step (cA2_keep W3) cA2_args).step (cB2_keep _) cB2_args).step (cC2_keep _) cC2_args
  have h213 := layer2 W3 (A3 main_arg2 (by decide)) (A3 main_arg10 (by decide)) (A3 main_arg11 (by decide))
    (A3 main_arg12 (by decide)) (A3 main_arg13 (by decide)) (A3 main_arg14 (by decide)) (A3 main_arg15 (by decide))
    (A3 main_arg16 (by decide)) (A3 main_arg17 (by decide)) h1 h3 h139
  have h1' := (layer2_keep W3 main_v1 (by decide) (by decide) (by decide)).trans h1
  have h3' := (layer2_keep W3 main_v3 (by decide) (by decide) (by decide)).trans h3
  clear h1 h3 h139 A3
  generalize after (cC2 (F := F)) (after (cB2 (F := F)) (after (cA2 (F := F)) W3)) = W4 at A4 h213 h1' h3' ⊢
  clear W3

  have A5 : SameArgs V (after (cC3 (F := F)) (after (cB3 (F := F)) (after (cA3 (F := F)) W4))) :=
    ((A4.step (cA3_keep W4) cA3_args).step (cB3_keep _) cB3_args).step (cC3_keep _) cC3_args
  have h287 := layer3 W4 (A4 main_arg2 (by decide)) (A4 main_arg10 (by decide)) (A4 main_arg11 (by decide))
    (A4 main_arg12 (by decide)) (A4 main_arg13 (by decide)) (A4 main_arg14 (by decide)) (A4 main_arg15 (by decide))
    (A4 main_arg16 (by decide)) (A4 main_arg17 (by decide)) h1' h3' h213
  clear h1' h3' h213 A4
  generalize after (cC3 (F := F)) (after (cB3 (F := F)) (after (cA3 (F := F)) W4)) = W5 at A5 h287 ⊢
  clear W4

  exact cT_v310 W5 (A5 main_arg3 (by decide)) (A5 main_arg18 (by decide)) (A5 main_arg19 (by decide))
    (A5 main_arg20 (by decide)) (A5 main_arg21 (by decide)) h287

theorem fold_eq (m : (ℓ : Loc nD τ sig) → Buf (Elt F) ℓ) (c : Dev nD) :
    Cert.ReferenceIdeal.Value.res_main_v310 (F := F) m c
      = val_main_v310 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  fold_gen (launchContents m c)

end Cert.ReferenceIdeal.RefFold

end
-- ==== Proof.Spec.lean ====
import Idealize.ShloMosaic.PureOps.Ideal
import Idealize.ShloMosaic.PureOps.Ideal.Laws
import Idealize.ShloMosaic.Lib.ValueIdx

noncomputable section

namespace Gnn

open Idealize.ShloMosaic

abbrev one : EReal := Ideal.ofBits .f32 0x3F800000#32

abbrev nTot : EReal := Ideal.ofBits .f32 0x47C35000#32

abbrev eps : EReal := Ideal.ofBits .f32 0x3727C5AC#32

def relu (a : EReal) : EReal := max a 0

def IsReal (a : EReal) : Prop := ∃ r : ℝ, a = (r : EReal)

def node (C : ℕ) (x agg : Fin 100000 → Fin C → EReal) (w1 : Fin 64 → Fin C → EReal) (b1 : Fin 64 → EReal)
    (w2 : Fin 64 → Fin 64 → EReal) (b2 : Fin 64 → EReal) : Fin 100000 → Fin 64 → EReal :=
  fun r j => relu ((∑ k : Fin 64, relu ((∑ a : Fin C, (one * x r a + agg r a) * w1 k a) + b1 k) * w2 j k) + b2 j)

def row (t : Fin 10) (g : Fin 1250) (s : Fin 8) : Fin 100000 := ⟨t.val * 10000 + g.val * 8 + s.val, by omega⟩

def colMean (h : Fin 100000 → Fin 64 → EReal) (j : Fin 64) : EReal := Ideal.div (∑ r, h r j) nTot

def varK (h : Fin 100000 → Fin 64 → EReal) (j : Fin 64) : EReal :=
  max (Ideal.div (∑ r, h r j * h r j) nTot - colMean h j * colMean h j) 0

def varR (h : Fin 100000 → Fin 64 → EReal) (j : Fin 64) : EReal :=
  Ideal.div (∑ r, (h r j - colMean h j) * (h r j - colMean h j)) nTot

def bn (h : Fin 100000 → Fin 64 → EReal) (mean rstd g b : Fin 64 → EReal) : Fin 100000 → Fin 64 → EReal :=
  fun r j => relu ((h r j - mean j) * rstd j * g j + b j)

def layerK (C : ℕ) (x agg : Fin 100000 → Fin C → EReal) (w1 : Fin 64 → Fin C → EReal) (b1 : Fin 64 → EReal)
    (w2 : Fin 64 → Fin 64 → EReal) (b2 g b : Fin 64 → EReal) : Fin 100000 → Fin 64 → EReal :=
  bn (node C x agg w1 b1 w2 b2) (colMean (node C x agg w1 b1 w2 b2))
    (fun j => Ideal.rsqrt (varK (node C x agg w1 b1 w2 b2) j + eps)) g b

def layerR (C : ℕ) (x agg : Fin 100000 → Fin C → EReal) (w1 : Fin 64 → Fin C → EReal) (b1 : Fin 64 → EReal)
    (w2 : Fin 64 → Fin 64 → EReal) (b2 g b : Fin 64 → EReal) : Fin 100000 → Fin 64 → EReal :=
  bn (node C x agg w1 b1 w2 b2) (colMean (node C x agg w1 b1 w2 b2))
    (fun j => Ideal.rsqrt (varR (node C x agg w1 b1 w2 b2) j + eps)) g b

abbrev hat2 {a b : ℕ} (X : (⟨2, ![a, b]⟩ : Shape).Idx → EReal) : Fin a → Fin b → EReal := fun r c => X (ValueIdx.ix2 r c)

abbrev hatRow {b : ℕ} (X : (⟨2, ![1, b]⟩ : Shape).Idx → EReal) : Fin b → EReal := fun j => X (ValueIdx.ix2 0 j)

abbrev hat1 {b : ℕ} (X : (⟨1, ![b]⟩ : Shape).Idx → EReal) : Fin b → EReal := fun j => X (ValueIdx.ix1 j)

abbrev arr2 {a b : ℕ} (f : Fin a → Fin b → EReal) : (⟨2, ![a, b]⟩ : Shape).Idx → EReal := fun i => f (i 0) (i 1)

theorem hat2_arr2 {a b : ℕ} (f : Fin a → Fin b → EReal) : hat2 (arr2 f) = f := rfl

theorem arr2_hat2 {a b : ℕ} (X : (⟨2, ![a, b]⟩ : Shape).Idx → EReal) : arr2 (hat2 X) = X := by
  funext i; exact congrArg X (ValueIdx.eq_ix2 i).symm

def SrcOK (a1 : (⟨2, ![2, 1600000]⟩ : Shape).Idx → BitVec 32) : Prop :=
  ∀ e : Fin 1600000, 0 ≤ (a1 (ValueIdx.ix2 0 e)).toInt ∧ (a1 (ValueIdx.ix2 0 e)).toInt < 100000

end Gnn

end
-- ==== Proof.SpecMath.lean ====
import proofs.«406622_j66486093742154_3_alg».proof.Proof.Spec
import Mathlib.Data.Fintype.BigOperators
import Mathlib.Algebra.Order.BigOperators.Group.Finset
import Mathlib.Tactic.Choose
import Mathlib.Tactic.Ring
import Mathlib.Tactic.NormNum

noncomputable section

namespace Gnn

open Idealize.ShloMosaic

def rowEquiv : Fin 10 × Fin 8 × Fin 1250 ≃ Fin 100000 where
  toFun p := row p.1 p.2.2 p.2.1
  invFun r := (⟨r.val / 10000, by omega⟩, ⟨r.val % 8, by omega⟩, ⟨r.val % 10000 / 8, by omega⟩)
  left_inv := by
    rintro ⟨t, s, g⟩
    refine Prod.ext (Fin.ext ?_) (Prod.ext (Fin.ext ?_) (Fin.ext ?_)) <;> simp only [row] <;> omega
  right_inv := by
    intro r
    refine Fin.ext ?_
    simp only [row]
    omega

theorem sum_rows {M : Type*} [AddCommMonoid M] (f : Fin 100000 → M) :
    ∑ t : Fin 10, ∑ s : Fin 8, ∑ g : Fin 1250, f (row t g s) = ∑ r : Fin 100000, f r := by
  rw [← Equiv.sum_comp rowEquiv f, Fintype.sum_prod_type]
  refine Finset.sum_congr rfl fun t _ => ?_
  rw [Fintype.sum_prod_type]
  rfl

theorem IsReal.zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem coe_max (x y : ℝ) : max (x : EReal) (y : EReal) = ((max x y : ℝ) : EReal) :=
  (EReal.coe_strictMono.monotone.map_max).symm

theorem IsReal.max {a b : EReal} (ha : IsReal a) (hb : IsReal b) : IsReal (max a b) := by
  obtain ⟨x, rfl⟩ := ha; obtain ⟨y, rfl⟩ := hb; exact ⟨_, coe_max x y⟩

theorem coe_sum {ι : Type*} (s : Finset ι) (a : ι → ℝ) :
    ∑ i ∈ s, ((a i : ℝ) : EReal) = ((∑ i ∈ s, a i : ℝ) : EReal) := by
  classical
  refine Finset.induction_on s (by simp) ?_
  intro i s hi ih
  rw [Finset.sum_insert hi, Finset.sum_insert hi, ih, EReal.coe_add]

theorem IsReal.sum {ι : Type*} (s : Finset ι) {f : ι → EReal} (h : ∀ i ∈ s, IsReal (f i)) :
    IsReal (∑ i ∈ s, f i) :=
  Finset.sum_induction f IsReal (fun _ _ => IsReal.add) IsReal.zero h

theorem one_eq : one = ((1 : ℝ) : EReal) := by
  simp [Ideal.ofBits, Ideal.ieee, -EReal.coe_mul]; norm_num

theorem nTot_eq : nTot = ((100000 : ℝ) : EReal) := by
  simp [Ideal.ofBits, Ideal.ieee, -EReal.coe_mul]; norm_num

theorem eps_eq : eps = ((10995116 / 2 ^ 40 : ℝ) : EReal) := by
  simp [Ideal.ofBits, Ideal.ieee, -EReal.coe_mul]; norm_num

theorem one_isReal : IsReal one := ⟨_, one_eq⟩

theorem div_nTot (x : ℝ) : Ideal.div (x : EReal) nTot = ((x * (1 / 100000) : ℝ) : EReal) := by
  rw [nTot_eq, Ideal.div_coe (by norm_num), ← EReal.coe_mul]

theorem colMean_coe (a : Fin 100000 → Fin 64 → ℝ) (j : Fin 64) :
    colMean (fun r j => ((a r j : ℝ) : EReal)) j = (((∑ r, a r j) * (1 / 100000) : ℝ) : EReal) := by
  simp only [colMean, coe_sum, div_nTot]

theorem varK_coe (a : Fin 100000 → Fin 64 → ℝ) (j : Fin 64) (μ : ℝ) (hμ : μ = (∑ r, a r j) * (1 / 100000)) :
    varK (fun r j => ((a r j : ℝ) : EReal)) j
      = ((max ((∑ r, a r j * a r j) * (1 / 100000) - μ * μ) 0 : ℝ) : EReal) := by
  unfold varK
  rw [colMean_coe, ← hμ]
  simp only [← EReal.coe_mul, coe_sum, div_nTot, ← EReal.coe_sub]
  exact coe_max _ 0

theorem varR_coe (a : Fin 100000 → Fin 64 → ℝ) (j : Fin 64) (μ : ℝ) (hμ : μ = (∑ r, a r j) * (1 / 100000)) :
    varR (fun r j => ((a r j : ℝ) : EReal)) j
      = (((∑ r, (a r j - μ) * (a r j - μ)) * (1 / 100000) : ℝ) : EReal) := by
  unfold varR
  rw [colMean_coe, ← hμ]
  simp only [← EReal.coe_sub, ← EReal.coe_mul, coe_sum, div_nTot]

theorem real_var (a : Fin 100000 → ℝ) (μ : ℝ) (hμ : μ = (∑ r, a r) * (1 / 100000)) :
    (∑ r, (a r - μ) * (a r - μ)) * (1 / 100000) = (∑ r, a r * a r) * (1 / 100000) - μ * μ := by
  have key : (∑ r, (a r - μ) * (a r - μ)) = (∑ r, a r * a r) - 2 * μ * (∑ r, a r) + 100000 * (μ * μ) := by
    have h1 : ∀ r, (a r - μ) * (a r - μ) = a r * a r - 2 * μ * a r + μ * μ := fun r => by ring
    simp only [h1]
    rw [Finset.sum_add_distrib, Finset.sum_sub_distrib, ← Finset.mul_sum, Finset.sum_const, Finset.card_univ,
      Fintype.card_fin, nsmul_eq_mul]
    norm_num
  rw [key, hμ]; ring

theorem real_var_nonneg (a : Fin 100000 → ℝ) (μ : ℝ) : 0 ≤ (∑ r, (a r - μ) * (a r - μ)) * (1 / 100000) :=
  mul_nonneg (Finset.sum_nonneg fun r _ => mul_self_nonneg _) (by norm_num)

theorem varR_real {h : Fin 100000 → Fin 64 → EReal} (hr : ∀ r j, IsReal (h r j)) (j : Fin 64) :
    ∃ v : ℝ, 0 ≤ v ∧ varR h j = (v : EReal) := by
  have hr' : ∀ r j, ∃ x : ℝ, h r j = (x : EReal) := hr
  choose a ha using hr'
  obtain rfl : h = fun r j => ((a r j : ℝ) : EReal) := funext fun r => funext fun j => ha r j
  exact ⟨_, real_var_nonneg (fun r => a r j) _, varR_coe a j _ rfl⟩

theorem colMean_isReal {h : Fin 100000 → Fin 64 → EReal} (hr : ∀ r j, IsReal (h r j)) (j : Fin 64) :
    IsReal (colMean h j) := by
  have hr' : ∀ r j, ∃ x : ℝ, h r j = (x : EReal) := hr
  choose a ha using hr'
  obtain rfl : h = fun r j => ((a r j : ℝ) : EReal) := funext fun r => funext fun j => ha r j
  exact ⟨_, colMean_coe a j⟩

theorem varK_eq_varR {h : Fin 100000 → Fin 64 → EReal} (hr : ∀ r j, IsReal (h r j)) (j : Fin 64) : varK h j = varR h j := by
  have hr' : ∀ r j, ∃ x : ℝ, h r j = (x : EReal) := hr
  choose a ha using hr'
  obtain rfl : h = fun r j => ((a r j : ℝ) : EReal) := funext fun r => funext fun j => ha r j
  rw [varK_coe a j _ rfl, varR_coe a j _ rfl, ← real_var (fun r => a r j) _ rfl,
    max_eq_left (real_var_nonneg (fun r => a r j) _)]

theorem node_isReal (C : ℕ) {x agg : Fin 100000 → Fin C → EReal} {w1 : Fin 64 → Fin C → EReal} {b1 : Fin 64 → EReal}
    {w2 : Fin 64 → Fin 64 → EReal} {b2 : Fin 64 → EReal}
    (hx : ∀ r a, IsReal (x r a)) (hagg : ∀ r a, IsReal (agg r a)) (hw1 : ∀ k a, IsReal (w1 k a)) (hb1 : ∀ k, IsReal (b1 k))
    (hw2 : ∀ j k, IsReal (w2 j k)) (hb2 : ∀ j, IsReal (b2 j)) : ∀ r j, IsReal (node C x agg w1 b1 w2 b2 r j) := by
  intro r j
  unfold node relu
  exact IsReal.max (IsReal.add (IsReal.sum _ fun k _ => IsReal.mul (IsReal.max (IsReal.add (IsReal.sum _ fun a _ =>
    IsReal.mul (IsReal.add (IsReal.mul one_isReal (hx r a)) (hagg r a)) (hw1 k a)) (hb1 k)) IsReal.zero) (hw2 j k))
    (hb2 j)) IsReal.zero

theorem layerK_eq_layerR (C : ℕ) {x agg : Fin 100000 → Fin C → EReal} {w1 : Fin 64 → Fin C → EReal} {b1 : Fin 64 → EReal}
    {w2 : Fin 64 → Fin 64 → EReal} {b2 : Fin 64 → EReal} (g b : Fin 64 → EReal)
    (hx : ∀ r a, IsReal (x r a)) (hagg : ∀ r a, IsReal (agg r a)) (hw1 : ∀ k a, IsReal (w1 k a)) (hb1 : ∀ k, IsReal (b1 k))
    (hw2 : ∀ j k, IsReal (w2 j k)) (hb2 : ∀ j, IsReal (b2 j)) :
    layerK C x agg w1 b1 w2 b2 g b = layerR C x agg w1 b1 w2 b2 g b := by
  unfold layerK layerR
  have hv : (fun j => Ideal.rsqrt (varK (node C x agg w1 b1 w2 b2) j + eps))
      = fun j => Ideal.rsqrt (varR (node C x agg w1 b1 w2 b2) j + eps) :=
    funext fun j => by rw [varK_eq_varR (node_isReal C hx hagg hw1 hb1 hw2 hb2) j]
  rw [hv]

theorem rsqrt_isReal {x : ℝ} (hx : 0 < x) : IsReal (Ideal.rsqrt (x : EReal)) :=
  ⟨(Real.sqrt x)⁻¹, by rw [Ideal.rsqrt_coe, if_neg (not_lt.2 hx.le), if_neg hx.ne']⟩

theorem layerR_isReal (C : ℕ) {x agg : Fin 100000 → Fin C → EReal} {w1 : Fin 64 → Fin C → EReal} {b1 : Fin 64 → EReal}
    {w2 : Fin 64 → Fin 64 → EReal} {b2 g b : Fin 64 → EReal}
    (hx : ∀ r a, IsReal (x r a)) (hagg : ∀ r a, IsReal (agg r a)) (hw1 : ∀ k a, IsReal (w1 k a)) (hb1 : ∀ k, IsReal (b1 k))
    (hw2 : ∀ j k, IsReal (w2 j k)) (hb2 : ∀ j, IsReal (b2 j)) (hg : ∀ j, IsReal (g j)) (hb : ∀ j, IsReal (b j)) :
    ∀ r j, IsReal (layerR C x agg w1 b1 w2 b2 g b r j) := by
  intro r j
  have hn := node_isReal C hx hagg hw1 hb1 hw2 hb2
  obtain ⟨v, hv0, hv⟩ := varR_real hn j
  have hrs : IsReal (Ideal.rsqrt (varR (node C x agg w1 b1 w2 b2) j + eps)) := by
    rw [hv, eps_eq, ← EReal.coe_add]
    exact rsqrt_isReal (add_pos_of_nonneg_of_pos hv0 (by norm_num))
  unfold layerR bn relu
  exact IsReal.max (IsReal.add (IsReal.mul (IsReal.mul (IsReal.sub (hn r j) (colMean_isReal hn j)) hrs) (hg j)) (hb j))
    IsReal.zero

end Gnn

end
-- ==== Proof.KStats.lean ====
import proofs.«406622_j66486093742154_3_alg».proof.Proof.Spec
import proofs.«406622_j66486093742154_3_alg».proof.Proof.SpecMath
import Idealize.ShloMosaic.Lib.IdealHost
import Idealize.ShloMosaic.Lib.ValueLayout

noncomputable section

namespace Gnn

open Idealize.ShloMosaic Idealize.ShloMosaic.ValueIdx

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem reduce01_apply (h : (⟨3, ![10, 8, 64]⟩ : Shape).ReducesTo [0, 1] ⟨1, ![64]⟩)
    (x : (⟨3, ![10, 8, 64]⟩ : Shape).Idx → EReal) (init : EReal) (j : Fin 64) :
    Ideal.hostReduceAdd h x init (ix1 j) = init + ∑ t : Fin 10, ∑ s : Fin 8, x (ix3 t s j) := by
  unfold Ideal.hostReduceAdd
  congr 1
  rw [Finset.sum_filter, sum_idx3]
  refine Finset.sum_congr rfl fun t _ => Finset.sum_congr rfl fun s _ => ?_
  have hd : ∀ k : Fin 64, (h.drop (ix3 t s k) = ix1 j) ↔ k = j := by
    intro k
    have h2 : (h.drop (ix3 t s k) 0 : Nat) = k.val := Shape.ReducesTo.drop_apply_val_of_eq h (ix3 t s k) 0 2
    constructor
    · intro e
      have e0 : (h.drop (ix3 t s k) 0 : Nat) = ((ix1 j : (⟨1, ![64]⟩ : Shape).Idx) 0 : Nat) := by rw [e]
      exact Fin.ext (h2.symm.trans e0)
    · rintro rfl
      funext b
      match b with
      | ⟨0, _⟩ => exact Fin.ext h2
  simp only [hd, Finset.sum_ite_eq', Finset.mem_univ, if_true]

section Stats

variable (ps pq : (⟨3, ![10, 8, 64]⟩ : Shape).Idx → EReal) (N : Fin 100000 → Fin 64 → EReal)
  (hps : ∀ t s j, ps (ix3 t s j) = ∑ g : Fin 1250, N (row t g s) j)
  (hpq : ∀ t s j, pq (ix3 t s j) = ∑ g : Fin 1250, N (row t g s) j * N (row t g s) j)
  (h : (⟨3, ![10, 8, 64]⟩ : Shape).ReducesTo [0, 1] ⟨1, ![64]⟩) (hu : 0 < (⟨0, ![]⟩ : Shape).numel)
  (hb : (⟨0, ![]⟩ : Shape).BroadcastsInDim ⟨1, ![64]⟩ ![])

abbrev meanVec : (⟨1, ![64]⟩ : Shape).Idx → EReal :=
  Host.divf (F := Ideal) (φ := .f32) (Host.reduceAdd (F := Ideal) (φ := .f32) ps (constant (F := Ideal) ⟨0, ![]⟩ .f32 0x00000000#32) h hu)
    (broadcastInDim ⟨1, ![64]⟩ ![] hb (constant (F := Ideal) ⟨0, ![]⟩ .f32 0x47C35000#32))

include hps in

theorem meanVec_apply (j : Fin 64) : meanVec ps h hu hb (ix1 j) = colMean N j := by
  unfold colMean
  show Host.divf (F := Ideal) (φ := .f32) _ _ (ix1 j) = _
  rw [hostDivf_apply, hostReduceAdd_apply, broadcastInDim_scalar_apply, constant_apply, constant_apply, reduce01_apply,
    Ideal.ofBits_zero_f32, zero_add]
  simp only [hps]
  rw [sum_rows (fun r => N r j)]

abbrev rstdVec : (⟨1, ![64]⟩ : Shape).Idx → EReal :=
  Host.rsqrt (F := Ideal) (φ := .f32)
    (addf (F := Ideal) (φ := .f32)
      (maximumf (F := Ideal) (φ := .f32)
        (subf (F := Ideal) (φ := .f32) (meanVec pq h hu hb) (mulf (F := Ideal) (φ := .f32) (meanVec ps h hu hb) (meanVec ps h hu hb)))
        (broadcastInDim ⟨1, ![64]⟩ ![] hb (constant (F := Ideal) ⟨0, ![]⟩ .f32 0x00000000#32)))
      (broadcastInDim ⟨1, ![64]⟩ ![] hb (constant (F := Ideal) ⟨0, ![]⟩ .f32 0x3727C5AC#32)))

include hps hpq in

theorem rstdVec_apply (j : Fin 64) : rstdVec ps pq h hu hb (ix1 j) = Ideal.rsqrt (varK N j + eps) := by
  unfold varK
  rw [← meanVec_apply ps N hps h hu hb j]
  have hq : meanVec pq h hu hb (ix1 j) = Ideal.div (∑ r, N r j * N r j) nTot := by
    show Host.divf (F := Ideal) (φ := .f32) _ _ (ix1 j) = _
    rw [hostDivf_apply, hostReduceAdd_apply, broadcastInDim_scalar_apply, constant_apply, constant_apply, reduce01_apply,
      Ideal.ofBits_zero_f32, zero_add]
    simp only [hpq]
    rw [sum_rows (fun r => N r j * N r j)]
  rw [← hq]
  show Ideal.rsqrt (max (meanVec pq h hu hb (ix1 j) - meanVec ps h hu hb (ix1 j) * meanVec ps h hu hb (ix1 j))
    (broadcastInDim ⟨1, ![64]⟩ ![] hb (constant (F := Ideal) ⟨0, ![]⟩ .f32 0x00000000#32) (ix1 j))
      + broadcastInDim ⟨1, ![64]⟩ ![] hb (constant (F := Ideal) ⟨0, ![]⟩ .f32 0x3727C5AC#32) (ix1 j)) = _
  rw [broadcastInDim_scalar_apply, broadcastInDim_scalar_apply, constant_apply, constant_apply, Ideal.ofBits_zero_f32]

end Stats

end Gnn

end
-- ==== Proof.SliceRead.lean ====
import Idealize.ShloMosaic.Lib.Pipeline.Value
import Idealize.ShloMosaic.Lib.ValueLayout

namespace Gnn

open Idealize.ShloMosaic Idealize.ShloMosaic.ValueIdx

-- Row k of a [3,64,64] stack, sliced out and reshaped to [64,64], is the stack at (k, ·, ·).
theorem mat_slice (off : Fin 3 → ℕ) (k : Fin 3) (hk : off = ![k.val, 0, 0]) (A : (⟨3, ![3, 64, 64]⟩ : Shape).Idx → EReal)
    (hs : (⟨3, ![3, 64, 64]⟩ : Shape).Slices off ⟨3, ![1, 64, 64]⟩) (hc : (⟨3, ![1, 64, 64]⟩ : Shape).ShapeCasts ⟨2, ![64, 64]⟩)
    (o a : Fin 64) : shapeCast ⟨2, ![64, 64]⟩ (extractStridedSlice ⟨3, ![1, 64, 64]⟩ off A hs) hc (ix2 o a) = A (ix3 k o a) := by
  subst hk
  refine (shapeCast_1ab_ab_apply _ _ o a).trans ?_
  exact extractStridedSlice_apply _ _ _ _ (ix3 k o a) (fun ax => match ax with
    | ⟨0, _⟩ => by show k.val = k.val + 0; omega
    | ⟨1, _⟩ => by show o.val = 0 + o.val; omega
    | ⟨2, _⟩ => by show a.val = 0 + a.val; omega)

-- Row k of an [n,64] stack, sliced out and reshaped to [64], is the stack at (k, ·).
theorem row_slice {n : ℕ} (off : Fin 2 → ℕ) (k : Fin n) (hk : off = ![k.val, 0]) (A : (⟨2, ![n, 64]⟩ : Shape).Idx → EReal)
    (hs : (⟨2, ![n, 64]⟩ : Shape).Slices off ⟨2, ![1, 64]⟩) (hc : (⟨2, ![1, 64]⟩ : Shape).ShapeCasts ⟨1, ![64]⟩)
    (o : Fin 64) : shapeCast ⟨1, ![64]⟩ (extractStridedSlice ⟨2, ![1, 64]⟩ off A hs) hc (ix1 o) = A (ix2 k o) := by
  subst hk
  refine (shapeCast_1a_a_apply _ _ o).trans ?_
  exact extractStridedSlice_apply _ _ _ _ (ix2 k o) (fun ax => match ax with
    | ⟨0, _⟩ => by show k.val = k.val + 0; omega
    | ⟨1, _⟩ => by show o.val = 0 + o.val; omega)

end Gnn
-- ==== Proof.RegionNode2.lean ====
import proofs.«406622_j66486093742154_3_alg».proof.Proof.Gen.KernelIdeal.Frame
import proofs.«406622_j66486093742154_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.ShloMosaic.ValueIdx
open Idealize.ShloMosaic.Pipeline (Dat)

abbrev N2 (V : (c : Dev nD) → (b : Ref sig .tc) → Buf (Elt Ideal) ((c : Thread nD τ).loc b)) (c : Dev nD) :
    Fin 100000 → Fin 64 → EReal :=
  Gnn.node 64 (Gnn.hat2 (V c main_v39 : S100000x64.Idx → EReal)) (Gnn.hat2 (V c main_v66 : S100000x64.Idx → EReal))
    (Gnn.hat2 (V c main_v45 : S64x64.Idx → EReal)) (Gnn.hatRow (V c main_v67 : S1x64.Idx → EReal))
    (Gnn.hat2 (V c main_v49 : S64x64.Idx → EReal)) (Gnn.hatRow (V c main_v68 : S1x64.Idx → EReal))

namespace R2

theorem lhs_dot64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dot64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_dot64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_dot64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem matmul64_apply {φ₁ φ₂ : FTy} (A : FVec Ideal S10000x64 φ₁) (B : FVec Ideal S64x64 φ₂) (p : Fin 10000) (j : Fin 64) :
    matmul dot_S10000x64_S64x64_S10000x64_1_0_0_1_n_n none A B (constant (F := Ideal) S10000x64 .f32 0x00000000#32) (ix2 p j)
      = ∑ k : Fin 64, A (ix2 p k) * B (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k := funext fun a => Fin.ext (by
    match a with
    | ⟨0, _⟩ => exact lhs_dot64_0 _ _
    | ⟨1, _⟩ => exact (lhs_dot64_1 _ _).trans hk)
  have er : dot_S10000x64_S64x64_S10000x64_1_0_0_1_n_n.rhsIdx (ix2 p j) ((contrEquiv1 dot_S10000x64_S64x64_S10000x64_1_0_0_1_n_n 64 rfl rfl).symm k) = ix2 k j := funext fun a => Fin.ext (by
    match a with
    | ⟨0, _⟩ => exact (rhs_dot64_0 _ _).trans hk
    | ⟨1, _⟩ => exact rhs_dot64_1 _ _)
  rw [el, er]

theorem transpose64_apply {α : Type} (W : S64x64.Idx → α) (k j : Fin 64) :
    transpose S64x64 [1, 0] W transposes_S64x64_p1_0_S64x64 (ix2 k j) = W (ix2 j k) :=
  transpose_apply [1, 0] W transposes_S64x64_p1_0_S64x64 (ix2 k j) (ix2 j k) (fun b => match b with
    | ⟨0, _⟩ => rfl
    | ⟨1, _⟩ => rfl)

theorem bcastRow_apply {α : Type} (b : S1x64.Idx → α) (p : Fin 10000) (j : Fin 64) :
    broadcastTo S10000x64 b broadcasts_S1x64_S10000x64 (ix2 p j) = b (ix2 0 j) :=
  broadcastTo_apply b broadcasts_S1x64_S10000x64 (ix2 p j) (ix2 0 j) (fun a => match a with
    | ⟨0, _⟩ => rfl
    | ⟨1, _⟩ => rfl)

theorem layer64_apply (A : FVec Ideal S10000x64 .f32) (W : Vec Ideal S64x64 .f32) (b : Vec Ideal S1x64 .f32)
    (p : Fin 10000) (j : Fin 64) :
    maximumf (addf (matmul dot_S10000x64_S64x64_S10000x64_1_0_0_1_n_n none (truncf .bf16 A bitsLt_bf16_f32)
        (transpose S64x64 [1, 0] (truncf .bf16 W bitsLt_bf16_f32) transposes_S64x64_p1_0_S64x64)
        (constant (F := Ideal) S10000x64 .f32 0x00000000#32)) (broadcastTo S10000x64 b broadcasts_S1x64_S10000x64))
      (broadcast S10000x64 (Scalar.ofBits (F := Ideal) .f32 0x00000000#32)) (ix2 p j)
      = max ((∑ k : Fin 64, A (ix2 p k) * W (ix2 j k)) + b (ix2 0 j)) 0 := by
  rw [maximumf_apply, addf_apply, matmul64_apply, bcastRow_apply, broadcast_apply]
  have e : ∀ k : Fin 64, (truncf .bf16 A bitsLt_bf16_f32 : FVec Ideal S10000x64 .bf16) (ix2 p k)
      * transpose S64x64 [1, 0] (truncf .bf16 W bitsLt_bf16_f32 : FVec Ideal S64x64 .bf16) transposes_S64x64_p1_0_S64x64 (ix2 k j)
      = A (ix2 p k) * W (ix2 j k) := fun k => by rw [transpose64_apply]; rfl
  rw [Finset.sum_congr rfl fun k _ => e k]
  show max _ (Ideal.ofBits .f32 0x00000000#32) = _
  rw [Ideal.ofBits_zero_f32]

theorem pay2_apply (x agg : Vec Ideal S10000x64 .f32) (w1 : Vec Ideal S64x64 .f32) (b1 : Vec Ideal S1x64 .f32)
    (w2 : Vec Ideal S64x64 .f32) (b2 : Vec Ideal S1x64 .f32) (p : Fin 10000) (j : Fin 64) :
    k2_pay2 x agg w1 b1 w2 b2 (ix2 p j)
      = max ((∑ k : Fin 64, max ((∑ a : Fin 64, (Ideal.ofBits .f32 0x3F800000#32 * x (ix2 p a) + agg (ix2 p a)) * w1 (ix2 k a)) + b1 (ix2 0 k)) 0
          * w2 (ix2 j k)) + b2 (ix2 0 j)) 0 := by
  unfold k2_pay2
  simp only [shapeCast_self]
  rw [layer64_apply]
  refine congrArg (fun z => max (z + b2 (ix2 0 j)) 0) (Finset.sum_congr rfl fun k _ => ?_)
  rw [layer64_apply]
  rfl

theorem pay3_apply (x agg : Vec Ideal S10000x64 .f32) (w1 : Vec Ideal S64x64 .f32) (b1 : Vec Ideal S1x64 .f32)
    (w2 : Vec Ideal S64x64 .f32) (b2 : Vec Ideal S1x64 .f32) (g : Fin 1250) (s : Fin 8) (j : Fin 64) :
    k2_pay3 x agg w1 b1 w2 b2 (ix3 g s j) = k2_pay2 x agg w1 b1 w2 b2 (ix2 ⟨g.val * 8 + s.val, by omega⟩ j) := by
  unfold k2_pay3
  exact shapeCast_apply _ shapeCasts_S10000x64_S1250x8x64 (ix3 g s j) (ix2 ⟨g.val * 8 + s.val, by omega⟩ j) (by
    rw [Shape.rowMajor_val_two, Shape.rowMajor_val_three]; rfl)

theorem sumGroups_apply (v : FVec Ideal S1250x8x64 .f32) (s : Fin 8) (j : Fin 64) :
    shapeCast S1x8x64 (multiReduction (F := Ideal) .add [0] S8x64 v 0x00000000#32 reduces_S1250x8x64_S8x64 (.inl rfl) rfl)
      shapeCasts_S8x64_S1x8x64 (ix3 0 s j) = ∑ g : Fin 1250, v (ix3 g s j) := by
  rw [shapeCast_apply _ shapeCasts_S8x64_S1x8x64 (ix3 0 s j) (ix2 s j) (by
    rw [Shape.rowMajor_val_two, Shape.rowMajor_val_three]; show s.val * 64 + j.val = (0 * 8 + s.val) * 64 + j.val; omega)]
  refine (Ideal.multiReduction_add_single v 0x00000000#32 reduces_S1250x8x64_S8x64 (.inl rfl) rfl (ix2 s j)).trans ?_
  refine Finset.sum_congr rfl fun g _ => congrArg v (funext fun a => Fin.ext ?_)
  match a with
  | ⟨0, _⟩ => rfl
  | ⟨1, _⟩ => rfl
  | ⟨2, _⟩ => rfl

theorem pay4_apply (x agg : Vec Ideal S10000x64 .f32) (w1 : Vec Ideal S64x64 .f32) (b1 : Vec Ideal S1x64 .f32)
    (w2 : Vec Ideal S64x64 .f32) (b2 : Vec Ideal S1x64 .f32) (s : Fin 8) (j : Fin 64) :
    k2_pay4 x agg w1 b1 w2 b2 (ix3 0 s j) = ∑ g : Fin 1250, k2_pay3 x agg w1 b1 w2 b2 (ix3 g s j) := by
  unfold k2_pay4
  exact sumGroups_apply _ s j

theorem pay1_apply (v : FVec Ideal S1250x8x64 .f32) (s : Fin 8) (j : Fin 64) :
    k2_pay1 v (ix3 0 s j) = ∑ g : Fin 1250, v (ix3 g s j) * v (ix3 g s j) := by
  unfold k2_pay1
  exact sumGroups_apply _ s j

section Point
variable (x agg : Vec Ideal S10000x64 .f32) (w1 : Vec Ideal S64x64 .f32) (b1 : Vec Ideal S1x64 .f32)
  (w2 : Vec Ideal S64x64 .f32) (b2 : Vec Ideal S1x64 .f32) (X AGG : S100000x64.Idx → EReal) (t : Fin 10)
  (hx : ∀ (p : Fin 10000) (a : Fin 64), x (ix2 p a) = X (ix2 (⟨t.val * 10000 + p.val, by omega⟩ : Fin 100000) a))
  (hagg : ∀ (p : Fin 10000) (a : Fin 64), agg (ix2 p a) = AGG (ix2 (⟨t.val * 10000 + p.val, by omega⟩ : Fin 100000) a))
include hx hagg

theorem pay2_node (p : Fin 10000) (j : Fin 64) :
    k2_pay2 x agg w1 b1 w2 b2 (ix2 p j)
      = Gnn.node 64 (Gnn.hat2 X) (Gnn.hat2 AGG) (Gnn.hat2 w1) (Gnn.hatRow b1) (Gnn.hat2 w2) (Gnn.hatRow b2)
          ⟨t.val * 10000 + p.val, by omega⟩ j := by
  rw [pay2_apply]
  unfold Gnn.node Gnn.relu
  refine congrArg (fun z => max (z + b2 (ix2 0 j)) 0) (Finset.sum_congr rfl fun k _ => ?_)
  refine congrArg (fun z => max (z + b1 (ix2 0 k)) 0 * w2 (ix2 j k)) (Finset.sum_congr rfl fun a _ => ?_)
  rw [hx p a, hagg p a]

theorem pay4_node (s : Fin 8) (j : Fin 64) :
    k2_pay4 x agg w1 b1 w2 b2 (ix3 0 s j)
      = ∑ g : Fin 1250, Gnn.node 64 (Gnn.hat2 X) (Gnn.hat2 AGG) (Gnn.hat2 w1) (Gnn.hatRow b1) (Gnn.hat2 w2) (Gnn.hatRow b2)
          (Gnn.row t g s) j := by
  rw [pay4_apply]
  refine Finset.sum_congr rfl fun g _ => ?_
  rw [pay3_apply, pay2_node x agg w1 b1 w2 b2 X AGG t hx hagg]
  refine congrArg (fun r => Gnn.node 64 (Gnn.hat2 X) (Gnn.hat2 AGG) (Gnn.hat2 w1) (Gnn.hatRow b1) (Gnn.hat2 w2) (Gnn.hatRow b2) r j) (Fin.ext ?_)
  show t.val * 10000 + (g.val * 8 + s.val) = t.val * 10000 + g.val * 8 + s.val
  omega

theorem pay1_node (s : Fin 8) (j : Fin 64) :
    k2_pay1 (k2_pay3 x agg w1 b1 w2 b2) (ix3 0 s j)
      = ∑ g : Fin 1250, Gnn.node 64 (Gnn.hat2 X) (Gnn.hat2 AGG) (Gnn.hat2 w1) (Gnn.hatRow b1) (Gnn.hat2 w2) (Gnn.hatRow b2)
            (Gnn.row t g s) j
          * Gnn.node 64 (Gnn.hat2 X) (Gnn.hat2 AGG) (Gnn.hat2 w1) (Gnn.hatRow b1) (Gnn.hat2 w2) (Gnn.hatRow b2)
            (Gnn.row t g s) j := by
  rw [pay1_apply]
  refine Finset.sum_congr rfl fun g _ => ?_
  have e : k2_pay3 x agg w1 b1 w2 b2 (ix3 g s j)
      = Gnn.node 64 (Gnn.hat2 X) (Gnn.hat2 AGG) (Gnn.hat2 w1) (Gnn.hatRow b1) (Gnn.hat2 w2) (Gnn.hatRow b2) (Gnn.row t g s) j := by
    rw [pay3_apply, pay2_node x agg w1 b1 w2 b2 X AGG t hx hagg]
    refine congrArg (fun r => Gnn.node 64 (Gnn.hat2 X) (Gnn.hat2 AGG) (Gnn.hat2 w1) (Gnn.hatRow b1) (Gnn.hat2 w2) (Gnn.hatRow b2) r j) (Fin.ext ?_)
    show t.val * 10000 + (g.val * 8 + s.val) = t.val * 10000 + g.val * 8 + s.val
    omega
  rw [e]

end Point

section Blocks
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0
    ∧ win2_8.index t (0 : Fin 3) = t.val ∧ win2_8.index t (1 : Fin 3) = 0 ∧ win2_8.index t (2 : Fin 3) = 0 :=
  (by decide +kernel : ∀ t : Fin grid2.N, _)

theorem xblk (c : Dev nD) (t : Fin cfg2.N) (p : Fin 10000) (a : Fin 64) (k : S100000x64.Idx)
    (hk0 : (k 0).val = t.val * 10000 + p.val) (hk1 : (k 1).val = a.val) :
    (iblk2 V c 0 t : Vec Ideal S10000x64 .f32) (ix2 p a) = (V c main_v39 : S100000x64.Idx → EReal) k := by
  obtain ⟨e0, e1, -⟩ := idx_facts t
  unfold iblk2
  rw [View.read_apply]
  show V c main_v39 _ = V c main_v39 k
  congr 1
  funext b
  apply Fin.ext
  match b with
  | ⟨0, _⟩ => show win2_0.index t (0 : Fin 2) * 10000 + 1 * p.val = (k 0).val; rw [e0, hk0]; omega
  | ⟨1, _⟩ => show win2_0.index t (1 : Fin 2) * 64 + 1 * a.val = (k 1).val; rw [e1, hk1]; omega

theorem aggblk (c : Dev nD) (t : Fin cfg2.N) (p : Fin 10000) (a : Fin 64) (k : S100000x64.Idx)
    (hk0 : (k 0).val = t.val * 10000 + p.val) (hk1 : (k 1).val = a.val) :
    (iblk2 V c 1 t : Vec Ideal S10000x64 .f32) (ix2 p a) = (V c main_v66 : S100000x64.Idx → EReal) k := by
  obtain ⟨-, -, e0, e1, -⟩ := idx_facts t
  unfold iblk2
  rw [View.read_apply]
  show V c main_v66 _ = V c main_v66 k
  congr 1
  funext b
  apply Fin.ext
  match b with
  | ⟨0, _⟩ => show win2_1.index t (0 : Fin 2) * 10000 + 1 * p.val = (k 0).val; rw [e0, hk0]; omega
  | ⟨1, _⟩ => show win2_1.index t (1 : Fin 2) * 64 + 1 * a.val = (k 1).val; rw [e1, hk1]; omega

theorem w1blk (c : Dev nD) (t : Fin cfg2.N) :
    (iblk2 V c 2 t : Vec Ideal S64x64 .f32) = (V c main_v45 : S64x64.Idx → EReal) := by
  obtain ⟨-, -, -, -, e0, e1, -⟩ := idx_facts t
  funext y
  unfold iblk2
  rw [View.read_apply]
  show V c main_v45 _ = V c main_v45 y
  congr 1
  funext b
  apply Fin.ext
  match b with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

theorem b1blk (c : Dev nD) (t : Fin cfg2.N) :
    (iblk2 V c 3 t : Vec Ideal S1x64 .f32) = (V c main_v67 : S1x64.Idx → EReal) := by
  obtain ⟨-, -, -, -, -, -, e0, e1, -⟩ := idx_facts t
  funext y
  unfold iblk2
  rw [View.read_apply]
  show V c main_v67 _ = V c main_v67 y
  congr 1
  funext b
  apply Fin.ext
  match b with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

theorem w2blk (c : Dev nD) (t : Fin cfg2.N) :
    (iblk2 V c 4 t : Vec Ideal S64x64 .f32) = (V c main_v49 : S64x64.Idx → EReal) := by
  obtain ⟨-, -, -, -, -, -, -, -, e0, e1, -⟩ := idx_facts t
  funext y
  unfold iblk2
  rw [View.read_apply]
  show V c main_v49 _ = V c main_v49 y
  congr 1
  funext b
  apply Fin.ext
  match b with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

theorem b2blk (c : Dev nD) (t : Fin cfg2.N) :
    (iblk2 V c 5 t : Vec Ideal S1x64 .f32) = (V c main_v68 : S1x64.Idx → EReal) := by
  obtain ⟨-, -, -, -, -, -, -, -, -, -, e0, e1, -⟩ := idx_facts t
  funext y
  unfold iblk2
  rw [View.read_apply]
  show V c main_v68 _ = V c main_v68 y
  congr 1
  funext b
  apply Fin.ext
  match b with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

abbrev G6 (c : Dev nD) : S100000x64.Idx → EReal := Gnn.arr2 (N2 V c)
abbrev G7 (c : Dev nD) : S10x8x64.Idx → EReal := fun i => ∑ g : Fin 1250, N2 V c (Gnn.row (i 0) g (i 1)) (i 2)
abbrev G8 (c : Dev nD) : S10x8x64.Idx → EReal :=
  fun i => ∑ g : Fin 1250, N2 V c (Gnn.row (i 0) g (i 1)) (i 2) * N2 V c (Gnn.row (i 0) g (i 1)) (i 2)

theorem point6 (c : Dev nD) (t : Fin cfg2.N) (y : S10000x64.Idx) (i : S100000x64.Idx)
    (hi0 : (i 0).val = t.val * 10000 + (y 0).val) (hi1 : (i 1).val = (y 1).val) :
    k2_pay2 (iblk2 V c 0 t) (iblk2 V c 1 t) (V c main_v45 : S64x64.Idx → EReal) (V c main_v67 : S1x64.Idx → EReal)
      (V c main_v49 : S64x64.Idx → EReal) (V c main_v68 : S1x64.Idx → EReal) y = G6 V c i := by
  have ht : t.val < 10 := lt_of_lt_of_eq t.isLt N_2
  obtain ⟨p, q, rfl⟩ : ∃ (p : Fin 10000) (q : Fin 64), y = ix2 p q := ⟨y 0, y 1, eq_ix2 y⟩
  have hb : t.val * 10000 + p.val < 100000 := by clear hi0 hi1; omega
  obtain ⟨r, j, rfl⟩ : ∃ (r : Fin 100000) (j : Fin 64), i = ix2 r j := ⟨i 0, i 1, eq_ix2 i⟩
  obtain rfl : r = ⟨t.val * 10000 + p.val, hb⟩ := Fin.ext hi0
  obtain rfl : j = q := Fin.ext hi1
  exact pay2_node (iblk2 V c 0 t) (iblk2 V c 1 t) _ _ _ _ (V c main_v39 : S100000x64.Idx → EReal)
    (V c main_v66 : S100000x64.Idx → EReal) ⟨t.val, ht⟩ (fun p a => xblk V c t p a _ rfl rfl)
    (fun p a => aggblk V c t p a _ rfl rfl) _ _

theorem point7 (c : Dev nD) (t : Fin cfg2.N) (y : S1x8x64.Idx) (i : S10x8x64.Idx)
    (hi0 : (i 0).val = t.val) (hi1 : (i 1).val = (y 1).val) (hi2 : (i 2).val = (y 2).val) :
    k2_pay4 (iblk2 V c 0 t) (iblk2 V c 1 t) (V c main_v45 : S64x64.Idx → EReal) (V c main_v67 : S1x64.Idx → EReal)
      (V c main_v49 : S64x64.Idx → EReal) (V c main_v68 : S1x64.Idx → EReal) y = G7 V c i := by
  have ht : t.val < 10 := lt_of_lt_of_eq t.isLt N_2
  obtain ⟨z, s, q, rfl⟩ : ∃ (z : Fin 1) (s : Fin 8) (q : Fin 64), y = ix3 z s q := ⟨y 0, y 1, y 2, eq_ix3 y⟩
  obtain rfl : z = 0 := Subsingleton.elim _ _
  obtain ⟨u, s', j, rfl⟩ : ∃ (u : Fin 10) (s' : Fin 8) (j : Fin 64), i = ix3 u s' j := ⟨i 0, i 1, i 2, eq_ix3 i⟩
  obtain rfl : u = ⟨t.val, ht⟩ := Fin.ext hi0
  obtain rfl : s' = s := Fin.ext hi1
  obtain rfl : j = q := Fin.ext hi2
  exact pay4_node (iblk2 V c 0 t) (iblk2 V c 1 t) _ _ _ _ (V c main_v39 : S100000x64.Idx → EReal)
    (V c main_v66 : S100000x64.Idx → EReal) ⟨t.val, ht⟩ (fun p a => xblk V c t p a _ rfl rfl)
    (fun p a => aggblk V c t p a _ rfl rfl) _ _

theorem point8 (c : Dev nD) (t : Fin cfg2.N) (y : S1x8x64.Idx) (i : S10x8x64.Idx)
    (hi0 : (i 0).val = t.val) (hi1 : (i 1).val = (y 1).val) (hi2 : (i 2).val = (y 2).val) :
    k2_pay1 (k2_pay3 (iblk2 V c 0 t) (iblk2 V c 1 t) (V c main_v45 : S64x64.Idx → EReal) (V c main_v67 : S1x64.Idx → EReal)
      (V c main_v49 : S64x64.Idx → EReal) (V c main_v68 : S1x64.Idx → EReal)) y = G8 V c i := by
  have ht : t.val < 10 := lt_of_lt_of_eq t.isLt N_2
  obtain ⟨z, s, q, rfl⟩ : ∃ (z : Fin 1) (s : Fin 8) (q : Fin 64), y = ix3 z s q := ⟨y 0, y 1, y 2, eq_ix3 y⟩
  obtain rfl : z = 0 := Subsingleton.elim _ _
  obtain ⟨u, s', j, rfl⟩ : ∃ (u : Fin 10) (s' : Fin 8) (j : Fin 64), i = ix3 u s' j := ⟨i 0, i 1, i 2, eq_ix3 i⟩
  obtain rfl : u = ⟨t.val, ht⟩ := Fin.ext hi0
  obtain rfl : s' = s := Fin.ext hi1
  obtain rfl : j = q := Fin.ext hi2
  exact pay1_node (iblk2 V c 0 t) (iblk2 V c 1 t) _ _ _ _ (V c main_v39 : S100000x64.Idx → EReal)
    (V c main_v66 : S100000x64.Idx → EReal) ⟨t.val, ht⟩ (fun p a => xblk V c t p a _ rfl rfl)
    (fun p a => aggblk V c t p a _ rfl rfl) _ _

theorem flushed6 (c : Dev nD) (t : Fin cfg2.N) :
    (dat2 (F := Ideal) V c).flushed 6 t = ((cfg2.win 6).blk t).view.read (Elt Ideal) (G6 V c) := by
  show (cfg2.win 6).cut (grid2.coords t) ((dat2 V c).after 6 t) = _
  rw [after2_6]
  unfold out2_6
  rw [View.canon_unit_zero hz2]
  simp only [View.ld_unit_zero (S := S10000x64) hz2, View.ld_unit_zero (S := S64x64) hz2, View.ld_unit_zero (S := S1x64) hz2]
  rw [w1blk V c t, b1blk V c t, w2blk V c t, b2blk V c t]
  obtain ⟨-, -, -, -, -, -, -, -, -, -, -, -, e0, e1, -⟩ := idx_facts t
  funext y
  refine point6 V c t y (((cfg2.win 6).blk t).view.emb y) ?_ ?_
  · show win2_6.index t (0 : Fin 2) * 10000 + 1 * (y 0).val = _; rw [e0]; omega
  · show win2_6.index t (1 : Fin 2) * 64 + 1 * (y 1).val = _; rw [e1]; omega

theorem flushed7 (c : Dev nD) (t : Fin cfg2.N) :
    (dat2 (F := Ideal) V c).flushed 7 t = ((cfg2.win 7).blk t).view.read (Elt Ideal) (G7 V c) := by
  show (cfg2.win 7).cut (grid2.coords t) ((dat2 V c).after 7 t) = _
  rw [after2_7]
  unfold out2_7
  rw [View.canon_unit_zero hz3]
  simp only [View.ld_unit_zero (S := S10000x64) hz2, View.ld_unit_zero (S := S64x64) hz2, View.ld_unit_zero (S := S1x64) hz2]
  rw [w1blk V c t, b1blk V c t, w2blk V c t, b2blk V c t]
  obtain ⟨-, -, -, -, -, -, -, -, -, -, -, -, -, -, e0, e1, e2, -⟩ := idx_facts t
  funext y
  have hy0 : (y 0).val < 1 := (y 0).isLt
  refine point7 V c t y (((cfg2.win 7).blk t).view.emb y) ?_ ?_ ?_
  · show win2_7.index t (0 : Fin 3) * 1 + 1 * (y 0).val = _; rw [e0]; omega
  · show win2_7.index t (1 : Fin 3) * 8 + 1 * (y 1).val = _; rw [e1]; omega
  · show win2_7.index t (2 : Fin 3) * 64 + 1 * (y 2).val = _; rw [e2]; omega

theorem flushed8 (c : Dev nD) (t : Fin cfg2.N) :
    (dat2 (F := Ideal) V c).flushed 8 t = ((cfg2.win 8).blk t).view.read (Elt Ideal) (G8 V c) := by
  show (cfg2.win 8).cut (grid2.coords t) ((dat2 V c).after 8 t) = _
  rw [after2_8]
  unfold out2_8
  rw [View.canon_unit_zero hz3]
  simp only [View.ld_unit_zero (S := S10000x64) hz2, View.ld_unit_zero (S := S64x64) hz2, View.ld_unit_zero (S := S1x64) hz2]
  rw [w1blk V c t, b1blk V c t, w2blk V c t, b2blk V c t]
  obtain ⟨-, -, -, -, -, -, -, -, -, -, -, -, -, -, -, -, -, e0, e1, e2⟩ := idx_facts t
  funext y
  have hy0 : (y 0).val < 1 := (y 0).isLt
  refine point8 V c t y (((cfg2.win 8).blk t).view.emb y) ?_ ?_ ?_
  · show win2_8.index t (0 : Fin 3) * 1 + 1 * (y 0).val = _; rw [e0]; omega
  · show win2_8.index t (1 : Fin 3) * 8 + 1 * (y 1).val = _; rw [e1]; omega
  · show win2_8.index t (2 : Fin 3) * 64 + 1 * (y 2).val = _; rw [e2]; omega

theorem mem_blk6 (t : Fin cfg2.N) (i : S100000x64.Idx) :
    i ∈ ((cfg2.win 6).blk t).view.set ↔ ∀ a : Fin 2, win2_6.index t a * S10000x64.size a ≤ (i a).val
      ∧ (i a).val < win2_6.index t a * S10000x64.size a + S10000x64.size a := by
  show i ∈ ((View.whole main_v69_0).slice (win2_6.rect t)).set ↔ _
  rw [View.set_slice_whole, Rect.mem_set_unit]
  exact Iff.rfl

theorem mem_blk7 (t : Fin cfg2.N) (i : S10x8x64.Idx) :
    i ∈ ((cfg2.win 7).blk t).view.set ↔ ∀ a : Fin 3, win2_7.index t a * S1x8x64.size a ≤ (i a).val
      ∧ (i a).val < win2_7.index t a * S1x8x64.size a + S1x8x64.size a := by
  show i ∈ ((View.whole main_v69_1).slice (win2_7.rect t)).set ↔ _
  rw [View.set_slice_whole, Rect.mem_set_unit]
  exact Iff.rfl

theorem mem_blk8 (t : Fin cfg2.N) (i : S10x8x64.Idx) :
    i ∈ ((cfg2.win 8).blk t).view.set ↔ ∀ a : Fin 3, win2_8.index t a * S1x8x64.size a ≤ (i a).val
      ∧ (i a).val < win2_8.index t a * S1x8x64.size a + S1x8x64.size a := by
  show i ∈ ((View.whole main_v69_2).slice (win2_8.rect t)).set ↔ _
  rw [View.set_slice_whole, Rect.mem_set_unit]
  exact Iff.rfl

theorem cover6 (i : S100000x64.Idx) : ∃ t : Fin cfg2.N, (cfg2.win 6).flush t = true ∧ i ∈ ((cfg2.win 6).blk t).view.set := by
  have h0 : (i 0).val < 100000 := (i 0).isLt
  have h1 : (i 1).val < 64 := (i 1).isLt
  obtain ⟨t, ht⟩ : ∃ t : Fin cfg2.N, t.val = (i 0).val / 10000 :=
    ⟨⟨(i 0).val / 10000, lt_of_lt_of_eq (by omega) N_2.symm⟩, rfl⟩
  obtain ⟨-, -, -, -, -, -, -, -, -, -, -, -, e0, e1, -⟩ := idx_facts t
  refine ⟨t, flush2_6 t, ?_⟩
  rw [mem_blk6]
  intro a
  match a with
  | ⟨0, _⟩ => show win2_6.index t (0 : Fin 2) * 10000 ≤ (i 0).val ∧ (i 0).val < win2_6.index t (0 : Fin 2) * 10000 + 10000; rw [e0, ht]; omega
  | ⟨1, _⟩ => show win2_6.index t (1 : Fin 2) * 64 ≤ (i 1).val ∧ (i 1).val < win2_6.index t (1 : Fin 2) * 64 + 64; rw [e1]; omega

theorem cover7 (i : S10x8x64.Idx) : ∃ t : Fin cfg2.N, (cfg2.win 7).flush t = true ∧ i ∈ ((cfg2.win 7).blk t).view.set := by
  have h0 : (i 0).val < 10 := (i 0).isLt
  have h1 : (i 1).val < 8 := (i 1).isLt
  have h2 : (i 2).val < 64 := (i 2).isLt
  obtain ⟨t, ht⟩ : ∃ t : Fin cfg2.N, t.val = (i 0).val := ⟨⟨(i 0).val, lt_of_lt_of_eq h0 N_2.symm⟩, rfl⟩
  obtain ⟨-, -, -, -, -, -, -, -, -, -, -, -, -, -, e0, e1, e2, -⟩ := idx_facts t
  refine ⟨t, flush2_7 t, ?_⟩
  rw [mem_blk7]
  intro a
  match a with
  | ⟨0, _⟩ => show win2_7.index t (0 : Fin 3) * 1 ≤ (i 0).val ∧ (i 0).val < win2_7.index t (0 : Fin 3) * 1 + 1; rw [e0, ht]; omega
  | ⟨1, _⟩ => show win2_7.index t (1 : Fin 3) * 8 ≤ (i 1).val ∧ (i 1).val < win2_7.index t (1 : Fin 3) * 8 + 8; rw [e1]; omega
  | ⟨2, _⟩ => show win2_7.index t (2 : Fin 3) * 64 ≤ (i 2).val ∧ (i 2).val < win2_7.index t (2 : Fin 3) * 64 + 64; rw [e2]; omega

theorem cover8 (i : S10x8x64.Idx) : ∃ t : Fin cfg2.N, (cfg2.win 8).flush t = true ∧ i ∈ ((cfg2.win 8).blk t).view.set := by
  have h0 : (i 0).val < 10 := (i 0).isLt
  have h1 : (i 1).val < 8 := (i 1).isLt
  have h2 : (i 2).val < 64 := (i 2).isLt
  obtain ⟨t, ht⟩ : ∃ t : Fin cfg2.N, t.val = (i 0).val := ⟨⟨(i 0).val, lt_of_lt_of_eq h0 N_2.symm⟩, rfl⟩
  obtain ⟨-, -, -, -, -, -, -, -, -, -, -, -, -, -, -, -, -, e0, e1, e2⟩ := idx_facts t
  refine ⟨t, flush2_8 t, ?_⟩
  rw [mem_blk8]
  intro a
  match a with
  | ⟨0, _⟩ => show win2_8.index t (0 : Fin 3) * 1 ≤ (i 0).val ∧ (i 0).val < win2_8.index t (0 : Fin 3) * 1 + 1; rw [e0, ht]; omega
  | ⟨1, _⟩ => show win2_8.index t (1 : Fin 3) * 8 ≤ (i 1).val ∧ (i 1).val < win2_8.index t (1 : Fin 3) * 8 + 8; rw [e1]; omega
  | ⟨2, _⟩ => show win2_8.index t (2 : Fin 3) * 64 ≤ (i 2).val ∧ (i 2).val < win2_8.index t (2 : Fin 3) * 64 + 64; rw [e2]; omega

theorem arr6 (c : Dev nD) : (dat2 (F := Ideal) V c).arrAt 6 cfg2.N = G6 V c :=
  (dat2 V c).arrAt_eq_of_cover 6 (G6 V c) (fun t _ => flushed6 V c t) cover6

theorem arr7 (c : Dev nD) : (dat2 (F := Ideal) V c).arrAt 7 cfg2.N = G7 V c :=
  (dat2 V c).arrAt_eq_of_cover 7 (G7 V c) (fun t _ => flushed7 V c t) cover7

theorem arr8 (c : Dev nD) : (dat2 (F := Ideal) V c).arrAt 8 cfg2.N = G8 V c :=
  (dat2 V c).arrAt_eq_of_cover 8 (G8 V c) (fun t _ => flushed8 V c t) cover8

end Blocks

end R2

variable (V : (c : Dev nD) → (b : Ref sig .tc) → Buf (Elt Ideal) ((c : Thread nD τ).loc b))

theorem hmlp2 (c : Dev nD) (r : Fin 100000) (j : Fin 64) :
    ((dat2 (F := Ideal) V c).arrAt 6 cfg2.N : S100000x64.Idx → EReal) (ix2 r j) = N2 V c r j := by
  rw [R2.arr6 V c]

theorem psum2 (c : Dev nD) (t : Fin 10) (s : Fin 8) (j : Fin 64) :
    ((dat2 (F := Ideal) V c).arrAt 7 cfg2.N : S10x8x64.Idx → EReal) (ix3 t s j) = ∑ g : Fin 1250, N2 V c (Gnn.row t g s) j := by
  rw [R2.arr7 V c]

theorem psumsq2 (c : Dev nD) (t : Fin 10) (s : Fin 8) (j : Fin 64) :
    ((dat2 (F := Ideal) V c).arrAt 8 cfg2.N : S10x8x64.Idx → EReal) (ix3 t s j)
      = ∑ g : Fin 1250, N2 V c (Gnn.row t g s) j * N2 V c (Gnn.row t g s) j := by
  rw [R2.arr8 V c]

end Cert.KernelIdeal.RegionVal

end
-- ==== Proof.RegionBn1.lean ====
import proofs.«406622_j66486093742154_3_alg».proof.Proof.Gen.KernelIdeal.Frame
import proofs.«406622_j66486093742154_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem zeroOff_R1 : (![0, 0] : Fin 2 → Nat) = fun _ => 0 :=
  funext fun a => by match a with | ⟨0, _⟩ => rfl | ⟨1, _⟩ => rfl

theorem pay_R1 (x0 : Vec Ideal S10000x64 .f32) (x1 x2 x3 x4 : Vec Ideal S1x64 .f32) (p : Fin 10000) (j : Fin 64) :
    k1_pay1 x0 x1 x2 x3 x4 (ix2 p j)
      = Gnn.relu ((x0 (ix2 p j) - x1 (ix2 (0 : Fin 1) j)) * x2 (ix2 (0 : Fin 1) j) * x3 (ix2 (0 : Fin 1) j)
          + x4 (ix2 (0 : Fin 1) j)) := by
  have e1 := broadcastTo_1b_ab_apply (a := 10000) x1 broadcasts_S1x64_S10000x64 p j
  have e2 := broadcastTo_1b_ab_apply (a := 10000) x2 broadcasts_S1x64_S10000x64 p j
  have e3 := broadcastTo_1b_ab_apply (a := 10000) x3 broadcasts_S1x64_S10000x64 p j
  have e4 := broadcastTo_1b_ab_apply (a := 10000) x4 broadcasts_S1x64_S10000x64 p j
  unfold k1_pay1
  simp only [shapeCast_self]
  show max ((x0 (ix2 p j) - broadcastTo S10000x64 x1 broadcasts_S1x64_S10000x64 (ix2 p j))
        * broadcastTo S10000x64 x2 broadcasts_S1x64_S10000x64 (ix2 p j)
        * broadcastTo S10000x64 x3 broadcasts_S1x64_S10000x64 (ix2 p j)
        + broadcastTo S10000x64 x4 broadcasts_S1x64_S10000x64 (ix2 p j)) (Ideal.ofBits .f32 0x00000000#32) = _
  rw [e1, e2, e3, e4, Ideal.ofBits_zero_f32]
  rfl

theorem idx_R1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blkH_R1 (c : Dev nD) (t : Fin cfg1.N) (p : Fin 10000) (j : Fin 64) (h : t.val * 10000 + p.val < 100000) :
    iblk1 V c 0 t (ix2 p j) = (V c main_v21_0 : S100000x64.Idx → EReal) (ix2 ⟨t.val * 10000 + p.val, h⟩ j) := by
  obtain ⟨e0, e1, -⟩ := idx_R1 t
  show (V c main_v21_0 : S100000x64.Idx → EReal) (((cfg1.win 0).blk t).view.emb (ix2 p j)) = _
  refine congrArg _ (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * j.val = j.val; omega

theorem blkRow1_R1 (c : Dev nD) (t : Fin cfg1.N) (j : Fin 64) :
    iblk1 V c 1 t (ix2 (0 : Fin 1) j) = (V c main_v35 : S1x64.Idx → EReal) (ix2 (0 : Fin 1) j) := by
  obtain ⟨-, -, e0, e1, -⟩ := idx_R1 t
  show (V c main_v35 : S1x64.Idx → EReal) (((cfg1.win 1).blk t).view.emb (ix2 (0 : Fin 1) j)) = _
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * j.val = j.val; omega

theorem blkRow2_R1 (c : Dev nD) (t : Fin cfg1.N) (j : Fin 64) :
    iblk1 V c 2 t (ix2 (0 : Fin 1) j) = (V c main_v36 : S1x64.Idx → EReal) (ix2 (0 : Fin 1) j) := by
  obtain ⟨-, -, -, -, e0, e1, -⟩ := idx_R1 t
  show (V c main_v36 : S1x64.Idx → EReal) (((cfg1.win 2).blk t).view.emb (ix2 (0 : Fin 1) j)) = _
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * j.val = j.val; omega

theorem blkRow3_R1 (c : Dev nD) (t : Fin cfg1.N) (j : Fin 64) :
    iblk1 V c 3 t (ix2 (0 : Fin 1) j) = (V c main_v37 : S1x64.Idx → EReal) (ix2 (0 : Fin 1) j) := by
  obtain ⟨-, -, -, -, -, -, e0, e1, -⟩ := idx_R1 t
  show (V c main_v37 : S1x64.Idx → EReal) (((cfg1.win 3).blk t).view.emb (ix2 (0 : Fin 1) j)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * j.val = j.val; omega

theorem blkRow4_R1 (c : Dev nD) (t : Fin cfg1.N) (j : Fin 64) :
    iblk1 V c 4 t (ix2 (0 : Fin 1) j) = (V c main_v38 : S1x64.Idx → EReal) (ix2 (0 : Fin 1) j) := by
  obtain ⟨-, -, -, -, -, -, -, -, e0, e1, -⟩ := idx_R1 t
  show (V c main_v38 : S1x64.Idx → EReal) (((cfg1.win 4).blk t).view.emb (ix2 (0 : Fin 1) j)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * j.val = j.val; omega

theorem embOut_R1 (t : Fin cfg1.N) (p : Fin 10000) (j : Fin 64) (h : t.val * 10000 + p.val < 100000) :
    ((cfg1.win 5).blk t).view.emb (ix2 p j) = (ix2 ⟨t.val * 10000 + p.val, h⟩ j : S100000x64.Idx) := by
  obtain ⟨-, -, -, -, -, -, -, -, -, -, e0, e1⟩ := idx_R1 t
  funext a; apply Fin.ext
  match a with
  | ⟨0, _⟩ => show win1_5.index t (0 : Fin 2) * 10000 + 1 * p.val = t.val * 10000 + p.val; omega
  | ⟨1, _⟩ => show win1_5.index t (1 : Fin 2) * 64 + 1 * j.val = j.val; omega

abbrev res_R1 (c : Dev nD) : S100000x64.Idx → EReal :=
  Gnn.arr2 (Gnn.bn (Gnn.hat2 (V c main_v21_0 : S100000x64.Idx → EReal)) (Gnn.hatRow (V c main_v35 : S1x64.Idx → EReal))
    (Gnn.hatRow (V c main_v36 : S1x64.Idx → EReal)) (Gnn.hatRow (V c main_v37 : S1x64.Idx → EReal))
    (Gnn.hatRow (V c main_v38 : S1x64.Idx → EReal)))

theorem flushed_R1 (c : Dev nD) (t : Fin cfg1.N) :
    (dat1 (F := Ideal) V c).flushed 5 t = ((cfg1.win 5).blk t).view.read (Elt Ideal) (res_R1 V c) := by
  have ht : t.val < 10 := lt_of_lt_of_eq t.isLt N_1
  show (cfg1.win 5).cut (grid1.coords t) ((dat1 (F := Ideal) V c).after 5 t) = _
  rw [after1_5]
  unfold out1_5
  rw [View.canon_unit_zero zeroOff_R1]
  simp only [View.ld_unit_zero (S := S10000x64) zeroOff_R1, View.ld_unit_zero (S := S1x64) zeroOff_R1]
  funext y
  obtain ⟨p, j, rfl⟩ : ∃ (p : Fin 10000) (j : Fin 64), y = ix2 p j := ⟨y 0, y 1, eq_ix2 y⟩
  have hr : t.val * 10000 + p.val < 100000 := by have := p.isLt; omega
  show k1_pay1 (iblk1 V c 0 t) (iblk1 V c 1 t) (iblk1 V c 2 t) (iblk1 V c 3 t) (iblk1 V c 4 t) (ix2 p j)
      = res_R1 V c (((cfg1.win 5).blk t).view.emb (ix2 p j))
  rw [embOut_R1 t p j hr]
  refine (pay_R1 _ _ _ _ _ p j).trans ?_
  rw [blkH_R1 V c t p j hr, blkRow1_R1 V c t j, blkRow2_R1 V c t j, blkRow3_R1 V c t j, blkRow4_R1 V c t j]
  rfl

theorem memBlk_R1 (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v39).slice (win1_5.rect t)).set ↔ _
  rw [View.set_slice_whole, Rect.mem_set_unit]
  exact Iff.rfl

theorem cover_R1 (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have hq : (i 0).val / 10000 < cfg1.N := lt_of_lt_of_eq (show (i 0).val / 10000 < 10 by omega) N_1.symm
  obtain ⟨-, -, -, -, -, -, -, -, -, -, e0, e1⟩ := idx_R1 ⟨(i 0).val / 10000, hq⟩
  have e0' : win1_5.index ⟨(i 0).val / 10000, hq⟩ (0 : Fin 2) = (i 0).val / 10000 := e0
  refine ⟨⟨(i 0).val / 10000, hq⟩, flush1_5 _, ?_⟩
  rw [memBlk_R1]
  intro a
  match a with
  | ⟨0, _⟩ =>
    show win1_5.index ⟨(i 0).val / 10000, hq⟩ (0 : Fin 2) * 10000 ≤ (i 0).val
      ∧ (i 0).val < win1_5.index ⟨(i 0).val / 10000, hq⟩ (0 : Fin 2) * 10000 + 10000
    omega
  | ⟨1, _⟩ =>
    show win1_5.index ⟨(i 0).val / 10000, hq⟩ (1 : Fin 2) * 64 ≤ (i 1).val
      ∧ (i 1).val < win1_5.index ⟨(i 0).val / 10000, hq⟩ (1 : Fin 2) * 64 + 64
    omega

theorem final_R1 (c : Dev nD) : (dat1 (F := Ideal) V c).arrAt 5 cfg1.N = res_R1 V c :=
  (dat1 (F := Ideal) V c).arrAt_eq_of_cover 5 (res_R1 V c) (fun t _ => flushed_R1 V c t) (cover_R1)

theorem bn1 (c : Dev nD) (r : Fin 100000) (j : Fin 64) :
    ((dat1 (F := Ideal) V c).arrAt 5 cfg1.N : S100000x64.Idx → EReal) (ix2 r j)
      = Gnn.bn (Gnn.hat2 (V c main_v21_0 : S100000x64.Idx → EReal)) (Gnn.hatRow (V c main_v35 : S1x64.Idx → EReal))
          (Gnn.hatRow (V c main_v36 : S1x64.Idx → EReal)) (Gnn.hatRow (V c main_v37 : S1x64.Idx → EReal))
          (Gnn.hatRow (V c main_v38 : S1x64.Idx → EReal)) r j :=
  congrFun (final_R1 V c) (ix2 r j)

end Cert.KernelIdeal.RegionVal

end
-- ==== Proof.RegionBn3.lean ====
import proofs.«406622_j66486093742154_3_alg».proof.Proof.Gen.KernelIdeal.Frame
import proofs.«406622_j66486093742154_3_alg».proof.Proof.Spec
import proofs.«406622_j66486093742154_3_alg».proof.Proof.RegionBn1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem idx_R3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem blkH_R3 (c : Dev nD) (t : Fin cfg3.N) (p : Fin 10000) (j : Fin 64) (h : t.val * 10000 + p.val < 100000) :
    iblk3 V c 0 t (ix2 p j) = (V c main_v69_0 : S100000x64.Idx → EReal) (ix2 ⟨t.val * 10000 + p.val, h⟩ j) := by
  obtain ⟨e0, e1, -⟩ := idx_R3 t
  show (V c main_v69_0 : S100000x64.Idx → EReal) (((cfg3.win 0).blk t).view.emb (ix2 p j)) = _
  refine congrArg _ (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * j.val = j.val; omega

theorem blkRow1_R3 (c : Dev nD) (t : Fin cfg3.N) (j : Fin 64) :
    iblk3 V c 1 t (ix2 (0 : Fin 1) j) = (V c main_v83 : S1x64.Idx → EReal) (ix2 (0 : Fin 1) j) := by
  obtain ⟨-, -, e0, e1, -⟩ := idx_R3 t
  show (V c main_v83 : S1x64.Idx → EReal) (((cfg3.win 1).blk t).view.emb (ix2 (0 : Fin 1) j)) = _
  refine congrArg _ (funext fun a => Fin.ext ?_)
  match a with
  | ⟨0, _⟩ => show win3_1.index t (0 : Fin 2) * 1 + 1 * 0 = 0; omega
  | ⟨1, _⟩ => show win3_1.index t (1 : Fin 2) * 64 + 1 * j.val = j.val; omega

theorem blkRow2_R3 (c : Dev nD) (t : Fin cfg3.N) (j : Fin 64) :
    iblk3 V c 2 t (ix2 (0 : Fin 1) j) = (V c main_v84 : S1x64.Idx → EReal) (ix2 (0 : Fin 1) j) := by
  obtain ⟨-, -, -, -, e0, e1, -⟩ := idx_R3 t
  show (V c main_v84 : S1x64.Idx → EReal) (((cfg3.win 2).blk t).view.emb (ix2 (0 : Fin 1) j)) = _
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * j.val = j.val; omega

theorem blkRow3_R3 (c : Dev nD) (t : Fin cfg3.N) (j : Fin 64) :
    iblk3 V c 3 t (ix2 (0 : Fin 1) j) = (V c main_v85 : S1x64.Idx → EReal) (ix2 (0 : Fin 1) j) := by
  obtain ⟨-, -, -, -, -, -, e0, e1, -⟩ := idx_R3 t
  show (V c main_v85 : S1x64.Idx → EReal) (((cfg3.win 3).blk t).view.emb (ix2 (0 : Fin 1) j)) = _
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * j.val = j.val; omega

theorem blkRow4_R3 (c : Dev nD) (t : Fin cfg3.N) (j : Fin 64) :
    iblk3 V c 4 t (ix2 (0 : Fin 1) j) = (V c main_v86 : S1x64.Idx → EReal) (ix2 (0 : Fin 1) j) := by
  obtain ⟨-, -, -, -, -, -, -, -, e0, e1, -⟩ := idx_R3 t
  show (V c main_v86 : S1x64.Idx → EReal) (((cfg3.win 4).blk t).view.emb (ix2 (0 : Fin 1) j)) = _
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * j.val = j.val; omega

theorem embOut_R3 (t : Fin cfg3.N) (p : Fin 10000) (j : Fin 64) (h : t.val * 10000 + p.val < 100000) :
    ((cfg3.win 5).blk t).view.emb (ix2 p j) = (ix2 ⟨t.val * 10000 + p.val, h⟩ j : S100000x64.Idx) := by
  obtain ⟨-, -, -, -, -, -, -, -, -, -, e0, e1⟩ := idx_R3 t
  funext a; apply Fin.ext
  match a with
  | ⟨0, _⟩ => show win3_5.index t (0 : Fin 2) * 10000 + 1 * p.val = t.val * 10000 + p.val; omega
  | ⟨1, _⟩ => show win3_5.index t (1 : Fin 2) * 64 + 1 * j.val = j.val; omega

abbrev res_R3 (c : Dev nD) : S100000x64.Idx → EReal :=
  Gnn.arr2 (Gnn.bn (Gnn.hat2 (V c main_v69_0 : S100000x64.Idx → EReal)) (Gnn.hatRow (V c main_v83 : S1x64.Idx → EReal))
    (Gnn.hatRow (V c main_v84 : S1x64.Idx → EReal)) (Gnn.hatRow (V c main_v85 : S1x64.Idx → EReal))
    (Gnn.hatRow (V c main_v86 : S1x64.Idx → EReal)))

theorem flushed_R3 (c : Dev nD) (t : Fin cfg3.N) :
    (dat3 (F := Ideal) V c).flushed 5 t = ((cfg3.win 5).blk t).view.read (Elt Ideal) (res_R3 V c) := by
  have ht : t.val < 10 := lt_of_lt_of_eq t.isLt N_3
  show (cfg3.win 5).cut (grid3.coords t) ((dat3 (F := Ideal) V c).after 5 t) = _
  rw [after3_5]
  unfold out3_5
  rw [View.canon_unit_zero zeroOff_R1]
  simp only [View.ld_unit_zero (S := S10000x64) zeroOff_R1, View.ld_unit_zero (S := S1x64) zeroOff_R1]
  funext y
  obtain ⟨p, j, rfl⟩ : ∃ (p : Fin 10000) (j : Fin 64), y = ix2 p j := ⟨y 0, y 1, eq_ix2 y⟩
  have hr : t.val * 10000 + p.val < 100000 := by have := p.isLt; omega
  show k3_pay1 (iblk3 V c 0 t) (iblk3 V c 1 t) (iblk3 V c 2 t) (iblk3 V c 3 t) (iblk3 V c 4 t) (ix2 p j)
      = res_R3 V c (((cfg3.win 5).blk t).view.emb (ix2 p j))
  rw [embOut_R3 t p j hr]
  refine (pay_R1 _ _ _ _ _ p j).trans ?_
  rw [blkH_R3 V c t p j hr, blkRow1_R3 V c t j, blkRow2_R3 V c t j, blkRow3_R3 V c t j, blkRow4_R3 V c t j]
  rfl

theorem memBlk_R3 (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v87).slice (win3_5.rect t)).set ↔ _
  rw [View.set_slice_whole, Rect.mem_set_unit]
  exact Iff.rfl

theorem cover_R3 (i : S100000x64.Idx) :
    ∃ t : Fin cfg3.N, (cfg3.win 5).flush t = true ∧ i ∈ ((cfg3.win 5).blk t).view.set := by
  have hi0 : (i 0).val < 100000 := idx2_lt0 i
  have hi1 : (i 1).val < 64 := idx2_lt1 i
  have hq : (i 0).val / 10000 < cfg3.N := lt_of_lt_of_eq (show (i 0).val / 10000 < 10 by omega) N_3.symm
  obtain ⟨-, -, -, -, -, -, -, -, -, -, e0, e1⟩ := idx_R3 ⟨(i 0).val / 10000, hq⟩
  have e0' : win3_5.index ⟨(i 0).val / 10000, hq⟩ (0 : Fin 2) = (i 0).val / 10000 := e0
  refine ⟨⟨(i 0).val / 10000, hq⟩, flush3_5 _, ?_⟩
  rw [memBlk_R3]
  intro a
  match a with
  | ⟨0, _⟩ =>
    show win3_5.index ⟨(i 0).val / 10000, hq⟩ (0 : Fin 2) * 10000 ≤ (i 0).val
      ∧ (i 0).val < win3_5.index ⟨(i 0).val / 10000, hq⟩ (0 : Fin 2) * 10000 + 10000
    omega
  | ⟨1, _⟩ =>
    show win3_5.index ⟨(i 0).val / 10000, hq⟩ (1 : Fin 2) * 64 ≤ (i 1).val
      ∧ (i 1).val < win3_5.index ⟨(i 0).val / 10000, hq⟩ (1 : Fin 2) * 64 + 64
    omega

theorem final_R3 (c : Dev nD) : (dat3 (F := Ideal) V c).arrAt 5 cfg3.N = res_R3 V c :=
  (dat3 (F := Ideal) V c).arrAt_eq_of_cover 5 (res_R3 V c) (fun t _ => flushed_R3 V c t) (cover_R3)

theorem bn3 (c : Dev nD) (r : Fin 100000) (j : Fin 64) :
    ((dat3 (F := Ideal) V c).arrAt 5 cfg3.N : S100000x64.Idx → EReal) (ix2 r j)
      = Gnn.bn (Gnn.hat2 (V c main_v69_0 : S100000x64.Idx → EReal)) (Gnn.hatRow (V c main_v83 : S1x64.Idx → EReal))
          (Gnn.hatRow (V c main_v84 : S1x64.Idx → EReal)) (Gnn.hatRow (V c main_v85 : S1x64.Idx → EReal))
          (Gnn.hatRow (V c main_v86 : S1x64.Idx → EReal)) r j :=
  congrFun (final_R3 V c) (ix2 r j)

end Cert.KernelIdeal.RegionVal

end
-- ==== Proof.KLayer1.lean ====
import proofs.«406622_j66486093742154_3_alg».proof.Proof.Gen.KernelIdeal.Frame
import proofs.«406622_j66486093742154_3_alg».proof.Proof.Spec
import proofs.«406622_j66486093742154_3_alg».proof.Proof.SpecMath
import proofs.«406622_j66486093742154_3_alg».proof.Proof.KStats
import proofs.«406622_j66486093742154_3_alg».proof.Proof.SliceRead
import proofs.«406622_j66486093742154_3_alg».proof.Proof.RegionNode2
import proofs.«406622_j66486093742154_3_alg».proof.Proof.RegionBn3
import Idealize.ShloMosaic.Lib.Pipeline.Value
import Idealize.ShloMosaic.Lib.ValueLayout
import Idealize.ShloMosaic.Lib.IdealHost

set_option maxRecDepth 16384
set_option maxHeartbeats 400000

noncomputable section
namespace Cert.KernelIdeal.KLayer

open Cert.KernelIdeal Cert.KernelIdeal.Gen Gnn Idealize.ShloMosaic Idealize.ShloMosaic.ValueIdx
open Idealize.ShloMosaic.TcCoe

variable (m : (ℓ : Loc nD τ sig) → Buf (Elt Ideal) ℓ) (ρ : Dev nD → PrngReg)

namespace L1

local macro "walk_host" : tactic => `(tactic|
  refine (StableHlo.after_of_forall_not_mem _ _ (List.forall_iff_forall_mem.mp (by
    simp only [hostOps0, hostOps0_1, hostOps0_2, hostOps0_3, hostOps0_4, hostOps1, hostOps2, hostOps2_1, hostOps2_2, hostOps2_3, hostOps2_4, hostOps3, hostOps4, hostOps4_1, hostOps4_2, hostOps4_3, hostOps4_4, hostOps5, hostOps6, hostOps6_1, hostOps6_2, hostOps6_3, hostOps6_4, hostOps7, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_)

local macro "walk_region" : tactic => `(tactic| first
  | (rw [W6_of_ne]; rotate_left; decide) | (rw [W8_of_ne]; rotate_left; decide)
  | (rw [W14_of_ne]; rotate_left; decide) | (rw [W16_of_ne]; rotate_left; decide)
  | (rw [W22_of_ne]; rotate_left; decide) | (rw [W24_of_ne]; rotate_left; decide)
  | (rw [W30_of_ne]; rotate_left; decide) | (rw [W32_of_ne]; rotate_left; decide))

local macro "walk_step" : tactic => `(tactic| first | walk_region | walk_host)

abbrev kW : Fin 3 := 0
abbrev kN : Fin 4 := 1

theorem arg12_at (c : Dev nD) : W8 (F := Ideal) m ρ c (Proc.devRef .tc main_arg12) = m ((c : Thread nD τ).loc main_arg12) := by
  repeat walk_step
  rfl
theorem arg13_at (c : Dev nD) : W8 (F := Ideal) m ρ c (Proc.devRef .tc main_arg13) = m ((c : Thread nD τ).loc main_arg13) := by
  repeat walk_step
  rfl
theorem arg14_at (c : Dev nD) : W8 (F := Ideal) m ρ c (Proc.devRef .tc main_arg14) = m ((c : Thread nD τ).loc main_arg14) := by
  repeat walk_step
  rfl
theorem arg15_at (c : Dev nD) : W8 (F := Ideal) m ρ c (Proc.devRef .tc main_arg15) = m ((c : Thread nD τ).loc main_arg15) := by
  repeat walk_step
  rfl
theorem arg16_at (c : Dev nD) : W8 (F := Ideal) m ρ c (Proc.devRef .tc main_arg16) = m ((c : Thread nD τ).loc main_arg16) := by
  repeat walk_step
  rfl
theorem arg17_at (c : Dev nD) : W8 (F := Ideal) m ρ c (Proc.devRef .tc main_arg17) = m ((c : Thread nD τ).loc main_arg17) := by
  repeat walk_step
  rfl

abbrev X (c : Dev nD) : Fin 100000 → Fin 64 → EReal :=
  hat2 (W8 (F := Ideal) m ρ c (Proc.devRef .tc main_v39) : S100000x64.Idx → EReal)

abbrev AG (c : Dev nD) : Fin 100000 → Fin 64 → EReal :=
  hat2 (W13 (F := Ideal) m ρ c (Proc.devRef .tc main_v66) : S100000x64.Idx → EReal)

abbrev P1 (c : Dev nD) : Fin 64 → Fin 64 → EReal := fun o a => (m ((c : Thread nD τ).loc main_arg12) : S3x64x64.Idx → EReal) (ix3 kW o a)
abbrev Q1 (c : Dev nD) : Fin 64 → EReal := fun o => (m ((c : Thread nD τ).loc main_arg13) : S3x64.Idx → EReal) (ix2 kW o)
abbrev P2 (c : Dev nD) : Fin 64 → Fin 64 → EReal := fun o a => (m ((c : Thread nD τ).loc main_arg14) : S3x64x64.Idx → EReal) (ix3 kW o a)
abbrev Q2 (c : Dev nD) : Fin 64 → EReal := fun o => (m ((c : Thread nD τ).loc main_arg15) : S3x64.Idx → EReal) (ix2 kW o)
abbrev GA (c : Dev nD) : Fin 64 → EReal := fun j => (m ((c : Thread nD τ).loc main_arg16) : S4x64.Idx → EReal) (ix2 kN j)
abbrev BE (c : Dev nD) : Fin 64 → EReal := fun j => (m ((c : Thread nD τ).loc main_arg17) : S4x64.Idx → EReal) (ix2 kN j)

abbrev NN (c : Dev nD) : Fin 100000 → Fin 64 → EReal := node 64 (X m ρ c) (AG m ρ c) (P1 m c) (Q1 m c) (P2 m c) (Q2 m c)

theorem x_at (c : Dev nD) : W13 (F := Ideal) m ρ c (Proc.devRef .tc main_v39) = W8 (F := Ideal) m ρ c (Proc.devRef .tc main_v39) := by
  walk_host; walk_host; walk_host; walk_host; walk_host
  rfl

theorem w1_at (c : Dev nD) (o a : Fin 64) :
    (W13 (F := Ideal) m ρ c (Proc.devRef .tc main_v45) : S64x64.Idx → EReal) (ix2 o a) = P1 m c o a := by
  have e : W13 (F := Ideal) m ρ c (Proc.devRef .tc main_v45) = W9 (F := Ideal) m ρ c (Proc.devRef .tc main_v45) := by
    walk_host; walk_host; walk_host; walk_host
    rfl
  refine (congrFun e _).trans ?_
  show (StableHlo.after (hostOps2 (F := Ideal)) _ (Proc.devRef .tc main_v45) : S64x64.Idx → EReal) (ix2 o a) = _
  after_results_simp
  refine (mat_slice _ kW rfl _ _ _ o a).trans ?_
  exact congrFun (arg12_at m ρ c) _

theorem w2_at (c : Dev nD) (o a : Fin 64) :
    (W13 (F := Ideal) m ρ c (Proc.devRef .tc main_v49) : S64x64.Idx → EReal) (ix2 o a) = P2 m c o a := by
  have e : W13 (F := Ideal) m ρ c (Proc.devRef .tc main_v49) = W9 (F := Ideal) m ρ c (Proc.devRef .tc main_v49) := by
    walk_host; walk_host; walk_host; walk_host
    rfl
  refine (congrFun e _).trans ?_
  show (StableHlo.after (hostOps2 (F := Ideal)) _ (Proc.devRef .tc main_v49) : S64x64.Idx → EReal) (ix2 o a) = _
  after_results_simp
  refine (mat_slice _ kW rfl _ _ _ o a).trans ?_
  exact congrFun (arg14_at m ρ c) _

theorem v47_at (c : Dev nD) (o : Fin 64) :
    (W9 (F := Ideal) m ρ c (Proc.devRef .tc main_v47) : S64.Idx → EReal) (ix1 o) = Q1 m c o := by
  show (StableHlo.after (hostOps2 (F := Ideal)) _ (Proc.devRef .tc main_v47) : S64.Idx → EReal) (ix1 o) = _
  after_results_simp
  refine (row_slice _ kW rfl _ _ _ o).trans ?_
  exact congrFun (arg13_at m ρ c) _

theorem v51_at (c : Dev nD) (o : Fin 64) :
    (W9 (F := Ideal) m ρ c (Proc.devRef .tc main_v51) : S64.Idx → EReal) (ix1 o) = Q2 m c o := by
  show (StableHlo.after (hostOps2 (F := Ideal)) _ (Proc.devRef .tc main_v51) : S64.Idx → EReal) (ix1 o) = _
  after_results_simp
  refine (row_slice _ kW rfl _ _ _ o).trans ?_
  exact congrFun (arg15_at m ρ c) _

theorem v53_at (c : Dev nD) (o : Fin 64) :
    (W9 (F := Ideal) m ρ c (Proc.devRef .tc main_v53) : S64.Idx → EReal) (ix1 o) = GA m c o := by
  show (StableHlo.after (hostOps2 (F := Ideal)) _ (Proc.devRef .tc main_v53) : S64.Idx → EReal) (ix1 o) = _
  after_results_simp
  refine (row_slice _ kN rfl _ _ _ o).trans ?_
  exact congrFun (arg16_at m ρ c) _

theorem v55_at (c : Dev nD) (o : Fin 64) :
    (W9 (F := Ideal) m ρ c (Proc.devRef .tc main_v55) : S64.Idx → EReal) (ix1 o) = BE m c o := by
  show (StableHlo.after (hostOps2 (F := Ideal)) _ (Proc.devRef .tc main_v55) : S64.Idx → EReal) (ix1 o) = _
  after_results_simp
  refine (row_slice _ kN rfl _ _ _ o).trans ?_
  exact congrFun (arg17_at m ρ c) _

theorem b1_mid (c : Dev nD) (o : Fin 64) :
    (W13 (F := Ideal) m ρ c (Proc.devRef .tc main_v67) : S1x64.Idx → EReal) (ix2 0 o)
      = (W12 (F := Ideal) m ρ c (Proc.devRef .tc main_v47) : S64.Idx → EReal) (ix1 o) := by
  show (StableHlo.after (hostOps2_4 (F := Ideal)) _ (Proc.devRef .tc main_v67) : S1x64.Idx → EReal) (ix2 0 o) = _
  after_results_simp
  exact shapeCast_a_1a_apply _ _ 0 o

theorem b2_mid (c : Dev nD) (o : Fin 64) :
    (W13 (F := Ideal) m ρ c (Proc.devRef .tc main_v68) : S1x64.Idx → EReal) (ix2 0 o)
      = (W12 (F := Ideal) m ρ c (Proc.devRef .tc main_v51) : S64.Idx → EReal) (ix1 o) := by
  show (StableHlo.after (hostOps2_4 (F := Ideal)) _ (Proc.devRef .tc main_v68) : S1x64.Idx → EReal) (ix2 0 o) = _
  after_results_simp
  exact shapeCast_a_1a_apply _ _ 0 o

theorem b1_at (c : Dev nD) (o : Fin 64) :
    (W13 (F := Ideal) m ρ c (Proc.devRef .tc main_v67) : S1x64.Idx → EReal) (ix2 0 o) = Q1 m c o := by
  refine (b1_mid m ρ c o).trans ?_
  have e : W12 (F := Ideal) m ρ c (Proc.devRef .tc main_v47) = W9 (F := Ideal) m ρ c (Proc.devRef .tc main_v47) := by
    walk_host; walk_host; walk_host
    rfl
  exact (congrFun e _).trans (v47_at m ρ c o)

theorem b2_at (c : Dev nD) (o : Fin 64) :
    (W13 (F := Ideal) m ρ c (Proc.devRef .tc main_v68) : S1x64.Idx → EReal) (ix2 0 o) = Q2 m c o := by
  refine (b2_mid m ρ c o).trans ?_
  have e : W12 (F := Ideal) m ρ c (Proc.devRef .tc main_v51) = W9 (F := Ideal) m ρ c (Proc.devRef .tc main_v51) := by
    walk_host; walk_host; walk_host
    rfl
  exact (congrFun e _).trans (v51_at m ρ c o)

theorem node_at (c : Dev nD) : RegionVal.N2 (V13 (F := Ideal) m ρ) c = NN m ρ c := by
  have h1 : hat2 (V13 (F := Ideal) m ρ c main_v39 : S100000x64.Idx → EReal) = X m ρ c := congrArg hat2 (x_at m ρ c)
  have h3 : hat2 (V13 (F := Ideal) m ρ c main_v45 : S64x64.Idx → EReal) = P1 m c := funext fun o => funext fun a => w1_at m ρ c o a
  have h4 : hatRow (V13 (F := Ideal) m ρ c main_v67 : S1x64.Idx → EReal) = Q1 m c := funext fun o => b1_at m ρ c o
  have h5 : hat2 (V13 (F := Ideal) m ρ c main_v49 : S64x64.Idx → EReal) = P2 m c := funext fun o => funext fun a => w2_at m ρ c o a
  have h6 : hatRow (V13 (F := Ideal) m ρ c main_v68 : S1x64.Idx → EReal) = Q2 m c := funext fun o => b2_at m ρ c o
  show node 64 _ _ _ _ _ _ = node 64 _ _ _ _ _ _
  rw [h1, h3, h4, h5, h6]

theorem h_at (c : Dev nD) (r : Fin 100000) (j : Fin 64) :
    (W15 (F := Ideal) m ρ c (Proc.devRef .tc main_v69_0) : S100000x64.Idx → EReal) (ix2 r j) = NN m ρ c r j := by
  have e : W15 (F := Ideal) m ρ c (Proc.devRef .tc main_v69_0) = W14 (F := Ideal) m ρ c (Proc.devRef .tc main_v69_0) := by
    walk_host
    rfl
  refine (congrFun e _).trans ?_
  refine (congrFun (W14_arr (F := Ideal) m ρ c 6) _).trans ?_
  refine (RegionVal.hmlp2 (V13 (F := Ideal) m ρ) c r j).trans ?_
  exact congrFun (congrFun (node_at m ρ c) r) j

theorem ps_at (c : Dev nD) (t : Fin 10) (s : Fin 8) (j : Fin 64) :
    (W14 (F := Ideal) m ρ c (Proc.devRef .tc main_v69_1) : S10x8x64.Idx → EReal) (ix3 t s j)
      = ∑ g : Fin 1250, NN m ρ c (row t g s) j := by
  refine (congrFun (W14_arr (F := Ideal) m ρ c 7) _).trans ?_
  refine (RegionVal.psum2 (V13 (F := Ideal) m ρ) c t s j).trans ?_
  rw [node_at m ρ c]

theorem pq_at (c : Dev nD) (t : Fin 10) (s : Fin 8) (j : Fin 64) :
    (W14 (F := Ideal) m ρ c (Proc.devRef .tc main_v69_2) : S10x8x64.Idx → EReal) (ix3 t s j)
      = ∑ g : Fin 1250, NN m ρ c (row t g s) j * NN m ρ c (row t g s) j := by
  refine (congrFun (W14_arr (F := Ideal) m ρ c 8) _).trans ?_
  refine (RegionVal.psumsq2 (V13 (F := Ideal) m ρ) c t s j).trans ?_
  rw [node_at m ρ c]

theorem mean_at (c : Dev nD) (j : Fin 64) :
    (W15 (F := Ideal) m ρ c (Proc.devRef .tc main_v83) : S1x64.Idx → EReal) (ix2 0 j) = colMean (NN m ρ c) j := by
  show (StableHlo.after (hostOps3 (F := Ideal)) _ (Proc.devRef .tc main_v83) : S1x64.Idx → EReal) (ix2 0 j) = _
  after_results_simp
  refine (shapeCast_a_1a_apply _ _ 0 j).trans ?_
  exact meanVec_apply _ (NN m ρ c) (ps_at m ρ c) _ _ _ j

theorem rstd_at (c : Dev nD) (j : Fin 64) :
    (W15 (F := Ideal) m ρ c (Proc.devRef .tc main_v84) : S1x64.Idx → EReal) (ix2 0 j)
      = Ideal.rsqrt (varK (NN m ρ c) j + eps) := by
  show (StableHlo.after (hostOps3 (F := Ideal)) _ (Proc.devRef .tc main_v84) : S1x64.Idx → EReal) (ix2 0 j) = _
  after_results_simp
  refine (shapeCast_a_1a_apply _ _ 0 j).trans ?_
  exact rstdVec_apply _ _ (NN m ρ c) (ps_at m ρ c) (pq_at m ρ c) _ _ _ j

theorem gamma_mid (c : Dev nD) (j : Fin 64) :
    (W15 (F := Ideal) m ρ c (Proc.devRef .tc main_v85) : S1x64.Idx → EReal) (ix2 0 j)
      = (W14 (F := Ideal) m ρ c (Proc.devRef .tc main_v53) : S64.Idx → EReal) (ix1 j) := by
  show (StableHlo.after (hostOps3 (F := Ideal)) _ (Proc.devRef .tc main_v85) : S1x64.Idx → EReal) (ix2 0 j) = _
  after_results_simp
  exact shapeCast_a_1a_apply _ _ 0 j

theorem beta_mid (c : Dev nD) (j : Fin 64) :
    (W15 (F := Ideal) m ρ c (Proc.devRef .tc main_v86) : S1x64.Idx → EReal) (ix2 0 j)
      = (W14 (F := Ideal) m ρ c (Proc.devRef .tc main_v55) : S64.Idx → EReal) (ix1 j) := by
  show (StableHlo.after (hostOps3 (F := Ideal)) _ (Proc.devRef .tc main_v86) : S1x64.Idx → EReal) (ix2 0 j) = _
  after_results_simp
  exact shapeCast_a_1a_apply _ _ 0 j

theorem gamma_at (c : Dev nD) (j : Fin 64) :
    (W15 (F := Ideal) m ρ c (Proc.devRef .tc main_v85) : S1x64.Idx → EReal) (ix2 0 j) = GA m c j := by
  refine (gamma_mid m ρ c j).trans ?_
  have e : W14 (F := Ideal) m ρ c (Proc.devRef .tc main_v53) = W9 (F := Ideal) m ρ c (Proc.devRef .tc main_v53) := by
    walk_region; walk_host; walk_host; walk_host; walk_host
    rfl
  exact (congrFun e _).trans (v53_at m ρ c j)

theorem beta_at (c : Dev nD) (j : Fin 64) :
    (W15 (F := Ideal) m ρ c (Proc.devRef .tc main_v86) : S1x64.Idx → EReal) (ix2 0 j) = BE m c j := by
  refine (beta_mid m ρ c j).trans ?_
  have e : W14 (F := Ideal) m ρ c (Proc.devRef .tc main_v55) = W9 (F := Ideal) m ρ c (Proc.devRef .tc main_v55) := by
    walk_region; walk_host; walk_host; walk_host; walk_host
    rfl
  exact (congrFun e _).trans (v55_at m ρ c j)

theorem layer_at (c : Dev nD) :
    (W16 (F := Ideal) m ρ c (Proc.devRef .tc main_v87) : S100000x64.Idx → EReal)
      = arr2 (layerK 64 (X m ρ c) (AG m ρ c) (P1 m c) (Q1 m c) (P2 m c) (Q2 m c) (GA m c) (BE m c)) := by
  funext i
  obtain ⟨r, j, rfl⟩ : ∃ (r : Fin 100000) (j : Fin 64), i = ix2 r j := ⟨i 0, i 1, eq_ix2 i⟩
  refine (congrFun (W16_arr (F := Ideal) m ρ c 5) _).trans ?_
  refine (RegionVal.bn3 (V15 (F := Ideal) m ρ) c r j).trans ?_
  have h1 : hat2 (V15 (F := Ideal) m ρ c main_v69_0 : S100000x64.Idx → EReal) = NN m ρ c := funext fun r => funext fun j => h_at m ρ c r j
  have h2 : hatRow (V15 (F := Ideal) m ρ c main_v83 : S1x64.Idx → EReal) = colMean (NN m ρ c) := funext fun j => mean_at m ρ c j
  have h3 : hatRow (V15 (F := Ideal) m ρ c main_v84 : S1x64.Idx → EReal) = fun j => Ideal.rsqrt (varK (NN m ρ c) j + eps) := funext fun j => rstd_at m ρ c j
  have h4 : hatRow (V15 (F := Ideal) m ρ c main_v85 : S1x64.Idx → EReal) = GA m c := funext fun j => gamma_at m ρ c j
  have h5 : hatRow (V15 (F := Ideal) m ρ c main_v86 : S1x64.Idx → EReal) = BE m c := funext fun j => beta_at m ρ c j
  rw [h1, h2, h3, h4, h5]
  show _ = layerK 64 (X m ρ c) (AG m ρ c) (P1 m c) (Q1 m c) (P2 m c) (Q2 m c) (GA m c) (BE m c) r j
  unfold layerK
  rfl

end L1

theorem layer1 (c : Dev nD) :
    (W16 (F := Ideal) m ρ c (Proc.devRef .tc main_v87) : S100000x64.Idx → EReal)
      = arr2 (layerK 64 (hat2 (W8 (F := Ideal) m ρ c (Proc.devRef .tc main_v39) : S100000x64.Idx → EReal))
          (hat2 (W13 (F := Ideal) m ρ c (Proc.devRef .tc main_v66) : S100000x64.Idx → EReal))
          (fun o a => (m ((c : Thread nD τ).loc main_arg12) : S3x64x64.Idx → EReal) (ix3 0 o a))
          (fun o => (m ((c : Thread nD τ).loc main_arg13) : S3x64.Idx → EReal) (ix2 0 o))
          (fun o a => (m ((c : Thread nD τ).loc main_arg14) : S3x64x64.Idx → EReal) (ix3 0 o a))
          (fun o => (m ((c : Thread nD τ).loc main_arg15) : S3x64.Idx → EReal) (ix2 0 o))
          (fun j => (m ((c : Thread nD τ).loc main_arg16) : S4x64.Idx → EReal) (ix2 1 j))
          (fun j => (m ((c : Thread nD τ).loc main_arg17) : S4x64.Idx → EReal) (ix2 1 j))) :=
  L1.layer_at m ρ c

end Cert.KernelIdeal.KLayer

end
-- ==== Proof.RegionNode4.lean ====
import proofs.«406622_j66486093742154_3_alg».proof.Proof.Gen.KernelIdeal.Frame
import proofs.«406622_j66486093742154_3_alg».proof.Proof.Spec
import proofs.«406622_j66486093742154_3_alg».proof.Proof.RegionNode2
import Idealize.ShloMosaic.Lib.Pipeline.Value
import Idealize.ShloMosaic.Lib.ValueIdx
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.ShloMosaic.ValueIdx
open Idealize.ShloMosaic.Pipeline (Dat)

abbrev N4 (V : (c : Dev nD) → (b : Ref sig .tc) → Buf (Elt Ideal) ((c : Thread nD τ).loc b)) (c : Dev nD) :
    Fin 100000 → Fin 64 → EReal :=
  Gnn.node 64 (Gnn.hat2 (V c main_v87 : S100000x64.Idx → EReal)) (Gnn.hat2 (V c main_v114 : S100000x64.Idx → EReal))
    (Gnn.hat2 (V c main_v93 : S64x64.Idx → EReal)) (Gnn.hatRow (V c main_v115 : S1x64.Idx → EReal))
    (Gnn.hat2 (V c main_v97 : S64x64.Idx → EReal)) (Gnn.hatRow (V c main_v116 : S1x64.Idx → EReal))

namespace R4

open R2 (pay2_node pay4_node pay1_node hz2 hz3)

section Blocks
variable (V : (c : Dev nD) → (b : Ref sig .tc) → Buf (Elt Ideal) ((c : Thread nD τ).loc b))

theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 3) = t.val ∧ win4_7.index t (1 : Fin 3) = 0 ∧ win4_7.index t (2 : Fin 3) = 0
    ∧ win4_8.index t (0 : Fin 3) = t.val ∧ win4_8.index t (1 : Fin 3) = 0 ∧ win4_8.index t (2 : Fin 3) = 0 :=
  (by decide +kernel : ∀ t : Fin grid4.N, _)

theorem xblk (c : Dev nD) (t : Fin cfg4.N) (p : Fin 10000) (a : Fin 64) (k : S100000x64.Idx)
    (hk0 : (k 0).val = t.val * 10000 + p.val) (hk1 : (k 1).val = a.val) :
    (iblk4 V c 0 t : Vec Ideal S10000x64 .f32) (ix2 p a) = (V c main_v87 : S100000x64.Idx → EReal) k := by
  obtain ⟨e0, e1, -⟩ := idx_facts t
  unfold iblk4
  rw [View.read_apply]
  show V c main_v87 _ = V c main_v87 k
  congr 1
  funext b
  apply Fin.ext
  match b with
  | ⟨0, _⟩ => show win4_0.index t (0 : Fin 2) * 10000 + 1 * p.val = (k 0).val; rw [e0, hk0]; omega
  | ⟨1, _⟩ => show win4_0.index t (1 : Fin 2) * 64 + 1 * a.val = (k 1).val; rw [e1, hk1]; omega

theorem aggblk (c : Dev nD) (t : Fin cfg4.N) (p : Fin 10000) (a : Fin 64) (k : S100000x64.Idx)
    (hk0 : (k 0).val = t.val * 10000 + p.val) (hk1 : (k 1).val = a.val) :
    (iblk4 V c 1 t : Vec Ideal S10000x64 .f32) (ix2 p a) = (V c main_v114 : S100000x64.Idx → EReal) k := by
  obtain ⟨-, -, e0, e1, -⟩ := idx_facts t
  unfold iblk4
  rw [View.read_apply]
  show V c main_v114 _ = V c main_v114 k
  congr 1
  funext b
  apply Fin.ext
  match b with
  | ⟨0, _⟩ => show win4_1.index t (0 : Fin 2) * 10000 + 1 * p.val = (k 0).val; rw [e0, hk0]; omega
  | ⟨1, _⟩ => show win4_1.index t (1 : Fin 2) * 64 + 1 * a.val = (k 1).val; rw [e1, hk1]; omega

theorem w1blk (c : Dev nD) (t : Fin cfg4.N) :
    (iblk4 V c 2 t : Vec Ideal S64x64 .f32) = (V c main_v93 : S64x64.Idx → EReal) := by
  obtain ⟨-, -, -, -, e0, e1, -⟩ := idx_facts t
  funext y
  unfold iblk4
  rw [View.read_apply]
  show V c main_v93 _ = V c main_v93 y
  congr 1
  funext b
  apply Fin.ext
  match b with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

theorem b1blk (c : Dev nD) (t : Fin cfg4.N) :
    (iblk4 V c 3 t : Vec Ideal S1x64 .f32) = (V c main_v115 : S1x64.Idx → EReal) := by
  obtain ⟨-, -, -, -, -, -, e0, e1, -⟩ := idx_facts t
  funext y
  unfold iblk4
  rw [View.read_apply]
  show V c main_v115 _ = V c main_v115 y
  congr 1
  funext b
  apply Fin.ext
  match b with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

theorem w2blk (c : Dev nD) (t : Fin cfg4.N) :
    (iblk4 V c 4 t : Vec Ideal S64x64 .f32) = (V c main_v97 : S64x64.Idx → EReal) := by
  obtain ⟨-, -, -, -, -, -, -, -, e0, e1, -⟩ := idx_facts t
  funext y
  unfold iblk4
  rw [View.read_apply]
  show V c main_v97 _ = V c main_v97 y
  congr 1
  funext b
  apply Fin.ext
  match b with
  | ⟨0, _⟩ => show win4_4.index t (0 : Fin 2) * 64 + 1 * (y 0).val = (y 0).val; rw [e0]; omega
  | ⟨1, _⟩ => show win4_4.index t (1 : Fin 2) * 64 + 1 * (y 1).val = (y 1).val; rw [e1]; omega

theorem b2blk (c : Dev nD) (t : Fin cfg4.N) :
    (iblk4 V c 5 t : Vec Ideal S1x64 .f32) = (V c main_v116 : S1x64.Idx → EReal) := by
  obtain ⟨-, -, -, -, -, -, -, -, -, -, e0, e1, -⟩ := idx_facts t
  funext y
  unfold iblk4
  rw [View.read_apply]
  show V c main_v116 _ = V c main_v116 y
  congr 1
  funext b
  apply Fin.ext
  match b with
  | ⟨0, _⟩ => show win4_5.index t (0 : Fin 2) * 1 + 1 * (y 0).val = (y 0).val; rw [e0]; omega
  | ⟨1, _⟩ => show win4_5.index t (1 : Fin 2) * 64 + 1 * (y 1).val = (y 1).val; rw [e1]; omega

abbrev G6 (c : Dev nD) : S100000x64.Idx → EReal := Gnn.arr2 (N4 V c)
abbrev G7 (c : Dev nD) : S10x8x64.Idx → EReal := fun i => ∑ g : Fin 1250, N4 V c (Gnn.row (i 0) g (i 1)) (i 2)
abbrev G8 (c : Dev nD) : S10x8x64.Idx → EReal :=
  fun i => ∑ g : Fin 1250, N4 V c (Gnn.row (i 0) g (i 1)) (i 2) * N4 V c (Gnn.row (i 0) g (i 1)) (i 2)

theorem point6 (c : Dev nD) (t : Fin cfg4.N) (y : S10000x64.Idx) (i : S100000x64.Idx)
    (hi0 : (i 0).val = t.val * 10000 + (y 0).val) (hi1 : (i 1).val = (y 1).val) :
    k4_pay2 (iblk4 V c 0 t) (iblk4 V c 1 t) (V c main_v93 : S64x64.Idx → EReal) (V c main_v115 : S1x64.Idx → EReal)
      (V c main_v97 : S64x64.Idx → EReal) (V c main_v116 : S1x64.Idx → EReal) y = G6 V c i := by
  have ht : t.val < 10 := lt_of_lt_of_eq t.isLt N_4
  obtain ⟨p, q, rfl⟩ : ∃ (p : Fin 10000) (q : Fin 64), y = ix2 p q := ⟨y 0, y 1, eq_ix2 y⟩
  have hb : t.val * 10000 + p.val < 100000 := by clear hi0 hi1; omega
  obtain ⟨r, j, rfl⟩ : ∃ (r : Fin 100000) (j : Fin 64), i = ix2 r j := ⟨i 0, i 1, eq_ix2 i⟩
  obtain rfl : r = ⟨t.val * 10000 + p.val, hb⟩ := Fin.ext hi0
  obtain rfl : j = q := Fin.ext hi1
  exact pay2_node (iblk4 V c 0 t) (iblk4 V c 1 t) _ _ _ _ (V c main_v87 : S100000x64.Idx → EReal)
    (V c main_v114 : S100000x64.Idx → EReal) ⟨t.val, ht⟩ (fun p a => xblk V c t p a _ rfl rfl)
    (fun p a => aggblk V c t p a _ rfl rfl) _ _

theorem point7 (c : Dev nD) (t : Fin cfg4.N) (y : S1x8x64.Idx) (i : S10x8x64.Idx)
    (hi0 : (i 0).val = t.val) (hi1 : (i 1).val = (y 1).val) (hi2 : (i 2).val = (y 2).val) :
    k4_pay4 (iblk4 V c 0 t) (iblk4 V c 1 t) (V c main_v93 : S64x64.Idx → EReal) (V c main_v115 : S1x64.Idx → EReal)
      (V c main_v97 : S64x64.Idx → EReal) (V c main_v116 : S1x64.Idx → EReal) y = G7 V c i := by
  have ht : t.val < 10 := lt_of_lt_of_eq t.isLt N_4
  obtain ⟨z, s, q, rfl⟩ : ∃ (z : Fin 1) (s : Fin 8) (q : Fin 64), y = ix3 z s q := ⟨y 0, y 1, y 2, eq_ix3 y⟩
  obtain rfl : z = 0 := Subsingleton.elim _ _
  obtain ⟨u, s', j, rfl⟩ : ∃ (u : Fin 10) (s' : Fin 8) (j : Fin 64), i = ix3 u s' j := ⟨i 0, i 1, i 2, eq_ix3 i⟩
  obtain rfl : u = ⟨t.val, ht⟩ := Fin.ext hi0
  obtain rfl : s' = s := Fin.ext hi1
  obtain rfl : j = q := Fin.ext hi2
  exact pay4_node (iblk4 V c 0 t) (iblk4 V c 1 t) _ _ _ _ (V c main_v87 : S100000x64.Idx → EReal)
    (V c main_v114 : S100000x64.Idx → EReal) ⟨t.val, ht⟩ (fun p a => xblk V c t p a _ rfl rfl)
    (fun p a => aggblk V c t p a _ rfl rfl) _ _

theorem point8 (c : Dev nD) (t : Fin cfg4.N) (y : S1x8x64.Idx) (i : S10x8x64.Idx)
    (hi0 : (i 0).val = t.val) (hi1 : (i 1).val = (y 1).val) (hi2 : (i 2).val = (y 2).val) :
    k4_pay1 (k4_pay3 (iblk4 V c 0 t) (iblk4 V c 1 t) (V c main_v93 : S64x64.Idx → EReal) (V c main_v115 : S1x64.Idx → EReal)
      (V c main_v97 : S64x64.Idx → EReal) (V c main_v116 : S1x64.Idx → EReal)) y = G8 V c i := by
  have ht : t.val < 10 := lt_of_lt_of_eq t.isLt N_4
  obtain ⟨z, s, q, rfl⟩ : ∃ (z : Fin 1) (s : Fin 8) (q : Fin 64), y = ix3 z s q := ⟨y 0, y 1, y 2, eq_ix3 y⟩
  obtain rfl : z = 0 := Subsingleton.elim _ _
  obtain ⟨u, s', j, rfl⟩ : ∃ (u : Fin 10) (s' : Fin 8) (j : Fin 64), i = ix3 u s' j := ⟨i 0, i 1, i 2, eq_ix3 i⟩
  obtain rfl : u = ⟨t.val, ht⟩ := Fin.ext hi0
  obtain rfl : s' = s := Fin.ext hi1
  obtain rfl : j = q := Fin.ext hi2
  exact pay1_node (iblk4 V c 0 t) (iblk4 V c 1 t) _ _ _ _ (V c main_v87 : S100000x64.Idx → EReal)
    (V c main_v114 : S100000x64.Idx → EReal) ⟨t.val, ht⟩ (fun p a => xblk V c t p a _ rfl rfl)
    (fun p a => aggblk V c t p a _ rfl rfl) _ _

theorem flushed6 (c : Dev nD) (t : Fin cfg4.N) :
    (dat4 (F := Ideal) V c).flushed 6 t = ((cfg4.win 6).blk t).view.read (Elt Ideal) (G6 V c) := by
  show (cfg4.win 6).cut (grid4.coords t) ((dat4 V c).after 6 t) = _
  rw [after4_6]
  unfold out4_6
  rw [View.canon_unit_zero hz2]
  simp only [View.ld_unit_zero (S := S10000x64) hz2, View.ld_unit_zero (S := S64x64) hz2, View.ld_unit_zero (S := S1x64) hz2]
  rw [w1blk V c t, b1blk V c t, w2blk V c t, b2blk V c t]
  obtain ⟨-, -, -, -, -, -, -, -, -, -, -, -, e0, e1, -⟩ := idx_facts t
  funext y
  refine point6 V c t y (((cfg4.win 6).blk t).view.emb y) ?_ ?_
  · show win4_6.index t (0 : Fin 2) * 10000 + 1 * (y 0).val = _; rw [e0]; omega
  · show win4_6.index t (1 : Fin 2) * 64 + 1 * (y 1).val = _; rw [e1]; omega

theorem flushed7 (c : Dev nD) (t : Fin cfg4.N) :
    (dat4 (F := Ideal) V c).flushed 7 t = ((cfg4.win 7).blk t).view.read (Elt Ideal) (G7 V c) := by
  show (cfg4.win 7).cut (grid4.coords t) ((dat4 V c).after 7 t) = _
  rw [after4_7]
  unfold out4_7
  rw [View.canon_unit_zero hz3]
  simp only [View.ld_unit_zero (S := S10000x64) hz2, View.ld_unit_zero (S := S64x64) hz2, View.ld_unit_zero (S := S1x64) hz2]
  rw [w1blk V c t, b1blk V c t, w2blk V c t, b2blk V c t]
  obtain ⟨-, -, -, -, -, -, -, -, -, -, -, -, -, -, e0, e1, e2, -⟩ := idx_facts t
  funext y
  have hy0 : (y 0).val < 1 := (y 0).isLt
  refine point7 V c t y (((cfg4.win 7).blk t).view.emb y) ?_ ?_ ?_
  · show win4_7.index t (0 : Fin 3) * 1 + 1 * (y 0).val = _; rw [e0]; omega
  · show win4_7.index t (1 : Fin 3) * 8 + 1 * (y 1).val = _; rw [e1]; omega
  · show win4_7.index t (2 : Fin 3) * 64 + 1 * (y 2).val = _; rw [e2]; omega

theorem flushed8 (c : Dev nD) (t : Fin cfg4.N) :
    (dat4 (F := Ideal) V c).flushed 8 t = ((cfg4.win 8).blk t).view.read (Elt Ideal) (G8 V c) := by
  show (cfg4.win 8).cut (grid4.coords t) ((dat4 V c).after 8 t) = _
  rw [after4_8]
  unfold out4_8
  rw [View.canon_unit_zero hz3]
  simp only [View.ld_unit_zero (S := S10000x64) hz2, View.ld_unit_zero (S := S64x64) hz2, View.ld_unit_zero (S := S1x64) hz2]
  rw [w1blk V c t, b1blk V c t, w2blk V c t, b2blk V c t]
  obtain ⟨-, -, -, -, -, -, -, -, -, -, -, -, -, -, -, -, -, e0, e1, e2⟩ := idx_facts t
  funext y
  have hy0 : (y 0).val < 1 := (y 0).isLt
  refine point8 V c t y (((cfg4.win 8).blk t).view.emb y) ?_ ?_ ?_
  · show win4_8.index t (0 : Fin 3) * 1 + 1 * (y 0).val = _; rw [e0]; omega
  · show win4_8.index t (1 : Fin 3) * 8 + 1 * (y 1).val = _; rw [e1]; omega
  · show win4_8.index t (2 : Fin 3) * 64 + 1 * (y 2).val = _; rw [e2]; omega

theorem mem_blk6 (t : Fin cfg4.N) (i : S100000x64.Idx) :
    i ∈ ((cfg4.win 6).blk t).view.set ↔ ∀ a : Fin 2, win4_6.index t a * S10000x64.size a ≤ (i a).val
      ∧ (i a).val < win4_6.index t a * S10000x64.size a + S10000x64.size a := by
  show i ∈ ((View.whole main_v117_0).slice (win4_6.rect t)).set ↔ _
  rw [View.set_slice_whole, Rect.mem_set_unit]
  exact Iff.rfl

theorem mem_blk7 (t : Fin cfg4.N) (i : S10x8x64.Idx) :
    i ∈ ((cfg4.win 7).blk t).view.set ↔ ∀ a : Fin 3, win4_7.index t a * S1x8x64.size a ≤ (i a).val
      ∧ (i a).val < win4_7.index t a * S1x8x64.size a + S1x8x64.size a := by
  show i ∈ ((View.whole main_v117_1).slice (win4_7.rect t)).set ↔ _
  rw [View.set_slice_whole, Rect.mem_set_unit]
  exact Iff.rfl

theorem mem_blk8 (t : Fin cfg4.N) (i : S10x8x64.Idx) :
    i ∈ ((cfg4.win 8).blk t).view.set ↔ ∀ a : Fin 3, win4_8.index t a * S1x8x64.size a ≤ (i a).val
      ∧ (i a).val < win4_8.index t a * S1x8x64.size a + S1x8x64.size a := by
  show i ∈ ((View.whole main_v117_2).slice (win4_8.rect t)).set ↔ _
  rw [View.set_slice_whole, Rect.mem_set_unit]
  exact Iff.rfl

theorem cover6 (i : S100000x64.Idx) : ∃ t : Fin cfg4.N, (cfg4.win 6).flush t = true ∧ i ∈ ((cfg4.win 6).blk t).view.set := by
  have h0 : (i 0).val < 100000 := (i 0).isLt
  have h1 : (i 1).val < 64 := (i 1).isLt
  obtain ⟨t, ht⟩ : ∃ t : Fin cfg4.N, t.val = (i 0).val / 10000 :=
    ⟨⟨(i 0).val / 10000, lt_of_lt_of_eq (by omega) N_4.symm⟩, rfl⟩
  obtain ⟨-, -, -, -, -, -, -, -, -, -, -, -, e0, e1, -⟩ := idx_facts t
  refine ⟨t, flush4_6 t, ?_⟩
  rw [mem_blk6]
  intro a
  match a with
  | ⟨0, _⟩ => show win4_6.index t (0 : Fin 2) * 10000 ≤ (i 0).val ∧ (i 0).val < win4_6.index t (0 : Fin 2) * 10000 + 10000; rw [e0, ht]; omega
  | ⟨1, _⟩ => show win4_6.index t (1 : Fin 2) * 64 ≤ (i 1).val ∧ (i 1).val < win4_6.index t (1 : Fin 2) * 64 + 64; rw [e1]; omega

theorem cover7 (i : S10x8x64.Idx) : ∃ t : Fin cfg4.N, (cfg4.win 7).flush t = true ∧ i ∈ ((cfg4.win 7).blk t).view.set := by
  have h0 : (i 0).val < 10 := (i 0).isLt
  have h1 : (i 1).val < 8 := (i 1).isLt
  have h2 : (i 2).val < 64 := (i 2).isLt
  obtain ⟨t, ht⟩ : ∃ t : Fin cfg4.N, t.val = (i 0).val := ⟨⟨(i 0).val, lt_of_lt_of_eq h0 N_4.symm⟩, rfl⟩
  obtain ⟨-, -, -, -, -, -, -, -, -, -, -, -, -, -, e0, e1, e2, -⟩ := idx_facts t
  refine ⟨t, flush4_7 t, ?_⟩
  rw [mem_blk7]
  intro a
  match a with
  | ⟨0, _⟩ => show win4_7.index t (0 : Fin 3) * 1 ≤ (i 0).val ∧ (i 0).val < win4_7.index t (0 : Fin 3) * 1 + 1; rw [e0, ht]; omega
  | ⟨1, _⟩ => show win4_7.index t (1 : Fin 3) * 8 ≤ (i 1).val ∧ (i 1).val < win4_7.index t (1 : Fin 3) * 8 + 8; rw [e1]; omega
  | ⟨2, _⟩ => show win4_7.index t (2 : Fin 3) * 64 ≤ (i 2).val ∧ (i 2).val < win4_7.index t (2 : Fin 3) * 64 + 64; rw [e2]; omega

theorem cover8 (i : S10x8x64.Idx) : ∃ t : Fin cfg4.N, (cfg4.win 8).flush t = true ∧ i ∈ ((cfg4.win 8).blk t).view.set := by
  have h0 : (i 0).val < 10 := (i 0).isLt
  have h1 : (i 1).val < 8 := (i 1).isLt
  have h2 : (i 2).val < 64 := (i 2).isLt
  obtain ⟨t, ht⟩ : ∃ t : Fin cfg4.N, t.val = (i 0).val := ⟨⟨(i 0).val, lt_of_lt_of_eq h0 N_4.symm⟩, rfl⟩
  obtain ⟨-, -, -, -, -, -, -, -, -, -, -, -, -, -, -, -, -, e0, e1, e2⟩ := idx_facts t
  refine ⟨t, flush4_8 t, ?_⟩
  rw [mem_blk8]
  intro a
  match a with
  | ⟨0, _⟩ => show win4_8.index t (0 : Fin 3) * 1 ≤ (i 0).val ∧ (i 0).val < win4_8.index t (0 : Fin 3) * 1 + 1; rw [e0, ht]; omega
  | ⟨1, _⟩ => show win4_8.index t (1 : Fin 3) * 8 ≤ (i 1).val ∧ (i 1).val < win4_8.index t (1 : Fin 3) * 8 + 8; rw [e1]; omega
  | ⟨2, _⟩ => show win4_8.index t (2 : Fin 3) * 64 ≤ (i 2).val ∧ (i 2).val < win4_8.index t (2 : Fin 3) * 64 + 64; rw [e2]; omega

theorem arr6 (c : Dev nD) : (dat4 (F := Ideal) V c).arrAt 6 cfg4.N = G6 V c :=
  (dat4 V c).arrAt_eq_of_cover 6 (G6 V c) (fun t _ => flushed6 V c t) cover6

theorem arr7 (c : Dev nD) : (dat4 (F := Ideal) V c).arrAt 7 cfg4.N = G7 V c :=
  (dat4 V c).arrAt_eq_of_cover 7 (G7 V c) (fun t _ => flushed7 V c t) cover7

theorem arr8 (c : Dev nD) : (dat4 (F := Ideal) V c).arrAt 8 cfg4.N = G8 V c :=
  (dat4 V c).arrAt_eq_of_cover 8 (G8 V c) (fun t _ => flushed8 V c t) cover8

end Blocks

end R4

variable (V : (c : Dev nD) → (b : Ref sig .tc) → Buf (Elt Ideal) ((c : Thread nD τ).loc b))

theorem hmlp4 (c : Dev nD) (r : Fin 100000) (j : Fin 64) :
    ((dat4 (F := Ideal) V c).arrAt 6 cfg4.N : S100000x64.Idx → EReal) (ix2 r j) = N4 V c r j := by
  rw [R4.arr6 V c]

theorem psum4 (c : Dev nD) (t : Fin 10) (s : Fin 8) (j : Fin 64) :
    ((dat4 (F := Ideal) V c).arrAt 7 cfg4.N : S10x8x64.Idx → EReal) (ix3 t s j) = ∑ g : Fin 1250, N4 V c (Gnn.row t g s) j := by
  rw [R4.arr7 V c]

theorem psumsq4 (c : Dev nD) (t : Fin 10) (s : Fin 8) (j : Fin 64) :
    ((dat4 (F := Ideal) V c).arrAt 8 cfg4.N : S10x8x64.Idx → EReal) (ix3 t s j)
      = ∑ g : Fin 1250, N4 V c (Gnn.row t g s) j * N4 V c (Gnn.row t g s) j := by
  rw [R4.arr8 V c]

end Cert.KernelIdeal.RegionVal

end
-- ==== Proof.RegionBn5.lean ====
import proofs.«406622_j66486093742154_3_alg».proof.Proof.Gen.KernelIdeal.Frame
import proofs.«406622_j66486093742154_3_alg».proof.Proof.Spec
import proofs.«406622_j66486093742154_3_alg».proof.Proof.RegionBn1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem idx_R5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem blkH_R5 (c : Dev nD) (t : Fin cfg5.N) (p : Fin 10000) (j : Fin 64) (h : t.val * 10000 + p.val < 100000) :
    iblk5 V c 0 t (ix2 p j) = (V c main_v117_0 : S100000x64.Idx → EReal) (ix2 ⟨t.val * 10000 + p.val, h⟩ j) := by
  obtain ⟨e0, e1, -⟩ := idx_R5 t
  show (V c main_v117_0 : S100000x64.Idx → EReal) (((cfg5.win 0).blk t).view.emb (ix2 p j)) = _
  refine congrArg _ (funext fun a => Fin.ext ?_)
  match a with
  | ⟨0, _⟩ => show win5_0.index t (0 : Fin 2) * 10000 + 1 * p.val = t.val * 10000 + p.val; omega
  | ⟨1, _⟩ => show win5_0.index t (1 : Fin 2) * 64 + 1 * j.val = j.val; omega

theorem blkRow1_R5 (c : Dev nD) (t : Fin cfg5.N) (j : Fin 64) :
    iblk5 V c 1 t (ix2 (0 : Fin 1) j) = (V c main_v131 : S1x64.Idx → EReal) (ix2 (0 : Fin 1) j) := by
  obtain ⟨-, -, e0, e1, -⟩ := idx_R5 t
  show (V c main_v131 : S1x64.Idx → EReal) (((cfg5.win 1).blk t).view.emb (ix2 (0 : Fin 1) j)) = _
  refine congrArg _ (funext fun a => Fin.ext ?_)
  match a with
  | ⟨0, _⟩ => show win5_1.index t (0 : Fin 2) * 1 + 1 * 0 = 0; omega
  | ⟨1, _⟩ => show win5_1.index t (1 : Fin 2) * 64 + 1 * j.val = j.val; omega

theorem blkRow2_R5 (c : Dev nD) (t : Fin cfg5.N) (j : Fin 64) :
    iblk5 V c 2 t (ix2 (0 : Fin 1) j) = (V c main_v132 : S1x64.Idx → EReal) (ix2 (0 : Fin 1) j) := by
  obtain ⟨-, -, -, -, e0, e1, -⟩ := idx_R5 t
  show (V c main_v132 : S1x64.Idx → EReal) (((cfg5.win 2).blk t).view.emb (ix2 (0 : Fin 1) j)) = _
  refine congrArg _ (funext fun a => Fin.ext ?_)
  match a with
  | ⟨0, _⟩ => show win5_2.index t (0 : Fin 2) * 1 + 1 * 0 = 0; omega
  | ⟨1, _⟩ => show win5_2.index t (1 : Fin 2) * 64 + 1 * j.val = j.val; omega

theorem blkRow3_R5 (c : Dev nD) (t : Fin cfg5.N) (j : Fin 64) :
    iblk5 V c 3 t (ix2 (0 : Fin 1) j) = (V c main_v133 : S1x64.Idx → EReal) (ix2 (0 : Fin 1) j) := by
  obtain ⟨-, -, -, -, -, -, e0, e1, -⟩ := idx_R5 t
  show (V c main_v133 : S1x64.Idx → EReal) (((cfg5.win 3).blk t).view.emb (ix2 (0 : Fin 1) j)) = _
  refine congrArg _ (funext fun a => Fin.ext ?_)
  match a with
  | ⟨0, _⟩ => show win5_3.index t (0 : Fin 2) * 1 + 1 * 0 = 0; omega
  | ⟨1, _⟩ => show win5_3.index t (1 : Fin 2) * 64 + 1 * j.val = j.val; omega

theorem blkRow4_R5 (c : Dev nD) (t : Fin cfg5.N) (j : Fin 64) :
    iblk5 V c 4 t (ix2 (0 : Fin 1) j) = (V c main_v134 : S1x64.Idx → EReal) (ix2 (0 : Fin 1) j) := by
  obtain ⟨-, -, -, -, -, -, -, -, e0, e1, -⟩ := idx_R5 t
  show (V c main_v134 : S1x64.Idx → EReal) (((cfg5.win 4).blk t).view.emb (ix2 (0 : Fin 1) j)) = _
  refine congrArg _ (funext fun a => Fin.ext ?_)
  match a with
  | ⟨0, _⟩ => show win5_4.index t (0 : Fin 2) * 1 + 1 * 0 = 0; omega
  | ⟨1, _⟩ => show win5_4.index t (1 : Fin 2) * 64 + 1 * j.val = j.val; omega

theorem embOut_R5 (t : Fin cfg5.N) (p : Fin 10000) (j : Fin 64) (h : t.val * 10000 + p.val < 100000) :
    ((cfg5.win 5).blk t).view.emb (ix2 p j) = (ix2 ⟨t.val * 10000 + p.val, h⟩ j : S100000x64.Idx) := by
  obtain ⟨-, -, -, -, -, -, -, -, -, -, e0, e1⟩ := idx_R5 t
  funext a; apply Fin.ext
  match a with
  | ⟨0, _⟩ => show win5_5.index t (0 : Fin 2) * 10000 + 1 * p.val = t.val * 10000 + p.val; omega
  | ⟨1, _⟩ => show win5_5.index t (1 : Fin 2) * 64 + 1 * j.val = j.val; omega

abbrev res_R5 (c : Dev nD) : S100000x64.Idx → EReal :=
  Gnn.arr2 (Gnn.bn (Gnn.hat2 (V c main_v117_0 : S100000x64.Idx → EReal)) (Gnn.hatRow (V c main_v131 : S1x64.Idx → EReal))
    (Gnn.hatRow (V c main_v132 : S1x64.Idx → EReal)) (Gnn.hatRow (V c main_v133 : S1x64.Idx → EReal))
    (Gnn.hatRow (V c main_v134 : S1x64.Idx → EReal)))

theorem flushed_R5 (c : Dev nD) (t : Fin cfg5.N) :
    (dat5 (F := Ideal) V c).flushed 5 t = ((cfg5.win 5).blk t).view.read (Elt Ideal) (res_R5 V c) := by
  have ht : t.val < 10 := lt_of_lt_of_eq t.isLt N_5
  show (cfg5.win 5).cut (grid5.coords t) ((dat5 (F := Ideal) V c).after 5 t) = _
  rw [after5_5]
  unfold out5_5
  rw [View.canon_unit_zero zeroOff_R1]
  simp only [View.ld_unit_zero (S := S10000x64) zeroOff_R1, View.ld_unit_zero (S := S1x64) zeroOff_R1]
  funext y
  obtain ⟨p, j, rfl⟩ : ∃ (p : Fin 10000) (j : Fin 64), y = ix2 p j := ⟨y 0, y 1, eq_ix2 y⟩
  have hr : t.val * 10000 + p.val < 100000 := by have := p.isLt; omega
  show k5_pay1 (iblk5 V c 0 t) (iblk5 V c 1 t) (iblk5 V c 2 t) (iblk5 V c 3 t) (iblk5 V c 4 t) (ix2 p j)
      = res_R5 V c (((cfg5.win 5).blk t).view.emb (ix2 p j))
  rw [embOut_R5 t p j hr]
  refine (pay_R1 _ _ _ _ _ p j).trans ?_
  rw [blkH_R5 V c t p j hr, blkRow1_R5 V c t j, blkRow2_R5 V c t j, blkRow3_R5 V c t j, blkRow4_R5 V c t j]
  rfl

theorem memBlk_R5 (t : Fin cfg5.N) (i : S100000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v135).slice (win5_5.rect t)).set ↔ _
  rw [View.set_slice_whole, Rect.mem_set_unit]
  exact Iff.rfl

theorem cover_R5 (i : S100000x64.Idx) :
    ∃ t : Fin cfg5.N, (cfg5.win 5).flush t = true ∧ i ∈ ((cfg5.win 5).blk t).view.set := by
  have hi0 : (i 0).val < 100000 := idx2_lt0 i
  have hi1 : (i 1).val < 64 := idx2_lt1 i
  have hq : (i 0).val / 10000 < cfg5.N := lt_of_lt_of_eq (show (i 0).val / 10000 < 10 by omega) N_5.symm
  obtain ⟨-, -, -, -, -, -, -, -, -, -, e0, e1⟩ := idx_R5 ⟨(i 0).val / 10000, hq⟩
  have e0' : win5_5.index ⟨(i 0).val / 10000, hq⟩ (0 : Fin 2) = (i 0).val / 10000 := e0
  refine ⟨⟨(i 0).val / 10000, hq⟩, flush5_5 _, ?_⟩
  rw [memBlk_R5]
  intro a
  match a with
  | ⟨0, _⟩ =>
    show win5_5.index ⟨(i 0).val / 10000, hq⟩ (0 : Fin 2) * 10000 ≤ (i 0).val
      ∧ (i 0).val < win5_5.index ⟨(i 0).val / 10000, hq⟩ (0 : Fin 2) * 10000 + 10000
    omega
  | ⟨1, _⟩ =>
    show win5_5.index ⟨(i 0).val / 10000, hq⟩ (1 : Fin 2) * 64 ≤ (i 1).val
      ∧ (i 1).val < win5_5.index ⟨(i 0).val / 10000, hq⟩ (1 : Fin 2) * 64 + 64
    omega

theorem final_R5 (c : Dev nD) : (dat5 (F := Ideal) V c).arrAt 5 cfg5.N = res_R5 V c :=
  (dat5 (F := Ideal) V c).arrAt_eq_of_cover 5 (res_R5 V c) (fun t _ => flushed_R5 V c t) (cover_R5)

theorem bn5 (c : Dev nD) (r : Fin 100000) (j : Fin 64) :
    ((dat5 (F := Ideal) V c).arrAt 5 cfg5.N : S100000x64.Idx → EReal) (ix2 r j)
      = Gnn.bn (Gnn.hat2 (V c main_v117_0 : S100000x64.Idx → EReal)) (Gnn.hatRow (V c main_v131 : S1x64.Idx → EReal))
          (Gnn.hatRow (V c main_v132 : S1x64.Idx → EReal)) (Gnn.hatRow (V c main_v133 : S1x64.Idx → EReal))
          (Gnn.hatRow (V c main_v134 : S1x64.Idx → EReal)) r j :=
  congrFun (final_R5 V c) (ix2 r j)

end Cert.KernelIdeal.RegionVal

end
-- ==== Proof.KLayer2.lean ====
import proofs.«406622_j66486093742154_3_alg».proof.Proof.Gen.KernelIdeal.Frame
import proofs.«406622_j66486093742154_3_alg».proof.Proof.Spec
import proofs.«406622_j66486093742154_3_alg».proof.Proof.SpecMath
import proofs.«406622_j66486093742154_3_alg».proof.Proof.KStats
import proofs.«406622_j66486093742154_3_alg».proof.Proof.SliceRead
import proofs.«406622_j66486093742154_3_alg».proof.Proof.RegionNode4
import proofs.«406622_j66486093742154_3_alg».proof.Proof.RegionBn5
import Idealize.ShloMosaic.Lib.Pipeline.Value
import Idealize.ShloMosaic.Lib.ValueLayout
import Idealize.ShloMosaic.Lib.IdealHost

set_option maxRecDepth 16384
set_option maxHeartbeats 400000

noncomputable section
namespace Cert.KernelIdeal.KLayer

open Cert.KernelIdeal Cert.KernelIdeal.Gen Gnn Idealize.ShloMosaic Idealize.ShloMosaic.ValueIdx
open Idealize.ShloMosaic.TcCoe

variable (m : (ℓ : Loc nD τ sig) → Buf (Elt Ideal) ℓ) (ρ : Dev nD → PrngReg)

namespace L2

local macro "walk_host" : tactic => `(tactic|
  refine (StableHlo.after_of_forall_not_mem _ _ (List.forall_iff_forall_mem.mp (by
    simp only [hostOps0, hostOps0_1, hostOps0_2, hostOps0_3, hostOps0_4, hostOps1, hostOps2, hostOps2_1, hostOps2_2, hostOps2_3, hostOps2_4, hostOps3, hostOps4, hostOps4_1, hostOps4_2, hostOps4_3, hostOps4_4, hostOps5, hostOps6, hostOps6_1, hostOps6_2, hostOps6_3, hostOps6_4, hostOps7, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_)

local macro "walk_region" : tactic => `(tactic| first
  | (rw [W6_of_ne]; rotate_left; decide) | (rw [W8_of_ne]; rotate_left; decide)
  | (rw [W14_of_ne]; rotate_left; decide) | (rw [W16_of_ne]; rotate_left; decide)
  | (rw [W22_of_ne]; rotate_left; decide) | (rw [W24_of_ne]; rotate_left; decide)
  | (rw [W30_of_ne]; rotate_left; decide) | (rw [W32_of_ne]; rotate_left; decide))

local macro "walk_step" : tactic => `(tactic| first | walk_region | walk_host)

abbrev kW : Fin 3 := 1
abbrev kN : Fin 4 := 2

theorem arg12_at (c : Dev nD) : W16 (F := Ideal) m ρ c (Proc.devRef .tc main_arg12) = m ((c : Thread nD τ).loc main_arg12) := by
  repeat walk_step
  rfl
theorem arg13_at (c : Dev nD) : W16 (F := Ideal) m ρ c (Proc.devRef .tc main_arg13) = m ((c : Thread nD τ).loc main_arg13) := by
  repeat walk_step
  rfl
theorem arg14_at (c : Dev nD) : W16 (F := Ideal) m ρ c (Proc.devRef .tc main_arg14) = m ((c : Thread nD τ).loc main_arg14) := by
  repeat walk_step
  rfl
theorem arg15_at (c : Dev nD) : W16 (F := Ideal) m ρ c (Proc.devRef .tc main_arg15) = m ((c : Thread nD τ).loc main_arg15) := by
  repeat walk_step
  rfl
theorem arg16_at (c : Dev nD) : W16 (F := Ideal) m ρ c (Proc.devRef .tc main_arg16) = m ((c : Thread nD τ).loc main_arg16) := by
  repeat walk_step
  rfl
theorem arg17_at (c : Dev nD) : W16 (F := Ideal) m ρ c (Proc.devRef .tc main_arg17) = m ((c : Thread nD τ).loc main_arg17) := by
  repeat walk_step
  rfl

abbrev X (c : Dev nD) : Fin 100000 → Fin 64 → EReal :=
  hat2 (W16 (F := Ideal) m ρ c (Proc.devRef .tc main_v87) : S100000x64.Idx → EReal)

abbrev AG (c : Dev nD) : Fin 100000 → Fin 64 → EReal :=
  hat2 (W21 (F := Ideal) m ρ c (Proc.devRef .tc main_v114) : S100000x64.Idx → EReal)

abbrev P1 (c : Dev nD) : Fin 64 → Fin 64 → EReal := fun o a => (m ((c : Thread nD τ).loc main_arg12) : S3x64x64.Idx → EReal) (ix3 kW o a)
abbrev Q1 (c : Dev nD) : Fin 64 → EReal := fun o => (m ((c : Thread nD τ).loc main_arg13) : S3x64.Idx → EReal) (ix2 kW o)
abbrev P2 (c : Dev nD) : Fin 64 → Fin 64 → EReal := fun o a => (m ((c : Thread nD τ).loc main_arg14) : S3x64x64.Idx → EReal) (ix3 kW o a)
abbrev Q2 (c : Dev nD) : Fin 64 → EReal := fun o => (m ((c : Thread nD τ).loc main_arg15) : S3x64.Idx → EReal) (ix2 kW o)
abbrev GA (c : Dev nD) : Fin 64 → EReal := fun j => (m ((c : Thread nD τ).loc main_arg16) : S4x64.Idx → EReal) (ix2 kN j)
abbrev BE (c : Dev nD) : Fin 64 → EReal := fun j => (m ((c : Thread nD τ).loc main_arg17) : S4x64.Idx → EReal) (ix2 kN j)

abbrev NN (c : Dev nD) : Fin 100000 → Fin 64 → EReal := node 64 (X m ρ c) (AG m ρ c) (P1 m c) (Q1 m c) (P2 m c) (Q2 m c)

theorem x_at (c : Dev nD) : W21 (F := Ideal) m ρ c (Proc.devRef .tc main_v87) = W16 (F := Ideal) m ρ c (Proc.devRef .tc main_v87) := by
  walk_host; walk_host; walk_host; walk_host; walk_host
  rfl

theorem w1_at (c : Dev nD) (o a : Fin 64) :
    (W21 (F := Ideal) m ρ c (Proc.devRef .tc main_v93) : S64x64.Idx → EReal) (ix2 o a) = P1 m c o a := by
  have e : W21 (F := Ideal) m ρ c (Proc.devRef .tc main_v93) = W17 (F := Ideal) m ρ c (Proc.devRef .tc main_v93) := by
    walk_host; walk_host; walk_host; walk_host
    rfl
  refine (congrFun e _).trans ?_
  show (StableHlo.after (hostOps4 (F := Ideal)) _ (Proc.devRef .tc main_v93) : S64x64.Idx → EReal) (ix2 o a) = _
  after_results_simp
  refine (mat_slice _ kW rfl _ _ _ o a).trans ?_
  exact congrFun (arg12_at m ρ c) _

theorem w2_at (c : Dev nD) (o a : Fin 64) :
    (W21 (F := Ideal) m ρ c (Proc.devRef .tc main_v97) : S64x64.Idx → EReal) (ix2 o a) = P2 m c o a := by
  have e : W21 (F := Ideal) m ρ c (Proc.devRef .tc main_v97) = W17 (F := Ideal) m ρ c (Proc.devRef .tc main_v97) := by
    walk_host; walk_host; walk_host; walk_host
    rfl
  refine (congrFun e _).trans ?_
  show (StableHlo.after (hostOps4 (F := Ideal)) _ (Proc.devRef .tc main_v97) : S64x64.Idx → EReal) (ix2 o a) = _
  after_results_simp
  refine (mat_slice _ kW rfl _ _ _ o a).trans ?_
  exact congrFun (arg14_at m ρ c) _

theorem v47_at (c : Dev nD) (o : Fin 64) :
    (W17 (F := Ideal) m ρ c (Proc.devRef .tc main_v95) : S64.Idx → EReal) (ix1 o) = Q1 m c o := by
  show (StableHlo.after (hostOps4 (F := Ideal)) _ (Proc.devRef .tc main_v95) : S64.Idx → EReal) (ix1 o) = _
  after_results_simp
  refine (row_slice _ kW rfl _ _ _ o).trans ?_
  exact congrFun (arg13_at m ρ c) _

theorem v51_at (c : Dev nD) (o : Fin 64) :
    (W17 (F := Ideal) m ρ c (Proc.devRef .tc main_v99) : S64.Idx → EReal) (ix1 o) = Q2 m c o := by
  show (StableHlo.after (hostOps4 (F := Ideal)) _ (Proc.devRef .tc main_v99) : S64.Idx → EReal) (ix1 o) = _
  after_results_simp
  refine (row_slice _ kW rfl _ _ _ o).trans ?_
  exact congrFun (arg15_at m ρ c) _

theorem v53_at (c : Dev nD) (o : Fin 64) :
    (W17 (F := Ideal) m ρ c (Proc.devRef .tc main_v101) : S64.Idx → EReal) (ix1 o) = GA m c o := by
  show (StableHlo.after (hostOps4 (F := Ideal)) _ (Proc.devRef .tc main_v101) : S64.Idx → EReal) (ix1 o) = _
  after_results_simp
  refine (row_slice _ kN rfl _ _ _ o).trans ?_
  exact congrFun (arg16_at m ρ c) _

theorem v55_at (c : Dev nD) (o : Fin 64) :
    (W17 (F := Ideal) m ρ c (Proc.devRef .tc main_v103) : S64.Idx → EReal) (ix1 o) = BE m c o := by
  show (StableHlo.after (hostOps4 (F := Ideal)) _ (Proc.devRef .tc main_v103) : S64.Idx → EReal) (ix1 o) = _
  after_results_simp
  refine (row_slice _ kN rfl _ _ _ o).trans ?_
  exact congrFun (arg17_at m ρ c) _

theorem b1_mid (c : Dev nD) (o : Fin 64) :
    (W21 (F := Ideal) m ρ c (Proc.devRef .tc main_v115) : S1x64.Idx → EReal) (ix2 0 o)
      = (W20 (F := Ideal) m ρ c (Proc.devRef .tc main_v95) : S64.Idx → EReal) (ix1 o) := by
  show (StableHlo.after (hostOps4_4 (F := Ideal)) _ (Proc.devRef .tc main_v115) : S1x64.Idx → EReal) (ix2 0 o) = _
  after_results_simp
  exact shapeCast_a_1a_apply _ _ 0 o

theorem b2_mid (c : Dev nD) (o : Fin 64) :
    (W21 (F := Ideal) m ρ c (Proc.devRef .tc main_v116) : S1x64.Idx → EReal) (ix2 0 o)
      = (W20 (F := Ideal) m ρ c (Proc.devRef .tc main_v99) : S64.Idx → EReal) (ix1 o) := by
  show (StableHlo.after (hostOps4_4 (F := Ideal)) _ (Proc.devRef .tc main_v116) : S1x64.Idx → EReal) (ix2 0 o) = _
  after_results_simp
  exact shapeCast_a_1a_apply _ _ 0 o

theorem b1_at (c : Dev nD) (o : Fin 64) :
    (W21 (F := Ideal) m ρ c (Proc.devRef .tc main_v115) : S1x64.Idx → EReal) (ix2 0 o) = Q1 m c o := by
  refine (b1_mid m ρ c o).trans ?_
  have e : W20 (F := Ideal) m ρ c (Proc.devRef .tc main_v95) = W17 (F := Ideal) m ρ c (Proc.devRef .tc main_v95) := by
    walk_host; walk_host; walk_host
    rfl
  exact (congrFun e _).trans (v47_at m ρ c o)

theorem b2_at (c : Dev nD) (o : Fin 64) :
    (W21 (F := Ideal) m ρ c (Proc.devRef .tc main_v116) : S1x64.Idx → EReal) (ix2 0 o) = Q2 m c o := by
  refine (b2_mid m ρ c o).trans ?_
  have e : W20 (F := Ideal) m ρ c (Proc.devRef .tc main_v99) = W17 (F := Ideal) m ρ c (Proc.devRef .tc main_v99) := by
    walk_host; walk_host; walk_host
    rfl
  exact (congrFun e _).trans (v51_at m ρ c o)

theorem node_at (c : Dev nD) : RegionVal.N4 (V21 (F := Ideal) m ρ) c = NN m ρ c := by
  have h1 : hat2 (V21 (F := Ideal) m ρ c main_v87 : S100000x64.Idx → EReal) = X m ρ c := congrArg hat2 (x_at m ρ c)
  have h3 : hat2 (V21 (F := Ideal) m ρ c main_v93 : S64x64.Idx → EReal) = P1 m c := funext fun o => funext fun a => w1_at m ρ c o a
  have h4 : hatRow (V21 (F := Ideal) m ρ c main_v115 : S1x64.Idx → EReal) = Q1 m c := funext fun o => b1_at m ρ c o
  have h5 : hat2 (V21 (F := Ideal) m ρ c main_v97 : S64x64.Idx → EReal) = P2 m c := funext fun o => funext fun a => w2_at m ρ c o a
  have h6 : hatRow (V21 (F := Ideal) m ρ c main_v116 : S1x64.Idx → EReal) = Q2 m c := funext fun o => b2_at m ρ c o
  show node 64 _ _ _ _ _ _ = node 64 _ _ _ _ _ _
  rw [h1, h3, h4, h5, h6]

theorem h_at (c : Dev nD) (r : Fin 100000) (j : Fin 64) :
    (W23 (F := Ideal) m ρ c (Proc.devRef .tc main_v117_0) : S100000x64.Idx → EReal) (ix2 r j) = NN m ρ c r j := by
  have e : W23 (F := Ideal) m ρ c (Proc.devRef .tc main_v117_0) = W22 (F := Ideal) m ρ c (Proc.devRef .tc main_v117_0) := by
    walk_host
    rfl
  refine (congrFun e _).trans ?_
  refine (congrFun (W22_arr (F := Ideal) m ρ c 6) _).trans ?_
  refine (RegionVal.hmlp4 (V21 (F := Ideal) m ρ) c r j).trans ?_
  exact congrFun (congrFun (node_at m ρ c) r) j

theorem ps_at (c : Dev nD) (t : Fin 10) (s : Fin 8) (j : Fin 64) :
    (W22 (F := Ideal) m ρ c (Proc.devRef .tc main_v117_1) : S10x8x64.Idx → EReal) (ix3 t s j)
      = ∑ g : Fin 1250, NN m ρ c (row t g s) j := by
  refine (congrFun (W22_arr (F := Ideal) m ρ c 7) _).trans ?_
  refine (RegionVal.psum4 (V21 (F := Ideal) m ρ) c t s j).trans ?_
  rw [node_at m ρ c]

theorem pq_at (c : Dev nD) (t : Fin 10) (s : Fin 8) (j : Fin 64) :
    (W22 (F := Ideal) m ρ c (Proc.devRef .tc main_v117_2) : S10x8x64.Idx → EReal) (ix3 t s j)
      = ∑ g : Fin 1250, NN m ρ c (row t g s) j * NN m ρ c (row t g s) j := by
  refine (congrFun (W22_arr (F := Ideal) m ρ c 8) _).trans ?_
  refine (RegionVal.psumsq4 (V21 (F := Ideal) m ρ) c t s j).trans ?_
  rw [node_at m ρ c]

theorem mean_at (c : Dev nD) (j : Fin 64) :
    (W23 (F := Ideal) m ρ c (Proc.devRef .tc main_v131) : S1x64.Idx → EReal) (ix2 0 j) = colMean (NN m ρ c) j := by
  show (StableHlo.after (hostOps5 (F := Ideal)) _ (Proc.devRef .tc main_v131) : S1x64.Idx → EReal) (ix2 0 j) = _
  after_results_simp
  refine (shapeCast_a_1a_apply _ _ 0 j).trans ?_
  exact meanVec_apply _ (NN m ρ c) (ps_at m ρ c) _ _ _ j

theorem rstd_at (c : Dev nD) (j : Fin 64) :
    (W23 (F := Ideal) m ρ c (Proc.devRef .tc main_v132) : S1x64.Idx → EReal) (ix2 0 j)
      = Ideal.rsqrt (varK (NN m ρ c) j + eps) := by
  show (StableHlo.after (hostOps5 (F := Ideal)) _ (Proc.devRef .tc main_v132) : S1x64.Idx → EReal) (ix2 0 j) = _
  after_results_simp
  refine (shapeCast_a_1a_apply _ _ 0 j).trans ?_
  exact rstdVec_apply _ _ (NN m ρ c) (ps_at m ρ c) (pq_at m ρ c) _ _ _ j

theorem gamma_mid (c : Dev nD) (j : Fin 64) :
    (W23 (F := Ideal) m ρ c (Proc.devRef .tc main_v133) : S1x64.Idx → EReal) (ix2 0 j)
      = (W22 (F := Ideal) m ρ c (Proc.devRef .tc main_v101) : S64.Idx → EReal) (ix1 j) := by
  show (StableHlo.after (hostOps5 (F := Ideal)) _ (Proc.devRef .tc main_v133) : S1x64.Idx → EReal) (ix2 0 j) = _
  after_results_simp
  exact shapeCast_a_1a_apply _ _ 0 j

theorem beta_mid (c : Dev nD) (j : Fin 64) :
    (W23 (F := Ideal) m ρ c (Proc.devRef .tc main_v134) : S1x64.Idx → EReal) (ix2 0 j)
      = (W22 (F := Ideal) m ρ c (Proc.devRef .tc main_v103) : S64.Idx → EReal) (ix1 j) := by
  show (StableHlo.after (hostOps5 (F := Ideal)) _ (Proc.devRef .tc main_v134) : S1x64.Idx → EReal) (ix2 0 j) = _
  after_results_simp
  exact shapeCast_a_1a_apply _ _ 0 j

theorem gamma_at (c : Dev nD) (j : Fin 64) :
    (W23 (F := Ideal) m ρ c (Proc.devRef .tc main_v133) : S1x64.Idx → EReal) (ix2 0 j) = GA m c j := by
  refine (gamma_mid m ρ c j).trans ?_
  have e : W22 (F := Ideal) m ρ c (Proc.devRef .tc main_v101) = W17 (F := Ideal) m ρ c (Proc.devRef .tc main_v101) := by
    walk_region; walk_host; walk_host; walk_host; walk_host
    rfl
  exact (congrFun e _).trans (v53_at m ρ c j)

theorem beta_at (c : Dev nD) (j : Fin 64) :
    (W23 (F := Ideal) m ρ c (Proc.devRef .tc main_v134) : S1x64.Idx → EReal) (ix2 0 j) = BE m c j := by
  refine (beta_mid m ρ c j).trans ?_
  have e : W22 (F := Ideal) m ρ c (Proc.devRef .tc main_v103) = W17 (F := Ideal) m ρ c (Proc.devRef .tc main_v103) := by
    walk_region; walk_host; walk_host; walk_host; walk_host
    rfl
  exact (congrFun e _).trans (v55_at m ρ c j)

theorem layer_at (c : Dev nD) :
    (W24 (F := Ideal) m ρ c (Proc.devRef .tc main_v135) : S100000x64.Idx → EReal)
      = arr2 (layerK 64 (X m ρ c) (AG m ρ c) (P1 m c) (Q1 m c) (P2 m c) (Q2 m c) (GA m c) (BE m c)) := by
  funext i
  obtain ⟨r, j, rfl⟩ : ∃ (r : Fin 100000) (j : Fin 64), i = ix2 r j := ⟨i 0, i 1, eq_ix2 i⟩
  refine (congrFun (W24_arr (F := Ideal) m ρ c 5) _).trans ?_
  refine (RegionVal.bn5 (V23 (F := Ideal) m ρ) c r j).trans ?_
  have h1 : hat2 (V23 (F := Ideal) m ρ c main_v117_0 : S100000x64.Idx → EReal) = NN m ρ c := funext fun r => funext fun j => h_at m ρ c r j
  have h2 : hatRow (V23 (F := Ideal) m ρ c main_v131 : S1x64.Idx → EReal) = colMean (NN m ρ c) := funext fun j => mean_at m ρ c j
  have h3 : hatRow (V23 (F := Ideal) m ρ c main_v132 : S1x64.Idx → EReal) = fun j => Ideal.rsqrt (varK (NN m ρ c) j + eps) := funext fun j => rstd_at m ρ c j
  have h4 : hatRow (V23 (F := Ideal) m ρ c main_v133 : S1x64.Idx → EReal) = GA m c := funext fun j => gamma_at m ρ c j
  have h5 : hatRow (V23 (F := Ideal) m ρ c main_v134 : S1x64.Idx → EReal) = BE m c := funext fun j => beta_at m ρ c j
  rw [h1, h2, h3, h4, h5]
  show _ = layerK 64 (X m ρ c) (AG m ρ c) (P1 m c) (Q1 m c) (P2 m c) (Q2 m c) (GA m c) (BE m c) r j
  unfold layerK
  rfl

end L2

theorem layer2 (c : Dev nD) :
    (W24 (F := Ideal) m ρ c (Proc.devRef .tc main_v135) : S100000x64.Idx → EReal)
      = arr2 (layerK 64 (hat2 (W16 (F := Ideal) m ρ c (Proc.devRef .tc main_v87) : S100000x64.Idx → EReal))
          (hat2 (W21 (F := Ideal) m ρ c (Proc.devRef .tc main_v114) : S100000x64.Idx → EReal))
          (fun o a => (m ((c : Thread nD τ).loc main_arg12) : S3x64x64.Idx → EReal) (ix3 1 o a))
          (fun o => (m ((c : Thread nD τ).loc main_arg13) : S3x64.Idx → EReal) (ix2 1 o))
          (fun o a => (m ((c : Thread nD τ).loc main_arg14) : S3x64x64.Idx → EReal) (ix3 1 o a))
          (fun o => (m ((c : Thread nD τ).loc main_arg15) : S3x64.Idx → EReal) (ix2 1 o))
          (fun j => (m ((c : Thread nD τ).loc main_arg16) : S4x64.Idx → EReal) (ix2 2 j))
          (fun j => (m ((c : Thread nD τ).loc main_arg17) : S4x64.Idx → EReal) (ix2 2 j))) :=
  L2.layer_at m ρ c

end Cert.KernelIdeal.KLayer

end
-- ==== Proof.RegionNode6.lean ====
import proofs.«406622_j66486093742154_3_alg».proof.Proof.Gen.KernelIdeal.Frame
import proofs.«406622_j66486093742154_3_alg».proof.Proof.Spec
import proofs.«406622_j66486093742154_3_alg».proof.Proof.RegionNode2
import Idealize.ShloMosaic.Lib.Pipeline.Value
import Idealize.ShloMosaic.Lib.ValueIdx
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.ShloMosaic.ValueIdx
open Idealize.ShloMosaic.Pipeline (Dat)

abbrev N6 (V : (c : Dev nD) → (b : Ref sig .tc) → Buf (Elt Ideal) ((c : Thread nD τ).loc b)) (c : Dev nD) :
    Fin 100000 → Fin 64 → EReal :=
  Gnn.node 64 (Gnn.hat2 (V c main_v135 : S100000x64.Idx → EReal)) (Gnn.hat2 (V c main_v162 : S100000x64.Idx → EReal))
    (Gnn.hat2 (V c main_v141 : S64x64.Idx → EReal)) (Gnn.hatRow (V c main_v163 : S1x64.Idx → EReal))
    (Gnn.hat2 (V c main_v145 : S64x64.Idx → EReal)) (Gnn.hatRow (V c main_v164 : S1x64.Idx → EReal))

namespace R6

open R2 (pay2_node pay4_node pay1_node hz2 hz3)

section Blocks
variable (V : (c : Dev nD) → (b : Ref sig .tc) → Buf (Elt Ideal) ((c : Thread nD τ).loc b))

theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 3) = t.val ∧ win6_7.index t (1 : Fin 3) = 0 ∧ win6_7.index t (2 : Fin 3) = 0
    ∧ win6_8.index t (0 : Fin 3) = t.val ∧ win6_8.index t (1 : Fin 3) = 0 ∧ win6_8.index t (2 : Fin 3) = 0 :=
  (by decide +kernel : ∀ t : Fin grid6.N, _)

theorem xblk (c : Dev nD) (t : Fin cfg6.N) (p : Fin 10000) (a : Fin 64) (k : S100000x64.Idx)
    (hk0 : (k 0).val = t.val * 10000 + p.val) (hk1 : (k 1).val = a.val) :
    (iblk6 V c 0 t : Vec Ideal S10000x64 .f32) (ix2 p a) = (V c main_v135 : S100000x64.Idx → EReal) k := by
  obtain ⟨e0, e1, -⟩ := idx_facts t
  unfold iblk6
  rw [View.read_apply]
  show V c main_v135 _ = V c main_v135 k
  congr 1
  funext b
  apply Fin.ext
  match b with
  | ⟨0, _⟩ => show win6_0.index t (0 : Fin 2) * 10000 + 1 * p.val = (k 0).val; rw [e0, hk0]; omega
  | ⟨1, _⟩ => show win6_0.index t (1 : Fin 2) * 64 + 1 * a.val = (k 1).val; rw [e1, hk1]; omega

theorem aggblk (c : Dev nD) (t : Fin cfg6.N) (p : Fin 10000) (a : Fin 64) (k : S100000x64.Idx)
    (hk0 : (k 0).val = t.val * 10000 + p.val) (hk1 : (k 1).val = a.val) :
    (iblk6 V c 1 t : Vec Ideal S10000x64 .f32) (ix2 p a) = (V c main_v162 : S100000x64.Idx → EReal) k := by
  obtain ⟨-, -, e0, e1, -⟩ := idx_facts t
  unfold iblk6
  rw [View.read_apply]
  show V c main_v162 _ = V c main_v162 k
  congr 1
  funext b
  apply Fin.ext
  match b with
  | ⟨0, _⟩ => show win6_1.index t (0 : Fin 2) * 10000 + 1 * p.val = (k 0).val; rw [e0, hk0]; omega
  | ⟨1, _⟩ => show win6_1.index t (1 : Fin 2) * 64 + 1 * a.val = (k 1).val; rw [e1, hk1]; omega

theorem w1blk (c : Dev nD) (t : Fin cfg6.N) :
    (iblk6 V c 2 t : Vec Ideal S64x64 .f32) = (V c main_v141 : S64x64.Idx → EReal) := by
  obtain ⟨-, -, -, -, e0, e1, -⟩ := idx_facts t
  funext y
  unfold iblk6
  rw [View.read_apply]
  show V c main_v141 _ = V c main_v141 y
  congr 1
  funext b
  apply Fin.ext
  match b with
  | ⟨0, _⟩ => show win6_2.index t (0 : Fin 2) * 64 + 1 * (y 0).val = (y 0).val; rw [e0]; omega
  | ⟨1, _⟩ => show win6_2.index t (1 : Fin 2) * 64 + 1 * (y 1).val = (y 1).val; rw [e1]; omega

theorem b1blk (c : Dev nD) (t : Fin cfg6.N) :
    (iblk6 V c 3 t : Vec Ideal S1x64 .f32) = (V c main_v163 : S1x64.Idx → EReal) := by
  obtain ⟨-, -, -, -, -, -, e0, e1, -⟩ := idx_facts t
  funext y
  unfold iblk6
  rw [View.read_apply]
  show V c main_v163 _ = V c main_v163 y
  congr 1
  funext b
  apply Fin.ext
  match b with
  | ⟨0, _⟩ => show win6_3.index t (0 : Fin 2) * 1 + 1 * (y 0).val = (y 0).val; rw [e0]; omega
  | ⟨1, _⟩ => show win6_3.index t (1 : Fin 2) * 64 + 1 * (y 1).val = (y 1).val; rw [e1]; omega

theorem w2blk (c : Dev nD) (t : Fin cfg6.N) :
    (iblk6 V c 4 t : Vec Ideal S64x64 .f32) = (V c main_v145 : S64x64.Idx → EReal) := by
  obtain ⟨-, -, -, -, -, -, -, -, e0, e1, -⟩ := idx_facts t
  funext y
  unfold iblk6
  rw [View.read_apply]
  show V c main_v145 _ = V c main_v145 y
  congr 1
  funext b
  apply Fin.ext
  match b with
  | ⟨0, _⟩ => show win6_4.index t (0 : Fin 2) * 64 + 1 * (y 0).val = (y 0).val; rw [e0]; omega
  | ⟨1, _⟩ => show win6_4.index t (1 : Fin 2) * 64 + 1 * (y 1).val = (y 1).val; rw [e1]; omega

theorem b2blk (c : Dev nD) (t : Fin cfg6.N) :
    (iblk6 V c 5 t : Vec Ideal S1x64 .f32) = (V c main_v164 : S1x64.Idx → EReal) := by
  obtain ⟨-, -, -, -, -, -, -, -, -, -, e0, e1, -⟩ := idx_facts t
  funext y
  unfold iblk6
  rw [View.read_apply]
  show V c main_v164 _ = V c main_v164 y
  congr 1
  funext b
  apply Fin.ext
  match b with
  | ⟨0, _⟩ => show win6_5.index t (0 : Fin 2) * 1 + 1 * (y 0).val = (y 0).val; rw [e0]; omega
  | ⟨1, _⟩ => show win6_5.index t (1 : Fin 2) * 64 + 1 * (y 1).val = (y 1).val; rw [e1]; omega

abbrev G6 (c : Dev nD) : S100000x64.Idx → EReal := Gnn.arr2 (N6 V c)
abbrev G7 (c : Dev nD) : S10x8x64.Idx → EReal := fun i => ∑ g : Fin 1250, N6 V c (Gnn.row (i 0) g (i 1)) (i 2)
abbrev G8 (c : Dev nD) : S10x8x64.Idx → EReal :=
  fun i => ∑ g : Fin 1250, N6 V c (Gnn.row (i 0) g (i 1)) (i 2) * N6 V c (Gnn.row (i 0) g (i 1)) (i 2)

theorem point6 (c : Dev nD) (t : Fin cfg6.N) (y : S10000x64.Idx) (i : S100000x64.Idx)
    (hi0 : (i 0).val = t.val * 10000 + (y 0).val) (hi1 : (i 1).val = (y 1).val) :
    k6_pay2 (iblk6 V c 0 t) (iblk6 V c 1 t) (V c main_v141 : S64x64.Idx → EReal) (V c main_v163 : S1x64.Idx → EReal)
      (V c main_v145 : S64x64.Idx → EReal) (V c main_v164 : S1x64.Idx → EReal) y = G6 V c i := by
  have ht : t.val < 10 := lt_of_lt_of_eq t.isLt N_6
  obtain ⟨p, q, rfl⟩ : ∃ (p : Fin 10000) (q : Fin 64), y = ix2 p q := ⟨y 0, y 1, eq_ix2 y⟩
  have hb : t.val * 10000 + p.val < 100000 := by clear hi0 hi1; omega
  obtain ⟨r, j, rfl⟩ : ∃ (r : Fin 100000) (j : Fin 64), i = ix2 r j := ⟨i 0, i 1, eq_ix2 i⟩
  obtain rfl : r = ⟨t.val * 10000 + p.val, hb⟩ := Fin.ext hi0
  obtain rfl : j = q := Fin.ext hi1
  exact pay2_node (iblk6 V c 0 t) (iblk6 V c 1 t) _ _ _ _ (V c main_v135 : S100000x64.Idx → EReal)
    (V c main_v162 : S100000x64.Idx → EReal) ⟨t.val, ht⟩ (fun p a => xblk V c t p a _ rfl rfl)
    (fun p a => aggblk V c t p a _ rfl rfl) _ _

theorem point7 (c : Dev nD) (t : Fin cfg6.N) (y : S1x8x64.Idx) (i : S10x8x64.Idx)
    (hi0 : (i 0).val = t.val) (hi1 : (i 1).val = (y 1).val) (hi2 : (i 2).val = (y 2).val) :
    k6_pay4 (iblk6 V c 0 t) (iblk6 V c 1 t) (V c main_v141 : S64x64.Idx → EReal) (V c main_v163 : S1x64.Idx → EReal)
      (V c main_v145 : S64x64.Idx → EReal) (V c main_v164 : S1x64.Idx → EReal) y = G7 V c i := by
  have ht : t.val < 10 := lt_of_lt_of_eq t.isLt N_6
  obtain ⟨z, s, q, rfl⟩ : ∃ (z : Fin 1) (s : Fin 8) (q : Fin 64), y = ix3 z s q := ⟨y 0, y 1, y 2, eq_ix3 y⟩
  obtain rfl : z = 0 := Subsingleton.elim _ _
  obtain ⟨u, s', j, rfl⟩ : ∃ (u : Fin 10) (s' : Fin 8) (j : Fin 64), i = ix3 u s' j := ⟨i 0, i 1, i 2, eq_ix3 i⟩
  obtain rfl : u = ⟨t.val, ht⟩ := Fin.ext hi0
  obtain rfl : s' = s := Fin.ext hi1
  obtain rfl : j = q := Fin.ext hi2
  exact pay4_node (iblk6 V c 0 t) (iblk6 V c 1 t) _ _ _ _ (V c main_v135 : S100000x64.Idx → EReal)
    (V c main_v162 : S100000x64.Idx → EReal) ⟨t.val, ht⟩ (fun p a => xblk V c t p a _ rfl rfl)
    (fun p a => aggblk V c t p a _ rfl rfl) _ _

theorem point8 (c : Dev nD) (t : Fin cfg6.N) (y : S1x8x64.Idx) (i : S10x8x64.Idx)
    (hi0 : (i 0).val = t.val) (hi1 : (i 1).val = (y 1).val) (hi2 : (i 2).val = (y 2).val) :
    k6_pay1 (k6_pay3 (iblk6 V c 0 t) (iblk6 V c 1 t) (V c main_v141 : S64x64.Idx → EReal) (V c main_v163 : S1x64.Idx → EReal)
      (V c main_v145 : S64x64.Idx → EReal) (V c main_v164 : S1x64.Idx → EReal)) y = G8 V c i := by
  have ht : t.val < 10 := lt_of_lt_of_eq t.isLt N_6
  obtain ⟨z, s, q, rfl⟩ : ∃ (z : Fin 1) (s : Fin 8) (q : Fin 64), y = ix3 z s q := ⟨y 0, y 1, y 2, eq_ix3 y⟩
  obtain rfl : z = 0 := Subsingleton.elim _ _
  obtain ⟨u, s', j, rfl⟩ : ∃ (u : Fin 10) (s' : Fin 8) (j : Fin 64), i = ix3 u s' j := ⟨i 0, i 1, i 2, eq_ix3 i⟩
  obtain rfl : u = ⟨t.val, ht⟩ := Fin.ext hi0
  obtain rfl : s' = s := Fin.ext hi1
  obtain rfl : j = q := Fin.ext hi2
  exact pay1_node (iblk6 V c 0 t) (iblk6 V c 1 t) _ _ _ _ (V c main_v135 : S100000x64.Idx → EReal)
    (V c main_v162 : S100000x64.Idx → EReal) ⟨t.val, ht⟩ (fun p a => xblk V c t p a _ rfl rfl)
    (fun p a => aggblk V c t p a _ rfl rfl) _ _

theorem flushed6 (c : Dev nD) (t : Fin cfg6.N) :
    (dat6 (F := Ideal) V c).flushed 6 t = ((cfg6.win 6).blk t).view.read (Elt Ideal) (G6 V c) := by
  show (cfg6.win 6).cut (grid6.coords t) ((dat6 V c).after 6 t) = _
  rw [after6_6]
  unfold out6_6
  rw [View.canon_unit_zero hz2]
  simp only [View.ld_unit_zero (S := S10000x64) hz2, View.ld_unit_zero (S := S64x64) hz2, View.ld_unit_zero (S := S1x64) hz2]
  rw [w1blk V c t, b1blk V c t, w2blk V c t, b2blk V c t]
  obtain ⟨-, -, -, -, -, -, -, -, -, -, -, -, e0, e1, -⟩ := idx_facts t
  funext y
  refine point6 V c t y (((cfg6.win 6).blk t).view.emb y) ?_ ?_
  · show win6_6.index t (0 : Fin 2) * 10000 + 1 * (y 0).val = _; rw [e0]; omega
  · show win6_6.index t (1 : Fin 2) * 64 + 1 * (y 1).val = _; rw [e1]; omega

theorem flushed7 (c : Dev nD) (t : Fin cfg6.N) :
    (dat6 (F := Ideal) V c).flushed 7 t = ((cfg6.win 7).blk t).view.read (Elt Ideal) (G7 V c) := by
  show (cfg6.win 7).cut (grid6.coords t) ((dat6 V c).after 7 t) = _
  rw [after6_7]
  unfold out6_7
  rw [View.canon_unit_zero hz3]
  simp only [View.ld_unit_zero (S := S10000x64) hz2, View.ld_unit_zero (S := S64x64) hz2, View.ld_unit_zero (S := S1x64) hz2]
  rw [w1blk V c t, b1blk V c t, w2blk V c t, b2blk V c t]
  obtain ⟨-, -, -, -, -, -, -, -, -, -, -, -, -, -, e0, e1, e2, -⟩ := idx_facts t
  funext y
  have hy0 : (y 0).val < 1 := (y 0).isLt
  refine point7 V c t y (((cfg6.win 7).blk t).view.emb y) ?_ ?_ ?_
  · show win6_7.index t (0 : Fin 3) * 1 + 1 * (y 0).val = _; rw [e0]; omega
  · show win6_7.index t (1 : Fin 3) * 8 + 1 * (y 1).val = _; rw [e1]; omega
  · show win6_7.index t (2 : Fin 3) * 64 + 1 * (y 2).val = _; rw [e2]; omega

theorem flushed8 (c : Dev nD) (t : Fin cfg6.N) :
    (dat6 (F := Ideal) V c).flushed 8 t = ((cfg6.win 8).blk t).view.read (Elt Ideal) (G8 V c) := by
  show (cfg6.win 8).cut (grid6.coords t) ((dat6 V c).after 8 t) = _
  rw [after6_8]
  unfold out6_8
  rw [View.canon_unit_zero hz3]
  simp only [View.ld_unit_zero (S := S10000x64) hz2, View.ld_unit_zero (S := S64x64) hz2, View.ld_unit_zero (S := S1x64) hz2]
  rw [w1blk V c t, b1blk V c t, w2blk V c t, b2blk V c t]
  obtain ⟨-, -, -, -, -, -, -, -, -, -, -, -, -, -, -, -, -, e0, e1, e2⟩ := idx_facts t
  funext y
  have hy0 : (y 0).val < 1 := (y 0).isLt
  refine point8 V c t y (((cfg6.win 8).blk t).view.emb y) ?_ ?_ ?_
  · show win6_8.index t (0 : Fin 3) * 1 + 1 * (y 0).val = _; rw [e0]; omega
  · show win6_8.index t (1 : Fin 3) * 8 + 1 * (y 1).val = _; rw [e1]; omega
  · show win6_8.index t (2 : Fin 3) * 64 + 1 * (y 2).val = _; rw [e2]; omega

theorem mem_blk6 (t : Fin cfg6.N) (i : S100000x64.Idx) :
    i ∈ ((cfg6.win 6).blk t).view.set ↔ ∀ a : Fin 2, win6_6.index t a * S10000x64.size a ≤ (i a).val
      ∧ (i a).val < win6_6.index t a * S10000x64.size a + S10000x64.size a := by
  show i ∈ ((View.whole main_v165_0).slice (win6_6.rect t)).set ↔ _
  rw [View.set_slice_whole, Rect.mem_set_unit]
  exact Iff.rfl

theorem mem_blk7 (t : Fin cfg6.N) (i : S10x8x64.Idx) :
    i ∈ ((cfg6.win 7).blk t).view.set ↔ ∀ a : Fin 3, win6_7.index t a * S1x8x64.size a ≤ (i a).val
      ∧ (i a).val < win6_7.index t a * S1x8x64.size a + S1x8x64.size a := by
  show i ∈ ((View.whole main_v165_1).slice (win6_7.rect t)).set ↔ _
  rw [View.set_slice_whole, Rect.mem_set_unit]
  exact Iff.rfl

theorem mem_blk8 (t : Fin cfg6.N) (i : S10x8x64.Idx) :
    i ∈ ((cfg6.win 8).blk t).view.set ↔ ∀ a : Fin 3, win6_8.index t a * S1x8x64.size a ≤ (i a).val
      ∧ (i a).val < win6_8.index t a * S1x8x64.size a + S1x8x64.size a := by
  show i ∈ ((View.whole main_v165_2).slice (win6_8.rect t)).set ↔ _
  rw [View.set_slice_whole, Rect.mem_set_unit]
  exact Iff.rfl

theorem cover6 (i : S100000x64.Idx) : ∃ t : Fin cfg6.N, (cfg6.win 6).flush t = true ∧ i ∈ ((cfg6.win 6).blk t).view.set := by
  have h0 : (i 0).val < 100000 := (i 0).isLt
  have h1 : (i 1).val < 64 := (i 1).isLt
  obtain ⟨t, ht⟩ : ∃ t : Fin cfg6.N, t.val = (i 0).val / 10000 :=
    ⟨⟨(i 0).val / 10000, lt_of_lt_of_eq (by omega) N_6.symm⟩, rfl⟩
  obtain ⟨-, -, -, -, -, -, -, -, -, -, -, -, e0, e1, -⟩ := idx_facts t
  refine ⟨t, flush6_6 t, ?_⟩
  rw [mem_blk6]
  intro a
  match a with
  | ⟨0, _⟩ => show win6_6.index t (0 : Fin 2) * 10000 ≤ (i 0).val ∧ (i 0).val < win6_6.index t (0 : Fin 2) * 10000 + 10000; rw [e0, ht]; omega
  | ⟨1, _⟩ => show win6_6.index t (1 : Fin 2) * 64 ≤ (i 1).val ∧ (i 1).val < win6_6.index t (1 : Fin 2) * 64 + 64; rw [e1]; omega

theorem cover7 (i : S10x8x64.Idx) : ∃ t : Fin cfg6.N, (cfg6.win 7).flush t = true ∧ i ∈ ((cfg6.win 7).blk t).view.set := by
  have h0 : (i 0).val < 10 := (i 0).isLt
  have h1 : (i 1).val < 8 := (i 1).isLt
  have h2 : (i 2).val < 64 := (i 2).isLt
  obtain ⟨t, ht⟩ : ∃ t : Fin cfg6.N, t.val = (i 0).val := ⟨⟨(i 0).val, lt_of_lt_of_eq h0 N_6.symm⟩, rfl⟩
  obtain ⟨-, -, -, -, -, -, -, -, -, -, -, -, -, -, e0, e1, e2, -⟩ := idx_facts t
  refine ⟨t, flush6_7 t, ?_⟩
  rw [mem_blk7]
  intro a
  match a with
  | ⟨0, _⟩ => show win6_7.index t (0 : Fin 3) * 1 ≤ (i 0).val ∧ (i 0).val < win6_7.index t (0 : Fin 3) * 1 + 1; rw [e0, ht]; omega
  | ⟨1, _⟩ => show win6_7.index t (1 : Fin 3) * 8 ≤ (i 1).val ∧ (i 1).val < win6_7.index t (1 : Fin 3) * 8 + 8; rw [e1]; omega
  | ⟨2, _⟩ => show win6_7.index t (2 : Fin 3) * 64 ≤ (i 2).val ∧ (i 2).val < win6_7.index t (2 : Fin 3) * 64 + 64; rw [e2]; omega

theorem cover8 (i : S10x8x64.Idx) : ∃ t : Fin cfg6.N, (cfg6.win 8).flush t = true ∧ i ∈ ((cfg6.win 8).blk t).view.set := by
  have h0 : (i 0).val < 10 := (i 0).isLt
  have h1 : (i 1).val < 8 := (i 1).isLt
  have h2 : (i 2).val < 64 := (i 2).isLt
  obtain ⟨t, ht⟩ : ∃ t : Fin cfg6.N, t.val = (i 0).val := ⟨⟨(i 0).val, lt_of_lt_of_eq h0 N_6.symm⟩, rfl⟩
  obtain ⟨-, -, -, -, -, -, -, -, -, -, -, -, -, -, -, -, -, e0, e1, e2⟩ := idx_facts t
  refine ⟨t, flush6_8 t, ?_⟩
  rw [mem_blk8]
  intro a
  match a with
  | ⟨0, _⟩ => show win6_8.index t (0 : Fin 3) * 1 ≤ (i 0).val ∧ (i 0).val < win6_8.index t (0 : Fin 3) * 1 + 1; rw [e0, ht]; omega
  | ⟨1, _⟩ => show win6_8.index t (1 : Fin 3) * 8 ≤ (i 1).val ∧ (i 1).val < win6_8.index t (1 : Fin 3) * 8 + 8; rw [e1]; omega
  | ⟨2, _⟩ => show win6_8.index t (2 : Fin 3) * 64 ≤ (i 2).val ∧ (i 2).val < win6_8.index t (2 : Fin 3) * 64 + 64; rw [e2]; omega

theorem arr6 (c : Dev nD) : (dat6 (F := Ideal) V c).arrAt 6 cfg6.N = G6 V c :=
  (dat6 V c).arrAt_eq_of_cover 6 (G6 V c) (fun t _ => flushed6 V c t) cover6

theorem arr7 (c : Dev nD) : (dat6 (F := Ideal) V c).arrAt 7 cfg6.N = G7 V c :=
  (dat6 V c).arrAt_eq_of_cover 7 (G7 V c) (fun t _ => flushed7 V c t) cover7

theorem arr8 (c : Dev nD) : (dat6 (F := Ideal) V c).arrAt 8 cfg6.N = G8 V c :=
  (dat6 V c).arrAt_eq_of_cover 8 (G8 V c) (fun t _ => flushed8 V c t) cover8

end Blocks

end R6

variable (V : (c : Dev nD) → (b : Ref sig .tc) → Buf (Elt Ideal) ((c : Thread nD τ).loc b))

theorem hmlp6 (c : Dev nD) (r : Fin 100000) (j : Fin 64) :
    ((dat6 (F := Ideal) V c).arrAt 6 cfg6.N : S100000x64.Idx → EReal) (ix2 r j) = N6 V c r j := by
  rw [R6.arr6 V c]

theorem psum6 (c : Dev nD) (t : Fin 10) (s : Fin 8) (j : Fin 64) :
    ((dat6 (F := Ideal) V c).arrAt 7 cfg6.N : S10x8x64.Idx → EReal) (ix3 t s j) = ∑ g : Fin 1250, N6 V c (Gnn.row t g s) j := by
  rw [R6.arr7 V c]

theorem psumsq6 (c : Dev nD) (t : Fin 10) (s : Fin 8) (j : Fin 64) :
    ((dat6 (F := Ideal) V c).arrAt 8 cfg6.N : S10x8x64.Idx → EReal) (ix3 t s j)
      = ∑ g : Fin 1250, N6 V c (Gnn.row t g s) j * N6 V c (Gnn.row t g s) j := by
  rw [R6.arr8 V c]

end Cert.KernelIdeal.RegionVal

end
-- ==== Proof.RegionBn7.lean ====
import proofs.«406622_j66486093742154_3_alg».proof.Proof.Gen.KernelIdeal.Frame
import proofs.«406622_j66486093742154_3_alg».proof.Proof.Spec
import proofs.«406622_j66486093742154_3_alg».proof.Proof.RegionBn1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem idx_R7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

theorem blkH_R7 (c : Dev nD) (t : Fin cfg7.N) (p : Fin 10000) (j : Fin 64) (h : t.val * 10000 + p.val < 100000) :
    iblk7 V c 0 t (ix2 p j) = (V c main_v165_0 : S100000x64.Idx → EReal) (ix2 ⟨t.val * 10000 + p.val, h⟩ j) := by
  obtain ⟨e0, e1, -⟩ := idx_R7 t
  show (V c main_v165_0 : S100000x64.Idx → EReal) (((cfg7.win 0).blk t).view.emb (ix2 p j)) = _
  refine congrArg _ (funext fun a => Fin.ext ?_)
  match a with
  | ⟨0, _⟩ => show win7_0.index t (0 : Fin 2) * 10000 + 1 * p.val = t.val * 10000 + p.val; omega
  | ⟨1, _⟩ => show win7_0.index t (1 : Fin 2) * 64 + 1 * j.val = j.val; omega

theorem blkRow1_R7 (c : Dev nD) (t : Fin cfg7.N) (j : Fin 64) :
    iblk7 V c 1 t (ix2 (0 : Fin 1) j) = (V c main_v179 : S1x64.Idx → EReal) (ix2 (0 : Fin 1) j) := by
  obtain ⟨-, -, e0, e1, -⟩ := idx_R7 t
  show (V c main_v179 : S1x64.Idx → EReal) (((cfg7.win 1).blk t).view.emb (ix2 (0 : Fin 1) j)) = _
  refine congrArg _ (funext fun a => Fin.ext ?_)
  match a with
  | ⟨0, _⟩ => show win7_1.index t (0 : Fin 2) * 1 + 1 * 0 = 0; omega
  | ⟨1, _⟩ => show win7_1.index t (1 : Fin 2) * 64 + 1 * j.val = j.val; omega

theorem blkRow2_R7 (c : Dev nD) (t : Fin cfg7.N) (j : Fin 64) :
    iblk7 V c 2 t (ix2 (0 : Fin 1) j) = (V c main_v180 : S1x64.Idx → EReal) (ix2 (0 : Fin 1) j) := by
  obtain ⟨-, -, -, -, e0, e1, -⟩ := idx_R7 t
  show (V c main_v180 : S1x64.Idx → EReal) (((cfg7.win 2).blk t).view.emb (ix2 (0 : Fin 1) j)) = _
  refine congrArg _ (funext fun a => Fin.ext ?_)
  match a with
  | ⟨0, _⟩ => show win7_2.index t (0 : Fin 2) * 1 + 1 * 0 = 0; omega
  | ⟨1, _⟩ => show win7_2.index t (1 : Fin 2) * 64 + 1 * j.val = j.val; omega

theorem blkRow3_R7 (c : Dev nD) (t : Fin cfg7.N) (j : Fin 64) :
    iblk7 V c 3 t (ix2 (0 : Fin 1) j) = (V c main_v181 : S1x64.Idx → EReal) (ix2 (0 : Fin 1) j) := by
  obtain ⟨-, -, -, -, -, -, e0, e1, -⟩ := idx_R7 t
  show (V c main_v181 : S1x64.Idx → EReal) (((cfg7.win 3).blk t).view.emb (ix2 (0 : Fin 1) j)) = _
  refine congrArg _ (funext fun a => Fin.ext ?_)
  match a with
  | ⟨0, _⟩ => show win7_3.index t (0 : Fin 2) * 1 + 1 * 0 = 0; omega
  | ⟨1, _⟩ => show win7_3.index t (1 : Fin 2) * 64 + 1 * j.val = j.val; omega

theorem blkRow4_R7 (c : Dev nD) (t : Fin cfg7.N) (j : Fin 64) :
    iblk7 V c 4 t (ix2 (0 : Fin 1) j) = (V c main_v182 : S1x64.Idx → EReal) (ix2 (0 : Fin 1) j) := by
  obtain ⟨-, -, -, -, -, -, -, -, e0, e1, -⟩ := idx_R7 t
  show (V c main_v182 : S1x64.Idx → EReal) (((cfg7.win 4).blk t).view.emb (ix2 (0 : Fin 1) j)) = _
  refine congrArg _ (funext fun a => Fin.ext ?_)
  match a with
  | ⟨0, _⟩ => show win7_4.index t (0 : Fin 2) * 1 + 1 * 0 = 0; omega
  | ⟨1, _⟩ => show win7_4.index t (1 : Fin 2) * 64 + 1 * j.val = j.val; omega

theorem embOut_R7 (t : Fin cfg7.N) (p : Fin 10000) (j : Fin 64) (h : t.val * 10000 + p.val < 100000) :
    ((cfg7.win 5).blk t).view.emb (ix2 p j) = (ix2 ⟨t.val * 10000 + p.val, h⟩ j : S100000x64.Idx) := by
  obtain ⟨-, -, -, -, -, -, -, -, -, -, e0, e1⟩ := idx_R7 t
  funext a; apply Fin.ext
  match a with
  | ⟨0, _⟩ => show win7_5.index t (0 : Fin 2) * 10000 + 1 * p.val = t.val * 10000 + p.val; omega
  | ⟨1, _⟩ => show win7_5.index t (1 : Fin 2) * 64 + 1 * j.val = j.val; omega

abbrev res_R7 (c : Dev nD) : S100000x64.Idx → EReal :=
  Gnn.arr2 (Gnn.bn (Gnn.hat2 (V c main_v165_0 : S100000x64.Idx → EReal)) (Gnn.hatRow (V c main_v179 : S1x64.Idx → EReal))
    (Gnn.hatRow (V c main_v180 : S1x64.Idx → EReal)) (Gnn.hatRow (V c main_v181 : S1x64.Idx → EReal))
    (Gnn.hatRow (V c main_v182 : S1x64.Idx → EReal)))

theorem flushed_R7 (c : Dev nD) (t : Fin cfg7.N) :
    (dat7 (F := Ideal) V c).flushed 5 t = ((cfg7.win 5).blk t).view.read (Elt Ideal) (res_R7 V c) := by
  have ht : t.val < 10 := lt_of_lt_of_eq t.isLt N_7
  show (cfg7.win 5).cut (grid7.coords t) ((dat7 (F := Ideal) V c).after 5 t) = _
  rw [after7_5]
  unfold out7_5
  rw [View.canon_unit_zero zeroOff_R1]
  simp only [View.ld_unit_zero (S := S10000x64) zeroOff_R1, View.ld_unit_zero (S := S1x64) zeroOff_R1]
  funext y
  obtain ⟨p, j, rfl⟩ : ∃ (p : Fin 10000) (j : Fin 64), y = ix2 p j := ⟨y 0, y 1, eq_ix2 y⟩
  have hr : t.val * 10000 + p.val < 100000 := by have := p.isLt; omega
  show k7_pay1 (iblk7 V c 0 t) (iblk7 V c 1 t) (iblk7 V c 2 t) (iblk7 V c 3 t) (iblk7 V c 4 t) (ix2 p j)
      = res_R7 V c (((cfg7.win 5).blk t).view.emb (ix2 p j))
  rw [embOut_R7 t p j hr]
  refine (pay_R1 _ _ _ _ _ p j).trans ?_
  rw [blkH_R7 V c t p j hr, blkRow1_R7 V c t j, blkRow2_R7 V c t j, blkRow3_R7 V c t j, blkRow4_R7 V c t j]
  rfl

theorem memBlk_R7 (t : Fin cfg7.N) (i : S100000x64.Idx) :
    i ∈ ((cfg7.win 5).blk t).view.set ↔ ∀ a : Fin 2, win7_5.index t a * S10000x64.size a ≤ (i a).val
      ∧ (i a).val < win7_5.index t a * S10000x64.size a + S10000x64.size a := by
  show i ∈ ((View.whole main_v183).slice (win7_5.rect t)).set ↔ _
  rw [View.set_slice_whole, Rect.mem_set_unit]
  exact Iff.rfl

theorem cover_R7 (i : S100000x64.Idx) :
    ∃ t : Fin cfg7.N, (cfg7.win 5).flush t = true ∧ i ∈ ((cfg7.win 5).blk t).view.set := by
  have hi0 : (i 0).val < 100000 := idx2_lt0 i
  have hi1 : (i 1).val < 64 := idx2_lt1 i
  have hq : (i 0).val / 10000 < cfg7.N := lt_of_lt_of_eq (show (i 0).val / 10000 < 10 by omega) N_7.symm
  obtain ⟨-, -, -, -, -, -, -, -, -, -, e0, e1⟩ := idx_R7 ⟨(i 0).val / 10000, hq⟩
  have e0' : win7_5.index ⟨(i 0).val / 10000, hq⟩ (0 : Fin 2) = (i 0).val / 10000 := e0
  refine ⟨⟨(i 0).val / 10000, hq⟩, flush7_5 _, ?_⟩
  rw [memBlk_R7]
  intro a
  match a with
  | ⟨0, _⟩ =>
    show win7_5.index ⟨(i 0).val / 10000, hq⟩ (0 : Fin 2) * 10000 ≤ (i 0).val
      ∧ (i 0).val < win7_5.index ⟨(i 0).val / 10000, hq⟩ (0 : Fin 2) * 10000 + 10000
    omega
  | ⟨1, _⟩ =>
    show win7_5.index ⟨(i 0).val / 10000, hq⟩ (1 : Fin 2) * 64 ≤ (i 1).val
      ∧ (i 1).val < win7_5.index ⟨(i 0).val / 10000, hq⟩ (1 : Fin 2) * 64 + 64
    omega

theorem final_R7 (c : Dev nD) : (dat7 (F := Ideal) V c).arrAt 5 cfg7.N = res_R7 V c :=
  (dat7 (F := Ideal) V c).arrAt_eq_of_cover 5 (res_R7 V c) (fun t _ => flushed_R7 V c t) (cover_R7)

theorem bn7 (c : Dev nD) (r : Fin 100000) (j : Fin 64) :
    ((dat7 (F := Ideal) V c).arrAt 5 cfg7.N : S100000x64.Idx → EReal) (ix2 r j)
      = Gnn.bn (Gnn.hat2 (V c main_v165_0 : S100000x64.Idx → EReal)) (Gnn.hatRow (V c main_v179 : S1x64.Idx → EReal))
          (Gnn.hatRow (V c main_v180 : S1x64.Idx → EReal)) (Gnn.hatRow (V c main_v181 : S1x64.Idx → EReal))
          (Gnn.hatRow (V c main_v182 : S1x64.Idx → EReal)) r j :=
  congrFun (final_R7 V c) (ix2 r j)

end Cert.KernelIdeal.RegionVal

end
-- ==== Proof.KLayer3.lean ====
import proofs.«406622_j66486093742154_3_alg».proof.Proof.Gen.KernelIdeal.Frame
import proofs.«406622_j66486093742154_3_alg».proof.Proof.Spec
import proofs.«406622_j66486093742154_3_alg».proof.Proof.SpecMath
import proofs.«406622_j66486093742154_3_alg».proof.Proof.KStats
import proofs.«406622_j66486093742154_3_alg».proof.Proof.SliceRead
import proofs.«406622_j66486093742154_3_alg».proof.Proof.RegionNode6
import proofs.«406622_j66486093742154_3_alg».proof.Proof.RegionBn7
import Idealize.ShloMosaic.Lib.Pipeline.Value
import Idealize.ShloMosaic.Lib.ValueLayout
import Idealize.ShloMosaic.Lib.IdealHost

set_option maxRecDepth 16384
set_option maxHeartbeats 400000

noncomputable section
namespace Cert.KernelIdeal.KLayer

open Cert.KernelIdeal Cert.KernelIdeal.Gen Gnn Idealize.ShloMosaic Idealize.ShloMosaic.ValueIdx
open Idealize.ShloMosaic.TcCoe

variable (m : (ℓ : Loc nD τ sig) → Buf (Elt Ideal) ℓ) (ρ : Dev nD → PrngReg)

namespace L3

local macro "walk_host" : tactic => `(tactic|
  refine (StableHlo.after_of_forall_not_mem _ _ (List.forall_iff_forall_mem.mp (by
    simp only [hostOps0, hostOps0_1, hostOps0_2, hostOps0_3, hostOps0_4, hostOps1, hostOps2, hostOps2_1, hostOps2_2, hostOps2_3, hostOps2_4, hostOps3, hostOps4, hostOps4_1, hostOps4_2, hostOps4_3, hostOps4_4, hostOps5, hostOps6, hostOps6_1, hostOps6_2, hostOps6_3, hostOps6_4, hostOps7, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_)

local macro "walk_region" : tactic => `(tactic| first
  | (rw [W6_of_ne]; rotate_left; decide) | (rw [W8_of_ne]; rotate_left; decide)
  | (rw [W14_of_ne]; rotate_left; decide) | (rw [W16_of_ne]; rotate_left; decide)
  | (rw [W22_of_ne]; rotate_left; decide) | (rw [W24_of_ne]; rotate_left; decide)
  | (rw [W30_of_ne]; rotate_left; decide) | (rw [W32_of_ne]; rotate_left; decide))

local macro "walk_step" : tactic => `(tactic| first | walk_region | walk_host)

abbrev kW : Fin 3 := 2
abbrev kN : Fin 4 := 3

theorem arg12_at (c : Dev nD) : W24 (F := Ideal) m ρ c (Proc.devRef .tc main_arg12) = m ((c : Thread nD τ).loc main_arg12) := by
  repeat walk_step
  rfl
theorem arg13_at (c : Dev nD) : W24 (F := Ideal) m ρ c (Proc.devRef .tc main_arg13) = m ((c : Thread nD τ).loc main_arg13) := by
  repeat walk_step
  rfl
theorem arg14_at (c : Dev nD) : W24 (F := Ideal) m ρ c (Proc.devRef .tc main_arg14) = m ((c : Thread nD τ).loc main_arg14) := by
  repeat walk_step
  rfl
theorem arg15_at (c : Dev nD) : W24 (F := Ideal) m ρ c (Proc.devRef .tc main_arg15) = m ((c : Thread nD τ).loc main_arg15) := by
  repeat walk_step
  rfl
theorem arg16_at (c : Dev nD) : W24 (F := Ideal) m ρ c (Proc.devRef .tc main_arg16) = m ((c : Thread nD τ).loc main_arg16) := by
  repeat walk_step
  rfl
theorem arg17_at (c : Dev nD) : W24 (F := Ideal) m ρ c (Proc.devRef .tc main_arg17) = m ((c : Thread nD τ).loc main_arg17) := by
  repeat walk_step
  rfl

abbrev X (c : Dev nD) : Fin 100000 → Fin 64 → EReal :=
  hat2 (W24 (F := Ideal) m ρ c (Proc.devRef .tc main_v135) : S100000x64.Idx → EReal)

abbrev AG (c : Dev nD) : Fin 100000 → Fin 64 → EReal :=
  hat2 (W29 (F := Ideal) m ρ c (Proc.devRef .tc main_v162) : S100000x64.Idx → EReal)

abbrev P1 (c : Dev nD) : Fin 64 → Fin 64 → EReal := fun o a => (m ((c : Thread nD τ).loc main_arg12) : S3x64x64.Idx → EReal) (ix3 kW o a)
abbrev Q1 (c : Dev nD) : Fin 64 → EReal := fun o => (m ((c : Thread nD τ).loc main_arg13) : S3x64.Idx → EReal) (ix2 kW o)
abbrev P2 (c : Dev nD) : Fin 64 → Fin 64 → EReal := fun o a => (m ((c : Thread nD τ).loc main_arg14) : S3x64x64.Idx → EReal) (ix3 kW o a)
abbrev Q2 (c : Dev nD) : Fin 64 → EReal := fun o => (m ((c : Thread nD τ).loc main_arg15) : S3x64.Idx → EReal) (ix2 kW o)
abbrev GA (c : Dev nD) : Fin 64 → EReal := fun j => (m ((c : Thread nD τ).loc main_arg16) : S4x64.Idx → EReal) (ix2 kN j)
abbrev BE (c : Dev nD) : Fin 64 → EReal := fun j => (m ((c : Thread nD τ).loc main_arg17) : S4x64.Idx → EReal) (ix2 kN j)

abbrev NN (c : Dev nD) : Fin 100000 → Fin 64 → EReal := node 64 (X m ρ c) (AG m ρ c) (P1 m c) (Q1 m c) (P2 m c) (Q2 m c)

theorem x_at (c : Dev nD) : W29 (F := Ideal) m ρ c (Proc.devRef .tc main_v135) = W24 (F := Ideal) m ρ c (Proc.devRef .tc main_v135) := by
  walk_host; walk_host; walk_host; walk_host; walk_host
  rfl

theorem w1_at (c : Dev nD) (o a : Fin 64) :
    (W29 (F := Ideal) m ρ c (Proc.devRef .tc main_v141) : S64x64.Idx → EReal) (ix2 o a) = P1 m c o a := by
  have e : W29 (F := Ideal) m ρ c (Proc.devRef .tc main_v141) = W25 (F := Ideal) m ρ c (Proc.devRef .tc main_v141) := by
    walk_host; walk_host; walk_host; walk_host
    rfl
  refine (congrFun e _).trans ?_
  show (StableHlo.after (hostOps6 (F := Ideal)) _ (Proc.devRef .tc main_v141) : S64x64.Idx → EReal) (ix2 o a) = _
  after_results_simp
  refine (mat_slice _ kW rfl _ _ _ o a).trans ?_
  exact congrFun (arg12_at m ρ c) _

theorem w2_at (c : Dev nD) (o a : Fin 64) :
    (W29 (F := Ideal) m ρ c (Proc.devRef .tc main_v145) : S64x64.Idx → EReal) (ix2 o a) = P2 m c o a := by
  have e : W29 (F := Ideal) m ρ c (Proc.devRef .tc main_v145) = W25 (F := Ideal) m ρ c (Proc.devRef .tc main_v145) := by
    walk_host; walk_host; walk_host; walk_host
    rfl
  refine (congrFun e _).trans ?_
  show (StableHlo.after (hostOps6 (F := Ideal)) _ (Proc.devRef .tc main_v145) : S64x64.Idx → EReal) (ix2 o a) = _
  after_results_simp
  refine (mat_slice _ kW rfl _ _ _ o a).trans ?_
  exact congrFun (arg14_at m ρ c) _

theorem v47_at (c : Dev nD) (o : Fin 64) :
    (W25 (F := Ideal) m ρ c (Proc.devRef .tc main_v143) : S64.Idx → EReal) (ix1 o) = Q1 m c o := by
  show (StableHlo.after (hostOps6 (F := Ideal)) _ (Proc.devRef .tc main_v143) : S64.Idx → EReal) (ix1 o) = _
  after_results_simp
  refine (row_slice _ kW rfl _ _ _ o).trans ?_
  exact congrFun (arg13_at m ρ c) _

theorem v51_at (c : Dev nD) (o : Fin 64) :
    (W25 (F := Ideal) m ρ c (Proc.devRef .tc main_v147) : S64.Idx → EReal) (ix1 o) = Q2 m c o := by
  show (StableHlo.after (hostOps6 (F := Ideal)) _ (Proc.devRef .tc main_v147) : S64.Idx → EReal) (ix1 o) = _
  after_results_simp
  refine (row_slice _ kW rfl _ _ _ o).trans ?_
  exact congrFun (arg15_at m ρ c) _

theorem v53_at (c : Dev nD) (o : Fin 64) :
    (W25 (F := Ideal) m ρ c (Proc.devRef .tc main_v149) : S64.Idx → EReal) (ix1 o) = GA m c o := by
  show (StableHlo.after (hostOps6 (F := Ideal)) _ (Proc.devRef .tc main_v149) : S64.Idx → EReal) (ix1 o) = _
  after_results_simp
  refine (row_slice _ kN rfl _ _ _ o).trans ?_
  exact congrFun (arg16_at m ρ c) _

theorem v55_at (c : Dev nD) (o : Fin 64) :
    (W25 (F := Ideal) m ρ c (Proc.devRef .tc main_v151) : S64.Idx → EReal) (ix1 o) = BE m c o := by
  show (StableHlo.after (hostOps6 (F := Ideal)) _ (Proc.devRef .tc main_v151) : S64.Idx → EReal) (ix1 o) = _
  after_results_simp
  refine (row_slice _ kN rfl _ _ _ o).trans ?_
  exact congrFun (arg17_at m ρ c) _

theorem b1_mid (c : Dev nD) (o : Fin 64) :
    (W29 (F := Ideal) m ρ c (Proc.devRef .tc main_v163) : S1x64.Idx → EReal) (ix2 0 o)
      = (W28 (F := Ideal) m ρ c (Proc.devRef .tc main_v143) : S64.Idx → EReal) (ix1 o) := by
  show (StableHlo.after (hostOps6_4 (F := Ideal)) _ (Proc.devRef .tc main_v163) : S1x64.Idx → EReal) (ix2 0 o) = _
  after_results_simp
  exact shapeCast_a_1a_apply _ _ 0 o

theorem b2_mid (c : Dev nD) (o : Fin 64) :
    (W29 (F := Ideal) m ρ c (Proc.devRef .tc main_v164) : S1x64.Idx → EReal) (ix2 0 o)
      = (W28 (F := Ideal) m ρ c (Proc.devRef .tc main_v147) : S64.Idx → EReal) (ix1 o) := by
  show (StableHlo.after (hostOps6_4 (F := Ideal)) _ (Proc.devRef .tc main_v164) : S1x64.Idx → EReal) (ix2 0 o) = _
  after_results_simp
  exact shapeCast_a_1a_apply _ _ 0 o

theorem b1_at (c : Dev nD) (o : Fin 64) :
    (W29 (F := Ideal) m ρ c (Proc.devRef .tc main_v163) : S1x64.Idx → EReal) (ix2 0 o) = Q1 m c o := by
  refine (b1_mid m ρ c o).trans ?_
  have e : W28 (F := Ideal) m ρ c (Proc.devRef .tc main_v143) = W25 (F := Ideal) m ρ c (Proc.devRef .tc main_v143) := by
    walk_host; walk_host; walk_host
    rfl
  exact (congrFun e _).trans (v47_at m ρ c o)

theorem b2_at (c : Dev nD) (o : Fin 64) :
    (W29 (F := Ideal) m ρ c (Proc.devRef .tc main_v164) : S1x64.Idx → EReal) (ix2 0 o) = Q2 m c o := by
  refine (b2_mid m ρ c o).trans ?_
  have e : W28 (F := Ideal) m ρ c (Proc.devRef .tc main_v147) = W25 (F := Ideal) m ρ c (Proc.devRef .tc main_v147) := by
    walk_host; walk_host; walk_host
    rfl
  exact (congrFun e _).trans (v51_at m ρ c o)

theorem node_at (c : Dev nD) : RegionVal.N6 (V29 (F := Ideal) m ρ) c = NN m ρ c := by
  have h1 : hat2 (V29 (F := Ideal) m ρ c main_v135 : S100000x64.Idx → EReal) = X m ρ c := congrArg hat2 (x_at m ρ c)
  have h3 : hat2 (V29 (F := Ideal) m ρ c main_v141 : S64x64.Idx → EReal) = P1 m c := funext fun o => funext fun a => w1_at m ρ c o a
  have h4 : hatRow (V29 (F := Ideal) m ρ c main_v163 : S1x64.Idx → EReal) = Q1 m c := funext fun o => b1_at m ρ c o
  have h5 : hat2 (V29 (F := Ideal) m ρ c main_v145 : S64x64.Idx → EReal) = P2 m c := funext fun o => funext fun a => w2_at m ρ c o a
  have h6 : hatRow (V29 (F := Ideal) m ρ c main_v164 : S1x64.Idx → EReal) = Q2 m c := funext fun o => b2_at m ρ c o
  show node 64 _ _ _ _ _ _ = node 64 _ _ _ _ _ _
  rw [h1, h3, h4, h5, h6]

theorem h_at (c : Dev nD) (r : Fin 100000) (j : Fin 64) :
    (W31 (F := Ideal) m ρ c (Proc.devRef .tc main_v165_0) : S100000x64.Idx → EReal) (ix2 r j) = NN m ρ c r j := by
  have e : W31 (F := Ideal) m ρ c (Proc.devRef .tc main_v165_0) = W30 (F := Ideal) m ρ c (Proc.devRef .tc main_v165_0) := by
    walk_host
    rfl
  refine (congrFun e _).trans ?_
  refine (congrFun (W30_arr (F := Ideal) m ρ c 6) _).trans ?_
  refine (RegionVal.hmlp6 (V29 (F := Ideal) m ρ) c r j).trans ?_
  exact congrFun (congrFun (node_at m ρ c) r) j

theorem ps_at (c : Dev nD) (t : Fin 10) (s : Fin 8) (j : Fin 64) :
    (W30 (F := Ideal) m ρ c (Proc.devRef .tc main_v165_1) : S10x8x64.Idx → EReal) (ix3 t s j)
      = ∑ g : Fin 1250, NN m ρ c (row t g s) j := by
  refine (congrFun (W30_arr (F := Ideal) m ρ c 7) _).trans ?_
  refine (RegionVal.psum6 (V29 (F := Ideal) m ρ) c t s j).trans ?_
  rw [node_at m ρ c]

theorem pq_at (c : Dev nD) (t : Fin 10) (s : Fin 8) (j : Fin 64) :
    (W30 (F := Ideal) m ρ c (Proc.devRef .tc main_v165_2) : S10x8x64.Idx → EReal) (ix3 t s j)
      = ∑ g : Fin 1250, NN m ρ c (row t g s) j * NN m ρ c (row t g s) j := by
  refine (congrFun (W30_arr (F := Ideal) m ρ c 8) _).trans ?_
  refine (RegionVal.psumsq6 (V29 (F := Ideal) m ρ) c t s j).trans ?_
  rw [node_at m ρ c]

theorem mean_at (c : Dev nD) (j : Fin 64) :
    (W31 (F := Ideal) m ρ c (Proc.devRef .tc main_v179) : S1x64.Idx → EReal) (ix2 0 j) = colMean (NN m ρ c) j := by
  show (StableHlo.after (hostOps7 (F := Ideal)) _ (Proc.devRef .tc main_v179) : S1x64.Idx → EReal) (ix2 0 j) = _
  after_results_simp
  refine (shapeCast_a_1a_apply _ _ 0 j).trans ?_
  exact meanVec_apply _ (NN m ρ c) (ps_at m ρ c) _ _ _ j

theorem rstd_at (c : Dev nD) (j : Fin 64) :
    (W31 (F := Ideal) m ρ c (Proc.devRef .tc main_v180) : S1x64.Idx → EReal) (ix2 0 j)
      = Ideal.rsqrt (varK (NN m ρ c) j + eps) := by
  show (StableHlo.after (hostOps7 (F := Ideal)) _ (Proc.devRef .tc main_v180) : S1x64.Idx → EReal) (ix2 0 j) = _
  after_results_simp
  refine (shapeCast_a_1a_apply _ _ 0 j).trans ?_
  exact rstdVec_apply _ _ (NN m ρ c) (ps_at m ρ c) (pq_at m ρ c) _ _ _ j

theorem gamma_mid (c : Dev nD) (j : Fin 64) :
    (W31 (F := Ideal) m ρ c (Proc.devRef .tc main_v181) : S1x64.Idx → EReal) (ix2 0 j)
      = (W30 (F := Ideal) m ρ c (Proc.devRef .tc main_v149) : S64.Idx → EReal) (ix1 j) := by
  show (StableHlo.after (hostOps7 (F := Ideal)) _ (Proc.devRef .tc main_v181) : S1x64.Idx → EReal) (ix2 0 j) = _
  after_results_simp
  exact shapeCast_a_1a_apply _ _ 0 j

theorem beta_mid (c : Dev nD) (j : Fin 64) :
    (W31 (F := Ideal) m ρ c (Proc.devRef .tc main_v182) : S1x64.Idx → EReal) (ix2 0 j)
      = (W30 (F := Ideal) m ρ c (Proc.devRef .tc main_v151) : S64.Idx → EReal) (ix1 j) := by
  show (StableHlo.after (hostOps7 (F := Ideal)) _ (Proc.devRef .tc main_v182) : S1x64.Idx → EReal) (ix2 0 j) = _
  after_results_simp
  exact shapeCast_a_1a_apply _ _ 0 j

theorem gamma_at (c : Dev nD) (j : Fin 64) :
    (W31 (F := Ideal) m ρ c (Proc.devRef .tc main_v181) : S1x64.Idx → EReal) (ix2 0 j) = GA m c j := by
  refine (gamma_mid m ρ c j).trans ?_
  have e : W30 (F := Ideal) m ρ c (Proc.devRef .tc main_v149) = W25 (F := Ideal) m ρ c (Proc.devRef .tc main_v149) := by
    walk_region; walk_host; walk_host; walk_host; walk_host
    rfl
  exact (congrFun e _).trans (v53_at m ρ c j)

theorem beta_at (c : Dev nD) (j : Fin 64) :
    (W31 (F := Ideal) m ρ c (Proc.devRef .tc main_v182) : S1x64.Idx → EReal) (ix2 0 j) = BE m c j := by
  refine (beta_mid m ρ c j).trans ?_
  have e : W30 (F := Ideal) m ρ c (Proc.devRef .tc main_v151) = W25 (F := Ideal) m ρ c (Proc.devRef .tc main_v151) := by
    walk_region; walk_host; walk_host; walk_host; walk_host
    rfl
  exact (congrFun e _).trans (v55_at m ρ c j)

theorem layer_at (c : Dev nD) :
    (W32 (F := Ideal) m ρ c (Proc.devRef .tc main_v183) : S100000x64.Idx → EReal)
      = arr2 (layerK 64 (X m ρ c) (AG m ρ c) (P1 m c) (Q1 m c) (P2 m c) (Q2 m c) (GA m c) (BE m c)) := by
  funext i
  obtain ⟨r, j, rfl⟩ : ∃ (r : Fin 100000) (j : Fin 64), i = ix2 r j := ⟨i 0, i 1, eq_ix2 i⟩
  refine (congrFun (W32_arr (F := Ideal) m ρ c 5) _).trans ?_
  refine (RegionVal.bn7 (V31 (F := Ideal) m ρ) c r j).trans ?_
  have h1 : hat2 (V31 (F := Ideal) m ρ c main_v165_0 : S100000x64.Idx → EReal) = NN m ρ c := funext fun r => funext fun j => h_at m ρ c r j
  have h2 : hatRow (V31 (F := Ideal) m ρ c main_v179 : S1x64.Idx → EReal) = colMean (NN m ρ c) := funext fun j => mean_at m ρ c j
  have h3 : hatRow (V31 (F := Ideal) m ρ c main_v180 : S1x64.Idx → EReal) = fun j => Ideal.rsqrt (varK (NN m ρ c) j + eps) := funext fun j => rstd_at m ρ c j
  have h4 : hatRow (V31 (F := Ideal) m ρ c main_v181 : S1x64.Idx → EReal) = GA m c := funext fun j => gamma_at m ρ c j
  have h5 : hatRow (V31 (F := Ideal) m ρ c main_v182 : S1x64.Idx → EReal) = BE m c := funext fun j => beta_at m ρ c j
  rw [h1, h2, h3, h4, h5]
  show _ = layerK 64 (X m ρ c) (AG m ρ c) (P1 m c) (Q1 m c) (P2 m c) (Q2 m c) (GA m c) (BE m c) r j
  unfold layerK
  rfl

end L3

theorem layer3 (c : Dev nD) :
    (W32 (F := Ideal) m ρ c (Proc.devRef .tc main_v183) : S100000x64.Idx → EReal)
      = arr2 (layerK 64 (hat2 (W24 (F := Ideal) m ρ c (Proc.devRef .tc main_v135) : S100000x64.Idx → EReal))
          (hat2 (W29 (F := Ideal) m ρ c (Proc.devRef .tc main_v162) : S100000x64.Idx → EReal))
          (fun o a => (m ((c : Thread nD τ).loc main_arg12) : S3x64x64.Idx → EReal) (ix3 2 o a))
          (fun o => (m ((c : Thread nD τ).loc main_arg13) : S3x64.Idx → EReal) (ix2 2 o))
          (fun o a => (m ((c : Thread nD τ).loc main_arg14) : S3x64x64.Idx → EReal) (ix3 2 o a))
          (fun o => (m ((c : Thread nD τ).loc main_arg15) : S3x64.Idx → EReal) (ix2 2 o))
          (fun j => (m ((c : Thread nD τ).loc main_arg16) : S4x64.Idx → EReal) (ix2 3 j))
          (fun j => (m ((c : Thread nD τ).loc main_arg17) : S4x64.Idx → EReal) (ix2 3 j))) :=
  L3.layer_at m ρ c

end Cert.KernelIdeal.KLayer

end
-- ==== Proof.RealOps.lean ====
import Idealize.ShloMosaic.PureOps.Ideal
import Idealize.ShloMosaic.PureOps.Ideal.Laws
import Idealize.ShloMosaic.PureOps.Contract
import Idealize.ShloMosaic.PureOps.ShapeOps
import proofs.«406622_j66486093742154_3_alg».proof.Proof.Spec

noncomputable section

namespace Gnn

open Idealize.ShloMosaic

def AllReal {s : Shape} (x : s.Idx → EReal) : Prop := ∀ i, IsReal (x i)

namespace RealOps

theorem isReal_coe (r : ℝ) : IsReal (r : EReal) := ⟨r, rfl⟩

theorem isReal_zero : IsReal (0 : EReal) := ⟨0, rfl⟩

theorem isReal_one : IsReal (1 : EReal) := ⟨1, rfl⟩

theorem isReal_add {a b : EReal} (ha : IsReal a) (hb : IsReal b) : IsReal (a + b) := by
  obtain ⟨r, rfl⟩ := ha
  obtain ⟨t, rfl⟩ := hb
  exact ⟨r + t, (EReal.coe_add r t).symm⟩

theorem isReal_sub {a b : EReal} (ha : IsReal a) (hb : IsReal b) : IsReal (a - b) := by
  obtain ⟨r, rfl⟩ := ha
  obtain ⟨t, rfl⟩ := hb
  exact ⟨r - t, (EReal.coe_sub r t).symm⟩

theorem isReal_mul {a b : EReal} (ha : IsReal a) (hb : IsReal b) : IsReal (a * b) := by
  obtain ⟨r, rfl⟩ := ha
  obtain ⟨t, rfl⟩ := hb
  exact ⟨r * t, (EReal.coe_mul r t).symm⟩

theorem isReal_max {a b : EReal} (ha : IsReal a) (hb : IsReal b) : IsReal (max a b) := by
  rcases max_choice a b with h | h
  · rw [h]; exact ha
  · rw [h]; exact hb

theorem isReal_sum {ι : Type} (S : Finset ι) (f : ι → EReal) (h : ∀ i ∈ S, IsReal (f i)) :
    IsReal (∑ i ∈ S, f i) := by
  classical
  induction S using Finset.induction_on with
  | empty => rw [Finset.sum_empty]; exact isReal_zero
  | insert a S ha ih =>
    rw [Finset.sum_insert ha]
    exact isReal_add (h a (Finset.mem_insert_self a S)) (ih fun i hi => h i (Finset.mem_insert_of_mem hi))

theorem isReal_ieee (e m : Nat) {w : Nat} (b : BitVec w) (h : (b.extractLsb' m e).toNat ≠ 2 ^ e - 1) :
    IsReal (Ideal.ieee e m b) := by
  simp only [Ideal.ieee]
  rw [if_neg h]
  split_ifs <;> exact ⟨_, rfl⟩

theorem isReal_ofBits_f32 (b : BitVec 32) (h : (b.extractLsb' 23 8).toNat ≠ 255) : IsReal (Ideal.ofBits .f32 b) :=
  isReal_ieee 8 23 b h

theorem isReal_ofBits_f32_zero : IsReal (Ideal.ofBits .f32 0x00000000#32) := isReal_ofBits_f32 _ (by decide)

theorem isReal_ofBits_f32_one : IsReal (Ideal.ofBits .f32 0x3F800000#32) := isReal_ofBits_f32 _ (by decide)

end RealOps

open RealOps

theorem allReal_gather {s si t : Shape} {w : Nat} (d : GatherDims s si t) (x : s.Idx → EReal) (idx : IVec si w) :
    AllReal x → AllReal (Host.gather d x idx) :=
  fun hx _ => hx _

theorem allReal_scatterAdd {s si u : Shape} {φ : FTy} {w : Nat} (d : ScatterDims s si u) (x : FVec Ideal s φ)
    (idx : IVec si w) (upd : FVec Ideal u φ) :
    AllReal x → AllReal upd → AllReal (Host.scatterAdd d x idx upd) := by
  intro hx hu i
  show IsReal (Ideal.hostScatterAdd d x idx upd i)
  unfold Ideal.hostScatterAdd
  exact isReal_add (hx i) (isReal_sum _ _ fun j _ => hu j)

theorem allReal_dotGeneral {sl sr so : Shape} {φ₁ φ₂ : FTy} (d : DotDims sl sr so) (prec : Option ContractPrecision)
    (a : FVec Ideal sl φ₁) (b : FVec Ideal sr φ₂) :
    AllReal a → AllReal b → AllReal (Host.dotGeneral d prec a b) := by
  intro ha hb j
  show IsReal (FloatOps.dotGeneral d prec .single a b j)
  rw [Ideal.dotGeneral_apply]
  exact isReal_sum _ _ fun k _ => isReal_mul (ha _) (hb _)

theorem allReal_addf {s : Shape} {φ : FTy} (x y : FVec Ideal s φ) : AllReal x → AllReal y → AllReal (addf x y) :=
  fun hx hy i => isReal_add (hx i) (hy i)

theorem allReal_subf {s : Shape} {φ : FTy} (x y : FVec Ideal s φ) : AllReal x → AllReal y → AllReal (subf x y) :=
  fun hx hy i => isReal_sub (hx i) (hy i)

theorem allReal_mulf {s : Shape} {φ : FTy} (x y : FVec Ideal s φ) : AllReal x → AllReal y → AllReal (mulf x y) :=
  fun hx hy i => isReal_mul (hx i) (hy i)

theorem allReal_maximumf {s : Shape} {φ : FTy} (x y : FVec Ideal s φ) :
    AllReal x → AllReal y → AllReal (maximumf x y) :=
  fun hx hy i => isReal_max (hx i) (hy i)

theorem allReal_broadcastInDim {s : Shape} (t : Shape) (dims : Fin s.rank → Fin t.rank) (h : s.BroadcastsInDim t dims)
    (x : s.Idx → EReal) : AllReal x → AllReal (broadcastInDim t dims h x) :=
  fun hx _ => hx _

theorem allReal_transpose {s : Shape} (t : Shape) (perm : List (Fin s.rank)) (x : s.Idx → EReal)
    (h : s.Transposes perm t) : AllReal x → AllReal (transpose t perm x h) :=
  fun hx _ => hx _

theorem allReal_extractStridedSlice {s : Shape} (t : Shape) (off : Fin s.rank → Nat) (x : s.Idx → EReal)
    (h : s.Slices off t) : AllReal x → AllReal (extractStridedSlice t off x h) :=
  fun hx _ => hx _

theorem allReal_shapeCast {s : Shape} (t : Shape) (x : s.Idx → EReal) (h : s.ShapeCasts t) :
    AllReal x → AllReal (shapeCast t x h) :=
  fun hx _ => hx _

theorem allReal_constant (s : Shape) (φ : FTy) (b : BitVec φ.bits) (h : IsReal (Ideal.ofBits φ b)) :
    AllReal (constant (F := Ideal) s φ b) :=
  fun _ => h

theorem allReal_constant_zero (s : Shape) : AllReal (constant (F := Ideal) s .f32 0x00000000#32) :=
  allReal_constant s .f32 _ isReal_ofBits_f32_zero

theorem allReal_constant_one (s : Shape) : AllReal (constant (F := Ideal) s .f32 0x3F800000#32) :=
  allReal_constant s .f32 _ isReal_ofBits_f32_one

theorem allReal_select {s : Shape} (c : IVec s 1) (x y : s.Idx → EReal) :
    AllReal x → AllReal y → AllReal (select c x y) := by
  intro hx hy i
  show IsReal (Scalar.select (c i) (x i) (y i))
  unfold Scalar.select
  split_ifs
  · exact hx i
  · exact hy i

end Gnn

end
-- ==== Proof.LayerStep.lean ====
import proofs.«406622_j66486093742154_3_alg».proof.Proof.SpecMath
import proofs.«406622_j66486093742154_3_alg».proof.Proof.RealOps

noncomputable section

namespace Gnn

open Idealize.ShloMosaic

theorem layer_step (C : ℕ) {X Rp G S : (⟨2, ![100000, C]⟩ : Shape).Idx → EReal}
    {K R : (⟨2, ![100000, 64]⟩ : Shape).Idx → EReal}
    {w1 : Fin 64 → Fin C → EReal} {b1 : Fin 64 → EReal} {w2 : Fin 64 → Fin 64 → EReal} {b2 g b : Fin 64 → EReal}
    (hK : K = arr2 (layerK C (hat2 X) (hat2 G) w1 b1 w2 b2 g b))
    (hR : R = arr2 (layerR C (hat2 Rp) (hat2 S) w1 b1 w2 b2 g b))
    (hX : X = Rp) (hG : G = S) (rX : AllReal Rp) (rS : AllReal S)
    (rw1 : ∀ k a, IsReal (w1 k a)) (rb1 : ∀ k, IsReal (b1 k)) (rw2 : ∀ j k, IsReal (w2 j k)) (rb2 : ∀ j, IsReal (b2 j))
    (rg : ∀ j, IsReal (g j)) (rb : ∀ j, IsReal (b j)) : K = R ∧ AllReal R := by
  subst hX hG
  have hx : ∀ r a, IsReal (hat2 X r a) := fun r a => rX _
  have hs : ∀ r a, IsReal (hat2 G r a) := fun r a => rS _
  refine ⟨?_, ?_⟩
  · rw [hK, hR, layerK_eq_layerR C g b hx hs rw1 rb1 rw2 rb2]
  · rw [hR]
    intro i
    exact layerR_isReal C hx hs rw1 rb1 rw2 rb2 rg rb (i 0) (i 1)

end Gnn

end
-- ==== Proof.PreFacts.lean ====
import proofs.«406622_j66486093742154_3_alg».proof.Pre_finite_inputs
import proofs.«406622_j66486093742154_3_alg».proof.Proof.Spec
import Idealize.ShloMosaic.PureOps.Ideal.Laws
import Idealize.ShloMosaic.Lib.ValueIdx
import Idealize.ShloMosaic.Lib.ReduceAll
import Idealize.ShloMosaic.Lib.StableHlo.Predicate
import Idealize.ShloMosaic.Lib.Pipeline.Value

noncomputable section

namespace Cert.PreFacts

open Idealize.ShloMosaic Idealize.ShloMosaic.ValueIdx Cert.Pre_finite_inputs

instance : Subsingleton S_.Idx := ⟨fun a b => funext fun d => d.elim0⟩

theorem ofBits_inf : Ideal.ofBits .f32 0x7F800000#32 = ⊤ := by simp [Ideal.ofBits, Ideal.ieee]

theorem isReal_of_abs_lt_top (x : EReal) (h : max x (-x) < ⊤) : Gnn.IsReal x := by
  induction x using EReal.rec with
  | bot => simp at h
  | top => simp at h
  | coe r => exact ⟨r, rfl⟩

theorem isReal_of_cmp (x : EReal)
    (h : FloatOps.cmpf (F := Ideal) (φ := .f32) .olt (FloatOps.hostAbsf (F := Ideal) (φ := .f32) x)
      (FloatOps.ofBits (F := Ideal) .f32 0x7F800000#32) = 1#1) : Gnn.IsReal x := by
  refine isReal_of_abs_lt_top x ?_
  have h' : BitVec.ofBool (decide (max x (-x) < Ideal.ofBits .f32 0x7F800000#32)) = 1#1 := h
  rw [ofBits_inf, StableHlo.Predicate.ofBool_eq_one_iff, decide_eq_true_eq] at h'
  exact h'

theorem real_of_all {s t u c : Shape} [Subsingleton t.Idx] {axes : List (Fin s.rank)} (a : FVec Ideal s .f32)
    (dims : Fin c.rank → Fin s.rank) (hb : c.BroadcastsInDim s dims) (hr : s.ReducesTo axes t) (hu : 0 < u.numel)
    (init : IVec u 1) (j : t.Idx)
    (h : Host.reduce IntOp.andi (cmpf .olt (Host.absf a) (broadcastInDim s dims hb (constant c .f32 0x7F800000#32))) init hr hu j
      = 1#1) : ∀ i, Gnn.IsReal (a i) :=
  fun i => isReal_of_cmp (a i) (Host.reduce_andi_all _ init hr hu j h i)

theorem andi_ix0 (x y : IVec S_ 1) : andi x y ix0 = 1#1 ↔ x ix0 = 1#1 ∧ y ix0 = 1#1 := IntOp.andi_eq_one

theorem row0_apply [Facts] (a1 : IVec S2x1600000 32) (e : Fin 1600000) :
    shapeCast S1600000 (extractStridedSlice S1x1600000 ![0, 0] a1 Facts.slices_S2x1600000_S1x1600000_0_0)
      Facts.shapeCasts_S1x1600000_S1600000 (ix1 e) = a1 (ix2 0 e) := by
  refine (shapeCast_apply _ _ (ix1 e) (ix2 0 e) ?_).trans ?_
  · rw [Shape.rowMajor_val_two, Shape.rowMajor_val_one]
    show (0 : ℕ) * 1600000 + e.val = e.val
    omega
  · refine extractStridedSlice_apply _ a1 _ (ix2 0 e) (ix2 0 e) fun a => ?_
    match a with
    | ⟨0, _⟩ => rfl
    | ⟨1, _⟩ => show e.val = 0 + e.val; omega

theorem toInt_nonneg_of_sge {w : BitVec 32} (h : IntOp.cmpi .sge w 0#32 = 1#1) : 0 ≤ w.toInt := by
  have h' : BitVec.ofBool ((0#32 : BitVec 32).sle w) = 1#1 := h
  rw [StableHlo.Predicate.ofBool_eq_one_iff, BitVec.sle, decide_eq_true_eq] at h'
  simpa using h'

theorem toInt_lt_of_slt {w : BitVec 32} (h : IntOp.cmpi .slt w 100000#32 = 1#1) : w.toInt < 100000 := by
  have h' : BitVec.ofBool (w.slt (100000#32 : BitVec 32)) = 1#1 := h
  rw [StableHlo.Predicate.ofBool_eq_one_iff, BitVec.slt, decide_eq_true_eq] at h'
  have e : (100000#32 : BitVec 32).toInt = 100000 := by decide
  rwa [e] at h'

theorem srcOK_of_all [Facts] (a1 : IVec S2x1600000 32)
    (h : Host.reduce IntOp.andi
        (andi
          (cmpi .sge
            (shapeCast S1600000 (extractStridedSlice S1x1600000 ![0, 0] a1 Facts.slices_S2x1600000_S1x1600000_0_0)
              Facts.shapeCasts_S1x1600000_S1600000)
            (broadcastInDim S1600000 ![] Facts.bcast_S_S1600000 (constantI S_ 32 0#32)))
          (cmpi .slt
            (shapeCast S1600000 (extractStridedSlice S1x1600000 ![0, 0] a1 Facts.slices_S2x1600000_S1x1600000_0_0)
              Facts.shapeCasts_S1x1600000_S1600000)
            (broadcastInDim S1600000 ![] Facts.bcast_S_S1600000 (constantI S_ 32 100000#32))))
        (constantI S_ 1 1#1) Facts.reducesTo_S1600000_S_d0 Facts.h_S_ ix0 = 1#1) : Gnn.SrcOK a1 := by
  intro e
  have he := Host.reduce_andi_all _ _ _ _ _ h (ix1 e)
  obtain ⟨h1, h2⟩ := IntOp.andi_eq_one.1 he
  have h1' : IntOp.cmpi .sge (shapeCast S1600000 (extractStridedSlice S1x1600000 ![0, 0] a1 Facts.slices_S2x1600000_S1x1600000_0_0)
      Facts.shapeCasts_S1x1600000_S1600000 (ix1 e)) 0#32 = 1#1 := h1
  have h2' : IntOp.cmpi .slt (shapeCast S1600000 (extractStridedSlice S1x1600000 ![0, 0] a1 Facts.slices_S2x1600000_S1x1600000_0_0)
      Facts.shapeCasts_S1x1600000_S1600000 (ix1 e)) 100000#32 = 1#1 := h2
  rw [row0_apply] at h1' h2'
  exact ⟨toInt_nonneg_of_sge h1', toInt_lt_of_slt h2'⟩

theorem decode [Facts] (a0 : FVec Ideal S100000x32 .f32) (a1 : IVec S2x1600000 32) (a2 : FVec Ideal S1600000x16 .f32)
    (a3 : IVec S100000 32) (a4 : FVec Ideal S32x16 .f32) (a5 : FVec Ideal S32 .f32) (a6 : FVec Ideal S64x32 .f32)
    (a7 : FVec Ideal S64 .f32) (a8 : FVec Ideal S64x64 .f32) (a9 : FVec Ideal S64 .f32) (a10 : FVec Ideal S3x64x16 .f32)
    (a11 : FVec Ideal S3x64 .f32) (a12 : FVec Ideal S3x64x64 .f32) (a13 : FVec Ideal S3x64 .f32)
    (a14 : FVec Ideal S3x64x64 .f32) (a15 : FVec Ideal S3x64 .f32) (a16 : FVec Ideal S4x64 .f32)
    (a17 : FVec Ideal S4x64 .f32) (a18 : FVec Ideal S128x64 .f32) (a19 : FVec Ideal S128 .f32)
    (a20 : FVec Ideal S10x128 .f32) (a21 : FVec Ideal S10 .f32)
    (h : Cert.Pre_finite_inputs.fn (F := Ideal) a0 a1 a2 a3 a4 a5 a6 a7 a8 a9 a10 a11 a12 a13 a14 a15 a16 a17 a18 a19 a20 a21
      = fun _ => 1#1) :
    (∀ i, Gnn.IsReal (a0 i)) ∧ (∀ i, Gnn.IsReal (a2 i)) ∧ (∀ i, Gnn.IsReal (a4 i)) ∧ (∀ i, Gnn.IsReal (a5 i))
      ∧ (∀ i, Gnn.IsReal (a6 i)) ∧ (∀ i, Gnn.IsReal (a7 i)) ∧ (∀ i, Gnn.IsReal (a8 i)) ∧ (∀ i, Gnn.IsReal (a9 i))
      ∧ (∀ i, Gnn.IsReal (a10 i)) ∧ (∀ i, Gnn.IsReal (a11 i)) ∧ (∀ i, Gnn.IsReal (a12 i)) ∧ (∀ i, Gnn.IsReal (a13 i))
      ∧ (∀ i, Gnn.IsReal (a14 i)) ∧ (∀ i, Gnn.IsReal (a15 i)) ∧ (∀ i, Gnn.IsReal (a16 i)) ∧ (∀ i, Gnn.IsReal (a17 i))
      ∧ (∀ i, Gnn.IsReal (a18 i)) ∧ (∀ i, Gnn.IsReal (a19 i)) ∧ (∀ i, Gnn.IsReal (a20 i)) ∧ (∀ i, Gnn.IsReal (a21 i))
      ∧ Gnn.SrcOK a1 := by
  have h0 := congrFun h ix0
  unfold fn fn_part1 fn_part2 fn_part3 fn_part4 fn_part5 fn_part6 at h0
  dsimp only at h0
  simp only [andi_ix0] at h0
  obtain ⟨⟨⟨⟨⟨⟨⟨⟨⟨⟨⟨⟨⟨⟨⟨⟨⟨⟨⟨⟨r0, r2⟩, r4⟩, r5⟩, r6⟩, r7⟩, r8⟩, r9⟩, r10⟩, r11⟩, r12⟩, r13⟩, r14⟩, r15⟩, r16⟩, r17⟩, r18⟩, r19⟩,
    r20⟩, r21⟩, rs⟩ := h0
  exact ⟨real_of_all a0 _ _ _ _ _ _ r0, real_of_all a2 _ _ _ _ _ _ r2, real_of_all a4 _ _ _ _ _ _ r4,
    real_of_all a5 _ _ _ _ _ _ r5, real_of_all a6 _ _ _ _ _ _ r6, real_of_all a7 _ _ _ _ _ _ r7,
    real_of_all a8 _ _ _ _ _ _ r8, real_of_all a9 _ _ _ _ _ _ r9, real_of_all a10 _ _ _ _ _ _ r10,
    real_of_all a11 _ _ _ _ _ _ r11, real_of_all a12 _ _ _ _ _ _ r12, real_of_all a13 _ _ _ _ _ _ r13,
    real_of_all a14 _ _ _ _ _ _ r14, real_of_all a15 _ _ _ _ _ _ r15, real_of_all a16 _ _ _ _ _ _ r16,
    real_of_all a17 _ _ _ _ _ _ r17, real_of_all a18 _ _ _ _ _ _ r18, real_of_all a19 _ _ _ _ _ _ r19,
    real_of_all a20 _ _ _ _ _ _ r20, real_of_all a21 _ _ _ _ _ _ r21, srcOK_of_all a1 rs⟩

end Cert.PreFacts

end
-- ==== Proof.KHost0.lean ====
import proofs.«406622_j66486093742154_3_alg».proof.Proof.Gen.KernelIdeal.Launch
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import Idealize.ShloMosaic.Lib.StableHlo.Run
import proofs.«406622_j66486093742154_3_alg».proof.Proof.KStats

set_option maxRecDepth 16384

noncomputable section

namespace Cert.KernelIdeal.KLayer

open Cert.KernelIdeal Cert.KernelIdeal.Gen Idealize.ShloMosaic Idealize.ShloMosaic.ValueIdx
open Idealize.ShloMosaic.StableHlo

variable (V : Valuation τ sig (Elt Ideal))

theorem row_of_vec (x : S64.Idx → EReal) (h : S64.ShapeCasts S1x64) (j : Fin 64) :
    shapeCast S1x64 x h (ix2 0 j) = x (ix1 j) :=
  shapeCast_apply x h (ix2 0 j) (ix1 j) (by
    rw [Shape.rowMajor_val_two, Shape.rowMajor_val_one]; show j.val = 0 * 64 + j.val; omega)

theorem vec_of_row (x : S1x64.Idx → EReal) (h : S1x64.ShapeCasts S64) (j : Fin 64) :
    shapeCast S64 x h (ix1 j) = x (ix2 0 j) :=
  shapeCast_apply x h (ix1 j) (ix2 0 j) (by
    rw [Shape.rowMajor_val_two, Shape.rowMajor_val_one]; show 0 * 64 + j.val = j.val; omega)

theorem row0_of_table (x : S4x64.Idx → EReal) (h : S4x64.Slices ![0, 0] S1x64) (j : Fin 64) :
    extractStridedSlice S1x64 ![0, 0] x h (ix2 0 j) = x (ix2 0 j) :=
  extractStridedSlice_apply ![0, 0] x h (ix2 0 j) (ix2 0 j) (by
    intro a
    match a with
    | ⟨0, _⟩ => rfl
    | ⟨1, _⟩ => show j.val = 0 + j.val; omega)

theorem ops0_v5 (j : Fin 64) :
    (after (hostOps0 (F := Ideal)) V (Proc.devRef .tc main_v5) : S64.Idx → EReal) (ix1 j)
      = (V (Proc.devRef .tc main_arg16) : S4x64.Idx → EReal) (ix2 0 j) := by
  have e : (after (hostOps0 (F := Ideal)) V (Proc.devRef .tc main_v5) : S64.Idx → EReal)
      = shapeCast S64 (extractStridedSlice S1x64 ![0, 0] (V (Proc.devRef .tc main_arg16) : S4x64.Idx → EReal)
          slices_S4x64_S1x64_0_0) shapeCasts_S1x64_S64 := by
    dsimp only [hostOps0]; after_results <;> rfl
  rw [e, vec_of_row, row0_of_table]

theorem ops0_v7 (j : Fin 64) :
    (after (hostOps0 (F := Ideal)) V (Proc.devRef .tc main_v7) : S64.Idx → EReal) (ix1 j)
      = (V (Proc.devRef .tc main_arg17) : S4x64.Idx → EReal) (ix2 0 j) := by
  have e : (after (hostOps0 (F := Ideal)) V (Proc.devRef .tc main_v7) : S64.Idx → EReal)
      = shapeCast S64 (extractStridedSlice S1x64 ![0, 0] (V (Proc.devRef .tc main_arg17) : S4x64.Idx → EReal)
          slices_S4x64_S1x64_0_0) shapeCasts_S1x64_S64 := by
    dsimp only [hostOps0]; after_results <;> rfl
  rw [e, vec_of_row, row0_of_table]

theorem ops04_v19 (k : Fin 64) :
    (after (hostOps0_4 (F := Ideal)) V (Proc.devRef .tc main_v19) : S1x64.Idx → EReal) (ix2 0 k)
      = (V (Proc.devRef .tc main_arg7) : S64.Idx → EReal) (ix1 k) := by
  have e : (after (hostOps0_4 (F := Ideal)) V (Proc.devRef .tc main_v19) : S1x64.Idx → EReal)
      = shapeCast S1x64 (V (Proc.devRef .tc main_arg7) : S64.Idx → EReal) shapeCasts_S64_S1x64 := by
    dsimp only [hostOps0_4]; after_results <;> rfl
  rw [e, row_of_vec]

theorem ops04_v20 (k : Fin 64) :
    (after (hostOps0_4 (F := Ideal)) V (Proc.devRef .tc main_v20) : S1x64.Idx → EReal) (ix2 0 k)
      = (V (Proc.devRef .tc main_arg9) : S64.Idx → EReal) (ix1 k) := by
  have e : (after (hostOps0_4 (F := Ideal)) V (Proc.devRef .tc main_v20) : S1x64.Idx → EReal)
      = shapeCast S1x64 (V (Proc.devRef .tc main_arg9) : S64.Idx → EReal) shapeCasts_S64_S1x64 := by
    dsimp only [hostOps0_4]; after_results <;> rfl
  rw [e, row_of_vec]

theorem ops1_v37 (j : Fin 64) :
    (after (hostOps1 (F := Ideal)) V (Proc.devRef .tc main_v37) : S1x64.Idx → EReal) (ix2 0 j)
      = (V (Proc.devRef .tc main_v5) : S64.Idx → EReal) (ix1 j) := by
  have e : (after (hostOps1 (F := Ideal)) V (Proc.devRef .tc main_v37) : S1x64.Idx → EReal)
      = shapeCast S1x64 (V (Proc.devRef .tc main_v5) : S64.Idx → EReal) shapeCasts_S64_S1x64 := by
    dsimp only [hostOps1]; after_results <;> rfl
  rw [e, row_of_vec]

theorem ops1_v38 (j : Fin 64) :
    (after (hostOps1 (F := Ideal)) V (Proc.devRef .tc main_v38) : S1x64.Idx → EReal) (ix2 0 j)
      = (V (Proc.devRef .tc main_v7) : S64.Idx → EReal) (ix1 j) := by
  have e : (after (hostOps1 (F := Ideal)) V (Proc.devRef .tc main_v38) : S1x64.Idx → EReal)
      = shapeCast S1x64 (V (Proc.devRef .tc main_v7) : S64.Idx → EReal) shapeCasts_S64_S1x64 := by
    dsimp only [hostOps1]; after_results <;> rfl
  rw [e, row_of_vec]

theorem ops1_mean (N : Fin 100000 → Fin 64 → EReal)
    (hps : ∀ t s j, (V (Proc.devRef .tc main_v21_1) : S10x8x64.Idx → EReal) (ix3 t s j) = ∑ g : Fin 1250, N (Gnn.row t g s) j)
    (j : Fin 64) :
    (after (hostOps1 (F := Ideal)) V (Proc.devRef .tc main_v35) : S1x64.Idx → EReal) (ix2 0 j) = Gnn.colMean N j := by
  have e : (after (hostOps1 (F := Ideal)) V (Proc.devRef .tc main_v35) : S1x64.Idx → EReal)
      = shapeCast S1x64 (Gnn.meanVec (V (Proc.devRef .tc main_v21_1) : S10x8x64.Idx → EReal)
          reducesTo_S10x8x64_S64_d0_1 h_S_ bcast_S_S64) shapeCasts_S64_S1x64 := by
    dsimp only [hostOps1]; after_results <;> rfl
  rw [e, row_of_vec]
  exact Gnn.meanVec_apply _ N hps _ _ _ j

set_option maxHeartbeats 1000000 in

theorem ops1_rstd (N : Fin 100000 → Fin 64 → EReal)
    (hps : ∀ t s j, (V (Proc.devRef .tc main_v21_1) : S10x8x64.Idx → EReal) (ix3 t s j) = ∑ g : Fin 1250, N (Gnn.row t g s) j)
    (hpq : ∀ t s j, (V (Proc.devRef .tc main_v21_2) : S10x8x64.Idx → EReal) (ix3 t s j)
      = ∑ g : Fin 1250, N (Gnn.row t g s) j * N (Gnn.row t g s) j)
    (j : Fin 64) :
    (after (hostOps1 (F := Ideal)) V (Proc.devRef .tc main_v36) : S1x64.Idx → EReal) (ix2 0 j)
      = Ideal.rsqrt (Gnn.varK N j + Gnn.eps) := by
  have e : (after (hostOps1 (F := Ideal)) V (Proc.devRef .tc main_v36) : S1x64.Idx → EReal)
      = shapeCast S1x64 (Gnn.rstdVec (V (Proc.devRef .tc main_v21_1) : S10x8x64.Idx → EReal)
          (V (Proc.devRef .tc main_v21_2) : S10x8x64.Idx → EReal)
          reducesTo_S10x8x64_S64_d0_1 h_S_ bcast_S_S64) shapeCasts_S64_S1x64 := by
    dsimp only [hostOps1]; after_results_simp <;> rfl
  rw [e, row_of_vec]
  exact Gnn.rstdVec_apply _ _ N hps hpq _ _ _ j

theorem ops1_v21_0 :
    after (hostOps1 (F := Ideal)) V (Proc.devRef .tc main_v21_0) = V (Proc.devRef .tc main_v21_0) := by
  dsimp only [hostOps1]; after_results

end Cert.KernelIdeal.KLayer

end
-- ==== Proof.RegionNode0Pay.lean ====
import proofs.«406622_j66486093742154_3_alg».proof.Proof.Gen.KernelIdeal.Skeleton
import proofs.«406622_j66486093742154_3_alg».proof.Proof.Spec
import Idealize.ShloMosaic.Lib.ValueLayout
import Idealize.ShloMosaic.PureOps.Ideal.Laws

noncomputable section

namespace Cert.KernelIdeal.RegionVal.R0

open Cert.KernelIdeal Cert.KernelIdeal.Gen Idealize.ShloMosaic Idealize.ShloMosaic.ValueIdx

theorem lhs32_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs32_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs32_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs32_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

theorem matmul32_apply (a : FVec Ideal S10000x32 .bf16) (b : FVec Ideal S32x64 .bf16) (p : Fin 10000) (j : Fin 64) :
    matmul dot_S10000x32_S32x64_S10000x64_1_0_0_1_n_n none a b (constant S10000x64 .f32 0x00000000#32) (ix2 p j)
      = ∑ k : Fin 32, a (ix2 p k) * b (ix2 k j) := by
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p j) ((contrEquiv1 dot_S10000x32_S32x64_S10000x64_1_0_0_1_n_n 32 rfl rfl).symm k) = ix2 p k := funext fun ax => Fin.ext (by
    match ax with
    | ⟨0, _⟩ => exact lhs32_0 _ _
    | ⟨1, _⟩ => exact (lhs32_1 _ _).trans hk)
  have er : dot_S10000x32_S32x64_S10000x64_1_0_0_1_n_n.rhsIdx (ix2 p j) ((contrEquiv1 dot_S10000x32_S32x64_S10000x64_1_0_0_1_n_n 32 rfl rfl).symm k) = ix2 k j := funext fun ax => Fin.ext (by
    match ax with
    | ⟨0, _⟩ => exact (rhs32_0 _ _).trans hk
    | ⟨1, _⟩ => exact rhs32_1 _ _)
  rw [el, er]

theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem matmul64_apply (a : FVec Ideal S10000x64 .bf16) (b : FVec Ideal S64x64 .bf16) (p : Fin 10000) (j : Fin 64) :
    matmul dot_S10000x64_S64x64_S10000x64_1_0_0_1_n_n none a b (constant S10000x64 .f32 0x00000000#32) (ix2 p j)
      = ∑ k : Fin 64, a (ix2 p k) * b (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k := funext fun ax => Fin.ext (by
    match ax with
    | ⟨0, _⟩ => exact lhs64_0 _ _
    | ⟨1, _⟩ => exact (lhs64_1 _ _).trans hk)
  have er : dot_S10000x64_S64x64_S10000x64_1_0_0_1_n_n.rhsIdx (ix2 p j) ((contrEquiv1 dot_S10000x64_S64x64_S10000x64_1_0_0_1_n_n 64 rfl rfl).symm k) = ix2 k j := funext fun ax => Fin.ext (by
    match ax with
    | ⟨0, _⟩ => exact (rhs64_0 _ _).trans hk
    | ⟨1, _⟩ => exact rhs64_1 _ _)
  rw [el, er]

theorem w1T_fun (w : FVec Ideal S64x32 .bf16) :
    transpose S32x64 [1, 0] w transposes_S64x32_p1_0_S32x64 = fun i => w (ix2 (i 1) (i 0)) :=
  funext fun i => by
    obtain ⟨a, k, rfl⟩ : ∃ (a : Fin 32) (k : Fin 64), i = ix2 a k := ⟨i 0, i 1, eq_ix2 i⟩
    exact transpose_ix2_apply w transposes_S64x32_p1_0_S32x64 a k

theorem w2T_fun (w : FVec Ideal S64x64 .bf16) :
    transpose S64x64 [1, 0] w transposes_S64x64_p1_0_S64x64 = fun i => w (ix2 (i 1) (i 0)) :=
  funext fun i => by
    obtain ⟨k, j, rfl⟩ : ∃ (k : Fin 64) (j : Fin 64), i = ix2 k j := ⟨i 0, i 1, eq_ix2 i⟩
    exact transpose_ix2_apply w transposes_S64x64_p1_0_S64x64 k j

theorem scalar_zero : (Scalar.ofBits (F := Ideal) .f32 0x00000000#32 : EReal) = 0 := Ideal.ofBits_zero_f32

theorem node_block_apply (v0 v3 : Vec Ideal S10000x32 .f32) (v6 : Vec Ideal S64x32 .f32) (v11 : Vec Ideal S1x64 .f32)
    (v17 : Vec Ideal S64x64 .f32) (v22 : Vec Ideal S1x64 .f32) (p : Fin 10000) (j : Fin 64) :
    k0_pay2 (F := Ideal) v0 v3 v6 v11 v17 v22 (ix2 p j)
      = Gnn.relu ((∑ k : Fin 64, Gnn.relu ((∑ a : Fin 32, (Gnn.one * v0 (ix2 p a) + v3 (ix2 p a)) * v6 (ix2 k a))
          + v11 (ix2 0 k)) * v17 (ix2 j k)) + v22 (ix2 0 j)) := by
  unfold k0_pay2
  simp only [maximumf_apply, addf_apply, mulf_apply, truncf_apply, broadcast_apply, matmul64_apply, matmul32_apply,
    broadcastTo_1b_ab_apply, shapeCast_self, scalar_zero]
  rw [w1T_fun, w2T_fun]
  rfl

def groupRow (g : Fin 1250) (s : Fin 8) : Fin 10000 := ⟨g.val * 8 + s.val, by omega⟩

theorem regroup_apply {α : Type} (x : S10000x64.Idx → α) (g : Fin 1250) (s : Fin 8) (j : Fin 64) :
    shapeCast S1250x8x64 x shapeCasts_S10000x64_S1250x8x64 (ix3 g s j) = x (ix2 (groupRow g s) j) :=
  shapeCast_apply x shapeCasts_S10000x64_S1250x8x64 (ix3 g s j) (ix2 (groupRow g s) j) (by
    rw [Shape.rowMajor_val_two, Shape.rowMajor_val_three]
    rfl)

theorem groupSum_apply (x : FVec Ideal S1250x8x64 .f32) (hφ : FKind.Formats .f32)
    (hacc : (0x00000000#32 : BitVec 32) = FKind.add.neutral .f32 hφ) (u : Fin 1) (s : Fin 8) (j : Fin 64) :
    shapeCast S1x8x64 (multiReduction .add [0] S8x64 x 0x00000000#32 reduces_S1250x8x64_S8x64 hφ hacc)
        shapeCasts_S8x64_S1x8x64 (ix3 u s j)
      = ∑ g : Fin 1250, x (ix3 g s j) := by
  refine (shapeCast_ab_1ab_apply _ shapeCasts_S8x64_S1x8x64 u s j).trans ?_
  refine (Ideal.multiReduction_add_single x 0x00000000#32 reduces_S1250x8x64_S8x64 hφ hacc (ix2 s j)).trans ?_
  exact Finset.sum_congr rfl fun g _ => congrArg x (funext fun ax => Fin.ext (by
    match ax with
    | ⟨0, _⟩ => rfl
    | ⟨1, _⟩ => rfl
    | ⟨2, _⟩ => rfl))

theorem colsum_block_apply (v0 v3 : Vec Ideal S10000x32 .f32) (v6 : Vec Ideal S64x32 .f32) (v11 : Vec Ideal S1x64 .f32)
    (v17 : Vec Ideal S64x64 .f32) (v22 : Vec Ideal S1x64 .f32) (u : Fin 1) (s : Fin 8) (j : Fin 64) :
    k0_pay4 (F := Ideal) v0 v3 v6 v11 v17 v22 (ix3 u s j)
      = ∑ g : Fin 1250, k0_pay2 (F := Ideal) v0 v3 v6 v11 v17 v22 (ix2 (groupRow g s) j) := by
  unfold k0_pay4
  refine (groupSum_apply (k0_pay3 (F := Ideal) v0 v3 v6 v11 v17 v22) _ _ u s j).trans ?_
  refine Finset.sum_congr rfl fun g _ => ?_
  unfold k0_pay3
  exact regroup_apply _ g s j

theorem sqsum_block_apply (v0 v3 : Vec Ideal S10000x32 .f32) (v6 : Vec Ideal S64x32 .f32) (v11 : Vec Ideal S1x64 .f32)
    (v17 : Vec Ideal S64x64 .f32) (v22 : Vec Ideal S1x64 .f32) (u : Fin 1) (s : Fin 8) (j : Fin 64) :
    k0_pay1 (k0_pay5 (F := Ideal) v0 v3 v6 v11 v17 v22) (ix3 u s j)
      = ∑ g : Fin 1250, k0_pay2 (F := Ideal) v0 v3 v6 v11 v17 v22 (ix2 (groupRow g s) j)
          * k0_pay2 (F := Ideal) v0 v3 v6 v11 v17 v22 (ix2 (groupRow g s) j) := by
  unfold k0_pay1
  refine (groupSum_apply (k0_pay5 (F := Ideal) v0 v3 v6 v11 v17 v22) _ _ u s j).trans ?_
  refine Finset.sum_congr rfl fun g _ => ?_
  unfold k0_pay5 k0_pay3
  exact (mulf_apply _ _ _).trans (congrArg₂ (· * ·) (regroup_apply _ g s j) (regroup_apply _ g s j))

end Cert.KernelIdeal.RegionVal.R0

end
-- ==== Proof.RegionNode0.lean ====
import proofs.«406622_j66486093742154_3_alg».proof.Proof.Gen.KernelIdeal.Frame
import proofs.«406622_j66486093742154_3_alg».proof.Proof.Spec
import proofs.«406622_j66486093742154_3_alg».proof.Proof.RegionNode0Pay
import Idealize.ShloMosaic.Lib.Pipeline.Value

noncomputable section

namespace Cert.KernelIdeal.RegionVal

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

abbrev N0 (c : Dev nD) : Fin 100000 → Fin 64 → EReal :=
  Gnn.node 32 (Gnn.hat2 (V c main_arg0 : S100000x32.Idx → EReal)) (Gnn.hat2 (V c main_v18 : S100000x32.Idx → EReal))
    (Gnn.hat2 (V c main_arg6 : S64x32.Idx → EReal)) (Gnn.hatRow (V c main_v19 : S1x64.Idx → EReal))
    (Gnn.hat2 (V c main_arg8 : S64x64.Idx → EReal)) (Gnn.hatRow (V c main_v20 : S1x64.Idx → EReal))

namespace R0

theorem hz2 : (![0, 0] : Fin 2 → Nat) = fun _ => 0 := funext fun a => by fin_cases a <;> rfl
theorem hz3 : (![0, 0, 0] : Fin 3 → Nat) = fun _ => 0 := funext fun a => by fin_cases a <;> rfl

theorem point_lt (t : Fin cfg0.N) : t.val < 10 :=
  Nat.lt_of_lt_of_eq t.isLt (show cfg0.N = 10 from N_0)

def tile (t : Fin cfg0.N) : Fin 10 := ⟨t.val, point_lt t⟩

def blockRow (t : Fin cfg0.N) (p : Fin 10000) : Fin 100000 := ⟨t.val * 10000 + p.val, by have := point_lt t; omega⟩

theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_out : ∀ t : Fin cfg0.N,
    win0_6.index t (0 : Fin 2) = t.val ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

theorem xblk_apply (c : Dev nD) (t : Fin cfg0.N) (p : Fin 10000) (a : Fin 32) :
    (iblk0 V c 0 t : Vec Ideal S10000x32 .f32) (ix2 p a)
      = (V c main_arg0 : S100000x32.Idx → EReal) (ix2 (blockRow t p) a) := by
  obtain ⟨e0, e1, -⟩ := idx_in t
  unfold iblk0
  rw [View.read_apply]
  show V c main_arg0 _ = V c main_arg0 _
  congr 1
  funext ax
  apply Fin.ext
  match ax with
  | ⟨0, _⟩ => show win0_0.index t 0 * 10000 + 1 * p.val = t.val * 10000 + p.val; rw [e0]; omega
  | ⟨1, _⟩ => show win0_0.index t 1 * 32 + 1 * a.val = a.val; rw [e1]; omega

theorem aggblk_apply (c : Dev nD) (t : Fin cfg0.N) (p : Fin 10000) (a : Fin 32) :
    (iblk0 V c 1 t : Vec Ideal S10000x32 .f32) (ix2 p a)
      = (V c main_v18 : S100000x32.Idx → EReal) (ix2 (blockRow t p) a) := by
  obtain ⟨-, -, e0, e1, -⟩ := idx_in t
  unfold iblk0
  rw [View.read_apply]
  show V c main_v18 _ = V c main_v18 _
  congr 1
  funext ax
  apply Fin.ext
  match ax with
  | ⟨0, _⟩ => show win0_1.index t 0 * 10000 + 1 * p.val = t.val * 10000 + p.val; rw [e0]; omega
  | ⟨1, _⟩ => show win0_1.index t 1 * 32 + 1 * a.val = a.val; rw [e1]; omega

theorem w1blk_apply (c : Dev nD) (t : Fin cfg0.N) (k : Fin 64) (a : Fin 32) :
    (iblk0 V c 2 t : Vec Ideal S64x32 .f32) (ix2 k a) = (V c main_arg6 : S64x32.Idx → EReal) (ix2 k a) := by
  obtain ⟨-, -, -, -, e0, e1, -⟩ := idx_in t
  unfold iblk0
  rw [View.read_apply]
  show V c main_arg6 _ = V c main_arg6 _
  congr 1
  funext ax
  apply Fin.ext
  match ax with
  | ⟨0, _⟩ => show win0_2.index t 0 * 64 + 1 * k.val = k.val; rw [e0]; omega
  | ⟨1, _⟩ => show win0_2.index t 1 * 32 + 1 * a.val = a.val; rw [e1]; omega

theorem b1blk_apply (c : Dev nD) (t : Fin cfg0.N) (u : Fin 1) (k : Fin 64) :
    (iblk0 V c 3 t : Vec Ideal S1x64 .f32) (ix2 u k) = (V c main_v19 : S1x64.Idx → EReal) (ix2 u k) := by
  obtain ⟨-, -, -, -, -, -, e0, e1, -⟩ := idx_in t
  unfold iblk0
  rw [View.read_apply]
  show V c main_v19 _ = V c main_v19 _
  congr 1
  funext ax
  apply Fin.ext
  match ax with
  | ⟨0, _⟩ => show win0_3.index t 0 * 1 + 1 * u.val = u.val; rw [e0]; omega
  | ⟨1, _⟩ => show win0_3.index t 1 * 64 + 1 * k.val = k.val; rw [e1]; omega

theorem w2blk_apply (c : Dev nD) (t : Fin cfg0.N) (j k : Fin 64) :
    (iblk0 V c 4 t : Vec Ideal S64x64 .f32) (ix2 j k) = (V c main_arg8 : S64x64.Idx → EReal) (ix2 j k) := by
  obtain ⟨-, -, -, -, -, -, -, -, e0, e1, -⟩ := idx_in t
  unfold iblk0
  rw [View.read_apply]
  show V c main_arg8 _ = V c main_arg8 _
  congr 1
  funext ax
  apply Fin.ext
  match ax with
  | ⟨0, _⟩ => show win0_4.index t 0 * 64 + 1 * j.val = j.val; rw [e0]; omega
  | ⟨1, _⟩ => show win0_4.index t 1 * 64 + 1 * k.val = k.val; rw [e1]; omega

theorem b2blk_apply (c : Dev nD) (t : Fin cfg0.N) (u : Fin 1) (j : Fin 64) :
    (iblk0 V c 5 t : Vec Ideal S1x64 .f32) (ix2 u j) = (V c main_v20 : S1x64.Idx → EReal) (ix2 u j) := by
  obtain ⟨-, -, -, -, -, -, -, -, -, -, e0, e1⟩ := idx_in t
  unfold iblk0
  rw [View.read_apply]
  show V c main_v20 _ = V c main_v20 _
  congr 1
  funext ax
  apply Fin.ext
  match ax with
  | ⟨0, _⟩ => show win0_5.index t 0 * 1 + 1 * u.val = u.val; rw [e0]; omega
  | ⟨1, _⟩ => show win0_5.index t 1 * 64 + 1 * j.val = j.val; rw [e1]; omega

theorem node_at (c : Dev nD) (t : Fin cfg0.N) (p : Fin 10000) (j : Fin 64) :
    k0_pay2 (F := Ideal) (iblk0 V c 0 t) (iblk0 V c 1 t) (iblk0 V c 2 t) (iblk0 V c 3 t) (iblk0 V c 4 t) (iblk0 V c 5 t)
        (ix2 p j)
      = N0 V c (blockRow t p) j := by
  refine (node_block_apply (iblk0 V c 0 t) (iblk0 V c 1 t) (iblk0 V c 2 t) (iblk0 V c 3 t) (iblk0 V c 4 t)
    (iblk0 V c 5 t) p j).trans ?_
  simp only [xblk_apply V c t, aggblk_apply V c t, w1blk_apply V c t, b1blk_apply V c t, w2blk_apply V c t,
    b2blk_apply V c t]
  rfl

theorem blockRow_groupRow (t : Fin cfg0.N) (g : Fin 1250) (s : Fin 8) :
    blockRow t (groupRow g s) = Gnn.row (tile t) g s :=
  Fin.ext (by show t.val * 10000 + (g.val * 8 + s.val) = t.val * 10000 + g.val * 8 + s.val; omega)

theorem colsum_at (c : Dev nD) (t : Fin cfg0.N) (u : Fin 1) (s : Fin 8) (j : Fin 64) :
    k0_pay4 (F := Ideal) (iblk0 V c 0 t) (iblk0 V c 1 t) (iblk0 V c 2 t) (iblk0 V c 3 t) (iblk0 V c 4 t) (iblk0 V c 5 t)
        (ix3 u s j)
      = ∑ g : Fin 1250, N0 V c (Gnn.row (tile t) g s) j := by
  refine (colsum_block_apply (iblk0 V c 0 t) (iblk0 V c 1 t) (iblk0 V c 2 t) (iblk0 V c 3 t) (iblk0 V c 4 t)
    (iblk0 V c 5 t) u s j).trans ?_
  refine Finset.sum_congr rfl fun g _ => ?_
  rw [← blockRow_groupRow]
  exact node_at V c t (groupRow g s) j

theorem sqsum_at (c : Dev nD) (t : Fin cfg0.N) (u : Fin 1) (s : Fin 8) (j : Fin 64) :
    k0_pay1 (k0_pay5 (F := Ideal) (iblk0 V c 0 t) (iblk0 V c 1 t) (iblk0 V c 2 t) (iblk0 V c 3 t) (iblk0 V c 4 t)
        (iblk0 V c 5 t)) (ix3 u s j)
      = ∑ g : Fin 1250, N0 V c (Gnn.row (tile t) g s) j * N0 V c (Gnn.row (tile t) g s) j := by
  refine (sqsum_block_apply (iblk0 V c 0 t) (iblk0 V c 1 t) (iblk0 V c 2 t) (iblk0 V c 3 t) (iblk0 V c 4 t)
    (iblk0 V c 5 t) u s j).trans ?_
  refine Finset.sum_congr rfl fun g _ => ?_
  rw [← blockRow_groupRow]
  exact congrArg₂ (· * ·) (node_at V c t (groupRow g s) j) (node_at V c t (groupRow g s) j)

abbrev G6 (c : Dev nD) : S100000x64.Idx → EReal := fun i => N0 V c (i 0) (i 1)

theorem emb6 (t : Fin cfg0.N) (p : Fin 10000) (j : Fin 64) :
    ((cfg0.win 6).blk t).view.emb (ix2 p j) = (ix2 (blockRow t p) j : S100000x64.Idx) := by
  obtain ⟨e0, e1, -⟩ := idx_out t
  funext ax
  apply Fin.ext
  match ax with
  | ⟨0, _⟩ => show win0_6.index t 0 * 10000 + 1 * p.val = t.val * 10000 + p.val; rw [e0]; omega
  | ⟨1, _⟩ => show win0_6.index t 1 * 64 + 1 * j.val = j.val; rw [e1]; omega

theorem out6_apply (c : Dev nD) (t : Fin cfg0.N) (y : S10000x64.Idx) :
    k0_pay2 (F := Ideal) (iblk0 V c 0 t) (iblk0 V c 1 t) (iblk0 V c 2 t) (iblk0 V c 3 t) (iblk0 V c 4 t) (iblk0 V c 5 t) y
      = G6 V c (((cfg0.win 6).blk t).view.emb y) := by
  obtain ⟨p, j, rfl⟩ : ∃ (p : Fin 10000) (j : Fin 64), y = ix2 p j := ⟨y 0, y 1, eq_ix2 y⟩
  rw [emb6]
  exact node_at V c t p j

theorem flushed6 (c : Dev nD) (t : Fin cfg0.N) :
    (dat0 (F := Ideal) V c).flushed 6 t = ((cfg0.win 6).blk t).view.read (Elt Ideal) (G6 V c) := by
  show (cfg0.win 6).cut (grid0.coords t) ((dat0 (F := Ideal) V c).after 6 t) = _
  rw [after0_6]
  unfold out0_6
  rw [View.canon_unit_zero hz2]
  simp only [View.ld_unit_zero (S := S10000x32) hz2, View.ld_unit_zero (S := S64x32) hz2,
    View.ld_unit_zero (S := S1x64) hz2, View.ld_unit_zero (S := S64x64) hz2]
  funext y
  exact out6_apply V c t y

theorem mem_blk6 (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v21_0).slice (win0_6.rect t)).set ↔ _
  rw [View.set_slice_whole, Rect.mem_set_unit]
  exact Iff.rfl

theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 10000 < cfg0.N := by rw [show cfg0.N = 10 from N_0]; omega
  obtain ⟨e0, e1, -⟩ := idx_out ⟨(i 0).val / 10000, ht⟩
  refine ⟨⟨(i 0).val / 10000, ht⟩, flush0_6 _, ?_⟩
  rw [mem_blk6]
  intro a
  match a with
  | ⟨0, _⟩ =>
    show win0_6.index ⟨(i 0).val / 10000, ht⟩ 0 * 10000 ≤ (i 0).val
      ∧ (i 0).val < win0_6.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win0_6.index ⟨(i 0).val / 10000, ht⟩ 1 * 64 ≤ (i 1).val
      ∧ (i 1).val < win0_6.index ⟨(i 0).val / 10000, ht⟩ 1 * 64 + 64
    rw [e1]; omega

abbrev G7 (c : Dev nD) : S10x8x64.Idx → EReal := fun i => ∑ g : Fin 1250, N0 V c (Gnn.row (i 0) g (i 1)) (i 2)

abbrev G8 (c : Dev nD) : S10x8x64.Idx → EReal :=
  fun i => ∑ g : Fin 1250, N0 V c (Gnn.row (i 0) g (i 1)) (i 2) * N0 V c (Gnn.row (i 0) g (i 1)) (i 2)

theorem emb7 (t : Fin cfg0.N) (u : Fin 1) (s : Fin 8) (j : Fin 64) :
    ((cfg0.win 7).blk t).view.emb (ix3 u s j) = (ix3 (tile t) s j : S10x8x64.Idx) := by
  obtain ⟨-, -, e0, e1, e2, -⟩ := idx_out t
  have hu := u.isLt
  funext ax
  apply Fin.ext
  match ax with
  | ⟨0, _⟩ => show win0_7.index t 0 * 1 + 1 * u.val = t.val; rw [e0]; omega
  | ⟨1, _⟩ => show win0_7.index t 1 * 8 + 1 * s.val = s.val; rw [e1]; omega
  | ⟨2, _⟩ => show win0_7.index t 2 * 64 + 1 * j.val = j.val; rw [e2]; omega

theorem emb8 (t : Fin cfg0.N) (u : Fin 1) (s : Fin 8) (j : Fin 64) :
    ((cfg0.win 8).blk t).view.emb (ix3 u s j) = (ix3 (tile t) s j : S10x8x64.Idx) := by
  obtain ⟨-, -, -, -, -, e0, e1, e2⟩ := idx_out t
  have hu := u.isLt
  funext ax
  apply Fin.ext
  match ax with
  | ⟨0, _⟩ => show win0_8.index t 0 * 1 + 1 * u.val = t.val; rw [e0]; omega
  | ⟨1, _⟩ => show win0_8.index t 1 * 8 + 1 * s.val = s.val; rw [e1]; omega
  | ⟨2, _⟩ => show win0_8.index t 2 * 64 + 1 * j.val = j.val; rw [e2]; omega

theorem out7_apply (c : Dev nD) (t : Fin cfg0.N) (y : S1x8x64.Idx) :
    k0_pay4 (F := Ideal) (iblk0 V c 0 t) (iblk0 V c 1 t) (iblk0 V c 2 t) (iblk0 V c 3 t) (iblk0 V c 4 t) (iblk0 V c 5 t) y
      = G7 V c (((cfg0.win 7).blk t).view.emb y) := by
  obtain ⟨u, s, j, rfl⟩ : ∃ (u : Fin 1) (s : Fin 8) (j : Fin 64), y = ix3 u s j := ⟨y 0, y 1, y 2, eq_ix3 y⟩
  rw [emb7]
  exact colsum_at V c t u s j

theorem out8_apply (c : Dev nD) (t : Fin cfg0.N) (y : S1x8x64.Idx) :
    k0_pay1 (k0_pay5 (F := Ideal) (iblk0 V c 0 t) (iblk0 V c 1 t) (iblk0 V c 2 t) (iblk0 V c 3 t) (iblk0 V c 4 t)
        (iblk0 V c 5 t)) y
      = G8 V c (((cfg0.win 8).blk t).view.emb y) := by
  obtain ⟨u, s, j, rfl⟩ : ∃ (u : Fin 1) (s : Fin 8) (j : Fin 64), y = ix3 u s j := ⟨y 0, y 1, y 2, eq_ix3 y⟩
  rw [emb8]
  exact sqsum_at V c t u s j

theorem flushed7 (c : Dev nD) (t : Fin cfg0.N) :
    (dat0 (F := Ideal) V c).flushed 7 t = ((cfg0.win 7).blk t).view.read (Elt Ideal) (G7 V c) := by
  show (cfg0.win 7).cut (grid0.coords t) ((dat0 (F := Ideal) V c).after 7 t) = _
  rw [after0_7]
  unfold out0_7
  rw [View.canon_unit_zero hz3]
  simp only [View.ld_unit_zero (S := S10000x32) hz2, View.ld_unit_zero (S := S64x32) hz2,
    View.ld_unit_zero (S := S1x64) hz2, View.ld_unit_zero (S := S64x64) hz2]
  funext y
  exact out7_apply V c t y

theorem flushed8 (c : Dev nD) (t : Fin cfg0.N) :
    (dat0 (F := Ideal) V c).flushed 8 t = ((cfg0.win 8).blk t).view.read (Elt Ideal) (G8 V c) := by
  show (cfg0.win 8).cut (grid0.coords t) ((dat0 (F := Ideal) V c).after 8 t) = _
  rw [after0_8]
  unfold out0_8
  rw [View.canon_unit_zero hz3]
  simp only [View.ld_unit_zero (S := S10000x32) hz2, View.ld_unit_zero (S := S64x32) hz2,
    View.ld_unit_zero (S := S1x64) hz2, View.ld_unit_zero (S := S64x64) hz2]
  funext y
  exact out8_apply V c t y

theorem mem_blk7 (t : Fin cfg0.N) (i : S10x8x64.Idx) :
    i ∈ ((cfg0.win 7).blk t).view.set ↔ ∀ a : Fin 3, win0_7.index t a * S1x8x64.size a ≤ (i a).val
      ∧ (i a).val < win0_7.index t a * S1x8x64.size a + S1x8x64.size a := by
  show i ∈ ((View.whole main_v21_1).slice (win0_7.rect t)).set ↔ _
  rw [View.set_slice_whole, Rect.mem_set_unit]
  exact Iff.rfl

theorem mem_blk8 (t : Fin cfg0.N) (i : S10x8x64.Idx) :
    i ∈ ((cfg0.win 8).blk t).view.set ↔ ∀ a : Fin 3, win0_8.index t a * S1x8x64.size a ≤ (i a).val
      ∧ (i a).val < win0_8.index t a * S1x8x64.size a + S1x8x64.size a := by
  show i ∈ ((View.whole main_v21_2).slice (win0_8.rect t)).set ↔ _
  rw [View.set_slice_whole, Rect.mem_set_unit]
  exact Iff.rfl

theorem cover7 (i : S10x8x64.Idx) :
    ∃ t : Fin cfg0.N, (cfg0.win 7).flush t = true ∧ i ∈ ((cfg0.win 7).blk t).view.set := by
  have hi0 : (i 0).val < 10 := (i 0).isLt
  have hi1 : (i 1).val < 8 := (i 1).isLt
  have hi2 : (i 2).val < 64 := (i 2).isLt
  have ht : (i 0).val < cfg0.N := by rw [show cfg0.N = 10 from N_0]; omega
  obtain ⟨-, -, e0, e1, e2, -⟩ := idx_out ⟨(i 0).val, ht⟩
  refine ⟨⟨(i 0).val, ht⟩, flush0_7 _, ?_⟩
  rw [mem_blk7]
  intro a
  match a with
  | ⟨0, _⟩ =>
    show win0_7.index ⟨(i 0).val, ht⟩ 0 * 1 ≤ (i 0).val ∧ (i 0).val < win0_7.index ⟨(i 0).val, ht⟩ 0 * 1 + 1
    rw [e0]; show (i 0).val * 1 ≤ (i 0).val ∧ (i 0).val < (i 0).val * 1 + 1; omega
  | ⟨1, _⟩ =>
    show win0_7.index ⟨(i 0).val, ht⟩ 1 * 8 ≤ (i 1).val ∧ (i 1).val < win0_7.index ⟨(i 0).val, ht⟩ 1 * 8 + 8
    rw [e1]; omega
  | ⟨2, _⟩ =>
    show win0_7.index ⟨(i 0).val, ht⟩ 2 * 64 ≤ (i 2).val ∧ (i 2).val < win0_7.index ⟨(i 0).val, ht⟩ 2 * 64 + 64
    rw [e2]; omega

theorem cover8 (i : S10x8x64.Idx) :
    ∃ t : Fin cfg0.N, (cfg0.win 8).flush t = true ∧ i ∈ ((cfg0.win 8).blk t).view.set := by
  have hi0 : (i 0).val < 10 := (i 0).isLt
  have hi1 : (i 1).val < 8 := (i 1).isLt
  have hi2 : (i 2).val < 64 := (i 2).isLt
  have ht : (i 0).val < cfg0.N := by rw [show cfg0.N = 10 from N_0]; omega
  obtain ⟨-, -, -, -, -, e0, e1, e2⟩ := idx_out ⟨(i 0).val, ht⟩
  refine ⟨⟨(i 0).val, ht⟩, flush0_8 _, ?_⟩
  rw [mem_blk8]
  intro a
  match a with
  | ⟨0, _⟩ =>
    show win0_8.index ⟨(i 0).val, ht⟩ 0 * 1 ≤ (i 0).val ∧ (i 0).val < win0_8.index ⟨(i 0).val, ht⟩ 0 * 1 + 1
    rw [e0]; show (i 0).val * 1 ≤ (i 0).val ∧ (i 0).val < (i 0).val * 1 + 1; omega
  | ⟨1, _⟩ =>
    show win0_8.index ⟨(i 0).val, ht⟩ 1 * 8 ≤ (i 1).val ∧ (i 1).val < win0_8.index ⟨(i 0).val, ht⟩ 1 * 8 + 8
    rw [e1]; omega
  | ⟨2, _⟩ =>
    show win0_8.index ⟨(i 0).val, ht⟩ 2 * 64 ≤ (i 2).val ∧ (i 2).val < win0_8.index ⟨(i 0).val, ht⟩ 2 * 64 + 64
    rw [e2]; omega

end R0

open R0

theorem hmlp0 (c : Dev nD) (r : Fin 100000) (j : Fin 64) :
    ((dat0 (F := Ideal) V c).arrAt 6 cfg0.N : S100000x64.Idx → EReal) (ix2 r j) = N0 V c r j :=
  congrFun ((dat0 (F := Ideal) V c).arrAt_eq_of_cover 6 (G6 V c) (fun t _ => flushed6 V c t) cover6) (ix2 r j)

theorem psum0 (c : Dev nD) (t : Fin 10) (s : Fin 8) (j : Fin 64) :
    ((dat0 (F := Ideal) V c).arrAt 7 cfg0.N : S10x8x64.Idx → EReal) (ix3 t s j)
      = ∑ g : Fin 1250, N0 V c (Gnn.row t g s) j :=
  congrFun ((dat0 (F := Ideal) V c).arrAt_eq_of_cover 7 (G7 V c) (fun t _ => flushed7 V c t) cover7) (ix3 t s j)

theorem psumsq0 (c : Dev nD) (t : Fin 10) (s : Fin 8) (j : Fin 64) :
    ((dat0 (F := Ideal) V c).arrAt 8 cfg0.N : S10x8x64.Idx → EReal) (ix3 t s j)
      = ∑ g : Fin 1250, N0 V c (Gnn.row t g s) j * N0 V c (Gnn.row t g s) j :=
  congrFun ((dat0 (F := Ideal) V c).arrAt_eq_of_cover 8 (G8 V c) (fun t _ => flushed8 V c t) cover8) (ix3 t s j)

end Cert.KernelIdeal.RegionVal

end
-- ==== Proof.KLayer0.lean ====
import proofs.«406622_j66486093742154_3_alg».proof.Proof.Gen.KernelIdeal.Frame
import proofs.«406622_j66486093742154_3_alg».proof.Proof.Spec
import proofs.«406622_j66486093742154_3_alg».proof.Proof.SpecMath
import proofs.«406622_j66486093742154_3_alg».proof.Proof.KStats
import proofs.«406622_j66486093742154_3_alg».proof.Proof.KHost0
import proofs.«406622_j66486093742154_3_alg».proof.Proof.RegionNode0
import proofs.«406622_j66486093742154_3_alg».proof.Proof.RegionBn1
set_option maxRecDepth 16384

noncomputable section

namespace Cert.KernelIdeal.KLayer

open Cert.KernelIdeal Cert.KernelIdeal.Gen Gnn Idealize.ShloMosaic Idealize.ShloMosaic.TcCoe Idealize.ShloMosaic.ValueIdx

variable (m : (ℓ : Loc nD τ sig) → Buf (Elt Ideal) ℓ) (ρ : Dev nD → PrngReg)

local macro "not_written" ops:ident : term => `(List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

section Walks

variable (c : Dev nD) (b : Ref sig .tc)

theorem W4_launch
    (h3 : ∀ op ∈ hostOps0_3 (F := Ideal), Proc.devRef .tc b ∉ op.writes)
    (h2 : ∀ op ∈ hostOps0_2 (F := Ideal), Proc.devRef .tc b ∉ op.writes)
    (h1 : ∀ op ∈ hostOps0_1 (F := Ideal), Proc.devRef .tc b ∉ op.writes)
    (h0 : ∀ op ∈ hostOps0 (F := Ideal), Proc.devRef .tc b ∉ op.writes) :
    W4 (F := Ideal) m ρ c (Proc.devRef .tc b) = m ((c : Thread nD τ).loc b) :=
  calc W4 (F := Ideal) m ρ c (Proc.devRef .tc b)
    _ = W3 m ρ c (Proc.devRef .tc b) := StableHlo.after_of_forall_not_mem _ _ h3
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

theorem W5_launch
    (h4 : ∀ op ∈ hostOps0_4 (F := Ideal), Proc.devRef .tc b ∉ op.writes)
    (h3 : ∀ op ∈ hostOps0_3 (F := Ideal), Proc.devRef .tc b ∉ op.writes)
    (h2 : ∀ op ∈ hostOps0_2 (F := Ideal), Proc.devRef .tc b ∉ op.writes)
    (h1 : ∀ op ∈ hostOps0_1 (F := Ideal), Proc.devRef .tc b ∉ op.writes)
    (h0 : ∀ op ∈ hostOps0 (F := Ideal), Proc.devRef .tc b ∉ op.writes) :
    W5 (F := Ideal) m ρ c (Proc.devRef .tc b) = m ((c : Thread nD τ).loc b) :=
  (StableHlo.after_of_forall_not_mem _ _ h4).trans (W4_launch m ρ c b h3 h2 h1 h0)

theorem W6_first (hne : ∀ w, Pipeline.arrRef spec0 w ≠ b)
    (h4 : ∀ op ∈ hostOps0_4 (F := Ideal), Proc.devRef .tc b ∉ op.writes)
    (h3 : ∀ op ∈ hostOps0_3 (F := Ideal), Proc.devRef .tc b ∉ op.writes)
    (h2 : ∀ op ∈ hostOps0_2 (F := Ideal), Proc.devRef .tc b ∉ op.writes)
    (h1 : ∀ op ∈ hostOps0_1 (F := Ideal), Proc.devRef .tc b ∉ op.writes) :
    W6 (F := Ideal) m ρ c (Proc.devRef .tc b) = W1 m ρ c (Proc.devRef .tc b) :=
  calc W6 (F := Ideal) m ρ c (Proc.devRef .tc b)
    _ = W5 m ρ c (Proc.devRef .tc b) := W6_of_ne m ρ c b hne
    _ = W4 m ρ c (Proc.devRef .tc b) := StableHlo.after_of_forall_not_mem _ _ h4
    _ = W3 m ρ c (Proc.devRef .tc b) := StableHlo.after_of_forall_not_mem _ _ h3
    _ = W2 m ρ c (Proc.devRef .tc b) := StableHlo.after_of_forall_not_mem _ _ h2
    _ = W1 m ρ c (Proc.devRef .tc b) := StableHlo.after_of_forall_not_mem _ _ h1

end Walks

section Layer

variable (c : Dev nD)

theorem V5_arg0 : (W5 (F := Ideal) m ρ c (Proc.devRef .tc main_arg0) : S100000x32.Idx → EReal)
    = m ((c : Thread nD τ).loc main_arg0) :=
  W5_launch m ρ c main_arg0 (not_written hostOps0_4) (not_written hostOps0_3) (not_written hostOps0_2)
    (not_written hostOps0_1) (not_written hostOps0)

theorem V5_arg6 : (W5 (F := Ideal) m ρ c (Proc.devRef .tc main_arg6) : S64x32.Idx → EReal)
    = m ((c : Thread nD τ).loc main_arg6) :=
  W5_launch m ρ c main_arg6 (not_written hostOps0_4) (not_written hostOps0_3) (not_written hostOps0_2)
    (not_written hostOps0_1) (not_written hostOps0)

theorem V5_arg8 : (W5 (F := Ideal) m ρ c (Proc.devRef .tc main_arg8) : S64x64.Idx → EReal)
    = m ((c : Thread nD τ).loc main_arg8) :=
  W5_launch m ρ c main_arg8 (not_written hostOps0_4) (not_written hostOps0_3) (not_written hostOps0_2)
    (not_written hostOps0_1) (not_written hostOps0)

theorem V5_b1 (k : Fin 64) : (W5 (F := Ideal) m ρ c (Proc.devRef .tc main_v19) : S1x64.Idx → EReal) (ix2 0 k)
    = (m ((c : Thread nD τ).loc main_arg7) : S64.Idx → EReal) (ix1 k) :=
  (ops04_v19 (W4 (F := Ideal) m ρ c) k).trans (congrFun (W4_launch m ρ c main_arg7 (not_written hostOps0_3)
    (not_written hostOps0_2) (not_written hostOps0_1) (not_written hostOps0)) (ix1 k))

theorem V5_b2 (k : Fin 64) : (W5 (F := Ideal) m ρ c (Proc.devRef .tc main_v20) : S1x64.Idx → EReal) (ix2 0 k)
    = (m ((c : Thread nD τ).loc main_arg9) : S64.Idx → EReal) (ix1 k) :=
  (ops04_v20 (W4 (F := Ideal) m ρ c) k).trans (congrFun (W4_launch m ρ c main_arg9 (not_written hostOps0_3)
    (not_written hostOps0_2) (not_written hostOps0_1) (not_written hostOps0)) (ix1 k))

abbrev Nd : Fin 100000 → Fin 64 → EReal :=
  node 32 (hat2 (m ((c : Thread nD τ).loc main_arg0) : S100000x32.Idx → EReal))
    (hat2 (W5 (F := Ideal) m ρ c (Proc.devRef .tc main_v18) : S100000x32.Idx → EReal))
    (hat2 (m ((c : Thread nD τ).loc main_arg6) : S64x32.Idx → EReal))
    (hat1 (m ((c : Thread nD τ).loc main_arg7) : S64.Idx → EReal))
    (hat2 (m ((c : Thread nD τ).loc main_arg8) : S64x64.Idx → EReal))
    (hat1 (m ((c : Thread nD τ).loc main_arg9) : S64.Idx → EReal))

theorem N0_eq : RegionVal.N0 (V5 (F := Ideal) m ρ) c = Nd m ρ c := by
  have e19 : hatRow (W5 (F := Ideal) m ρ c (Proc.devRef .tc main_v19) : S1x64.Idx → EReal)
      = hat1 (m ((c : Thread nD τ).loc main_arg7) : S64.Idx → EReal) := funext fun k => V5_b1 m ρ c k
  have e20 : hatRow (W5 (F := Ideal) m ρ c (Proc.devRef .tc main_v20) : S1x64.Idx → EReal)
      = hat1 (m ((c : Thread nD τ).loc main_arg9) : S64.Idx → EReal) := funext fun k => V5_b2 m ρ c k
  show node 32 (hat2 (W5 (F := Ideal) m ρ c (Proc.devRef .tc main_arg0) : S100000x32.Idx → EReal))
      (hat2 (W5 (F := Ideal) m ρ c (Proc.devRef .tc main_v18) : S100000x32.Idx → EReal))
      (hat2 (W5 (F := Ideal) m ρ c (Proc.devRef .tc main_arg6) : S64x32.Idx → EReal))
      (hatRow (W5 (F := Ideal) m ρ c (Proc.devRef .tc main_v19) : S1x64.Idx → EReal))
      (hat2 (W5 (F := Ideal) m ρ c (Proc.devRef .tc main_arg8) : S64x64.Idx → EReal))
      (hatRow (W5 (F := Ideal) m ρ c (Proc.devRef .tc main_v20) : S1x64.Idx → EReal)) = _
  rw [e19, e20, V5_arg0, V5_arg6, V5_arg8]

theorem W6_hmlp (r : Fin 100000) (j : Fin 64) :
    (W6 (F := Ideal) m ρ c (Proc.devRef .tc main_v21_0) : S100000x64.Idx → EReal) (ix2 r j) = Nd m ρ c r j :=
  (congrFun (W6_arr m ρ c 6) (ix2 r j)).trans
    ((RegionVal.hmlp0 (V5 (F := Ideal) m ρ) c r j).trans (congrFun (congrFun (N0_eq m ρ c) r) j))

theorem W6_psum (t : Fin 10) (s : Fin 8) (j : Fin 64) :
    (W6 (F := Ideal) m ρ c (Proc.devRef .tc main_v21_1) : S10x8x64.Idx → EReal) (ix3 t s j)
      = ∑ g : Fin 1250, Nd m ρ c (row t g s) j :=
  (congrFun (W6_arr m ρ c 7) (ix3 t s j)).trans
    ((RegionVal.psum0 (V5 (F := Ideal) m ρ) c t s j).trans (by rw [N0_eq]))

theorem W6_psumsq (t : Fin 10) (s : Fin 8) (j : Fin 64) :
    (W6 (F := Ideal) m ρ c (Proc.devRef .tc main_v21_2) : S10x8x64.Idx → EReal) (ix3 t s j)
      = ∑ g : Fin 1250, Nd m ρ c (row t g s) j * Nd m ρ c (row t g s) j :=
  (congrFun (W6_arr m ρ c 8) (ix3 t s j)).trans
    ((RegionVal.psumsq0 (V5 (F := Ideal) m ρ) c t s j).trans (by rw [N0_eq]))

theorem V7_h : hat2 (W7 (F := Ideal) m ρ c (Proc.devRef .tc main_v21_0) : S100000x64.Idx → EReal) = Nd m ρ c :=
  funext fun r => funext fun j =>
    (congrFun (ops1_v21_0 (W6 (F := Ideal) m ρ c)) (ix2 r j)).trans (W6_hmlp m ρ c r j)

theorem V7_mean : hatRow (W7 (F := Ideal) m ρ c (Proc.devRef .tc main_v35) : S1x64.Idx → EReal) = colMean (Nd m ρ c) :=
  funext fun j => ops1_mean (W6 (F := Ideal) m ρ c) (Nd m ρ c) (fun t s j => W6_psum m ρ c t s j) j

theorem V7_rstd : hatRow (W7 (F := Ideal) m ρ c (Proc.devRef .tc main_v36) : S1x64.Idx → EReal)
    = fun j => Ideal.rsqrt (varK (Nd m ρ c) j + eps) :=
  funext fun j => ops1_rstd (W6 (F := Ideal) m ρ c) (Nd m ρ c) (fun t s j => W6_psum m ρ c t s j)
    (fun t s j => W6_psumsq m ρ c t s j) j

theorem V7_gamma : hatRow (W7 (F := Ideal) m ρ c (Proc.devRef .tc main_v37) : S1x64.Idx → EReal)
    = fun j => (m ((c : Thread nD τ).loc main_arg16) : S4x64.Idx → EReal) (ix2 0 j) :=
  funext fun j =>
    (ops1_v37 (W6 (F := Ideal) m ρ c) j).trans
      ((congrFun (W6_first m ρ c main_v5 (by decide) (not_written hostOps0_4) (not_written hostOps0_3)
        (not_written hostOps0_2) (not_written hostOps0_1)) (ix1 j)).trans (ops0_v5 (W0 (F := Ideal) m ρ c) j))

theorem V7_beta : hatRow (W7 (F := Ideal) m ρ c (Proc.devRef .tc main_v38) : S1x64.Idx → EReal)
    = fun j => (m ((c : Thread nD τ).loc main_arg17) : S4x64.Idx → EReal) (ix2 0 j) :=
  funext fun j =>
    (ops1_v38 (W6 (F := Ideal) m ρ c) j).trans
      ((congrFun (W6_first m ρ c main_v7 (by decide) (not_written hostOps0_4) (not_written hostOps0_3)
        (not_written hostOps0_2) (not_written hostOps0_1)) (ix1 j)).trans (ops0_v7 (W0 (F := Ideal) m ρ c) j))

end Layer

theorem layer0 (c : Dev nD) :
    (W8 (F := Ideal) m ρ c (Proc.devRef .tc main_v39) : S100000x64.Idx → EReal)
      = arr2 (layerK 32
          (hat2 (m ((c.tc : Thread nD τ).loc main_arg0) : S100000x32.Idx → EReal))
          (hat2 (W5 (F := Ideal) m ρ c (Proc.devRef .tc main_v18) : S100000x32.Idx → EReal))
          (hat2 (m ((c.tc : Thread nD τ).loc main_arg6) : S64x32.Idx → EReal))
          (hat1 (m ((c.tc : Thread nD τ).loc main_arg7) : S64.Idx → EReal))
          (hat2 (m ((c.tc : Thread nD τ).loc main_arg8) : S64x64.Idx → EReal))
          (hat1 (m ((c.tc : Thread nD τ).loc main_arg9) : S64.Idx → EReal))
          (fun j => (m ((c.tc : Thread nD τ).loc main_arg16) : S4x64.Idx → EReal) (ix2 0 j))
          (fun j => (m ((c.tc : Thread nD τ).loc main_arg17) : S4x64.Idx → EReal) (ix2 0 j))) := by
  funext i
  obtain ⟨r, j, rfl⟩ : ∃ (r : Fin 100000) (j : Fin 64), i = ix2 r j := ⟨i 0, i 1, eq_ix2 i⟩
  refine (congrFun (W8_arr m ρ c 5) (ix2 r j)).trans ?_
  refine (RegionVal.bn1 (V7 (F := Ideal) m ρ) c r j).trans ?_
  show bn (hat2 (W7 (F := Ideal) m ρ c (Proc.devRef .tc main_v21_0) : S100000x64.Idx → EReal))
      (hatRow (W7 (F := Ideal) m ρ c (Proc.devRef .tc main_v35) : S1x64.Idx → EReal))
      (hatRow (W7 (F := Ideal) m ρ c (Proc.devRef .tc main_v36) : S1x64.Idx → EReal))
      (hatRow (W7 (F := Ideal) m ρ c (Proc.devRef .tc main_v37) : S1x64.Idx → EReal))
      (hatRow (W7 (F := Ideal) m ρ c (Proc.devRef .tc main_v38) : S1x64.Idx → EReal)) r j = _
  rw [V7_h, V7_mean, V7_rstd, V7_gamma, V7_beta]
  rfl

end Cert.KernelIdeal.KLayer

end
-- ==== Proof.KAgg.lean ====
import proofs.«406622_j66486093742154_3_alg».proof.KernelIdeal
import proofs.«406622_j66486093742154_3_alg».proof.Proof.Spec
import Idealize.ShloMosaic.Lib.Affine
import Idealize.ShloMosaic.Lib.ValueIdx
import Idealize.ShloMosaic.Lib.Pipeline.Value

noncomputable section

namespace Cert.KernelIdeal.KAgg

open Cert.KernelIdeal Idealize.ShloMosaic

variable [Cert.KernelIdeal.Facts]
open Cert.KernelIdeal.Facts₀ Cert.KernelIdeal.Facts

def srcOf (a1 : IVec S2x1600000 32) : IVec S1600000 32 :=
  shapeCast _ (extractStridedSlice S1x1600000 ![0, 0] a1 slices_S2x1600000_S1x1600000_0_0) shapeCasts_S1x1600000_S1600000

def dstOf (a1 : IVec S2x1600000 32) : IVec S1600000 32 :=
  shapeCast _ (extractStridedSlice S1x1600000 ![1, 0] a1 slices_S2x1600000_S1x1600000_1_0) shapeCasts_S1x1600000_S1600000

def idxOf (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def maskOf (s : IVec S1600000 32) : IVec S1600000 1 :=
  Host.reduce IntOp.andi
    (andi (cmpi .sge (idxOf s) (broadcastInDim S1600000x1 ![] bcast_S_S1600000x1 (constantI S_ 32 0#32)))
      (cmpi .sle (idxOf s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

def take32 (X : FVec Ideal S100000x32 .f32) (s : IVec S1600000 32) : FVec Ideal S1600000x32 .f32 :=
  select (broadcastInDim S1600000x32 ![0] bcast_S1600000_S1600000x32_0 (maskOf s))
    (Host.gather gather_S100000x32_S1600000x1_S1600000x32_1_0_n_n_0_1_132 X (idxOf s))
    (broadcastInDim S1600000x32 ![] bcast_S_S1600000x32 (constant (F := Ideal) S_ .f32 0x7FC00000#32))

def take64 (X : FVec Ideal S100000x64 .f32) (s : IVec S1600000 32) : FVec Ideal S1600000x64 .f32 :=
  select (broadcastInDim S1600000x64 ![0] bcast_S1600000_S1600000x64_0 (maskOf s))
    (Host.gather gather_S100000x64_S1600000x1_S1600000x64_1_0_n_n_0_1_164 X (idxOf s))
    (broadcastInDim S1600000x64 ![] bcast_S_S1600000x64 (constant (F := Ideal) S_ .f32 0x7FC00000#32))

def lin32 (ea : FVec Ideal S1600000x16 .f32) (ew : FVec Ideal S32x16 .f32) (eb : FVec Ideal S32 .f32) :
    FVec Ideal S1600000x32 .f32 :=
  addf (Host.dotGeneral dot_S1600000x16_S16x32_S1600000x32_1_0_0_1_n_n none ea (transpose S16x32 [1, 0] ew transposes_S32x16_S16x32_1_0))
    (broadcastInDim S1600000x32 ![0, 1] bcast_S1x32_S1600000x32_0_1 (broadcastInDim S1x32 ![1] bcast_S32_S1x32_1 eb))

def lin64 (ea : FVec Ideal S1600000x16 .f32) (ew : FVec Ideal S64x16 .f32) (eb : FVec Ideal S64 .f32) :
    FVec Ideal S1600000x64 .f32 :=
  addf (Host.dotGeneral dot_S1600000x16_S16x64_S1600000x64_1_0_0_1_n_n none ea (transpose S16x64 [1, 0] ew transposes_S64x16_S16x64_1_0))
    (broadcastInDim S1600000x64 ![0, 1] bcast_S1x64_S1600000x64_0_1 (broadcastInDim S1x64 ![1] bcast_S64_S1x64_1 eb))

def aggK32 (X : FVec Ideal S100000x32 .f32) (s d : IVec S1600000 32) (ea : FVec Ideal S1600000x16 .f32)
    (ew : FVec Ideal S32x16 .f32) (eb : FVec Ideal S32 .f32) : FVec Ideal S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 d)
    (maximumf (addf (take32 X s) (lin32 ea ew eb))
      (broadcastInDim S1600000x32 ![] bcast_S_S1600000x32 (constant (F := Ideal) S_ .f32 0x00000000#32)))

def aggK64 (X : FVec Ideal S100000x64 .f32) (s d : IVec S1600000 32) (ea : FVec Ideal S1600000x16 .f32)
    (ew : FVec Ideal S64x16 .f32) (eb : FVec Ideal S64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (maximumf (addf (take64 X s) (lin64 ea ew eb))
      (broadcastInDim S1600000x64 ![] bcast_S_S1600000x64 (constant (F := Ideal) S_ .f32 0x00000000#32)))

def ewOf0 (a10 : FVec Ideal S3x64x16 .f32) : FVec Ideal S64x16 .f32 :=
  shapeCast _ (extractStridedSlice S1x64x16 ![0, 0, 0] a10 slices_S3x64x16_S1x64x16_0_0_0) shapeCasts_S1x64x16_S64x16

def ewOf1 (a10 : FVec Ideal S3x64x16 .f32) : FVec Ideal S64x16 .f32 :=
  shapeCast _ (extractStridedSlice S1x64x16 ![1, 0, 0] a10 slices_S3x64x16_S1x64x16_1_0_0) shapeCasts_S1x64x16_S64x16

def ewOf2 (a10 : FVec Ideal S3x64x16 .f32) : FVec Ideal S64x16 .f32 :=
  shapeCast _ (extractStridedSlice S1x64x16 ![2, 0, 0] a10 slices_S3x64x16_S1x64x16_2_0_0) shapeCasts_S1x64x16_S64x16

def ebOf0 (a11 : FVec Ideal S3x64 .f32) : FVec Ideal S64 .f32 :=
  shapeCast _ (extractStridedSlice S1x64 ![0, 0] a11 slices_S3x64_S1x64_0_0) shapeCasts_S1x64_S64

def ebOf1 (a11 : FVec Ideal S3x64 .f32) : FVec Ideal S64 .f32 :=
  shapeCast _ (extractStridedSlice S1x64 ![1, 0] a11 slices_S3x64_S1x64_1_0) shapeCasts_S1x64_S64

def ebOf2 (a11 : FVec Ideal S3x64 .f32) : FVec Ideal S64 .f32 :=
  shapeCast _ (extractStridedSlice S1x64 ![2, 0] a11 slices_S3x64_S1x64_2_0) shapeCasts_S1x64_S64

theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    have h1 : IntOp.andi 1#1 (f a) = 1#1 := by rw [hf a]; decide
    show l.foldl (fun r n => IntOp.andi r (f n)) (IntOp.andi 1#1 (f a)) = 1#1
    rw [h1]; exact ih

theorem idxOf_apply (s : IVec S1600000 32) (i : S1600000x1.Idx) :
    idxOf s i = Scalar.select (IntOp.cmpi .slt (s (ValueIdx.ix1 ⟨(i 0).val, (i 0).isLt⟩)) 0#32)
      (IntOp.addi (s (ValueIdx.ix1 ⟨(i 0).val, (i 0).isLt⟩)) 100000#32) (s (ValueIdx.ix1 ⟨(i 0).val, (i 0).isLt⟩)) := by
  unfold idxOf
  refine (broadcastInDim_apply _ bcast_S1600000_S1600000x1_0 _ i (ValueIdx.ix1 ⟨(i 0).val, (i 0).isLt⟩) (fun a => match a with
    | ⟨0, _⟩ => by show (i 0).val = if (1600000 : Nat) = 1 then 0 else (i 0).val; rw [if_neg (by decide)])).trans ?_
  rfl

theorem idxOf_eq (s : IVec S1600000 32)
    (hs : ∀ e : Fin 1600000, 0 ≤ (s (ValueIdx.ix1 e)).toInt ∧ (s (ValueIdx.ix1 e)).toInt < 100000) (i : S1600000x1.Idx) :
    idxOf s i = s (ValueIdx.ix1 ⟨(i 0).val, (i 0).isLt⟩) := by
  rw [idxOf_apply]
  have h := (hs ⟨(i 0).val, (i 0).isLt⟩).1
  have hn : ¬ IntOp.cmpi .slt (s (ValueIdx.ix1 ⟨(i 0).val, (i 0).isLt⟩)) 0#32 = 1#1 := by
    rw [IntOp.cmpi_slt]
    have h0 : (0#32 : BitVec 32).toInt = 0 := by decide
    omega
  rw [ValueIdx.eq_zero_of_ne_one hn, ValueIdx.select_zero]

theorem maskOf_eq_one (s : IVec S1600000 32)
    (hs : ∀ e : Fin 1600000, 0 ≤ (s (ValueIdx.ix1 e)).toInt ∧ (s (ValueIdx.ix1 e)).toInt < 100000) (j : S1600000.Idx) :
    maskOf s j = 1#1 := by
  unfold maskOf Host.reduce
  refine foldl_andi_ones _ (fun n => ?_) _
  generalize S1600000x1.rowMajor.symm n = i
  show IntOp.andi (IntOp.cmpi .sge (idxOf s i) 0#32) (IntOp.cmpi .sle (idxOf s i) 99999#32) = 1#1
  rw [idxOf_eq s hs i, IntOp.andi_eq_one, IntOp.cmpi_sge, IntOp.cmpi_sle]
  have h := hs ⟨(i 0).val, (i 0).isLt⟩
  have h0 : (0#32 : BitVec 32).toInt = 0 := by decide
  have h9 : (99999#32 : BitVec 32).toInt = 99999 := by decide
  omega

theorem take32_eq_gather (X : FVec Ideal S100000x32 .f32) (s : IVec S1600000 32)
    (hs : ∀ e : Fin 1600000, 0 ≤ (s (ValueIdx.ix1 e)).toInt ∧ (s (ValueIdx.ix1 e)).toInt < 100000) :
    take32 X s = Host.gather gather_S100000x32_S1600000x1_S1600000x32_1_0_n_n_0_1_132 X (idxOf s) := by
  funext i
  unfold take32
  rw [ValueIdx.select_apply]
  have hm : broadcastInDim S1600000x32 ![0] bcast_S1600000_S1600000x32_0 (maskOf s) i = 1#1 := by
    unfold broadcastInDim
    exact maskOf_eq_one s hs _
  rw [hm, ValueIdx.select_one]

theorem take64_eq_gather (X : FVec Ideal S100000x64 .f32) (s : IVec S1600000 32)
    (hs : ∀ e : Fin 1600000, 0 ≤ (s (ValueIdx.ix1 e)).toInt ∧ (s (ValueIdx.ix1 e)).toInt < 100000) :
    take64 X s = Host.gather gather_S100000x64_S1600000x1_S1600000x64_1_0_n_n_0_1_164 X (idxOf s) := by
  funext i
  unfold take64
  rw [ValueIdx.select_apply]
  have hm : broadcastInDim S1600000x64 ![0] bcast_S1600000_S1600000x64_0 (maskOf s) i = 1#1 := by
    unfold broadcastInDim
    exact maskOf_eq_one s hs _
  rw [hm, ValueIdx.select_one]

theorem srcOf_apply (a1 : IVec S2x1600000 32) (e : Fin 1600000) :
    srcOf a1 (ValueIdx.ix1 e) = a1 (ValueIdx.ix2 0 e) := by
  unfold srcOf
  refine (shapeCast_apply _ shapeCasts_S1x1600000_S1600000 (ValueIdx.ix1 e) (ValueIdx.ix2 (0 : Fin 1) e)
    (by rewrite [Shape.rowMajor_val_two, Shape.rowMajor_val_one]; show 0 * 1600000 + e.val = e.val; omega)).trans ?_
  exact extractStridedSlice_apply ![0, 0] a1 slices_S2x1600000_S1x1600000_0_0 (ValueIdx.ix2 (0 : Fin 1) e) (ValueIdx.ix2 (0 : Fin 2) e)
    (fun a => match a with
      | ⟨0, _⟩ => by show (0 : Nat) = 0 + 0; omega
      | ⟨1, _⟩ => by show e.val = 0 + e.val; omega)

theorem dstOf_apply (a1 : IVec S2x1600000 32) (e : Fin 1600000) :
    dstOf a1 (ValueIdx.ix1 e) = a1 (ValueIdx.ix2 1 e) := by
  unfold dstOf
  refine (shapeCast_apply _ shapeCasts_S1x1600000_S1600000 (ValueIdx.ix1 e) (ValueIdx.ix2 (0 : Fin 1) e)
    (by rewrite [Shape.rowMajor_val_two, Shape.rowMajor_val_one]; show 0 * 1600000 + e.val = e.val; omega)).trans ?_
  exact extractStridedSlice_apply ![1, 0] a1 slices_S2x1600000_S1x1600000_1_0 (ValueIdx.ix2 (0 : Fin 1) e) (ValueIdx.ix2 (1 : Fin 2) e)
    (fun a => match a with
      | ⟨0, _⟩ => by show (1 : Nat) = 1 + 0; omega
      | ⟨1, _⟩ => by show e.val = 0 + e.val; omega)

theorem srcOf_ok (a1 : IVec S2x1600000 32) (h : Gnn.SrcOK a1) :
    ∀ e : Fin 1600000, 0 ≤ (srcOf a1 (ValueIdx.ix1 e)).toInt ∧ (srcOf a1 (ValueIdx.ix1 e)).toInt < 100000 := by
  intro e
  rw [srcOf_apply]
  exact h e

end Cert.KernelIdeal.KAgg

end
-- ==== Proof.KAggSt3.lean ====
/-
  The host operations of the idealized kernel program before a later layer's node region, stretch by stretch and at
  any contents of the buffers on entry: the edge features' linear term with the layer's
  slices of the stacked edge parameters, the guarded row lookup, the sum, the rectifier, and the accumulation into the
  destination rows. Each long stretch is read in consecutive pieces; a buffer that a piece does not write is carried
  across it.
-/
import proofs.«406622_j66486093742154_3_alg».proof.Proof.Gen.KernelIdeal.Launch
import proofs.«406622_j66486093742154_3_alg».proof.Proof.KAgg
import Idealize.ShloMosaic.Lib.StableHlo.Run
import Idealize.ShloMosaic.Lib.Pipeline.Frame

set_option maxRecDepth 16384

noncomputable section

namespace Cert.KernelIdeal.KAggVal

open Idealize.ShloMosaic Idealize.ShloMosaic.TcCoe
open Cert.KernelIdeal Cert.KernelIdeal.Gen

/-- A buffer that no operation of a list writes holds after the list what it held before: the writes of the listed
    operations are singletons, each a reference other than the given one. -/
local macro "keep% " ops:ident " at " b:term : term =>
  `(StableHlo.after_of_forall_not_mem (b := Proc.devRef .tc $b) _ _ (List.forall_iff_forall_mem.mp (by
      simp only [$ops:ident, List.take_succ_cons, List.take_zero, List.drop_succ_cons, List.drop_zero,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Stretches
variable (V : Valuation τ sig (Elt Ideal))

/-! ## The parameter slices and the linear term -/

/-- The first four operations leave the layer's edge weight matrix … -/
theorem hostOps6_ew :
    StableHlo.after ((hostOps6 (F := Ideal)).take 4) V (Proc.devRef .tc main_v137)
      = KAgg.ewOf2 (V (Proc.devRef .tc main_arg10)) := by
  simp only [hostOps6, List.take_succ_cons, List.take_zero]
  after_results; rfl

/-- … and its edge bias. -/
theorem hostOps6_eb :
    StableHlo.after ((hostOps6 (F := Ideal)).take 4) V (Proc.devRef .tc main_v139)
      = KAgg.ebOf2 (V (Proc.devRef .tc main_arg11)) := by
  simp only [hostOps6, List.take_succ_cons, List.take_zero]
  after_results; rfl

/-- The last five form the linear term from them. -/
theorem hostOps6_linPiece :
    StableHlo.after (((hostOps6 (F := Ideal)).drop 4).drop 12) V (Proc.devRef .tc main_v156)
      = KAgg.lin64 (V (Proc.devRef .tc main_arg2)) (V (Proc.devRef .tc main_v137)) (V (Proc.devRef .tc main_v139)) := by
  simp only [hostOps6, List.drop_succ_cons, List.drop_zero]
  after_results; rfl

/-- The first stretch leaves the edge features' linear term at the layer's parameters. -/
theorem hostOps6_linTerm :
    StableHlo.after (hostOps6 (F := Ideal)) V (Proc.devRef .tc main_v156)
      = KAgg.lin64 (V (Proc.devRef .tc main_arg2)) (KAgg.ewOf2 (V (Proc.devRef .tc main_arg10)))
          (KAgg.ebOf2 (V (Proc.devRef .tc main_arg11))) := by
  have e : hostOps6 (F := Ideal)
      = hostOps6.take 4 ++ ((hostOps6.drop 4).take 12 ++ (hostOps6.drop 4).drop 12) := by
    rw [List.take_append_drop, List.take_append_drop]
  have hA2 : StableHlo.after ((hostOps6 (F := Ideal)).take 4) V (Proc.devRef .tc main_arg2)
      = V (Proc.devRef .tc main_arg2) := keep% hostOps6 at main_arg2
  have hB2 : StableHlo.after (((hostOps6 (F := Ideal)).drop 4).take 12) (StableHlo.after ((hostOps6 (F := Ideal)).take 4) V)
        (Proc.devRef .tc main_arg2)
      = StableHlo.after ((hostOps6 (F := Ideal)).take 4) V (Proc.devRef .tc main_arg2) := keep% hostOps6 at main_arg2
  have hBw : StableHlo.after (((hostOps6 (F := Ideal)).drop 4).take 12) (StableHlo.after ((hostOps6 (F := Ideal)).take 4) V)
        (Proc.devRef .tc main_v137)
      = StableHlo.after ((hostOps6 (F := Ideal)).take 4) V (Proc.devRef .tc main_v137) := keep% hostOps6 at main_v137
  have hBb : StableHlo.after (((hostOps6 (F := Ideal)).drop 4).take 12) (StableHlo.after ((hostOps6 (F := Ideal)).take 4) V)
        (Proc.devRef .tc main_v139)
      = StableHlo.after ((hostOps6 (F := Ideal)).take 4) V (Proc.devRef .tc main_v139) := keep% hostOps6 at main_v139
  rw [e, StableHlo.after_append, StableHlo.after_append, hostOps6_linPiece, hB2, hBw, hBb, hA2, hostOps6_ew, hostOps6_eb]

/-! ## The guarded row lookup -/

/-- The lookup stretch, first part (eight operations): the normalised index column of the source vector. -/
theorem hostOps6_1_idx :
    StableHlo.after ((hostOps6_1 (F := Ideal)).take 8) V (Proc.devRef .tc main_call6_v5)
      = KAgg.idxOf (V (Proc.devRef .tc main_v1)) := by
  simp only [hostOps6_1, List.take_succ_cons, List.take_zero]
  after_results
  simp only [StableHlo.TRef.ofBuf, StableHlo.TRef.toBuf, cast_eq]
  rfl

/-- Second part (ten operations): the guard, from the index column. -/
theorem hostOps6_1_mask :
    StableHlo.after (((hostOps6_1 (F := Ideal)).drop 8).take 10) V (Proc.devRef .tc main_call6_v12)
      = Host.reduce IntOp.andi
          (andi (cmpi .sge (V (Proc.devRef .tc main_call6_v5) : IVec S1600000x1 32)
              (broadcastInDim S1600000x1 ![] bcast_S_S1600000x1 (constantI S_ 32 0#32)))
            (cmpi .sle (V (Proc.devRef .tc main_call6_v5) : IVec S1600000x1 32)
              (broadcastInDim S1600000x1 ![0, 1] bcast_S1x1_S1600000x1_0_1
                (broadcastInDim S1x1 ![1] bcast_S1_S1x1_1 (constantI S1 32 99999#32)))))
          (constantI S_ 1 1#1) reducesTo_S1600000x1_S1600000_d1 h_S_ := by
  simp only [hostOps6_1, List.take_succ_cons, List.take_zero, List.drop_succ_cons, List.drop_zero]
  after_results
  simp only [StableHlo.TRef.ofBuf, StableHlo.TRef.toBuf, cast_eq]

/-- Third part (five operations): the rows at the index column where the guard holds, the default word elsewhere. -/
theorem hostOps6_1_sel :
    StableHlo.after (((hostOps6_1 (F := Ideal)).drop 8).drop 10) V (Proc.devRef .tc main_v157)
      = select (broadcastInDim S1600000x64 ![0] bcast_S1600000_S1600000x64_0 (V (Proc.devRef .tc main_call6_v12) : IVec S1600000 1))
          (Host.gather gather_S100000x64_S1600000x1_S1600000x64_1_0_n_n_0_1_164
            (V (Proc.devRef .tc main_v135) : FVec Ideal S100000x64 .f32) (V (Proc.devRef .tc main_call6_v5)))
          (broadcastInDim S1600000x64 ![] bcast_S_S1600000x64 (constant (F := Ideal) S_ .f32 0x7FC00000#32)) := by
  simp only [hostOps6_1, List.drop_succ_cons, List.drop_zero]
  after_results
  simp only [StableHlo.TRef.ofBuf, StableHlo.TRef.toBuf, cast_eq]

/-- The second stretch is the guarded row lookup of the previous layer's output at the source vector. -/
theorem hostOps6_1_take :
    StableHlo.after (hostOps6_1 (F := Ideal)) V (Proc.devRef .tc main_v157)
      = KAgg.take64 (V (Proc.devRef .tc main_v135)) (V (Proc.devRef .tc main_v1)) := by
  have e : hostOps6_1 (F := Ideal)
      = hostOps6_1.take 8 ++ ((hostOps6_1.drop 8).take 10 ++ (hostOps6_1.drop 8).drop 10) := by
    rw [List.take_append_drop, List.take_append_drop]
  have hA0 : StableHlo.after ((hostOps6_1 (F := Ideal)).take 8) V (Proc.devRef .tc main_v135)
      = V (Proc.devRef .tc main_v135) := keep% hostOps6_1 at main_v135
  have hB0 : StableHlo.after (((hostOps6_1 (F := Ideal)).drop 8).take 10) (StableHlo.after ((hostOps6_1 (F := Ideal)).take 8) V)
        (Proc.devRef .tc main_v135)
      = StableHlo.after ((hostOps6_1 (F := Ideal)).take 8) V (Proc.devRef .tc main_v135) := keep% hostOps6_1 at main_v135
  have hB5 : StableHlo.after (((hostOps6_1 (F := Ideal)).drop 8).take 10) (StableHlo.after ((hostOps6_1 (F := Ideal)).take 8) V)
        (Proc.devRef .tc main_call6_v5)
      = StableHlo.after ((hostOps6_1 (F := Ideal)).take 8) V (Proc.devRef .tc main_call6_v5) := keep% hostOps6_1 at main_call6_v5
  rw [e, StableHlo.after_append, StableHlo.after_append, hostOps6_1_sel, hostOps6_1_mask, hB5, hB0, hA0, hostOps6_1_idx]
  rfl

/-! ## The sum, the rectifier, the accumulation -/

/-- The third stretch adds the linear term to the looked-up rows. -/
theorem hostOps6_2_sum :
    StableHlo.after (hostOps6_2 (F := Ideal)) V (Proc.devRef .tc main_v158)
      = addf (F := Ideal) (s := S1600000x64) (φ := .f32) (V (Proc.devRef .tc main_v157)) (V (Proc.devRef .tc main_v156)) := by
  after_results

/-- The fourth rectifies. -/
theorem hostOps6_3_relu :
    StableHlo.after (hostOps6_3 (F := Ideal)) V (Proc.devRef .tc main_v159)
      = maximumf (V (Proc.devRef .tc main_v158) : FVec Ideal S1600000x64 .f32)
          (broadcastInDim S1600000x64 ![] bcast_S_S1600000x64 (constant (F := Ideal) S_ .f32 0x00000000#32)) := by
  after_results
  simp only [StableHlo.TRef.ofBuf, StableHlo.TRef.toBuf, cast_eq]

/-- The fifth adds each edge's row into the row of its destination, from zeros. -/
theorem hostOps6_4_scatter :
    StableHlo.after (hostOps6_4 (F := Ideal)) V (Proc.devRef .tc main_v162)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3)))
          (V (Proc.devRef .tc main_v159)) := by
  after_results

end Stretches

end Cert.KernelIdeal.KAggVal

end
-- ==== Proof.KAggSt2.lean ====
/-
  The host operations of the idealized kernel program before a later layer's node region, stretch by stretch and at
  any contents of the buffers on entry: the edge features' linear term with the layer's
  slices of the stacked edge parameters, the guarded row lookup, the sum, the rectifier, and the accumulation into the
  destination rows. Each long stretch is read in consecutive pieces; a buffer that a piece does not write is carried
  across it.
-/
import proofs.«406622_j66486093742154_3_alg».proof.Proof.Gen.KernelIdeal.Launch
import proofs.«406622_j66486093742154_3_alg».proof.Proof.KAgg
import Idealize.ShloMosaic.Lib.StableHlo.Run
import Idealize.ShloMosaic.Lib.Pipeline.Frame

set_option maxRecDepth 16384

noncomputable section

namespace Cert.KernelIdeal.KAggVal

open Idealize.ShloMosaic Idealize.ShloMosaic.TcCoe
open Cert.KernelIdeal Cert.KernelIdeal.Gen

/-- A buffer that no operation of a list writes holds after the list what it held before: the writes of the listed
    operations are singletons, each a reference other than the given one. -/
local macro "keep% " ops:ident " at " b:term : term =>
  `(StableHlo.after_of_forall_not_mem (b := Proc.devRef .tc $b) _ _ (List.forall_iff_forall_mem.mp (by
      simp only [$ops:ident, List.take_succ_cons, List.take_zero, List.drop_succ_cons, List.drop_zero,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Stretches
variable (V : Valuation τ sig (Elt Ideal))

/-! ## The parameter slices and the linear term -/

/-- The first four operations leave the layer's edge weight matrix … -/
theorem hostOps4_ew :
    StableHlo.after ((hostOps4 (F := Ideal)).take 4) V (Proc.devRef .tc main_v89)
      = KAgg.ewOf1 (V (Proc.devRef .tc main_arg10)) := by
  simp only [hostOps4, List.take_succ_cons, List.take_zero]
  after_results; rfl

/-- … and its edge bias. -/
theorem hostOps4_eb :
    StableHlo.after ((hostOps4 (F := Ideal)).take 4) V (Proc.devRef .tc main_v91)
      = KAgg.ebOf1 (V (Proc.devRef .tc main_arg11)) := by
  simp only [hostOps4, List.take_succ_cons, List.take_zero]
  after_results; rfl

/-- The last five form the linear term from them. -/
theorem hostOps4_linPiece :
    StableHlo.after (((hostOps4 (F := Ideal)).drop 4).drop 12) V (Proc.devRef .tc main_v108)
      = KAgg.lin64 (V (Proc.devRef .tc main_arg2)) (V (Proc.devRef .tc main_v89)) (V (Proc.devRef .tc main_v91)) := by
  simp only [hostOps4, List.drop_succ_cons, List.drop_zero]
  after_results; rfl

/-- The first stretch leaves the edge features' linear term at the layer's parameters. -/
theorem hostOps4_linTerm :
    StableHlo.after (hostOps4 (F := Ideal)) V (Proc.devRef .tc main_v108)
      = KAgg.lin64 (V (Proc.devRef .tc main_arg2)) (KAgg.ewOf1 (V (Proc.devRef .tc main_arg10)))
          (KAgg.ebOf1 (V (Proc.devRef .tc main_arg11))) := by
  have e : hostOps4 (F := Ideal)
      = hostOps4.take 4 ++ ((hostOps4.drop 4).take 12 ++ (hostOps4.drop 4).drop 12) := by
    rw [List.take_append_drop, List.take_append_drop]
  have hA2 : StableHlo.after ((hostOps4 (F := Ideal)).take 4) V (Proc.devRef .tc main_arg2)
      = V (Proc.devRef .tc main_arg2) := keep% hostOps4 at main_arg2
  have hB2 : StableHlo.after (((hostOps4 (F := Ideal)).drop 4).take 12) (StableHlo.after ((hostOps4 (F := Ideal)).take 4) V)
        (Proc.devRef .tc main_arg2)
      = StableHlo.after ((hostOps4 (F := Ideal)).take 4) V (Proc.devRef .tc main_arg2) := keep% hostOps4 at main_arg2
  have hBw : StableHlo.after (((hostOps4 (F := Ideal)).drop 4).take 12) (StableHlo.after ((hostOps4 (F := Ideal)).take 4) V)
        (Proc.devRef .tc main_v89)
      = StableHlo.after ((hostOps4 (F := Ideal)).take 4) V (Proc.devRef .tc main_v89) := keep% hostOps4 at main_v89
  have hBb : StableHlo.after (((hostOps4 (F := Ideal)).drop 4).take 12) (StableHlo.after ((hostOps4 (F := Ideal)).take 4) V)
        (Proc.devRef .tc main_v91)
      = StableHlo.after ((hostOps4 (F := Ideal)).take 4) V (Proc.devRef .tc main_v91) := keep% hostOps4 at main_v91
  rw [e, StableHlo.after_append, StableHlo.after_append, hostOps4_linPiece, hB2, hBw, hBb, hA2, hostOps4_ew, hostOps4_eb]

/-! ## The guarded row lookup -/

/-- The lookup stretch, first part (eight operations): the normalised index column of the source vector. -/
theorem hostOps4_1_idx :
    StableHlo.after ((hostOps4_1 (F := Ideal)).take 8) V (Proc.devRef .tc main_call4_v5)
      = KAgg.idxOf (V (Proc.devRef .tc main_v1)) := by
  simp only [hostOps4_1, List.take_succ_cons, List.take_zero]
  after_results
  simp only [StableHlo.TRef.ofBuf, StableHlo.TRef.toBuf, cast_eq]
  rfl

/-- Second part (ten operations): the guard, from the index column. -/
theorem hostOps4_1_mask :
    StableHlo.after (((hostOps4_1 (F := Ideal)).drop 8).take 10) V (Proc.devRef .tc main_call4_v12)
      = Host.reduce IntOp.andi
          (andi (cmpi .sge (V (Proc.devRef .tc main_call4_v5) : IVec S1600000x1 32)
              (broadcastInDim S1600000x1 ![] bcast_S_S1600000x1 (constantI S_ 32 0#32)))
            (cmpi .sle (V (Proc.devRef .tc main_call4_v5) : IVec S1600000x1 32)
              (broadcastInDim S1600000x1 ![0, 1] bcast_S1x1_S1600000x1_0_1
                (broadcastInDim S1x1 ![1] bcast_S1_S1x1_1 (constantI S1 32 99999#32)))))
          (constantI S_ 1 1#1) reducesTo_S1600000x1_S1600000_d1 h_S_ := by
  simp only [hostOps4_1, List.take_succ_cons, List.take_zero, List.drop_succ_cons, List.drop_zero]
  after_results
  simp only [StableHlo.TRef.ofBuf, StableHlo.TRef.toBuf, cast_eq]

/-- Third part (five operations): the rows at the index column where the guard holds, the default word elsewhere. -/
theorem hostOps4_1_sel :
    StableHlo.after (((hostOps4_1 (F := Ideal)).drop 8).drop 10) V (Proc.devRef .tc main_v109)
      = select (broadcastInDim S1600000x64 ![0] bcast_S1600000_S1600000x64_0 (V (Proc.devRef .tc main_call4_v12) : IVec S1600000 1))
          (Host.gather gather_S100000x64_S1600000x1_S1600000x64_1_0_n_n_0_1_164
            (V (Proc.devRef .tc main_v87) : FVec Ideal S100000x64 .f32) (V (Proc.devRef .tc main_call4_v5)))
          (broadcastInDim S1600000x64 ![] bcast_S_S1600000x64 (constant (F := Ideal) S_ .f32 0x7FC00000#32)) := by
  simp only [hostOps4_1, List.drop_succ_cons, List.drop_zero]
  after_results
  simp only [StableHlo.TRef.ofBuf, StableHlo.TRef.toBuf, cast_eq]

/-- The second stretch is the guarded row lookup of the previous layer's output at the source vector. -/
theorem hostOps4_1_take :
    StableHlo.after (hostOps4_1 (F := Ideal)) V (Proc.devRef .tc main_v109)
      = KAgg.take64 (V (Proc.devRef .tc main_v87)) (V (Proc.devRef .tc main_v1)) := by
  have e : hostOps4_1 (F := Ideal)
      = hostOps4_1.take 8 ++ ((hostOps4_1.drop 8).take 10 ++ (hostOps4_1.drop 8).drop 10) := by
    rw [List.take_append_drop, List.take_append_drop]
  have hA0 : StableHlo.after ((hostOps4_1 (F := Ideal)).take 8) V (Proc.devRef .tc main_v87)
      = V (Proc.devRef .tc main_v87) := keep% hostOps4_1 at main_v87
  have hB0 : StableHlo.after (((hostOps4_1 (F := Ideal)).drop 8).take 10) (StableHlo.after ((hostOps4_1 (F := Ideal)).take 8) V)
        (Proc.devRef .tc main_v87)
      = StableHlo.after ((hostOps4_1 (F := Ideal)).take 8) V (Proc.devRef .tc main_v87) := keep% hostOps4_1 at main_v87
  have hB5 : StableHlo.after (((hostOps4_1 (F := Ideal)).drop 8).take 10) (StableHlo.after ((hostOps4_1 (F := Ideal)).take 8) V)
        (Proc.devRef .tc main_call4_v5)
      = StableHlo.after ((hostOps4_1 (F := Ideal)).take 8) V (Proc.devRef .tc main_call4_v5) := keep% hostOps4_1 at main_call4_v5
  rw [e, StableHlo.after_append, StableHlo.after_append, hostOps4_1_sel, hostOps4_1_mask, hB5, hB0, hA0, hostOps4_1_idx]
  rfl

/-! ## The sum, the rectifier, the accumulation -/

/-- The third stretch adds the linear term to the looked-up rows. -/
theorem hostOps4_2_sum :
    StableHlo.after (hostOps4_2 (F := Ideal)) V (Proc.devRef .tc main_v110)
      = addf (F := Ideal) (s := S1600000x64) (φ := .f32) (V (Proc.devRef .tc main_v109)) (V (Proc.devRef .tc main_v108)) := by
  after_results

/-- The fourth rectifies. -/
theorem hostOps4_3_relu :
    StableHlo.after (hostOps4_3 (F := Ideal)) V (Proc.devRef .tc main_v111)
      = maximumf (V (Proc.devRef .tc main_v110) : FVec Ideal S1600000x64 .f32)
          (broadcastInDim S1600000x64 ![] bcast_S_S1600000x64 (constant (F := Ideal) S_ .f32 0x00000000#32)) := by
  after_results
  simp only [StableHlo.TRef.ofBuf, StableHlo.TRef.toBuf, cast_eq]

/-- The fifth adds each edge's row into the row of its destination, from zeros. -/
theorem hostOps4_4_scatter :
    StableHlo.after (hostOps4_4 (F := Ideal)) V (Proc.devRef .tc main_v114)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3)))
          (V (Proc.devRef .tc main_v111)) := by
  after_results

end Stretches

end Cert.KernelIdeal.KAggVal

end
-- ==== Proof.KAggSt1.lean ====
import proofs.«406622_j66486093742154_3_alg».proof.Proof.Gen.KernelIdeal.Launch
import proofs.«406622_j66486093742154_3_alg».proof.Proof.KAgg
import Idealize.ShloMosaic.Lib.StableHlo.Run
import Idealize.ShloMosaic.Lib.Pipeline.Frame

set_option maxRecDepth 16384

noncomputable section

namespace Cert.KernelIdeal.KAggVal

open Idealize.ShloMosaic Idealize.ShloMosaic.TcCoe
open Cert.KernelIdeal Cert.KernelIdeal.Gen

local macro "keep% " ops:ident " at " b:term : term =>
  `(StableHlo.after_of_forall_not_mem (b := Proc.devRef .tc $b) _ _ (List.forall_iff_forall_mem.mp (by
      simp only [$ops:ident, List.take_succ_cons, List.take_zero, List.drop_succ_cons, List.drop_zero,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Stretches
variable (V : Valuation τ sig (Elt Ideal))

theorem hostOps2_ew :
    StableHlo.after ((hostOps2 (F := Ideal)).take 4) V (Proc.devRef .tc main_v41)
      = KAgg.ewOf0 (V (Proc.devRef .tc main_arg10)) := by
  simp only [hostOps2, List.take_succ_cons, List.take_zero]
  after_results; rfl

theorem hostOps2_eb :
    StableHlo.after ((hostOps2 (F := Ideal)).take 4) V (Proc.devRef .tc main_v43)
      = KAgg.ebOf0 (V (Proc.devRef .tc main_arg11)) := by
  simp only [hostOps2, List.take_succ_cons, List.take_zero]
  after_results; rfl

theorem hostOps2_linPiece :
    StableHlo.after (((hostOps2 (F := Ideal)).drop 4).drop 12) V (Proc.devRef .tc main_v60)
      = KAgg.lin64 (V (Proc.devRef .tc main_arg2)) (V (Proc.devRef .tc main_v41)) (V (Proc.devRef .tc main_v43)) := by
  simp only [hostOps2, List.drop_succ_cons, List.drop_zero]
  after_results; rfl

theorem hostOps2_linTerm :
    StableHlo.after (hostOps2 (F := Ideal)) V (Proc.devRef .tc main_v60)
      = KAgg.lin64 (V (Proc.devRef .tc main_arg2)) (KAgg.ewOf0 (V (Proc.devRef .tc main_arg10)))
          (KAgg.ebOf0 (V (Proc.devRef .tc main_arg11))) := by
  have e : hostOps2 (F := Ideal)
      = hostOps2.take 4 ++ ((hostOps2.drop 4).take 12 ++ (hostOps2.drop 4).drop 12) := by
    rw [List.take_append_drop, List.take_append_drop]
  have hA2 : StableHlo.after ((hostOps2 (F := Ideal)).take 4) V (Proc.devRef .tc main_arg2)
      = V (Proc.devRef .tc main_arg2) := keep% hostOps2 at main_arg2
  have hB2 : StableHlo.after (((hostOps2 (F := Ideal)).drop 4).take 12) (StableHlo.after ((hostOps2 (F := Ideal)).take 4) V)
        (Proc.devRef .tc main_arg2)
      = StableHlo.after ((hostOps2 (F := Ideal)).take 4) V (Proc.devRef .tc main_arg2) := keep% hostOps2 at main_arg2
  have hBw : StableHlo.after (((hostOps2 (F := Ideal)).drop 4).take 12) (StableHlo.after ((hostOps2 (F := Ideal)).take 4) V)
        (Proc.devRef .tc main_v41)
      = StableHlo.after ((hostOps2 (F := Ideal)).take 4) V (Proc.devRef .tc main_v41) := keep% hostOps2 at main_v41
  have hBb : StableHlo.after (((hostOps2 (F := Ideal)).drop 4).take 12) (StableHlo.after ((hostOps2 (F := Ideal)).take 4) V)
        (Proc.devRef .tc main_v43)
      = StableHlo.after ((hostOps2 (F := Ideal)).take 4) V (Proc.devRef .tc main_v43) := keep% hostOps2 at main_v43
  rw [e, StableHlo.after_append, StableHlo.after_append, hostOps2_linPiece, hB2, hBw, hBb, hA2, hostOps2_ew, hostOps2_eb]

theorem hostOps2_1_idx :
    StableHlo.after ((hostOps2_1 (F := Ideal)).take 8) V (Proc.devRef .tc main_call2_v5)
      = KAgg.idxOf (V (Proc.devRef .tc main_v1)) := by
  simp only [hostOps2_1, List.take_succ_cons, List.take_zero]
  after_results
  simp only [StableHlo.TRef.ofBuf, StableHlo.TRef.toBuf, cast_eq]
  rfl

theorem hostOps2_1_mask :
    StableHlo.after (((hostOps2_1 (F := Ideal)).drop 8).take 10) V (Proc.devRef .tc main_call2_v12)
      = Host.reduce IntOp.andi
          (andi (cmpi .sge (V (Proc.devRef .tc main_call2_v5) : IVec S1600000x1 32)
              (broadcastInDim S1600000x1 ![] bcast_S_S1600000x1 (constantI S_ 32 0#32)))
            (cmpi .sle (V (Proc.devRef .tc main_call2_v5) : IVec S1600000x1 32)
              (broadcastInDim S1600000x1 ![0, 1] bcast_S1x1_S1600000x1_0_1
                (broadcastInDim S1x1 ![1] bcast_S1_S1x1_1 (constantI S1 32 99999#32)))))
          (constantI S_ 1 1#1) reducesTo_S1600000x1_S1600000_d1 h_S_ := by
  simp only [hostOps2_1, List.take_succ_cons, List.take_zero, List.drop_succ_cons, List.drop_zero]
  after_results
  simp only [StableHlo.TRef.ofBuf, StableHlo.TRef.toBuf, cast_eq]

theorem hostOps2_1_sel :
    StableHlo.after (((hostOps2_1 (F := Ideal)).drop 8).drop 10) V (Proc.devRef .tc main_v61)
      = select (broadcastInDim S1600000x64 ![0] bcast_S1600000_S1600000x64_0 (V (Proc.devRef .tc main_call2_v12) : IVec S1600000 1))
          (Host.gather gather_S100000x64_S1600000x1_S1600000x64_1_0_n_n_0_1_164
            (V (Proc.devRef .tc main_v39) : FVec Ideal S100000x64 .f32) (V (Proc.devRef .tc main_call2_v5)))
          (broadcastInDim S1600000x64 ![] bcast_S_S1600000x64 (constant (F := Ideal) S_ .f32 0x7FC00000#32)) := by
  simp only [hostOps2_1, List.drop_succ_cons, List.drop_zero]
  after_results
  simp only [StableHlo.TRef.ofBuf, StableHlo.TRef.toBuf, cast_eq]

theorem hostOps2_1_take :
    StableHlo.after (hostOps2_1 (F := Ideal)) V (Proc.devRef .tc main_v61)
      = KAgg.take64 (V (Proc.devRef .tc main_v39)) (V (Proc.devRef .tc main_v1)) := by
  have e : hostOps2_1 (F := Ideal)
      = hostOps2_1.take 8 ++ ((hostOps2_1.drop 8).take 10 ++ (hostOps2_1.drop 8).drop 10) := by
    rw [List.take_append_drop, List.take_append_drop]
  have hA0 : StableHlo.after ((hostOps2_1 (F := Ideal)).take 8) V (Proc.devRef .tc main_v39)
      = V (Proc.devRef .tc main_v39) := keep% hostOps2_1 at main_v39
  have hB0 : StableHlo.after (((hostOps2_1 (F := Ideal)).drop 8).take 10) (StableHlo.after ((hostOps2_1 (F := Ideal)).take 8) V)
        (Proc.devRef .tc main_v39)
      = StableHlo.after ((hostOps2_1 (F := Ideal)).take 8) V (Proc.devRef .tc main_v39) := keep% hostOps2_1 at main_v39
  have hB5 : StableHlo.after (((hostOps2_1 (F := Ideal)).drop 8).take 10) (StableHlo.after ((hostOps2_1 (F := Ideal)).take 8) V)
        (Proc.devRef .tc main_call2_v5)
      = StableHlo.after ((hostOps2_1 (F := Ideal)).take 8) V (Proc.devRef .tc main_call2_v5) := keep% hostOps2_1 at main_call2_v5
  rw [e, StableHlo.after_append, StableHlo.after_append, hostOps2_1_sel, hostOps2_1_mask, hB5, hB0, hA0, hostOps2_1_idx]
  rfl

theorem hostOps2_2_sum :
    StableHlo.after (hostOps2_2 (F := Ideal)) V (Proc.devRef .tc main_v62)
      = addf (F := Ideal) (s := S1600000x64) (φ := .f32) (V (Proc.devRef .tc main_v61)) (V (Proc.devRef .tc main_v60)) := by
  after_results

theorem hostOps2_3_relu :
    StableHlo.after (hostOps2_3 (F := Ideal)) V (Proc.devRef .tc main_v63)
      = maximumf (V (Proc.devRef .tc main_v62) : FVec Ideal S1600000x64 .f32)
          (broadcastInDim S1600000x64 ![] bcast_S_S1600000x64 (constant (F := Ideal) S_ .f32 0x00000000#32)) := by
  after_results
  simp only [StableHlo.TRef.ofBuf, StableHlo.TRef.toBuf, cast_eq]

theorem hostOps2_4_scatter :
    StableHlo.after (hostOps2_4 (F := Ideal)) V (Proc.devRef .tc main_v66)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3)))
          (V (Proc.devRef .tc main_v63)) := by
  after_results

end Stretches

end Cert.KernelIdeal.KAggVal

end
-- ==== Proof.KAggVal0.lean ====
import proofs.«406622_j66486093742154_3_alg».proof.Proof.Gen.KernelIdeal.Frame
import proofs.«406622_j66486093742154_3_alg».proof.Proof.KAgg
import Idealize.ShloMosaic.Lib.StableHlo.Run
import Idealize.ShloMosaic.Lib.Pipeline.Frame

set_option maxRecDepth 16384

noncomputable section

namespace Cert.KernelIdeal.KAggVal

open Idealize.ShloMosaic Idealize.ShloMosaic.TcCoe
open Cert.KernelIdeal Cert.KernelIdeal.Gen

local macro "keep% " ops:ident " at " b:term : term =>
  `(StableHlo.after_of_forall_not_mem (b := Proc.devRef .tc $b) _ _ (List.forall_iff_forall_mem.mp (by
      simp only [$ops:ident, List.take_succ_cons, List.take_zero, List.drop_succ_cons, List.drop_zero,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Stretches
variable (V : Valuation τ sig (Elt Ideal))

theorem hostOps0_v1 :
    StableHlo.after (hostOps0 (F := Ideal)) V (Proc.devRef .tc main_v1) = KAgg.srcOf (V (Proc.devRef .tc main_arg1)) := by
  after_results; rfl

theorem hostOps0_v3 :
    StableHlo.after (hostOps0 (F := Ideal)) V (Proc.devRef .tc main_v3) = KAgg.dstOf (V (Proc.devRef .tc main_arg1)) := by
  after_results; rfl

theorem hostOps0_v12 :
    StableHlo.after (hostOps0 (F := Ideal)) V (Proc.devRef .tc main_v12)
      = KAgg.lin32 (V (Proc.devRef .tc main_arg2)) (V (Proc.devRef .tc main_arg4)) (V (Proc.devRef .tc main_arg5)) := by
  after_results; rfl

theorem hostOps0_1_idx :
    StableHlo.after ((hostOps0_1 (F := Ideal)).take 8) V (Proc.devRef .tc main_call0_v5)
      = KAgg.idxOf (V (Proc.devRef .tc main_v1)) := by
  simp only [hostOps0_1, List.take_succ_cons, List.take_zero]
  after_results
  simp only [StableHlo.TRef.ofBuf, StableHlo.TRef.toBuf, cast_eq]
  rfl

theorem hostOps0_1_mask :
    (StableHlo.after (((hostOps0_1 (F := Ideal)).drop 8).take 10) V (Proc.devRef .tc main_call0_v12) : IVec S1600000 1)
      = Host.reduce IntOp.andi
          (andi (cmpi .sge (V (Proc.devRef .tc main_call0_v5) : IVec S1600000x1 32)
              (broadcastInDim S1600000x1 ![] bcast_S_S1600000x1 (constantI S_ 32 0#32)))
            (cmpi .sle (V (Proc.devRef .tc main_call0_v5) : IVec S1600000x1 32)
              (broadcastInDim S1600000x1 ![0, 1] bcast_S1x1_S1600000x1_0_1
                (broadcastInDim S1x1 ![1] bcast_S1_S1x1_1 (constantI S1 32 99999#32)))))
          (constantI S_ 1 1#1) reducesTo_S1600000x1_S1600000_d1 h_S_ := by
  simp only [hostOps0_1, List.take_succ_cons, List.take_zero, List.drop_succ_cons, List.drop_zero]
  after_results
  simp only [StableHlo.TRef.ofBuf, StableHlo.TRef.toBuf, cast_eq]

theorem hostOps0_1_sel :
    (StableHlo.after (((hostOps0_1 (F := Ideal)).drop 8).drop 10) V (Proc.devRef .tc main_v13) : FVec Ideal S1600000x32 .f32)
      = select (broadcastInDim S1600000x32 ![0] bcast_S1600000_S1600000x32_0 (V (Proc.devRef .tc main_call0_v12) : IVec S1600000 1))
          (Host.gather gather_S100000x32_S1600000x1_S1600000x32_1_0_n_n_0_1_132
            (V (Proc.devRef .tc main_arg0) : FVec Ideal S100000x32 .f32) (V (Proc.devRef .tc main_call0_v5)))
          (broadcastInDim S1600000x32 ![] bcast_S_S1600000x32 (constant (F := Ideal) S_ .f32 0x7FC00000#32)) := by
  simp only [hostOps0_1, List.drop_succ_cons, List.drop_zero]
  after_results
  simp only [StableHlo.TRef.ofBuf, StableHlo.TRef.toBuf, cast_eq]

theorem hostOps0_1_v13 :
    StableHlo.after (hostOps0_1 (F := Ideal)) V (Proc.devRef .tc main_v13)
      = KAgg.take32 (V (Proc.devRef .tc main_arg0)) (V (Proc.devRef .tc main_v1)) := by
  have e : hostOps0_1 (F := Ideal)
      = hostOps0_1.take 8 ++ ((hostOps0_1.drop 8).take 10 ++ (hostOps0_1.drop 8).drop 10) := by
    rw [List.take_append_drop, List.take_append_drop]
  have hA0 : StableHlo.after ((hostOps0_1 (F := Ideal)).take 8) V (Proc.devRef .tc main_arg0)
      = V (Proc.devRef .tc main_arg0) := keep% hostOps0_1 at main_arg0
  have hB0 : StableHlo.after (((hostOps0_1 (F := Ideal)).drop 8).take 10) (StableHlo.after ((hostOps0_1 (F := Ideal)).take 8) V)
        (Proc.devRef .tc main_arg0)
      = StableHlo.after ((hostOps0_1 (F := Ideal)).take 8) V (Proc.devRef .tc main_arg0) := keep% hostOps0_1 at main_arg0
  have hB5 : StableHlo.after (((hostOps0_1 (F := Ideal)).drop 8).take 10) (StableHlo.after ((hostOps0_1 (F := Ideal)).take 8) V)
        (Proc.devRef .tc main_call0_v5)
      = StableHlo.after ((hostOps0_1 (F := Ideal)).take 8) V (Proc.devRef .tc main_call0_v5) := keep% hostOps0_1 at main_call0_v5
  rw [e, StableHlo.after_append, StableHlo.after_append, hostOps0_1_sel, hostOps0_1_mask, hB5, hB0, hA0, hostOps0_1_idx]
  rfl

theorem hostOps0_2_v14 :
    (StableHlo.after (hostOps0_2 (F := Ideal)) V (Proc.devRef .tc main_v14) : FVec Ideal S1600000x32 .f32)
      = (addf (V (Proc.devRef .tc main_v13) : FVec Ideal S1600000x32 .f32) (V (Proc.devRef .tc main_v12)) : FVec Ideal S1600000x32 .f32) := by
  after_results

theorem hostOps0_3_v15 :
    (StableHlo.after (hostOps0_3 (F := Ideal)) V (Proc.devRef .tc main_v15) : FVec Ideal S1600000x32 .f32)
      = (maximumf (V (Proc.devRef .tc main_v14) : FVec Ideal S1600000x32 .f32)
          (broadcastInDim S1600000x32 ![] bcast_S_S1600000x32 (constant (F := Ideal) S_ .f32 0x00000000#32)) : FVec Ideal S1600000x32 .f32) := by
  after_results
  simp only [StableHlo.TRef.ofBuf, StableHlo.TRef.toBuf, cast_eq]

theorem hostOps0_4_v18 :
    (StableHlo.after (hostOps0_4 (F := Ideal)) V (Proc.devRef .tc main_v18) : FVec Ideal S100000x32 .f32)
      = (Host.scatterAdd scatter_S100000x32_S1600000x1_S1600000x32_1_0_0_1
          (broadcastInDim S100000x32 ![] bcast_S_S100000x32 (constant (F := Ideal) S_ .f32 0x00000000#32))
          (broadcastInDim S1600000x1 ![0] bcast_S1600000_S1600000x1_0 (V (Proc.devRef .tc main_v3)))
          (V (Proc.devRef .tc main_v15)) : FVec Ideal S100000x32 .f32) := by
  after_results

end Stretches

variable (m : (ℓ : Loc nD τ sig) → Buf (Elt Ideal) ℓ) (ρ : Dev nD → PrngReg)

theorem src_W1 (c : Dev nD) :
    W1 (F := Ideal) m ρ c (Proc.devRef .tc main_v1) = KAgg.srcOf (m ((c.tc : Thread nD τ).loc main_arg1)) :=
  hostOps0_v1 (W0 m ρ c)

theorem dst_W1 (c : Dev nD) :
    W1 (F := Ideal) m ρ c (Proc.devRef .tc main_v3) = KAgg.dstOf (m ((c.tc : Thread nD τ).loc main_arg1)) :=
  hostOps0_v3 (W0 m ρ c)

theorem lin_W1 (c : Dev nD) :
    W1 (F := Ideal) m ρ c (Proc.devRef .tc main_v12)
      = KAgg.lin32 (m ((c.tc : Thread nD τ).loc main_arg2)) (m ((c.tc : Thread nD τ).loc main_arg4))
          (m ((c.tc : Thread nD τ).loc main_arg5)) :=
  hostOps0_v12 (W0 m ρ c)

theorem arg0_W1 (c : Dev nD) :
    W1 (F := Ideal) m ρ c (Proc.devRef .tc main_arg0) = m ((c.tc : Thread nD τ).loc main_arg0) :=
  keep% hostOps0 at main_arg0

theorem lin_W2 (c : Dev nD) :
    W2 (F := Ideal) m ρ c (Proc.devRef .tc main_v12)
      = KAgg.lin32 (m ((c.tc : Thread nD τ).loc main_arg2)) (m ((c.tc : Thread nD τ).loc main_arg4))
          (m ((c.tc : Thread nD τ).loc main_arg5)) :=
  calc W2 (F := Ideal) m ρ c (Proc.devRef .tc main_v12)
    _ = W1 m ρ c (Proc.devRef .tc main_v12) := keep% hostOps0_1 at main_v12
    _ = _ := lin_W1 m ρ c

theorem dst_W4 (c : Dev nD) :
    W4 (F := Ideal) m ρ c (Proc.devRef .tc main_v3) = KAgg.dstOf (m ((c.tc : Thread nD τ).loc main_arg1)) :=
  calc W4 (F := Ideal) m ρ c (Proc.devRef .tc main_v3)
    _ = W3 m ρ c (Proc.devRef .tc main_v3) := keep% hostOps0_3 at main_v3
    _ = W2 m ρ c (Proc.devRef .tc main_v3) := keep% hostOps0_2 at main_v3
    _ = W1 m ρ c (Proc.devRef .tc main_v3) := keep% hostOps0_1 at main_v3
    _ = _ := dst_W1 m ρ c

theorem take_W2 (c : Dev nD) :
    W2 (F := Ideal) m ρ c (Proc.devRef .tc main_v13)
      = KAgg.take32 (m ((c.tc : Thread nD τ).loc main_arg0)) (KAgg.srcOf (m ((c.tc : Thread nD τ).loc main_arg1))) := by
  refine (hostOps0_1_v13 (W1 m ρ c)).trans ?_
  rw [arg0_W1 m ρ c, src_W1 m ρ c]

theorem sum_W3 (c : Dev nD) :
    W3 (F := Ideal) m ρ c (Proc.devRef .tc main_v14)
      = addf (KAgg.take32 (m ((c.tc : Thread nD τ).loc main_arg0)) (KAgg.srcOf (m ((c.tc : Thread nD τ).loc main_arg1))))
          (KAgg.lin32 (m ((c.tc : Thread nD τ).loc main_arg2)) (m ((c.tc : Thread nD τ).loc main_arg4))
            (m ((c.tc : Thread nD τ).loc main_arg5))) := by
  refine (hostOps0_2_v14 (W2 m ρ c)).trans ?_
  rw [take_W2 m ρ c, lin_W2 m ρ c]

theorem msg_W4 (c : Dev nD) :
    W4 (F := Ideal) m ρ c (Proc.devRef .tc main_v15)
      = maximumf (addf (KAgg.take32 (m ((c.tc : Thread nD τ).loc main_arg0)) (KAgg.srcOf (m ((c.tc : Thread nD τ).loc main_arg1))))
          (KAgg.lin32 (m ((c.tc : Thread nD τ).loc main_arg2)) (m ((c.tc : Thread nD τ).loc main_arg4))
            (m ((c.tc : Thread nD τ).loc main_arg5))))
          (broadcastInDim S1600000x32 ![] bcast_S_S1600000x32 (constant (F := Ideal) S_ .f32 0x00000000#32)) := by
  refine (hostOps0_3_v15 (W3 m ρ c)).trans ?_
  rw [sum_W3 m ρ c]

theorem agg0 (c : Dev nD) :
    (W5 (F := Ideal) m ρ c (Proc.devRef .tc main_v18) : S100000x32.Idx → EReal)
      = KAgg.aggK32 (m ((c.tc : Thread nD τ).loc main_arg0)) (KAgg.srcOf (m ((c.tc : Thread nD τ).loc main_arg1)))
          (KAgg.dstOf (m ((c.tc : Thread nD τ).loc main_arg1))) (m ((c.tc : Thread nD τ).loc main_arg2))
          (m ((c.tc : Thread nD τ).loc main_arg4)) (m ((c.tc : Thread nD τ).loc main_arg5)) := by
  refine (hostOps0_4_v18 (W4 m ρ c)).trans ?_
  rw [msg_W4 m ρ c, dst_W4 m ρ c]
  rfl

theorem src_W5 (c : Dev nD) :
    W5 (F := Ideal) m ρ c (Proc.devRef .tc main_v1) = KAgg.srcOf (m ((c.tc : Thread nD τ).loc main_arg1)) :=
  calc W5 (F := Ideal) m ρ c (Proc.devRef .tc main_v1)
    _ = W4 m ρ c (Proc.devRef .tc main_v1) := keep% hostOps0_4 at main_v1
    _ = W3 m ρ c (Proc.devRef .tc main_v1) := keep% hostOps0_3 at main_v1
    _ = W2 m ρ c (Proc.devRef .tc main_v1) := keep% hostOps0_2 at main_v1
    _ = W1 m ρ c (Proc.devRef .tc main_v1) := keep% hostOps0_1 at main_v1
    _ = _ := src_W1 m ρ c

theorem dst_W5 (c : Dev nD) :
    W5 (F := Ideal) m ρ c (Proc.devRef .tc main_v3) = KAgg.dstOf (m ((c.tc : Thread nD τ).loc main_arg1)) :=
  calc W5 (F := Ideal) m ρ c (Proc.devRef .tc main_v3)
    _ = W4 m ρ c (Proc.devRef .tc main_v3) := keep% hostOps0_4 at main_v3
    _ = _ := dst_W4 m ρ c

theorem arg2_W5 (c : Dev nD) :
    W5 (F := Ideal) m ρ c (Proc.devRef .tc main_arg2) = m ((c.tc : Thread nD τ).loc main_arg2) :=
  calc W5 (F := Ideal) m ρ c (Proc.devRef .tc main_arg2)
    _ = W4 m ρ c (Proc.devRef .tc main_arg2) := keep% hostOps0_4 at main_arg2
    _ = W3 m ρ c (Proc.devRef .tc main_arg2) := keep% hostOps0_3 at main_arg2
    _ = W2 m ρ c (Proc.devRef .tc main_arg2) := keep% hostOps0_2 at main_arg2
    _ = W1 m ρ c (Proc.devRef .tc main_arg2) := keep% hostOps0_1 at main_arg2
    _ = W0 m ρ c (Proc.devRef .tc main_arg2) := keep% hostOps0 at main_arg2
    _ = _ := rfl

theorem arg10_W5 (c : Dev nD) :
    W5 (F := Ideal) m ρ c (Proc.devRef .tc main_arg10) = m ((c.tc : Thread nD τ).loc main_arg10) :=
  calc W5 (F := Ideal) m ρ c (Proc.devRef .tc main_arg10)
    _ = W4 m ρ c (Proc.devRef .tc main_arg10) := keep% hostOps0_4 at main_arg10
    _ = W3 m ρ c (Proc.devRef .tc main_arg10) := keep% hostOps0_3 at main_arg10
    _ = W2 m ρ c (Proc.devRef .tc main_arg10) := keep% hostOps0_2 at main_arg10
    _ = W1 m ρ c (Proc.devRef .tc main_arg10) := keep% hostOps0_1 at main_arg10
    _ = W0 m ρ c (Proc.devRef .tc main_arg10) := keep% hostOps0 at main_arg10
    _ = _ := rfl

theorem arg11_W5 (c : Dev nD) :
    W5 (F := Ideal) m ρ c (Proc.devRef .tc main_arg11) = m ((c.tc : Thread nD τ).loc main_arg11) :=
  calc W5 (F := Ideal) m ρ c (Proc.devRef .tc main_arg11)
    _ = W4 m ρ c (Proc.devRef .tc main_arg11) := keep% hostOps0_4 at main_arg11
    _ = W3 m ρ c (Proc.devRef .tc main_arg11) := keep% hostOps0_3 at main_arg11
    _ = W2 m ρ c (Proc.devRef .tc main_arg11) := keep% hostOps0_2 at main_arg11
    _ = W1 m ρ c (Proc.devRef .tc main_arg11) := keep% hostOps0_1 at main_arg11
    _ = W0 m ρ c (Proc.devRef .tc main_arg11) := keep% hostOps0 at main_arg11
    _ = _ := rfl

end Cert.KernelIdeal.KAggVal

end
-- ==== Proof.KAggVal1.lean ====
import proofs.«406622_j66486093742154_3_alg».proof.Proof.Gen.KernelIdeal.Frame
import proofs.«406622_j66486093742154_3_alg».proof.Proof.KAggSt1
import proofs.«406622_j66486093742154_3_alg».proof.Proof.KAggVal0
import Idealize.ShloMosaic.Lib.StableHlo.Run

set_option maxRecDepth 16384

noncomputable section

namespace Cert.KernelIdeal.KAggVal

open Idealize.ShloMosaic Idealize.ShloMosaic.TcCoe
open Cert.KernelIdeal Cert.KernelIdeal.Gen

local macro "keep% " ops:ident " at " b:term : term =>
  `(StableHlo.after_of_forall_not_mem (b := Proc.devRef .tc $b) _ _ (List.forall_iff_forall_mem.mp (by
      simp only [$ops:ident, List.take_succ_cons, List.take_zero, List.drop_succ_cons, List.drop_zero,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

section Entry

theorem src_W8 (c : Dev nD) :
    W8 (F := Ideal) m ρ c (Proc.devRef .tc main_v1) = KAgg.srcOf (m ((c.tc : Thread nD τ).loc main_arg1)) :=
  calc W8 (F := Ideal) m ρ c (Proc.devRef .tc main_v1)
    _ = W7 m ρ c (Proc.devRef .tc main_v1) := W8_of_ne m ρ c main_v1 (by decide)
    _ = W6 m ρ c (Proc.devRef .tc main_v1) := keep% hostOps1 at main_v1
    _ = W5 m ρ c (Proc.devRef .tc main_v1) := W6_of_ne m ρ c main_v1 (by decide)
    _ = _ := src_W5 m ρ c

theorem dst_W8 (c : Dev nD) :
    W8 (F := Ideal) m ρ c (Proc.devRef .tc main_v3) = KAgg.dstOf (m ((c.tc : Thread nD τ).loc main_arg1)) :=
  calc W8 (F := Ideal) m ρ c (Proc.devRef .tc main_v3)
    _ = W7 m ρ c (Proc.devRef .tc main_v3) := W8_of_ne m ρ c main_v3 (by decide)
    _ = W6 m ρ c (Proc.devRef .tc main_v3) := keep% hostOps1 at main_v3
    _ = W5 m ρ c (Proc.devRef .tc main_v3) := W6_of_ne m ρ c main_v3 (by decide)
    _ = _ := dst_W5 m ρ c

theorem arg2_W8 (c : Dev nD) :
    W8 (F := Ideal) m ρ c (Proc.devRef .tc main_arg2) = m ((c.tc : Thread nD τ).loc main_arg2) :=
  calc W8 (F := Ideal) m ρ c (Proc.devRef .tc main_arg2)
    _ = W7 m ρ c (Proc.devRef .tc main_arg2) := W8_of_ne m ρ c main_arg2 (by decide)
    _ = W6 m ρ c (Proc.devRef .tc main_arg2) := keep% hostOps1 at main_arg2
    _ = W5 m ρ c (Proc.devRef .tc main_arg2) := W6_of_ne m ρ c main_arg2 (by decide)
    _ = _ := arg2_W5 m ρ c

theorem arg10_W8 (c : Dev nD) :
    W8 (F := Ideal) m ρ c (Proc.devRef .tc main_arg10) = m ((c.tc : Thread nD τ).loc main_arg10) :=
  calc W8 (F := Ideal) m ρ c (Proc.devRef .tc main_arg10)
    _ = W7 m ρ c (Proc.devRef .tc main_arg10) := W8_of_ne m ρ c main_arg10 (by decide)
    _ = W6 m ρ c (Proc.devRef .tc main_arg10) := keep% hostOps1 at main_arg10
    _ = W5 m ρ c (Proc.devRef .tc main_arg10) := W6_of_ne m ρ c main_arg10 (by decide)
    _ = _ := arg10_W5 m ρ c

theorem arg11_W8 (c : Dev nD) :
    W8 (F := Ideal) m ρ c (Proc.devRef .tc main_arg11) = m ((c.tc : Thread nD τ).loc main_arg11) :=
  calc W8 (F := Ideal) m ρ c (Proc.devRef .tc main_arg11)
    _ = W7 m ρ c (Proc.devRef .tc main_arg11) := W8_of_ne m ρ c main_arg11 (by decide)
    _ = W6 m ρ c (Proc.devRef .tc main_arg11) := keep% hostOps1 at main_arg11
    _ = W5 m ρ c (Proc.devRef .tc main_arg11) := W6_of_ne m ρ c main_arg11 (by decide)
    _ = _ := arg11_W5 m ρ c

end Entry

theorem lin_W9 (c : Dev nD) :
    W9 (F := Ideal) m ρ c (Proc.devRef .tc main_v60)
      = KAgg.lin64 (m ((c.tc : Thread nD τ).loc main_arg2)) (KAgg.ewOf0 (m ((c.tc : Thread nD τ).loc main_arg10))) (KAgg.ebOf0 (m ((c.tc : Thread nD τ).loc main_arg11))) := by
  refine (hostOps2_linTerm (W8 m ρ c)).trans ?_
  rw [arg2_W8 m ρ c, arg10_W8 m ρ c, arg11_W8 m ρ c]

theorem src_W9 (c : Dev nD) :
    W9 (F := Ideal) m ρ c (Proc.devRef .tc main_v1) = KAgg.srcOf (m ((c.tc : Thread nD τ).loc main_arg1)) :=
  calc W9 (F := Ideal) m ρ c (Proc.devRef .tc main_v1)
    _ = W8 m ρ c (Proc.devRef .tc main_v1) := keep% hostOps2 at main_v1
    _ = _ := src_W8 m ρ c

theorem x_W9 (c : Dev nD) :
    W9 (F := Ideal) m ρ c (Proc.devRef .tc main_v39) = W8 m ρ c (Proc.devRef .tc main_v39) :=
  keep% hostOps2 at main_v39

theorem take_W10 (c : Dev nD) :
    W10 (F := Ideal) m ρ c (Proc.devRef .tc main_v61)
      = KAgg.take64 (W8 (F := Ideal) m ρ c (Proc.devRef .tc main_v39)) (KAgg.srcOf (m ((c.tc : Thread nD τ).loc main_arg1))) := by
  refine (hostOps2_1_take (W9 m ρ c)).trans ?_
  rw [x_W9 m ρ c, src_W9 m ρ c]

theorem lin_W10 (c : Dev nD) :
    W10 (F := Ideal) m ρ c (Proc.devRef .tc main_v60)
      = KAgg.lin64 (m ((c.tc : Thread nD τ).loc main_arg2)) (KAgg.ewOf0 (m ((c.tc : Thread nD τ).loc main_arg10))) (KAgg.ebOf0 (m ((c.tc : Thread nD τ).loc main_arg11))) :=
  calc W10 (F := Ideal) m ρ c (Proc.devRef .tc main_v60)
    _ = W9 m ρ c (Proc.devRef .tc main_v60) := keep% hostOps2_1 at main_v60
    _ = _ := lin_W9 m ρ c

theorem sum_W11 (c : Dev nD) :
    W11 (F := Ideal) m ρ c (Proc.devRef .tc main_v62)
      = addf (F := Ideal) (s := S1600000x64) (φ := .f32) (KAgg.take64 (W8 (F := Ideal) m ρ c (Proc.devRef .tc main_v39)) (KAgg.srcOf (m ((c.tc : Thread nD τ).loc main_arg1))))
          (KAgg.lin64 (m ((c.tc : Thread nD τ).loc main_arg2)) (KAgg.ewOf0 (m ((c.tc : Thread nD τ).loc main_arg10))) (KAgg.ebOf0 (m ((c.tc : Thread nD τ).loc main_arg11)))) := by
  refine (hostOps2_2_sum (W10 m ρ c)).trans ?_
  rw [take_W10 m ρ c, lin_W10 m ρ c]

theorem msg_W12 (c : Dev nD) :
    W12 (F := Ideal) m ρ c (Proc.devRef .tc main_v63)
      = maximumf (addf (F := Ideal) (s := S1600000x64) (φ := .f32) (KAgg.take64 (W8 (F := Ideal) m ρ c (Proc.devRef .tc main_v39)) (KAgg.srcOf (m ((c.tc : Thread nD τ).loc main_arg1))))
          (KAgg.lin64 (m ((c.tc : Thread nD τ).loc main_arg2)) (KAgg.ewOf0 (m ((c.tc : Thread nD τ).loc main_arg10))) (KAgg.ebOf0 (m ((c.tc : Thread nD τ).loc main_arg11)))))
          (broadcastInDim S1600000x64 ![] bcast_S_S1600000x64 (constant (F := Ideal) S_ .f32 0x00000000#32)) := by
  refine (hostOps2_3_relu (W11 m ρ c)).trans ?_
  rw [sum_W11 m ρ c]

theorem dst_W12 (c : Dev nD) :
    W12 (F := Ideal) m ρ c (Proc.devRef .tc main_v3) = KAgg.dstOf (m ((c.tc : Thread nD τ).loc main_arg1)) :=
  calc W12 (F := Ideal) m ρ c (Proc.devRef .tc main_v3)
    _ = W11 m ρ c (Proc.devRef .tc main_v3) := keep% hostOps2_3 at main_v3
    _ = W10 m ρ c (Proc.devRef .tc main_v3) := keep% hostOps2_2 at main_v3
    _ = W9 m ρ c (Proc.devRef .tc main_v3) := keep% hostOps2_1 at main_v3
    _ = W8 m ρ c (Proc.devRef .tc main_v3) := keep% hostOps2 at main_v3
    _ = _ := dst_W8 m ρ c

theorem agg1 (c : Dev nD) :
    (W13 (F := Ideal) m ρ c (Proc.devRef .tc main_v66) : S100000x64.Idx → EReal)
      = KAgg.aggK64 (W8 (F := Ideal) m ρ c (Proc.devRef .tc main_v39)) (KAgg.srcOf (m ((c.tc : Thread nD τ).loc main_arg1)))
          (KAgg.dstOf (m ((c.tc : Thread nD τ).loc main_arg1))) (m ((c.tc : Thread nD τ).loc main_arg2))
          (KAgg.ewOf0 (m ((c.tc : Thread nD τ).loc main_arg10))) (KAgg.ebOf0 (m ((c.tc : Thread nD τ).loc main_arg11))) := by
  refine (hostOps2_4_scatter (W12 m ρ c)).trans ?_
  rw [msg_W12 m ρ c, dst_W12 m ρ c]
  rfl

theorem src_W16 (c : Dev nD) :
    W16 (F := Ideal) m ρ c (Proc.devRef .tc main_v1) = KAgg.srcOf (m ((c.tc : Thread nD τ).loc main_arg1)) :=
  calc W16 (F := Ideal) m ρ c (Proc.devRef .tc main_v1)
    _ = W15 m ρ c (Proc.devRef .tc main_v1) := W16_of_ne m ρ c main_v1 (by decide)
    _ = W14 m ρ c (Proc.devRef .tc main_v1) := keep% hostOps3 at main_v1
    _ = W13 m ρ c (Proc.devRef .tc main_v1) := W14_of_ne m ρ c main_v1 (by decide)
    _ = W12 m ρ c (Proc.devRef .tc main_v1) := keep% hostOps2_4 at main_v1
    _ = W11 m ρ c (Proc.devRef .tc main_v1) := keep% hostOps2_3 at main_v1
    _ = W10 m ρ c (Proc.devRef .tc main_v1) := keep% hostOps2_2 at main_v1
    _ = W9 m ρ c (Proc.devRef .tc main_v1) := keep% hostOps2_1 at main_v1
    _ = _ := src_W9 m ρ c

theorem dst_W16 (c : Dev nD) :
    W16 (F := Ideal) m ρ c (Proc.devRef .tc main_v3) = KAgg.dstOf (m ((c.tc : Thread nD τ).loc main_arg1)) :=
  calc W16 (F := Ideal) m ρ c (Proc.devRef .tc main_v3)
    _ = W15 m ρ c (Proc.devRef .tc main_v3) := W16_of_ne m ρ c main_v3 (by decide)
    _ = W14 m ρ c (Proc.devRef .tc main_v3) := keep% hostOps3 at main_v3
    _ = W13 m ρ c (Proc.devRef .tc main_v3) := W14_of_ne m ρ c main_v3 (by decide)
    _ = W12 m ρ c (Proc.devRef .tc main_v3) := keep% hostOps2_4 at main_v3
    _ = _ := dst_W12 m ρ c

theorem arg2_W16 (c : Dev nD) :
    W16 (F := Ideal) m ρ c (Proc.devRef .tc main_arg2) = m ((c.tc : Thread nD τ).loc main_arg2) :=
  calc W16 (F := Ideal) m ρ c (Proc.devRef .tc main_arg2)
    _ = W15 m ρ c (Proc.devRef .tc main_arg2) := W16_of_ne m ρ c main_arg2 (by decide)
    _ = W14 m ρ c (Proc.devRef .tc main_arg2) := keep% hostOps3 at main_arg2
    _ = W13 m ρ c (Proc.devRef .tc main_arg2) := W14_of_ne m ρ c main_arg2 (by decide)
    _ = W12 m ρ c (Proc.devRef .tc main_arg2) := keep% hostOps2_4 at main_arg2
    _ = W11 m ρ c (Proc.devRef .tc main_arg2) := keep% hostOps2_3 at main_arg2
    _ = W10 m ρ c (Proc.devRef .tc main_arg2) := keep% hostOps2_2 at main_arg2
    _ = W9 m ρ c (Proc.devRef .tc main_arg2) := keep% hostOps2_1 at main_arg2
    _ = W8 m ρ c (Proc.devRef .tc main_arg2) := keep% hostOps2 at main_arg2
    _ = _ := arg2_W8 m ρ c

theorem arg10_W16 (c : Dev nD) :
    W16 (F := Ideal) m ρ c (Proc.devRef .tc main_arg10) = m ((c.tc : Thread nD τ).loc main_arg10) :=
  calc W16 (F := Ideal) m ρ c (Proc.devRef .tc main_arg10)
    _ = W15 m ρ c (Proc.devRef .tc main_arg10) := W16_of_ne m ρ c main_arg10 (by decide)
    _ = W14 m ρ c (Proc.devRef .tc main_arg10) := keep% hostOps3 at main_arg10
    _ = W13 m ρ c (Proc.devRef .tc main_arg10) := W14_of_ne m ρ c main_arg10 (by decide)
    _ = W12 m ρ c (Proc.devRef .tc main_arg10) := keep% hostOps2_4 at main_arg10
    _ = W11 m ρ c (Proc.devRef .tc main_arg10) := keep% hostOps2_3 at main_arg10
    _ = W10 m ρ c (Proc.devRef .tc main_arg10) := keep% hostOps2_2 at main_arg10
    _ = W9 m ρ c (Proc.devRef .tc main_arg10) := keep% hostOps2_1 at main_arg10
    _ = W8 m ρ c (Proc.devRef .tc main_arg10) := keep% hostOps2 at main_arg10
    _ = _ := arg10_W8 m ρ c

theorem arg11_W16 (c : Dev nD) :
    W16 (F := Ideal) m ρ c (Proc.devRef .tc main_arg11) = m ((c.tc : Thread nD τ).loc main_arg11) :=
  calc W16 (F := Ideal) m ρ c (Proc.devRef .tc main_arg11)
    _ = W15 m ρ c (Proc.devRef .tc main_arg11) := W16_of_ne m ρ c main_arg11 (by decide)
    _ = W14 m ρ c (Proc.devRef .tc main_arg11) := keep% hostOps3 at main_arg11
    _ = W13 m ρ c (Proc.devRef .tc main_arg11) := W14_of_ne m ρ c main_arg11 (by decide)
    _ = W12 m ρ c (Proc.devRef .tc main_arg11) := keep% hostOps2_4 at main_arg11
    _ = W11 m ρ c (Proc.devRef .tc main_arg11) := keep% hostOps2_3 at main_arg11
    _ = W10 m ρ c (Proc.devRef .tc main_arg11) := keep% hostOps2_2 at main_arg11
    _ = W9 m ρ c (Proc.devRef .tc main_arg11) := keep% hostOps2_1 at main_arg11
    _ = W8 m ρ c (Proc.devRef .tc main_arg11) := keep% hostOps2 at main_arg11
    _ = _ := arg11_W8 m ρ c

end Cert.KernelIdeal.KAggVal

end
-- ==== Proof.KAggVal2.lean ====
/-
  The edge-aggregation buffer of the idealized kernel program at a later layer's node region's entry, as the aggregation
  (proof/Proof/KAgg.lean) of the previous layer's output and the launch contents of the edge arguments: the stretches
  of host operations before that region are read at the buffers they write, the buffers that pass a stretch or a region
  unwritten are carried across it, and the reads compose to the named term. The index vectors and the edge arguments
  after the layer's two regions are stated too: the next layer starts there.
-/
import proofs.«406622_j66486093742154_3_alg».proof.Proof.Gen.KernelIdeal.Frame
import proofs.«406622_j66486093742154_3_alg».proof.Proof.KAggSt2
import proofs.«406622_j66486093742154_3_alg».proof.Proof.KAggVal1
import Idealize.ShloMosaic.Lib.StableHlo.Run

set_option maxRecDepth 16384

noncomputable section

namespace Cert.KernelIdeal.KAggVal

open Idealize.ShloMosaic Idealize.ShloMosaic.TcCoe
open Cert.KernelIdeal Cert.KernelIdeal.Gen

/-- A buffer that no operation of a list writes holds after the list what it held before: the writes of the listed
    operations are singletons, each a reference other than the given one. -/
local macro "keep% " ops:ident " at " b:term : term =>
  `(StableHlo.after_of_forall_not_mem (b := Proc.devRef .tc $b) _ _ (List.forall_iff_forall_mem.mp (by
      simp only [$ops:ident, List.take_succ_cons, List.take_zero, List.drop_succ_cons, List.drop_zero,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

/-! ## The layer's boundaries -/

/-- The linear term after the first stretch, over the launch contents of the edge arguments. -/
theorem lin_W17 (c : Dev nD) :
    W17 (F := Ideal) m ρ c (Proc.devRef .tc main_v108)
      = KAgg.lin64 (m ((c.tc : Thread nD τ).loc main_arg2)) (KAgg.ewOf1 (m ((c.tc : Thread nD τ).loc main_arg10))) (KAgg.ebOf1 (m ((c.tc : Thread nD τ).loc main_arg11))) := by
  refine (hostOps4_linTerm (W16 m ρ c)).trans ?_
  rw [arg2_W16 m ρ c, arg10_W16 m ρ c, arg11_W16 m ρ c]

/-- The source vector passes the first stretch unwritten. -/
theorem src_W17 (c : Dev nD) :
    W17 (F := Ideal) m ρ c (Proc.devRef .tc main_v1) = KAgg.srcOf (m ((c.tc : Thread nD τ).loc main_arg1)) :=
  calc W17 (F := Ideal) m ρ c (Proc.devRef .tc main_v1)
    _ = W16 m ρ c (Proc.devRef .tc main_v1) := keep% hostOps4 at main_v1
    _ = _ := src_W16 m ρ c

/-- So does the previous layer's output. -/
theorem x_W17 (c : Dev nD) :
    W17 (F := Ideal) m ρ c (Proc.devRef .tc main_v87) = W16 m ρ c (Proc.devRef .tc main_v87) :=
  keep% hostOps4 at main_v87

/-- The looked-up rows after the second stretch. -/
theorem take_W18 (c : Dev nD) :
    W18 (F := Ideal) m ρ c (Proc.devRef .tc main_v109)
      = KAgg.take64 (W16 (F := Ideal) m ρ c (Proc.devRef .tc main_v87)) (KAgg.srcOf (m ((c.tc : Thread nD τ).loc main_arg1))) := by
  refine (hostOps4_1_take (W17 m ρ c)).trans ?_
  rw [x_W17 m ρ c, src_W17 m ρ c]

/-- The linear term passes the lookup unwritten. -/
theorem lin_W18 (c : Dev nD) :
    W18 (F := Ideal) m ρ c (Proc.devRef .tc main_v108)
      = KAgg.lin64 (m ((c.tc : Thread nD τ).loc main_arg2)) (KAgg.ewOf1 (m ((c.tc : Thread nD τ).loc main_arg10))) (KAgg.ebOf1 (m ((c.tc : Thread nD τ).loc main_arg11))) :=
  calc W18 (F := Ideal) m ρ c (Proc.devRef .tc main_v108)
    _ = W17 m ρ c (Proc.devRef .tc main_v108) := keep% hostOps4_1 at main_v108
    _ = _ := lin_W17 m ρ c

/-- The messages before the rectifier. -/
theorem sum_W19 (c : Dev nD) :
    W19 (F := Ideal) m ρ c (Proc.devRef .tc main_v110)
      = addf (F := Ideal) (s := S1600000x64) (φ := .f32) (KAgg.take64 (W16 (F := Ideal) m ρ c (Proc.devRef .tc main_v87)) (KAgg.srcOf (m ((c.tc : Thread nD τ).loc main_arg1))))
          (KAgg.lin64 (m ((c.tc : Thread nD τ).loc main_arg2)) (KAgg.ewOf1 (m ((c.tc : Thread nD τ).loc main_arg10))) (KAgg.ebOf1 (m ((c.tc : Thread nD τ).loc main_arg11)))) := by
  refine (hostOps4_2_sum (W18 m ρ c)).trans ?_
  rw [take_W18 m ρ c, lin_W18 m ρ c]

/-- The rectified messages. -/
theorem msg_W20 (c : Dev nD) :
    W20 (F := Ideal) m ρ c (Proc.devRef .tc main_v111)
      = maximumf (addf (F := Ideal) (s := S1600000x64) (φ := .f32) (KAgg.take64 (W16 (F := Ideal) m ρ c (Proc.devRef .tc main_v87)) (KAgg.srcOf (m ((c.tc : Thread nD τ).loc main_arg1))))
          (KAgg.lin64 (m ((c.tc : Thread nD τ).loc main_arg2)) (KAgg.ewOf1 (m ((c.tc : Thread nD τ).loc main_arg10))) (KAgg.ebOf1 (m ((c.tc : Thread nD τ).loc main_arg11)))))
          (broadcastInDim S1600000x64 ![] bcast_S_S1600000x64 (constant (F := Ideal) S_ .f32 0x00000000#32)) := by
  refine (hostOps4_3_relu (W19 m ρ c)).trans ?_
  rw [sum_W19 m ρ c]

/-- The destination vector reaches the accumulation unwritten. -/
theorem dst_W20 (c : Dev nD) :
    W20 (F := Ideal) m ρ c (Proc.devRef .tc main_v3) = KAgg.dstOf (m ((c.tc : Thread nD τ).loc main_arg1)) :=
  calc W20 (F := Ideal) m ρ c (Proc.devRef .tc main_v3)
    _ = W19 m ρ c (Proc.devRef .tc main_v3) := keep% hostOps4_3 at main_v3
    _ = W18 m ρ c (Proc.devRef .tc main_v3) := keep% hostOps4_2 at main_v3
    _ = W17 m ρ c (Proc.devRef .tc main_v3) := keep% hostOps4_1 at main_v3
    _ = W16 m ρ c (Proc.devRef .tc main_v3) := keep% hostOps4 at main_v3
    _ = _ := dst_W16 m ρ c

/-- The aggregation buffer at the layer's node region's entry is the aggregation of the previous layer's output. -/
theorem agg2 (c : Dev nD) :
    (W21 (F := Ideal) m ρ c (Proc.devRef .tc main_v114) : S100000x64.Idx → EReal)
      = KAgg.aggK64 (W16 (F := Ideal) m ρ c (Proc.devRef .tc main_v87)) (KAgg.srcOf (m ((c.tc : Thread nD τ).loc main_arg1)))
          (KAgg.dstOf (m ((c.tc : Thread nD τ).loc main_arg1))) (m ((c.tc : Thread nD τ).loc main_arg2))
          (KAgg.ewOf1 (m ((c.tc : Thread nD τ).loc main_arg10))) (KAgg.ebOf1 (m ((c.tc : Thread nD τ).loc main_arg11))) := by
  refine (hostOps4_4_scatter (W20 m ρ c)).trans ?_
  rw [msg_W20 m ρ c, dst_W20 m ρ c]
  rfl

/-! ## What the next layer reads: the index vectors and the edge arguments after this layer's two regions -/

/-- The source vector after this layer. -/
theorem src_W24 (c : Dev nD) :
    W24 (F := Ideal) m ρ c (Proc.devRef .tc main_v1) = KAgg.srcOf (m ((c.tc : Thread nD τ).loc main_arg1)) :=
  calc W24 (F := Ideal) m ρ c (Proc.devRef .tc main_v1)
    _ = W23 m ρ c (Proc.devRef .tc main_v1) := W24_of_ne m ρ c main_v1 (by decide)
    _ = W22 m ρ c (Proc.devRef .tc main_v1) := keep% hostOps5 at main_v1
    _ = W21 m ρ c (Proc.devRef .tc main_v1) := W22_of_ne m ρ c main_v1 (by decide)
    _ = W20 m ρ c (Proc.devRef .tc main_v1) := keep% hostOps4_4 at main_v1
    _ = W19 m ρ c (Proc.devRef .tc main_v1) := keep% hostOps4_3 at main_v1
    _ = W18 m ρ c (Proc.devRef .tc main_v1) := keep% hostOps4_2 at main_v1
    _ = W17 m ρ c (Proc.devRef .tc main_v1) := keep% hostOps4_1 at main_v1
    _ = _ := src_W17 m ρ c

/-- The destination vector after this layer. -/
theorem dst_W24 (c : Dev nD) :
    W24 (F := Ideal) m ρ c (Proc.devRef .tc main_v3) = KAgg.dstOf (m ((c.tc : Thread nD τ).loc main_arg1)) :=
  calc W24 (F := Ideal) m ρ c (Proc.devRef .tc main_v3)
    _ = W23 m ρ c (Proc.devRef .tc main_v3) := W24_of_ne m ρ c main_v3 (by decide)
    _ = W22 m ρ c (Proc.devRef .tc main_v3) := keep% hostOps5 at main_v3
    _ = W21 m ρ c (Proc.devRef .tc main_v3) := W22_of_ne m ρ c main_v3 (by decide)
    _ = W20 m ρ c (Proc.devRef .tc main_v3) := keep% hostOps4_4 at main_v3
    _ = _ := dst_W20 m ρ c

/-- Argument 2 is as launched after this layer. -/
theorem arg2_W24 (c : Dev nD) :
    W24 (F := Ideal) m ρ c (Proc.devRef .tc main_arg2) = m ((c.tc : Thread nD τ).loc main_arg2) :=
  calc W24 (F := Ideal) m ρ c (Proc.devRef .tc main_arg2)
    _ = W23 m ρ c (Proc.devRef .tc main_arg2) := W24_of_ne m ρ c main_arg2 (by decide)
    _ = W22 m ρ c (Proc.devRef .tc main_arg2) := keep% hostOps5 at main_arg2
    _ = W21 m ρ c (Proc.devRef .tc main_arg2) := W22_of_ne m ρ c main_arg2 (by decide)
    _ = W20 m ρ c (Proc.devRef .tc main_arg2) := keep% hostOps4_4 at main_arg2
    _ = W19 m ρ c (Proc.devRef .tc main_arg2) := keep% hostOps4_3 at main_arg2
    _ = W18 m ρ c (Proc.devRef .tc main_arg2) := keep% hostOps4_2 at main_arg2
    _ = W17 m ρ c (Proc.devRef .tc main_arg2) := keep% hostOps4_1 at main_arg2
    _ = W16 m ρ c (Proc.devRef .tc main_arg2) := keep% hostOps4 at main_arg2
    _ = _ := arg2_W16 m ρ c

/-- Argument 10 is as launched after this layer. -/
theorem arg10_W24 (c : Dev nD) :
    W24 (F := Ideal) m ρ c (Proc.devRef .tc main_arg10) = m ((c.tc : Thread nD τ).loc main_arg10) :=
  calc W24 (F := Ideal) m ρ c (Proc.devRef .tc main_arg10)
    _ = W23 m ρ c (Proc.devRef .tc main_arg10) := W24_of_ne m ρ c main_arg10 (by decide)
    _ = W22 m ρ c (Proc.devRef .tc main_arg10) := keep% hostOps5 at main_arg10
    _ = W21 m ρ c (Proc.devRef .tc main_arg10) := W22_of_ne m ρ c main_arg10 (by decide)
    _ = W20 m ρ c (Proc.devRef .tc main_arg10) := keep% hostOps4_4 at main_arg10
    _ = W19 m ρ c (Proc.devRef .tc main_arg10) := keep% hostOps4_3 at main_arg10
    _ = W18 m ρ c (Proc.devRef .tc main_arg10) := keep% hostOps4_2 at main_arg10
    _ = W17 m ρ c (Proc.devRef .tc main_arg10) := keep% hostOps4_1 at main_arg10
    _ = W16 m ρ c (Proc.devRef .tc main_arg10) := keep% hostOps4 at main_arg10
    _ = _ := arg10_W16 m ρ c

/-- Argument 11 is as launched after this layer. -/
theorem arg11_W24 (c : Dev nD) :
    W24 (F := Ideal) m ρ c (Proc.devRef .tc main_arg11) = m ((c.tc : Thread nD τ).loc main_arg11) :=
  calc W24 (F := Ideal) m ρ c (Proc.devRef .tc main_arg11)
    _ = W23 m ρ c (Proc.devRef .tc main_arg11) := W24_of_ne m ρ c main_arg11 (by decide)
    _ = W22 m ρ c (Proc.devRef .tc main_arg11) := keep% hostOps5 at main_arg11
    _ = W21 m ρ c (Proc.devRef .tc main_arg11) := W22_of_ne m ρ c main_arg11 (by decide)
    _ = W20 m ρ c (Proc.devRef .tc main_arg11) := keep% hostOps4_4 at main_arg11
    _ = W19 m ρ c (Proc.devRef .tc main_arg11) := keep% hostOps4_3 at main_arg11
    _ = W18 m ρ c (Proc.devRef .tc main_arg11) := keep% hostOps4_2 at main_arg11
    _ = W17 m ρ c (Proc.devRef .tc main_arg11) := keep% hostOps4_1 at main_arg11
    _ = W16 m ρ c (Proc.devRef .tc main_arg11) := keep% hostOps4 at main_arg11
    _ = _ := arg11_W16 m ρ c

end Cert.KernelIdeal.KAggVal

end
-- ==== Proof.KAggVal3.lean ====
/-
  The edge-aggregation buffer of the idealized kernel program at a later layer's node region's entry, as the aggregation
  (proof/Proof/KAgg.lean) of the previous layer's output and the launch contents of the edge arguments: the stretches
  of host operations before that region are read at the buffers they write, the buffers that pass a stretch or a region
  unwritten are carried across it, and the reads compose to the named term. The index vectors and the edge arguments
  after the layer's two regions are stated too: the next layer starts there.
-/
import proofs.«406622_j66486093742154_3_alg».proof.Proof.Gen.KernelIdeal.Frame
import proofs.«406622_j66486093742154_3_alg».proof.Proof.KAggSt3
import proofs.«406622_j66486093742154_3_alg».proof.Proof.KAggVal2
import Idealize.ShloMosaic.Lib.StableHlo.Run

set_option maxRecDepth 16384

noncomputable section

namespace Cert.KernelIdeal.KAggVal

open Idealize.ShloMosaic Idealize.ShloMosaic.TcCoe
open Cert.KernelIdeal Cert.KernelIdeal.Gen

/-- A buffer that no operation of a list writes holds after the list what it held before: the writes of the listed
    operations are singletons, each a reference other than the given one. -/
local macro "keep% " ops:ident " at " b:term : term =>
  `(StableHlo.after_of_forall_not_mem (b := Proc.devRef .tc $b) _ _ (List.forall_iff_forall_mem.mp (by
      simp only [$ops:ident, List.take_succ_cons, List.take_zero, List.drop_succ_cons, List.drop_zero,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

/-! ## The layer's boundaries -/

/-- The linear term after the first stretch, over the launch contents of the edge arguments. -/
theorem lin_W25 (c : Dev nD) :
    W25 (F := Ideal) m ρ c (Proc.devRef .tc main_v156)
      = KAgg.lin64 (m ((c.tc : Thread nD τ).loc main_arg2)) (KAgg.ewOf2 (m ((c.tc : Thread nD τ).loc main_arg10))) (KAgg.ebOf2 (m ((c.tc : Thread nD τ).loc main_arg11))) := by
  refine (hostOps6_linTerm (W24 m ρ c)).trans ?_
  rw [arg2_W24 m ρ c, arg10_W24 m ρ c, arg11_W24 m ρ c]

/-- The source vector passes the first stretch unwritten. -/
theorem src_W25 (c : Dev nD) :
    W25 (F := Ideal) m ρ c (Proc.devRef .tc main_v1) = KAgg.srcOf (m ((c.tc : Thread nD τ).loc main_arg1)) :=
  calc W25 (F := Ideal) m ρ c (Proc.devRef .tc main_v1)
    _ = W24 m ρ c (Proc.devRef .tc main_v1) := keep% hostOps6 at main_v1
    _ = _ := src_W24 m ρ c

/-- So does the previous layer's output. -/
theorem x_W25 (c : Dev nD) :
    W25 (F := Ideal) m ρ c (Proc.devRef .tc main_v135) = W24 m ρ c (Proc.devRef .tc main_v135) :=
  keep% hostOps6 at main_v135

/-- The looked-up rows after the second stretch. -/
theorem take_W26 (c : Dev nD) :
    W26 (F := Ideal) m ρ c (Proc.devRef .tc main_v157)
      = KAgg.take64 (W24 (F := Ideal) m ρ c (Proc.devRef .tc main_v135)) (KAgg.srcOf (m ((c.tc : Thread nD τ).loc main_arg1))) := by
  refine (hostOps6_1_take (W25 m ρ c)).trans ?_
  rw [x_W25 m ρ c, src_W25 m ρ c]

/-- The linear term passes the lookup unwritten. -/
theorem lin_W26 (c : Dev nD) :
    W26 (F := Ideal) m ρ c (Proc.devRef .tc main_v156)
      = KAgg.lin64 (m ((c.tc : Thread nD τ).loc main_arg2)) (KAgg.ewOf2 (m ((c.tc : Thread nD τ).loc main_arg10))) (KAgg.ebOf2 (m ((c.tc : Thread nD τ).loc main_arg11))) :=
  calc W26 (F := Ideal) m ρ c (Proc.devRef .tc main_v156)
    _ = W25 m ρ c (Proc.devRef .tc main_v156) := keep% hostOps6_1 at main_v156
    _ = _ := lin_W25 m ρ c

/-- The messages before the rectifier. -/
theorem sum_W27 (c : Dev nD) :
    W27 (F := Ideal) m ρ c (Proc.devRef .tc main_v158)
      = addf (F := Ideal) (s := S1600000x64) (φ := .f32) (KAgg.take64 (W24 (F := Ideal) m ρ c (Proc.devRef .tc main_v135)) (KAgg.srcOf (m ((c.tc : Thread nD τ).loc main_arg1))))
          (KAgg.lin64 (m ((c.tc : Thread nD τ).loc main_arg2)) (KAgg.ewOf2 (m ((c.tc : Thread nD τ).loc main_arg10))) (KAgg.ebOf2 (m ((c.tc : Thread nD τ).loc main_arg11)))) := by
  refine (hostOps6_2_sum (W26 m ρ c)).trans ?_
  rw [take_W26 m ρ c, lin_W26 m ρ c]

/-- The rectified messages. -/
theorem msg_W28 (c : Dev nD) :
    W28 (F := Ideal) m ρ c (Proc.devRef .tc main_v159)
      = maximumf (addf (F := Ideal) (s := S1600000x64) (φ := .f32) (KAgg.take64 (W24 (F := Ideal) m ρ c (Proc.devRef .tc main_v135)) (KAgg.srcOf (m ((c.tc : Thread nD τ).loc main_arg1))))
          (KAgg.lin64 (m ((c.tc : Thread nD τ).loc main_arg2)) (KAgg.ewOf2 (m ((c.tc : Thread nD τ).loc main_arg10))) (KAgg.ebOf2 (m ((c.tc : Thread nD τ).loc main_arg11)))))
          (broadcastInDim S1600000x64 ![] bcast_S_S1600000x64 (constant (F := Ideal) S_ .f32 0x00000000#32)) := by
  refine (hostOps6_3_relu (W27 m ρ c)).trans ?_
  rw [sum_W27 m ρ c]

/-- The destination vector reaches the accumulation unwritten. -/
theorem dst_W28 (c : Dev nD) :
    W28 (F := Ideal) m ρ c (Proc.devRef .tc main_v3) = KAgg.dstOf (m ((c.tc : Thread nD τ).loc main_arg1)) :=
  calc W28 (F := Ideal) m ρ c (Proc.devRef .tc main_v3)
    _ = W27 m ρ c (Proc.devRef .tc main_v3) := keep% hostOps6_3 at main_v3
    _ = W26 m ρ c (Proc.devRef .tc main_v3) := keep% hostOps6_2 at main_v3
    _ = W25 m ρ c (Proc.devRef .tc main_v3) := keep% hostOps6_1 at main_v3
    _ = W24 m ρ c (Proc.devRef .tc main_v3) := keep% hostOps6 at main_v3
    _ = _ := dst_W24 m ρ c

/-- The aggregation buffer at the layer's node region's entry is the aggregation of the previous layer's output. -/
theorem agg3 (c : Dev nD) :
    (W29 (F := Ideal) m ρ c (Proc.devRef .tc main_v162) : S100000x64.Idx → EReal)
      = KAgg.aggK64 (W24 (F := Ideal) m ρ c (Proc.devRef .tc main_v135)) (KAgg.srcOf (m ((c.tc : Thread nD τ).loc main_arg1)))
          (KAgg.dstOf (m ((c.tc : Thread nD τ).loc main_arg1))) (m ((c.tc : Thread nD τ).loc main_arg2))
          (KAgg.ewOf2 (m ((c.tc : Thread nD τ).loc main_arg10))) (KAgg.ebOf2 (m ((c.tc : Thread nD τ).loc main_arg11))) := by
  refine (hostOps6_4_scatter (W28 m ρ c)).trans ?_
  rw [msg_W28 m ρ c, dst_W28 m ρ c]
  rfl

/-! ## What the next layer reads: the index vectors and the edge arguments after this layer's two regions -/

/-- The source vector after this layer. -/
theorem src_W32 (c : Dev nD) :
    W32 (F := Ideal) m ρ c (Proc.devRef .tc main_v1) = KAgg.srcOf (m ((c.tc : Thread nD τ).loc main_arg1)) :=
  calc W32 (F := Ideal) m ρ c (Proc.devRef .tc main_v1)
    _ = W31 m ρ c (Proc.devRef .tc main_v1) := W32_of_ne m ρ c main_v1 (by decide)
    _ = W30 m ρ c (Proc.devRef .tc main_v1) := keep% hostOps7 at main_v1
    _ = W29 m ρ c (Proc.devRef .tc main_v1) := W30_of_ne m ρ c main_v1 (by decide)
    _ = W28 m ρ c (Proc.devRef .tc main_v1) := keep% hostOps6_4 at main_v1
    _ = W27 m ρ c (Proc.devRef .tc main_v1) := keep% hostOps6_3 at main_v1
    _ = W26 m ρ c (Proc.devRef .tc main_v1) := keep% hostOps6_2 at main_v1
    _ = W25 m ρ c (Proc.devRef .tc main_v1) := keep% hostOps6_1 at main_v1
    _ = _ := src_W25 m ρ c

/-- The destination vector after this layer. -/
theorem dst_W32 (c : Dev nD) :
    W32 (F := Ideal) m ρ c (Proc.devRef .tc main_v3) = KAgg.dstOf (m ((c.tc : Thread nD τ).loc main_arg1)) :=
  calc W32 (F := Ideal) m ρ c (Proc.devRef .tc main_v3)
    _ = W31 m ρ c (Proc.devRef .tc main_v3) := W32_of_ne m ρ c main_v3 (by decide)
    _ = W30 m ρ c (Proc.devRef .tc main_v3) := keep% hostOps7 at main_v3
    _ = W29 m ρ c (Proc.devRef .tc main_v3) := W30_of_ne m ρ c main_v3 (by decide)
    _ = W28 m ρ c (Proc.devRef .tc main_v3) := keep% hostOps6_4 at main_v3
    _ = _ := dst_W28 m ρ c

/-- Argument 2 is as launched after this layer. -/
theorem arg2_W32 (c : Dev nD) :
    W32 (F := Ideal) m ρ c (Proc.devRef .tc main_arg2) = m ((c.tc : Thread nD τ).loc main_arg2) :=
  calc W32 (F := Ideal) m ρ c (Proc.devRef .tc main_arg2)
    _ = W31 m ρ c (Proc.devRef .tc main_arg2) := W32_of_ne m ρ c main_arg2 (by decide)
    _ = W30 m ρ c (Proc.devRef .tc main_arg2) := keep% hostOps7 at main_arg2
    _ = W29 m ρ c (Proc.devRef .tc main_arg2) := W30_of_ne m ρ c main_arg2 (by decide)
    _ = W28 m ρ c (Proc.devRef .tc main_arg2) := keep% hostOps6_4 at main_arg2
    _ = W27 m ρ c (Proc.devRef .tc main_arg2) := keep% hostOps6_3 at main_arg2
    _ = W26 m ρ c (Proc.devRef .tc main_arg2) := keep% hostOps6_2 at main_arg2
    _ = W25 m ρ c (Proc.devRef .tc main_arg2) := keep% hostOps6_1 at main_arg2
    _ = W24 m ρ c (Proc.devRef .tc main_arg2) := keep% hostOps6 at main_arg2
    _ = _ := arg2_W24 m ρ c

/-- Argument 10 is as launched after this layer. -/
theorem arg10_W32 (c : Dev nD) :
    W32 (F := Ideal) m ρ c (Proc.devRef .tc main_arg10) = m ((c.tc : Thread nD τ).loc main_arg10) :=
  calc W32 (F := Ideal) m ρ c (Proc.devRef .tc main_arg10)
    _ = W31 m ρ c (Proc.devRef .tc main_arg10) := W32_of_ne m ρ c main_arg10 (by decide)
    _ = W30 m ρ c (Proc.devRef .tc main_arg10) := keep% hostOps7 at main_arg10
    _ = W29 m ρ c (Proc.devRef .tc main_arg10) := W30_of_ne m ρ c main_arg10 (by decide)
    _ = W28 m ρ c (Proc.devRef .tc main_arg10) := keep% hostOps6_4 at main_arg10
    _ = W27 m ρ c (Proc.devRef .tc main_arg10) := keep% hostOps6_3 at main_arg10
    _ = W26 m ρ c (Proc.devRef .tc main_arg10) := keep% hostOps6_2 at main_arg10
    _ = W25 m ρ c (Proc.devRef .tc main_arg10) := keep% hostOps6_1 at main_arg10
    _ = W24 m ρ c (Proc.devRef .tc main_arg10) := keep% hostOps6 at main_arg10
    _ = _ := arg10_W24 m ρ c

/-- Argument 11 is as launched after this layer. -/
theorem arg11_W32 (c : Dev nD) :
    W32 (F := Ideal) m ρ c (Proc.devRef .tc main_arg11) = m ((c.tc : Thread nD τ).loc main_arg11) :=
  calc W32 (F := Ideal) m ρ c (Proc.devRef .tc main_arg11)
    _ = W31 m ρ c (Proc.devRef .tc main_arg11) := W32_of_ne m ρ c main_arg11 (by decide)
    _ = W30 m ρ c (Proc.devRef .tc main_arg11) := keep% hostOps7 at main_arg11
    _ = W29 m ρ c (Proc.devRef .tc main_arg11) := W30_of_ne m ρ c main_arg11 (by decide)
    _ = W28 m ρ c (Proc.devRef .tc main_arg11) := keep% hostOps6_4 at main_arg11
    _ = W27 m ρ c (Proc.devRef .tc main_arg11) := keep% hostOps6_3 at main_arg11
    _ = W26 m ρ c (Proc.devRef .tc main_arg11) := keep% hostOps6_2 at main_arg11
    _ = W25 m ρ c (Proc.devRef .tc main_arg11) := keep% hostOps6_1 at main_arg11
    _ = W24 m ρ c (Proc.devRef .tc main_arg11) := keep% hostOps6 at main_arg11
    _ = _ := arg11_W24 m ρ c

end Cert.KernelIdeal.KAggVal

end
-- ==== Proof.AggBridge.lean ====
import proofs.«406622_j66486093742154_3_alg».proof.Proof.KAgg
import proofs.«406622_j66486093742154_3_alg».proof.Proof.RefRead

noncomputable section

namespace Cert.AggBridge

open Idealize.ShloMosaic Cert.KernelIdeal.KAgg Cert.ReferenceIdeal.Read

variable [Cert.KernelIdeal.Facts]

theorem addf_assoc_vec {s : Shape} {φ : FTy} (a b c : FVec Ideal s φ) : addf a (addf b c) = addf (addf a b) c := by
  funext i; exact (add_assoc (a i) (b i) (c i)).symm

theorem agg0_eq (x0 : (⟨Cert.ReferenceIdeal.S100000x32, .f32⟩ : BufTy).Contents (Elt Ideal))
    (x1 : (⟨Cert.ReferenceIdeal.S2x1600000, .i32⟩ : BufTy).Contents (Elt Ideal))
    (x2 : (⟨Cert.ReferenceIdeal.S1600000x16, .f32⟩ : BufTy).Contents (Elt Ideal))
    (x4 : (⟨Cert.ReferenceIdeal.S32x16, .f32⟩ : BufTy).Contents (Elt Ideal))
    (x5 : (⟨Cert.ReferenceIdeal.S32, .f32⟩ : BufTy).Contents (Elt Ideal)) (h : Gnn.SrcOK x1) :
    aggK32 x0 (srcOf x1) (dstOf x1) x2 x4 x5 = val_main_v24 (F := Ideal) x0 x1 x2 x4 x5 := by
  unfold val_main_v24 val_main_v21 val_main_v20 val_main_v17 val_main_v14 aggK32 lin32
  rw [take32_eq_gather _ _ (srcOf_ok x1 h), addf_assoc_vec]
  rfl

theorem agg1_eq (X : FVec Ideal Cert.KernelIdeal.S100000x64 .f32)
    (x0 : (⟨Cert.ReferenceIdeal.S100000x32, .f32⟩ : BufTy).Contents (Elt Ideal))
    (x1 : (⟨Cert.ReferenceIdeal.S2x1600000, .i32⟩ : BufTy).Contents (Elt Ideal))
    (x2 : (⟨Cert.ReferenceIdeal.S1600000x16, .f32⟩ : BufTy).Contents (Elt Ideal))
    (x4 : (⟨Cert.ReferenceIdeal.S32x16, .f32⟩ : BufTy).Contents (Elt Ideal))
    (x5 : (⟨Cert.ReferenceIdeal.S32, .f32⟩ : BufTy).Contents (Elt Ideal))
    (x6 : (⟨Cert.ReferenceIdeal.S64x32, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S3x64x16, .f32⟩ : BufTy).Contents (Elt Ideal))
    (x11 : (⟨Cert.ReferenceIdeal.S3x64, .f32⟩ : BufTy).Contents (Elt Ideal))
    (x16 x17 : (⟨Cert.ReferenceIdeal.S4x64, .f32⟩ : BufTy).Contents (Elt Ideal)) (h : Gnn.SrcOK x1)
    (hX : val_main_v65 (F := Ideal) x0 x1 x2 x4 x5 x6 x7 x8 x9 x16 x17 = X) :
    aggK64 X (srcOf x1) (dstOf x1) x2 (ewOf0 x10) (ebOf0 x11)
      = val_main_v98 (F := Ideal) x0 x1 x2 x4 x5 x6 x7 x8 x9 x10 x11 x16 x17 := by
  subst hX
  unfold val_main_v98 val_main_v95 val_main_v94 val_main_v91 val_main_v88 aggK64 lin64
  rw [take64_eq_gather _ _ (srcOf_ok x1 h), addf_assoc_vec]
  rfl

theorem agg2_eq (X : FVec Ideal Cert.KernelIdeal.S100000x64 .f32)
    (x0 : (⟨Cert.ReferenceIdeal.S100000x32, .f32⟩ : BufTy).Contents (Elt Ideal))
    (x1 : (⟨Cert.ReferenceIdeal.S2x1600000, .i32⟩ : BufTy).Contents (Elt Ideal))
    (x2 : (⟨Cert.ReferenceIdeal.S1600000x16, .f32⟩ : BufTy).Contents (Elt Ideal))
    (x4 : (⟨Cert.ReferenceIdeal.S32x16, .f32⟩ : BufTy).Contents (Elt Ideal))
    (x5 : (⟨Cert.ReferenceIdeal.S32, .f32⟩ : BufTy).Contents (Elt Ideal))
    (x6 : (⟨Cert.ReferenceIdeal.S64x32, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S3x64x16, .f32⟩ : BufTy).Contents (Elt Ideal))
    (x11 : (⟨Cert.ReferenceIdeal.S3x64, .f32⟩ : BufTy).Contents (Elt Ideal))
    (x12 : (⟨Cert.ReferenceIdeal.S3x64x64, .f32⟩ : BufTy).Contents (Elt Ideal))
    (x13 : (⟨Cert.ReferenceIdeal.S3x64, .f32⟩ : BufTy).Contents (Elt Ideal))
    (x14 : (⟨Cert.ReferenceIdeal.S3x64x64, .f32⟩ : BufTy).Contents (Elt Ideal))
    (x15 : (⟨Cert.ReferenceIdeal.S3x64, .f32⟩ : BufTy).Contents (Elt Ideal))
    (x16 x17 : (⟨Cert.ReferenceIdeal.S4x64, .f32⟩ : BufTy).Contents (Elt Ideal)) (h : Gnn.SrcOK x1)
    (hX : val_main_v139 (F := Ideal) x0 x1 x2 x4 x5 x6 x7 x8 x9 x10 x11 x12 x13 x14 x15 x16 x17 = X) :
    aggK64 X (srcOf x1) (dstOf x1) x2 (ewOf1 x10) (ebOf1 x11)
      = val_main_v172 (F := Ideal) x0 x1 x2 x4 x5 x6 x7 x8 x9 x10 x11 x12 x13 x14 x15 x16 x17 := by
  subst hX
  unfold val_main_v172 val_main_v169 val_main_v168 val_main_v165 val_main_v162 aggK64 lin64
  rw [take64_eq_gather _ _ (srcOf_ok x1 h), addf_assoc_vec]
  rfl

theorem agg3_eq (X : FVec Ideal Cert.KernelIdeal.S100000x64 .f32)
    (x0 : (⟨Cert.ReferenceIdeal.S100000x32, .f32⟩ : BufTy).Contents (Elt Ideal))
    (x1 : (⟨Cert.ReferenceIdeal.S2x1600000, .i32⟩ : BufTy).Contents (Elt Ideal))
    (x2 : (⟨Cert.ReferenceIdeal.S1600000x16, .f32⟩ : BufTy).Contents (Elt Ideal))
    (x4 : (⟨Cert.ReferenceIdeal.S32x16, .f32⟩ : BufTy).Contents (Elt Ideal))
    (x5 : (⟨Cert.ReferenceIdeal.S32, .f32⟩ : BufTy).Contents (Elt Ideal))
    (x6 : (⟨Cert.ReferenceIdeal.S64x32, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S3x64x16, .f32⟩ : BufTy).Contents (Elt Ideal))
    (x11 : (⟨Cert.ReferenceIdeal.S3x64, .f32⟩ : BufTy).Contents (Elt Ideal))
    (x12 : (⟨Cert.ReferenceIdeal.S3x64x64, .f32⟩ : BufTy).Contents (Elt Ideal))
    (x13 : (⟨Cert.ReferenceIdeal.S3x64, .f32⟩ : BufTy).Contents (Elt Ideal))
    (x14 : (⟨Cert.ReferenceIdeal.S3x64x64, .f32⟩ : BufTy).Contents (Elt Ideal))
    (x15 : (⟨Cert.ReferenceIdeal.S3x64, .f32⟩ : BufTy).Contents (Elt Ideal))
    (x16 x17 : (⟨Cert.ReferenceIdeal.S4x64, .f32⟩ : BufTy).Contents (Elt Ideal)) (h : Gnn.SrcOK x1)
    (hX : val_main_v213 (F := Ideal) x0 x1 x2 x4 x5 x6 x7 x8 x9 x10 x11 x12 x13 x14 x15 x16 x17 = X) :
    aggK64 X (srcOf x1) (dstOf x1) x2 (ewOf2 x10) (ebOf2 x11)
      = val_main_v246 (F := Ideal) x0 x1 x2 x4 x5 x6 x7 x8 x9 x10 x11 x12 x13 x14 x15 x16 x17 := by
  subst hX
  unfold val_main_v246 val_main_v243 val_main_v242 val_main_v239 val_main_v236 aggK64 lin64
  rw [take64_eq_gather _ _ (srcOf_ok x1 h), addf_assoc_vec]
  rfl

end Cert.AggBridge

end
-- ==== Proof.RefReal.lean ====
import proofs.«406622_j66486093742154_3_alg».proof.Proof.RefRead
import proofs.«406622_j66486093742154_3_alg».proof.Proof.RealOps

namespace Cert.ReferenceIdeal.RefReal

open Cert.ReferenceIdeal Cert.ReferenceIdeal.Read Gnn Gnn.RealOps Idealize.ShloMosaic

variable (x0 : (⟨S100000x32, .f32⟩ : BufTy).Contents (Elt Ideal)) (x1 : (⟨S2x1600000, .i32⟩ : BufTy).Contents (Elt Ideal))
  (x2 : (⟨S1600000x16, .f32⟩ : BufTy).Contents (Elt Ideal)) (x4 : (⟨S32x16, .f32⟩ : BufTy).Contents (Elt Ideal))
  (x5 : (⟨S32, .f32⟩ : BufTy).Contents (Elt Ideal)) (x6 : (⟨S64x32, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal)) (x10 : (⟨S3x64x16, .f32⟩ : BufTy).Contents (Elt Ideal))
  (x11 : (⟨S3x64, .f32⟩ : BufTy).Contents (Elt Ideal)) (x12 : (⟨S3x64x64, .f32⟩ : BufTy).Contents (Elt Ideal))
  (x13 : (⟨S3x64, .f32⟩ : BufTy).Contents (Elt Ideal)) (x14 : (⟨S3x64x64, .f32⟩ : BufTy).Contents (Elt Ideal))
  (x15 : (⟨S3x64, .f32⟩ : BufTy).Contents (Elt Ideal)) (x16 x17 : (⟨S4x64, .f32⟩ : BufTy).Contents (Elt Ideal))

theorem agg0_real (h0 : AllReal x0) (h2 : AllReal x2) (h4 : AllReal x4) (h5 : AllReal x5) :
    AllReal (val_main_v24 (F := Ideal) x0 x1 x2 x4 x5) := by
  unfold val_main_v24
  refine allReal_scatterAdd _ _ _ _ ?_ ?_
  · unfold val_main_v22 val_main_cst
    exact allReal_broadcastInDim _ _ _ _ (allReal_constant_zero _)
  · unfold val_main_v21
    refine allReal_maximumf _ _ ?_ ?_
    · unfold val_main_v20
      refine allReal_addf _ _ ?_ ?_
      · unfold val_main_v17
        refine allReal_addf _ _ ?_ ?_
        · unfold val_main_v14
          exact allReal_gather _ _ _ h0
        · unfold val_main_v16 val_main_v15
          exact allReal_dotGeneral _ _ _ _ h2 (allReal_transpose _ _ _ _ h4)
      · unfold val_main_v19 val_main_v18
        exact allReal_broadcastInDim _ _ _ _ (allReal_broadcastInDim _ _ _ _ h5)
    · unfold val_main_call0_v0 val_main_call0_cst
      exact allReal_broadcastInDim _ _ _ _ (allReal_constant_zero _)

theorem agg1_real
    (hprev : AllReal (val_main_v65 (F := Ideal) x0 x1 x2 x4 x5 x6 x7 x8 x9 x16 x17)) (h2 : AllReal x2)
    (h10 : AllReal x10) (h11 : AllReal x11) :
    AllReal (val_main_v98 (F := Ideal) x0 x1 x2 x4 x5 x6 x7 x8 x9 x10 x11 x16 x17) := by
  unfold val_main_v98
  refine allReal_scatterAdd _ _ _ _ ?_ ?_
  · unfold val_main_v96 val_main_cst_9
    exact allReal_broadcastInDim _ _ _ _ (allReal_constant_zero _)
  · unfold val_main_v95
    refine allReal_maximumf _ _ ?_ ?_
    · unfold val_main_v94
      refine allReal_addf _ _ ?_ ?_
      · unfold val_main_v91
        refine allReal_addf _ _ ?_ ?_
        · unfold val_main_v88
          exact allReal_gather _ _ _ hprev
        · unfold val_main_v90 val_main_v89 val_main_v67 val_main_v66
          exact allReal_dotGeneral _ _ _ _ h2
            (allReal_transpose _ _ _ _ (allReal_shapeCast _ _ _ (allReal_extractStridedSlice _ _ _ _ h10)))
      · unfold val_main_v93 val_main_v92 val_main_v69 val_main_v68
        exact allReal_broadcastInDim _ _ _ _
          (allReal_broadcastInDim _ _ _ _ (allReal_shapeCast _ _ _ (allReal_extractStridedSlice _ _ _ _ h11)))
    · unfold val_main_call4_v0 val_main_call4_cst
      exact allReal_broadcastInDim _ _ _ _ (allReal_constant_zero _)

theorem agg2_real
    (hprev : AllReal (val_main_v139 (F := Ideal) x0 x1 x2 x4 x5 x6 x7 x8 x9 x10 x11 x12 x13 x14 x15 x16 x17))
    (h2 : AllReal x2) (h10 : AllReal x10) (h11 : AllReal x11) :
    AllReal (val_main_v172 (F := Ideal) x0 x1 x2 x4 x5 x6 x7 x8 x9 x10 x11 x12 x13 x14 x15 x16 x17) := by
  unfold val_main_v172
  refine allReal_scatterAdd _ _ _ _ ?_ ?_
  · unfold val_main_v170 val_main_cst_18
    exact allReal_broadcastInDim _ _ _ _ (allReal_constant_zero _)
  · unfold val_main_v169
    refine allReal_maximumf _ _ ?_ ?_
    · unfold val_main_v168
      refine allReal_addf _ _ ?_ ?_
      · unfold val_main_v165
        refine allReal_addf _ _ ?_ ?_
        · unfold val_main_v162
          exact allReal_gather _ _ _ hprev
        · unfold val_main_v164 val_main_v163 val_main_v141 val_main_v140
          exact allReal_dotGeneral _ _ _ _ h2
            (allReal_transpose _ _ _ _ (allReal_shapeCast _ _ _ (allReal_extractStridedSlice _ _ _ _ h10)))
      · unfold val_main_v167 val_main_v166 val_main_v143 val_main_v142
        exact allReal_broadcastInDim _ _ _ _
          (allReal_broadcastInDim _ _ _ _ (allReal_shapeCast _ _ _ (allReal_extractStridedSlice _ _ _ _ h11)))
    · unfold val_main_call8_v0 val_main_call8_cst
      exact allReal_broadcastInDim _ _ _ _ (allReal_constant_zero _)

theorem agg3_real
    (hprev : AllReal (val_main_v213 (F := Ideal) x0 x1 x2 x4 x5 x6 x7 x8 x9 x10 x11 x12 x13 x14 x15 x16 x17))
    (h2 : AllReal x2) (h10 : AllReal x10) (h11 : AllReal x11) :
    AllReal (val_main_v246 (F := Ideal) x0 x1 x2 x4 x5 x6 x7 x8 x9 x10 x11 x12 x13 x14 x15 x16 x17) := by
  unfold val_main_v246
  refine allReal_scatterAdd _ _ _ _ ?_ ?_
  · unfold val_main_v244 val_main_cst_27
    exact allReal_broadcastInDim _ _ _ _ (allReal_constant_zero _)
  · unfold val_main_v243
    refine allReal_maximumf _ _ ?_ ?_
    · unfold val_main_v242
      refine allReal_addf _ _ ?_ ?_
      · unfold val_main_v239
        refine allReal_addf _ _ ?_ ?_
        · unfold val_main_v236
          exact allReal_gather _ _ _ hprev
        · unfold val_main_v238 val_main_v237 val_main_v215 val_main_v214
          exact allReal_dotGeneral _ _ _ _ h2
            (allReal_transpose _ _ _ _ (allReal_shapeCast _ _ _ (allReal_extractStridedSlice _ _ _ _ h10)))
      · unfold val_main_v241 val_main_v240 val_main_v217 val_main_v216
        exact allReal_broadcastInDim _ _ _ _
          (allReal_broadcastInDim _ _ _ _ (allReal_shapeCast _ _ _ (allReal_extractStridedSlice _ _ _ _ h11)))
    · unfold val_main_call12_v0 val_main_call12_cst
      exact allReal_broadcastInDim _ _ _ _ (allReal_constant_zero _)

end Cert.ReferenceIdeal.RefReal
-- ==== Proof.RefHidden.lean ====
import proofs.«406622_j66486093742154_3_alg».proof.Proof.Gen.ReferenceIdeal
import proofs.«406622_j66486093742154_3_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Hidden

open Cert.ReferenceIdeal Cert.ReferenceIdeal.Gen Idealize.ShloMosaic Idealize.ShloMosaic.TcCoe Idealize.SL.Sem Idealize.ShloMosaic.StableHlo

section

variable {F : FTy → Type} [FloatOps F]
variable (h agg : (⟨S100000x64, .f32⟩ : BufTy).Contents (Elt F)) (w1 : (⟨S64x64, .f32⟩ : BufTy).Contents (Elt F)) (d1 : (⟨S100000x64, .f32⟩ : BufTy).Contents (Elt F))
  (b1 : (⟨S64, .f32⟩ : BufTy).Contents (Elt F)) (w2 : (⟨S64x64, .f32⟩ : BufTy).Contents (Elt F)) (b2 gm bt : (⟨S64, .f32⟩ : BufTy).Contents (Elt F))
  (X : (⟨S100000x64, .f32⟩ : BufTy).Contents (Elt F)) (W : (⟨S64x64, .f32⟩ : BufTy).Contents (Elt F)) (v : (⟨S64, .f32⟩ : BufTy).Contents (Elt F))

def val_k0 : (⟨S_, .f32⟩ : BufTy).Contents (Elt F) :=
  constant S_ .f32 0x3F800000#32

theorem val_k0_apply (i : S_.Idx) :
    val_k0 (F := F) i = FloatOps.ofBits .f32 0x3F800000#32 := rfl

def val_r0_cst : (⟨S_, .f32⟩ : BufTy).Contents (Elt F) :=
  constant S_ .f32 0x00000000#32

theorem val_r0_cst_apply (i : S_.Idx) :
    val_r0_cst (F := F) i = FloatOps.ofBits .f32 0x00000000#32 := rfl

def val_r0_v0 : (⟨S100000x64, .f32⟩ : BufTy).Contents (Elt F) :=
  broadcastInDim S100000x64 ![] bcast_S_S100000x64 (val_r0_cst (F := F))

abbrev idx_r0_v0 (i : S100000x64.Idx) : S_.Idx := fun a => a.elim0

theorem val_r0_v0_apply (i : S100000x64.Idx) :
    val_r0_v0 (F := F) i = val_r0_cst (F := F) (idx_r0_v0 i) := by
  unfold val_r0_v0
  generalize val_r0_cst (F := F) = y
  exact broadcastInDim_apply _ bcast_S_S100000x64 y i (idx_r0_v0 i) (fun a => a.elim0)

def val_k1 : (⟨S_, .f32⟩ : BufTy).Contents (Elt F) :=
  constant S_ .f32 0x00000000#32

theorem val_k1_apply (i : S_.Idx) :
    val_k1 (F := F) i = FloatOps.ofBits .f32 0x00000000#32 := rfl

def val_k2 : (⟨S_, .f32⟩ : BufTy).Contents (Elt F) :=
  constant S_ .f32 0x47C35000#32

theorem val_k2_apply (i : S_.Idx) :
    val_k2 (F := F) i = FloatOps.ofBits .f32 0x47C35000#32 := rfl

def val_k5 : (⟨S_, .f32⟩ : BufTy).Contents (Elt F) :=
  constant S_ .f32 0x3727C5AC#32

theorem val_k5_apply (i : S_.Idx) :
    val_k5 (F := F) i = FloatOps.ofBits .f32 0x3727C5AC#32 := rfl

def val_row1 : (⟨S1x64, .f32⟩ : BufTy).Contents (Elt F) :=
  broadcastInDim S1x64 ![1] bcast_S64_S1x64_1 (v)

abbrev idx_row1 (i : S1x64.Idx) : S64.Idx := fun a => match a with
  | ⟨0, _⟩ => ⟨(i 1).val, (i 1).isLt⟩

theorem val_row1_apply (i : S1x64.Idx) :
    val_row1 (F := F) v i = v (idx_row1 i) := by
  unfold val_row1
  exact broadcastInDim_apply _ bcast_S64_S1x64_1 v i (idx_row1 i) (fun a => match a with
    | ⟨0, _⟩ => by show (i 1).val = if (64 : Nat) = 1 then 0 else (i 1).val; rw [if_neg (by decide)])

def val_row : (⟨S100000x64, .f32⟩ : BufTy).Contents (Elt F) :=
  broadcastInDim S100000x64 ![0, 1] bcast_S1x64_S100000x64_0_1 (val_row1 (F := F) v)

abbrev idx_row (i : S100000x64.Idx) : S1x64.Idx := fun a => match a with
  | ⟨0, _⟩ => ⟨0, Nat.one_pos⟩
  | ⟨1, _⟩ => ⟨(i 1).val, (i 1).isLt⟩

theorem val_row_apply (i : S100000x64.Idx) :
    val_row (F := F) v i = val_row1 (F := F) v (idx_row i) := by
  unfold val_row
  generalize val_row1 (F := F) v = y
  exact broadcastInDim_apply _ bcast_S1x64_S100000x64_0_1 y i (idx_row i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_tr : (⟨S64x64, .f32⟩ : BufTy).Contents (Elt F) :=
  transpose S64x64 [1, 0] (W) transposes_S64x64_S64x64_1_0

abbrev idx_tr (i : S64x64.Idx) : S64x64.Idx := fun a => match a with
  | ⟨0, _⟩ => ⟨(i 1).val, (i 1).isLt⟩
  | ⟨1, _⟩ => ⟨(i 0).val, (i 0).isLt⟩

theorem val_tr_apply (i : S64x64.Idx) :
    val_tr (F := F) W i = W (idx_tr i) := by
  unfold val_tr
  exact transpose_apply [1, 0] W transposes_S64x64_S64x64_1_0 i (idx_tr i) (fun b => match b with
    | ⟨0, _⟩ => rfl
    | ⟨1, _⟩ => rfl)

def val_lin : (⟨S100000x64, .f32⟩ : BufTy).Contents (Elt F) :=
  Host.dotGeneral dot_S100000x64_S64x64_S100000x64_1_0_0_1_n_n none (X) (val_tr (F := F) W)

theorem lhs_lin_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem lhs_lin_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

theorem rhs_lin_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

theorem rhs_lin_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

abbrev lidx_lin (i : S100000x64.Idx) (k : Fin 64) : S100000x64.Idx := fun a => match a with
  | ⟨0, _⟩ => ⟨(i 0).val, (i 0).isLt⟩
  | ⟨1, _⟩ => ⟨k.val, k.isLt⟩

abbrev ridx_lin (i : S100000x64.Idx) (k : Fin 64) : S64x64.Idx := fun a => match a with
  | ⟨0, _⟩ => ⟨k.val, k.isLt⟩
  | ⟨1, _⟩ => ⟨(i 1).val, (i 1).isLt⟩

def val_csum : (⟨S64, .f32⟩ : BufTy).Contents (Elt F) :=
  Host.reduceAdd (X) (val_k1 (F := F)) reducesTo_S100000x64_S64_d0 h_S_

abbrev idx_csum (i : S64.Idx) (k : Fin 100000) : S100000x64.Idx := fun a => match a with
  | ⟨0, _⟩ => ⟨k.val, k.isLt⟩
  | ⟨1, _⟩ => ⟨(i 0).val, (i 0).isLt⟩

def val_t0 : (⟨S100000x64, .f32⟩ : BufTy).Contents (Elt F) :=
  broadcastInDim S100000x64 ![] bcast_S_S100000x64 (val_k0 (F := F))

abbrev idx_t0 (i : S100000x64.Idx) : S_.Idx := fun a => a.elim0

theorem val_t0_apply (i : S100000x64.Idx) :
    val_t0 (F := F) i = val_k0 (F := F) (idx_t0 i) := by
  unfold val_t0
  generalize val_k0 (F := F) = y
  exact broadcastInDim_apply _ bcast_S_S100000x64 y i (idx_t0 i) (fun a => a.elim0)

def val_t1 : (⟨S100000x64, .f32⟩ : BufTy).Contents (Elt F) :=
  mulf (val_t0 (F := F)) (h)

theorem val_t1_apply (i : S100000x64.Idx) :
    val_t1 (F := F) h i = FloatOps.mulf (val_t0 (F := F) i) (h i) := rfl

def val_t2 : (⟨S100000x64, .f32⟩ : BufTy).Contents (Elt F) :=
  addf (val_t1 (F := F) h) (agg)

theorem val_t2_apply (i : S100000x64.Idx) :
    val_t2 (F := F) h agg i = FloatOps.addf (val_t1 (F := F) h i) (agg i) := rfl

def val_t4 : (⟨S100000x64, .f32⟩ : BufTy).Contents (Elt F) :=
  val_lin (F := F) (val_t2 (F := F) h agg) w1

def val_t7 : (⟨S100000x64, .f32⟩ : BufTy).Contents (Elt F) :=
  addf (d1) (val_row (F := F) b1)

theorem val_t7_apply (i : S100000x64.Idx) :
    val_t7 (F := F) d1 b1 i = FloatOps.addf (d1 i) (val_row (F := F) b1 i) := rfl

def val_t8 : (⟨S100000x64, .f32⟩ : BufTy).Contents (Elt F) :=
  maximumf (val_t7 (F := F) d1 b1) (val_r0_v0 (F := F))

theorem val_t8_apply (i : S100000x64.Idx) :
    val_t8 (F := F) d1 b1 i = FloatOps.maximumf (val_t7 (F := F) d1 b1 i) (val_r0_v0 (F := F) i) := rfl

def val_t10 : (⟨S100000x64, .f32⟩ : BufTy).Contents (Elt F) :=
  val_lin (F := F) (val_t8 (F := F) d1 b1) w2

def val_t13 : (⟨S100000x64, .f32⟩ : BufTy).Contents (Elt F) :=
  addf (val_t10 (F := F) d1 b1 w2) (val_row (F := F) b2)

theorem val_t13_apply (i : S100000x64.Idx) :
    val_t13 (F := F) d1 b1 w2 b2 i = FloatOps.addf (val_t10 (F := F) d1 b1 w2 i) (val_row (F := F) b2 i) := rfl

def val_t14 : (⟨S100000x64, .f32⟩ : BufTy).Contents (Elt F) :=
  maximumf (val_t13 (F := F) d1 b1 w2 b2) (val_r0_v0 (F := F))

theorem val_t14_apply (i : S100000x64.Idx) :
    val_t14 (F := F) d1 b1 w2 b2 i = FloatOps.maximumf (val_t13 (F := F) d1 b1 w2 b2 i) (val_r0_v0 (F := F) i) := rfl

def val_t15 : (⟨S64, .f32⟩ : BufTy).Contents (Elt F) :=
  val_csum (F := F) (val_t14 (F := F) d1 b1 w2 b2)

def val_t16 : (⟨S64, .f32⟩ : BufTy).Contents (Elt F) :=
  broadcastInDim S64 ![] bcast_S_S64 (val_k2 (F := F))

abbrev idx_t16 (i : S64.Idx) : S_.Idx := fun a => a.elim0

theorem val_t16_apply (i : S64.Idx) :
    val_t16 (F := F) i = val_k2 (F := F) (idx_t16 i) := by
  unfold val_t16
  generalize val_k2 (F := F) = y
  exact broadcastInDim_apply _ bcast_S_S64 y i (idx_t16 i) (fun a => a.elim0)

def val_t17 : (⟨S64, .f32⟩ : BufTy).Contents (Elt F) :=
  Host.divf (val_t15 (F := F) d1 b1 w2 b2) (val_t16 (F := F))

theorem val_t17_apply (i : S64.Idx) :
    val_t17 (F := F) d1 b1 w2 b2 i = FloatOps.hostDivf (val_t15 (F := F) d1 b1 w2 b2 i) (val_t16 (F := F) i) := rfl

def val_t20 : (⟨S100000x64, .f32⟩ : BufTy).Contents (Elt F) :=
  subf (val_t14 (F := F) d1 b1 w2 b2) (val_row (F := F) (val_t17 (F := F) d1 b1 w2 b2))

theorem val_t20_apply (i : S100000x64.Idx) :
    val_t20 (F := F) d1 b1 w2 b2 i = FloatOps.subf (val_t14 (F := F) d1 b1 w2 b2 i) (val_row (F := F) (val_t17 (F := F) d1 b1 w2 b2) i) := rfl

def val_t21 : (⟨S100000x64, .f32⟩ : BufTy).Contents (Elt F) :=
  mulf (val_t20 (F := F) d1 b1 w2 b2) (val_t20 (F := F) d1 b1 w2 b2)

theorem val_t21_apply (i : S100000x64.Idx) :
    val_t21 (F := F) d1 b1 w2 b2 i = FloatOps.mulf (val_t20 (F := F) d1 b1 w2 b2 i) (val_t20 (F := F) d1 b1 w2 b2 i) := rfl

def val_t22 : (⟨S64, .f32⟩ : BufTy).Contents (Elt F) :=
  val_csum (F := F) (val_t21 (F := F) d1 b1 w2 b2)

def val_t24 : (⟨S64, .f32⟩ : BufTy).Contents (Elt F) :=
  Host.divf (val_t22 (F := F) d1 b1 w2 b2) (val_t16 (F := F))

theorem val_t24_apply (i : S64.Idx) :
    val_t24 (F := F) d1 b1 w2 b2 i = FloatOps.hostDivf (val_t22 (F := F) d1 b1 w2 b2 i) (val_t16 (F := F) i) := rfl

def val_t27 : (⟨S100000x64, .f32⟩ : BufTy).Contents (Elt F) :=
  subf (val_t14 (F := F) d1 b1 w2 b2) (val_row (F := F) (val_t17 (F := F) d1 b1 w2 b2))

theorem val_t27_apply (i : S100000x64.Idx) :
    val_t27 (F := F) d1 b1 w2 b2 i = FloatOps.subf (val_t14 (F := F) d1 b1 w2 b2 i) (val_row (F := F) (val_t17 (F := F) d1 b1 w2 b2) i) := rfl

def val_t28 : (⟨S64, .f32⟩ : BufTy).Contents (Elt F) :=
  broadcastInDim S64 ![] bcast_S_S64 (val_k5 (F := F))

abbrev idx_t28 (i : S64.Idx) : S_.Idx := fun a => a.elim0

theorem val_t28_apply (i : S64.Idx) :
    val_t28 (F := F) i = val_k5 (F := F) (idx_t28 i) := by
  unfold val_t28
  generalize val_k5 (F := F) = y
  exact broadcastInDim_apply _ bcast_S_S64 y i (idx_t28 i) (fun a => a.elim0)

def val_t29 : (⟨S64, .f32⟩ : BufTy).Contents (Elt F) :=
  addf (val_t24 (F := F) d1 b1 w2 b2) (val_t28 (F := F))

theorem val_t29_apply (i : S64.Idx) :
    val_t29 (F := F) d1 b1 w2 b2 i = FloatOps.addf (val_t24 (F := F) d1 b1 w2 b2 i) (val_t28 (F := F) i) := rfl

def val_t30 : (⟨S64, .f32⟩ : BufTy).Contents (Elt F) :=
  Host.rsqrt (val_t29 (F := F) d1 b1 w2 b2)

theorem val_t30_apply (i : S64.Idx) :
    val_t30 (F := F) d1 b1 w2 b2 i = FloatOps.hostUnary .rsqrt (val_t29 (F := F) d1 b1 w2 b2 i) := rfl

def val_t33 : (⟨S100000x64, .f32⟩ : BufTy).Contents (Elt F) :=
  mulf (val_t27 (F := F) d1 b1 w2 b2) (val_row (F := F) (val_t30 (F := F) d1 b1 w2 b2))

theorem val_t33_apply (i : S100000x64.Idx) :
    val_t33 (F := F) d1 b1 w2 b2 i = FloatOps.mulf (val_t27 (F := F) d1 b1 w2 b2 i) (val_row (F := F) (val_t30 (F := F) d1 b1 w2 b2) i) := rfl

def val_t36 : (⟨S100000x64, .f32⟩ : BufTy).Contents (Elt F) :=
  mulf (val_t33 (F := F) d1 b1 w2 b2) (val_row (F := F) gm)

theorem val_t36_apply (i : S100000x64.Idx) :
    val_t36 (F := F) d1 b1 w2 b2 gm i = FloatOps.mulf (val_t33 (F := F) d1 b1 w2 b2 i) (val_row (F := F) gm i) := rfl

def val_t39 : (⟨S100000x64, .f32⟩ : BufTy).Contents (Elt F) :=
  addf (val_t36 (F := F) d1 b1 w2 b2 gm) (val_row (F := F) bt)

theorem val_t39_apply (i : S100000x64.Idx) :
    val_t39 (F := F) d1 b1 w2 b2 gm bt i = FloatOps.addf (val_t36 (F := F) d1 b1 w2 b2 gm i) (val_row (F := F) bt i) := rfl

def val_t40 : (⟨S100000x64, .f32⟩ : BufTy).Contents (Elt F) :=
  maximumf (val_t39 (F := F) d1 b1 w2 b2 gm bt) (val_r0_v0 (F := F))

theorem val_t40_apply (i : S100000x64.Idx) :
    val_t40 (F := F) d1 b1 w2 b2 gm bt i = FloatOps.maximumf (val_t39 (F := F) d1 b1 w2 b2 gm bt i) (val_r0_v0 (F := F) i) := rfl

end

section

variable (h agg : (⟨S100000x64, .f32⟩ : BufTy).Contents (Elt Ideal)) (w1 : (⟨S64x64, .f32⟩ : BufTy).Contents (Elt Ideal)) (d1 : (⟨S100000x64, .f32⟩ : BufTy).Contents (Elt Ideal))
  (b1 : (⟨S64, .f32⟩ : BufTy).Contents (Elt Ideal)) (w2 : (⟨S64x64, .f32⟩ : BufTy).Contents (Elt Ideal)) (b2 gm bt : (⟨S64, .f32⟩ : BufTy).Contents (Elt Ideal))
  (X : (⟨S100000x64, .f32⟩ : BufTy).Contents (Elt Ideal)) (W : (⟨S64x64, .f32⟩ : BufTy).Contents (Elt Ideal)) (v : (⟨S64, .f32⟩ : BufTy).Contents (Elt Ideal))

theorem val_lin_apply (i : S100000x64.Idx) :
    val_lin (F := Ideal) X W i = ∑ k : Fin 64, (X) (lidx_lin i k) * (val_tr (F := Ideal) W) (ridx_lin i k) := by
  unfold val_lin
  generalize val_tr (F := Ideal) W = y1
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_lin i k := funext fun a => Fin.ext (by
    match a with
    | ⟨0, _⟩ => exact lhs_lin_0 _ _
    | ⟨1, _⟩ => exact (lhs_lin_1 _ _).trans hk)
  have er : dot_S100000x64_S64x64_S100000x64_1_0_0_1_n_n.rhsIdx i ((ValueIdx.contrEquiv1 dot_S100000x64_S64x64_S100000x64_1_0_0_1_n_n 64 rfl rfl).symm k) = ridx_lin i k := funext fun a => Fin.ext (by
    match a with
    | ⟨0, _⟩ => exact (rhs_lin_0 _ _).trans hk
    | ⟨1, _⟩ => exact rhs_lin_1 _ _)
  rw [el, er]

theorem val_csum_apply (i : S64.Idx) :
    val_csum (F := Ideal) X i = (val_k1 (F := Ideal)) (Shape.Idx.first h_S_) + ∑ k : Fin 100000, (X) (idx_csum i k) := by
  unfold val_csum
  simp only [Host.reduceAdd, Ideal.hostReduceAdd_def]
  rw [Ideal.hostReduceAdd_single reducesTo_S100000x64_S64_d0 (by decide)]
  refine congrArg (_ + ·) (Finset.sum_congr rfl fun k _ => ?_)
  exact congrArg X (funext fun a => Fin.ext (by match a with | ⟨0, _⟩ => rfl | ⟨1, _⟩ => rfl))

open Gnn Idealize.ShloMosaic.ValueIdx

-- The node update, as a function of the first linear map's result.
def nodeOf : Fin 100000 → Fin 64 → EReal :=
  fun r j => relu ((∑ k : Fin 64, relu (d1 (ix2 r k) + b1 (ix1 k)) * w2 (ix2 j k)) + b2 (ix1 j))

theorem zero_r (i : S100000x64.Idx) : val_r0_v0 (F := Ideal) i = (0 : EReal) := by
  rw [val_r0_v0_apply, val_r0_cst_apply, Ideal.ofBits_def, Ideal.ofBits_zero_f32]

theorem row_at (r : Fin 100000) (j : Fin 64) : val_row (F := Ideal) v (ix2 r j) = v (ix1 j) := by
  rw [val_row_apply, val_row1_apply]
  exact congrArg v (funext fun d => Fin.ext (by match d with | ⟨0, _⟩ => rfl))

theorem lin_at (r : Fin 100000) (k : Fin 64) :
    val_lin (F := Ideal) X W (ix2 r k) = ∑ a : Fin 64, X (ix2 r a) * W (ix2 k a) := by
  rw [val_lin_apply]
  refine Finset.sum_congr rfl fun a _ => ?_
  rw [val_tr_apply, show lidx_lin (ix2 r k) a = ix2 r a from funext fun d => Fin.ext (by match d with | ⟨0, _⟩ => rfl | ⟨1, _⟩ => rfl),
    show idx_tr (ridx_lin (ix2 r k) a) = ix2 k a from funext fun d => Fin.ext (by match d with | ⟨0, _⟩ => rfl | ⟨1, _⟩ => rfl)]

theorem csum_at (j : Fin 64) : val_csum (F := Ideal) X (ix1 j) = ∑ r : Fin 100000, X (ix2 r j) := by
  rw [val_csum_apply, val_k1_apply, Ideal.ofBits_def, Ideal.ofBits_zero_f32, zero_add]
  refine Finset.sum_congr rfl fun r _ => ?_
  rw [show idx_csum (ix1 j) r = ix2 r j from funext fun d => Fin.ext (by match d with | ⟨0, _⟩ => rfl | ⟨1, _⟩ => rfl)]

theorem at_in (r : Fin 100000) (a : Fin 64) :
    val_t2 (F := Ideal) h agg (ix2 r a) = one * hat2 h r a + hat2 agg r a := by
  rw [val_t2_apply, val_t1_apply, val_t0_apply, val_k0_apply]
  rfl

theorem at_dot1 (r : Fin 100000) (k : Fin 64) :
    val_t4 (F := Ideal) h agg w1 (ix2 r k) = ∑ a : Fin 64, (one * hat2 h r a + hat2 agg r a) * w1 (ix2 k a) := by
  unfold val_t4
  rw [lin_at]
  refine Finset.sum_congr rfl fun a _ => ?_
  rw [at_in]

theorem at_h1 (r : Fin 100000) (k : Fin 64) :
    val_t8 (F := Ideal) d1 b1 (ix2 r k) = relu (d1 (ix2 r k) + b1 (ix1 k)) := by
  rw [val_t8_apply, val_t7_apply, zero_r, row_at]
  rfl

theorem at_dot2 (r : Fin 100000) (j : Fin 64) :
    val_t10 (F := Ideal) d1 b1 w2 (ix2 r j) = ∑ k : Fin 64, relu (d1 (ix2 r k) + b1 (ix1 k)) * w2 (ix2 j k) := by
  unfold val_t10
  rw [lin_at]
  refine Finset.sum_congr rfl fun k _ => ?_
  rw [at_h1]

theorem at_node (r : Fin 100000) (j : Fin 64) :
    val_t14 (F := Ideal) d1 b1 w2 b2 (ix2 r j) = nodeOf d1 b1 w2 b2 r j := by
  rw [val_t14_apply, val_t13_apply, zero_r, at_dot2, row_at]
  rfl

theorem at_mean (j : Fin 64) :
    val_t17 (F := Ideal) d1 b1 w2 b2 (ix1 j) = colMean (nodeOf d1 b1 w2 b2) j := by
  rw [val_t17_apply, val_t16_apply, val_k2_apply]
  unfold val_t15
  rw [csum_at]
  simp only [at_node]
  rfl

theorem at_cen (r : Fin 100000) (j : Fin 64) :
    val_t20 (F := Ideal) d1 b1 w2 b2 (ix2 r j) = nodeOf d1 b1 w2 b2 r j - colMean (nodeOf d1 b1 w2 b2) j := by
  rw [val_t20_apply, row_at, at_node, at_mean]
  rfl

theorem at_var (j : Fin 64) :
    val_t24 (F := Ideal) d1 b1 w2 b2 (ix1 j) = varR (nodeOf d1 b1 w2 b2) j := by
  rw [val_t24_apply, val_t16_apply, val_k2_apply]
  unfold val_t22
  rw [csum_at]
  simp only [val_t21_apply, at_cen]
  rfl

theorem at_rstd (j : Fin 64) :
    val_t30 (F := Ideal) d1 b1 w2 b2 (ix1 j) = Ideal.rsqrt (varR (nodeOf d1 b1 w2 b2) j + eps) := by
  rw [val_t30_apply, val_t29_apply, at_var, val_t28_apply, val_k5_apply]
  rfl

-- After the first linear map every layer is the same chain: node update, column mean and variance, normalisation.
theorem tail :
    val_t40 (F := Ideal) d1 b1 w2 b2 gm bt =
      arr2 (bn (nodeOf d1 b1 w2 b2) (colMean (nodeOf d1 b1 w2 b2)) (fun j => Ideal.rsqrt (varR (nodeOf d1 b1 w2 b2) j + eps)) (hat1 gm) (hat1 bt)) := by
  funext i
  obtain ⟨r, j, rfl⟩ : ∃ (r : Fin 100000) (j : Fin 64), i = ix2 r j := ⟨i 0, i 1, eq_ix2 i⟩
  rw [val_t40_apply, zero_r, val_t39_apply, val_t36_apply, val_t33_apply, val_t27_apply,
    row_at, row_at, row_at, row_at, at_node, at_mean, at_rstd]
  rfl

-- The layer, once the first product is known to be the sum over the input channels.
theorem layer_of {C : ℕ} (x ag : Fin 100000 → Fin C → EReal) (w : Fin 64 → Fin C → EReal)
    (hd : ∀ (r : Fin 100000) (k : Fin 64), d1 (ix2 r k) = ∑ a : Fin C, (one * x r a + ag r a) * w k a) :
    val_t40 (F := Ideal) d1 b1 w2 b2 gm bt = arr2 (layerR C x ag w (hat1 b1) (hat2 w2) (hat1 b2) (hat1 gm) (hat1 bt)) := by
  have e : nodeOf d1 b1 w2 b2 = node C x ag w (hat1 b1) (hat2 w2) (hat1 b2) := by
    funext r j
    unfold nodeOf node
    simp only [hd]
  rw [tail, e]
  rfl

-- A hidden layer: the first linear map over 64 input channels, then the common chain.
theorem layer :
    val_t40 (F := Ideal) (val_t4 (F := Ideal) h agg w1) b1 w2 b2 gm bt =
      arr2 (layerR 64 (hat2 h) (hat2 agg) (hat2 w1) (hat1 b1) (hat2 w2) (hat1 b2) (hat1 gm) (hat1 bt)) :=
  layer_of _ _ _ _ _ _ _ _ _ (at_dot1 h agg w1)

end

end Cert.ReferenceIdeal.Hidden

end
-- ==== Proof.RefLayers.lean ====
import proofs.«406622_j66486093742154_3_alg».proof.Proof.RefRead
import proofs.«406622_j66486093742154_3_alg».proof.Proof.RefHidden
import proofs.«406622_j66486093742154_3_alg».proof.Proof.SliceRead

noncomputable section

namespace Cert.ReferenceIdeal.RefLayer

open Cert.ReferenceIdeal Cert.ReferenceIdeal.Read Gnn Idealize.ShloMosaic Idealize.ShloMosaic.ValueIdx

section

variable (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x4 : (⟨S32x16, .f32⟩ : BufTy).Contents (Elt Ideal)) (x5 : (⟨S32, .f32⟩ : BufTy).Contents (Elt Ideal)) (x6 : (⟨S64x32, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x16 : (⟨S4x64, .f32⟩ : BufTy).Contents (Elt Ideal)) (x17 : (⟨S4x64, .f32⟩ : BufTy).Contents (Elt Ideal))

-- Layer 0's first linear map at an index: a sum over the 32 input channels.
theorem dot0 (r : Fin 100000) (k : Fin 64) :
    val_main_v29 (F := Ideal) x0 x1 x2 x4 x5 x6 (ix2 r k) = ∑ a : Fin 32, (one * hat2 x0 r a + hat2 (val_main_v24 (F := Ideal) x0 x1 x2 x4 x5) r a) * hat2 x6 k a := by
  rw [val_main_v29_apply]
  refine Finset.sum_congr rfl fun a _ => ?_
  rw [val_main_v28_apply, val_main_v27_apply, val_main_v26_apply, val_main_v25_apply, val_main_cst_1_apply,
    show lidx_main_v29 (ix2 r k) a = ix2 r a from funext fun d => Fin.ext (by match d with | ⟨0, _⟩ => rfl | ⟨1, _⟩ => rfl),
    show idx_main_v28 (ridx_main_v29 (ix2 r k) a) = ix2 k a from funext fun d => Fin.ext (by match d with | ⟨0, _⟩ => rfl | ⟨1, _⟩ => rfl)]
  rfl

theorem layer0 :
    val_main_v65 (F := Ideal) x0 x1 x2 x4 x5 x6 x7 x8 x9 x16 x17 =
      arr2 (layerR 32 (hat2 x0) (hat2 (val_main_v24 (F := Ideal) x0 x1 x2 x4 x5)) (hat2 x6) (hat1 x7) (hat2 x8) (hat1 x9) (fun j => x16 (ix2 0 j)) (fun j => x17 (ix2 0 j))) :=
  (Hidden.layer_of (val_main_v29 (F := Ideal) x0 x1 x2 x4 x5 x6) x7 x8 x9 (val_main_v5 (F := Ideal) x16) (val_main_v7 (F := Ideal) x17) (hat2 x0) (hat2 (val_main_v24 (F := Ideal) x0 x1 x2 x4 x5)) (hat2 x6) (dot0 x0 x1 x2 x4 x5 x6)).trans
    (by rw [show hat1 (val_main_v5 (F := Ideal) x16) = (fun j => x16 (ix2 0 j)) from funext fun j => row_slice _ 0 rfl x16 _ _ j,
          show hat1 (val_main_v7 (F := Ideal) x17) = (fun j => x17 (ix2 0 j)) from funext fun j => row_slice _ 0 rfl x17 _ _ j])

end

section

variable (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x4 : (⟨S32x16, .f32⟩ : BufTy).Contents (Elt Ideal)) (x5 : (⟨S32, .f32⟩ : BufTy).Contents (Elt Ideal)) (x6 : (⟨S64x32, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S3x64x16, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S3x64x64, .f32⟩ : BufTy).Contents (Elt Ideal)) (x15 : (⟨S3x64, .f32⟩ : BufTy).Contents (Elt Ideal)) (x16 : (⟨S4x64, .f32⟩ : BufTy).Contents (Elt Ideal)) (x17 : (⟨S4x64, .f32⟩ : BufTy).Contents (Elt Ideal))

theorem layer1 :
    val_main_v139 (F := Ideal) x0 x1 x2 x4 x5 x6 x7 x8 x9 x10 x11 x12 x13 x14 x15 x16 x17 =
      arr2 (layerR 64 (hat2 (val_main_v65 (F := Ideal) x0 x1 x2 x4 x5 x6 x7 x8 x9 x16 x17)) (hat2 (val_main_v98 (F := Ideal) x0 x1 x2 x4 x5 x6 x7 x8 x9 x10 x11 x16 x17)) (fun o a => x12 (ix3 0 o a)) (fun o => x13 (ix2 0 o)) (fun o a => x14 (ix3 0 o a)) (fun o => x15 (ix2 0 o)) (fun j => x16 (ix2 1 j)) (fun j => x17 (ix2 1 j))) :=
  (Hidden.layer (val_main_v65 (F := Ideal) x0 x1 x2 x4 x5 x6 x7 x8 x9 x16 x17) (val_main_v98 (F := Ideal) x0 x1 x2 x4 x5 x6 x7 x8 x9 x10 x11 x16 x17) (val_main_v71 (F := Ideal) x12) (val_main_v73 (F := Ideal) x13) (val_main_v75 (F := Ideal) x14) (val_main_v77 (F := Ideal) x15) (val_main_v79 (F := Ideal) x16) (val_main_v81 (F := Ideal) x17)).trans
    (by rw [show hat2 (val_main_v71 (F := Ideal) x12) = (fun o a => x12 (ix3 0 o a)) from funext fun o => funext fun a => mat_slice _ 0 rfl x12 _ _ o a,
          show hat1 (val_main_v73 (F := Ideal) x13) = (fun o => x13 (ix2 0 o)) from funext fun o => row_slice _ 0 rfl x13 _ _ o,
          show hat2 (val_main_v75 (F := Ideal) x14) = (fun o a => x14 (ix3 0 o a)) from funext fun o => funext fun a => mat_slice _ 0 rfl x14 _ _ o a,
          show hat1 (val_main_v77 (F := Ideal) x15) = (fun o => x15 (ix2 0 o)) from funext fun o => row_slice _ 0 rfl x15 _ _ o,
          show hat1 (val_main_v79 (F := Ideal) x16) = (fun j => x16 (ix2 1 j)) from funext fun j => row_slice _ 1 rfl x16 _ _ j,
          show hat1 (val_main_v81 (F := Ideal) x17) = (fun j => x17 (ix2 1 j)) from funext fun j => row_slice _ 1 rfl x17 _ _ j])

end

section

variable (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x4 : (⟨S32x16, .f32⟩ : BufTy).Contents (Elt Ideal)) (x5 : (⟨S32, .f32⟩ : BufTy).Contents (Elt Ideal)) (x6 : (⟨S64x32, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S3x64x16, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S3x64x64, .f32⟩ : BufTy).Contents (Elt Ideal)) (x15 : (⟨S3x64, .f32⟩ : BufTy).Contents (Elt Ideal)) (x16 : (⟨S4x64, .f32⟩ : BufTy).Contents (Elt Ideal)) (x17 : (⟨S4x64, .f32⟩ : BufTy).Contents (Elt Ideal))

theorem layer2 :
    val_main_v213 (F := Ideal) x0 x1 x2 x4 x5 x6 x7 x8 x9 x10 x11 x12 x13 x14 x15 x16 x17 =
      arr2 (layerR 64 (hat2 (val_main_v139 (F := Ideal) x0 x1 x2 x4 x5 x6 x7 x8 x9 x10 x11 x12 x13 x14 x15 x16 x17)) (hat2 (val_main_v172 (F := Ideal) x0 x1 x2 x4 x5 x6 x7 x8 x9 x10 x11 x12 x13 x14 x15 x16 x17)) (fun o a => x12 (ix3 1 o a)) (fun o => x13 (ix2 1 o)) (fun o a => x14 (ix3 1 o a)) (fun o => x15 (ix2 1 o)) (fun j => x16 (ix2 2 j)) (fun j => x17 (ix2 2 j))) :=
  (Hidden.layer (val_main_v139 (F := Ideal) x0 x1 x2 x4 x5 x6 x7 x8 x9 x10 x11 x12 x13 x14 x15 x16 x17) (val_main_v172 (F := Ideal) x0 x1 x2 x4 x5 x6 x7 x8 x9 x10 x11 x12 x13 x14 x15 x16 x17) (val_main_v145 (F := Ideal) x12) (val_main_v147 (F := Ideal) x13) (val_main_v149 (F := Ideal) x14) (val_main_v151 (F := Ideal) x15) (val_main_v153 (F := Ideal) x16) (val_main_v155 (F := Ideal) x17)).trans
    (by rw [show hat2 (val_main_v145 (F := Ideal) x12) = (fun o a => x12 (ix3 1 o a)) from funext fun o => funext fun a => mat_slice _ 1 rfl x12 _ _ o a,
          show hat1 (val_main_v147 (F := Ideal) x13) = (fun o => x13 (ix2 1 o)) from funext fun o => row_slice _ 1 rfl x13 _ _ o,
          show hat2 (val_main_v149 (F := Ideal) x14) = (fun o a => x14 (ix3 1 o a)) from funext fun o => funext fun a => mat_slice _ 1 rfl x14 _ _ o a,
          show hat1 (val_main_v151 (F := Ideal) x15) = (fun o => x15 (ix2 1 o)) from funext fun o => row_slice _ 1 rfl x15 _ _ o,
          show hat1 (val_main_v153 (F := Ideal) x16) = (fun j => x16 (ix2 2 j)) from funext fun j => row_slice _ 2 rfl x16 _ _ j,
          show hat1 (val_main_v155 (F := Ideal) x17) = (fun j => x17 (ix2 2 j)) from funext fun j => row_slice _ 2 rfl x17 _ _ j])

end

section

variable (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x4 : (⟨S32x16, .f32⟩ : BufTy).Contents (Elt Ideal)) (x5 : (⟨S32, .f32⟩ : BufTy).Contents (Elt Ideal)) (x6 : (⟨S64x32, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S3x64x16, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S3x64x64, .f32⟩ : BufTy).Contents (Elt Ideal)) (x15 : (⟨S3x64, .f32⟩ : BufTy).Contents (Elt Ideal)) (x16 : (⟨S4x64, .f32⟩ : BufTy).Contents (Elt Ideal)) (x17 : (⟨S4x64, .f32⟩ : BufTy).Contents (Elt Ideal))

theorem layer3 :
    val_main_v287 (F := Ideal) x0 x1 x2 x4 x5 x6 x7 x8 x9 x10 x11 x12 x13 x14 x15 x16 x17 =
      arr2 (layerR 64 (hat2 (val_main_v213 (F := Ideal) x0 x1 x2 x4 x5 x6 x7 x8 x9 x10 x11 x12 x13 x14 x15 x16 x17)) (hat2 (val_main_v246 (F := Ideal) x0 x1 x2 x4 x5 x6 x7 x8 x9 x10 x11 x12 x13 x14 x15 x16 x17)) (fun o a => x12 (ix3 2 o a)) (fun o => x13 (ix2 2 o)) (fun o a => x14 (ix3 2 o a)) (fun o => x15 (ix2 2 o)) (fun j => x16 (ix2 3 j)) (fun j => x17 (ix2 3 j))) :=
  (Hidden.layer (val_main_v213 (F := Ideal) x0 x1 x2 x4 x5 x6 x7 x8 x9 x10 x11 x12 x13 x14 x15 x16 x17) (val_main_v246 (F := Ideal) x0 x1 x2 x4 x5 x6 x7 x8 x9 x10 x11 x12 x13 x14 x15 x16 x17) (val_main_v219 (F := Ideal) x12) (val_main_v221 (F := Ideal) x13) (val_main_v223 (F := Ideal) x14) (val_main_v225 (F := Ideal) x15) (val_main_v227 (F := Ideal) x16) (val_main_v229 (F := Ideal) x17)).trans
    (by rw [show hat2 (val_main_v219 (F := Ideal) x12) = (fun o a => x12 (ix3 2 o a)) from funext fun o => funext fun a => mat_slice _ 2 rfl x12 _ _ o a,
          show hat1 (val_main_v221 (F := Ideal) x13) = (fun o => x13 (ix2 2 o)) from funext fun o => row_slice _ 2 rfl x13 _ _ o,
          show hat2 (val_main_v223 (F := Ideal) x14) = (fun o a => x14 (ix3 2 o a)) from funext fun o => funext fun a => mat_slice _ 2 rfl x14 _ _ o a,
          show hat1 (val_main_v225 (F := Ideal) x15) = (fun o => x15 (ix2 2 o)) from funext fun o => row_slice _ 2 rfl x15 _ _ o,
          show hat1 (val_main_v227 (F := Ideal) x16) = (fun j => x16 (ix2 3 j)) from funext fun j => row_slice _ 3 rfl x16 _ _ j,
          show hat1 (val_main_v229 (F := Ideal) x17) = (fun j => x17 (ix2 3 j)) from funext fun j => row_slice _ 3 rfl x17 _ _ j])

end

end Cert.ReferenceIdeal.RefLayer

end
-- ==== Proof.TailDef.lean ====
import proofs.«406622_j66486093742154_3_alg».proof.Proof.Gen.ReferenceIdeal
import Idealize.ShloMosaic.PureOps.Ideal

noncomputable section

namespace Cert.Tail

open Idealize.ShloMosaic Idealize.SL.Sem
open Cert.ReferenceIdeal Cert.ReferenceIdeal.Gen

def pooled (H : S100000x64.Idx → EReal) (a3 : IVec S100000 32) : S128x64.Idx → EReal :=
  (Host.divf (F := Ideal)
    (Host.scatterAdd (F := Ideal) scatter_S128x64_S100000x1_S100000x64_1_0_0_1
      (broadcastInDim S128x64 ![] bcast_S_S128x64 (constant (F := Ideal) S_ .f32 0x00000000#32))
      (broadcastInDim S100000x1 ![0] bcast_S100000_S100000x1_0 a3) (H : FVec Ideal S100000x64 .f32))
    (broadcastInDim S128x64 ![0, 1] bcast_S128x1_S128x64_0_1
      (broadcastInDim S128x1 ![0] bcast_S128_S128x1_0
        (maximumf (F := Ideal)
          (Host.scatterAdd (F := Ideal) scatter_S128_S100000x1_S100000_n_0_0_1
            (broadcastInDim S128 ![] bcast_S_S128 (constant (F := Ideal) S_ .f32 0x00000000#32))
            (broadcastInDim S100000x1 ![0] bcast_S100000_S100000x1_0 a3)
            (broadcastInDim S100000 ![] bcast_S_S100000 (constant (F := Ideal) S_ .f32 0x3F800000#32)))
          (broadcastInDim S128 ![] bcast_S_S128 (constant (F := Ideal) S_ .f32 0x3F800000#32))))) :
    FVec Ideal S128x64 .f32)

def tailOf (H : S100000x64.Idx → EReal) (a3 : IVec S100000 32) (a18 : S128x64.Idx → EReal)
    (a19 : S128.Idx → EReal) (a20 : S10x128.Idx → EReal) (a21 : S10.Idx → EReal) : S128x10.Idx → EReal :=
  (addf (F := Ideal)
    (Host.dotGeneral (F := Ideal) (φ₁ := .f32) (φ₂ := .f32) dot_S128x128_S128x10_S128x10_1_0_0_1_n_n none
      (maximumf (F := Ideal)
        (addf (F := Ideal)
          (Host.dotGeneral (F := Ideal) (φ₁ := .f32) (φ₂ := .f32) dot_S128x64_S64x128_S128x128_1_0_0_1_n_n none
            (pooled H a3 : FVec Ideal S128x64 .f32)
            (transpose S64x128 [1, 0] (a18 : FVec Ideal S128x64 .f32) transposes_S128x64_S64x128_1_0))
          (broadcastInDim S128x128 ![0, 1] bcast_S1x128_S128x128_0_1
            (broadcastInDim S1x128 ![1] bcast_S128_S1x128_1 (a19 : FVec Ideal S128 .f32))))
        (broadcastInDim S128x128 ![] bcast_S_S128x128 (constant (F := Ideal) S_ .f32 0x00000000#32)))
      (transpose S128x10 [1, 0] (a20 : FVec Ideal S10x128 .f32) transposes_S10x128_S128x10_1_0))
    (broadcastInDim S128x10 ![0, 1] bcast_S1x10_S128x10_0_1
      (broadcastInDim S1x10 ![1] bcast_S10_S1x10_1 (a21 : FVec Ideal S10 .f32))) :
    FVec Ideal S128x10 .f32)

end Cert.Tail

end
-- ==== Proof.TailOps.lean ====
import proofs.«406622_j66486093742154_3_alg».proof.Proof.TailDef
import proofs.«406622_j66486093742154_3_alg».proof.Proof.Gen.KernelIdeal.Launch

set_option maxRecDepth 16384

noncomputable section

namespace Cert.Tail

open Idealize.ShloMosaic Idealize.ShloMosaic.TcCoe Idealize.SL.Sem Idealize.ShloMosaic.StableHlo
open Cert.KernelIdeal Cert.KernelIdeal.Gen

variable (V : Valuation τ sig (Elt Ideal))

abbrev afterTail : Valuation τ sig (Elt Ideal) :=
  StableHlo.after (hostOps8_2 (F := Ideal)) (StableHlo.after (hostOps8_1 (F := Ideal)) (StableHlo.after (hostOps8 (F := Ideal)) V))

theorem afterTail_v206 :
    (afterTail V (Proc.devRef .tc main_v206) : S128x10.Idx → EReal)
      = tailOf (V (Proc.devRef .tc main_v183)) (V (Proc.devRef .tc main_arg3)) (V (Proc.devRef .tc main_arg18))
          (V (Proc.devRef .tc main_arg19)) (V (Proc.devRef .tc main_arg20)) (V (Proc.devRef .tc main_arg21)) := by
  dsimp only [afterTail, hostOps8, hostOps8_1, hostOps8_2]
  after_results_simp
  unfold tailOf pooled
  rfl

theorem afterTail_arg3 : afterTail V (Proc.devRef .tc main_arg3) = V (Proc.devRef .tc main_arg3) := by
  dsimp only [afterTail, hostOps8, hostOps8_1, hostOps8_2]
  after_results

theorem afterTail_arg18 : afterTail V (Proc.devRef .tc main_arg18) = V (Proc.devRef .tc main_arg18) := by
  dsimp only [afterTail, hostOps8, hostOps8_1, hostOps8_2]
  after_results

theorem afterTail_arg19 : afterTail V (Proc.devRef .tc main_arg19) = V (Proc.devRef .tc main_arg19) := by
  dsimp only [afterTail, hostOps8, hostOps8_1, hostOps8_2]
  after_results

theorem afterTail_arg20 : afterTail V (Proc.devRef .tc main_arg20) = V (Proc.devRef .tc main_arg20) := by
  dsimp only [afterTail, hostOps8, hostOps8_1, hostOps8_2]
  after_results

theorem afterTail_arg21 : afterTail V (Proc.devRef .tc main_arg21) = V (Proc.devRef .tc main_arg21) := by
  dsimp only [afterTail, hostOps8, hostOps8_1, hostOps8_2]
  after_results

end Cert.Tail

end
-- ==== Proof.Tail.lean ====
import proofs.«406622_j66486093742154_3_alg».proof.Proof.Gen.KernelIdeal.Frame
import proofs.«406622_j66486093742154_3_alg».proof.Proof.RefRead
import proofs.«406622_j66486093742154_3_alg».proof.Proof.Spec
import proofs.«406622_j66486093742154_3_alg».proof.Proof.TailOps

set_option maxRecDepth 16384

noncomputable section

namespace Cert.Tail

open Idealize.ShloMosaic Idealize.ShloMosaic.TcCoe Idealize.SL.Sem Idealize.ShloMosaic.StableHlo

section Ref
open Cert.ReferenceIdeal Cert.ReferenceIdeal.Read

theorem ref_tail (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S100000, .i32⟩ : BufTy).Contents (Elt Ideal)) (x4 : (⟨S32x16, .f32⟩ : BufTy).Contents (Elt Ideal)) (x5 : (⟨S32, .f32⟩ : BufTy).Contents (Elt Ideal)) (x6 : (⟨S64x32, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S3x64x16, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S3x64x64, .f32⟩ : BufTy).Contents (Elt Ideal)) (x15 : (⟨S3x64, .f32⟩ : BufTy).Contents (Elt Ideal)) (x16 x17 : (⟨S4x64, .f32⟩ : BufTy).Contents (Elt Ideal)) (x18 : (⟨S128x64, .f32⟩ : BufTy).Contents (Elt Ideal)) (x19 : (⟨S128, .f32⟩ : BufTy).Contents (Elt Ideal)) (x20 : (⟨S10x128, .f32⟩ : BufTy).Contents (Elt Ideal)) (x21 : (⟨S10, .f32⟩ : BufTy).Contents (Elt Ideal)) :
    val_main_v310 (F := Ideal) x0 x1 x2 x3 x4 x5 x6 x7 x8 x9 x10 x11 x12 x13 x14 x15 x16 x17 x18 x19 x20 x21
      = tailOf (val_main_v287 (F := Ideal) x0 x1 x2 x4 x5 x6 x7 x8 x9 x10 x11 x12 x13 x14 x15 x16 x17) x3 x18 x19 x20 x21 := by
  generalize hH : val_main_v287 (F := Ideal) x0 x1 x2 x4 x5 x6 x7 x8 x9 x10 x11 x12 x13 x14 x15 x16 x17 = H
  unfold val_main_v310 val_main_v309 val_main_v308 val_main_v307 val_main_v306 val_main_v305 val_main_call16_v0
    val_main_call16_cst val_main_v304 val_main_v303 val_main_v302 val_main_v301 val_main_v300 val_main_v299 val_main_v298
    val_main_v297 val_main_v296 val_main_v295 val_main_cst_37 val_main_v294 val_main_v293 val_main_v292 val_main_cst_36
    val_main_v291 val_main_cst_35 val_main_v290 val_main_v289 val_main_v288 val_main_cst_34
  rw [hH]
  unfold tailOf pooled
  rfl

end Ref

section Ker
open Cert.KernelIdeal Cert.KernelIdeal.Gen

variable (m : (ℓ : Loc nD τ sig) → Buf (Elt Ideal) ℓ) (ρ : Dev nD → PrngReg)

theorem ker_tail (c : Dev nD) :
    (W35 (F := Ideal) m ρ c (Proc.devRef .tc main_v206) : S128x10.Idx → EReal)
      = tailOf (W32 (F := Ideal) m ρ c (Proc.devRef .tc main_v183))
          (m ((c.tc : Thread nD τ).loc main_arg3)) (m ((c.tc : Thread nD τ).loc main_arg18))
          (m ((c.tc : Thread nD τ).loc main_arg19)) (m ((c.tc : Thread nD τ).loc main_arg20))
          (m ((c.tc : Thread nD τ).loc main_arg21)) := by
  have e3 : W32 (F := Ideal) m ρ c (Proc.devRef .tc main_arg3) = m ((c.tc : Thread nD τ).loc main_arg3) :=
    (afterTail_arg3 (W32 (F := Ideal) m ρ c)).symm.trans (W35_main_arg3 (F := Ideal) m ρ c)
  have e18 : W32 (F := Ideal) m ρ c (Proc.devRef .tc main_arg18) = m ((c.tc : Thread nD τ).loc main_arg18) :=
    (afterTail_arg18 (W32 (F := Ideal) m ρ c)).symm.trans (W35_main_arg18 (F := Ideal) m ρ c)
  have e19 : W32 (F := Ideal) m ρ c (Proc.devRef .tc main_arg19) = m ((c.tc : Thread nD τ).loc main_arg19) :=
    (afterTail_arg19 (W32 (F := Ideal) m ρ c)).symm.trans (W35_main_arg19 (F := Ideal) m ρ c)
  have e20 : W32 (F := Ideal) m ρ c (Proc.devRef .tc main_arg20) = m ((c.tc : Thread nD τ).loc main_arg20) :=
    (afterTail_arg20 (W32 (F := Ideal) m ρ c)).symm.trans (W35_main_arg20 (F := Ideal) m ρ c)
  have e21 : W32 (F := Ideal) m ρ c (Proc.devRef .tc main_arg21) = m ((c.tc : Thread nD τ).loc main_arg21) :=
    (afterTail_arg21 (W32 (F := Ideal) m ρ c)).symm.trans (W35_main_arg21 (F := Ideal) m ρ c)
  refine (afterTail_v206 (W32 (F := Ideal) m ρ c)).trans ?_
  rw [e3, e18, e19, e20, e21]

end Ker

end Cert.Tail

end
-- ==== Proof.Bridge.lean ====
import proofs.«406622_j66486093742154_3_alg».proof.Proof.Gen.KernelIdeal.Frame
import proofs.«406622_j66486093742154_3_alg».proof.Proof.RefRead
import proofs.«406622_j66486093742154_3_alg».proof.Proof.Gen.Pre_finite_inputs
import proofs.«406622_j66486093742154_3_alg».proof.Proof.SpecMath
import proofs.«406622_j66486093742154_3_alg».proof.Proof.RealOps
import proofs.«406622_j66486093742154_3_alg».proof.Proof.LayerStep
import proofs.«406622_j66486093742154_3_alg».proof.Proof.PreFacts

import proofs.«406622_j66486093742154_3_alg».proof.Proof.KLayer0
import proofs.«406622_j66486093742154_3_alg».proof.Proof.KAggVal3
import proofs.«406622_j66486093742154_3_alg».proof.Proof.AggBridge
import proofs.«406622_j66486093742154_3_alg».proof.Proof.RefReal
import proofs.«406622_j66486093742154_3_alg».proof.Proof.RefLayers
import proofs.«406622_j66486093742154_3_alg».proof.Proof.Tail

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.Read (val_main_v24 val_main_v65 val_main_v98 val_main_v139 val_main_v172 val_main_v213 val_main_v246
  val_main_v287 val_main_v310)
open Gnn (layerK layerR arr2 hat2 hat1 AllReal IsReal SrcOK layer_step)

variable (m : (ℓ : Loc nD τ sig) → Buf (Elt Ideal) ℓ) (ρ : Dev nD → PrngReg) (c : Dev nD)

abbrev A0 : (⟨Cert.ReferenceIdeal.S100000x32, .f32⟩ : BufTy).Contents (Elt Ideal) :=
  m ((c.tc : Thread nD τ).loc main_arg0)
abbrev A1 : (⟨Cert.ReferenceIdeal.S2x1600000, .i32⟩ : BufTy).Contents (Elt Ideal) :=
  m ((c.tc : Thread nD τ).loc main_arg1)
abbrev A2 : (⟨Cert.ReferenceIdeal.S1600000x16, .f32⟩ : BufTy).Contents (Elt Ideal) :=
  m ((c.tc : Thread nD τ).loc main_arg2)
abbrev A3 : (⟨Cert.ReferenceIdeal.S100000, .i32⟩ : BufTy).Contents (Elt Ideal) :=
  m ((c.tc : Thread nD τ).loc main_arg3)
abbrev A4 : (⟨Cert.ReferenceIdeal.S32x16, .f32⟩ : BufTy).Contents (Elt Ideal) :=
  m ((c.tc : Thread nD τ).loc main_arg4)
abbrev A5 : (⟨Cert.ReferenceIdeal.S32, .f32⟩ : BufTy).Contents (Elt Ideal) :=
  m ((c.tc : Thread nD τ).loc main_arg5)
abbrev A6 : (⟨Cert.ReferenceIdeal.S64x32, .f32⟩ : BufTy).Contents (Elt Ideal) :=
  m ((c.tc : Thread nD τ).loc main_arg6)
abbrev A7 : (⟨Cert.ReferenceIdeal.S64, .f32⟩ : BufTy).Contents (Elt Ideal) :=
  m ((c.tc : Thread nD τ).loc main_arg7)
abbrev A8 : (⟨Cert.ReferenceIdeal.S64x64, .f32⟩ : BufTy).Contents (Elt Ideal) :=
  m ((c.tc : Thread nD τ).loc main_arg8)
abbrev A9 : (⟨Cert.ReferenceIdeal.S64, .f32⟩ : BufTy).Contents (Elt Ideal) :=
  m ((c.tc : Thread nD τ).loc main_arg9)
abbrev A10 : (⟨Cert.ReferenceIdeal.S3x64x16, .f32⟩ : BufTy).Contents (Elt Ideal) :=
  m ((c.tc : Thread nD τ).loc main_arg10)
abbrev A11 : (⟨Cert.ReferenceIdeal.S3x64, .f32⟩ : BufTy).Contents (Elt Ideal) :=
  m ((c.tc : Thread nD τ).loc main_arg11)
abbrev A12 : (⟨Cert.ReferenceIdeal.S3x64x64, .f32⟩ : BufTy).Contents (Elt Ideal) :=
  m ((c.tc : Thread nD τ).loc main_arg12)
abbrev A13 : (⟨Cert.ReferenceIdeal.S3x64, .f32⟩ : BufTy).Contents (Elt Ideal) :=
  m ((c.tc : Thread nD τ).loc main_arg13)
abbrev A14 : (⟨Cert.ReferenceIdeal.S3x64x64, .f32⟩ : BufTy).Contents (Elt Ideal) :=
  m ((c.tc : Thread nD τ).loc main_arg14)
abbrev A15 : (⟨Cert.ReferenceIdeal.S3x64, .f32⟩ : BufTy).Contents (Elt Ideal) :=
  m ((c.tc : Thread nD τ).loc main_arg15)
abbrev A16 : (⟨Cert.ReferenceIdeal.S4x64, .f32⟩ : BufTy).Contents (Elt Ideal) :=
  m ((c.tc : Thread nD τ).loc main_arg16)
abbrev A17 : (⟨Cert.ReferenceIdeal.S4x64, .f32⟩ : BufTy).Contents (Elt Ideal) :=
  m ((c.tc : Thread nD τ).loc main_arg17)
abbrev A18 : (⟨Cert.ReferenceIdeal.S128x64, .f32⟩ : BufTy).Contents (Elt Ideal) :=
  m ((c.tc : Thread nD τ).loc main_arg18)
abbrev A19 : (⟨Cert.ReferenceIdeal.S128, .f32⟩ : BufTy).Contents (Elt Ideal) :=
  m ((c.tc : Thread nD τ).loc main_arg19)
abbrev A20 : (⟨Cert.ReferenceIdeal.S10x128, .f32⟩ : BufTy).Contents (Elt Ideal) :=
  m ((c.tc : Thread nD τ).loc main_arg20)
abbrev A21 : (⟨Cert.ReferenceIdeal.S10, .f32⟩ : BufTy).Contents (Elt Ideal) :=
  m ((c.tc : Thread nD τ).loc main_arg21)

abbrev G0 : S100000x32.Idx → EReal := W5 (F := Ideal) m ρ c (Proc.devRef .tc main_v18)
abbrev K0 : S100000x64.Idx → EReal := W8 (F := Ideal) m ρ c (Proc.devRef .tc main_v39)
abbrev G1 : S100000x64.Idx → EReal := W13 (F := Ideal) m ρ c (Proc.devRef .tc main_v66)
abbrev K1 : S100000x64.Idx → EReal := W16 (F := Ideal) m ρ c (Proc.devRef .tc main_v87)
abbrev G2 : S100000x64.Idx → EReal := W21 (F := Ideal) m ρ c (Proc.devRef .tc main_v114)
abbrev K2 : S100000x64.Idx → EReal := W24 (F := Ideal) m ρ c (Proc.devRef .tc main_v135)
abbrev G3 : S100000x64.Idx → EReal := W29 (F := Ideal) m ρ c (Proc.devRef .tc main_v162)
abbrev K3 : S100000x64.Idx → EReal := W32 (F := Ideal) m ρ c (Proc.devRef .tc main_v183)

abbrev KT : S128x10.Idx → EReal := W35 (F := Ideal) m ρ c (Proc.devRef .tc main_v206)

abbrev S0 : S100000x32.Idx → EReal := val_main_v24 (F := Ideal) (A0 m c) (A1 m c) (A2 m c) (A4 m c) (A5 m c)
abbrev R0 : S100000x64.Idx → EReal := val_main_v65 (F := Ideal) (A0 m c) (A1 m c) (A2 m c) (A4 m c) (A5 m c) (A6 m c) (A7 m c) (A8 m c) (A9 m c) (A16 m c) (A17 m c)
abbrev S1 : S100000x64.Idx → EReal := val_main_v98 (F := Ideal) (A0 m c) (A1 m c) (A2 m c) (A4 m c) (A5 m c) (A6 m c) (A7 m c) (A8 m c) (A9 m c) (A10 m c) (A11 m c) (A16 m c) (A17 m c)
abbrev R1 : S100000x64.Idx → EReal := val_main_v139 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c)
abbrev S2 : S100000x64.Idx → EReal := val_main_v172 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c)
abbrev R2 : S100000x64.Idx → EReal := val_main_v213 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c)
abbrev S3 : S100000x64.Idx → EReal := val_main_v246 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c)
abbrev R3 : S100000x64.Idx → EReal := val_main_v287 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c)

theorem layers
    (hpre : Cert.Pre_finite_inputs.fn (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) = fun _ => 1#1)
    (HK0 : K0 m ρ c = arr2 (layerK 32 (hat2 (A0 m c)) (hat2 (G0 m ρ c)) (hat2 (A6 m c)) (hat1 (A7 m c)) (hat2 (A8 m c)) (hat1 (A9 m c)) (fun j => (A16 m c) (ix2 0 j)) (fun j => (A17 m c) (ix2 0 j))))
    (HR0 : R0 m c = arr2 (layerR 32 (hat2 (A0 m c)) (hat2 (S0 m c)) (hat2 (A6 m c)) (hat1 (A7 m c)) (hat2 (A8 m c)) (hat1 (A9 m c)) (fun j => (A16 m c) (ix2 0 j)) (fun j => (A17 m c) (ix2 0 j))))
    (HG0 : SrcOK (A1 m c) → G0 m ρ c = S0 m c)
    (HS0 : AllReal (A0 m c) → AllReal (A2 m c) → AllReal (A4 m c) → AllReal (A5 m c) → AllReal (S0 m c))
    (HK1 : K1 m ρ c = arr2 (layerK 64 (hat2 (K0 m ρ c)) (hat2 (G1 m ρ c)) (fun o a => (A12 m c) (ix3 0 o a)) (fun o => (A13 m c) (ix2 0 o)) (fun o a => (A14 m c) (ix3 0 o a)) (fun o => (A15 m c) (ix2 0 o)) (fun j => (A16 m c) (ix2 1 j)) (fun j => (A17 m c) (ix2 1 j))))
    (HR1 : R1 m c = arr2 (layerR 64 (hat2 (R0 m c)) (hat2 (S1 m c)) (fun o a => (A12 m c) (ix3 0 o a)) (fun o => (A13 m c) (ix2 0 o)) (fun o a => (A14 m c) (ix3 0 o a)) (fun o => (A15 m c) (ix2 0 o)) (fun j => (A16 m c) (ix2 1 j)) (fun j => (A17 m c) (ix2 1 j))))
    (HG1 : SrcOK (A1 m c) → R0 m c = K0 m ρ c → G1 m ρ c = S1 m c)
    (HS1 : AllReal (R0 m c) → AllReal (A2 m c) → AllReal (A10 m c) → AllReal (A11 m c) → AllReal (S1 m c))
    (HK2 : K2 m ρ c = arr2 (layerK 64 (hat2 (K1 m ρ c)) (hat2 (G2 m ρ c)) (fun o a => (A12 m c) (ix3 1 o a)) (fun o => (A13 m c) (ix2 1 o)) (fun o a => (A14 m c) (ix3 1 o a)) (fun o => (A15 m c) (ix2 1 o)) (fun j => (A16 m c) (ix2 2 j)) (fun j => (A17 m c) (ix2 2 j))))
    (HR2 : R2 m c = arr2 (layerR 64 (hat2 (R1 m c)) (hat2 (S2 m c)) (fun o a => (A12 m c) (ix3 1 o a)) (fun o => (A13 m c) (ix2 1 o)) (fun o a => (A14 m c) (ix3 1 o a)) (fun o => (A15 m c) (ix2 1 o)) (fun j => (A16 m c) (ix2 2 j)) (fun j => (A17 m c) (ix2 2 j))))
    (HG2 : SrcOK (A1 m c) → R1 m c = K1 m ρ c → G2 m ρ c = S2 m c)
    (HS2 : AllReal (R1 m c) → AllReal (A2 m c) → AllReal (A10 m c) → AllReal (A11 m c) → AllReal (S2 m c))
    (HK3 : K3 m ρ c = arr2 (layerK 64 (hat2 (K2 m ρ c)) (hat2 (G3 m ρ c)) (fun o a => (A12 m c) (ix3 2 o a)) (fun o => (A13 m c) (ix2 2 o)) (fun o a => (A14 m c) (ix3 2 o a)) (fun o => (A15 m c) (ix2 2 o)) (fun j => (A16 m c) (ix2 3 j)) (fun j => (A17 m c) (ix2 3 j))))
    (HR3 : R3 m c = arr2 (layerR 64 (hat2 (R2 m c)) (hat2 (S3 m c)) (fun o a => (A12 m c) (ix3 2 o a)) (fun o => (A13 m c) (ix2 2 o)) (fun o a => (A14 m c) (ix3 2 o a)) (fun o => (A15 m c) (ix2 2 o)) (fun j => (A16 m c) (ix2 3 j)) (fun j => (A17 m c) (ix2 3 j))))
    (HG3 : SrcOK (A1 m c) → R2 m c = K2 m ρ c → G3 m ρ c = S3 m c)
    (HS3 : AllReal (R2 m c) → AllReal (A2 m c) → AllReal (A10 m c) → AllReal (A11 m c) → AllReal (S3 m c)) :
    K3 m ρ c = R3 m c := by
  obtain ⟨r0, r2, r4, r5, r6, r7, r8, r9, r10, r11, r12, r13, r14, r15, r16, r17, -, -, -, -, hs⟩ :=
    Cert.PreFacts.decode (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) hpre
  have L0 := layer_step 32 (X := (A0 m c)) (Rp := (A0 m c)) (G := G0 m ρ c) (S := S0 m c) HK0 HR0 rfl (HG0 hs) r0
    (HS0 r0 r2 r4 r5) (fun _ _ => r6 _) (fun _ => r7 _) (fun _ _ => r8 _) (fun _ => r9 _) (fun _ => r16 _) (fun _ => r17 _)
  have L1 := layer_step 64 (X := K0 m ρ c) (Rp := R0 m c) (G := G1 m ρ c) (S := S1 m c) HK1 HR1 L0.1 (HG1 hs L0.1.symm) L0.2
    (HS1 L0.2 r2 r10 r11) (fun _ _ => r12 _) (fun _ => r13 _) (fun _ _ => r14 _) (fun _ => r15 _) (fun _ => r16 _) (fun _ => r17 _)
  have L2 := layer_step 64 (X := K1 m ρ c) (Rp := R1 m c) (G := G2 m ρ c) (S := S2 m c) HK2 HR2 L1.1 (HG2 hs L1.1.symm) L1.2
    (HS2 L1.2 r2 r10 r11) (fun _ _ => r12 _) (fun _ => r13 _) (fun _ _ => r14 _) (fun _ => r15 _) (fun _ => r16 _) (fun _ => r17 _)
  have L3 := layer_step 64 (X := K2 m ρ c) (Rp := R2 m c) (G := G3 m ρ c) (S := S3 m c) HK3 HR3 L2.1 (HG3 hs L2.1.symm) L2.2
    (HS3 L2.2 r2 r10 r11) (fun _ _ => r12 _) (fun _ => r13 _) (fun _ _ => r14 _) (fun _ => r15 _) (fun _ => r16 _) (fun _ => r17 _)
  exact L3.1

theorem result_eq
    (hpre : Cert.Pre_finite_inputs.fn (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) = fun _ => 1#1)
    (HK1 : K1 m ρ c = arr2 (layerK 64 (hat2 (K0 m ρ c)) (hat2 (G1 m ρ c)) (fun o a => (A12 m c) (ix3 0 o a)) (fun o => (A13 m c) (ix2 0 o)) (fun o a => (A14 m c) (ix3 0 o a)) (fun o => (A15 m c) (ix2 0 o)) (fun j => (A16 m c) (ix2 1 j)) (fun j => (A17 m c) (ix2 1 j))))
    (HK2 : K2 m ρ c = arr2 (layerK 64 (hat2 (K1 m ρ c)) (hat2 (G2 m ρ c)) (fun o a => (A12 m c) (ix3 1 o a)) (fun o => (A13 m c) (ix2 1 o)) (fun o a => (A14 m c) (ix3 1 o a)) (fun o => (A15 m c) (ix2 1 o)) (fun j => (A16 m c) (ix2 2 j)) (fun j => (A17 m c) (ix2 2 j))))
    (HK3 : K3 m ρ c = arr2 (layerK 64 (hat2 (K2 m ρ c)) (hat2 (G3 m ρ c)) (fun o a => (A12 m c) (ix3 2 o a)) (fun o => (A13 m c) (ix2 2 o)) (fun o a => (A14 m c) (ix3 2 o a)) (fun o => (A15 m c) (ix2 2 o)) (fun j => (A16 m c) (ix2 3 j)) (fun j => (A17 m c) (ix2 3 j))))
    (x0 : (⟨Cert.ReferenceIdeal.S100000x32, .f32⟩ : BufTy).Contents (Elt Ideal))
    (x1 : (⟨Cert.ReferenceIdeal.S2x1600000, .i32⟩ : BufTy).Contents (Elt Ideal))
    (x2 : (⟨Cert.ReferenceIdeal.S1600000x16, .f32⟩ : BufTy).Contents (Elt Ideal))
    (x3 : (⟨Cert.ReferenceIdeal.S100000, .i32⟩ : BufTy).Contents (Elt Ideal))
    (x4 : (⟨Cert.ReferenceIdeal.S32x16, .f32⟩ : BufTy).Contents (Elt Ideal))
    (x5 : (⟨Cert.ReferenceIdeal.S32, .f32⟩ : BufTy).Contents (Elt Ideal))
    (x6 : (⟨Cert.ReferenceIdeal.S64x32, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S3x64x16, .f32⟩ : BufTy).Contents (Elt Ideal))
    (x11 : (⟨Cert.ReferenceIdeal.S3x64, .f32⟩ : BufTy).Contents (Elt Ideal))
    (x12 : (⟨Cert.ReferenceIdeal.S3x64x64, .f32⟩ : BufTy).Contents (Elt Ideal))
    (x13 : (⟨Cert.ReferenceIdeal.S3x64, .f32⟩ : BufTy).Contents (Elt Ideal))
    (x14 : (⟨Cert.ReferenceIdeal.S3x64x64, .f32⟩ : BufTy).Contents (Elt Ideal))
    (x15 : (⟨Cert.ReferenceIdeal.S3x64, .f32⟩ : BufTy).Contents (Elt Ideal))
    (x16 : (⟨Cert.ReferenceIdeal.S4x64, .f32⟩ : BufTy).Contents (Elt Ideal))
    (x17 : (⟨Cert.ReferenceIdeal.S4x64, .f32⟩ : BufTy).Contents (Elt Ideal))
    (x18 : (⟨Cert.ReferenceIdeal.S128x64, .f32⟩ : BufTy).Contents (Elt Ideal))
    (x19 : (⟨Cert.ReferenceIdeal.S128, .f32⟩ : BufTy).Contents (Elt Ideal))
    (x20 : (⟨Cert.ReferenceIdeal.S10x128, .f32⟩ : BufTy).Contents (Elt Ideal))
    (x21 : (⟨Cert.ReferenceIdeal.S10, .f32⟩ : BufTy).Contents (Elt Ideal))
    (e0 : x0 = A0 m c) (e1 : x1 = A1 m c) (e2 : x2 = A2 m c) (e3 : x3 = A3 m c) (e4 : x4 = A4 m c) (e5 : x5 = A5 m c) (e6 : x6 = A6 m c) (e7 : x7 = A7 m c) (e8 : x8 = A8 m c) (e9 : x9 = A9 m c) (e10 : x10 = A10 m c) (e11 : x11 = A11 m c) (e12 : x12 = A12 m c) (e13 : x13 = A13 m c) (e14 : x14 = A14 m c) (e15 : x15 = A15 m c) (e16 : x16 = A16 m c) (e17 : x17 = A17 m c) (e18 : x18 = A18 m c) (e19 : x19 = A19 m c) (e20 : x20 = A20 m c) (e21 : x21 = A21 m c) :
    KT m ρ c = val_main_v310 (F := Ideal) x0 x1 x2 x3 x4 x5 x6 x7 x8 x9 x10 x11 x12 x13 x14 x15 x16 x17 x18 x19 x20 x21 := by
  subst e0 e1 e2 e3 e4 e5 e6 e7 e8 e9 e10 e11 e12 e13 e14 e15 e16 e17 e18 e19 e20 e21
  have hL : K3 m ρ c = R3 m c :=
    layers m ρ c hpre
      (Cert.KernelIdeal.KLayer.layer0 m ρ c) (Cert.ReferenceIdeal.RefLayer.layer0 _ _ _ _ _ _ _ _ _ _ _)
      (fun hs => (Cert.KernelIdeal.KAggVal.agg0 m ρ c).trans (Cert.AggBridge.agg0_eq _ _ _ _ _ hs))
      (Cert.ReferenceIdeal.RefReal.agg0_real _ _ _ _ _)
      HK1 (Cert.ReferenceIdeal.RefLayer.layer1 _ _ _ _ _ _ _ _ _ _ _ _ _ _ _ _ _)
      (fun hs hX => (Cert.KernelIdeal.KAggVal.agg1 m ρ c).trans (Cert.AggBridge.agg1_eq _ _ _ _ _ _ _ _ _ _ _ _ _ _ hs hX))
      (Cert.ReferenceIdeal.RefReal.agg1_real _ _ _ _ _ _ _ _ _ _ _ _ _)
      HK2 (Cert.ReferenceIdeal.RefLayer.layer2 _ _ _ _ _ _ _ _ _ _ _ _ _ _ _ _ _)
      (fun hs hX => (Cert.KernelIdeal.KAggVal.agg2 m ρ c).trans (Cert.AggBridge.agg2_eq _ _ _ _ _ _ _ _ _ _ _ _ _ _ _ _ _ _ hs hX))
      (Cert.ReferenceIdeal.RefReal.agg2_real _ _ _ _ _ _ _ _ _ _ _ _ _ _ _ _ _)
      HK3 (Cert.ReferenceIdeal.RefLayer.layer3 _ _ _ _ _ _ _ _ _ _ _ _ _ _ _ _ _)
      (fun hs hX => (Cert.KernelIdeal.KAggVal.agg3 m ρ c).trans (Cert.AggBridge.agg3_eq _ _ _ _ _ _ _ _ _ _ _ _ _ _ _ _ _ _ hs hX))
      (Cert.ReferenceIdeal.RefReal.agg3_real _ _ _ _ _ _ _ _ _ _ _ _ _ _ _ _ _)
  exact (Cert.Tail.ker_tail m ρ c).trans
    ((congrArg (fun H => Cert.Tail.tailOf H (A3 m c) (A18 m c) (A19 m c) (A20 m c) (A21 m c)) hL).trans
      (Cert.Tail.ref_tail (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c)).symm)

end Cert.Bridge

end
-- ==== Proof.lean ====
import proofs.«406622_j66486093742154_3_alg».proof.Defs
import proofs.«406622_j66486093742154_3_alg».proof.Proof.Gen.Kernel
import proofs.«406622_j66486093742154_3_alg».proof.Proof.Gen.Kernel.Skeleton
import proofs.«406622_j66486093742154_3_alg».proof.Proof.Gen.Kernel.Launch
import proofs.«406622_j66486093742154_3_alg».proof.Proof.Gen.Kernel.Points
import proofs.«406622_j66486093742154_3_alg».proof.Proof.Gen.Kernel.Frame
import proofs.«406622_j66486093742154_3_alg».proof.Proof.Gen.KernelIdeal
import proofs.«406622_j66486093742154_3_alg».proof.Proof.Gen.KernelIdeal.Skeleton
import proofs.«406622_j66486093742154_3_alg».proof.Proof.Gen.KernelIdeal.Launch
import proofs.«406622_j66486093742154_3_alg».proof.Proof.Gen.KernelIdeal.Points
import proofs.«406622_j66486093742154_3_alg».proof.Proof.Gen.KernelIdeal.Frame
import proofs.«406622_j66486093742154_3_alg».proof.Proof.Gen.ReferenceIdeal
import proofs.«406622_j66486093742154_3_alg».proof.Proof.Gen.Pre_finite_inputs
import Idealize.ShloMosaic.Adequacy
import Idealize.ShloMosaic.Init
import proofs.«406622_j66486093742154_3_alg».proof.Proof.RefRead
import proofs.«406622_j66486093742154_3_alg».proof.Proof.RefRunC
import proofs.«406622_j66486093742154_3_alg».proof.Proof.RefFold
import proofs.«406622_j66486093742154_3_alg».proof.Proof.KRun
import proofs.«406622_j66486093742154_3_alg».proof.Proof.KLayer1
import proofs.«406622_j66486093742154_3_alg».proof.Proof.KLayer2
import proofs.«406622_j66486093742154_3_alg».proof.Proof.KLayer3
import proofs.«406622_j66486093742154_3_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W35 (F := Ideal) m ρ c (Proc.devRef .tc Cert.KernelIdeal.main_v206),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefFold.fold_eq m' c).trans ?_
  obtain ⟨e0, e1, e2, e3, e4, e5, e6, e7, e8, e9, e10, e11, e12, e13, e14, e15, e16, e17, e18, e19, e20, e21⟩ := hagree c
  exact (Cert.Bridge.result_eq m ρ c (hpre c) (Cert.KernelIdeal.KLayer.layer1 m ρ c) (Cert.KernelIdeal.KLayer.layer2 m ρ c)
    (Cert.KernelIdeal.KLayer.layer3 m ρ c) _ _ _ _ _ _ _ _ _ _ _ _ _ _ _ _ _ _ _ _ _ _ e0 e1 e2 e3 e4 e5 e6 e7 e8 e9 e10 e11 e12 e13 e14 e15 e16 e17 e18 e19 e20 e21).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
